-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S300000x16 : Shape := ⟨2, ![300000, 16]⟩
abbrev S64x128 : Shape := ⟨2, ![64, 128]⟩
abbrev S128 : Shape := ⟨1, ![128]⟩
abbrev S128x128 : Shape := ⟨2, ![128, 128]⟩
abbrev S80x128 : Shape := ⟨2, ![80, 128]⟩
abbrev S144x128 : Shape := ⟨2, ![144, 128]⟩
abbrev S50000x1 : Shape := ⟨2, ![50000, 1]⟩
abbrev S50000x2 : Shape := ⟨2, ![50000, 2]⟩
abbrev S50000x3 : Shape := ⟨2, ![50000, 3]⟩
abbrev S50000x4 : Shape := ⟨2, ![50000, 4]⟩
abbrev S200000 : Shape := ⟨1, ![200000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S300000x16 : S_.BroadcastsInDim S300000x16 (![] : Fin 0 → Fin S300000x16.rank)
  reducesTo_S300000x16_S_d0_1 : S300000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S80x128 : S_.BroadcastsInDim S80x128 (![] : Fin 0 → Fin S80x128.rank)
  reducesTo_S80x128_S_d0_1 : S80x128.ReducesTo [0, 1] S_
  bcast_S_S144x128 : S_.BroadcastsInDim S144x128 (![] : Fin 0 → Fin S144x128.rank)
  reducesTo_S144x128_S_d0_1 : S144x128.ReducesTo [0, 1] S_
  bcast_S_S50000x1 : S_.BroadcastsInDim S50000x1 (![] : Fin 0 → Fin S50000x1.rank)
  reducesTo_S50000x1_S_d0_1 : S50000x1.ReducesTo [0, 1] S_
  bcast_S_S50000x2 : S_.BroadcastsInDim S50000x2 (![] : Fin 0 → Fin S50000x2.rank)
  reducesTo_S50000x2_S_d0_1 : S50000x2.ReducesTo [0, 1] S_
  bcast_S_S50000x3 : S_.BroadcastsInDim S50000x3 (![] : Fin 0 → Fin S50000x3.rank)
  reducesTo_S50000x3_S_d0_1 : S50000x3.ReducesTo [0, 1] S_
  bcast_S_S50000x4 : S_.BroadcastsInDim S50000x4 (![] : Fin 0 → Fin S50000x4.rank)
  reducesTo_S50000x4_S_d0_1 : S50000x4.ReducesTo [0, 1] S_

variable [Facts]

def fn_part9 {F : FTy → Type} [FloatOps F] (main_v147 : IVec S_ 1) (main_v152 : IVec S50000x4 1) : IVec S_ 1 :=
  let main_c_61 : IVec S_ 1 := constantI S_ 1 1#1
  let main_v153 : IVec S_ 1 := (fun x v => Host.reduce IntOp.andi x v reducesTo_S50000x4_S_d0_1 h_S_) main_v152 main_c_61
  let main_v154 : IVec S_ 1 := andi main_v147 main_v153
  main_v154

def fn_part8 {F : FTy → Type} [FloatOps F] (main_arg25 : IVec S50000x2 32) (main_arg26 : IVec S50000x3 32) (main_arg27 : IVec S50000x4 32) (main_v133 : IVec S_ 1) (main_v135 : IVec S50000x2 1) : IVec S_ 1 :=
  let main_c_54 : IVec S_ 32 := constantI S_ 32 300000#32
  let main_v136 : IVec S50000x2 32 := broadcastInDim S50000x2 ![] bcast_S_S50000x2 main_c_54
  let main_v137 : IVec S50000x2 1 := cmpi .slt main_arg25 main_v136
  let main_v138 : IVec S50000x2 1 := andi main_v135 main_v137
  let main_c_55 : IVec S_ 1 := constantI S_ 1 1#1
  let main_v139 : IVec S_ 1 := (fun x v => Host.reduce IntOp.andi x v reducesTo_S50000x2_S_d0_1 h_S_) main_v138 main_c_55
  let main_v140 : IVec S_ 1 := andi main_v133 main_v139
  let main_c_56 : IVec S_ 32 := constantI S_ 32 0#32
  let main_v141 : IVec S50000x3 32 := broadcastInDim S50000x3 ![] bcast_S_S50000x3 main_c_56
  let main_v142 : IVec S50000x3 1 := cmpi .sge main_arg26 main_v141
  let main_c_57 : IVec S_ 32 := constantI S_ 32 300000#32
  let main_v143 : IVec S50000x3 32 := broadcastInDim S50000x3 ![] bcast_S_S50000x3 main_c_57
  let main_v144 : IVec S50000x3 1 := cmpi .slt main_arg26 main_v143
  let main_v145 : IVec S50000x3 1 := andi main_v142 main_v144
  let main_c_58 : IVec S_ 1 := constantI S_ 1 1#1
  let main_v146 : IVec S_ 1 := (fun x v => Host.reduce IntOp.andi x v reducesTo_S50000x3_S_d0_1 h_S_) main_v145 main_c_58
  let main_v147 : IVec S_ 1 := andi main_v140 main_v146
  let main_c_59 : IVec S_ 32 := constantI S_ 32 0#32
  let main_v148 : IVec S50000x4 32 := broadcastInDim S50000x4 ![] bcast_S_S50000x4 main_c_59
  let main_v149 : IVec S50000x4 1 := cmpi .sge main_arg27 main_v148
  let main_c_60 : IVec S_ 32 := constantI S_ 32 300000#32
  let main_v150 : IVec S50000x4 32 := broadcastInDim S50000x4 ![] bcast_S_S50000x4 main_c_60
  let main_v151 : IVec S50000x4 1 := cmpi .slt main_arg27 main_v150
  let main_v152 : IVec S50000x4 1 := andi main_v149 main_v151
  fn_part9 (F := F) main_v147 main_v152

def fn_part7 {F : FTy → Type} [FloatOps F] (main_arg23 : IVec S50000x4 32) (main_arg24 : IVec S50000x1 32) (main_arg25 : IVec S50000x2 32) (main_arg26 : IVec S50000x3 32) (main_arg27 : IVec S50000x4 32) (main_v112 : IVec S_ 1) (main_v118 : IVec S_ 1) : IVec S_ 1 :=
  let main_v119 : IVec S_ 1 := andi main_v112 main_v118
  let main_c_47 : IVec S_ 32 := constantI S_ 32 0#32
  let main_v120 : IVec S50000x4 32 := broadcastInDim S50000x4 ![] bcast_S_S50000x4 main_c_47
  let main_v121 : IVec S50000x4 1 := cmpi .sge main_arg23 main_v120
  let main_c_48 : IVec S_ 32 := constantI S_ 32 200000#32
  let main_v122 : IVec S50000x4 32 := broadcastInDim S50000x4 ![] bcast_S_S50000x4 main_c_48
  let main_v123 : IVec S50000x4 1 := cmpi .slt main_arg23 main_v122
  let main_v124 : IVec S50000x4 1 := andi main_v121 main_v123
  let main_c_49 : IVec S_ 1 := constantI S_ 1 1#1
  let main_v125 : IVec S_ 1 := (fun x v => Host.reduce IntOp.andi x v reducesTo_S50000x4_S_d0_1 h_S_) main_v124 main_c_49
  let main_v126 : IVec S_ 1 := andi main_v119 main_v125
  let main_c_50 : IVec S_ 32 := constantI S_ 32 0#32
  let main_v127 : IVec S50000x1 32 := broadcastInDim S50000x1 ![] bcast_S_S50000x1 main_c_50
  let main_v128 : IVec S50000x1 1 := cmpi .sge main_arg24 main_v127
  let main_c_51 : IVec S_ 32 := constantI S_ 32 300000#32
  let main_v129 : IVec S50000x1 32 := broadcastInDim S50000x1 ![] bcast_S_S50000x1 main_c_51
  let main_v130 : IVec S50000x1 1 := cmpi .slt main_arg24 main_v129
  let main_v131 : IVec S50000x1 1 := andi main_v128 main_v130
  let main_c_52 : IVec S_ 1 := constantI S_ 1 1#1
  let main_v132 : IVec S_ 1 := (fun x v => Host.reduce IntOp.andi x v reducesTo_S50000x1_S_d0_1 h_S_) main_v131 main_c_52
  let main_v133 : IVec S_ 1 := andi main_v126 main_v132
  let main_c_53 : IVec S_ 32 := constantI S_ 32 0#32
  let main_v134 : IVec S50000x2 32 := broadcastInDim S50000x2 ![] bcast_S_S50000x2 main_c_53
  let main_v135 : IVec S50000x2 1 := cmpi .sge main_arg25 main_v134
  fn_part8 (F := F) main_arg25 main_arg26 main_arg27 main_v133 main_v135

def fn_part6 {F : FTy → Type} [FloatOps F] (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_v98 : IVec S_ 1) (main_v100 : IVec S50000x1 1) (main_v101 : IVec S50000x1 32) : IVec S_ 1 :=
  let main_v102 : IVec S50000x1 1 := cmpi .slt main_arg20 main_v101
  let main_v103 : IVec S50000x1 1 := andi main_v100 main_v102
  let main_c_40 : IVec S_ 1 := constantI S_ 1 1#1
  let main_v104 : IVec S_ 1 := (fun x v => Host.reduce IntOp.andi x v reducesTo_S50000x1_S_d0_1 h_S_) main_v103 main_c_40
  let main_v105 : IVec S_ 1 := andi main_v98 main_v104
  let main_c_41 : IVec S_ 32 := constantI S_ 32 0#32
  let main_v106 : IVec S50000x2 32 := broadcastInDim S50000x2 ![] bcast_S_S50000x2 main_c_41
  let main_v107 : IVec S50000x2 1 := cmpi .sge main_arg21 main_v106
  let main_c_42 : IVec S_ 32 := constantI S_ 32 200000#32
  let main_v108 : IVec S50000x2 32 := broadcastInDim S50000x2 ![] bcast_S_S50000x2 main_c_42
  let main_v109 : IVec S50000x2 1 := cmpi .slt main_arg21 main_v108
  let main_v110 : IVec S50000x2 1 := andi main_v107 main_v109
  let main_c_43 : IVec S_ 1 := constantI S_ 1 1#1
  let main_v111 : IVec S_ 1 := (fun x v => Host.reduce IntOp.andi x v reducesTo_S50000x2_S_d0_1 h_S_) main_v110 main_c_43
  let main_v112 : IVec S_ 1 := andi main_v105 main_v111
  let main_c_44 : IVec S_ 32 := constantI S_ 32 0#32
  let main_v113 : IVec S50000x3 32 := broadcastInDim S50000x3 ![] bcast_S_S50000x3 main_c_44
  let main_v114 : IVec S50000x3 1 := cmpi .sge main_arg22 main_v113
  let main_c_45 : IVec S_ 32 := constantI S_ 32 200000#32
  let main_v115 : IVec S50000x3 32 := broadcastInDim S50000x3 ![] bcast_S_S50000x3 main_c_45
  let main_v116 : IVec S50000x3 1 := cmpi .slt main_arg22 main_v115
  let main_v117 : IVec S50000x3 1 := andi main_v114 main_v116
  let main_c_46 : IVec S_ 1 := constantI S_ 1 1#1
  let main_v118 : IVec S_ 1 := (fun x v => Host.reduce IntOp.andi x v reducesTo_S50000x3_S_d0_1 h_S_) main_v117 main_c_46
  fn_part7 (F := F) main_arg23 main_arg24 main_arg25 main_arg26 main_arg27 main_v112 main_v118

def fn_part5 {F : FTy → Type} [FloatOps F] (main_arg18 : FVec F S144x128 .f32) (main_arg19 : FVec F S144x128 .f32) (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_v83 : IVec S_ 1) (main_v84 : FVec F S144x128 .f32) (main_cst_32 : FVec F S_ .f32) : IVec S_ 1 :=
  let main_v85 : FVec F S144x128 .f32 := broadcastInDim S144x128 ![] bcast_S_S144x128 main_cst_32
  let main_v86 : IVec S144x128 1 := cmpf .olt main_v84 main_v85
  let main_c_33 : IVec S_ 1 := constantI S_ 1 1#1
  let main_v87 : IVec S_ 1 := (fun x v => Host.reduce IntOp.andi x v reducesTo_S144x128_S_d0_1 h_S_) main_v86 main_c_33
  let main_v88 : IVec S_ 1 := andi main_v83 main_v87
  let main_v89 : FVec F S144x128 .f32 := Host.absf main_arg18
  let main_cst_34 : FVec F S_ .f32 := constant S_ .f32 0x7F800000#32
  let main_v90 : FVec F S144x128 .f32 := broadcastInDim S144x128 ![] bcast_S_S144x128 main_cst_34
  let main_v91 : IVec S144x128 1 := cmpf .olt main_v89 main_v90
  let main_c_35 : IVec S_ 1 := constantI S_ 1 1#1
  let main_v92 : IVec S_ 1 := (fun x v => Host.reduce IntOp.andi x v reducesTo_S144x128_S_d0_1 h_S_) main_v91 main_c_35
  let main_v93 : IVec S_ 1 := andi main_v88 main_v92
  let main_v94 : FVec F S144x128 .f32 := Host.absf main_arg19
  let main_cst_36 : FVec F S_ .f32 := constant S_ .f32 0x7F800000#32
  let main_v95 : FVec F S144x128 .f32 := broadcastInDim S144x128 ![] bcast_S_S144x128 main_cst_36
  let main_v96 : IVec S144x128 1 := cmpf .olt main_v94 main_v95
  let main_c_37 : IVec S_ 1 := constantI S_ 1 1#1
  let main_v97 : IVec S_ 1 := (fun x v => Host.reduce IntOp.andi x v reducesTo_S144x128_S_d0_1 h_S_) main_v96 main_c_37
  let main_v98 : IVec S_ 1 := andi main_v93 main_v97
  let main_c_38 : IVec S_ 32 := constantI S_ 32 0#32
  let main_v99 : IVec S50000x1 32 := broadcastInDim S50000x1 ![] bcast_S_S50000x1 main_c_38
  let main_v100 : IVec S50000x1 1 := cmpi .sge main_arg20 main_v99
  let main_c_39 : IVec S_ 32 := constantI S_ 32 200000#32
  let main_v101 : IVec S50000x1 32 := broadcastInDim S50000x1 ![] bcast_S_S50000x1 main_c_39
  fn_part6 (F := F) main_arg20 main_arg21 main_arg22 main_arg23 main_arg24 main_arg25 main_arg26 main_arg27 main_v98 main_v100 main_v101

def fn_part4 {F : FTy → Type} [FloatOps F] (main_arg14 : FVec F S128x128 .f32) (main_arg15 : FVec F S128 .f32) (main_arg16 : FVec F S144x128 .f32) (main_arg17 : FVec F S144x128 .f32) (main_arg18 : FVec F S144x128 .f32) (main_arg19 : FVec F S144x128 .f32) (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S144x128 .f32 := Host.absf main_arg16
  let main_cst_30 : FVec F S_ .f32 := constant S_ .f32 0x7F800000#32
  let main_v80 : FVec F S144x128 .f32 := broadcastInDim S144x128 ![] bcast_S_S144x128 main_cst_30
  let main_v81 : IVec S144x128 1 := cmpf .olt main_v79 main_v80
  let main_c_31 : IVec S_ 1 := constantI S_ 1 1#1
  let main_v82 : IVec S_ 1 := (fun x v => Host.reduce IntOp.andi x v reducesTo_S144x128_S_d0_1 h_S_) main_v81 main_c_31
  let main_v83 : IVec S_ 1 := andi main_v78 main_v82
  let main_v84 : FVec F S144x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S80x128 .f32) (main_arg12 : FVec F S80x128 .f32) (main_arg13 : FVec F S80x128 .f32) (main_arg14 : FVec F S128x128 .f32) (main_arg15 : FVec F S128 .f32) (main_arg16 : FVec F S144x128 .f32) (main_arg17 : FVec F S144x128 .f32) (main_arg18 : FVec F S144x128 .f32) (main_arg19 : FVec F S144x128 .f32) (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_v48 : IVec S_ 1) (main_v49 : FVec F S80x128 .f32) (main_v50 : FVec F S80x128 .f32) : IVec S_ 1 :=
  let main_v51 : IVec S80x128 1 := cmpf .olt main_v49 main_v50
  let main_c_19 : IVec S_ 1 := constantI S_ 1 1#1
  let main_v52 : IVec S_ 1 := (fun x v => Host.reduce IntOp.andi x v reducesTo_S80x128_S_d0_1 h_S_) main_v51 main_c_19
  let main_v53 : IVec S_ 1 := andi main_v48 main_v52
  let main_v54 : FVec F S80x128 .f32 := Host.absf main_arg11
  let main_cst_20 : FVec F S_ .f32 := constant S_ .f32 0x7F800000#32
  let main_v55 : FVec F S80x128 .f32 := broadcastInDim S80x128 ![] bcast_S_S80x128 main_cst_20
  let main_v56 : IVec S80x128 1 := cmpf .olt main_v54 main_v55
  let main_c_21 : IVec S_ 1 := constantI S_ 1 1#1
  let main_v57 : IVec S_ 1 := (fun x v => Host.reduce IntOp.andi x v reducesTo_S80x128_S_d0_1 h_S_) main_v56 main_c_21
  let main_v58 : IVec S_ 1 := andi main_v53 main_v57
  let main_v59 : FVec F S80x128 .f32 := Host.absf main_arg12
  let main_cst_22 : FVec F S_ .f32 := constant S_ .f32 0x7F800000#32
  let main_v60 : FVec F S80x128 .f32 := broadcastInDim S80x128 ![] bcast_S_S80x128 main_cst_22
  let main_v61 : IVec S80x128 1 := cmpf .olt main_v59 main_v60
  let main_c_23 : IVec S_ 1 := constantI S_ 1 1#1
  let main_v62 : IVec S_ 1 := (fun x v => Host.reduce IntOp.andi x v reducesTo_S80x128_S_d0_1 h_S_) main_v61 main_c_23
  let main_v63 : IVec S_ 1 := andi main_v58 main_v62
  let main_v64 : FVec F S80x128 .f32 := Host.absf main_arg13
  let main_cst_24 : FVec F S_ .f32 := constant S_ .f32 0x7F800000#32
  let main_v65 : FVec F S80x128 .f32 := broadcastInDim S80x128 ![] bcast_S_S80x128 main_cst_24
  let main_v66 : IVec S80x128 1 := cmpf .olt main_v64 main_v65
  let main_c_25 : IVec S_ 1 := constantI S_ 1 1#1
  let main_v67 : IVec S_ 1 := (fun x v => Host.reduce IntOp.andi x v reducesTo_S80x128_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S128 .f32) (main_arg8 : FVec F S64x128 .f32) (main_arg9 : FVec F S128 .f32) (main_arg10 : FVec F S80x128 .f32) (main_arg11 : FVec F S80x128 .f32) (main_arg12 : FVec F S80x128 .f32) (main_arg13 : FVec F S80x128 .f32) (main_arg14 : FVec F S128x128 .f32) (main_arg15 : FVec F S128 .f32) (main_arg16 : FVec F S144x128 .f32) (main_arg17 : FVec F S144x128 .f32) (main_arg18 : FVec F S144x128 .f32) (main_arg19 : FVec F S144x128 .f32) (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S80x128 .f32 := Host.absf main_arg10
  let main_cst_18 : FVec F S_ .f32 := constant S_ .f32 0x7F800000#32
  let main_v50 : FVec F S80x128 .f32 := broadcastInDim S80x128 ![] bcast_S_S80x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S64x128 .f32) (main_arg9 : FVec F S128 .f32) (main_arg10 : FVec F S80x128 .f32) (main_arg11 : FVec F S80x128 .f32) (main_arg12 : FVec F S80x128 .f32) (main_arg13 : FVec F S80x128 .f32) (main_arg14 : FVec F S128x128 .f32) (main_arg15 : FVec F S128 .f32) (main_arg16 : FVec F S144x128 .f32) (main_arg17 : FVec F S144x128 .f32) (main_arg18 : FVec F S144x128 .f32) (main_arg19 : FVec F S144x128 .f32) (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S200000x64 .f32) (main_arg1 : FVec F S300000x16 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S64x128 .f32) (main_arg9 : FVec F S128 .f32) (main_arg10 : FVec F S80x128 .f32) (main_arg11 : FVec F S80x128 .f32) (main_arg12 : FVec F S80x128 .f32) (main_arg13 : FVec F S80x128 .f32) (main_arg14 : FVec F S128x128 .f32) (main_arg15 : FVec F S128 .f32) (main_arg16 : FVec F S144x128 .f32) (main_arg17 : FVec F S144x128 .f32) (main_arg18 : FVec F S144x128 .f32) (main_arg19 : FVec F S144x128 .f32) (main_arg20 : IVec S50000x1 32) (main_arg21 : IVec S50000x2 32) (main_arg22 : IVec S50000x3 32) (main_arg23 : IVec S50000x4 32) (main_arg24 : IVec S50000x1 32) (main_arg25 : IVec S50000x2 32) (main_arg26 : IVec S50000x3 32) (main_arg27 : IVec S50000x4 32) (main_arg28 : IVec S200000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S300000x16 .f32 := Host.absf main_arg1
  let main_cst_0 : FVec F S_ .f32 := constant S_ .f32 0x7F800000#32
  let main_v5 : FVec F S300000x16 .f32 := broadcastInDim S300000x16 ![] bcast_S_S300000x16 main_cst_0
  let main_v6 : IVec S300000x16 1 := cmpf .olt main_v4 main_v5
  let main_c_1 : IVec S_ 1 := constantI S_ 1 1#1
  let main_v7 : IVec S_ 1 := (fun x v => Host.reduce IntOp.andi x v reducesTo_S300000x16_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S200000x64 : Shape := ⟨2, ![200000, 64]⟩
abbrev S300000x16 : Shape := ⟨2, ![300000, 16]⟩
abbrev S64x128 : Shape := ⟨2, ![64, 128]⟩
abbrev S128 : Shape := ⟨1, ![128]⟩
abbrev S128x128 : Shape := ⟨2, ![128, 128]⟩
abbrev S80x128 : Shape := ⟨2, ![80, 128]⟩
abbrev S144x128 : Shape := ⟨2, ![144, 128]⟩
abbrev S50000x1 : Shape := ⟨2, ![50000, 1]⟩
abbrev S50000x2 : Shape := ⟨2, ![50000, 2]⟩
abbrev S50000x3 : Shape := ⟨2, ![50000, 3]⟩
abbrev S50000x4 : Shape := ⟨2, ![50000, 4]⟩
abbrev S200000 : Shape := ⟨1, ![200000]⟩
abbrev S1x128 : Shape := ⟨2, ![1, 128]⟩
abbrev S200000x128 : Shape := ⟨2, ![200000, 128]⟩
abbrev S2000x64 : Shape := ⟨2, ![2000, 64]⟩
abbrev S2000x128 : Shape := ⟨2, ![2000, 128]⟩
abbrev S2000 : Shape := ⟨1, ![2000]⟩
abbrev S2000x1 : Shape := ⟨2, ![2000, 1]⟩
abbrev S_ : Shape := ⟨0, ![]⟩
abbrev S8192x128 : Shape := ⟨2, ![8192, 128]⟩
abbrev S200000x1 : Shape := ⟨2, ![200000, 1]⟩
abbrev S50000x1x1 : Shape := ⟨3, ![50000, 1, 1]⟩
abbrev S1 : Shape := ⟨1, ![1]⟩
abbrev S1x1x1 : Shape := ⟨3, ![1, 1, 1]⟩
abbrev S50000x1x16 : Shape := ⟨3, ![50000, 1, 16]⟩
abbrev S50000x16 : Shape := ⟨2, ![50000, 16]⟩
abbrev S50000x2x1 : Shape := ⟨3, ![50000, 2, 1]⟩
abbrev S50000x2x16 : Shape := ⟨3, ![50000, 2, 16]⟩
abbrev S50000x3x1 : Shape := ⟨3, ![50000, 3, 1]⟩
abbrev S50000x3x16 : Shape := ⟨3, ![50000, 3, 16]⟩
abbrev S50000x4x1 : Shape := ⟨3, ![50000, 4, 1]⟩
abbrev S50000x4x16 : Shape := ⟨3, ![50000, 4, 16]⟩
abbrev S50000x1x64 : Shape := ⟨3, ![50000, 1, 64]⟩
abbrev S50000x64 : Shape := ⟨2, ![50000, 64]⟩
abbrev S50000x2x64 : Shape := ⟨3, ![50000, 2, 64]⟩
abbrev S50000x3x64 : Shape := ⟨3, ![50000, 3, 64]⟩
abbrev S50000x4x64 : Shape := ⟨3, ![50000, 4, 64]⟩
abbrev S50000x80 : Shape := ⟨2, ![50000, 80]⟩
abbrev S200000x80 : Shape := ⟨2, ![200000, 80]⟩
abbrev S1x80x128 : Shape := ⟨3, ![1, 80, 128]⟩
abbrev S4x80x128 : Shape := ⟨3, ![4, 80, 128]⟩
abbrev S2000x80 : Shape := ⟨2, ![2000, 80]⟩
abbrev S50000x1x128 : Shape := ⟨3, ![50000, 1, 128]⟩
abbrev S50000x128 : Shape := ⟨2, ![50000, 128]⟩
abbrev S50000x2x128 : Shape := ⟨3, ![50000, 2, 128]⟩
abbrev S50000x3x128 : Shape := ⟨3, ![50000, 3, 128]⟩
abbrev S50000x4x128 : Shape := ⟨3, ![50000, 4, 128]⟩
abbrev S50000x144 : Shape := ⟨2, ![50000, 144]⟩
abbrev S200000x144 : Shape := ⟨2, ![200000, 144]⟩
abbrev S1x144x128 : Shape := ⟨3, ![1, 144, 128]⟩
abbrev S4x144x128 : Shape := ⟨3, ![4, 144, 128]⟩
abbrev S2000x144 : Shape := ⟨2, ![2000, 144]⟩

abbrev nBuf : Space → Nat
  | .hbm => 411
  | .vmem => 54
  | .smem => 0
  | _ => 0

abbrev hbmTy0_0 (i : Nat) : BufTy := match i % 128 with
  | 0 => ⟨S200000x64, .f32⟩
  | 1 => ⟨S300000x16, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S128, .f32⟩
  | 10 => ⟨S80x128, .f32⟩
  | 11 => ⟨S80x128, .f32⟩
  | 12 => ⟨S80x128, .f32⟩
  | 13 => ⟨S80x128, .f32⟩
  | 14 => ⟨S128x128, .f32⟩
  | 15 => ⟨S128, .f32⟩
  | 16 => ⟨S144x128, .f32⟩
  | 17 => ⟨S144x128, .f32⟩
  | 18 => ⟨S144x128, .f32⟩
  | 19 => ⟨S144x128, .f32⟩
  | 20 => ⟨S50000x1, .i32⟩
  | 21 => ⟨S50000x2, .i32⟩
  | 22 => ⟨S50000x3, .i32⟩
  | 23 => ⟨S50000x4, .i32⟩
  | 24 => ⟨S50000x1, .i32⟩
  | 25 => ⟨S50000x2, .i32⟩
  | 26 => ⟨S50000x3, .i32⟩
  | 27 => ⟨S50000x4, .i32⟩
  | 28 => ⟨S200000, .i32⟩
  | 29 => ⟨S1x128, .f32⟩
  | 30 => ⟨S200000x128, .f32⟩
  | 31 => ⟨S_, .f32⟩
  | 32 => ⟨S8192x128, .f32⟩
  | 33 => ⟨S200000x1, .i32⟩
  | 34 => ⟨S8192x128, .f32⟩
  | 35 => ⟨S_, .i32⟩
  | 36 => ⟨S50000x1, .i32⟩
  | 37 => ⟨S50000x1, .i1⟩
  | 38 => ⟨S_, .i32⟩
  | 39 => ⟨S50000x1, .i32⟩
  | 40 => ⟨S50000x1, .i32⟩
  | 41 => ⟨S50000x1, .i32⟩
  | 42 => ⟨S50000x1x1, .i32⟩
  | 43 => ⟨S1, .i32⟩
  | 44 => ⟨S_, .i32⟩
  | 45 => ⟨S50000x1x1, .i32⟩
  | 46 => ⟨S50000x1x1, .i1⟩
  | 47 => ⟨S1x1x1, .i32⟩
  | 48 => ⟨S50000x1x1, .i32⟩
  | 49 => ⟨S50000x1x1, .i1⟩
  | 50 => ⟨S50000x1x1, .i1⟩
  | 51 => ⟨S_, .i1⟩
  | 52 => ⟨S50000x1, .i1⟩
  | 53 => ⟨S50000x1x16, .f32⟩
  | 54 => ⟨S50000x1x16, .i1⟩
  | 55 => ⟨S_, .f32⟩
  | 56 => ⟨S50000x1x16, .f32⟩
  | 57 => ⟨S50000x1x16, .f32⟩
  | 58 => ⟨S_, .f32⟩
  | 59 => ⟨S50000x16, .f32⟩
  | 60 => ⟨S_, .i32⟩
  | 61 => ⟨S50000x2, .i32⟩
  | 62 => ⟨S50000x2, .i1⟩
  | 63 => ⟨S_, .i32⟩
  | 64 => ⟨S50000x2, .i32⟩
  | 65 => ⟨S50000x2, .i32⟩
  | 66 => ⟨S50000x2, .i32⟩
  | 67 => ⟨S50000x2x1, .i32⟩
  | 68 => ⟨S1, .i32⟩
  | 69 => ⟨S_, .i32⟩
  | 70 => ⟨S50000x2x1, .i32⟩
  | 71 => ⟨S50000x2x1, .i1⟩
  | 72 => ⟨S1x1x1, .i32⟩
  | 73 => ⟨S50000x2x1, .i32⟩
  | 74 => ⟨S50000x2x1, .i1⟩
  | 75 => ⟨S50000x2x1, .i1⟩
  | 76 => ⟨S_, .i1⟩
  | 77 => ⟨S50000x2, .i1⟩
  | 78 => ⟨S50000x2x16, .f32⟩
  | 79 => ⟨S50000x2x16, .i1⟩
  | 80 => ⟨S_, .f32⟩
  | 81 => ⟨S50000x2x16, .f32⟩
  | 82 => ⟨S50000x2x16, .f32⟩
  | 83 => ⟨S_, .f32⟩
  | 84 => ⟨S50000x16, .f32⟩
  | 85 => ⟨S_, .i32⟩
  | 86 => ⟨S50000x3, .i32⟩
  | 87 => ⟨S50000x3, .i1⟩
  | 88 => ⟨S_, .i32⟩
  | 89 => ⟨S50000x3, .i32⟩
  | 90 => ⟨S50000x3, .i32⟩
  | 91 => ⟨S50000x3, .i32⟩
  | 92 => ⟨S50000x3x1, .i32⟩
  | 93 => ⟨S1, .i32⟩
  | 94 => ⟨S_, .i32⟩
  | 95 => ⟨S50000x3x1, .i32⟩
  | 96 => ⟨S50000x3x1, .i1⟩
  | 97 => ⟨S1x1x1, .i32⟩
  | 98 => ⟨S50000x3x1, .i32⟩
  | 99 => ⟨S50000x3x1, .i1⟩
  | 100 => ⟨S50000x3x1, .i1⟩
  | 101 => ⟨S_, .i1⟩
  | 102 => ⟨S50000x3, .i1⟩
  | 103 => ⟨S50000x3x16, .f32⟩
  | 104 => ⟨S50000x3x16, .i1⟩
  | 105 => ⟨S_, .f32⟩
  | 106 => ⟨S50000x3x16, .f32⟩
  | 107 => ⟨S50000x3x16, .f32⟩
  | 108 => ⟨S_, .f32⟩
  | 109 => ⟨S50000x16, .f32⟩
  | 110 => ⟨S_, .i32⟩
  | 111 => ⟨S50000x4, .i32⟩
  | 112 => ⟨S50000x4, .i1⟩
  | 113 => ⟨S_, .i32⟩
  | 114 => ⟨S50000x4, .i32⟩
  | 115 => ⟨S50000x4, .i32⟩
  | 116 => ⟨S50000x4, .i32⟩
  | 117 => ⟨S50000x4x1, .i32⟩
  | 118 => ⟨S1, .i32⟩
  | 119 => ⟨S_, .i32⟩
  | 120 => ⟨S50000x4x1, .i32⟩
  | 121 => ⟨S50000x4x1, .i1⟩
  | 122 => ⟨S1x1x1, .i32⟩
  | 123 => ⟨S50000x4x1, .i32⟩
  | 124 => ⟨S50000x4x1, .i1⟩
  | 125 => ⟨S50000x4x1, .i1⟩
  | 126 => ⟨S_, .i1⟩
  | 127 => ⟨S50000x4, .i1⟩
  | _ => ⟨S200000x64, .f32⟩

abbrev hbmTy0_1 (i : Nat) : BufTy := match i % 128 with
  | 0 => ⟨S50000x4x16, .f32⟩
  | 1 => ⟨S50000x4x16, .i1⟩
  | 2 => ⟨S_, .f32⟩
  | 3 => ⟨S50000x4x16, .f32⟩
  | 4 => ⟨S50000x4x16, .f32⟩
  | 5 => ⟨S_, .f32⟩
  | 6 => ⟨S50000x16, .f32⟩
  | 7 => ⟨S_, .i32⟩
  | 8 => ⟨S50000x1, .i32⟩
  | 9 => ⟨S50000x1, .i1⟩
  | 10 => ⟨S_, .i32⟩
  | 11 => ⟨S50000x1, .i32⟩
  | 12 => ⟨S50000x1, .i32⟩
  | 13 => ⟨S50000x1, .i32⟩
  | 14 => ⟨S50000x1x1, .i32⟩
  | 15 => ⟨S1, .i32⟩
  | 16 => ⟨S_, .i32⟩
  | 17 => ⟨S50000x1x1, .i32⟩
  | 18 => ⟨S50000x1x1, .i1⟩
  | 19 => ⟨S1x1x1, .i32⟩
  | 20 => ⟨S50000x1x1, .i32⟩
  | 21 => ⟨S50000x1x1, .i1⟩
  | 22 => ⟨S50000x1x1, .i1⟩
  | 23 => ⟨S_, .i1⟩
  | 24 => ⟨S50000x1, .i1⟩
  | 25 => ⟨S50000x1x64, .f32⟩
  | 26 => ⟨S50000x1x64, .i1⟩
  | 27 => ⟨S_, .f32⟩
  | 28 => ⟨S50000x1x64, .f32⟩
  | 29 => ⟨S50000x1x64, .f32⟩
  | 30 => ⟨S_, .f32⟩
  | 31 => ⟨S50000x64, .f32⟩
  | 32 => ⟨S_, .i32⟩
  | 33 => ⟨S50000x2, .i32⟩
  | 34 => ⟨S50000x2, .i1⟩
  | 35 => ⟨S_, .i32⟩
  | 36 => ⟨S50000x2, .i32⟩
  | 37 => ⟨S50000x2, .i32⟩
  | 38 => ⟨S50000x2, .i32⟩
  | 39 => ⟨S50000x2x1, .i32⟩
  | 40 => ⟨S1, .i32⟩
  | 41 => ⟨S_, .i32⟩
  | 42 => ⟨S50000x2x1, .i32⟩
  | 43 => ⟨S50000x2x1, .i1⟩
  | 44 => ⟨S1x1x1, .i32⟩
  | 45 => ⟨S50000x2x1, .i32⟩
  | 46 => ⟨S50000x2x1, .i1⟩
  | 47 => ⟨S50000x2x1, .i1⟩
  | 48 => ⟨S_, .i1⟩
  | 49 => ⟨S50000x2, .i1⟩
  | 50 => ⟨S50000x2x64, .f32⟩
  | 51 => ⟨S50000x2x64, .i1⟩
  | 52 => ⟨S_, .f32⟩
  | 53 => ⟨S50000x2x64, .f32⟩
  | 54 => ⟨S50000x2x64, .f32⟩
  | 55 => ⟨S_, .f32⟩
  | 56 => ⟨S50000x64, .f32⟩
  | 57 => ⟨S_, .i32⟩
  | 58 => ⟨S50000x3, .i32⟩
  | 59 => ⟨S50000x3, .i1⟩
  | 60 => ⟨S_, .i32⟩
  | 61 => ⟨S50000x3, .i32⟩
  | 62 => ⟨S50000x3, .i32⟩
  | 63 => ⟨S50000x3, .i32⟩
  | 64 => ⟨S50000x3x1, .i32⟩
  | 65 => ⟨S1, .i32⟩
  | 66 => ⟨S_, .i32⟩
  | 67 => ⟨S50000x3x1, .i32⟩
  | 68 => ⟨S50000x3x1, .i1⟩
  | 69 => ⟨S1x1x1, .i32⟩
  | 70 => ⟨S50000x3x1, .i32⟩
  | 71 => ⟨S50000x3x1, .i1⟩
  | 72 => ⟨S50000x3x1, .i1⟩
  | 73 => ⟨S_, .i1⟩
  | 74 => ⟨S50000x3, .i1⟩
  | 75 => ⟨S50000x3x64, .f32⟩
  | 76 => ⟨S50000x3x64, .i1⟩
  | 77 => ⟨S_, .f32⟩
  | 78 => ⟨S50000x3x64, .f32⟩
  | 79 => ⟨S50000x3x64, .f32⟩
  | 80 => ⟨S_, .f32⟩
  | 81 => ⟨S50000x64, .f32⟩
  | 82 => ⟨S_, .i32⟩
  | 83 => ⟨S50000x4, .i32⟩
  | 84 => ⟨S50000x4, .i1⟩
  | 85 => ⟨S_, .i32⟩
  | 86 => ⟨S50000x4, .i32⟩
  | 87 => ⟨S50000x4, .i32⟩
  | 88 => ⟨S50000x4, .i32⟩
  | 89 => ⟨S50000x4x1, .i32⟩
  | 90 => ⟨S1, .i32⟩
  | 91 => ⟨S_, .i32⟩
  | 92 => ⟨S50000x4x1, .i32⟩
  | 93 => ⟨S50000x4x1, .i1⟩
  | 94 => ⟨S1x1x1, .i32⟩
  | 95 => ⟨S50000x4x1, .i32⟩
  | 96 => ⟨S50000x4x1, .i1⟩
  | 97 => ⟨S50000x4x1, .i1⟩
  | 98 => ⟨S_, .i1⟩
  | 99 => ⟨S50000x4, .i1⟩
  | 100 => ⟨S50000x4x64, .f32⟩
  | 101 => ⟨S50000x4x64, .i1⟩
  | 102 => ⟨S_, .f32⟩
  | 103 => ⟨S50000x4x64, .f32⟩
  | 104 => ⟨S50000x4x64, .f32⟩
  | 105 => ⟨S_, .f32⟩
  | 106 => ⟨S50000x64, .f32⟩
  | 107 => ⟨S50000x80, .f32⟩
  | 108 => ⟨S50000x80, .f32⟩
  | 109 => ⟨S50000x80, .f32⟩
  | 110 => ⟨S50000x80, .f32⟩
  | 111 => ⟨S200000x80, .f32⟩
  | 112 => ⟨S1x80x128, .f32⟩
  | 113 => ⟨S1x80x128, .f32⟩
  | 114 => ⟨S1x80x128, .f32⟩
  | 115 => ⟨S1x80x128, .f32⟩
  | 116 => ⟨S4x80x128, .f32⟩
  | 117 => ⟨S1x128, .f32⟩
  | 118 => ⟨S200000x128, .f32⟩
  | 119 => ⟨S1x128, .f32⟩
  | 120 => ⟨S1x128, .f32⟩
  | 121 => ⟨S128, .f32⟩
  | 122 => ⟨S_, .f32⟩
  | 123 => ⟨S128, .f32⟩
  | 124 => ⟨S128, .f32⟩
  | 125 => ⟨S128, .f32⟩
  | 126 => ⟨S_, .f32⟩
  | 127 => ⟨S128, .f32⟩
  | _ => ⟨S200000x64, .f32⟩

abbrev hbmTy0_2 (i : Nat) : BufTy := match i % 128 with
  | 0 => ⟨S128, .f32⟩
  | 1 => ⟨S128, .f32⟩
  | 2 => ⟨S128, .f32⟩
  | 3 => ⟨S_, .f32⟩
  | 4 => ⟨S128, .f32⟩
  | 5 => ⟨S128, .f32⟩
  | 6 => ⟨S128, .f32⟩
  | 7 => ⟨S1x128, .f32⟩
  | 8 => ⟨S1x128, .f32⟩
  | 9 => ⟨S200000x128, .f32⟩
  | 10 => ⟨S1x128, .f32⟩
  | 11 => ⟨S200000x128, .f32⟩
  | 12 => ⟨S_, .f32⟩
  | 13 => ⟨S8192x128, .f32⟩
  | 14 => ⟨S200000x1, .i32⟩
  | 15 => ⟨S8192x128, .f32⟩
  | 16 => ⟨S8192x128, .f32⟩
  | 17 => ⟨S_, .i32⟩
  | 18 => ⟨S50000x1, .i32⟩
  | 19 => ⟨S50000x1, .i1⟩
  | 20 => ⟨S_, .i32⟩
  | 21 => ⟨S50000x1, .i32⟩
  | 22 => ⟨S50000x1, .i32⟩
  | 23 => ⟨S50000x1, .i32⟩
  | 24 => ⟨S50000x1x1, .i32⟩
  | 25 => ⟨S1, .i32⟩
  | 26 => ⟨S_, .i32⟩
  | 27 => ⟨S50000x1x1, .i32⟩
  | 28 => ⟨S50000x1x1, .i1⟩
  | 29 => ⟨S1x1x1, .i32⟩
  | 30 => ⟨S50000x1x1, .i32⟩
  | 31 => ⟨S50000x1x1, .i1⟩
  | 32 => ⟨S50000x1x1, .i1⟩
  | 33 => ⟨S_, .i1⟩
  | 34 => ⟨S50000x1, .i1⟩
  | 35 => ⟨S50000x1x128, .f32⟩
  | 36 => ⟨S50000x1x128, .i1⟩
  | 37 => ⟨S_, .f32⟩
  | 38 => ⟨S50000x1x128, .f32⟩
  | 39 => ⟨S50000x1x128, .f32⟩
  | 40 => ⟨S_, .f32⟩
  | 41 => ⟨S50000x128, .f32⟩
  | 42 => ⟨S_, .i32⟩
  | 43 => ⟨S50000x2, .i32⟩
  | 44 => ⟨S50000x2, .i1⟩
  | 45 => ⟨S_, .i32⟩
  | 46 => ⟨S50000x2, .i32⟩
  | 47 => ⟨S50000x2, .i32⟩
  | 48 => ⟨S50000x2, .i32⟩
  | 49 => ⟨S50000x2x1, .i32⟩
  | 50 => ⟨S1, .i32⟩
  | 51 => ⟨S_, .i32⟩
  | 52 => ⟨S50000x2x1, .i32⟩
  | 53 => ⟨S50000x2x1, .i1⟩
  | 54 => ⟨S1x1x1, .i32⟩
  | 55 => ⟨S50000x2x1, .i32⟩
  | 56 => ⟨S50000x2x1, .i1⟩
  | 57 => ⟨S50000x2x1, .i1⟩
  | 58 => ⟨S_, .i1⟩
  | 59 => ⟨S50000x2, .i1⟩
  | 60 => ⟨S50000x2x128, .f32⟩
  | 61 => ⟨S50000x2x128, .i1⟩
  | 62 => ⟨S_, .f32⟩
  | 63 => ⟨S50000x2x128, .f32⟩
  | 64 => ⟨S50000x2x128, .f32⟩
  | 65 => ⟨S_, .f32⟩
  | 66 => ⟨S50000x128, .f32⟩
  | 67 => ⟨S_, .i32⟩
  | 68 => ⟨S50000x3, .i32⟩
  | 69 => ⟨S50000x3, .i1⟩
  | 70 => ⟨S_, .i32⟩
  | 71 => ⟨S50000x3, .i32⟩
  | 72 => ⟨S50000x3, .i32⟩
  | 73 => ⟨S50000x3, .i32⟩
  | 74 => ⟨S50000x3x1, .i32⟩
  | 75 => ⟨S1, .i32⟩
  | 76 => ⟨S_, .i32⟩
  | 77 => ⟨S50000x3x1, .i32⟩
  | 78 => ⟨S50000x3x1, .i1⟩
  | 79 => ⟨S1x1x1, .i32⟩
  | 80 => ⟨S50000x3x1, .i32⟩
  | 81 => ⟨S50000x3x1, .i1⟩
  | 82 => ⟨S50000x3x1, .i1⟩
  | 83 => ⟨S_, .i1⟩
  | 84 => ⟨S50000x3, .i1⟩
  | 85 => ⟨S50000x3x128, .f32⟩
  | 86 => ⟨S50000x3x128, .i1⟩
  | 87 => ⟨S_, .f32⟩
  | 88 => ⟨S50000x3x128, .f32⟩
  | 89 => ⟨S50000x3x128, .f32⟩
  | 90 => ⟨S_, .f32⟩
  | 91 => ⟨S50000x128, .f32⟩
  | 92 => ⟨S_, .i32⟩
  | 93 => ⟨S50000x4, .i32⟩
  | 94 => ⟨S50000x4, .i1⟩
  | 95 => ⟨S_, .i32⟩
  | 96 => ⟨S50000x4, .i32⟩
  | 97 => ⟨S50000x4, .i32⟩
  | 98 => ⟨S50000x4, .i32⟩
  | 99 => ⟨S50000x4x1, .i32⟩
  | 100 => ⟨S1, .i32⟩
  | 101 => ⟨S_, .i32⟩
  | 102 => ⟨S50000x4x1, .i32⟩
  | 103 => ⟨S50000x4x1, .i1⟩
  | 104 => ⟨S1x1x1, .i32⟩
  | 105 => ⟨S50000x4x1, .i32⟩
  | 106 => ⟨S50000x4x1, .i1⟩
  | 107 => ⟨S50000x4x1, .i1⟩
  | 108 => ⟨S_, .i1⟩
  | 109 => ⟨S50000x4, .i1⟩
  | 110 => ⟨S50000x4x128, .f32⟩
  | 111 => ⟨S50000x4x128, .i1⟩
  | 112 => ⟨S_, .f32⟩
  | 113 => ⟨S50000x4x128, .f32⟩
  | 114 => ⟨S50000x4x128, .f32⟩
  | 115 => ⟨S_, .f32⟩
  | 116 => ⟨S50000x128, .f32⟩
  | 117 => ⟨S50000x144, .f32⟩
  | 118 => ⟨S50000x144, .f32⟩
  | 119 => ⟨S50000x144, .f32⟩
  | 120 => ⟨S50000x144, .f32⟩
  | 121 => ⟨S200000x144, .f32⟩
  | 122 => ⟨S1x144x128, .f32⟩
  | 123 => ⟨S1x144x128, .f32⟩
  | 124 => ⟨S1x144x128, .f32⟩
  | 125 => ⟨S1x144x128, .f32⟩
  | 126 => ⟨S4x144x128, .f32⟩
  | 127 => ⟨S1x128, .f32⟩
  | _ => ⟨S200000x64, .f32⟩

abbrev hbmTy0_3 (i : Nat) : BufTy := match i % 128 with
  | 0 => ⟨S200000x128, .f32⟩
  | 1 => ⟨S1x128, .f32⟩
  | 2 => ⟨S1x128, .f32⟩
  | 3 => ⟨S128, .f32⟩
  | 4 => ⟨S_, .f32⟩
  | 5 => ⟨S128, .f32⟩
  | 6 => ⟨S128, .f32⟩
  | 7 => ⟨S128, .f32⟩
  | 8 => ⟨S_, .f32⟩
  | 9 => ⟨S128, .f32⟩
  | 10 => ⟨S128, .f32⟩
  | 11 => ⟨S128, .f32⟩
  | 12 => ⟨S128, .f32⟩
  | 13 => ⟨S_, .f32⟩
  | 14 => ⟨S128, .f32⟩
  | 15 => ⟨S128, .f32⟩
  | 16 => ⟨S128, .f32⟩
  | 17 => ⟨S1x128, .f32⟩
  | 18 => ⟨S1x128, .f32⟩
  | 19 => ⟨S200000x128, .f32⟩
  | 20 => ⟨S1x128, .f32⟩
  | 21 => ⟨S200000x128, .f32⟩
  | 22 => ⟨S_, .f32⟩
  | 23 => ⟨S8192x128, .f32⟩
  | 24 => ⟨S200000x1, .i32⟩
  | 25 => ⟨S8192x128, .f32⟩
  | 26 => ⟨S8192x128, .f32⟩
  | _ => ⟨S200000x64, .f32⟩

abbrev hbmTy (i : Nat) : BufTy := match i / 128 with
  | 0 => hbmTy0_0 i
  | 1 => hbmTy0_1 i
  | 2 => hbmTy0_2 i
  | 3 => hbmTy0_3 i
  | _ => ⟨S200000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x64, .f32⟩
  | .local _ .vmem, ⟨7, _⟩ => ⟨S2000x64, .f32⟩
  | .local _ .vmem, ⟨8, _⟩ => ⟨S2000x80, .f32⟩
  | .local _ .vmem, ⟨9, _⟩ => ⟨S2000x80, .f32⟩
  | .local _ .vmem, ⟨10, _⟩ => ⟨S64x128, .f32⟩
  | .local _ .vmem, ⟨11, _⟩ => ⟨S1x80x128, .f32⟩
  | .local _ .vmem, ⟨12, _⟩ => ⟨S1x80x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x144, .f32⟩
  | .local _ .vmem, ⟨33, _⟩ => ⟨S2000x144, .f32⟩
  | .local _ .vmem, ⟨34, _⟩ => ⟨S128x128, .f32⟩
  | .local _ .vmem, ⟨35, _⟩ => ⟨S1x144x128, .f32⟩
  | .local _ .vmem, ⟨36, _⟩ => ⟨S1x144x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_cst : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v5 : Ref sig .tc := ⟨.hbm, 57, rfl⟩
abbrev main_cst_0 : Ref sig .tc := ⟨.hbm, 58, rfl⟩
abbrev main_v6 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v7 : Ref sig .tc := ⟨.hbm, 82, rfl⟩
abbrev main_cst_1 : Ref sig .tc := ⟨.hbm, 83, rfl⟩
abbrev main_v8 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v9 : Ref sig .tc := ⟨.hbm, 107, rfl⟩
abbrev main_cst_2 : Ref sig .tc := ⟨.hbm, 108, rfl⟩
abbrev main_v10 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v11 : Ref sig .tc := ⟨.hbm, 132, rfl⟩
abbrev main_cst_3 : Ref sig .tc := ⟨.hbm, 133, rfl⟩
abbrev main_v12 : Ref sig .tc := ⟨.hbm, 134, rfl⟩
abbrev main_call4_c : Ref sig .tc := ⟨.hbm, 135, rfl⟩
abbrev main_call4_v0 : Ref sig .tc := ⟨.hbm, 136, rfl⟩
abbrev main_call4_v1 : Ref sig .tc := ⟨.hbm, 137, rfl⟩
abbrev main_call4_c_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_c_1 : Ref sig .tc := ⟨.hbm, 143, rfl⟩
abbrev main_call4_c_2 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_3 : Ref sig .tc := ⟨.hbm, 151, rfl⟩
abbrev main_call4_v12 : Ref sig .tc := ⟨.hbm, 152, rfl⟩
abbrev main_call4_v13 : Ref sig .tc := ⟨.hbm, 153, rfl⟩
abbrev main_call4_v14 : Ref sig .tc := ⟨.hbm, 154, rfl⟩
abbrev main_call4_cst : Ref sig .tc := ⟨.hbm, 155, rfl⟩
abbrev main_call4_v15 : Ref sig .tc := ⟨.hbm, 156, rfl⟩
abbrev main_v13 : Ref sig .tc := ⟨.hbm, 157, rfl⟩
abbrev main_cst_4 : Ref sig .tc := ⟨.hbm, 158, rfl⟩
abbrev main_v14 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_c_1 : Ref sig .tc := ⟨.hbm, 168, rfl⟩
abbrev main_call5_c_2 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_c_3 : Ref sig .tc := ⟨.hbm, 176, rfl⟩
abbrev main_call5_v12 : Ref sig .tc := ⟨.hbm, 177, rfl⟩
abbrev main_call5_v13 : Ref sig .tc := ⟨.hbm, 178, rfl⟩
abbrev main_call5_v14 : Ref sig .tc := ⟨.hbm, 179, rfl⟩
abbrev main_call5_cst : Ref sig .tc := ⟨.hbm, 180, rfl⟩
abbrev main_call5_v15 : Ref sig .tc := ⟨.hbm, 181, rfl⟩
abbrev main_v15 : Ref sig .tc := ⟨.hbm, 182, rfl⟩
abbrev main_cst_5 : Ref sig .tc := ⟨.hbm, 183, rfl⟩
abbrev main_v16 : Ref sig .tc := ⟨.hbm, 184, rfl⟩
abbrev main_call6_c : Ref sig .tc := ⟨.hbm, 185, rfl⟩
abbrev main_call6_v0 : Ref sig .tc := ⟨.hbm, 186, rfl⟩
abbrev main_call6_v1 : Ref sig .tc := ⟨.hbm, 187, rfl⟩
abbrev main_call6_c_0 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_call6_v5 : Ref sig .tc := ⟨.hbm, 192, rfl⟩
abbrev main_call6_c_1 : Ref sig .tc := ⟨.hbm, 193, rfl⟩
abbrev main_call6_c_2 : Ref sig .tc := ⟨.hbm, 194, rfl⟩
abbrev main_call6_v6 : Ref sig .tc := ⟨.hbm, 195, rfl⟩
abbrev main_call6_v7 : Ref sig .tc := ⟨.hbm, 196, rfl⟩
abbrev main_call6_v8 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_c_3 : Ref sig .tc := ⟨.hbm, 201, rfl⟩
abbrev main_call6_v12 : Ref sig .tc := ⟨.hbm, 202, rfl⟩
abbrev main_call6_v13 : Ref sig .tc := ⟨.hbm, 203, rfl⟩
abbrev main_call6_v14 : Ref sig .tc := ⟨.hbm, 204, rfl⟩
abbrev main_call6_cst : Ref sig .tc := ⟨.hbm, 205, rfl⟩
abbrev main_call6_v15 : Ref sig .tc := ⟨.hbm, 206, rfl⟩
abbrev main_v17 : Ref sig .tc := ⟨.hbm, 207, rfl⟩
abbrev main_cst_6 : Ref sig .tc := ⟨.hbm, 208, rfl⟩
abbrev main_v18 : Ref sig .tc := ⟨.hbm, 209, rfl⟩
abbrev main_call7_c : Ref sig .tc := ⟨.hbm, 210, rfl⟩
abbrev main_call7_v0 : Ref sig .tc := ⟨.hbm, 211, rfl⟩
abbrev main_call7_v1 : Ref sig .tc := ⟨.hbm, 212, rfl⟩
abbrev main_call7_c_0 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_v5 : Ref sig .tc := ⟨.hbm, 217, rfl⟩
abbrev main_call7_c_1 : Ref sig .tc := ⟨.hbm, 218, rfl⟩
abbrev main_call7_c_2 : Ref sig .tc := ⟨.hbm, 219, rfl⟩
abbrev main_call7_v6 : Ref sig .tc := ⟨.hbm, 220, rfl⟩
abbrev main_call7_v7 : Ref sig .tc := ⟨.hbm, 221, rfl⟩
abbrev main_call7_v8 : Ref sig .tc := ⟨.hbm, 222, rfl⟩
abbrev main_call7_v9 : Ref sig .tc := ⟨.hbm, 223, rfl⟩
abbrev main_call7_v10 : Ref sig .tc := ⟨.hbm, 224, rfl⟩
abbrev main_call7_v11 : Ref sig .tc := ⟨.hbm, 225, rfl⟩
abbrev main_call7_c_3 : Ref sig .tc := ⟨.hbm, 226, rfl⟩
abbrev main_call7_v12 : Ref sig .tc := ⟨.hbm, 227, rfl⟩
abbrev main_call7_v13 : Ref sig .tc := ⟨.hbm, 228, rfl⟩
abbrev main_call7_v14 : Ref sig .tc := ⟨.hbm, 229, rfl⟩
abbrev main_call7_cst : Ref sig .tc := ⟨.hbm, 230, rfl⟩
abbrev main_call7_v15 : Ref sig .tc := ⟨.hbm, 231, rfl⟩
abbrev main_v19 : Ref sig .tc := ⟨.hbm, 232, rfl⟩
abbrev main_cst_7 : Ref sig .tc := ⟨.hbm, 233, rfl⟩
abbrev main_v20 : Ref sig .tc := ⟨.hbm, 234, rfl⟩
abbrev main_v21 : Ref sig .tc := ⟨.hbm, 235, rfl⟩
abbrev main_v22 : Ref sig .tc := ⟨.hbm, 236, rfl⟩
abbrev main_v23 : Ref sig .tc := ⟨.hbm, 237, rfl⟩
abbrev main_v24 : Ref sig .tc := ⟨.hbm, 238, rfl⟩
abbrev main_v25 : Ref sig .tc := ⟨.hbm, 239, rfl⟩
abbrev main_v26 : Ref sig .tc := ⟨.hbm, 240, rfl⟩
abbrev main_v27 : Ref sig .tc := ⟨.hbm, 241, rfl⟩
abbrev main_v28 : Ref sig .tc := ⟨.hbm, 242, rfl⟩
abbrev main_v29 : Ref sig .tc := ⟨.hbm, 243, rfl⟩
abbrev main_v30 : Ref sig .tc := ⟨.hbm, 244, rfl⟩
abbrev main_v31 : Ref sig .tc := ⟨.hbm, 245, rfl⟩
abbrev main_v32_0 : Ref sig .tc := ⟨.hbm, 246, rfl⟩
abbrev main_v32_1 : Ref sig .tc := ⟨.hbm, 247, rfl⟩
abbrev main_v32_2 : Ref sig .tc := ⟨.hbm, 248, rfl⟩
abbrev main_v33 : Ref sig .tc := ⟨.hbm, 249, rfl⟩
abbrev main_cst_8 : Ref sig .tc := ⟨.hbm, 250, rfl⟩
abbrev main_v34 : Ref sig .tc := ⟨.hbm, 251, rfl⟩
abbrev main_v35 : Ref sig .tc := ⟨.hbm, 252, rfl⟩
abbrev main_v36 : Ref sig .tc := ⟨.hbm, 253, rfl⟩
abbrev main_cst_9 : Ref sig .tc := ⟨.hbm, 254, rfl⟩
abbrev main_v37 : Ref sig .tc := ⟨.hbm, 255, rfl⟩
abbrev main_v38 : Ref sig .tc := ⟨.hbm, 256, rfl⟩
abbrev main_v39 : Ref sig .tc := ⟨.hbm, 257, rfl⟩
abbrev main_v40 : Ref sig .tc := ⟨.hbm, 258, rfl⟩
abbrev main_cst_10 : Ref sig .tc := ⟨.hbm, 259, rfl⟩
abbrev main_v41 : Ref sig .tc := ⟨.hbm, 260, rfl⟩
abbrev main_v42 : Ref sig .tc := ⟨.hbm, 261, rfl⟩
abbrev main_v43 : Ref sig .tc := ⟨.hbm, 262, rfl⟩
abbrev main_v44 : Ref sig .tc := ⟨.hbm, 263, rfl⟩
abbrev main_v45 : Ref sig .tc := ⟨.hbm, 264, rfl⟩
abbrev main_v46 : Ref sig .tc := ⟨.hbm, 265, rfl⟩
abbrev main_v47 : Ref sig .tc := ⟨.hbm, 266, rfl⟩
abbrev main_v48 : Ref sig .tc := ⟨.hbm, 267, rfl⟩
abbrev main_cst_11 : Ref sig .tc := ⟨.hbm, 268, rfl⟩
abbrev main_v49 : Ref sig .tc := ⟨.hbm, 269, rfl⟩
abbrev main_v50 : Ref sig .tc := ⟨.hbm, 270, rfl⟩
abbrev main_v51 : Ref sig .tc := ⟨.hbm, 271, rfl⟩
abbrev main_v52 : Ref sig .tc := ⟨.hbm, 272, rfl⟩
abbrev main_call8_c : Ref sig .tc := ⟨.hbm, 273, rfl⟩
abbrev main_call8_v0 : Ref sig .tc := ⟨.hbm, 274, rfl⟩
abbrev main_call8_v1 : Ref sig .tc := ⟨.hbm, 275, rfl⟩
abbrev main_call8_c_0 : Ref sig .tc := ⟨.hbm, 276, rfl⟩
abbrev main_call8_v2 : Ref sig .tc := ⟨.hbm, 277, rfl⟩
abbrev main_call8_v3 : Ref sig .tc := ⟨.hbm, 278, rfl⟩
abbrev main_call8_v4 : Ref sig .tc := ⟨.hbm, 279, rfl⟩
abbrev main_call8_v5 : Ref sig .tc := ⟨.hbm, 280, rfl⟩
abbrev main_call8_c_1 : Ref sig .tc := ⟨.hbm, 281, rfl⟩
abbrev main_call8_c_2 : Ref sig .tc := ⟨.hbm, 282, rfl⟩
abbrev main_call8_v6 : Ref sig .tc := ⟨.hbm, 283, rfl⟩
abbrev main_call8_v7 : Ref sig .tc := ⟨.hbm, 284, rfl⟩
abbrev main_call8_v8 : Ref sig .tc := ⟨.hbm, 285, rfl⟩
abbrev main_call8_v9 : Ref sig .tc := ⟨.hbm, 286, rfl⟩
abbrev main_call8_v10 : Ref sig .tc := ⟨.hbm, 287, rfl⟩
abbrev main_call8_v11 : Ref sig .tc := ⟨.hbm, 288, rfl⟩
abbrev main_call8_c_3 : Ref sig .tc := ⟨.hbm, 289, rfl⟩
abbrev main_call8_v12 : Ref sig .tc := ⟨.hbm, 290, rfl⟩
abbrev main_call8_v13 : Ref sig .tc := ⟨.hbm, 291, rfl⟩
abbrev main_call8_v14 : Ref sig .tc := ⟨.hbm, 292, rfl⟩
abbrev main_call8_cst : Ref sig .tc := ⟨.hbm, 293, rfl⟩
abbrev main_call8_v15 : Ref sig .tc := ⟨.hbm, 294, rfl⟩
abbrev main_v53 : Ref sig .tc := ⟨.hbm, 295, rfl⟩
abbrev main_cst_12 : Ref sig .tc := ⟨.hbm, 296, rfl⟩
abbrev main_v54 : Ref sig .tc := ⟨.hbm, 297, rfl⟩
abbrev main_call9_c : Ref sig .tc := ⟨.hbm, 298, rfl⟩
abbrev main_call9_v0 : Ref sig .tc := ⟨.hbm, 299, rfl⟩
abbrev main_call9_v1 : Ref sig .tc := ⟨.hbm, 300, rfl⟩
abbrev main_call9_c_0 : Ref sig .tc := ⟨.hbm, 301, rfl⟩
abbrev main_call9_v2 : Ref sig .tc := ⟨.hbm, 302, rfl⟩
abbrev main_call9_v3 : Ref sig .tc := ⟨.hbm, 303, rfl⟩
abbrev main_call9_v4 : Ref sig .tc := ⟨.hbm, 304, rfl⟩
abbrev main_call9_v5 : Ref sig .tc := ⟨.hbm, 305, rfl⟩
abbrev main_call9_c_1 : Ref sig .tc := ⟨.hbm, 306, rfl⟩
abbrev main_call9_c_2 : Ref sig .tc := ⟨.hbm, 307, rfl⟩
abbrev main_call9_v6 : Ref sig .tc := ⟨.hbm, 308, rfl⟩
abbrev main_call9_v7 : Ref sig .tc := ⟨.hbm, 309, rfl⟩
abbrev main_call9_v8 : Ref sig .tc := ⟨.hbm, 310, rfl⟩
abbrev main_call9_v9 : Ref sig .tc := ⟨.hbm, 311, rfl⟩
abbrev main_call9_v10 : Ref sig .tc := ⟨.hbm, 312, rfl⟩
abbrev main_call9_v11 : Ref sig .tc := ⟨.hbm, 313, rfl⟩
abbrev main_call9_c_3 : Ref sig .tc := ⟨.hbm, 314, rfl⟩
abbrev main_call9_v12 : Ref sig .tc := ⟨.hbm, 315, rfl⟩
abbrev main_call9_v13 : Ref sig .tc := ⟨.hbm, 316, rfl⟩
abbrev main_call9_v14 : Ref sig .tc := ⟨.hbm, 317, rfl⟩
abbrev main_call9_cst : Ref sig .tc := ⟨.hbm, 318, rfl⟩
abbrev main_call9_v15 : Ref sig .tc := ⟨.hbm, 319, rfl⟩
abbrev main_v55 : Ref sig .tc := ⟨.hbm, 320, rfl⟩
abbrev main_cst_13 : Ref sig .tc := ⟨.hbm, 321, rfl⟩
abbrev main_v56 : Ref sig .tc := ⟨.hbm, 322, rfl⟩
abbrev main_call10_c : Ref sig .tc := ⟨.hbm, 323, rfl⟩
abbrev main_call10_v0 : Ref sig .tc := ⟨.hbm, 324, rfl⟩
abbrev main_call10_v1 : Ref sig .tc := ⟨.hbm, 325, rfl⟩
abbrev main_call10_c_0 : Ref sig .tc := ⟨.hbm, 326, rfl⟩
abbrev main_call10_v2 : Ref sig .tc := ⟨.hbm, 327, rfl⟩
abbrev main_call10_v3 : Ref sig .tc := ⟨.hbm, 328, rfl⟩
abbrev main_call10_v4 : Ref sig .tc := ⟨.hbm, 329, rfl⟩
abbrev main_call10_v5 : Ref sig .tc := ⟨.hbm, 330, rfl⟩
abbrev main_call10_c_1 : Ref sig .tc := ⟨.hbm, 331, rfl⟩
abbrev main_call10_c_2 : Ref sig .tc := ⟨.hbm, 332, rfl⟩
abbrev main_call10_v6 : Ref sig .tc := ⟨.hbm, 333, rfl⟩
abbrev main_call10_v7 : Ref sig .tc := ⟨.hbm, 334, rfl⟩
abbrev main_call10_v8 : Ref sig .tc := ⟨.hbm, 335, rfl⟩
abbrev main_call10_v9 : Ref sig .tc := ⟨.hbm, 336, rfl⟩
abbrev main_call10_v10 : Ref sig .tc := ⟨.hbm, 337, rfl⟩
abbrev main_call10_v11 : Ref sig .tc := ⟨.hbm, 338, rfl⟩
abbrev main_call10_c_3 : Ref sig .tc := ⟨.hbm, 339, rfl⟩
abbrev main_call10_v12 : Ref sig .tc := ⟨.hbm, 340, rfl⟩
abbrev main_call10_v13 : Ref sig .tc := ⟨.hbm, 341, rfl⟩
abbrev main_call10_v14 : Ref sig .tc := ⟨.hbm, 342, rfl⟩
abbrev main_call10_cst : Ref sig .tc := ⟨.hbm, 343, rfl⟩
abbrev main_call10_v15 : Ref sig .tc := ⟨.hbm, 344, rfl⟩
abbrev main_v57 : Ref sig .tc := ⟨.hbm, 345, rfl⟩
abbrev main_cst_14 : Ref sig .tc := ⟨.hbm, 346, rfl⟩
abbrev main_v58 : Ref sig .tc := ⟨.hbm, 347, rfl⟩
abbrev main_call11_c : Ref sig .tc := ⟨.hbm, 348, rfl⟩
abbrev main_call11_v0 : Ref sig .tc := ⟨.hbm, 349, rfl⟩
abbrev main_call11_v1 : Ref sig .tc := ⟨.hbm, 350, rfl⟩
abbrev main_call11_c_0 : Ref sig .tc := ⟨.hbm, 351, rfl⟩
abbrev main_call11_v2 : Ref sig .tc := ⟨.hbm, 352, rfl⟩
abbrev main_call11_v3 : Ref sig .tc := ⟨.hbm, 353, rfl⟩
abbrev main_call11_v4 : Ref sig .tc := ⟨.hbm, 354, rfl⟩
abbrev main_call11_v5 : Ref sig .tc := ⟨.hbm, 355, rfl⟩
abbrev main_call11_c_1 : Ref sig .tc := ⟨.hbm, 356, rfl⟩
abbrev main_call11_c_2 : Ref sig .tc := ⟨.hbm, 357, rfl⟩
abbrev main_call11_v6 : Ref sig .tc := ⟨.hbm, 358, rfl⟩
abbrev main_call11_v7 : Ref sig .tc := ⟨.hbm, 359, rfl⟩
abbrev main_call11_v8 : Ref sig .tc := ⟨.hbm, 360, rfl⟩
abbrev main_call11_v9 : Ref sig .tc := ⟨.hbm, 361, rfl⟩
abbrev main_call11_v10 : Ref sig .tc := ⟨.hbm, 362, rfl⟩
abbrev main_call11_v11 : Ref sig .tc := ⟨.hbm, 363, rfl⟩
abbrev main_call11_c_3 : Ref sig .tc := ⟨.hbm, 364, rfl⟩
abbrev main_call11_v12 : Ref sig .tc := ⟨.hbm, 365, rfl⟩
abbrev main_call11_v13 : Ref sig .tc := ⟨.hbm, 366, rfl⟩
abbrev main_call11_v14 : Ref sig .tc := ⟨.hbm, 367, rfl⟩
abbrev main_call11_cst : Ref sig .tc := ⟨.hbm, 368, rfl⟩
abbrev main_call11_v15 : Ref sig .tc := ⟨.hbm, 369, rfl⟩
abbrev main_v59 : Ref sig .tc := ⟨.hbm, 370, rfl⟩
abbrev main_cst_15 : Ref sig .tc := ⟨.hbm, 371, rfl⟩
abbrev main_v60 : Ref sig .tc := ⟨.hbm, 372, rfl⟩
abbrev main_v61 : Ref sig .tc := ⟨.hbm, 373, rfl⟩
abbrev main_v62 : Ref sig .tc := ⟨.hbm, 374, rfl⟩
abbrev main_v63 : Ref sig .tc := ⟨.hbm, 375, rfl⟩
abbrev main_v64 : Ref sig .tc := ⟨.hbm, 376, rfl⟩
abbrev main_v65 : Ref sig .tc := ⟨.hbm, 377, rfl⟩
abbrev main_v66 : Ref sig .tc := ⟨.hbm, 378, rfl⟩
abbrev main_v67 : Ref sig .tc := ⟨.hbm, 379, rfl⟩
abbrev main_v68 : Ref sig .tc := ⟨.hbm, 380, rfl⟩
abbrev main_v69 : Ref sig .tc := ⟨.hbm, 381, rfl⟩
abbrev main_v70 : Ref sig .tc := ⟨.hbm, 382, rfl⟩
abbrev main_v71 : Ref sig .tc := ⟨.hbm, 383, rfl⟩
abbrev main_v72_0 : Ref sig .tc := ⟨.hbm, 384, rfl⟩
abbrev main_v72_1 : Ref sig .tc := ⟨.hbm, 385, rfl⟩
abbrev main_v72_2 : Ref sig .tc := ⟨.hbm, 386, rfl⟩
abbrev main_v73 : Ref sig .tc := ⟨.hbm, 387, rfl⟩
abbrev main_cst_16 : Ref sig .tc := ⟨.hbm, 388, rfl⟩
abbrev main_v74 : Ref sig .tc := ⟨.hbm, 389, rfl⟩
abbrev main_v75 : Ref sig .tc := ⟨.hbm, 390, rfl⟩
abbrev main_v76 : Ref sig .tc := ⟨.hbm, 391, rfl⟩
abbrev main_cst_17 : Ref sig .tc := ⟨.hbm, 392, rfl⟩
abbrev main_v77 : Ref sig .tc := ⟨.hbm, 393, rfl⟩
abbrev main_v78 : Ref sig .tc := ⟨.hbm, 394, rfl⟩
abbrev main_v79 : Ref sig .tc := ⟨.hbm, 395, rfl⟩
abbrev main_v80 : Ref sig .tc := ⟨.hbm, 396, rfl⟩
abbrev main_cst_18 : Ref sig .tc := ⟨.hbm, 397, rfl⟩
abbrev main_v81 : Ref sig .tc := ⟨.hbm, 398, rfl⟩
abbrev main_v82 : Ref sig .tc := ⟨.hbm, 399, rfl⟩
abbrev main_v83 : Ref sig .tc := ⟨.hbm, 400, rfl⟩
abbrev main_v84 : Ref sig .tc := ⟨.hbm, 401, rfl⟩
abbrev main_v85 : Ref sig .tc := ⟨.hbm, 402, rfl⟩
abbrev main_v86 : Ref sig .tc := ⟨.hbm, 403, rfl⟩
abbrev main_v87 : Ref sig .tc := ⟨.hbm, 404, rfl⟩
abbrev main_v88 : Ref sig .tc := ⟨.hbm, 405, rfl⟩
abbrev main_cst_19 : Ref sig .tc := ⟨.hbm, 406, rfl⟩
abbrev main_v89 : Ref sig .tc := ⟨.hbm, 407, rfl⟩
abbrev main_v90 : Ref sig .tc := ⟨.hbm, 408, rfl⟩
abbrev main_v91 : Ref sig .tc := ⟨.hbm, 409, rfl⟩
abbrev main_v92 : Ref sig .tc := ⟨.hbm, 410, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg7_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem7_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x80x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x144 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x144x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S8192x128 : S_.BroadcastsInDim S8192x128 (![] : Fin 0 → Fin S8192x128.rank)
  bcast_S200000_S200000x1_0 : S200000.BroadcastsInDim S200000x1 (![0] : Fin 1 → Fin S200000x1.rank)
  bcast_S_S50000x1 : S_.BroadcastsInDim S50000x1 (![] : Fin 0 → Fin S50000x1.rank)
  bcast_S50000x1_S50000x1x1_0_1 : S50000x1.BroadcastsInDim S50000x1x1 (![0, 1] : Fin 2 → Fin S50000x1x1.rank)
  bcast_S_S50000x1x1 : S_.BroadcastsInDim S50000x1x1 (![] : Fin 0 → Fin S50000x1x1.rank)
  bcast_S1_S1x1x1_2 : S1.BroadcastsInDim S1x1x1 (![2] : Fin 1 → Fin S1x1x1.rank)
  bcast_S1x1x1_S50000x1x1_0_1_2 : S1x1x1.BroadcastsInDim S50000x1x1 (![0, 1, 2] : Fin 3 → Fin S50000x1x1.rank)
  reducesTo_S50000x1x1_S50000x1_d2 : S50000x1x1.ReducesTo [2] S50000x1
  h_S_ : 0 < S_.numel
  bcast_S50000x1_S50000x1x16_0_1 : S50000x1.BroadcastsInDim S50000x1x16 (![0, 1] : Fin 2 → Fin S50000x1x16.rank)
  bcast_S_S50000x1x16 : S_.BroadcastsInDim S50000x1x16 (![] : Fin 0 → Fin S50000x1x16.rank)
  reducesTo_S50000x1x16_S50000x16_d1 : S50000x1x16.ReducesTo [1] S50000x16
  bcast_S_S50000x2 : S_.BroadcastsInDim S50000x2 (![] : Fin 0 → Fin S50000x2.rank)
  bcast_S50000x2_S50000x2x1_0_1 : S50000x2.BroadcastsInDim S50000x2x1 (![0, 1] : Fin 2 → Fin S50000x2x1.rank)
  bcast_S_S50000x2x1 : S_.BroadcastsInDim S50000x2x1 (![] : Fin 0 → Fin S50000x2x1.rank)
  bcast_S1x1x1_S50000x2x1_0_1_2 : S1x1x1.BroadcastsInDim S50000x2x1 (![0, 1, 2] : Fin 3 → Fin S50000x2x1.rank)
  reducesTo_S50000x2x1_S50000x2_d2 : S50000x2x1.ReducesTo [2] S50000x2
  bcast_S50000x2_S50000x2x16_0_1 : S50000x2.BroadcastsInDim S50000x2x16 (![0, 1] : Fin 2 → Fin S50000x2x16.rank)
  bcast_S_S50000x2x16 : S_.BroadcastsInDim S50000x2x16 (![] : Fin 0 → Fin S50000x2x16.rank)
  reducesTo_S50000x2x16_S50000x16_d1 : S50000x2x16.ReducesTo [1] S50000x16
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  bcast_S_S50000x3x1 : S_.BroadcastsInDim S50000x3x1 (![] : Fin 0 → Fin S50000x3x1.rank)
  bcast_S1x1x1_S50000x3x1_0_1_2 : S1x1x1.BroadcastsInDim S50000x3x1 (![0, 1, 2] : Fin 3 → Fin S50000x3x1.rank)
  reducesTo_S50000x3x1_S50000x3_d2 : S50000x3x1.ReducesTo [2] S50000x3
  bcast_S50000x3_S50000x3x16_0_1 : S50000x3.BroadcastsInDim S50000x3x16 (![0, 1] : Fin 2 → Fin S50000x3x16.rank)
  bcast_S_S50000x3x16 : S_.BroadcastsInDim S50000x3x16 (![] : Fin 0 → Fin S50000x3x16.rank)
  reducesTo_S50000x3x16_S50000x16_d1 : S50000x3x16.ReducesTo [1] S50000x16
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  bcast_S_S50000x4x1 : S_.BroadcastsInDim S50000x4x1 (![] : Fin 0 → Fin S50000x4x1.rank)
  bcast_S1x1x1_S50000x4x1_0_1_2 : S1x1x1.BroadcastsInDim S50000x4x1 (![0, 1, 2] : Fin 3 → Fin S50000x4x1.rank)
  reducesTo_S50000x4x1_S50000x4_d2 : S50000x4x1.ReducesTo [2] S50000x4
  bcast_S50000x4_S50000x4x16_0_1 : S50000x4.BroadcastsInDim S50000x4x16 (![0, 1] : Fin 2 → Fin S50000x4x16.rank)
  bcast_S_S50000x4x16 : S_.BroadcastsInDim S50000x4x16 (![] : Fin 0 → Fin S50000x4x16.rank)
  reducesTo_S50000x4x16_S50000x16_d1 : S50000x4x16.ReducesTo [1] S50000x16
  bcast_S50000x1_S50000x1x64_0_1 : S50000x1.BroadcastsInDim S50000x1x64 (![0, 1] : Fin 2 → Fin S50000x1x64.rank)
  bcast_S_S50000x1x64 : S_.BroadcastsInDim S50000x1x64 (![] : Fin 0 → Fin S50000x1x64.rank)
  reducesTo_S50000x1x64_S50000x64_d1 : S50000x1x64.ReducesTo [1] S50000x64
  bcast_S50000x2_S50000x2x64_0_1 : S50000x2.BroadcastsInDim S50000x2x64 (![0, 1] : Fin 2 → Fin S50000x2x64.rank)
  bcast_S_S50000x2x64 : S_.BroadcastsInDim S50000x2x64 (![] : Fin 0 → Fin S50000x2x64.rank)
  reducesTo_S50000x2x64_S50000x64_d1 : S50000x2x64.ReducesTo [1] S50000x64
  bcast_S50000x3_S50000x3x64_0_1 : S50000x3.BroadcastsInDim S50000x3x64 (![0, 1] : Fin 2 → Fin S50000x3x64.rank)
  bcast_S_S50000x3x64 : S_.BroadcastsInDim S50000x3x64 (![] : Fin 0 → Fin S50000x3x64.rank)
  reducesTo_S50000x3x64_S50000x64_d1 : S50000x3x64.ReducesTo [1] S50000x64
  bcast_S50000x4_S50000x4x64_0_1 : S50000x4.BroadcastsInDim S50000x4x64 (![0, 1] : Fin 2 → Fin S50000x4x64.rank)
  bcast_S_S50000x4x64 : S_.BroadcastsInDim S50000x4x64 (![] : Fin 0 → Fin S50000x4x64.rank)
  reducesTo_S50000x4x64_S50000x64_d1 : S50000x4x64.ReducesTo [1] S50000x64
  concatenates_S50000x64_S50000x16_S50000x80_d1 : Shape.Concatenates [S50000x64, S50000x16] S50000x80 1
  concatenates_S50000x80_S50000x80_S50000x80_S50000x80_S200000x80_d0 : Shape.Concatenates [S50000x80, S50000x80, S50000x80, S50000x80] S200000x80 0
  bcast_S80x128_S1x80x128_1_2 : S80x128.BroadcastsInDim S1x80x128 (![1, 2] : Fin 2 → Fin S1x80x128.rank)
  concatenates_S1x80x128_S1x80x128_S1x80x128_S1x80x128_S4x80x128_d0 : Shape.Concatenates [S1x80x128, S1x80x128, S1x80x128, S1x80x128] S4x80x128 0
  inb_S2000x80_S2000x80_0_0 : ∀ a, (![0, 0] : Fin 2 → Nat) a + S2000x80.size a ≤ S2000x80.size a
  h_S2000x80 : 0 < S2000x80.numel
  shapeCasts_S2000x80_S2000x80 : S2000x80.ShapeCasts S2000x80
  inb_S1x80x128_S1x80x128_0_0_0 : ∀ a, (![0, 0, 0] : Fin 3 → Nat) a + S1x80x128.size a ≤ S1x80x128.size a
  h_S1x80x128 : 0 < S1x80x128.numel
  shapeCasts_S1x80x128_S80x128 : S1x80x128.ShapeCasts S80x128
  reduces_S2000x128_S128 : S2000x128.Reduces [0] S128
  shapeCasts_S1x128_S128 : S1x128.ShapeCasts S128
  bcast_S_S128 : S_.BroadcastsInDim S128 (![] : Fin 0 → Fin S128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S50000x1_S50000x1x128_0_1 : S50000x1.BroadcastsInDim S50000x1x128 (![0, 1] : Fin 2 → Fin S50000x1x128.rank)
  bcast_S_S50000x1x128 : S_.BroadcastsInDim S50000x1x128 (![] : Fin 0 → Fin S50000x1x128.rank)
  reducesTo_S50000x1x128_S50000x128_d1 : S50000x1x128.ReducesTo [1] S50000x128
  bcast_S50000x2_S50000x2x128_0_1 : S50000x2.BroadcastsInDim S50000x2x128 (![0, 1] : Fin 2 → Fin S50000x2x128.rank)
  bcast_S_S50000x2x128 : S_.BroadcastsInDim S50000x2x128 (![] : Fin 0 → Fin S50000x2x128.rank)
  reducesTo_S50000x2x128_S50000x128_d1 : S50000x2x128.ReducesTo [1] S50000x128
  bcast_S50000x3_S50000x3x128_0_1 : S50000x3.BroadcastsInDim S50000x3x128 (![0, 1] : Fin 2 → Fin S50000x3x128.rank)
  bcast_S_S50000x3x128 : S_.BroadcastsInDim S50000x3x128 (![] : Fin 0 → Fin S50000x3x128.rank)
  reducesTo_S50000x3x128_S50000x128_d1 : S50000x3x128.ReducesTo [1] S50000x128
  bcast_S50000x4_S50000x4x128_0_1 : S50000x4.BroadcastsInDim S50000x4x128 (![0, 1] : Fin 2 → Fin S50000x4x128.rank)
  bcast_S_S50000x4x128 : S_.BroadcastsInDim S50000x4x128 (![] : Fin 0 → Fin S50000x4x128.rank)
  reducesTo_S50000x4x128_S50000x128_d1 : S50000x4x128.ReducesTo [1] S50000x128
  concatenates_S50000x128_S50000x16_S50000x144_d1 : Shape.Concatenates [S50000x128, S50000x16] S50000x144 1
  concatenates_S50000x144_S50000x144_S50000x144_S50000x144_S200000x144_d0 : Shape.Concatenates [S50000x144, S50000x144, S50000x144, S50000x144] S200000x144 0
  bcast_S144x128_S1x144x128_1_2 : S144x128.BroadcastsInDim S1x144x128 (![1, 2] : Fin 2 → Fin S1x144x128.rank)
  concatenates_S1x144x128_S1x144x128_S1x144x128_S1x144x128_S4x144x128_d0 : Shape.Concatenates [S1x144x128, S1x144x128, S1x144x128, S1x144x128] S4x144x128 0
  inb_S2000x144_S2000x144_0_0 : ∀ a, (![0, 0] : Fin 2 → Nat) a + S2000x144.size a ≤ S2000x144.size a
  h_S2000x144 : 0 < S2000x144.numel
  shapeCasts_S2000x144_S2000x144 : S2000x144.ShapeCasts S2000x144
  inb_S1x144x128_S1x144x128_0_0_0 : ∀ a, (![0, 0, 0] : Fin 3 → Nat) a + S1x144x128.size a ≤ S1x144x128.size a
  h_S1x144x128 : 0 < S1x144x128.numel
  shapeCasts_S1x144x128_S144x128 : S1x144x128.ShapeCasts S144x128
  dot_S2000x64_S64x128_S2000x128_1_0_0_1_n_n_wf : DotDims.WF S2000x64 S64x128 S2000x128 [1] [0] [0] [1] [] []
  scatter_S8192x128_S200000x1_S200000x128_1_0_0_1_wf : ScatterDims.WF S8192x128 S200000x1 S200000x128 [1] [0] [0] 1
  gather_S300000x16_S50000x1x1_S50000x1x16_2_0_n_n_0_2_116_wf : GatherDims.WF S300000x16 S50000x1x1 S50000x1x16 [2] [0] [] [0] [] 2 ![1, 16]
  gather_S300000x16_S50000x2x1_S50000x2x16_2_0_n_n_0_2_116_wf : GatherDims.WF S300000x16 S50000x2x1 S50000x2x16 [2] [0] [] [0] [] 2 ![1, 16]
  gather_S300000x16_S50000x3x1_S50000x3x16_2_0_n_n_0_2_116_wf : GatherDims.WF S300000x16 S50000x3x1 S50000x3x16 [2] [0] [] [0] [] 2 ![1, 16]
  gather_S300000x16_S50000x4x1_S50000x4x16_2_0_n_n_0_2_116_wf : GatherDims.WF S300000x16 S50000x4x1 S50000x4x16 [2] [0] [] [0] [] 2 ![1, 16]
  gather_S200000x64_S50000x1x1_S50000x1x64_2_0_n_n_0_2_164_wf : GatherDims.WF S200000x64 S50000x1x1 S50000x1x64 [2] [0] [] [0] [] 2 ![1, 64]
  gather_S200000x64_S50000x2x1_S50000x2x64_2_0_n_n_0_2_164_wf : GatherDims.WF S200000x64 S50000x2x1 S50000x2x64 [2] [0] [] [0] [] 2 ![1, 64]
  gather_S200000x64_S50000x3x1_S50000x3x64_2_0_n_n_0_2_164_wf : GatherDims.WF S200000x64 S50000x3x1 S50000x3x64 [2] [0] [] [0] [] 2 ![1, 64]
  gather_S200000x64_S50000x4x1_S50000x4x64_2_0_n_n_0_2_164_wf : GatherDims.WF S200000x64 S50000x4x1 S50000x4x64 [2] [0] [] [0] [] 2 ![1, 64]
  dot_S2000x80_S80x128_S2000x128_1_0_0_1_n_n_wf : DotDims.WF S2000x80 S80x128 S2000x128 [1] [0] [0] [1] [] []
  dot_S2000x128_S128x128_S2000x128_1_0_0_1_n_n_wf : DotDims.WF S2000x128 S128x128 S2000x128 [1] [0] [0] [1] [] []
  gather_S200000x128_S50000x1x1_S50000x1x128_2_0_n_n_0_2_1128_wf : GatherDims.WF S200000x128 S50000x1x1 S50000x1x128 [2] [0] [] [0] [] 2 ![1, 128]
  gather_S200000x128_S50000x2x1_S50000x2x128_2_0_n_n_0_2_1128_wf : GatherDims.WF S200000x128 S50000x2x1 S50000x2x128 [2] [0] [] [0] [] 2 ![1, 128]
  gather_S200000x128_S50000x3x1_S50000x3x128_2_0_n_n_0_2_1128_wf : GatherDims.WF S200000x128 S50000x3x1 S50000x3x128 [2] [0] [] [0] [] 2 ![1, 128]
  gather_S200000x128_S50000x4x1_S50000x4x128_2_0_n_n_0_2_1128_wf : GatherDims.WF S200000x128 S50000x4x1 S50000x4x128 [2] [0] [] [0] [] 2 ![1, 128]
  dot_S2000x144_S144x128_S2000x128_1_0_0_1_n_n_wf : DotDims.WF S2000x144 S144x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S200000x64.size a
  hwx1_0 : ∀ i : grid1.Coords, EltTy.bits .f32 = 32 ∨ (Rect.block (s := S200000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x80.size a ≤ S200000x80.size a
  hwx1_1 : ∀ i : grid1.Coords, EltTy.bits .f32 = 32 ∨ (Rect.block (s := S200000x80) S2000x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x80x128.size a ≤ S4x80x128.size a
  hwx1_3 : ∀ i : grid1.Coords, EltTy.bits .f32 = 32 ∨ (Rect.block (s := S4x80x128) S1x80x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S200000x128.size a
  hwx1_5 : ∀ i : grid1.Coords, EltTy.bits .f32 = 32 ∨ (Rect.block (s := S200000x128) S2000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S200000x128.size a
  hwx2_3 : ∀ i : grid2.Coords, EltTy.bits .f32 = 32 ∨ (Rect.block (s := S200000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S200000x128.size a
  hwx3_3 : ∀ i : grid3.Coords, EltTy.bits .f32 = 32 ∨ (Rect.block (s := S200000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S200000x128.size a
  hwx4_0 : ∀ i : grid4.Coords, EltTy.bits .f32 = 32 ∨ (Rect.block (s := S200000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x144.size a ≤ S200000x144.size a
  hwx4_1 : ∀ i : grid4.Coords, EltTy.bits .f32 = 32 ∨ (Rect.block (s := S200000x144) S2000x144.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x144x128.size a ≤ S4x144x128.size a
  hwx4_3 : ∀ i : grid4.Coords, EltTy.bits .f32 = 32 ∨ (Rect.block (s := S4x144x128) S1x144x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S200000x128.size a
  hwx4_5 : ∀ i : grid4.Coords, EltTy.bits .f32 = 32 ∨ (Rect.block (s := S200000x128) S2000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S200000x128.size a
  hwx5_0 : ∀ i : grid5.Coords, EltTy.bits .f32 = 32 ∨ (Rect.block (s := S200000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S200000x128.size a
  hwx5_3 : ∀ i : grid5.Coords, EltTy.bits .f32 = 32 ∨ (Rect.block (s := S200000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S200000x128.size a
  hwx6_0 : ∀ i : grid6.Coords, EltTy.bits .f32 = 32 ∨ (Rect.block (s := S200000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S200000x128.size a
  hwx6_3 : ∀ i : grid6.Coords, EltTy.bits .f32 = 32 ∨ (Rect.block (s := S200000x128) S2000x128.size (cc6_transform_3 i) (hinb6_3 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def gather_S300000x16_S50000x1x1_S50000x1x16_2_0_n_n_0_2_116 : GatherDims S300000x16 S50000x1x1 S50000x1x16 where
  offsetDims := [2]
  collapsedSliceDims := [0]
  operandBatchingDims := []
  startIndicesBatchingDims := []
  startIndexMap := [0]
  indexVectorDim := 2
  sliceSizes := ![1, 16]
  wf := gather_S300000x16_S50000x1x1_S50000x1x16_2_0_n_n_0_2_116_wf
def gather_S300000x16_S50000x2x1_S50000x2x16_2_0_n_n_0_2_116 : GatherDims S300000x16 S50000x2x1 S50000x2x16 where
  offsetDims := [2]
  collapsedSliceDims := [0]
  operandBatchingDims := []
  startIndicesBatchingDims := []
  startIndexMap := [0]
  indexVectorDim := 2
  sliceSizes := ![1, 16]
  wf := gather_S300000x16_S50000x2x1_S50000x2x16_2_0_n_n_0_2_116_wf
def gather_S300000x16_S50000x3x1_S50000x3x16_2_0_n_n_0_2_116 : GatherDims S300000x16 S50000x3x1 S50000x3x16 where
  offsetDims := [2]
  collapsedSliceDims := [0]
  operandBatchingDims := []
  startIndicesBatchingDims := []
  startIndexMap := [0]
  indexVectorDim := 2
  sliceSizes := ![1, 16]
  wf := gather_S300000x16_S50000x3x1_S50000x3x16_2_0_n_n_0_2_116_wf
def gather_S300000x16_S50000x4x1_S50000x4x16_2_0_n_n_0_2_116 : GatherDims S300000x16 S50000x4x1 S50000x4x16 where
  offsetDims := [2]
  collapsedSliceDims := [0]
  operandBatchingDims := []
  startIndicesBatchingDims := []
  startIndexMap := [0]
  indexVectorDim := 2
  sliceSizes := ![1, 16]
  wf := gather_S300000x16_S50000x4x1_S50000x4x16_2_0_n_n_0_2_116_wf
def gather_S200000x64_S50000x1x1_S50000x1x64_2_0_n_n_0_2_164 : GatherDims S200000x64 S50000x1x1 S50000x1x64 where
  offsetDims := [2]
  collapsedSliceDims := [0]
  operandBatchingDims := []
  startIndicesBatchingDims := []
  startIndexMap := [0]
  indexVectorDim := 2
  sliceSizes := ![1, 64]
  wf := gather_S200000x64_S50000x1x1_S50000x1x64_2_0_n_n_0_2_164_wf
def gather_S200000x64_S50000x2x1_S50000x2x64_2_0_n_n_0_2_164 : GatherDims S200000x64 S50000x2x1 S50000x2x64 where
  offsetDims := [2]
  collapsedSliceDims := [0]
  operandBatchingDims := []
  startIndicesBatchingDims := []
  startIndexMap := [0]
  indexVectorDim := 2
  sliceSizes := ![1, 64]
  wf := gather_S200000x64_S50000x2x1_S50000x2x64_2_0_n_n_0_2_164_wf
def gather_S200000x64_S50000x3x1_S50000x3x64_2_0_n_n_0_2_164 : GatherDims S200000x64 S50000x3x1 S50000x3x64 where
  offsetDims := [2]
  collapsedSliceDims := [0]
  operandBatchingDims := []
  startIndicesBatchingDims := []
  startIndexMap := [0]
  indexVectorDim := 2
  sliceSizes := ![1, 64]
  wf := gather_S200000x64_S50000x3x1_S50000x3x64_2_0_n_n_0_2_164_wf
def gather_S200000x64_S50000x4x1_S50000x4x64_2_0_n_n_0_2_164 : GatherDims S200000x64 S50000x4x1 S50000x4x64 where
  offsetDims := [2]
  collapsedSliceDims := [0]
  operandBatchingDims := []
  startIndicesBatchingDims := []
  startIndexMap := [0]
  indexVectorDim := 2
  sliceSizes := ![1, 64]
  wf := gather_S200000x64_S50000x4x1_S50000x4x64_2_0_n_n_0_2_164_wf
def dot_S2000x80_S80x128_S2000x128_1_0_0_1_n_n : DotDims S2000x80 S80x128 S2000x128 where
  lhsContracting := [1]
  rhsContracting := [0]
  lhsNonContracting := [0]
  rhsNonContracting := [1]
  lhsBatch := []
  rhsBatch := []
  wf := dot_S2000x80_S80x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S200000x128_S50000x1x1_S50000x1x128_2_0_n_n_0_2_1128 : GatherDims S200000x128 S50000x1x1 S50000x1x128 where
  offsetDims := [2]
  collapsedSliceDims := [0]
  operandBatchingDims := []
  startIndicesBatchingDims := []
  startIndexMap := [0]
  indexVectorDim := 2
  sliceSizes := ![1, 128]
  wf := gather_S200000x128_S50000x1x1_S50000x1x128_2_0_n_n_0_2_1128_wf
def gather_S200000x128_S50000x2x1_S50000x2x128_2_0_n_n_0_2_1128 : GatherDims S200000x128 S50000x2x1 S50000x2x128 where
  offsetDims := [2]
  collapsedSliceDims := [0]
  operandBatchingDims := []
  startIndicesBatchingDims := []
  startIndexMap := [0]
  indexVectorDim := 2
  sliceSizes := ![1, 128]
  wf := gather_S200000x128_S50000x2x1_S50000x2x128_2_0_n_n_0_2_1128_wf
def gather_S200000x128_S50000x3x1_S50000x3x128_2_0_n_n_0_2_1128 : GatherDims S200000x128 S50000x3x1 S50000x3x128 where
  offsetDims := [2]
  collapsedSliceDims := [0]
  operandBatchingDims := []
  startIndicesBatchingDims := []
  startIndexMap := [0]
  indexVectorDim := 2
  sliceSizes := ![1, 128]
  wf := gather_S200000x128_S50000x3x1_S50000x3x128_2_0_n_n_0_2_1128_wf
def gather_S200000x128_S50000x4x1_S50000x4x128_2_0_n_n_0_2_1128 : GatherDims S200000x128 S50000x4x1 S50000x4x128 where
  offsetDims := [2]
  collapsedSliceDims := [0]
  operandBatchingDims := []
  startIndicesBatchingDims := []
  startIndexMap := [0]
  indexVectorDim := 2
  sliceSizes := ![1, 128]
  wf := gather_S200000x128_S50000x4x1_S50000x4x128_2_0_n_n_0_2_1128_wf
def dot_S2000x144_S144x128_S2000x128_1_0_0_1_n_n : DotDims S2000x144 S144x128 S2000x128 where
  lhsContracting := [1]
  rhsContracting := [0]
  lhsNonContracting := [0]
  rhsNonContracting := [1]
  lhsBatch := []
  rhsBatch := []
  wf := dot_S2000x144_S144x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x80x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x144.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x144x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v72_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v72_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v86) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S200000x64 : Shape := ⟨2, ![200000, 64]⟩
abbrev S300000x16 : Shape := ⟨2, ![300000, 16]⟩
abbrev S64x128 : Shape := ⟨2, ![64, 128]⟩
abbrev S128 : Shape := ⟨1, ![128]⟩
abbrev S128x128 : Shape := ⟨2, ![128, 128]⟩
abbrev S80x128 : Shape := ⟨2, ![80, 128]⟩
abbrev S144x128 : Shape := ⟨2, ![144, 128]⟩
abbrev S50000x1 : Shape := ⟨2, ![50000, 1]⟩
abbrev S50000x2 : Shape := ⟨2, ![50000, 2]⟩
abbrev S50000x3 : Shape := ⟨2, ![50000, 3]⟩
abbrev S50000x4 : Shape := ⟨2, ![50000, 4]⟩
abbrev S200000 : Shape := ⟨1, ![200000]⟩
abbrev S200000x128 : Shape := ⟨2, ![200000, 128]⟩
abbrev S1x128 : Shape := ⟨2, ![1, 128]⟩
abbrev S_ : Shape := ⟨0, ![]⟩
abbrev S200000x1 : Shape := ⟨2, ![200000, 1]⟩
abbrev S8192x128 : Shape := ⟨2, ![8192, 128]⟩
abbrev S50000x1x1 : Shape := ⟨3, ![50000, 1, 1]⟩
abbrev S50000x1x64 : Shape := ⟨3, ![50000, 1, 64]⟩
abbrev S50000x64 : Shape := ⟨2, ![50000, 64]⟩
abbrev S50000x1x16 : Shape := ⟨3, ![50000, 1, 16]⟩
abbrev S50000x16 : Shape := ⟨2, ![50000, 16]⟩
abbrev S50000x80 : Shape := ⟨2, ![50000, 80]⟩
abbrev S50000x128 : Shape := ⟨2, ![50000, 128]⟩
abbrev S50000x2x1 : Shape := ⟨3, ![50000, 2, 1]⟩
abbrev S50000x2x64 : Shape := ⟨3, ![50000, 2, 64]⟩
abbrev S50000x2x16 : Shape := ⟨3, ![50000, 2, 16]⟩
abbrev S50000x3x1 : Shape := ⟨3, ![50000, 3, 1]⟩
abbrev S50000x3x64 : Shape := ⟨3, ![50000, 3, 64]⟩
abbrev S50000x3x16 : Shape := ⟨3, ![50000, 3, 16]⟩
abbrev S50000x4x1 : Shape := ⟨3, ![50000, 4, 1]⟩
abbrev S50000x4x64 : Shape := ⟨3, ![50000, 4, 64]⟩
abbrev S50000x4x16 : Shape := ⟨3, ![50000, 4, 16]⟩
abbrev S50000x1x128 : Shape := ⟨3, ![50000, 1, 128]⟩
abbrev S50000x144 : Shape := ⟨2, ![50000, 144]⟩
abbrev S50000x2x128 : Shape := ⟨3, ![50000, 2, 128]⟩
abbrev S50000x3x128 : Shape := ⟨3, ![50000, 3, 128]⟩
abbrev S50000x4x128 : Shape := ⟨3, ![50000, 4, 128]⟩

abbrev nBuf : Space → Nat
  | .hbm => 383
  | .vmem => 0
  | .smem => 0
  | _ => 0

abbrev hbmTy0_0 (i : Nat) : BufTy := match i % 128 with
  | 0 => ⟨S200000x64, .f32⟩
  | 1 => ⟨S300000x16, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S128, .f32⟩
  | 10 => ⟨S80x128, .f32⟩
  | 11 => ⟨S80x128, .f32⟩
  | 12 => ⟨S80x128, .f32⟩
  | 13 => ⟨S80x128, .f32⟩
  | 14 => ⟨S128x128, .f32⟩
  | 15 => ⟨S128, .f32⟩
  | 16 => ⟨S144x128, .f32⟩
  | 17 => ⟨S144x128, .f32⟩
  | 18 => ⟨S144x128, .f32⟩
  | 19 => ⟨S144x128, .f32⟩
  | 20 => ⟨S50000x1, .i32⟩
  | 21 => ⟨S50000x2, .i32⟩
  | 22 => ⟨S50000x3, .i32⟩
  | 23 => ⟨S50000x4, .i32⟩
  | 24 => ⟨S50000x1, .i32⟩
  | 25 => ⟨S50000x2, .i32⟩
  | 26 => ⟨S50000x3, .i32⟩
  | 27 => ⟨S50000x4, .i32⟩
  | 28 => ⟨S200000, .i32⟩
  | 29 => ⟨S200000x128, .f32⟩
  | 30 => ⟨S1x128, .f32⟩
  | 31 => ⟨S200000x128, .f32⟩
  | 32 => ⟨S200000x128, .f32⟩
  | 33 => ⟨S_, .f32⟩
  | 34 => ⟨S200000, .f32⟩
  | 35 => ⟨S_, .f32⟩
  | 36 => ⟨S200000, .f32⟩
  | 37 => ⟨S200000, .f32⟩
  | 38 => ⟨S200000x1, .f32⟩
  | 39 => ⟨S200000x128, .f32⟩
  | 40 => ⟨S200000x128, .f32⟩
  | 41 => ⟨S200000x128, .f32⟩
  | 42 => ⟨S_, .f32⟩
  | 43 => ⟨S200000, .f32⟩
  | 44 => ⟨S200000x1, .f32⟩
  | 45 => ⟨S200000x128, .f32⟩
  | 46 => ⟨S200000x128, .f32⟩
  | 47 => ⟨S_, .f32⟩
  | 48 => ⟨S8192x128, .f32⟩
  | 49 => ⟨S200000x1, .i32⟩
  | 50 => ⟨S8192x128, .f32⟩
  | 51 => ⟨S_, .i32⟩
  | 52 => ⟨S50000x1, .i32⟩
  | 53 => ⟨S50000x1, .i1⟩
  | 54 => ⟨S_, .i32⟩
  | 55 => ⟨S50000x1, .i32⟩
  | 56 => ⟨S50000x1, .i32⟩
  | 57 => ⟨S50000x1, .i32⟩
  | 58 => ⟨S50000x1x1, .i32⟩
  | 59 => ⟨S50000x1x64, .f32⟩
  | 60 => ⟨S_, .f32⟩
  | 61 => ⟨S50000x64, .f32⟩
  | 62 => ⟨S_, .i32⟩
  | 63 => ⟨S50000x1, .i32⟩
  | 64 => ⟨S50000x1, .i1⟩
  | 65 => ⟨S_, .i32⟩
  | 66 => ⟨S50000x1, .i32⟩
  | 67 => ⟨S50000x1, .i32⟩
  | 68 => ⟨S50000x1, .i32⟩
  | 69 => ⟨S50000x1x1, .i32⟩
  | 70 => ⟨S50000x1x16, .f32⟩
  | 71 => ⟨S_, .f32⟩
  | 72 => ⟨S50000x16, .f32⟩
  | 73 => ⟨S50000x80, .f32⟩
  | 74 => ⟨S50000x128, .f32⟩
  | 75 => ⟨S_, .i32⟩
  | 76 => ⟨S50000x2, .i32⟩
  | 77 => ⟨S50000x2, .i1⟩
  | 78 => ⟨S_, .i32⟩
  | 79 => ⟨S50000x2, .i32⟩
  | 80 => ⟨S50000x2, .i32⟩
  | 81 => ⟨S50000x2, .i32⟩
  | 82 => ⟨S50000x2x1, .i32⟩
  | 83 => ⟨S50000x2x64, .f32⟩
  | 84 => ⟨S_, .f32⟩
  | 85 => ⟨S50000x64, .f32⟩
  | 86 => ⟨S_, .i32⟩
  | 87 => ⟨S50000x2, .i32⟩
  | 88 => ⟨S50000x2, .i1⟩
  | 89 => ⟨S_, .i32⟩
  | 90 => ⟨S50000x2, .i32⟩
  | 91 => ⟨S50000x2, .i32⟩
  | 92 => ⟨S50000x2, .i32⟩
  | 93 => ⟨S50000x2x1, .i32⟩
  | 94 => ⟨S50000x2x16, .f32⟩
  | 95 => ⟨S_, .f32⟩
  | 96 => ⟨S50000x16, .f32⟩
  | 97 => ⟨S50000x80, .f32⟩
  | 98 => ⟨S50000x128, .f32⟩
  | 99 => ⟨S_, .i32⟩
  | 100 => ⟨S50000x3, .i32⟩
  | 101 => ⟨S50000x3, .i1⟩
  | 102 => ⟨S_, .i32⟩
  | 103 => ⟨S50000x3, .i32⟩
  | 104 => ⟨S50000x3, .i32⟩
  | 105 => ⟨S50000x3, .i32⟩
  | 106 => ⟨S50000x3x1, .i32⟩
  | 107 => ⟨S50000x3x64, .f32⟩
  | 108 => ⟨S_, .f32⟩
  | 109 => ⟨S50000x64, .f32⟩
  | 110 => ⟨S_, .i32⟩
  | 111 => ⟨S50000x3, .i32⟩
  | 112 => ⟨S50000x3, .i1⟩
  | 113 => ⟨S_, .i32⟩
  | 114 => ⟨S50000x3, .i32⟩
  | 115 => ⟨S50000x3, .i32⟩
  | 116 => ⟨S50000x3, .i32⟩
  | 117 => ⟨S50000x3x1, .i32⟩
  | 118 => ⟨S50000x3x16, .f32⟩
  | 119 => ⟨S_, .f32⟩
  | 120 => ⟨S50000x16, .f32⟩
  | 121 => ⟨S50000x80, .f32⟩
  | 122 => ⟨S50000x128, .f32⟩
  | 123 => ⟨S_, .i32⟩
  | 124 => ⟨S50000x4, .i32⟩
  | 125 => ⟨S50000x4, .i1⟩
  | 126 => ⟨S_, .i32⟩
  | 127 => ⟨S50000x4, .i32⟩
  | _ => ⟨S200000x64, .f32⟩

abbrev hbmTy0_1 (i : Nat) : BufTy := match i % 128 with
  | 0 => ⟨S50000x4, .i32⟩
  | 1 => ⟨S50000x4, .i32⟩
  | 2 => ⟨S50000x4x1, .i32⟩
  | 3 => ⟨S50000x4x64, .f32⟩
  | 4 => ⟨S_, .f32⟩
  | 5 => ⟨S50000x64, .f32⟩
  | 6 => ⟨S_, .i32⟩
  | 7 => ⟨S50000x4, .i32⟩
  | 8 => ⟨S50000x4, .i1⟩
  | 9 => ⟨S_, .i32⟩
  | 10 => ⟨S50000x4, .i32⟩
  | 11 => ⟨S50000x4, .i32⟩
  | 12 => ⟨S50000x4, .i32⟩
  | 13 => ⟨S50000x4x1, .i32⟩
  | 14 => ⟨S50000x4x16, .f32⟩
  | 15 => ⟨S_, .f32⟩
  | 16 => ⟨S50000x16, .f32⟩
  | 17 => ⟨S50000x80, .f32⟩
  | 18 => ⟨S50000x128, .f32⟩
  | 19 => ⟨S200000x128, .f32⟩
  | 20 => ⟨S200000x128, .f32⟩
  | 21 => ⟨S200000x128, .f32⟩
  | 22 => ⟨S1x128, .f32⟩
  | 23 => ⟨S200000x128, .f32⟩
  | 24 => ⟨S200000x128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S200000x128, .f32⟩
  | 32 => ⟨S200000x128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S200000x128, .f32⟩
  | 41 => ⟨S200000x128, .f32⟩
  | 42 => ⟨S200000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S_, .f32⟩
  | 57 => ⟨S128, .f32⟩
  | 58 => ⟨S128, .f32⟩
  | 59 => ⟨S128, .f32⟩
  | 60 => ⟨S1x128, .f32⟩
  | 61 => ⟨S200000x128, .f32⟩
  | 62 => ⟨S200000x128, .f32⟩
  | 63 => ⟨S_, .f32⟩
  | 64 => ⟨S200000x128, .f32⟩
  | 65 => ⟨S200000x128, .f32⟩
  | 66 => ⟨S200000x128, .f32⟩
  | 67 => ⟨S1x128, .f32⟩
  | 68 => ⟨S200000x128, .f32⟩
  | 69 => ⟨S200000x128, .f32⟩
  | 70 => ⟨S_, .f32⟩
  | 71 => ⟨S200000, .f32⟩
  | 72 => ⟨S_, .f32⟩
  | 73 => ⟨S200000, .f32⟩
  | 74 => ⟨S200000, .f32⟩
  | 75 => ⟨S200000x1, .f32⟩
  | 76 => ⟨S200000x128, .f32⟩
  | 77 => ⟨S200000x128, .f32⟩
  | 78 => ⟨S200000x128, .f32⟩
  | 79 => ⟨S_, .f32⟩
  | 80 => ⟨S200000, .f32⟩
  | 81 => ⟨S200000x1, .f32⟩
  | 82 => ⟨S200000x128, .f32⟩
  | 83 => ⟨S200000x128, .f32⟩
  | 84 => ⟨S_, .f32⟩
  | 85 => ⟨S8192x128, .f32⟩
  | 86 => ⟨S200000x1, .i32⟩
  | 87 => ⟨S8192x128, .f32⟩
  | 88 => ⟨S8192x128, .f32⟩
  | 89 => ⟨S_, .i32⟩
  | 90 => ⟨S50000x1, .i32⟩
  | 91 => ⟨S50000x1, .i1⟩
  | 92 => ⟨S_, .i32⟩
  | 93 => ⟨S50000x1, .i32⟩
  | 94 => ⟨S50000x1, .i32⟩
  | 95 => ⟨S50000x1, .i32⟩
  | 96 => ⟨S50000x1x1, .i32⟩
  | 97 => ⟨S50000x1x128, .f32⟩
  | 98 => ⟨S_, .f32⟩
  | 99 => ⟨S50000x128, .f32⟩
  | 100 => ⟨S_, .i32⟩
  | 101 => ⟨S50000x1, .i32⟩
  | 102 => ⟨S50000x1, .i1⟩
  | 103 => ⟨S_, .i32⟩
  | 104 => ⟨S50000x1, .i32⟩
  | 105 => ⟨S50000x1, .i32⟩
  | 106 => ⟨S50000x1, .i32⟩
  | 107 => ⟨S50000x1x1, .i32⟩
  | 108 => ⟨S50000x1x16, .f32⟩
  | 109 => ⟨S_, .f32⟩
  | 110 => ⟨S50000x16, .f32⟩
  | 111 => ⟨S50000x144, .f32⟩
  | 112 => ⟨S50000x128, .f32⟩
  | 113 => ⟨S_, .i32⟩
  | 114 => ⟨S50000x2, .i32⟩
  | 115 => ⟨S50000x2, .i1⟩
  | 116 => ⟨S_, .i32⟩
  | 117 => ⟨S50000x2, .i32⟩
  | 118 => ⟨S50000x2, .i32⟩
  | 119 => ⟨S50000x2, .i32⟩
  | 120 => ⟨S50000x2x1, .i32⟩
  | 121 => ⟨S50000x2x128, .f32⟩
  | 122 => ⟨S_, .f32⟩
  | 123 => ⟨S50000x128, .f32⟩
  | 124 => ⟨S_, .i32⟩
  | 125 => ⟨S50000x2, .i32⟩
  | 126 => ⟨S50000x2, .i1⟩
  | 127 => ⟨S_, .i32⟩
  | _ => ⟨S200000x64, .f32⟩

abbrev hbmTy0_2 (i : Nat) : BufTy := match i % 128 with
  | 0 => ⟨S50000x2, .i32⟩
  | 1 => ⟨S50000x2, .i32⟩
  | 2 => ⟨S50000x2, .i32⟩
  | 3 => ⟨S50000x2x1, .i32⟩
  | 4 => ⟨S50000x2x16, .f32⟩
  | 5 => ⟨S_, .f32⟩
  | 6 => ⟨S50000x16, .f32⟩
  | 7 => ⟨S50000x144, .f32⟩
  | 8 => ⟨S50000x128, .f32⟩
  | 9 => ⟨S_, .i32⟩
  | 10 => ⟨S50000x3, .i32⟩
  | 11 => ⟨S50000x3, .i1⟩
  | 12 => ⟨S_, .i32⟩
  | 13 => ⟨S50000x3, .i32⟩
  | 14 => ⟨S50000x3, .i32⟩
  | 15 => ⟨S50000x3, .i32⟩
  | 16 => ⟨S50000x3x1, .i32⟩
  | 17 => ⟨S50000x3x128, .f32⟩
  | 18 => ⟨S_, .f32⟩
  | 19 => ⟨S50000x128, .f32⟩
  | 20 => ⟨S_, .i32⟩
  | 21 => ⟨S50000x3, .i32⟩
  | 22 => ⟨S50000x3, .i1⟩
  | 23 => ⟨S_, .i32⟩
  | 24 => ⟨S50000x3, .i32⟩
  | 25 => ⟨S50000x3, .i32⟩
  | 26 => ⟨S50000x3, .i32⟩
  | 27 => ⟨S50000x3x1, .i32⟩
  | 28 => ⟨S50000x3x16, .f32⟩
  | 29 => ⟨S_, .f32⟩
  | 30 => ⟨S50000x16, .f32⟩
  | 31 => ⟨S50000x144, .f32⟩
  | 32 => ⟨S50000x128, .f32⟩
  | 33 => ⟨S_, .i32⟩
  | 34 => ⟨S50000x4, .i32⟩
  | 35 => ⟨S50000x4, .i1⟩
  | 36 => ⟨S_, .i32⟩
  | 37 => ⟨S50000x4, .i32⟩
  | 38 => ⟨S50000x4, .i32⟩
  | 39 => ⟨S50000x4, .i32⟩
  | 40 => ⟨S50000x4x1, .i32⟩
  | 41 => ⟨S50000x4x128, .f32⟩
  | 42 => ⟨S_, .f32⟩
  | 43 => ⟨S50000x128, .f32⟩
  | 44 => ⟨S_, .i32⟩
  | 45 => ⟨S50000x4, .i32⟩
  | 46 => ⟨S50000x4, .i1⟩
  | 47 => ⟨S_, .i32⟩
  | 48 => ⟨S50000x4, .i32⟩
  | 49 => ⟨S50000x4, .i32⟩
  | 50 => ⟨S50000x4, .i32⟩
  | 51 => ⟨S50000x4x1, .i32⟩
  | 52 => ⟨S50000x4x16, .f32⟩
  | 53 => ⟨S_, .f32⟩
  | 54 => ⟨S50000x16, .f32⟩
  | 55 => ⟨S50000x144, .f32⟩
  | 56 => ⟨S50000x128, .f32⟩
  | 57 => ⟨S200000x128, .f32⟩
  | 58 => ⟨S200000x128, .f32⟩
  | 59 => ⟨S200000x128, .f32⟩
  | 60 => ⟨S1x128, .f32⟩
  | 61 => ⟨S200000x128, .f32⟩
  | 62 => ⟨S200000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S200000x128, .f32⟩
  | 70 => ⟨S200000x128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S200000x128, .f32⟩
  | 79 => ⟨S200000x128, .f32⟩
  | 80 => ⟨S200000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S128, .f32⟩
  | 98 => ⟨S1x128, .f32⟩
  | 99 => ⟨S200000x128, .f32⟩
  | 100 => ⟨S200000x128, .f32⟩
  | 101 => ⟨S_, .f32⟩
  | 102 => ⟨S200000x128, .f32⟩
  | 103 => ⟨S200000x128, .f32⟩
  | 104 => ⟨S200000x128, .f32⟩
  | 105 => ⟨S1x128, .f32⟩
  | 106 => ⟨S200000x128, .f32⟩
  | 107 => ⟨S200000x128, .f32⟩
  | 108 => ⟨S_, .f32⟩
  | 109 => ⟨S200000, .f32⟩
  | 110 => ⟨S_, .f32⟩
  | 111 => ⟨S200000, .f32⟩
  | 112 => ⟨S200000, .f32⟩
  | 113 => ⟨S200000x1, .f32⟩
  | 114 => ⟨S200000x128, .f32⟩
  | 115 => ⟨S200000x128, .f32⟩
  | 116 => ⟨S200000x128, .f32⟩
  | 117 => ⟨S_, .f32⟩
  | 118 => ⟨S200000, .f32⟩
  | 119 => ⟨S200000x1, .f32⟩
  | 120 => ⟨S200000x128, .f32⟩
  | 121 => ⟨S200000x128, .f32⟩
  | 122 => ⟨S_, .f32⟩
  | 123 => ⟨S8192x128, .f32⟩
  | 124 => ⟨S200000x1, .i32⟩
  | 125 => ⟨S8192x128, .f32⟩
  | 126 => ⟨S8192x128, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_4 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_7 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_8 : Ref sig .tc := ⟨.hbm, 75, rfl⟩
abbrev main_v36 : Ref sig .tc := ⟨.hbm, 76, rfl⟩
abbrev main_v37 : Ref sig .tc := ⟨.hbm, 77, rfl⟩
abbrev main_c_9 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_10 : Ref sig .tc := ⟨.hbm, 84, rfl⟩
abbrev main_v43 : Ref sig .tc := ⟨.hbm, 85, rfl⟩
abbrev main_c_11 : Ref sig .tc := ⟨.hbm, 86, rfl⟩
abbrev main_v44 : Ref sig .tc := ⟨.hbm, 87, rfl⟩
abbrev main_v45 : Ref sig .tc := ⟨.hbm, 88, rfl⟩
abbrev main_c_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_13 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_14 : Ref sig .tc := ⟨.hbm, 99, rfl⟩
abbrev main_v54 : Ref sig .tc := ⟨.hbm, 100, rfl⟩
abbrev main_v55 : Ref sig .tc := ⟨.hbm, 101, rfl⟩
abbrev main_c_15 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_16 : Ref sig .tc := ⟨.hbm, 108, rfl⟩
abbrev main_v61 : Ref sig .tc := ⟨.hbm, 109, rfl⟩
abbrev main_c_17 : Ref sig .tc := ⟨.hbm, 110, rfl⟩
abbrev main_v62 : Ref sig .tc := ⟨.hbm, 111, rfl⟩
abbrev main_v63 : Ref sig .tc := ⟨.hbm, 112, rfl⟩
abbrev main_c_18 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_19 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_c_20 : Ref sig .tc := ⟨.hbm, 123, rfl⟩
abbrev main_v72 : Ref sig .tc := ⟨.hbm, 124, rfl⟩
abbrev main_v73 : Ref sig .tc := ⟨.hbm, 125, rfl⟩
abbrev main_c_21 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_22 : Ref sig .tc := ⟨.hbm, 132, rfl⟩
abbrev main_v79 : Ref sig .tc := ⟨.hbm, 133, rfl⟩
abbrev main_c_23 : Ref sig .tc := ⟨.hbm, 134, rfl⟩
abbrev main_v80 : Ref sig .tc := ⟨.hbm, 135, rfl⟩
abbrev main_v81 : Ref sig .tc := ⟨.hbm, 136, rfl⟩
abbrev main_c_24 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_25 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_26 : Ref sig .tc := ⟨.hbm, 153, rfl⟩
abbrev main_v96 : Ref sig .tc := ⟨.hbm, 154, rfl⟩
abbrev main_cst_27 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_28 : Ref sig .tc := ⟨.hbm, 161, rfl⟩
abbrev main_call0_cst : Ref sig .tc := ⟨.hbm, 162, rfl⟩
abbrev main_call0_v0 : Ref sig .tc := ⟨.hbm, 163, rfl⟩
abbrev main_call0_v1 : Ref sig .tc := ⟨.hbm, 164, rfl⟩
abbrev main_call0_cst_0 : Ref sig .tc := ⟨.hbm, 165, rfl⟩
abbrev main_call0_v2 : Ref sig .tc := ⟨.hbm, 166, rfl⟩
abbrev main_call0_v3 : Ref sig .tc := ⟨.hbm, 167, rfl⟩
abbrev main_call0_v4 : Ref sig .tc := ⟨.hbm, 168, rfl⟩
abbrev main_call0_v5 : Ref sig .tc := ⟨.hbm, 169, rfl⟩
abbrev main_call0_v6 : Ref sig .tc := ⟨.hbm, 170, rfl⟩
abbrev main_call0_v7 : Ref sig .tc := ⟨.hbm, 171, rfl⟩
abbrev main_call0_cst_1 : Ref sig .tc := ⟨.hbm, 172, rfl⟩
abbrev main_call0_v8 : Ref sig .tc := ⟨.hbm, 173, rfl⟩
abbrev main_call0_cst_2 : Ref sig .tc := ⟨.hbm, 174, rfl⟩
abbrev main_call0_v9 : Ref sig .tc := ⟨.hbm, 175, rfl⟩
abbrev main_call0_v10 : Ref sig .tc := ⟨.hbm, 176, rfl⟩
abbrev main_call0_v11 : Ref sig .tc := ⟨.hbm, 177, rfl⟩
abbrev main_call0_cst_3 : Ref sig .tc := ⟨.hbm, 178, rfl⟩
abbrev main_call0_v12 : Ref sig .tc := ⟨.hbm, 179, rfl⟩
abbrev main_call0_cst_4 : Ref sig .tc := ⟨.hbm, 180, rfl⟩
abbrev main_call0_call0_v0 : Ref sig .tc := ⟨.hbm, 181, rfl⟩
abbrev main_call0_call0_v1 : Ref sig .tc := ⟨.hbm, 182, rfl⟩
abbrev main_v102 : Ref sig .tc := ⟨.hbm, 183, rfl⟩
abbrev main_cst_29 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_call1_cst : Ref sig .tc := ⟨.hbm, 191, rfl⟩
abbrev main_call1_v0 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_cst_30 : Ref sig .tc := ⟨.hbm, 198, rfl⟩
abbrev main_v114 : Ref sig .tc := ⟨.hbm, 199, rfl⟩
abbrev main_cst_31 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_cst_32 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_33 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_c_34 : Ref sig .tc := ⟨.hbm, 217, rfl⟩
abbrev main_v129 : Ref sig .tc := ⟨.hbm, 218, rfl⟩
abbrev main_v130 : Ref sig .tc := ⟨.hbm, 219, rfl⟩
abbrev main_c_35 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_cst_36 : Ref sig .tc := ⟨.hbm, 226, rfl⟩
abbrev main_v136 : Ref sig .tc := ⟨.hbm, 227, rfl⟩
abbrev main_c_37 : Ref sig .tc := ⟨.hbm, 228, rfl⟩
abbrev main_v137 : Ref sig .tc := ⟨.hbm, 229, rfl⟩
abbrev main_v138 : Ref sig .tc := ⟨.hbm, 230, rfl⟩
abbrev main_c_38 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_cst_39 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_c_40 : Ref sig .tc := ⟨.hbm, 241, rfl⟩
abbrev main_v147 : Ref sig .tc := ⟨.hbm, 242, rfl⟩
abbrev main_v148 : Ref sig .tc := ⟨.hbm, 243, rfl⟩
abbrev main_c_41 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_cst_42 : Ref sig .tc := ⟨.hbm, 250, rfl⟩
abbrev main_v154 : Ref sig .tc := ⟨.hbm, 251, rfl⟩
abbrev main_c_43 : Ref sig .tc := ⟨.hbm, 252, rfl⟩
abbrev main_v155 : Ref sig .tc := ⟨.hbm, 253, rfl⟩
abbrev main_v156 : Ref sig .tc := ⟨.hbm, 254, rfl⟩
abbrev main_c_44 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_cst_45 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_c_46 : Ref sig .tc := ⟨.hbm, 265, rfl⟩
abbrev main_v165 : Ref sig .tc := ⟨.hbm, 266, rfl⟩
abbrev main_v166 : Ref sig .tc := ⟨.hbm, 267, rfl⟩
abbrev main_c_47 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_cst_48 : Ref sig .tc := ⟨.hbm, 274, rfl⟩
abbrev main_v172 : Ref sig .tc := ⟨.hbm, 275, rfl⟩
abbrev main_c_49 : Ref sig .tc := ⟨.hbm, 276, rfl⟩
abbrev main_v173 : Ref sig .tc := ⟨.hbm, 277, rfl⟩
abbrev main_v174 : Ref sig .tc := ⟨.hbm, 278, rfl⟩
abbrev main_c_50 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_51 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_c_52 : Ref sig .tc := ⟨.hbm, 289, rfl⟩
abbrev main_v183 : Ref sig .tc := ⟨.hbm, 290, rfl⟩
abbrev main_v184 : Ref sig .tc := ⟨.hbm, 291, rfl⟩
abbrev main_c_53 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_cst_54 : Ref sig .tc := ⟨.hbm, 298, rfl⟩
abbrev main_v190 : Ref sig .tc := ⟨.hbm, 299, rfl⟩
abbrev main_c_55 : Ref sig .tc := ⟨.hbm, 300, rfl⟩
abbrev main_v191 : Ref sig .tc := ⟨.hbm, 301, rfl⟩
abbrev main_v192 : Ref sig .tc := ⟨.hbm, 302, rfl⟩
abbrev main_c_56 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_cst_57 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_cst_58 : Ref sig .tc := ⟨.hbm, 319, rfl⟩
abbrev main_v207 : Ref sig .tc := ⟨.hbm, 320, rfl⟩
abbrev main_cst_59 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_c_60 : Ref sig .tc := ⟨.hbm, 327, rfl⟩
abbrev main_call2_cst : Ref sig .tc := ⟨.hbm, 328, rfl⟩
abbrev main_call2_v0 : Ref sig .tc := ⟨.hbm, 329, rfl⟩
abbrev main_call2_v1 : Ref sig .tc := ⟨.hbm, 330, rfl⟩
abbrev main_call2_cst_0 : Ref sig .tc := ⟨.hbm, 331, rfl⟩
abbrev main_call2_v2 : Ref sig .tc := ⟨.hbm, 332, rfl⟩
abbrev main_call2_v3 : Ref sig .tc := ⟨.hbm, 333, rfl⟩
abbrev main_call2_v4 : Ref sig .tc := ⟨.hbm, 334, rfl⟩
abbrev main_call2_v5 : Ref sig .tc := ⟨.hbm, 335, rfl⟩
abbrev main_call2_v6 : Ref sig .tc := ⟨.hbm, 336, rfl⟩
abbrev main_call2_v7 : Ref sig .tc := ⟨.hbm, 337, rfl⟩
abbrev main_call2_cst_1 : Ref sig .tc := ⟨.hbm, 338, rfl⟩
abbrev main_call2_v8 : Ref sig .tc := ⟨.hbm, 339, rfl⟩
abbrev main_call2_cst_2 : Ref sig .tc := ⟨.hbm, 340, rfl⟩
abbrev main_call2_v9 : Ref sig .tc := ⟨.hbm, 341, rfl⟩
abbrev main_call2_v10 : Ref sig .tc := ⟨.hbm, 342, rfl⟩
abbrev main_call2_v11 : Ref sig .tc := ⟨.hbm, 343, rfl⟩
abbrev main_call2_cst_3 : Ref sig .tc := ⟨.hbm, 344, rfl⟩
abbrev main_call2_v12 : Ref sig .tc := ⟨.hbm, 345, rfl⟩
abbrev main_call2_cst_4 : Ref sig .tc := ⟨.hbm, 346, rfl⟩
abbrev main_call2_call0_v0 : Ref sig .tc := ⟨.hbm, 347, rfl⟩
abbrev main_call2_call0_v1 : Ref sig .tc := ⟨.hbm, 348, rfl⟩
abbrev main_v213 : Ref sig .tc := ⟨.hbm, 349, rfl⟩
abbrev main_cst_61 : Ref sig .tc := ⟨.hbm, 350, rfl⟩
abbrev main_v214 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_call3_cst : Ref sig .tc := ⟨.hbm, 357, rfl⟩
abbrev main_call3_v0 : Ref sig .tc := ⟨.hbm, 358, rfl⟩
abbrev main_v220 : Ref sig .tc := ⟨.hbm, 359, rfl⟩
abbrev main_v221 : Ref sig .tc := ⟨.hbm, 360, rfl⟩
abbrev main_v222 : Ref sig .tc := ⟨.hbm, 361, rfl⟩
abbrev main_v223 : Ref sig .tc := ⟨.hbm, 362, rfl⟩
abbrev main_v224 : Ref sig .tc := ⟨.hbm, 363, rfl⟩
abbrev main_cst_62 : Ref sig .tc := ⟨.hbm, 364, rfl⟩
abbrev main_v225 : Ref sig .tc := ⟨.hbm, 365, rfl⟩
abbrev main_cst_63 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_cst_64 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_cst_65 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S200000_d1 : S200000x128.ReducesTo [1] S200000
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S8192x128 : S_.BroadcastsInDim S8192x128 (![] : Fin 0 → Fin S8192x128.rank)
  bcast_S_S50000x1 : S_.BroadcastsInDim S50000x1 (![] : Fin 0 → Fin S50000x1.rank)
  bcast_S50000x1_S50000x1x1_0_1 : S50000x1.BroadcastsInDim S50000x1x1 (![0, 1] : Fin 2 → Fin S50000x1x1.rank)
  reducesTo_S50000x1x64_S50000x64_d1 : S50000x1x64.ReducesTo [1] S50000x64
  reducesTo_S50000x1x16_S50000x16_d1 : S50000x1x16.ReducesTo [1] S50000x16
  concatenates_S50000x64_S50000x16_S50000x80_d1 : Shape.Concatenates [S50000x64, S50000x16] S50000x80 1
  bcast_S_S50000x2 : S_.BroadcastsInDim S50000x2 (![] : Fin 0 → Fin S50000x2.rank)
  bcast_S50000x2_S50000x2x1_0_1 : S50000x2.BroadcastsInDim S50000x2x1 (![0, 1] : Fin 2 → Fin S50000x2x1.rank)
  reducesTo_S50000x2x64_S50000x64_d1 : S50000x2x64.ReducesTo [1] S50000x64
  reducesTo_S50000x2x16_S50000x16_d1 : S50000x2x16.ReducesTo [1] S50000x16
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  reducesTo_S50000x3x64_S50000x64_d1 : S50000x3x64.ReducesTo [1] S50000x64
  reducesTo_S50000x3x16_S50000x16_d1 : S50000x3x16.ReducesTo [1] S50000x16
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  reducesTo_S50000x4x64_S50000x64_d1 : S50000x4x64.ReducesTo [1] S50000x64
  reducesTo_S50000x4x16_S50000x16_d1 : S50000x4x16.ReducesTo [1] S50000x16
  concatenates_S50000x128_S50000x128_S50000x128_S50000x128_S200000x128_d0 : Shape.Concatenates [S50000x128, S50000x128, S50000x128, S50000x128] S200000x128 0
  reducesTo_S200000x128_S128_d0 : S200000x128.ReducesTo [0] S128
  bcast_S_S128 : S_.BroadcastsInDim S128 (![] : Fin 0 → Fin S128.rank)
  bcast_S_S1x128 : S_.BroadcastsInDim S1x128 (![] : Fin 0 → Fin S1x128.rank)
  bcast_S_S200000x128 : S_.BroadcastsInDim S200000x128 (![] : Fin 0 → Fin S200000x128.rank)
  reducesTo_S50000x1x128_S50000x128_d1 : S50000x1x128.ReducesTo [1] S50000x128
  concatenates_S50000x128_S50000x16_S50000x144_d1 : Shape.Concatenates [S50000x128, S50000x16] S50000x144 1
  reducesTo_S50000x2x128_S50000x128_d1 : S50000x2x128.ReducesTo [1] S50000x128
  reducesTo_S50000x3x128_S50000x128_d1 : S50000x3x128.ReducesTo [1] S50000x128
  reducesTo_S50000x4x128_S50000x128_d1 : S50000x4x128.ReducesTo [1] S50000x128
  dot_S200000x64_S64x128_S200000x128_1_0_0_1_n_n_wf : DotDims.WF S200000x64 S64x128 S200000x128 [1] [0] [0] [1] [] []
  scatter_S8192x128_S200000x1_S200000x128_1_0_0_1_wf : ScatterDims.WF S8192x128 S200000x1 S200000x128 [1] [0] [0] 1
  gather_S200000x64_S50000x1x1_S50000x1x64_2_0_n_n_0_2_164_wf : GatherDims.WF S200000x64 S50000x1x1 S50000x1x64 [2] [0] [] [0] [] 2 ![1, 64]
  gather_S300000x16_S50000x1x1_S50000x1x16_2_0_n_n_0_2_116_wf : GatherDims.WF S300000x16 S50000x1x1 S50000x1x16 [2] [0] [] [0] [] 2 ![1, 16]
  dot_S50000x80_S80x128_S50000x128_1_0_0_1_n_n_wf : DotDims.WF S50000x80 S80x128 S50000x128 [1] [0] [0] [1] [] []
  gather_S200000x64_S50000x2x1_S50000x2x64_2_0_n_n_0_2_164_wf : GatherDims.WF S200000x64 S50000x2x1 S50000x2x64 [2] [0] [] [0] [] 2 ![1, 64]
  gather_S300000x16_S50000x2x1_S50000x2x16_2_0_n_n_0_2_116_wf : GatherDims.WF S300000x16 S50000x2x1 S50000x2x16 [2] [0] [] [0] [] 2 ![1, 16]
  gather_S200000x64_S50000x3x1_S50000x3x64_2_0_n_n_0_2_164_wf : GatherDims.WF S200000x64 S50000x3x1 S50000x3x64 [2] [0] [] [0] [] 2 ![1, 64]
  gather_S300000x16_S50000x3x1_S50000x3x16_2_0_n_n_0_2_116_wf : GatherDims.WF S300000x16 S50000x3x1 S50000x3x16 [2] [0] [] [0] [] 2 ![1, 16]
  gather_S200000x64_S50000x4x1_S50000x4x64_2_0_n_n_0_2_164_wf : GatherDims.WF S200000x64 S50000x4x1 S50000x4x64 [2] [0] [] [0] [] 2 ![1, 64]
  gather_S300000x16_S50000x4x1_S50000x4x16_2_0_n_n_0_2_116_wf : GatherDims.WF S300000x16 S50000x4x1 S50000x4x16 [2] [0] [] [0] [] 2 ![1, 16]
  dot_S200000x128_S128x128_S200000x128_1_0_0_1_n_n_wf : DotDims.WF S200000x128 S128x128 S200000x128 [1] [0] [0] [1] [] []
  gather_S200000x128_S50000x1x1_S50000x1x128_2_0_n_n_0_2_1128_wf : GatherDims.WF S200000x128 S50000x1x1 S50000x1x128 [2] [0] [] [0] [] 2 ![1, 128]
  dot_S50000x144_S144x128_S50000x128_1_0_0_1_n_n_wf : DotDims.WF S50000x144 S144x128 S50000x128 [1] [0] [0] [1] [] []
  gather_S200000x128_S50000x2x1_S50000x2x128_2_0_n_n_0_2_1128_wf : GatherDims.WF S200000x128 S50000x2x1 S50000x2x128 [2] [0] [] [0] [] 2 ![1, 128]
  gather_S200000x128_S50000x3x1_S50000x3x128_2_0_n_n_0_2_1128_wf : GatherDims.WF S200000x128 S50000x3x1 S50000x3x128 [2] [0] [] [0] [] 2 ![1, 128]
  gather_S200000x128_S50000x4x1_S50000x4x128_2_0_n_n_0_2_1128_wf : GatherDims.WF S200000x128 S50000x4x1 S50000x4x128 [2] [0] [] [0] [] 2 ![1, 128]

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def gather_S200000x64_S50000x1x1_S50000x1x64_2_0_n_n_0_2_164 : GatherDims S200000x64 S50000x1x1 S50000x1x64 where
  offsetDims := [2]
  collapsedSliceDims := [0]
  operandBatchingDims := []
  startIndicesBatchingDims := []
  startIndexMap := [0]
  indexVectorDim := 2
  sliceSizes := ![1, 64]
  wf := gather_S200000x64_S50000x1x1_S50000x1x64_2_0_n_n_0_2_164_wf
def gather_S300000x16_S50000x1x1_S50000x1x16_2_0_n_n_0_2_116 : GatherDims S300000x16 S50000x1x1 S50000x1x16 where
  offsetDims := [2]
  collapsedSliceDims := [0]
  operandBatchingDims := []
  startIndicesBatchingDims := []
  startIndexMap := [0]
  indexVectorDim := 2
  sliceSizes := ![1, 16]
  wf := gather_S300000x16_S50000x1x1_S50000x1x16_2_0_n_n_0_2_116_wf
def dot_S50000x80_S80x128_S50000x128_1_0_0_1_n_n : DotDims S50000x80 S80x128 S50000x128 where
  lhsContracting := [1]
  rhsContracting := [0]
  lhsNonContracting := [0]
  rhsNonContracting := [1]
  lhsBatch := []
  rhsBatch := []
  wf := dot_S50000x80_S80x128_S50000x128_1_0_0_1_n_n_wf
def gather_S200000x64_S50000x2x1_S50000x2x64_2_0_n_n_0_2_164 : GatherDims S200000x64 S50000x2x1 S50000x2x64 where
  offsetDims := [2]
  collapsedSliceDims := [0]
  operandBatchingDims := []
  startIndicesBatchingDims := []
  startIndexMap := [0]
  indexVectorDim := 2
  sliceSizes := ![1, 64]
  wf := gather_S200000x64_S50000x2x1_S50000x2x64_2_0_n_n_0_2_164_wf
def gather_S300000x16_S50000x2x1_S50000x2x16_2_0_n_n_0_2_116 : GatherDims S300000x16 S50000x2x1 S50000x2x16 where
  offsetDims := [2]
  collapsedSliceDims := [0]
  operandBatchingDims := []
  startIndicesBatchingDims := []
  startIndexMap := [0]
  indexVectorDim := 2
  sliceSizes := ![1, 16]
  wf := gather_S300000x16_S50000x2x1_S50000x2x16_2_0_n_n_0_2_116_wf
def gather_S200000x64_S50000x3x1_S50000x3x64_2_0_n_n_0_2_164 : GatherDims S200000x64 S50000x3x1 S50000x3x64 where
  offsetDims := [2]
  collapsedSliceDims := [0]
  operandBatchingDims := []
  startIndicesBatchingDims := []
  startIndexMap := [0]
  indexVectorDim := 2
  sliceSizes := ![1, 64]
  wf := gather_S200000x64_S50000x3x1_S50000x3x64_2_0_n_n_0_2_164_wf
def gather_S300000x16_S50000x3x1_S50000x3x16_2_0_n_n_0_2_116 : GatherDims S300000x16 S50000x3x1 S50000x3x16 where
  offsetDims := [2]
  collapsedSliceDims := [0]
  operandBatchingDims := []
  startIndicesBatchingDims := []
  startIndexMap := [0]
  indexVectorDim := 2
  sliceSizes := ![1, 16]
  wf := gather_S300000x16_S50000x3x1_S50000x3x16_2_0_n_n_0_2_116_wf
def gather_S200000x64_S50000x4x1_S50000x4x64_2_0_n_n_0_2_164 : GatherDims S200000x64 S50000x4x1 S50000x4x64 where
  offsetDims := [2]
  collapsedSliceDims := [0]
  operandBatchingDims := []
  startIndicesBatchingDims := []
  startIndexMap := [0]
  indexVectorDim := 2
  sliceSizes := ![1, 64]
  wf := gather_S200000x64_S50000x4x1_S50000x4x64_2_0_n_n_0_2_164_wf
def gather_S300000x16_S50000x4x1_S50000x4x16_2_0_n_n_0_2_116 : GatherDims S300000x16 S50000x4x1 S50000x4x16 where
  offsetDims := [2]
  collapsedSliceDims := [0]
  operandBatchingDims := []
  startIndicesBatchingDims := []
  startIndexMap := [0]
  indexVectorDim := 2
  sliceSizes := ![1, 16]
  wf := gather_S300000x16_S50000x4x1_S50000x4x16_2_0_n_n_0_2_116_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S50000x1x1_S50000x1x128_2_0_n_n_0_2_1128 : GatherDims S200000x128 S50000x1x1 S50000x1x128 where
  offsetDims := [2]
  collapsedSliceDims := [0]
  operandBatchingDims := []
  startIndicesBatchingDims := []
  startIndexMap := [0]
  indexVectorDim := 2
  sliceSizes := ![1, 128]
  wf := gather_S200000x128_S50000x1x1_S50000x1x128_2_0_n_n_0_2_1128_wf
def dot_S50000x144_S144x128_S50000x128_1_0_0_1_n_n : DotDims S50000x144 S144x128 S50000x128 where
  lhsContracting := [1]
  rhsContracting := [0]
  lhsNonContracting := [0]
  rhsNonContracting := [1]
  lhsBatch := []
  rhsBatch := []
  wf := dot_S50000x144_S144x128_S50000x128_1_0_0_1_n_n_wf
def gather_S200000x128_S50000x2x1_S50000x2x128_2_0_n_n_0_2_1128 : GatherDims S200000x128 S50000x2x1 S50000x2x128 where
  offsetDims := [2]
  collapsedSliceDims := [0]
  operandBatchingDims := []
  startIndicesBatchingDims := []
  startIndexMap := [0]
  indexVectorDim := 2
  sliceSizes := ![1, 128]
  wf := gather_S200000x128_S50000x2x1_S50000x2x128_2_0_n_n_0_2_1128_wf
def gather_S200000x128_S50000x3x1_S50000x3x128_2_0_n_n_0_2_1128 : GatherDims S200000x128 S50000x3x1 S50000x3x128 where
  offsetDims := [2]
  collapsedSliceDims := [0]
  operandBatchingDims := []
  startIndicesBatchingDims := []
  startIndexMap := [0]
  indexVectorDim := 2
  sliceSizes := ![1, 128]
  wf := gather_S200000x128_S50000x3x1_S50000x3x128_2_0_n_n_0_2_1128_wf
def gather_S200000x128_S50000x4x1_S50000x4x128_2_0_n_n_0_2_1128 : GatherDims S200000x128 S50000x4x1 S50000x4x128 where
  offsetDims := [2]
  collapsedSliceDims := [0]
  operandBatchingDims := []
  startIndicesBatchingDims := []
  startIndexMap := [0]
  indexVectorDim := 2
  sliceSizes := ![1, 128]
  wf := gather_S200000x128_S50000x4x1_S50000x4x128_2_0_n_n_0_2_1128_wf

class Facts : Prop extends Facts₀ where

variable [Facts]
-- ==== Proof.PreFacts.lean ====
import proofs.«410641_j56710748176715_1_alg».proof.Pre_finite_inputs
import Idealize.ShloMosaic.Lib.ReduceAll
import Idealize.ShloMosaic.Lib.ValueIdx
import Idealize.ShloMosaic.PureOps.Ideal

noncomputable section

namespace Cert.Proof.PreFacts

open Idealize.ShloMosaic Cert.Pre_finite_inputs

instance : Subsingleton S_.Idx := ⟨fun a b => funext fun d => d.elim0⟩

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

theorem toNat_lt_of_signed (w : BitVec 32) (n : Nat) (hn : n < 2 ^ 31)
    (h0 : IntOp.cmpi .sge w (0#32) = 1#1) (h1 : IntOp.cmpi .slt w (BitVec.ofNat 32 n) = 1#1) : w.toNat < n := by
  rw [IntOp.cmpi_sge, show (0#32 : BitVec 32).toInt = 0 from by decide] at h0
  rw [IntOp.cmpi_slt] at h1
  have hn' : (BitVec.ofNat 32 n).toInt = n := by
    rw [BitVec.toInt_eq_msb_cond, BitVec.msb_eq_false_iff_two_mul_lt.mpr (by simp [BitVec.toNat_ofNat]; omega)]
    simp [BitVec.toNat_ofNat]; omega
  rw [hn'] at h1
  have hw : w.toInt = w.toNat := by
    have := BitVec.toInt_eq_toNat_cond w
    split at this <;> omega
  omega

variable {s : Shape} {axes : List (Fin s.rank)}

theorem fin_all (x : FVec Ideal s .f32) (hb : S_.BroadcastsInDim s (![] : Fin 0 → Fin s.rank))
    (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) :
    ∀ i, ∃ r : ℝ, x i = (r : EReal) := fun i =>
  real_of_abs_lt_inf (x i) (Host.reduce_andi_all _ _ hr hu j e i)

theorem rng_all (n : Nat) (hn : n < 2 ^ 31) (x : IVec s 32)
    (hb hb' : S_.BroadcastsInDim s (![] : Fin 0 → Fin s.rank))
    (hr : s.ReducesTo axes S_) (hu : 0 < S_.numel) (j : S_.Idx)
    (e : Host.reduce IntOp.andi
        (andi (cmpi .sge x (broadcastInDim s ![] hb (constantI S_ 32 0#32)))
          (cmpi .slt x (broadcastInDim s ![] hb' (constantI S_ 32 (BitVec.ofNat 32 n)))))
        (constantI S_ 1 1#1) hr hu j = 1#1) :
    ∀ i, (x i).toNat < n := fun i => by
  obtain ⟨h0, h1⟩ := IntOp.andi_eq_one.1 (Host.reduce_andi_all _ _ hr hu j e i)
  exact toNat_lt_of_signed (x i) n hn h0 h1

theorem and_split {x y : IVec S_ 1} {j : S_.Idx} (h : andi x y j = 1#1) : x j = 1#1 ∧ y j = 1#1 :=
  IntOp.andi_eq_one.1 h

structure InDom (a0 : FVec Ideal S200000x64 .f32) (a1 : FVec Ideal S300000x16 .f32) (a2 : FVec Ideal S64x128 .f32) (a3 : FVec Ideal S128 .f32) (a4 : FVec Ideal S128x128 .f32) (a5 : FVec Ideal S128 .f32) (a6 : FVec Ideal S128x128 .f32) (a7 : FVec Ideal S128 .f32) (a8 : FVec Ideal S64x128 .f32) (a9 : FVec Ideal S128 .f32) (a10 : FVec Ideal S80x128 .f32) (a11 : FVec Ideal S80x128 .f32) (a12 : FVec Ideal S80x128 .f32) (a13 : FVec Ideal S80x128 .f32) (a14 : FVec Ideal S128x128 .f32) (a15 : FVec Ideal S128 .f32) (a16 : FVec Ideal S144x128 .f32) (a17 : FVec Ideal S144x128 .f32) (a18 : FVec Ideal S144x128 .f32) (a19 : FVec Ideal S144x128 .f32) (a20 : IVec S50000x1 32) (a21 : IVec S50000x2 32) (a22 : IVec S50000x3 32) (a23 : IVec S50000x4 32) (a24 : IVec S50000x1 32) (a25 : IVec S50000x2 32) (a26 : IVec S50000x3 32) (a27 : IVec S50000x4 32) : Prop where
  fin0 : ∀ i, ∃ r : ℝ, a0 i = (r : EReal)
  fin1 : ∀ i, ∃ r : ℝ, a1 i = (r : EReal)
  fin2 : ∀ i, ∃ r : ℝ, a2 i = (r : EReal)
  fin3 : ∀ i, ∃ r : ℝ, a3 i = (r : EReal)
  fin4 : ∀ i, ∃ r : ℝ, a4 i = (r : EReal)
  fin5 : ∀ i, ∃ r : ℝ, a5 i = (r : EReal)
  fin6 : ∀ i, ∃ r : ℝ, a6 i = (r : EReal)
  fin7 : ∀ i, ∃ r : ℝ, a7 i = (r : EReal)
  fin8 : ∀ i, ∃ r : ℝ, a8 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin13 : ∀ i, ∃ r : ℝ, a13 i = (r : EReal)
  fin14 : ∀ i, ∃ r : ℝ, a14 i = (r : EReal)
  fin15 : ∀ i, ∃ r : ℝ, a15 i = (r : EReal)
  fin16 : ∀ i, ∃ r : ℝ, a16 i = (r : EReal)
  fin17 : ∀ i, ∃ r : ℝ, a17 i = (r : EReal)
  fin18 : ∀ i, ∃ r : ℝ, a18 i = (r : EReal)
  fin19 : ∀ i, ∃ r : ℝ, a19 i = (r : EReal)
  rng20 : ∀ i, (a20 i).toNat < 200000
  rng21 : ∀ i, (a21 i).toNat < 200000
  rng22 : ∀ i, (a22 i).toNat < 200000
  rng23 : ∀ i, (a23 i).toNat < 200000
  rng24 : ∀ i, (a24 i).toNat < 300000
  rng25 : ∀ i, (a25 i).toNat < 300000
  rng26 : ∀ i, (a26 i).toNat < 300000
  rng27 : ∀ i, (a27 i).toNat < 300000

theorem inDom_of_pre [Facts] (a0 : FVec Ideal S200000x64 .f32) (a1 : FVec Ideal S300000x16 .f32) (a2 : FVec Ideal S64x128 .f32) (a3 : FVec Ideal S128 .f32) (a4 : FVec Ideal S128x128 .f32) (a5 : FVec Ideal S128 .f32) (a6 : FVec Ideal S128x128 .f32) (a7 : FVec Ideal S128 .f32) (a8 : FVec Ideal S64x128 .f32) (a9 : FVec Ideal S128 .f32) (a10 : FVec Ideal S80x128 .f32) (a11 : FVec Ideal S80x128 .f32) (a12 : FVec Ideal S80x128 .f32) (a13 : FVec Ideal S80x128 .f32) (a14 : FVec Ideal S128x128 .f32) (a15 : FVec Ideal S128 .f32) (a16 : FVec Ideal S144x128 .f32) (a17 : FVec Ideal S144x128 .f32) (a18 : FVec Ideal S144x128 .f32) (a19 : FVec Ideal S144x128 .f32) (a20 : IVec S50000x1 32) (a21 : IVec S50000x2 32) (a22 : IVec S50000x3 32) (a23 : IVec S50000x4 32) (a24 : IVec S50000x1 32) (a25 : IVec S50000x2 32) (a26 : IVec S50000x3 32) (a27 : IVec S50000x4 32) (a28 : IVec S200000 32)
    (h : Cert.Pre_finite_inputs.fn (F := Ideal) a0 a1 a2 a3 a4 a5 a6 a7 a8 a9 a10 a11 a12 a13 a14 a15 a16 a17 a18 a19 a20 a21 a22 a23 a24 a25 a26 a27 a28 = fun _ => 1#1) :
    InDom a0 a1 a2 a3 a4 a5 a6 a7 a8 a9 a10 a11 a12 a13 a14 a15 a16 a17 a18 a19 a20 a21 a22 a23 a24 a25 a26 a27 := by
  have e := congrFun h ValueIdx.ix0
  dsimp only [fn] at e
  dsimp only [fn_part1] at e
  dsimp only [fn_part2] at e
  dsimp only [fn_part3] at e
  dsimp only [fn_part4] at e
  dsimp only [fn_part5] at e
  dsimp only [fn_part6] at e
  dsimp only [fn_part7] at e
  dsimp only [fn_part8] at e
  dsimp only [fn_part9] at e
  obtain ⟨e, h27⟩ := and_split e
  obtain ⟨e, h26⟩ := and_split e
  obtain ⟨e, h25⟩ := and_split e
  obtain ⟨e, h24⟩ := and_split e
  obtain ⟨e, h23⟩ := and_split e
  obtain ⟨e, h22⟩ := and_split e
  obtain ⟨e, h21⟩ := and_split e
  obtain ⟨e, h20⟩ := and_split e
  obtain ⟨e, h19⟩ := and_split e
  obtain ⟨e, h18⟩ := and_split e
  obtain ⟨e, h17⟩ := and_split e
  obtain ⟨e, h16⟩ := and_split e
  obtain ⟨e, h15⟩ := and_split e
  obtain ⟨e, h14⟩ := and_split e
  obtain ⟨e, h13⟩ := and_split e
  obtain ⟨e, h12⟩ := and_split e
  obtain ⟨e, h11⟩ := and_split e
  obtain ⟨e, h10⟩ := and_split e
  obtain ⟨e, h9⟩ := and_split e
  obtain ⟨e, h8⟩ := and_split e
  obtain ⟨e, h7⟩ := and_split e
  obtain ⟨e, h6⟩ := and_split e
  obtain ⟨e, h5⟩ := and_split e
  obtain ⟨e, h4⟩ := and_split e
  obtain ⟨e, h3⟩ := and_split e
  obtain ⟨e, h2⟩ := and_split e
  obtain ⟨e, h1⟩ := and_split e
  exact ⟨fin_all _ _ _ _ _ e,
    fin_all _ _ _ _ _ h1,
    fin_all _ _ _ _ _ h2,
    fin_all _ _ _ _ _ h3,
    fin_all _ _ _ _ _ h4,
    fin_all _ _ _ _ _ h5,
    fin_all _ _ _ _ _ h6,
    fin_all _ _ _ _ _ h7,
    fin_all _ _ _ _ _ h8,
    fin_all _ _ _ _ _ h9,
    fin_all _ _ _ _ _ h10,
    fin_all _ _ _ _ _ h11,
    fin_all _ _ _ _ _ h12,
    fin_all _ _ _ _ _ h13,
    fin_all _ _ _ _ _ h14,
    fin_all _ _ _ _ _ h15,
    fin_all _ _ _ _ _ h16,
    fin_all _ _ _ _ _ h17,
    fin_all _ _ _ _ _ h18,
    fin_all _ _ _ _ _ h19,
    rng_all 200000 (by norm_num) _ _ _ _ _ _ h20,
    rng_all 200000 (by norm_num) _ _ _ _ _ _ h21,
    rng_all 200000 (by norm_num) _ _ _ _ _ _ h22,
    rng_all 200000 (by norm_num) _ _ _ _ _ _ h23,
    rng_all 300000 (by norm_num) _ _ _ _ _ _ h24,
    rng_all 300000 (by norm_num) _ _ _ _ _ _ h25,
    rng_all 300000 (by norm_num) _ _ _ _ _ _ h26,
    rng_all 300000 (by norm_num) _ _ _ _ _ _ h27⟩

end Cert.Proof.PreFacts

end
-- ==== Proof.K.RegionsP.lean ====
import proofs.«410641_j56710748176715_1_alg».proof.Proof.Gen.Kernel.Launch
import Idealize.ShloMosaic.Lib.Pipeline.Frame
import Idealize.ShloMosaic.Lib.Pipeline.Regions

set_option maxRecDepth 2372

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v1 (outs 2 main_v1 c)
abbrev V3 (c : Dev nD) : Valuation τ sig (Elt F) := StableHlo.after hostOps1 (V2 m outs c)
abbrev V4 (c : Dev nD) : Valuation τ sig (Elt F) := StableHlo.after hostOps1_1 (V3 m outs c)
abbrev V5 (c : Dev nD) : Valuation τ sig (Elt F) := StableHlo.after hostOps1_2 (V4 m outs c)
abbrev V6 (c : Dev nD) : Valuation τ sig (Elt F) := StableHlo.after hostOps1_3 (V5 m outs c)
abbrev V7 (c : Dev nD) : Valuation τ sig (Elt F) := StableHlo.after hostOps1_4 (V6 m outs c)
abbrev V8 (c : Dev nD) : Valuation τ sig (Elt F) := StableHlo.after hostOps1_5 (V7 m outs c)
abbrev V9 (c : Dev nD) : Valuation τ sig (Elt F) := StableHlo.after hostOps1_6 (V8 m outs c)
abbrev V10 (c : Dev nD) : Valuation τ sig (Elt F) := StableHlo.after hostOps1_7 (V9 m outs c)
abbrev V11 (c : Dev nD) : Valuation τ sig (Elt F) := StableHlo.after hostOps1_8 (V10 m outs c)
abbrev V12 (c : Dev nD) : Valuation τ sig (Elt F) := StableHlo.after hostOps1_9 (V11 m outs c)
abbrev V13 (c : Dev nD) : Valuation τ sig (Elt F) := StableHlo.after hostOps1_10 (V12 m outs c)
abbrev V14 (c : Dev nD) : Valuation τ sig (Elt F) := StableHlo.after hostOps1_11 (V13 m outs c)
abbrev V15 (c : Dev nD) : Valuation τ sig (Elt F) := StableHlo.after hostOps1_12 (V14 m outs c)
abbrev V16 (c : Dev nD) : Valuation τ sig (Elt F) := StableHlo.after hostOps1_13 (V15 m outs c)
abbrev V17 (c : Dev nD) : Valuation τ sig (Elt F) := StableHlo.after hostOps1_14 (V16 m outs c)
abbrev V18 (c : Dev nD) : Valuation τ sig (Elt F) := StableHlo.after hostOps1_15 (V17 m outs c)
abbrev V19 (c : Dev nD) : Valuation τ sig (Elt F) := StableHlo.after hostOps1_16 (V18 m outs c)
abbrev V20 (c : Dev nD) : Valuation τ sig (Elt F) := Function.update (Function.update (Function.update (V19 m outs c) main_v32_0 (outs 20 main_v32_0 c)) main_v32_1 (outs 20 main_v32_1 c)) main_v32_2 (outs 20 main_v32_2 c)
abbrev V21 (c : Dev nD) : Valuation τ sig (Elt F) := StableHlo.after hostOps2 (V20 m outs c)
abbrev V22 (c : Dev nD) : Valuation τ sig (Elt F) := Function.update (V21 m outs c) main_v46 (outs 22 main_v46 c)
abbrev V23 (c : Dev nD) : Valuation τ sig (Elt F) := StableHlo.after hostOps3 (V22 m outs c)
abbrev V24 (c : Dev nD) : Valuation τ sig (Elt F) := Function.update (V23 m outs c) main_v48 (outs 24 main_v48 c)
abbrev V25 (c : Dev nD) : Valuation τ sig (Elt F) := StableHlo.after hostOps4 (V24 m outs c)
abbrev V26 (c : Dev nD) : Valuation τ sig (Elt F) := StableHlo.after hostOps4_1 (V25 m outs c)
abbrev V27 (c : Dev nD) : Valuation τ sig (Elt F) := StableHlo.after hostOps4_2 (V26 m outs c)
abbrev V28 (c : Dev nD) : Valuation τ sig (Elt F) := StableHlo.after hostOps4_3 (V27 m outs c)
abbrev V29 (c : Dev nD) : Valuation τ sig (Elt F) := StableHlo.after hostOps4_4 (V28 m outs c)
abbrev V30 (c : Dev nD) : Valuation τ sig (Elt F) := StableHlo.after hostOps4_5 (V29 m outs c)
abbrev V31 (c : Dev nD) : Valuation τ sig (Elt F) := StableHlo.after hostOps4_6 (V30 m outs c)
abbrev V32 (c : Dev nD) : Valuation τ sig (Elt F) := StableHlo.after hostOps4_7 (V31 m outs c)
abbrev V33 (c : Dev nD) : Valuation τ sig (Elt F) := StableHlo.after hostOps4_8 (V32 m outs c)
abbrev V34 (c : Dev nD) : Valuation τ sig (Elt F) := Function.update (Function.update (Function.update (V33 m outs c) main_v72_0 (outs 34 main_v72_0 c)) main_v72_1 (outs 34 main_v72_1 c)) main_v72_2 (outs 34 main_v72_2 c)
abbrev V35 (c : Dev nD) : Valuation τ sig (Elt F) := StableHlo.after hostOps5 (V34 m outs c)
abbrev V36 (c : Dev nD) : Valuation τ sig (Elt F) := Function.update (V35 m outs c) main_v86 (outs 36 main_v86 c)
abbrev V37 (c : Dev nD) : Valuation τ sig (Elt F) := StableHlo.after hostOps6 (V36 m outs c)
abbrev V38 (c : Dev nD) : Valuation τ sig (Elt F) := Function.update (V37 m outs c) main_v88 (outs 38 main_v88 c)
abbrev V39 (c : Dev nD) : Valuation τ sig (Elt F) := StableHlo.after hostOps7 (V38 m outs c)

-- an operation whose one written buffer is listed writes inside the list
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals exact sub_of_mem (by decide)
theorem hostOps1_fresh : (hostOps1 : List (HloOp τ sig (Elt F))).Forall fun op => op.fresh = ∅ := by
  simp only [List.Forall]; repeat' constructor
abbrev hostOps1_W : List (Ref sig .tc) := [main_cst, main_v2, main_v3, main_v4]
theorem hostOps1_writes : (hostOps1 : List (HloOp τ sig (Elt F))).Forall fun op => op.writes ⊆ (hostOps1_W.map (Proc.devRef (τ := τ) .tc)).toFinset := by
  simp only [List.Forall]
  repeat' apply And.intro
  all_goals exact sub_of_mem (by decide)
theorem hostOps1_1_fresh : (hostOps1_1 : List (HloOp τ sig (Elt F))).Forall fun op => op.fresh = ∅ := by
  simp only [List.Forall]; repeat' constructor
abbrev hostOps1_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals exact sub_of_mem (by decide)
theorem hostOps1_2_fresh : (hostOps1_2 : List (HloOp τ sig (Elt F))).Forall fun op => op.fresh = ∅ := by
  simp only [List.Forall]; repeat' constructor
abbrev hostOps1_2_W : List (Ref sig .tc) := [main_cst_0, main_v6]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals exact sub_of_mem (by decide)
theorem hostOps1_3_fresh : (hostOps1_3 : List (HloOp τ sig (Elt F))).Forall fun op => op.fresh = ∅ := by
  simp only [List.Forall]; repeat' constructor
abbrev hostOps1_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals exact sub_of_mem (by decide)
theorem hostOps1_4_fresh : (hostOps1_4 : List (HloOp τ sig (Elt F))).Forall fun op => op.fresh = ∅ := by
  simp only [List.Forall]; repeat' constructor
abbrev hostOps1_4_W : List (Ref sig .tc) := [main_cst_1, main_v8]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals exact sub_of_mem (by decide)
theorem hostOps1_5_fresh : (hostOps1_5 : List (HloOp τ sig (Elt F))).Forall fun op => op.fresh = ∅ := by
  simp only [List.Forall]; repeat' constructor
abbrev hostOps1_5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v9]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals exact sub_of_mem (by decide)
theorem hostOps1_6_fresh : (hostOps1_6 : List (HloOp τ sig (Elt F))).Forall fun op => op.fresh = ∅ := by
  simp only [List.Forall]; repeat' constructor
abbrev hostOps1_6_W : List (Ref sig .tc) := [main_cst_2, main_v10]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals exact sub_of_mem (by decide)
theorem hostOps1_7_fresh : (hostOps1_7 : List (HloOp τ sig (Elt F))).Forall fun op => op.fresh = ∅ := by
  simp only [List.Forall]; repeat' constructor
abbrev hostOps1_7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v11]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals exact sub_of_mem (by decide)
theorem hostOps1_8_fresh : (hostOps1_8 : List (HloOp τ sig (Elt F))).Forall fun op => op.fresh = ∅ := by
  simp only [List.Forall]; repeat' constructor
abbrev hostOps1_8_W : List (Ref sig .tc) := [main_cst_3, main_v12]
theorem hostOps1_8_writes : (hostOps1_8 : List (HloOp τ sig (Elt F))).Forall fun op => op.writes ⊆ (hostOps1_8_W.map (Proc.devRef (τ := τ) .tc)).toFinset := by
  simp only [List.Forall]
  repeat' apply And.intro
  all_goals exact sub_of_mem (by decide)
theorem hostOps1_9_fresh : (hostOps1_9 : List (HloOp τ sig (Elt F))).Forall fun op => op.fresh = ∅ := by
  simp only [List.Forall]; repeat' constructor
abbrev hostOps1_9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v13]
theorem hostOps1_9_writes : (hostOps1_9 : List (HloOp τ sig (Elt F))).Forall fun op => op.writes ⊆ (hostOps1_9_W.map (Proc.devRef (τ := τ) .tc)).toFinset := by
  simp only [List.Forall]
  repeat' apply And.intro
  all_goals exact sub_of_mem (by decide)
theorem hostOps1_10_fresh : (hostOps1_10 : List (HloOp τ sig (Elt F))).Forall fun op => op.fresh = ∅ := by
  simp only [List.Forall]; repeat' constructor
abbrev hostOps1_10_W : List (Ref sig .tc) := [main_cst_4, main_v14]
theorem hostOps1_10_writes : (hostOps1_10 : List (HloOp τ sig (Elt F))).Forall fun op => op.writes ⊆ (hostOps1_10_W.map (Proc.devRef (τ := τ) .tc)).toFinset := by
  simp only [List.Forall]
  repeat' apply And.intro
  all_goals exact sub_of_mem (by decide)
theorem hostOps1_11_fresh : (hostOps1_11 : List (HloOp τ sig (Elt F))).Forall fun op => op.fresh = ∅ := by
  simp only [List.Forall]; repeat' constructor
abbrev hostOps1_11_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v15]
theorem hostOps1_11_writes : (hostOps1_11 : List (HloOp τ sig (Elt F))).Forall fun op => op.writes ⊆ (hostOps1_11_W.map (Proc.devRef (τ := τ) .tc)).toFinset := by
  simp only [List.Forall]
  repeat' apply And.intro
  all_goals exact sub_of_mem (by decide)
theorem hostOps1_12_fresh : (hostOps1_12 : List (HloOp τ sig (Elt F))).Forall fun op => op.fresh = ∅ := by
  simp only [List.Forall]; repeat' constructor
abbrev hostOps1_12_W : List (Ref sig .tc) := [main_cst_5, main_v16]
theorem hostOps1_12_writes : (hostOps1_12 : List (HloOp τ sig (Elt F))).Forall fun op => op.writes ⊆ (hostOps1_12_W.map (Proc.devRef (τ := τ) .tc)).toFinset := by
  simp only [List.Forall]
  repeat' apply And.intro
  all_goals exact sub_of_mem (by decide)
theorem hostOps1_13_fresh : (hostOps1_13 : List (HloOp τ sig (Elt F))).Forall fun op => op.fresh = ∅ := by
  simp only [List.Forall]; repeat' constructor
abbrev hostOps1_13_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v17]
theorem hostOps1_13_writes : (hostOps1_13 : List (HloOp τ sig (Elt F))).Forall fun op => op.writes ⊆ (hostOps1_13_W.map (Proc.devRef (τ := τ) .tc)).toFinset := by
  simp only [List.Forall]
  repeat' apply And.intro
  all_goals exact sub_of_mem (by decide)
theorem hostOps1_14_fresh : (hostOps1_14 : List (HloOp τ sig (Elt F))).Forall fun op => op.fresh = ∅ := by
  simp only [List.Forall]; repeat' constructor
abbrev hostOps1_14_W : List (Ref sig .tc) := [main_cst_6, main_v18]
theorem hostOps1_14_writes : (hostOps1_14 : List (HloOp τ sig (Elt F))).Forall fun op => op.writes ⊆ (hostOps1_14_W.map (Proc.devRef (τ := τ) .tc)).toFinset := by
  simp only [List.Forall]
  repeat' apply And.intro
  all_goals exact sub_of_mem (by decide)
theorem hostOps1_15_fresh : (hostOps1_15 : List (HloOp τ sig (Elt F))).Forall fun op => op.fresh = ∅ := by
  simp only [List.Forall]; repeat' constructor
abbrev hostOps1_15_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v19]
theorem hostOps1_15_writes : (hostOps1_15 : List (HloOp τ sig (Elt F))).Forall fun op => op.writes ⊆ (hostOps1_15_W.map (Proc.devRef (τ := τ) .tc)).toFinset := by
  simp only [List.Forall]
  repeat' apply And.intro
  all_goals exact sub_of_mem (by decide)
theorem hostOps1_16_fresh : (hostOps1_16 : List (HloOp τ sig (Elt F))).Forall fun op => op.fresh = ∅ := by
  simp only [List.Forall]; repeat' constructor
abbrev hostOps1_16_W : List (Ref sig .tc) := [main_cst_7, main_v20, main_v21, main_v22, main_v23, main_v24, main_v25, main_v26, main_v27, main_v28, main_v29, main_v30, main_v31]
theorem hostOps1_16_writes : (hostOps1_16 : List (HloOp τ sig (Elt F))).Forall fun op => op.writes ⊆ (hostOps1_16_W.map (Proc.devRef (τ := τ) .tc)).toFinset := by
  simp only [List.Forall]
  repeat' apply And.intro
  all_goals exact sub_of_mem (by decide)
theorem hostOps2_fresh : (hostOps2 : List (HloOp τ sig (Elt F))).Forall fun op => op.fresh = ∅ := by
  simp only [List.Forall]; repeat' constructor
abbrev hostOps2_W : List (Ref sig .tc) := [main_v33, main_cst_8, main_v34, main_v35, main_v36, main_cst_9, main_v37, main_v38, main_v39, main_v40, main_cst_10, main_v41, main_v42, main_v43, main_v44, main_v45]
theorem hostOps2_writes : (hostOps2 : List (HloOp τ sig (Elt F))).Forall fun op => op.writes ⊆ (hostOps2_W.map (Proc.devRef (τ := τ) .tc)).toFinset := by
  simp only [List.Forall]
  repeat' apply And.intro
  all_goals exact sub_of_mem (by decide)
theorem hostOps3_fresh : (hostOps3 : List (HloOp τ sig (Elt F))).Forall fun op => op.fresh = ∅ := by
  simp only [List.Forall]; repeat' constructor
abbrev hostOps3_W : List (Ref sig .tc) := [main_v47]
theorem hostOps3_writes : (hostOps3 : List (HloOp τ sig (Elt F))).Forall fun op => op.writes ⊆ (hostOps3_W.map (Proc.devRef (τ := τ) .tc)).toFinset := by
  simp only [List.Forall]
  repeat' apply And.intro
  all_goals exact sub_of_mem (by decide)
theorem hostOps4_fresh : (hostOps4 : List (HloOp τ sig (Elt F))).Forall fun op => op.fresh = ∅ := by
  simp only [List.Forall]; repeat' constructor
abbrev hostOps4_W : List (Ref sig .tc) := [main_cst_11, main_v49, main_v50, main_v51, main_v52]
theorem hostOps4_writes : (hostOps4 : List (HloOp τ sig (Elt F))).Forall fun op => op.writes ⊆ (hostOps4_W.map (Proc.devRef (τ := τ) .tc)).toFinset := by
  simp only [List.Forall]
  repeat' apply And.intro
  all_goals exact sub_of_mem (by decide)
theorem hostOps4_1_fresh : (hostOps4_1 : List (HloOp τ sig (Elt F))).Forall fun op => op.fresh = ∅ := by
  simp only [List.Forall]; repeat' constructor
abbrev hostOps4_1_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v53]
theorem hostOps4_1_writes : (hostOps4_1 : List (HloOp τ sig (Elt F))).Forall fun op => op.writes ⊆ (hostOps4_1_W.map (Proc.devRef (τ := τ) .tc)).toFinset := by
  simp only [List.Forall]
  repeat' apply And.intro
  all_goals exact sub_of_mem (by decide)
theorem hostOps4_2_fresh : (hostOps4_2 : List (HloOp τ sig (Elt F))).Forall fun op => op.fresh = ∅ := by
  simp only [List.Forall]; repeat' constructor
abbrev hostOps4_2_W : List (Ref sig .tc) := [main_cst_12, main_v54]
theorem hostOps4_2_writes : (hostOps4_2 : List (HloOp τ sig (Elt F))).Forall fun op => op.writes ⊆ (hostOps4_2_W.map (Proc.devRef (τ := τ) .tc)).toFinset := by
  simp only [List.Forall]
  repeat' apply And.intro
  all_goals exact sub_of_mem (by decide)
theorem hostOps4_3_fresh : (hostOps4_3 : List (HloOp τ sig (Elt F))).Forall fun op => op.fresh = ∅ := by
  simp only [List.Forall]; repeat' constructor
abbrev hostOps4_3_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v55]
theorem hostOps4_3_writes : (hostOps4_3 : List (HloOp τ sig (Elt F))).Forall fun op => op.writes ⊆ (hostOps4_3_W.map (Proc.devRef (τ := τ) .tc)).toFinset := by
  simp only [List.Forall]
  repeat' apply And.intro
  all_goals exact sub_of_mem (by decide)
theorem hostOps4_4_fresh : (hostOps4_4 : List (HloOp τ sig (Elt F))).Forall fun op => op.fresh = ∅ := by
  simp only [List.Forall]; repeat' constructor
abbrev hostOps4_4_W : List (Ref sig .tc) := [main_cst_13, main_v56]
theorem hostOps4_4_writes : (hostOps4_4 : List (HloOp τ sig (Elt F))).Forall fun op => op.writes ⊆ (hostOps4_4_W.map (Proc.devRef (τ := τ) .tc)).toFinset := by
  simp only [List.Forall]
  repeat' apply And.intro
  all_goals exact sub_of_mem (by decide)
theorem hostOps4_5_fresh : (hostOps4_5 : List (HloOp τ sig (Elt F))).Forall fun op => op.fresh = ∅ := by
  simp only [List.Forall]; repeat' constructor
abbrev hostOps4_5_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v57]
theorem hostOps4_5_writes : (hostOps4_5 : List (HloOp τ sig (Elt F))).Forall fun op => op.writes ⊆ (hostOps4_5_W.map (Proc.devRef (τ := τ) .tc)).toFinset := by
  simp only [List.Forall]
  repeat' apply And.intro
  all_goals exact sub_of_mem (by decide)
theorem hostOps4_6_fresh : (hostOps4_6 : List (HloOp τ sig (Elt F))).Forall fun op => op.fresh = ∅ := by
  simp only [List.Forall]; repeat' constructor
abbrev hostOps4_6_W : List (Ref sig .tc) := [main_cst_14, main_v58]
theorem hostOps4_6_writes : (hostOps4_6 : List (HloOp τ sig (Elt F))).Forall fun op => op.writes ⊆ (hostOps4_6_W.map (Proc.devRef (τ := τ) .tc)).toFinset := by
  simp only [List.Forall]
  repeat' apply And.intro
  all_goals exact sub_of_mem (by decide)
theorem hostOps4_7_fresh : (hostOps4_7 : List (HloOp τ sig (Elt F))).Forall fun op => op.fresh = ∅ := by
  simp only [List.Forall]; repeat' constructor
abbrev hostOps4_7_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v59]
theorem hostOps4_7_writes : (hostOps4_7 : List (HloOp τ sig (Elt F))).Forall fun op => op.writes ⊆ (hostOps4_7_W.map (Proc.devRef (τ := τ) .tc)).toFinset := by
  simp only [List.Forall]
  repeat' apply And.intro
  all_goals exact sub_of_mem (by decide)
theorem hostOps4_8_fresh : (hostOps4_8 : List (HloOp τ sig (Elt F))).Forall fun op => op.fresh = ∅ := by
  simp only [List.Forall]; repeat' constructor
abbrev hostOps4_8_W : List (Ref sig .tc) := [main_cst_15, main_v60, main_v61, main_v62, main_v63, main_v64, main_v65, main_v66, main_v67, main_v68, main_v69, main_v70, main_v71]
theorem hostOps4_8_writes : (hostOps4_8 : List (HloOp τ sig (Elt F))).Forall fun op => op.writes ⊆ (hostOps4_8_W.map (Proc.devRef (τ := τ) .tc)).toFinset := by
  simp only [List.Forall]
  repeat' apply And.intro
  all_goals exact sub_of_mem (by decide)
theorem hostOps5_fresh : (hostOps5 : List (HloOp τ sig (Elt F))).Forall fun op => op.fresh = ∅ := by
  simp only [List.Forall]; repeat' constructor
abbrev hostOps5_W : List (Ref sig .tc) := [main_v73, main_cst_16, main_v74, main_v75, main_v76, main_cst_17, main_v77, main_v78, main_v79, main_v80, main_cst_18, main_v81, main_v82, main_v83, main_v84, main_v85]
theorem hostOps5_writes : (hostOps5 : List (HloOp τ sig (Elt F))).Forall fun op => op.writes ⊆ (hostOps5_W.map (Proc.devRef (τ := τ) .tc)).toFinset := by
  simp only [List.Forall]
  repeat' apply And.intro
  all_goals exact sub_of_mem (by decide)
theorem hostOps6_fresh : (hostOps6 : List (HloOp τ sig (Elt F))).Forall fun op => op.fresh = ∅ := by
  simp only [List.Forall]; repeat' constructor
abbrev hostOps6_W : List (Ref sig .tc) := [main_v87]
theorem hostOps6_writes : (hostOps6 : List (HloOp τ sig (Elt F))).Forall fun op => op.writes ⊆ (hostOps6_W.map (Proc.devRef (τ := τ) .tc)).toFinset := by
  simp only [List.Forall]
  repeat' apply And.intro
  all_goals exact sub_of_mem (by decide)
theorem hostOps7_fresh : (hostOps7 : List (HloOp τ sig (Elt F))).Forall fun op => op.fresh = ∅ := by
  simp only [List.Forall]; repeat' constructor
abbrev hostOps7_W : List (Ref sig .tc) := [main_cst_19, main_v89, main_v90, main_v91, main_v92]
theorem hostOps7_writes : (hostOps7 : List (HloOp τ sig (Elt F))).Forall fun op => op.writes ⊆ (hostOps7_W.map (Proc.devRef (τ := τ) .tc)).toFinset := by
  simp only [List.Forall]
  repeat' apply And.intro
  all_goals exact sub_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ hostOps1_1_W) : V4 m outs c r = V3 m outs c r :=
  StableHlo.after_of_writes_sub hostOps1_1 _ hostOps1_1_writes h
theorem V5_of (c : Dev nD) (r : Ref sig .tc) (h : r ∉ hostOps1_2_W) : V5 m outs c r = V4 m outs c r :=
  StableHlo.after_of_writes_sub hostOps1_2 _ hostOps1_2_writes h
theorem V6_of (c : Dev nD) (r : Ref sig .tc) (h : r ∉ hostOps1_3_W) : V6 m outs c r = V5 m outs c r :=
  StableHlo.after_of_writes_sub hostOps1_3 _ hostOps1_3_writes h
theorem V7_of (c : Dev nD) (r : Ref sig .tc) (h : r ∉ hostOps1_4_W) : V7 m outs c r = V6 m outs c r :=
  StableHlo.after_of_writes_sub hostOps1_4 _ hostOps1_4_writes h
theorem V8_of (c : Dev nD) (r : Ref sig .tc) (h : r ∉ hostOps1_5_W) : V8 m outs c r = V7 m outs c r :=
  StableHlo.after_of_writes_sub hostOps1_5 _ hostOps1_5_writes h
theorem V9_of (c : Dev nD) (r : Ref sig .tc) (h : r ∉ hostOps1_6_W) : V9 m outs c r = V8 m outs c r :=
  StableHlo.after_of_writes_sub hostOps1_6 _ hostOps1_6_writes h
theorem V10_of (c : Dev nD) (r : Ref sig .tc) (h : r ∉ hostOps1_7_W) : V10 m outs c r = V9 m outs c r :=
  StableHlo.after_of_writes_sub hostOps1_7 _ hostOps1_7_writes h
theorem V11_of (c : Dev nD) (r : Ref sig .tc) (h : r ∉ hostOps1_8_W) : V11 m outs c r = V10 m outs c r :=
  StableHlo.after_of_writes_sub hostOps1_8 _ hostOps1_8_writes h
theorem V12_of (c : Dev nD) (r : Ref sig .tc) (h : r ∉ hostOps1_9_W) : V12 m outs c r = V11 m outs c r :=
  StableHlo.after_of_writes_sub hostOps1_9 _ hostOps1_9_writes h
theorem V13_of (c : Dev nD) (r : Ref sig .tc) (h : r ∉ hostOps1_10_W) : V13 m outs c r = V12 m outs c r :=
  StableHlo.after_of_writes_sub hostOps1_10 _ hostOps1_10_writes h
theorem V14_of (c : Dev nD) (r : Ref sig .tc) (h : r ∉ hostOps1_11_W) : V14 m outs c r = V13 m outs c r :=
  StableHlo.after_of_writes_sub hostOps1_11 _ hostOps1_11_writes h
theorem V15_of (c : Dev nD) (r : Ref sig .tc) (h : r ∉ hostOps1_12_W) : V15 m outs c r = V14 m outs c r :=
  StableHlo.after_of_writes_sub hostOps1_12 _ hostOps1_12_writes h
theorem V16_of (c : Dev nD) (r : Ref sig .tc) (h : r ∉ hostOps1_13_W) : V16 m outs c r = V15 m outs c r :=
  StableHlo.after_of_writes_sub hostOps1_13 _ hostOps1_13_writes h
theorem V17_of (c : Dev nD) (r : Ref sig .tc) (h : r ∉ hostOps1_14_W) : V17 m outs c r = V16 m outs c r :=
  StableHlo.after_of_writes_sub hostOps1_14 _ hostOps1_14_writes h
theorem V18_of (c : Dev nD) (r : Ref sig .tc) (h : r ∉ hostOps1_15_W) : V18 m outs c r = V17 m outs c r :=
  StableHlo.after_of_writes_sub hostOps1_15 _ hostOps1_15_writes h
theorem V19_of (c : Dev nD) (r : Ref sig .tc) (h : r ∉ hostOps1_16_W) : V19 m outs c r = V18 m outs c r :=
  StableHlo.after_of_writes_sub hostOps1_16 _ hostOps1_16_writes h
theorem V20_of (c : Dev nD) (r : Ref sig .tc) (h : r ∉ ([main_v32_0, main_v32_1, main_v32_2] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v32_0), Function.update_of_ne (StableHlo.devRef_ne_of_ne (List.ne_of_not_mem_cons (List.not_mem_of_not_mem_cons h)) : (Proc.devRef .tc r : DevRef τ sig) ≠ Proc.devRef .tc main_v32_1), Function.update_of_ne (StableHlo.devRef_ne_of_ne (List.ne_of_not_mem_cons (List.not_mem_of_not_mem_cons (List.not_mem_of_not_mem_cons h))) : (Proc.devRef .tc r : DevRef τ sig) ≠ Proc.devRef .tc main_v32_2)]
theorem V21_of (c : Dev nD) (r : Ref sig .tc) (h : r ∉ hostOps2_W) : V21 m outs c r = V20 m outs c r :=
  StableHlo.after_of_writes_sub hostOps2 _ hostOps2_writes h
theorem V22_of (c : Dev nD) (r : Ref sig .tc) (h : r ∉ ([main_v46] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v46)]
theorem V23_of (c : Dev nD) (r : Ref sig .tc) (h : r ∉ hostOps3_W) : V23 m outs c r = V22 m outs c r :=
  StableHlo.after_of_writes_sub hostOps3 _ hostOps3_writes h
theorem V24_of (c : Dev nD) (r : Ref sig .tc) (h : r ∉ ([main_v48] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v48)]
theorem V25_of (c : Dev nD) (r : Ref sig .tc) (h : r ∉ hostOps4_W) : V25 m outs c r = V24 m outs c r :=
  StableHlo.after_of_writes_sub hostOps4 _ hostOps4_writes h
theorem V26_of (c : Dev nD) (r : Ref sig .tc) (h : r ∉ hostOps4_1_W) : V26 m outs c r = V25 m outs c r :=
  StableHlo.after_of_writes_sub hostOps4_1 _ hostOps4_1_writes h
theorem V27_of (c : Dev nD) (r : Ref sig .tc) (h : r ∉ hostOps4_2_W) : V27 m outs c r = V26 m outs c r :=
  StableHlo.after_of_writes_sub hostOps4_2 _ hostOps4_2_writes h
theorem V28_of (c : Dev nD) (r : Ref sig .tc) (h : r ∉ hostOps4_3_W) : V28 m outs c r = V27 m outs c r :=
  StableHlo.after_of_writes_sub hostOps4_3 _ hostOps4_3_writes h
theorem V29_of (c : Dev nD) (r : Ref sig .tc) (h : r ∉ hostOps4_4_W) : V29 m outs c r = V28 m outs c r :=
  StableHlo.after_of_writes_sub hostOps4_4 _ hostOps4_4_writes h
theorem V30_of (c : Dev nD) (r : Ref sig .tc) (h : r ∉ hostOps4_5_W) : V30 m outs c r = V29 m outs c r :=
  StableHlo.after_of_writes_sub hostOps4_5 _ hostOps4_5_writes h
theorem V31_of (c : Dev nD) (r : Ref sig .tc) (h : r ∉ hostOps4_6_W) : V31 m outs c r = V30 m outs c r :=
  StableHlo.after_of_writes_sub hostOps4_6 _ hostOps4_6_writes h
theorem V32_of (c : Dev nD) (r : Ref sig .tc) (h : r ∉ hostOps4_7_W) : V32 m outs c r = V31 m outs c r :=
  StableHlo.after_of_writes_sub hostOps4_7 _ hostOps4_7_writes h
theorem V33_of (c : Dev nD) (r : Ref sig .tc) (h : r ∉ hostOps4_8_W) : V33 m outs c r = V32 m outs c r :=
  StableHlo.after_of_writes_sub hostOps4_8 _ hostOps4_8_writes h
theorem V34_of (c : Dev nD) (r : Ref sig .tc) (h : r ∉ ([main_v72_0, main_v72_1, main_v72_2] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v72_0), Function.update_of_ne (StableHlo.devRef_ne_of_ne (List.ne_of_not_mem_cons (List.not_mem_of_not_mem_cons h)) : (Proc.devRef .tc r : DevRef τ sig) ≠ Proc.devRef .tc main_v72_1), Function.update_of_ne (StableHlo.devRef_ne_of_ne (List.ne_of_not_mem_cons (List.not_mem_of_not_mem_cons (List.not_mem_of_not_mem_cons h))) : (Proc.devRef .tc r : DevRef τ sig) ≠ Proc.devRef .tc main_v72_2)]
theorem V35_of (c : Dev nD) (r : Ref sig .tc) (h : r ∉ hostOps5_W) : V35 m outs c r = V34 m outs c r :=
  StableHlo.after_of_writes_sub hostOps5 _ hostOps5_writes h
theorem V36_of (c : Dev nD) (r : Ref sig .tc) (h : r ∉ ([main_v86] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v86)]
theorem V37_of (c : Dev nD) (r : Ref sig .tc) (h : r ∉ hostOps6_W) : V37 m outs c r = V36 m outs c r :=
  StableHlo.after_of_writes_sub hostOps6 _ hostOps6_writes h
theorem V38_of (c : Dev nD) (r : Ref sig .tc) (h : r ∉ ([main_v88] : List (Ref sig .tc))) : V38 m outs c r = V37 m outs c r := by
  simp only [V38, Function.update_of_ne (StableHlo.devRef_ne_of_ne (List.ne_of_not_mem_cons h) : (Proc.devRef .tc r : DevRef τ sig) ≠ Proc.devRef .tc main_v88)]
theorem V39_of (c : Dev nD) (r : Ref sig .tc) (h : r ∉ hostOps7_W) : V39 m outs c r = V38 m outs c r :=
  StableHlo.after_of_writes_sub hostOps7 _ hostOps7_writes h

-- no item writes `r`
abbrev Unwritten (r : Ref sig .tc) : Prop :=
  r ∉ hostOps7_W ∧ r ∉ ([main_v88] : List (Ref sig .tc)) ∧ r ∉ hostOps6_W ∧ r ∉ ([main_v86] : List (Ref sig .tc)) ∧ r ∉ hostOps5_W ∧ r ∉ ([main_v72_0, main_v72_1, main_v72_2] : List (Ref sig .tc)) ∧ r ∉ hostOps4_8_W ∧ r ∉ hostOps4_7_W ∧ r ∉ hostOps4_6_W ∧ r ∉ hostOps4_5_W ∧ r ∉ hostOps4_4_W ∧ r ∉ hostOps4_3_W ∧ r ∉ hostOps4_2_W ∧ r ∉ hostOps4_1_W ∧ r ∉ hostOps4_W ∧ r ∉ ([main_v48] : List (Ref sig .tc)) ∧ r ∉ hostOps3_W ∧ r ∉ ([main_v46] : List (Ref sig .tc)) ∧ r ∉ hostOps2_W ∧ r ∉ ([main_v32_0, main_v32_1, main_v32_2] : List (Ref sig .tc)) ∧ r ∉ hostOps1_16_W ∧ r ∉ hostOps1_15_W ∧ r ∉ hostOps1_14_W ∧ r ∉ hostOps1_13_W ∧ r ∉ hostOps1_12_W ∧ r ∉ hostOps1_11_W ∧ r ∉ hostOps1_10_W ∧ r ∉ hostOps1_9_W ∧ r ∉ hostOps1_8_W ∧ r ∉ hostOps1_7_W ∧ r ∉ hostOps1_6_W ∧ r ∉ hostOps1_5_W ∧ r ∉ hostOps1_4_W ∧ r ∉ hostOps1_3_W ∧ r ∉ hostOps1_2_W ∧ r ∉ hostOps1_1_W ∧ r ∉ hostOps1_W ∧ r ∉ ([main_v1] : List (Ref sig .tc)) ∧ r ∉ hostOps0_W

-- a buffer no item writes holds at the end what it held at launch
theorem V39_keep (c : Dev nD) (r : Ref sig .tc) (h : Unwritten r) : V39 m outs c r = m ((c : Thread nD τ).loc r) := by
  obtain ⟨h39, h38, h37, h36, h35, h34, h33, h32, h31, h30, h29, h28, h27, h26, h25, h24, h23, h22, h21, h20, h19, h18, h17, h16, h15, h14, h13, h12, h11, h10, h9, h8, h7, h6, h5, h4, h3, h2, h1⟩ := h
  exact (V39_of m outs c r h39).trans <| (V38_of m outs c r h38).trans <| (V37_of m outs c r h37).trans <| (V36_of m outs c r h36).trans <| (V35_of m outs c r h35).trans <| (V34_of m outs c r h34).trans <| (V33_of m outs c r h33).trans <| (V32_of m outs c r h32).trans <| (V31_of m outs c r h31).trans <| (V30_of m outs c r h30).trans <| (V29_of m outs c r h29).trans <| (V28_of m outs c r h28).trans <| (V27_of m outs c r h27).trans <| (V26_of m outs c r h26).trans <| (V25_of m outs c r h25).trans <| (V24_of m outs c r h24).trans <| (V23_of m outs c r h23).trans <| (V22_of m outs c r h22).trans <| (V21_of m outs c r h21).trans <| (V20_of m outs c r h20).trans <| (V19_of m outs c r h19).trans <| (V18_of m outs c r h18).trans <| (V17_of m outs c r h17).trans <| (V16_of m outs c r h16).trans <| (V15_of m outs c r h15).trans <| (V14_of m outs c r h14).trans <| (V13_of m outs c r h13).trans <| (V12_of m outs c r h12).trans <| (V11_of m outs c r h11).trans <| (V10_of m outs c r h10).trans <| (V9_of m outs c r h9).trans <| (V8_of m outs c r h8).trans <| (V7_of m outs c r h7).trans <| (V6_of m outs c r h6).trans <| (V5_of m outs c r h5).trans <| (V4_of m outs c r h4).trans <| (V3_of m outs c r h3).trans <| (V2_of m outs c r h2).trans <| (V1_of m c r h1).trans rfl

section

variable {Ix : Type} [DecidableEq Ix] {U : Type} [URA U] {Lvl : Type} [Preorder Lvl]

-- a host stretch as a segment from the buffer contents `V`
abbrev hseg (𝒱₀ : Variants) (L : GSem nD τ sig → Finset Ix) (lv : GSem nD τ sig → Ix → Lvl) (ops : List (HloOp τ sig (Elt F)))
    (hsub : ops.Forall fun op => op.bufs ⊆ StableHlo.tcRefs τ sig) (hfresh : ops.Forall fun op => op.fresh = ∅)
    (V : Dev nD → Valuation τ sig (Elt F)) (E : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops (fun op h => Pipeline.sub_ucRefs op ((List.forall_iff_forall_mem.mp hsub) op h))
    (List.forall_iff_forall_mem.mp hfresh) V E

abbrev adm : (p : Fin 7) → (pcfgs (F := F) p).Adm := fun p => (cfgs p).toPCfg_adm

abbrev segs (𝒱₀ : Variants) (L : GSem nD τ sig → Finset Ix) (lv : GSem nD τ sig → Ix → Lvl) (E : Fin 8 → Dev nD → sProp (MT nD τ sig Ix (Elt F) ℕ U Lvl)) (ι : Ix)
    (pdats : (p : Fin 7) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (c : Dev nD) :
    List (Seg (pcfgs (F := F)) adm pdats ι defs₀ 𝒱₀ L lv) :=
  [.host (hseg 𝒱₀ L lv hostOps0 hostOps0_sub hostOps0_fresh (V0 m) (E 0)),
   .region R0,
   .host (hseg 𝒱₀ L lv hostOps1 hostOps1_sub hostOps1_fresh (V2 m outs) (E 1)),
   .host (hseg 𝒱₀ L lv hostOps1_1 hostOps1_1_sub hostOps1_1_fresh (V3 m outs) (E 1)),
   .host (hseg 𝒱₀ L lv hostOps1_2 hostOps1_2_sub hostOps1_2_fresh (V4 m outs) (E 1)),
   .host (hseg 𝒱₀ L lv hostOps1_3 hostOps1_3_sub hostOps1_3_fresh (V5 m outs) (E 1)),
   .host (hseg 𝒱₀ L lv hostOps1_4 hostOps1_4_sub hostOps1_4_fresh (V6 m outs) (E 1)),
   .host (hseg 𝒱₀ L lv hostOps1_5 hostOps1_5_sub hostOps1_5_fresh (V7 m outs) (E 1)),
   .host (hseg 𝒱₀ L lv hostOps1_6 hostOps1_6_sub hostOps1_6_fresh (V8 m outs) (E 1)),
   .host (hseg 𝒱₀ L lv hostOps1_7 hostOps1_7_sub hostOps1_7_fresh (V9 m outs) (E 1)),
   .host (hseg 𝒱₀ L lv hostOps1_8 hostOps1_8_sub hostOps1_8_fresh (V10 m outs) (E 1)),
   .host (hseg 𝒱₀ L lv hostOps1_9 hostOps1_9_sub hostOps1_9_fresh (V11 m outs) (E 1)),
   .host (hseg 𝒱₀ L lv hostOps1_10 hostOps1_10_sub hostOps1_10_fresh (V12 m outs) (E 1)),
   .host (hseg 𝒱₀ L lv hostOps1_11 hostOps1_11_sub hostOps1_11_fresh (V13 m outs) (E 1)),
   .host (hseg 𝒱₀ L lv hostOps1_12 hostOps1_12_sub hostOps1_12_fresh (V14 m outs) (E 1)),
   .host (hseg 𝒱₀ L lv hostOps1_13 hostOps1_13_sub hostOps1_13_fresh (V15 m outs) (E 1)),
   .host (hseg 𝒱₀ L lv hostOps1_14 hostOps1_14_sub hostOps1_14_fresh (V16 m outs) (E 1)),
   .host (hseg 𝒱₀ L lv hostOps1_15 hostOps1_15_sub hostOps1_15_fresh (V17 m outs) (E 1)),
   .host (hseg 𝒱₀ L lv hostOps1_16 hostOps1_16_sub hostOps1_16_fresh (V18 m outs) (E 1)),
   .region R1,
   .host (hseg 𝒱₀ L lv hostOps2 hostOps2_sub hostOps2_fresh (V20 m outs) (E 2)),
   .region R2,
   .host (hseg 𝒱₀ L lv hostOps3 hostOps3_sub hostOps3_fresh (V22 m outs) (E 3)),
   .region R3,
   .host (hseg 𝒱₀ L lv hostOps4 hostOps4_sub hostOps4_fresh (V24 m outs) (E 4)),
   .host (hseg 𝒱₀ L lv hostOps4_1 hostOps4_1_sub hostOps4_1_fresh (V25 m outs) (E 4)),
   .host (hseg 𝒱₀ L lv hostOps4_2 hostOps4_2_sub hostOps4_2_fresh (V26 m outs) (E 4)),
   .host (hseg 𝒱₀ L lv hostOps4_3 hostOps4_3_sub hostOps4_3_fresh (V27 m outs) (E 4)),
   .host (hseg 𝒱₀ L lv hostOps4_4 hostOps4_4_sub hostOps4_4_fresh (V28 m outs) (E 4)),
   .host (hseg 𝒱₀ L lv hostOps4_5 hostOps4_5_sub hostOps4_5_fresh (V29 m outs) (E 4)),
   .host (hseg 𝒱₀ L lv hostOps4_6 hostOps4_6_sub hostOps4_6_fresh (V30 m outs) (E 4)),
   .host (hseg 𝒱₀ L lv hostOps4_7 hostOps4_7_sub hostOps4_7_fresh (V31 m outs) (E 4)),
   .host (hseg 𝒱₀ L lv hostOps4_8 hostOps4_8_sub hostOps4_8_fresh (V32 m outs) (E 4)),
   .region R4,
   .host (hseg 𝒱₀ L lv hostOps5 hostOps5_sub hostOps5_fresh (V34 m outs) (E 5)),
   .region R5,
   .host (hseg 𝒱₀ L lv hostOps6 hostOps6_sub hostOps6_fresh (V36 m outs) (E 6)),
   .region R6,
   .host (hseg 𝒱₀ L lv hostOps7 hostOps7_sub hostOps7_fresh (V38 m outs) (E 7))]

end

-- every argument array holds in `μ` what it held at launch
abbrev Kept (c : Dev nD) (μ : (ℓ : Loc nD τ sig) → Buf (Elt F) ℓ) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)
  ∧ μ ((c.tc : Thread nD τ).loc main_arg15) = m ((c.tc : Thread nD τ).loc main_arg15)
  ∧ μ ((c.tc : Thread nD τ).loc main_arg16) = m ((c.tc : Thread nD τ).loc main_arg16)
  ∧ μ ((c.tc : Thread nD τ).loc main_arg17) = m ((c.tc : Thread nD τ).loc main_arg17)
  ∧ μ ((c.tc : Thread nD τ).loc main_arg18) = m ((c.tc : Thread nD τ).loc main_arg18)
  ∧ μ ((c.tc : Thread nD τ).loc main_arg19) = m ((c.tc : Thread nD τ).loc main_arg19)
  ∧ μ ((c.tc : Thread nD τ).loc main_arg20) = m ((c.tc : Thread nD τ).loc main_arg20)
  ∧ μ ((c.tc : Thread nD τ).loc main_arg21) = m ((c.tc : Thread nD τ).loc main_arg21)
  ∧ μ ((c.tc : Thread nD τ).loc main_arg22) = m ((c.tc : Thread nD τ).loc main_arg22)
  ∧ μ ((c.tc : Thread nD τ).loc main_arg23) = m ((c.tc : Thread nD τ).loc main_arg23)
  ∧ μ ((c.tc : Thread nD τ).loc main_arg24) = m ((c.tc : Thread nD τ).loc main_arg24)
  ∧ μ ((c.tc : Thread nD τ).loc main_arg25) = m ((c.tc : Thread nD τ).loc main_arg25)
  ∧ μ ((c.tc : Thread nD τ).loc main_arg26) = m ((c.tc : Thread nD τ).loc main_arg26)
  ∧ μ ((c.tc : Thread nD τ).loc main_arg27) = m ((c.tc : Thread nD τ).loc main_arg27)
  ∧ μ ((c.tc : Thread nD τ).loc main_arg28) = m ((c.tc : Thread nD τ).loc main_arg28)

set_option backward.isDefEq.respectTransparency.types false in
-- the run of @main, given one segment record per kernel region
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V19 m outs c) ∗ E 1 c) ⊢ R1.pre c)
    (hpost1 : ∀ c : Dev nD, R1.post c ⊢ iprop(StableHlo.held (c : Thread nD τ) (Pipeline.ucRefs τ sig) (V20 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V23 m outs c) ∗ E 3 c) ⊢ R3.pre c)
    (hpost3 : ∀ c : Dev nD, R3.post c ⊢ iprop(StableHlo.held (c : Thread nD τ) (Pipeline.ucRefs τ sig) (V24 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V33 m outs c) ∗ E 4 c) ⊢ R4.pre c)
    (hpost4 : ∀ c : Dev nD, R4.post c ⊢ iprop(StableHlo.held (c : Thread nD τ) (Pipeline.ucRefs τ sig) (V34 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V35 m outs c) ∗ E 5 c) ⊢ R5.pre c)
    (hpost5 : ∀ c : Dev nD, R5.post c ⊢ iprop(StableHlo.held (c : Thread nD τ) (Pipeline.ucRefs τ sig) (V36 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V37 m outs c) ∗ E 6 c) ⊢ R6.pre c)
    (hpost6 : ∀ c : Dev nD, R6.post c ⊢ iprop(StableHlo.held (c : Thread nD τ) (Pipeline.ucRefs τ sig) (V38 m outs c) ∗ E 7 c)) :
    θ_run defs (onTc (τ := τ) (main (F := F))) ⟨m, fun _ => 0, ρ⟩ (fun r => ∀ c : Dev nD,
      r.2.mem ((c.tc : Thread nD τ).loc main_v92) = V39 m outs c main_v92 ∧ Kept m c r.2.mem) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V39 m outs c))
    (hch := fun c => ⟨.rfl, hpre0 c, hpost0 c, .rfl, .rfl, .rfl, .rfl, .rfl, .rfl, .rfl, .rfl, .rfl, .rfl, .rfl, .rfl, .rfl, .rfl, .rfl, .rfl, hpre1 c, hpost1 c, hpre2 c, hpost2 c, hpre3 c, hpost3 c, .rfl, .rfl, .rfl, .rfl, .rfl, .rfl, .rfl, .rfl, hpre4 c, hpost4 c, hpre5 c, hpost5 c, hpre6 c, hpost6 c, sep_mono .rfl (hE7 c)⟩)
    (hinit := ?_) (QY := fun c s => s.mem ((c.tc : Thread nD τ).loc main_v92) = V39 m outs c main_v92 ∧ Kept m c s.mem)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V39 m outs c) s') $$ [Hh HSI]
    · isplitl [Hh] <;> iassumption
    icases Hr with ⟨%h, HSI⟩
    imodintro
    isplitr
    · ipureintro
      have hk := fun (r : Ref sig .tc) (hr : ¬ (Proc.devRef .tc r : DevRef τ sig).isScoped) (hw : Unwritten r) =>
        (h (Proc.devRef .tc r) (Finset.mem_filter.mpr ⟨StableHlo.devRef_mem_tcRefs r, hr⟩)).trans (V39_keep m outs c r hw)
      refine ⟨h (Proc.devRef .tc main_v92) (Finset.mem_filter.mpr ⟨StableHlo.devRef_mem_tcRefs main_v92, by decide⟩),
        hk main_arg0 (by decide) ?_,
        hk main_arg1 (by decide) ?_,
        hk main_arg2 (by decide) ?_,
        hk main_arg3 (by decide) ?_,
        hk main_arg4 (by decide) ?_,
        hk main_arg5 (by decide) ?_,
        hk main_arg6 (by decide) ?_,
        hk main_arg7 (by decide) ?_,
        hk main_arg8 (by decide) ?_,
        hk main_arg9 (by decide) ?_,
        hk main_arg10 (by decide) ?_,
        hk main_arg11 (by decide) ?_,
        hk main_arg12 (by decide) ?_,
        hk main_arg13 (by decide) ?_,
        hk main_arg14 (by decide) ?_,
        hk main_arg15 (by decide) ?_,
        hk main_arg16 (by decide) ?_,
        hk main_arg17 (by decide) ?_,
        hk main_arg18 (by decide) ?_,
        hk main_arg19 (by decide) ?_,
        hk main_arg20 (by decide) ?_,
        hk main_arg21 (by decide) ?_,
        hk main_arg22 (by decide) ?_,
        hk main_arg23 (by decide) ?_,
        hk main_arg24 (by decide) ?_,
        hk main_arg25 (by decide) ?_,
        hk main_arg26 (by decide) ?_,
        hk main_arg27 (by decide) ?_,
        hk main_arg28 (by decide) ?_⟩
      all_goals repeat' apply And.intro
      all_goals decide
    · iexact HSI

end Cert.Kernel.GenP

end
-- ==== Proof.K.R0.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x64 := Rect.unit (s := S2000x64) ![0, 0] S2000x64.size inb_S2000x64_S2000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

def out0_3 (x0 : Vec F S2000x64 .f32) (x1 : Vec F S64x128 .f32) (x2 : Vec F S1x128 .f32) : Vec F S2000x128 .f32 :=
  View.canon [⟨r0_3, k0_pay1 (View.ld x0 r0_0) (View.ld x1 r0_1) (View.ld x2 r0_2)⟩]

theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in

theorem sound_kernel0 (c : Dev nD) (E : Set ℕ) (i : grid0.Coords)
    (arg1 : Memref sig .tc .vmem S2000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fp_kernel i arg1 harg1 arg2 harg2 arg3 harg3 arg4 harg4) K := by
  simp only [cc0__fp_kernel_eq_skeleton]; unfold cc0__fp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (i : Fin (cfg0.N + 1)) : (dat0 V c).Φ i = Pipeline.ΦA spec0 c := by
  dsimp only [dat0]
theorem q_eq0 (c : Dev nD) (w : Fin cfg0.W) : (dat0 V c).q w = fullShare := by
  dsimp only [dat0]
theorem owed_eq0 (c : Dev nD) (x) : (dat0 V c).owed x = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S2000x64 := Rect.unit (s := S2000x64) ![0, 0] S2000x64.size inb_S2000x64_S2000x64_0_0
abbrev r1_n : Rect S2000x80 := Rect.unit (s := S2000x80) ![0, 0] S2000x80.size inb_S2000x80_S2000x80_0_0
abbrev r1_s : Rect S64x128 := Rect.unit (s := S64x128) ![0, 0] S64x128.size inb_S64x128_S64x128_0_0
abbrev r1_d : Rect S1x80x128 := Rect.unit (s := S1x80x128) ![0, 0, 0] S1x80x128.size inb_S1x80x128_S1x80x128_0_0_0
abbrev r1_v : Rect S1x128 := Rect.unit (s := S1x128) ![0, 0] S1x128.size inb_S1x128_S1x128_0_0
abbrev r1_o : Rect S2000x128 := Rect.unit (s := S2000x128) ![0, 0] S2000x128.size inb_S2000x128_S2000x128_0_0

def out1_5 (x0 : Vec F S2000x64 .f32) (x1 : Vec F S2000x80 .f32) (x2 : Vec F S64x128 .f32) (x3 : Vec F S1x80x128 .f32) (x4 : Vec F S1x128 .f32) : Vec F S2000x128 .f32 :=
  View.canon [⟨r1_o, k1_pay4 (View.ld x0 r1_a) (View.ld x2 r1_s) (View.ld x1 r1_n) (View.ld x3 r1_d) (View.ld x4 r1_v)⟩]

def zero1_6 : Vec F S1x128 .f32 := View.canon [⟨r1_v, k1_pay2 (F := F)⟩]

def zero1_7 : Vec F S1x128 .f32 := View.canon [⟨r1_v, k1_pay3 (F := F)⟩]

def step1_6 (x0 : Vec F S2000x64 .f32) (x1 : Vec F S2000x80 .f32) (x2 : Vec F S64x128 .f32) (x3 : Vec F S1x80x128 .f32) (x4 : Vec F S1x128 .f32) (p : Vec F S1x128 .f32) : Vec F S1x128 .f32 :=
  View.canon [⟨r1_v, k1_pay5 (View.ld x0 r1_a) (View.ld x2 r1_s) (View.ld x1 r1_n) (View.ld x3 r1_d) (View.ld x4 r1_v) (View.ld p r1_v)⟩]

def step1_7 (x0 : Vec F S2000x64 .f32) (x1 : Vec F S2000x80 .f32) (x2 : Vec F S64x128 .f32) (x3 : Vec F S1x80x128 .f32) (x4 : Vec F S1x128 .f32) (p : Vec F S1x128 .f32) : Vec F S1x128 .f32 :=
  View.canon [⟨r1_v, k1_pay1 (k1_pay6 (View.ld p r1_v)) (k1_pay7 (View.ld x0 r1_a) (View.ld x2 r1_s) (View.ld x1 r1_n) (View.ld x3 r1_d) (View.ld x4 r1_v))⟩]

def pt1 (n : ℕ) : Fin cfg1.N := if h : n < cfg1.N then ⟨n, h⟩ else ⟨0, lt_of_lt_of_eq (by decide : 0 < 100) (show 100 = cfg1.N from N_1.symm)⟩

theorem pt1_val (t : Fin cfg1.N) : pt1 t.val = t := by unfold pt1; rw [dif_pos t.isLt]

def acc1 (c : Dev nD) : ℕ → Vec F S1x128 .f32 × Vec F S1x128 .f32
  | 0 => (step1_6 (iblk1 V c 0 (pt1 0)) (iblk1 V c 1 (pt1 0)) (iblk1 V c 2 (pt1 0)) (iblk1 V c 3 (pt1 0)) (iblk1 V c 4 (pt1 0)) zero1_6,
          step1_7 (iblk1 V c 0 (pt1 0)) (iblk1 V c 1 (pt1 0)) (iblk1 V c 2 (pt1 0)) (iblk1 V c 3 (pt1 0)) (iblk1 V c 4 (pt1 0)) zero1_7)
  | n + 1 => (step1_6 (iblk1 V c 0 (pt1 (n + 1))) (iblk1 V c 1 (pt1 (n + 1))) (iblk1 V c 2 (pt1 (n + 1))) (iblk1 V c 3 (pt1 (n + 1))) (iblk1 V c 4 (pt1 (n + 1))) (acc1 c n).1,
          step1_7 (iblk1 V c 0 (pt1 (n + 1))) (iblk1 V c 1 (pt1 (n + 1))) (iblk1 V c 2 (pt1 (n + 1))) (iblk1 V c 3 (pt1 (n + 1))) (iblk1 V c 4 (pt1 (n + 1))) (acc1 c n).2)

theorem acc1_zero (c : Dev nD) : acc1 V c 0 =
    (step1_6 (iblk1 V c 0 (pt1 0)) (iblk1 V c 1 (pt1 0)) (iblk1 V c 2 (pt1 0)) (iblk1 V c 3 (pt1 0)) (iblk1 V c 4 (pt1 0)) zero1_6,
     step1_7 (iblk1 V c 0 (pt1 0)) (iblk1 V c 1 (pt1 0)) (iblk1 V c 2 (pt1 0)) (iblk1 V c 3 (pt1 0)) (iblk1 V c 4 (pt1 0)) zero1_7) := rfl

theorem acc1_succ (c : Dev nD) (n : ℕ) : acc1 V c (n + 1) =
    (step1_6 (iblk1 V c 0 (pt1 (n + 1))) (iblk1 V c 1 (pt1 (n + 1))) (iblk1 V c 2 (pt1 (n + 1))) (iblk1 V c 3 (pt1 (n + 1))) (iblk1 V c 4 (pt1 (n + 1))) (acc1 V c n).1,
     step1_7 (iblk1 V c 0 (pt1 (n + 1))) (iblk1 V c 1 (pt1 (n + 1))) (iblk1 V c 2 (pt1 (n + 1))) (iblk1 V c 3 (pt1 (n + 1))) (iblk1 V c 4 (pt1 (n + 1))) (acc1 V c n).2) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => (acc1 V c t.val).1
    | ⟨7, _⟩ => (acc1 V c t.val).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (i : Fin (cfg1.N + 1)) : (dat1 V c).Φ i = Pipeline.ΦA spec1 c := by
  dsimp only [dat1]
theorem q_eq1 (c : Dev nD) (w : Fin cfg1.W) : (dat1 V c).q w = fullShare := by
  dsimp only [dat1]
theorem owed_eq1 (c : Dev nD) (x) : (dat1 V c).owed x = 0 := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = (acc1 V c t.val).1 := by dsimp only [dat1]
theorem after1_7 (c : Dev nD) (t : Fin cfg1.N) : (dat1 V c).after 7 t = (acc1 V c t.val).2 := by dsimp only [dat1]

abbrev cond1 (i : grid1.Coords) : Prop := (Scalar.cmpi .ne (Scalar.extui (Scalar.cmpi .eq (BitVec.ofNat 32 (i 0).val) 0#32)) 0#32) = 1#1

theorem hcond1 : ∀ t : Fin cfg1.N, cond1 (grid1.coords t) ↔ t.val % 100 = 0 :=
  (by decide +kernel : ∀ t : Fin grid1.N, cond1 (grid1.coords t) ↔ t.val % 100 = 0)

theorem zeros2_1 : (![0, 0] : Fin S1x128.rank → Nat) = fun _ => 0 := by funext a; fin_cases a <;> rfl

theorem cover1_v (p : Vec F S1x128 .f32) (L : List (View.Piece (Elt F) S1x128 .f32)) (y : S1x128.Idx) :
    ∃ pc ∈ ((⟨r1_v, p⟩ : View.Piece (Elt F) S1x128 .f32) :: L), y ∈ pc.1.set :=
  ⟨_, List.mem_cons_self .., View.mem_set_unit_zero zeros2_1 inb_S1x128_S1x128_0_0 y⟩

theorem canon1_v (p : Vec F S1x128 .f32) (L : List (View.Piece (Elt F) S1x128 .f32)) :
    View.canon ((⟨r1_v, p⟩ : View.Piece (Elt F) S1x128 .f32) :: L) = View.canon [(⟨r1_v, p⟩ : View.Piece (Elt F) S1x128 .f32)] :=
  (View.canon_cons_unit_zero zeros2_1 inb_S1x128_S1x128_0_0 p L).trans (View.canon_unit_zero zeros2_1 inb_S1x128_S1x128_0_0 p).symm

theorem cover1_5 (p : Vec F S2000x128 .f32) (y : S2000x128.Idx) :
    ∃ pc ∈ ([⟨r1_o, p⟩] : List (View.Piece (Elt F) S2000x128 .f32)), y ∈ pc.1.set :=
  View.cover_of_tiled [⟨r1_o, p⟩] S2000x128.size (by rfl) y

set_option maxHeartbeats 1000000 in

theorem sound_kernel1_A (c : Dev nD) (E : Set ℕ) (i : grid1.Coords) (hc : cond1 i)
    (arg1 : Memref sig .tc .vmem S2000x64 .f32) (harg1 : arg1.IsWhole) (arg2 : Memref sig .tc .vmem S2000x80 .f32) (harg2 : arg2.IsWhole)
    (arg3 : Memref sig .tc .vmem S64x128 .f32) (harg3 : arg3.IsWhole) (arg4 : Memref sig .tc .vmem S1x80x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x64 .f32) (x1 : Vec F S2000x80 .f32) (x2 : Vec F S64x128 .f32) (x3 : Vec F S1x80x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (step1_6 x0 x1 x2 x3 x4 zero1_6)
            ∗ owns (c : Thread nD τ) arg8 fullShare (step1_7 x0 x1 x2 x3 x4 zero1_7)) -∗ K ⟨⟩))
      ⊢ wp frame (wpE (defs₀ (F := F)) Variants.none c none) E (cc1__conv_linear_kernel i arg1 harg1 arg2 harg2 arg3 harg3 arg4 harg4 arg5 harg5 arg6 harg6 arg7 harg7 arg8 harg8) K := by
  simp only [cc1__conv_linear_kernel_eq_skeleton]; unfold cc1__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    refine (View.read_writes_eq_canon _ _ _ (cover1_v _ _)).trans ((canon1_v _ _).trans ?_)
    exact congrArg (fun z => View.canon [(⟨r1_v, k1_pay5 _ _ _ _ _ z⟩ : View.Piece (Elt F) S1x128 .f32)])
      (View.readCov_eq_canon_ld arg7.view [(⟨r1_v, k1_pay2 (F := F)⟩ : View.Piece (Elt F) S1x128 .f32)] r1_v (cover1_v _ _))
  iexists _; isplitr
  swap; · iexact H7
  ipureintro
  refine (View.read_writes_eq_canon _ _ _ (cover1_v _ _)).trans ((canon1_v _ _).trans ?_)
  exact congrArg (fun z => View.canon [(⟨r1_v, k1_pay1 (k1_pay6 z) _⟩ : View.Piece (Elt F) S1x128 .f32)])
    (View.readCov_eq_canon_ld arg8.view [(⟨r1_v, k1_pay3 (F := F)⟩ : View.Piece (Elt F) S1x128 .f32)] r1_v (cover1_v _ _))

set_option maxHeartbeats 1000000 in

theorem sound_kernel1_B (c : Dev nD) (E : Set ℕ) (i : grid1.Coords) (hc : ¬cond1 i)
    (arg1 : Memref sig .tc .vmem S2000x64 .f32) (harg1 : arg1.IsWhole) (arg2 : Memref sig .tc .vmem S2000x80 .f32) (harg2 : arg2.IsWhole)
    (arg3 : Memref sig .tc .vmem S64x128 .f32) (harg3 : arg3.IsWhole) (arg4 : Memref sig .tc .vmem S1x80x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x64 .f32) (x1 : Vec F S2000x80 .f32) (x2 : Vec F S64x128 .f32) (x3 : Vec F S1x80x128 .f32) (x4 : Vec F S1x128 .f32)
    (p6 p7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare p6 ∗ owns (c : Thread nD τ) arg8 fullShare p7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (step1_6 x0 x1 x2 x3 x4 p6)
            ∗ owns (c : Thread nD τ) arg8 fullShare (step1_7 x0 x1 x2 x3 x4 p7)) -∗ K ⟨⟩))
      ⊢ wp frame (wpE (defs₀ (F := F)) Variants.none c none) E (cc1__conv_linear_kernel i arg1 harg1 arg2 harg2 arg3 harg3 arg4 harg4 arg5 harg5 arg6 harg6 arg7 harg7 arg8 harg8) K := by
  simp only [cc1__conv_linear_kernel_eq_skeleton]; unfold cc1__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_v _ _)
  iexists _; isplitr
  swap; · iexact H7
  ipureintro
  exact View.read_writes_eq_canon _ _ _ (cover1_v _ _)

theorem lt1 (t : Fin cfg1.N) : t.val < 100 := lt_of_lt_of_eq t.isLt (show cfg1.N = 100 from N_1)

theorem acc1_A (c : Dev nD) (t : Fin cfg1.N) (h0 : t.val % 100 = 0) : acc1 V c t.val =
    (step1_6 (iblk1 V c 0 t) (iblk1 V c 1 t) (iblk1 V c 2 t) (iblk1 V c 3 t) (iblk1 V c 4 t) zero1_6,
     step1_7 (iblk1 V c 0 t) (iblk1 V c 1 t) (iblk1 V c 2 t) (iblk1 V c 3 t) (iblk1 V c 4 t) zero1_7) := by
  have hN := lt1 t
  obtain ⟨n, hn⟩ := t
  cases n with
  | zero => exact (acc1_zero V c).trans (by rw [pt1_val ⟨0, hn⟩])
  | succ n => exfalso; dsimp only at h0 hN; omega

theorem acc1_B (c : Dev nD) (t : Fin cfg1.N) (h0 : ¬t.val % 100 = 0) : acc1 V c t.val =
    (step1_6 (iblk1 V c 0 t) (iblk1 V c 1 t) (iblk1 V c 2 t) (iblk1 V c 3 t) (iblk1 V c 4 t) (acc1 V c (t.val - 1)).1,
     step1_7 (iblk1 V c 0 t) (iblk1 V c 1 t) (iblk1 V c 2 t) (iblk1 V c 3 t) (iblk1 V c 4 t) (acc1 V c (t.val - 1)).2) := by
  obtain ⟨n, hn⟩ := t
  cases n with
  | zero => exact absurd (Nat.zero_mod _) h0
  | succ n => exact (acc1_succ V c n).trans (by rw [pt1_val ⟨n + 1, hn⟩]; rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem before1_6_B (c : Dev nD) (t : Fin cfg1.N) (h0 : ¬t.val % 100 = 0) (d) :
    (dat1 V c).before 6 t d = (acc1 V c (t.val - 1)).1 := by
  have hN := lt1 t
  rw [Dat.before_out_kept _ 6 rfl t (by omega) (Bool.eq_false_iff.mpr fun h => by have := (flush1_6 _).mp h; dsimp only at this; omega)
    (fun _ => rfl) (fun _ _ => rfl)]
  dsimp only [dat1]

theorem before1_7_B (c : Dev nD) (t : Fin cfg1.N) (h0 : ¬t.val % 100 = 0) (d) :
    (dat1 V c).before 7 t d = (acc1 V c (t.val - 1)).2 := by
  have hN := lt1 t
  rw [Dat.before_out_kept _ 7 rfl t (by omega) (Bool.eq_false_iff.mpr fun h => by have := (flush1_7 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 100 = 0
  · rw [acc1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) ((hcond1 t).mpr h0) _ _ _ _ _ _ _ _ _ _ _ _ _ _ _ _
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc1_B V c t h0]
    simp only [before1_6_B V c t h0, before1_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) (fun h => h0 ((hcond1 t).mp h)) _ _ _ _ _ _ _ _ _ _ _ _ _ _ _ _
      (iblk1 V c 0 t) (iblk1 V c 1 t) (iblk1 V c 2 t) (iblk1 V c 3 t) (iblk1 V c 4 t)
      (acc1 V c (t.val - 1)).1 (acc1 V c (t.val - 1)).2 _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0

abbrev r2_1 : Rect S1x128 := Rect.unit (s := S1x128) ![0, 0] S1x128.size inb_S1x128_S1x128_0_0

def out2_3 (x0 : Vec F S2000x128 .f32) (x1 : Vec F S1x128 .f32) (x2 : Vec F S1x128 .f32) : Vec F S2000x128 .f32 :=
  View.canon [⟨r2_0, k2_pay1 (View.ld x0 r2_0) (View.ld x1 r2_1) (View.ld x2 r2_1)⟩]

theorem cover2_3 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in

theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__norm_relu_kernel i arg1 harg1 arg2 harg2 arg3 harg3 arg4 harg4) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi_eq2 (c : Dev nD) (i : Fin (cfg2.N + 1)) : (dat2 V c).Φ i = Pipeline.ΦA spec2 c := by
  dsimp only [dat2]

theorem q_eq2 (c : Dev nD) (w : Fin cfg2.W) : (dat2 V c).q w = fullShare := by
  dsimp only [dat2]

theorem owed_eq2 (c : Dev nD) (x) : (dat2 V c).owed x = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S2000x128 := Rect.unit (s := S2000x128) ![0, 0] S2000x128.size inb_S2000x128_S2000x128_0_0

def out3_3 (x0 : Vec F S2000x128 .f32) (x1 : Vec F S128x128 .f32) (x2 : Vec F S1x128 .f32) : Vec F S2000x128 .f32 :=
  View.canon [⟨r3_3, k3_pay1 (View.ld x0 r3_0) (View.ld x1 r3_1) (View.ld x2 r3_2)⟩]

theorem cover3_3 (p0 : Vec F S2000x128 .f32) (y : S2000x128.Idx) :
    ∃ pc ∈ ([⟨r3_3, p0⟩] : List (View.Piece (Elt F) S2000x128 .f32)), y ∈ pc.1.set :=
  View.cover_of_tiled [⟨r3_3, p0⟩] S2000x128.size (by rfl) y

set_option maxHeartbeats 1000000 in

theorem sound_kernel3 (c : Dev nD) (E : Set ℕ) (i : grid3.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__fp_kernel i arg1 harg1 arg2 harg2 arg3 harg3 arg4 harg4) K := by
  simp only [cc3__fp_kernel_eq_skeleton]; unfold cc3__fp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem Phi_eq3 (c : Dev nD) (i : Fin (cfg3.N + 1)) : (dat3 V c).Φ i = Pipeline.ΦA spec3 c := by
  dsimp only [dat3]
theorem q_eq3 (c : Dev nD) (w : Fin cfg3.W) : (dat3 V c).q w = fullShare := by
  dsimp only [dat3]
theorem owed_eq3 (c : Dev nD) (x) : (dat3 V c).owed x = 0 := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S2000x128 := Rect.unit (s := S2000x128) ![0, 0] S2000x128.size inb_S2000x128_S2000x128_0_0
abbrev r4_n : Rect S2000x144 := Rect.unit (s := S2000x144) ![0, 0] S2000x144.size inb_S2000x144_S2000x144_0_0
abbrev r4_s : Rect S128x128 := Rect.unit (s := S128x128) ![0, 0] S128x128.size inb_S128x128_S128x128_0_0
abbrev r4_d : Rect S1x144x128 := Rect.unit (s := S1x144x128) ![0, 0, 0] S1x144x128.size inb_S1x144x128_S1x144x128_0_0_0
abbrev r4_v : Rect S1x128 := Rect.unit (s := S1x128) ![0, 0] S1x128.size inb_S1x128_S1x128_0_0
abbrev r4_o : Rect S2000x128 := Rect.unit (s := S2000x128) ![0, 0] S2000x128.size inb_S2000x128_S2000x128_0_0

def out4_5 (x0 : Vec F S2000x128 .f32) (x1 : Vec F S2000x144 .f32) (x2 : Vec F S128x128 .f32) (x3 : Vec F S1x144x128 .f32) (x4 : Vec F S1x128 .f32) : Vec F S2000x128 .f32 :=
  View.canon [⟨r4_o, k4_pay4 (View.ld x0 r4_a) (View.ld x2 r4_s) (View.ld x1 r4_n) (View.ld x3 r4_d) (View.ld x4 r4_v)⟩]

def zero4_6 : Vec F S1x128 .f32 := View.canon [⟨r4_v, k4_pay2 (F := F)⟩]

def zero4_7 : Vec F S1x128 .f32 := View.canon [⟨r4_v, k4_pay3 (F := F)⟩]

def step4_6 (x0 : Vec F S2000x128 .f32) (x1 : Vec F S2000x144 .f32) (x2 : Vec F S128x128 .f32) (x3 : Vec F S1x144x128 .f32) (x4 : Vec F S1x128 .f32) (p : Vec F S1x128 .f32) : Vec F S1x128 .f32 :=
  View.canon [⟨r4_v, k4_pay5 (View.ld x0 r4_a) (View.ld x2 r4_s) (View.ld x1 r4_n) (View.ld x3 r4_d) (View.ld x4 r4_v) (View.ld p r4_v)⟩]

def step4_7 (x0 : Vec F S2000x128 .f32) (x1 : Vec F S2000x144 .f32) (x2 : Vec F S128x128 .f32) (x3 : Vec F S1x144x128 .f32) (x4 : Vec F S1x128 .f32) (p : Vec F S1x128 .f32) : Vec F S1x128 .f32 :=
  View.canon [⟨r4_v, k4_pay1 (k4_pay6 (View.ld p r4_v)) (k4_pay7 (View.ld x0 r4_a) (View.ld x2 r4_s) (View.ld x1 r4_n) (View.ld x3 r4_d) (View.ld x4 r4_v))⟩]

def pt4 (n : ℕ) : Fin cfg4.N := if h : n < cfg4.N then ⟨n, h⟩ else ⟨0, lt_of_lt_of_eq (by decide : 0 < 100) (show 100 = cfg4.N from N_4.symm)⟩

theorem pt4_val (t : Fin cfg4.N) : pt4 t.val = t := by unfold pt4; rw [dif_pos t.isLt]

def acc4 (c : Dev nD) : ℕ → Vec F S1x128 .f32 × Vec F S1x128 .f32
  | 0 => (step4_6 (iblk4 V c 0 (pt4 0)) (iblk4 V c 1 (pt4 0)) (iblk4 V c 2 (pt4 0)) (iblk4 V c 3 (pt4 0)) (iblk4 V c 4 (pt4 0)) zero4_6,
          step4_7 (iblk4 V c 0 (pt4 0)) (iblk4 V c 1 (pt4 0)) (iblk4 V c 2 (pt4 0)) (iblk4 V c 3 (pt4 0)) (iblk4 V c 4 (pt4 0)) zero4_7)
  | n + 1 => (step4_6 (iblk4 V c 0 (pt4 (n + 1))) (iblk4 V c 1 (pt4 (n + 1))) (iblk4 V c 2 (pt4 (n + 1))) (iblk4 V c 3 (pt4 (n + 1))) (iblk4 V c 4 (pt4 (n + 1))) (acc4 c n).1,
          step4_7 (iblk4 V c 0 (pt4 (n + 1))) (iblk4 V c 1 (pt4 (n + 1))) (iblk4 V c 2 (pt4 (n + 1))) (iblk4 V c 3 (pt4 (n + 1))) (iblk4 V c 4 (pt4 (n + 1))) (acc4 c n).2)

theorem acc4_zero (c : Dev nD) : acc4 V c 0 =
    (step4_6 (iblk4 V c 0 (pt4 0)) (iblk4 V c 1 (pt4 0)) (iblk4 V c 2 (pt4 0)) (iblk4 V c 3 (pt4 0)) (iblk4 V c 4 (pt4 0)) zero4_6,
     step4_7 (iblk4 V c 0 (pt4 0)) (iblk4 V c 1 (pt4 0)) (iblk4 V c 2 (pt4 0)) (iblk4 V c 3 (pt4 0)) (iblk4 V c 4 (pt4 0)) zero4_7) := rfl

theorem acc4_succ (c : Dev nD) (n : ℕ) : acc4 V c (n + 1) =
    (step4_6 (iblk4 V c 0 (pt4 (n + 1))) (iblk4 V c 1 (pt4 (n + 1))) (iblk4 V c 2 (pt4 (n + 1))) (iblk4 V c 3 (pt4 (n + 1))) (iblk4 V c 4 (pt4 (n + 1))) (acc4 V c n).1,
     step4_7 (iblk4 V c 0 (pt4 (n + 1))) (iblk4 V c 1 (pt4 (n + 1))) (iblk4 V c 2 (pt4 (n + 1))) (iblk4 V c 3 (pt4 (n + 1))) (iblk4 V c 4 (pt4 (n + 1))) (acc4 V c n).2) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => (acc4 V c t.val).1
    | ⟨7, _⟩ => (acc4 V c t.val).2
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (i : Fin (cfg4.N + 1)) : (dat4 V c).Φ i = Pipeline.ΦA spec4 c := by
  dsimp only [dat4]
theorem q_eq4 (c : Dev nD) (w : Fin cfg4.W) : (dat4 V c).q w = fullShare := by
  dsimp only [dat4]
theorem owed_eq4 (c : Dev nD) (x) : (dat4 V c).owed x = 0 := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t =
    out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = (acc4 V c t.val).1 := by dsimp only [dat4]
theorem after4_7 (c : Dev nD) (t : Fin cfg4.N) : (dat4 V c).after 7 t = (acc4 V c t.val).2 := by dsimp only [dat4]

abbrev cond4 (i : grid4.Coords) : Prop := (Scalar.cmpi .ne (Scalar.extui (Scalar.cmpi .eq (BitVec.ofNat 32 (i 0).val) 0#32)) 0#32) = 1#1

theorem hcond4 : ∀ t : Fin cfg4.N, cond4 (grid4.coords t) ↔ t.val % 100 = 0 :=
  (by decide +kernel : ∀ t : Fin grid4.N, cond4 (grid4.coords t) ↔ t.val % 100 = 0)

theorem zeros2_4 : (![0, 0] : Fin S1x128.rank → Nat) = fun _ => 0 := by funext a; fin_cases a <;> rfl

theorem cover4_v (p : Vec F S1x128 .f32) (L : List (View.Piece (Elt F) S1x128 .f32)) (y : S1x128.Idx) :
    ∃ pc ∈ ((⟨r4_v, p⟩ : View.Piece (Elt F) S1x128 .f32) :: L), y ∈ pc.1.set :=
  ⟨_, List.mem_cons_self .., View.mem_set_unit_zero zeros2_4 inb_S1x128_S1x128_0_0 y⟩

theorem canon4_v (p : Vec F S1x128 .f32) (L : List (View.Piece (Elt F) S1x128 .f32)) :
    View.canon ((⟨r4_v, p⟩ : View.Piece (Elt F) S1x128 .f32) :: L) = View.canon [(⟨r4_v, p⟩ : View.Piece (Elt F) S1x128 .f32)] :=
  (View.canon_cons_unit_zero zeros2_4 inb_S1x128_S1x128_0_0 p L).trans (View.canon_unit_zero zeros2_4 inb_S1x128_S1x128_0_0 p).symm

theorem cover4_5 (p : Vec F S2000x128 .f32) (y : S2000x128.Idx) :
    ∃ pc ∈ ([⟨r4_o, p⟩] : List (View.Piece (Elt F) S2000x128 .f32)), y ∈ pc.1.set :=
  View.cover_of_tiled [⟨r4_o, p⟩] S2000x128.size (by rfl) y

set_option maxHeartbeats 1000000 in

theorem sound_kernel4_A (c : Dev nD) (E : Set ℕ) (i : grid4.Coords) (hc : cond4 i)
    (arg1 : Memref sig .tc .vmem S2000x128 .f32) (harg1 : arg1.IsWhole) (arg2 : Memref sig .tc .vmem S2000x144 .f32) (harg2 : arg2.IsWhole)
    (arg3 : Memref sig .tc .vmem S128x128 .f32) (harg3 : arg3.IsWhole) (arg4 : Memref sig .tc .vmem S1x144x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x128 .f32) (x1 : Vec F S2000x144 .f32) (x2 : Vec F S128x128 .f32) (x3 : Vec F S1x144x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out4_5 x0 x1 x2 x3 x4)
            ∗ owns (c : Thread nD τ) arg7 fullShare (step4_6 x0 x1 x2 x3 x4 zero4_6)
            ∗ owns (c : Thread nD τ) arg8 fullShare (step4_7 x0 x1 x2 x3 x4 zero4_7)) -∗ K ⟨⟩))
      ⊢ wp frame (wpE (defs₀ (F := F)) Variants.none c none) E (cc4__conv_linear_kernel i arg1 harg1 arg2 harg2 arg3 harg3 arg4 harg4 arg5 harg5 arg6 harg6 arg7 harg7 arg8 harg8) K := by
  simp only [cc4__conv_linear_kernel_eq_skeleton]; unfold cc4__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  isplitl [H6]
  · iexists _; isplitr
    swap; · iexact H6
    ipureintro
    refine (View.read_writes_eq_canon _ _ _ (cover4_v _ _)).trans ((canon4_v _ _).trans ?_)
    exact congrArg (fun z => View.canon [(⟨r4_v, k4_pay5 _ _ _ _ _ z⟩ : View.Piece (Elt F) S1x128 .f32)])
      (View.readCov_eq_canon_ld arg7.view [(⟨r4_v, k4_pay2 (F := F)⟩ : View.Piece (Elt F) S1x128 .f32)] r4_v (cover4_v _ _))
  iexists _; isplitr
  swap; · iexact H7
  ipureintro
  refine (View.read_writes_eq_canon _ _ _ (cover4_v _ _)).trans ((canon4_v _ _).trans ?_)
  exact congrArg (fun z => View.canon [(⟨r4_v, k4_pay1 (k4_pay6 z) _⟩ : View.Piece (Elt F) S1x128 .f32)])
    (View.readCov_eq_canon_ld arg8.view [(⟨r4_v, k4_pay3 (F := F)⟩ : View.Piece (Elt F) S1x128 .f32)] r4_v (cover4_v _ _))

set_option maxHeartbeats 1000000 in

theorem sound_kernel4_B (c : Dev nD) (E : Set ℕ) (i : grid4.Coords) (hc : ¬cond4 i)
    (arg1 : Memref sig .tc .vmem S2000x128 .f32) (harg1 : arg1.IsWhole) (arg2 : Memref sig .tc .vmem S2000x144 .f32) (harg2 : arg2.IsWhole)
    (arg3 : Memref sig .tc .vmem S128x128 .f32) (harg3 : arg3.IsWhole) (arg4 : Memref sig .tc .vmem S1x144x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x128 .f32) (x1 : Vec F S2000x144 .f32) (x2 : Vec F S128x128 .f32) (x3 : Vec F S1x144x128 .f32) (x4 : Vec F S1x128 .f32)
    (p6 p7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare p6 ∗ owns (c : Thread nD τ) arg8 fullShare p7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out4_5 x0 x1 x2 x3 x4)
            ∗ owns (c : Thread nD τ) arg7 fullShare (step4_6 x0 x1 x2 x3 x4 p6)
            ∗ owns (c : Thread nD τ) arg8 fullShare (step4_7 x0 x1 x2 x3 x4 p7)) -∗ K ⟨⟩))
      ⊢ wp frame (wpE (defs₀ (F := F)) Variants.none c none) E (cc4__conv_linear_kernel i arg1 harg1 arg2 harg2 arg3 harg3 arg4 harg4 arg5 harg5 arg6 harg6 arg7 harg7 arg8 harg8) K := by
  simp only [cc4__conv_linear_kernel_eq_skeleton]; unfold cc4__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  isplitl [H6]
  · iexists _; isplitr
    swap; · iexact H6
    ipureintro
    exact View.read_writes_eq_canon _ _ _ (cover4_v _ _)
  iexists _; isplitr
  swap; · iexact H7
  ipureintro
  exact View.read_writes_eq_canon _ _ _ (cover4_v _ _)

theorem lt4 (t : Fin cfg4.N) : t.val < 100 := lt_of_lt_of_eq t.isLt (show cfg4.N = 100 from N_4)

theorem acc4_A (c : Dev nD) (t : Fin cfg4.N) (h0 : t.val % 100 = 0) : acc4 V c t.val =
    (step4_6 (iblk4 V c 0 t) (iblk4 V c 1 t) (iblk4 V c 2 t) (iblk4 V c 3 t) (iblk4 V c 4 t) zero4_6,
     step4_7 (iblk4 V c 0 t) (iblk4 V c 1 t) (iblk4 V c 2 t) (iblk4 V c 3 t) (iblk4 V c 4 t) zero4_7) := by
  have hN := lt4 t
  obtain ⟨n, hn⟩ := t
  cases n with
  | zero => exact (acc4_zero V c).trans (by rw [pt4_val ⟨0, hn⟩])
  | succ n => exfalso; dsimp only at h0 hN; omega

theorem acc4_B (c : Dev nD) (t : Fin cfg4.N) (h0 : ¬t.val % 100 = 0) : acc4 V c t.val =
    (step4_6 (iblk4 V c 0 t) (iblk4 V c 1 t) (iblk4 V c 2 t) (iblk4 V c 3 t) (iblk4 V c 4 t) (acc4 V c (t.val - 1)).1,
     step4_7 (iblk4 V c 0 t) (iblk4 V c 1 t) (iblk4 V c 2 t) (iblk4 V c 3 t) (iblk4 V c 4 t) (acc4 V c (t.val - 1)).2) := by
  obtain ⟨n, hn⟩ := t
  cases n with
  | zero => exact absurd (Nat.zero_mod _) h0
  | succ n => exact (acc4_succ V c n).trans (by rw [pt4_val ⟨n + 1, hn⟩]; rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem before4_6_B (c : Dev nD) (t : Fin cfg4.N) (h0 : ¬t.val % 100 = 0) (d) :
    (dat4 V c).before 6 t d = (acc4 V c (t.val - 1)).1 := by
  have hN := lt4 t
  rw [Dat.before_out_kept _ 6 rfl t (by omega) (Bool.eq_false_iff.mpr fun h => by have := (flush4_6 _).mp h; dsimp only at this; omega)
    (fun _ => rfl) (fun _ _ => rfl)]
  dsimp only [dat4]

theorem before4_7_B (c : Dev nD) (t : Fin cfg4.N) (h0 : ¬t.val % 100 = 0) (d) :
    (dat4 V c).before 7 t d = (acc4 V c (t.val - 1)).2 := by
  have hN := lt4 t
  rw [Dat.before_out_kept _ 7 rfl t (by omega) (Bool.eq_false_iff.mpr fun h => by have := (flush4_7 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  by_cases h0 : t.val % 100 = 0
  · rw [acc4_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_A c Set.univ (grid4.coords t) ((hcond4 t).mpr h0) _ _ _ _ _ _ _ _ _ _ _ _ _ _ _ _
      (iblk4 V c 0 t) (iblk4 V c 1 t) (iblk4 V c 2 t) (iblk4 V c 3 t) (iblk4 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc4_B V c t h0]
    simp only [before4_6_B V c t h0, before4_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_B c Set.univ (grid4.coords t) (fun h => h0 ((hcond4 t).mp h)) _ _ _ _ _ _ _ _ _ _ _ _ _ _ _ _
      (iblk4 V c 0 t) (iblk4 V c 1 t) (iblk4 V c 2 t) (iblk4 V c 3 t) (iblk4 V c 4 t)
      (acc4 V c (t.val - 1)).1 (acc4 V c (t.val - 1)).2 _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0

abbrev r5_1 : Rect S1x128 := Rect.unit (s := S1x128) ![0, 0] S1x128.size inb_S1x128_S1x128_0_0

def out5_3 (x0 : Vec F S2000x128 .f32) (x1 : Vec F S1x128 .f32) (x2 : Vec F S1x128 .f32) : Vec F S2000x128 .f32 :=
  View.canon [⟨r5_0, k5_pay1 (View.ld x0 r5_0) (View.ld x1 r5_1) (View.ld x2 r5_1)⟩]

theorem cover5_3 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in

theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__norm_relu_kernel i arg1 harg1 arg2 harg2 arg3 harg3 arg4 harg4) K := by
  simp only [cc5__norm_relu_kernel_eq_skeleton]; unfold cc5__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem Phi_eq5 (c : Dev nD) (i : Fin (cfg5.N + 1)) : (dat5 V c).Φ i = Pipeline.ΦA spec5 c := by
  dsimp only [dat5]

theorem q_eq5 (c : Dev nD) (w : Fin cfg5.W) : (dat5 V c).q w = fullShare := by
  dsimp only [dat5]

theorem owed_eq5 (c : Dev nD) (x) : (dat5 V c).owed x = 0 := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«410641_j56710748176715_1_alg».proof.Proof.Gen.Kernel.Launch
import proofs.«410641_j56710748176715_1_alg».proof.Proof.Gen.Kernel.Skeleton
import proofs.«410641_j56710748176715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S2000x128 := Rect.unit (s := S2000x128) ![0, 0] S2000x128.size inb_S2000x128_S2000x128_0_0

def out6_3 (x0 : Vec F S2000x128 .f32) (x1 : Vec F S128x128 .f32) (x2 : Vec F S1x128 .f32) : Vec F S2000x128 .f32 :=
  View.canon [⟨r6_3, k6_pay1 (View.ld x0 r6_0) (View.ld x1 r6_1) (View.ld x2 r6_2)⟩]

theorem cover6_3 (p0 : Vec F S2000x128 .f32) (y : S2000x128.Idx) :
    ∃ pc ∈ ([⟨r6_3, p0⟩] : List (View.Piece (Elt F) S2000x128 .f32)), y ∈ pc.1.set :=
  View.cover_of_tiled [⟨r6_3, p0⟩] S2000x128.size (by rfl) y

set_option maxHeartbeats 1000000 in

theorem sound_kernel6 (c : Dev nD) (E : Set ℕ) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__fp_kernel i arg1 harg1 arg2 harg2 arg3 harg3 arg4 harg4) K := by
  simp only [cc6__fp_kernel_eq_skeleton]; unfold cc6__fp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem Phi_eq6 (c : Dev nD) (i : Fin (cfg6.N + 1)) : (dat6 V c).Φ i = Pipeline.ΦA spec6 c := by
  dsimp only [dat6]
theorem q_eq6 (c : Dev nD) (w : Fin cfg6.W) : (dat6 V c).q w = fullShare := by
  dsimp only [dat6]
theorem owed_eq6 (c : Dev nD) (x) : (dat6 V c).owed x = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
import proofs.«410641_j56710748176715_1_alg».proof.Proof.K.RegionsP
import proofs.«410641_j56710748176715_1_alg».proof.Proof.K.R0
import proofs.«410641_j56710748176715_1_alg».proof.Proof.K.R1
import proofs.«410641_j56710748176715_1_alg».proof.Proof.K.R2
import proofs.«410641_j56710748176715_1_alg».proof.Proof.K.R3
import proofs.«410641_j56710748176715_1_alg».proof.Proof.K.R4
import proofs.«410641_j56710748176715_1_alg».proof.Proof.K.R5
import proofs.«410641_j56710748176715_1_alg».proof.Proof.K.R6

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem recorded_eq0 (V : (c : Dev nD) → (b : Ref sig .tc) → Buf (Elt F) ((c : Thread nD τ).loc b)) (c : Dev nD) (i : Fin (cfg0.N + 1)) : (dat0 V c).recorded i = Set.univ := rfl
theorem recorded_eq1 (V : (c : Dev nD) → (b : Ref sig .tc) → Buf (Elt F) ((c : Thread nD τ).loc b)) (c : Dev nD) (i : Fin (cfg1.N + 1)) : (dat1 V c).recorded i = Set.univ := rfl
theorem recorded_eq2 (V : (c : Dev nD) → (b : Ref sig .tc) → Buf (Elt F) ((c : Thread nD τ).loc b)) (c : Dev nD) (i : Fin (cfg2.N + 1)) : (dat2 V c).recorded i = Set.univ := rfl
theorem recorded_eq3 (V : (c : Dev nD) → (b : Ref sig .tc) → Buf (Elt F) ((c : Thread nD τ).loc b)) (c : Dev nD) (i : Fin (cfg3.N + 1)) : (dat3 V c).recorded i = Set.univ := rfl
theorem recorded_eq4 (V : (c : Dev nD) → (b : Ref sig .tc) → Buf (Elt F) ((c : Thread nD τ).loc b)) (c : Dev nD) (i : Fin (cfg4.N + 1)) : (dat4 V c).recorded i = Set.univ := rfl
theorem recorded_eq5 (V : (c : Dev nD) → (b : Ref sig .tc) → Buf (Elt F) ((c : Thread nD τ).loc b)) (c : Dev nD) (i : Fin (cfg5.N + 1)) : (dat5 V c).recorded i = Set.univ := rfl
theorem recorded_eq6 (V : (c : Dev nD) → (b : Ref sig .tc) → Buf (Elt F) ((c : Thread nD τ).loc b)) (c : Dev nD) (i : Fin (cfg6.N + 1)) : (dat6 V c).recorded i = Set.univ := rfl

abbrev W0 (c : Dev nD) : Valuation τ sig (Elt F) := fun b => m (c, b)

abbrev W1 (c : Dev nD) : Valuation τ sig (Elt F) := StableHlo.after hostOps0 (W0 m c)

abbrev Vin0 : (c : Dev nD) → (b : Ref sig .tc) → Buf (Elt F) ((c : Thread nD τ).loc b) := fun c b => W1 m c b

def W2 (c : Dev nD) : Valuation τ sig (Elt F) :=
  Function.update (W1 m c) main_v1 ((dat0 (Vin0 m) c).arrAt (3 : Fin 4) cfg0.N)
theorem W2_main_v1 (c : Dev nD) : W2 m c main_v1 = (dat0 (Vin0 m) c).arrAt (3 : Fin 4) cfg0.N := by
  unfold W2
  rw [Function.update_self]
theorem W2_of_ne (c : Dev nD) (b : Ref sig .tc) (h0 : b ≠ main_v1) : W2 m c b = W1 m c b := by
  unfold W2
  rw [Function.update_of_ne (StableHlo.devRef_ne_of_ne h0 : (Proc.devRef .tc b : DevRef τ sig) ≠ Proc.devRef .tc main_v1)]

abbrev Vout0 : (c : Dev nD) → (b : Ref sig .tc) → Buf (Elt F) ((c : Thread nD τ).loc b) := fun c b => W2 m c b

abbrev W3 (c : Dev nD) : Valuation τ sig (Elt F) := StableHlo.after hostOps1 (W2 m c)

abbrev W4 (c : Dev nD) : Valuation τ sig (Elt F) := StableHlo.after hostOps1_1 (W3 m c)

abbrev W5 (c : Dev nD) : Valuation τ sig (Elt F) := StableHlo.after hostOps1_2 (W4 m c)

abbrev W6 (c : Dev nD) : Valuation τ sig (Elt F) := StableHlo.after hostOps1_3 (W5 m c)

abbrev W7 (c : Dev nD) : Valuation τ sig (Elt F) := StableHlo.after hostOps1_4 (W6 m c)

abbrev W8 (c : Dev nD) : Valuation τ sig (Elt F) := StableHlo.after hostOps1_5 (W7 m c)

abbrev W9 (c : Dev nD) : Valuation τ sig (Elt F) := StableHlo.after hostOps1_6 (W8 m c)

abbrev W10 (c : Dev nD) : Valuation τ sig (Elt F) := StableHlo.after hostOps1_7 (W9 m c)

abbrev W11 (c : Dev nD) : Valuation τ sig (Elt F) := StableHlo.after hostOps1_8 (W10 m c)

abbrev W12 (c : Dev nD) : Valuation τ sig (Elt F) := StableHlo.after hostOps1_9 (W11 m c)

abbrev W13 (c : Dev nD) : Valuation τ sig (Elt F) := StableHlo.after hostOps1_10 (W12 m c)

abbrev W14 (c : Dev nD) : Valuation τ sig (Elt F) := StableHlo.after hostOps1_11 (W13 m c)

abbrev W15 (c : Dev nD) : Valuation τ sig (Elt F) := StableHlo.after hostOps1_12 (W14 m c)

abbrev W16 (c : Dev nD) : Valuation τ sig (Elt F) := StableHlo.after hostOps1_13 (W15 m c)

abbrev W17 (c : Dev nD) : Valuation τ sig (Elt F) := StableHlo.after hostOps1_14 (W16 m c)

abbrev W18 (c : Dev nD) : Valuation τ sig (Elt F) := StableHlo.after hostOps1_15 (W17 m c)

abbrev W19 (c : Dev nD) : Valuation τ sig (Elt F) := StableHlo.after hostOps1_16 (W18 m c)

abbrev Vin1 : (c : Dev nD) → (b : Ref sig .tc) → Buf (Elt F) ((c : Thread nD τ).loc b) := fun c b => W19 m c b

def W20 (c : Dev nD) : Valuation τ sig (Elt F) :=
  Function.update (Function.update (Function.update (W19 m c) main_v32_0 ((dat1 (Vin1 m) c).arrAt (5 : Fin 8) cfg1.N)) main_v32_1 ((dat1 (Vin1 m) c).arrAt (6 : Fin 8) cfg1.N)) main_v32_2 ((dat1 (Vin1 m) c).arrAt (7 : Fin 8) cfg1.N)
theorem W20_main_v32_0 (c : Dev nD) : W20 m c main_v32_0 = (dat1 (Vin1 m) c).arrAt (5 : Fin 8) cfg1.N := by
  unfold W20
  rw [Function.update_of_ne (StableHlo.devRef_ne_of_ne (by decide) : (Proc.devRef .tc main_v32_0 : DevRef τ sig) ≠ Proc.devRef .tc main_v32_2), Function.update_of_ne (StableHlo.devRef_ne_of_ne (by decide) : (Proc.devRef .tc main_v32_0 : DevRef τ sig) ≠ Proc.devRef .tc main_v32_1), Function.update_self]
theorem W20_main_v32_1 (c : Dev nD) : W20 m c main_v32_1 = (dat1 (Vin1 m) c).arrAt (6 : Fin 8) cfg1.N := by
  unfold W20
  rw [Function.update_of_ne (StableHlo.devRef_ne_of_ne (by decide) : (Proc.devRef .tc main_v32_1 : DevRef τ sig) ≠ Proc.devRef .tc main_v32_2), Function.update_self]
theorem W20_main_v32_2 (c : Dev nD) : W20 m c main_v32_2 = (dat1 (Vin1 m) c).arrAt (7 : Fin 8) cfg1.N := by
  unfold W20
  rw [Function.update_self]
theorem W20_of_ne (c : Dev nD) (b : Ref sig .tc) (h0 : b ≠ main_v32_0) (h1 : b ≠ main_v32_1) (h2 : b ≠ main_v32_2) : W20 m c b = W19 m c b := by
  unfold W20
  rw [Function.update_of_ne (StableHlo.devRef_ne_of_ne h2 : (Proc.devRef .tc b : DevRef τ sig) ≠ Proc.devRef .tc main_v32_2), Function.update_of_ne (StableHlo.devRef_ne_of_ne h1 : (Proc.devRef .tc b : DevRef τ sig) ≠ Proc.devRef .tc main_v32_1), Function.update_of_ne (StableHlo.devRef_ne_of_ne h0 : (Proc.devRef .tc b : DevRef τ sig) ≠ Proc.devRef .tc main_v32_0)]

abbrev Vout1 : (c : Dev nD) → (b : Ref sig .tc) → Buf (Elt F) ((c : Thread nD τ).loc b) := fun c b => W20 m c b

abbrev W21 (c : Dev nD) : Valuation τ sig (Elt F) := StableHlo.after hostOps2 (W20 m c)

abbrev Vin2 : (c : Dev nD) → (b : Ref sig .tc) → Buf (Elt F) ((c : Thread nD τ).loc b) := fun c b => W21 m c b

def W22 (c : Dev nD) : Valuation τ sig (Elt F) :=
  Function.update (W21 m c) main_v46 ((dat2 (Vin2 m) c).arrAt (3 : Fin 4) cfg2.N)
theorem W22_main_v46 (c : Dev nD) : W22 m c main_v46 = (dat2 (Vin2 m) c).arrAt (3 : Fin 4) cfg2.N := by
  unfold W22
  rw [Function.update_self]
theorem W22_of_ne (c : Dev nD) (b : Ref sig .tc) (h0 : b ≠ main_v46) : W22 m c b = W21 m c b := by
  unfold W22
  rw [Function.update_of_ne (StableHlo.devRef_ne_of_ne h0 : (Proc.devRef .tc b : DevRef τ sig) ≠ Proc.devRef .tc main_v46)]

abbrev Vout2 : (c : Dev nD) → (b : Ref sig .tc) → Buf (Elt F) ((c : Thread nD τ).loc b) := fun c b => W22 m c b

abbrev W23 (c : Dev nD) : Valuation τ sig (Elt F) := StableHlo.after hostOps3 (W22 m c)

abbrev Vin3 : (c : Dev nD) → (b : Ref sig .tc) → Buf (Elt F) ((c : Thread nD τ).loc b) := fun c b => W23 m c b

def W24 (c : Dev nD) : Valuation τ sig (Elt F) :=
  Function.update (W23 m c) main_v48 ((dat3 (Vin3 m) c).arrAt (3 : Fin 4) cfg3.N)
theorem W24_main_v48 (c : Dev nD) : W24 m c main_v48 = (dat3 (Vin3 m) c).arrAt (3 : Fin 4) cfg3.N := by
  unfold W24
  rw [Function.update_self]
theorem W24_of_ne (c : Dev nD) (b : Ref sig .tc) (h0 : b ≠ main_v48) : W24 m c b = W23 m c b := by
  unfold W24
  rw [Function.update_of_ne (StableHlo.devRef_ne_of_ne h0 : (Proc.devRef .tc b : DevRef τ sig) ≠ Proc.devRef .tc main_v48)]

abbrev Vout3 : (c : Dev nD) → (b : Ref sig .tc) → Buf (Elt F) ((c : Thread nD τ).loc b) := fun c b => W24 m c b

abbrev W25 (c : Dev nD) : Valuation τ sig (Elt F) := StableHlo.after hostOps4 (W24 m c)

abbrev W26 (c : Dev nD) : Valuation τ sig (Elt F) := StableHlo.after hostOps4_1 (W25 m c)

abbrev W27 (c : Dev nD) : Valuation τ sig (Elt F) := StableHlo.after hostOps4_2 (W26 m c)

abbrev W28 (c : Dev nD) : Valuation τ sig (Elt F) := StableHlo.after hostOps4_3 (W27 m c)

abbrev W29 (c : Dev nD) : Valuation τ sig (Elt F) := StableHlo.after hostOps4_4 (W28 m c)

abbrev W30 (c : Dev nD) : Valuation τ sig (Elt F) := StableHlo.after hostOps4_5 (W29 m c)

abbrev W31 (c : Dev nD) : Valuation τ sig (Elt F) := StableHlo.after hostOps4_6 (W30 m c)

abbrev W32 (c : Dev nD) : Valuation τ sig (Elt F) := StableHlo.after hostOps4_7 (W31 m c)

abbrev W33 (c : Dev nD) : Valuation τ sig (Elt F) := StableHlo.after hostOps4_8 (W32 m c)

abbrev Vin4 : (c : Dev nD) → (b : Ref sig .tc) → Buf (Elt F) ((c : Thread nD τ).loc b) := fun c b => W33 m c b

def W34 (c : Dev nD) : Valuation τ sig (Elt F) :=
  Function.update (Function.update (Function.update (W33 m c) main_v72_0 ((dat4 (Vin4 m) c).arrAt (5 : Fin 8) cfg4.N)) main_v72_1 ((dat4 (Vin4 m) c).arrAt (6 : Fin 8) cfg4.N)) main_v72_2 ((dat4 (Vin4 m) c).arrAt (7 : Fin 8) cfg4.N)
theorem W34_main_v72_0 (c : Dev nD) : W34 m c main_v72_0 = (dat4 (Vin4 m) c).arrAt (5 : Fin 8) cfg4.N := by
  unfold W34
  rw [Function.update_of_ne (StableHlo.devRef_ne_of_ne (by decide) : (Proc.devRef .tc main_v72_0 : DevRef τ sig) ≠ Proc.devRef .tc main_v72_2), Function.update_of_ne (StableHlo.devRef_ne_of_ne (by decide) : (Proc.devRef .tc main_v72_0 : DevRef τ sig) ≠ Proc.devRef .tc main_v72_1), Function.update_self]
theorem W34_main_v72_1 (c : Dev nD) : W34 m c main_v72_1 = (dat4 (Vin4 m) c).arrAt (6 : Fin 8) cfg4.N := by
  unfold W34
  rw [Function.update_of_ne (StableHlo.devRef_ne_of_ne (by decide) : (Proc.devRef .tc main_v72_1 : DevRef τ sig) ≠ Proc.devRef .tc main_v72_2), Function.update_self]
theorem W34_main_v72_2 (c : Dev nD) : W34 m c main_v72_2 = (dat4 (Vin4 m) c).arrAt (7 : Fin 8) cfg4.N := by
  unfold W34
  rw [Function.update_self]
theorem W34_of_ne (c : Dev nD) (b : Ref sig .tc) (h0 : b ≠ main_v72_0) (h1 : b ≠ main_v72_1) (h2 : b ≠ main_v72_2) : W34 m c b = W33 m c b := by
  unfold W34
  rw [Function.update_of_ne (StableHlo.devRef_ne_of_ne h2 : (Proc.devRef .tc b : DevRef τ sig) ≠ Proc.devRef .tc main_v72_2), Function.update_of_ne (StableHlo.devRef_ne_of_ne h1 : (Proc.devRef .tc b : DevRef τ sig) ≠ Proc.devRef .tc main_v72_1), Function.update_of_ne (StableHlo.devRef_ne_of_ne h0 : (Proc.devRef .tc b : DevRef τ sig) ≠ Proc.devRef .tc main_v72_0)]

abbrev Vout4 : (c : Dev nD) → (b : Ref sig .tc) → Buf (Elt F) ((c : Thread nD τ).loc b) := fun c b => W34 m c b

abbrev W35 (c : Dev nD) : Valuation τ sig (Elt F) := StableHlo.after hostOps5 (W34 m c)

abbrev Vin5 : (c : Dev nD) → (b : Ref sig .tc) → Buf (Elt F) ((c : Thread nD τ).loc b) := fun c b => W35 m c b

def W36 (c : Dev nD) : Valuation τ sig (Elt F) :=
  Function.update (W35 m c) main_v86 ((dat5 (Vin5 m) c).arrAt (3 : Fin 4) cfg5.N)
theorem W36_main_v86 (c : Dev nD) : W36 m c main_v86 = (dat5 (Vin5 m) c).arrAt (3 : Fin 4) cfg5.N := by
  unfold W36
  rw [Function.update_self]
theorem W36_of_ne (c : Dev nD) (b : Ref sig .tc) (h0 : b ≠ main_v86) : W36 m c b = W35 m c b := by
  unfold W36
  rw [Function.update_of_ne (StableHlo.devRef_ne_of_ne h0 : (Proc.devRef .tc b : DevRef τ sig) ≠ Proc.devRef .tc main_v86)]

abbrev Vout5 : (c : Dev nD) → (b : Ref sig .tc) → Buf (Elt F) ((c : Thread nD τ).loc b) := fun c b => W36 m c b

abbrev W37 (c : Dev nD) : Valuation τ sig (Elt F) := StableHlo.after hostOps6 (W36 m c)

abbrev Vin6 : (c : Dev nD) → (b : Ref sig .tc) → Buf (Elt F) ((c : Thread nD τ).loc b) := fun c b => W37 m c b

def W38 (c : Dev nD) : Valuation τ sig (Elt F) :=
  Function.update (W37 m c) main_v88 ((dat6 (Vin6 m) c).arrAt (3 : Fin 4) cfg6.N)
theorem W38_main_v88 (c : Dev nD) : W38 m c main_v88 = (dat6 (Vin6 m) c).arrAt (3 : Fin 4) cfg6.N := by
  unfold W38
  rw [Function.update_self]
theorem W38_of_ne (c : Dev nD) (b : Ref sig .tc) (h0 : b ≠ main_v88) : W38 m c b = W37 m c b := by
  unfold W38
  rw [Function.update_of_ne (StableHlo.devRef_ne_of_ne h0 : (Proc.devRef .tc b : DevRef τ sig) ≠ Proc.devRef .tc main_v88)]

abbrev Vout6 : (c : Dev nD) → (b : Ref sig .tc) → Buf (Elt F) ((c : Thread nD τ).loc b) := fun c b => W38 m c b

abbrev W39 (c : Dev nD) : Valuation τ sig (Elt F) := StableHlo.after hostOps7 (W38 m c)

def outs : GenP.Outs (F := F) := fun J r c =>
  match J with
  | 2 => W2 m c r
  | 20 => W20 m c r
  | 22 => W22 m c r
  | 24 => W24 m c r
  | 34 => W34 m c r
  | 36 => W36 m c r
  | 38 => W38 m c r
  | _ => W0 m c r

theorem V_eq_1 (c : Dev nD) : GenP.V1 m c = W1 m c := rfl
theorem V_eq_2 (c : Dev nD) : GenP.V2 m (outs m) c = W2 m c := by
  unfold W2
  show Function.update (GenP.V1 m c) (Proc.devRef .tc main_v1 : DevRef τ sig) (outs m 2 main_v1 c) = _
  rw [show outs m 2 main_v1 c = _ from W2_main_v1 m c, V_eq_1 m c]
theorem V_eq_3 (c : Dev nD) : GenP.V3 m (outs m) c = W3 m c := congrArg (StableHlo.after hostOps1) (V_eq_2 m c)
theorem V_eq_4 (c : Dev nD) : GenP.V4 m (outs m) c = W4 m c := congrArg (StableHlo.after hostOps1_1) (V_eq_3 m c)
theorem V_eq_5 (c : Dev nD) : GenP.V5 m (outs m) c = W5 m c := congrArg (StableHlo.after hostOps1_2) (V_eq_4 m c)
theorem V_eq_6 (c : Dev nD) : GenP.V6 m (outs m) c = W6 m c := congrArg (StableHlo.after hostOps1_3) (V_eq_5 m c)
theorem V_eq_7 (c : Dev nD) : GenP.V7 m (outs m) c = W7 m c := congrArg (StableHlo.after hostOps1_4) (V_eq_6 m c)
theorem V_eq_8 (c : Dev nD) : GenP.V8 m (outs m) c = W8 m c := congrArg (StableHlo.after hostOps1_5) (V_eq_7 m c)
theorem V_eq_9 (c : Dev nD) : GenP.V9 m (outs m) c = W9 m c := congrArg (StableHlo.after hostOps1_6) (V_eq_8 m c)
theorem V_eq_10 (c : Dev nD) : GenP.V10 m (outs m) c = W10 m c := congrArg (StableHlo.after hostOps1_7) (V_eq_9 m c)
theorem V_eq_11 (c : Dev nD) : GenP.V11 m (outs m) c = W11 m c := congrArg (StableHlo.after hostOps1_8) (V_eq_10 m c)
theorem V_eq_12 (c : Dev nD) : GenP.V12 m (outs m) c = W12 m c := congrArg (StableHlo.after hostOps1_9) (V_eq_11 m c)
theorem V_eq_13 (c : Dev nD) : GenP.V13 m (outs m) c = W13 m c := congrArg (StableHlo.after hostOps1_10) (V_eq_12 m c)
theorem V_eq_14 (c : Dev nD) : GenP.V14 m (outs m) c = W14 m c := congrArg (StableHlo.after hostOps1_11) (V_eq_13 m c)
theorem V_eq_15 (c : Dev nD) : GenP.V15 m (outs m) c = W15 m c := congrArg (StableHlo.after hostOps1_12) (V_eq_14 m c)
theorem V_eq_16 (c : Dev nD) : GenP.V16 m (outs m) c = W16 m c := congrArg (StableHlo.after hostOps1_13) (V_eq_15 m c)
theorem V_eq_17 (c : Dev nD) : GenP.V17 m (outs m) c = W17 m c := congrArg (StableHlo.after hostOps1_14) (V_eq_16 m c)
theorem V_eq_18 (c : Dev nD) : GenP.V18 m (outs m) c = W18 m c := congrArg (StableHlo.after hostOps1_15) (V_eq_17 m c)
theorem V_eq_19 (c : Dev nD) : GenP.V19 m (outs m) c = W19 m c := congrArg (StableHlo.after hostOps1_16) (V_eq_18 m c)
theorem V_eq_20 (c : Dev nD) : GenP.V20 m (outs m) c = W20 m c := by
  unfold W20
  show Function.update (Function.update (Function.update (GenP.V19 m (outs m) c) (Proc.devRef .tc main_v32_0 : DevRef τ sig) (outs m 20 main_v32_0 c)) (Proc.devRef .tc main_v32_1 : DevRef τ sig) (outs m 20 main_v32_1 c)) (Proc.devRef .tc main_v32_2 : DevRef τ sig) (outs m 20 main_v32_2 c) = _
  rw [show outs m 20 main_v32_0 c = _ from W20_main_v32_0 m c, show outs m 20 main_v32_1 c = _ from W20_main_v32_1 m c, show outs m 20 main_v32_2 c = _ from W20_main_v32_2 m c, V_eq_19 m c]
theorem V_eq_21 (c : Dev nD) : GenP.V21 m (outs m) c = W21 m c := congrArg (StableHlo.after hostOps2) (V_eq_20 m c)
theorem V_eq_22 (c : Dev nD) : GenP.V22 m (outs m) c = W22 m c := by
  unfold W22
  show Function.update (GenP.V21 m (outs m) c) (Proc.devRef .tc main_v46 : DevRef τ sig) (outs m 22 main_v46 c) = _
  rw [show outs m 22 main_v46 c = _ from W22_main_v46 m c, V_eq_21 m c]
theorem V_eq_23 (c : Dev nD) : GenP.V23 m (outs m) c = W23 m c := congrArg (StableHlo.after hostOps3) (V_eq_22 m c)
theorem V_eq_24 (c : Dev nD) : GenP.V24 m (outs m) c = W24 m c := by
  unfold W24
  show Function.update (GenP.V23 m (outs m) c) (Proc.devRef .tc main_v48 : DevRef τ sig) (outs m 24 main_v48 c) = _
  rw [show outs m 24 main_v48 c = _ from W24_main_v48 m c, V_eq_23 m c]
theorem V_eq_25 (c : Dev nD) : GenP.V25 m (outs m) c = W25 m c := congrArg (StableHlo.after hostOps4) (V_eq_24 m c)
theorem V_eq_26 (c : Dev nD) : GenP.V26 m (outs m) c = W26 m c := congrArg (StableHlo.after hostOps4_1) (V_eq_25 m c)
theorem V_eq_27 (c : Dev nD) : GenP.V27 m (outs m) c = W27 m c := congrArg (StableHlo.after hostOps4_2) (V_eq_26 m c)
theorem V_eq_28 (c : Dev nD) : GenP.V28 m (outs m) c = W28 m c := congrArg (StableHlo.after hostOps4_3) (V_eq_27 m c)
theorem V_eq_29 (c : Dev nD) : GenP.V29 m (outs m) c = W29 m c := congrArg (StableHlo.after hostOps4_4) (V_eq_28 m c)
theorem V_eq_30 (c : Dev nD) : GenP.V30 m (outs m) c = W30 m c := congrArg (StableHlo.after hostOps4_5) (V_eq_29 m c)
theorem V_eq_31 (c : Dev nD) : GenP.V31 m (outs m) c = W31 m c := congrArg (StableHlo.after hostOps4_6) (V_eq_30 m c)
theorem V_eq_32 (c : Dev nD) : GenP.V32 m (outs m) c = W32 m c := congrArg (StableHlo.after hostOps4_7) (V_eq_31 m c)
theorem V_eq_33 (c : Dev nD) : GenP.V33 m (outs m) c = W33 m c := congrArg (StableHlo.after hostOps4_8) (V_eq_32 m c)
theorem V_eq_34 (c : Dev nD) : GenP.V34 m (outs m) c = W34 m c := by
  unfold W34
  show Function.update (Function.update (Function.update (GenP.V33 m (outs m) c) (Proc.devRef .tc main_v72_0 : DevRef τ sig) (outs m 34 main_v72_0 c)) (Proc.devRef .tc main_v72_1 : DevRef τ sig) (outs m 34 main_v72_1 c)) (Proc.devRef .tc main_v72_2 : DevRef τ sig) (outs m 34 main_v72_2 c) = _
  rw [show outs m 34 main_v72_0 c = _ from W34_main_v72_0 m c, show outs m 34 main_v72_1 c = _ from W34_main_v72_1 m c, show outs m 34 main_v72_2 c = _ from W34_main_v72_2 m c, V_eq_33 m c]
theorem V_eq_35 (c : Dev nD) : GenP.V35 m (outs m) c = W35 m c := congrArg (StableHlo.after hostOps5) (V_eq_34 m c)
theorem V_eq_36 (c : Dev nD) : GenP.V36 m (outs m) c = W36 m c := by
  unfold W36
  show Function.update (GenP.V35 m (outs m) c) (Proc.devRef .tc main_v86 : DevRef τ sig) (outs m 36 main_v86 c) = _
  rw [show outs m 36 main_v86 c = _ from W36_main_v86 m c, V_eq_35 m c]
theorem V_eq_37 (c : Dev nD) : GenP.V37 m (outs m) c = W37 m c := congrArg (StableHlo.after hostOps6) (V_eq_36 m c)
theorem V_eq_38 (c : Dev nD) : GenP.V38 m (outs m) c = W38 m c := by
  unfold W38
  show Function.update (GenP.V37 m (outs m) c) (Proc.devRef .tc main_v88 : DevRef τ sig) (outs m 38 main_v88 c) = _
  rw [show outs m 38 main_v88 c = _ from W38_main_v88 m c, V_eq_37 m c]
theorem V_eq_39 (c : Dev nD) : GenP.V39 m (outs m) c = W39 m c := congrArg (StableHlo.after hostOps7) (V_eq_38 m c)

def pdats : (p : Fin 7) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0_0 (c : Dev nD) : (dat0 (Vin0 m) c).arrAt (0 : Fin 4) cfg0.N = Vout0 m c main_arg0 :=
  ((dat0 (Vin0 m) c).arrAt_in (0 : Fin 4) rfl _).trans ((A_eq0 (Vin0 m) c (0 : Fin 4)).trans (W2_of_ne m c main_arg0 (by decide)).symm)

theorem hF0_1 (c : Dev nD) : (dat0 (Vin0 m) c).arrAt (1 : Fin 4) cfg0.N = Vout0 m c main_arg2 :=
  ((dat0 (Vin0 m) c).arrAt_in (1 : Fin 4) rfl _).trans ((A_eq0 (Vin0 m) c (1 : Fin 4)).trans (W2_of_ne m c main_arg2 (by decide)).symm)

theorem hF0_2 (c : Dev nD) : (dat0 (Vin0 m) c).arrAt (2 : Fin 4) cfg0.N = Vout0 m c main_v0 :=
  ((dat0 (Vin0 m) c).arrAt_in (2 : Fin 4) rfl _).trans ((A_eq0 (Vin0 m) c (2 : Fin 4)).trans (W2_of_ne m c main_v0 (by decide)).symm)
theorem hF0 (c : Dev nD) : ∀ w : Fin 4, (dat0 (Vin0 m) c).arrAt w cfg0.N = Vout0 m c (Pipeline.arrRef spec0 w)
  | 0 => hF0_0 m c
  | 1 => hF0_1 m c
  | 2 => hF0_2 m c
  | 3 => (W2_main_v1 m c).symm
  | ⟨_ + 4, h⟩ => absurd h (Nat.not_lt.2 (Nat.le_add_left _ _))
theorem hrest0 (c : Dev nD) : ∀ b, b ∉ Finset.univ.image (Pipeline.arrRef spec0) → Vout0 m c b = Vin0 m c b :=
  fun b hb => W2_of_ne m c b (fun e => hb (Finset.mem_image.mpr ⟨3, Finset.mem_univ _, e.symm⟩))

theorem hF1_0 (c : Dev nD) : (dat1 (Vin1 m) c).arrAt (0 : Fin 8) cfg1.N = Vout1 m c main_arg0 :=
  ((dat1 (Vin1 m) c).arrAt_in (0 : Fin 8) rfl _).trans ((A_eq1 (Vin1 m) c (0 : Fin 8)).trans (W20_of_ne m c main_arg0 (by decide) (by decide) (by decide)).symm)

theorem hF1_1 (c : Dev nD) : (dat1 (Vin1 m) c).arrAt (1 : Fin 8) cfg1.N = Vout1 m c main_v25 :=
  ((dat1 (Vin1 m) c).arrAt_in (1 : Fin 8) rfl _).trans ((A_eq1 (Vin1 m) c (1 : Fin 8)).trans (W20_of_ne m c main_v25 (by decide) (by decide) (by decide)).symm)

theorem hF1_2 (c : Dev nD) : (dat1 (Vin1 m) c).arrAt (2 : Fin 8) cfg1.N = Vout1 m c main_arg8 :=
  ((dat1 (Vin1 m) c).arrAt_in (2 : Fin 8) rfl _).trans ((A_eq1 (Vin1 m) c (2 : Fin 8)).trans (W20_of_ne m c main_arg8 (by decide) (by decide) (by decide)).symm)

theorem hF1_3 (c : Dev nD) : (dat1 (Vin1 m) c).arrAt (3 : Fin 8) cfg1.N = Vout1 m c main_v30 :=
  ((dat1 (Vin1 m) c).arrAt_in (3 : Fin 8) rfl _).trans ((A_eq1 (Vin1 m) c (3 : Fin 8)).trans (W20_of_ne m c main_v30 (by decide) (by decide) (by decide)).symm)

theorem hF1_4 (c : Dev nD) : (dat1 (Vin1 m) c).arrAt (4 : Fin 8) cfg1.N = Vout1 m c main_v31 :=
  ((dat1 (Vin1 m) c).arrAt_in (4 : Fin 8) rfl _).trans ((A_eq1 (Vin1 m) c (4 : Fin 8)).trans (W20_of_ne m c main_v31 (by decide) (by decide) (by decide)).symm)
theorem hF1 (c : Dev nD) : ∀ w : Fin 8, (dat1 (Vin1 m) c).arrAt w cfg1.N = Vout1 m c (Pipeline.arrRef spec1 w)
  | 0 => hF1_0 m c
  | 1 => hF1_1 m c
  | 2 => hF1_2 m c
  | 3 => hF1_3 m c
  | 4 => hF1_4 m c
  | 5 => (W20_main_v32_0 m c).symm
  | 6 => (W20_main_v32_1 m c).symm
  | 7 => (W20_main_v32_2 m c).symm
  | ⟨_ + 8, h⟩ => absurd h (Nat.not_lt.2 (Nat.le_add_left _ _))
theorem hrest1 (c : Dev nD) : ∀ b, b ∉ Finset.univ.image (Pipeline.arrRef spec1) → Vout1 m c b = Vin1 m c b :=
  fun b hb => W20_of_ne m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

theorem hF2_0 (c : Dev nD) : (dat2 (Vin2 m) c).arrAt (0 : Fin 4) cfg2.N = Vout2 m c main_v32_0 :=
  ((dat2 (Vin2 m) c).arrAt_in (0 : Fin 4) rfl _).trans ((A_eq2 (Vin2 m) c (0 : Fin 4)).trans (W22_of_ne m c main_v32_0 (by decide)).symm)

theorem hF2_1 (c : Dev nD) : (dat2 (Vin2 m) c).arrAt (1 : Fin 4) cfg2.N = Vout2 m c main_v44 :=
  ((dat2 (Vin2 m) c).arrAt_in (1 : Fin 4) rfl _).trans ((A_eq2 (Vin2 m) c (1 : Fin 4)).trans (W22_of_ne m c main_v44 (by decide)).symm)

theorem hF2_2 (c : Dev nD) : (dat2 (Vin2 m) c).arrAt (2 : Fin 4) cfg2.N = Vout2 m c main_v45 :=
  ((dat2 (Vin2 m) c).arrAt_in (2 : Fin 4) rfl _).trans ((A_eq2 (Vin2 m) c (2 : Fin 4)).trans (W22_of_ne m c main_v45 (by decide)).symm)
theorem hF2 (c : Dev nD) : ∀ w : Fin 4, (dat2 (Vin2 m) c).arrAt w cfg2.N = Vout2 m c (Pipeline.arrRef spec2 w)
  | 0 => hF2_0 m c
  | 1 => hF2_1 m c
  | 2 => hF2_2 m c
  | 3 => (W22_main_v46 m c).symm
  | ⟨_ + 4, h⟩ => absurd h (Nat.not_lt.2 (Nat.le_add_left _ _))
theorem hrest2 (c : Dev nD) : ∀ b, b ∉ Finset.univ.image (Pipeline.arrRef spec2) → Vout2 m c b = Vin2 m c b :=
  fun b hb => W22_of_ne m c b (fun e => hb (Finset.mem_image.mpr ⟨3, Finset.mem_univ _, e.symm⟩))

theorem hF3_0 (c : Dev nD) : (dat3 (Vin3 m) c).arrAt (0 : Fin 4) cfg3.N = Vout3 m c main_v46 :=
  ((dat3 (Vin3 m) c).arrAt_in (0 : Fin 4) rfl _).trans ((A_eq3 (Vin3 m) c (0 : Fin 4)).trans (W24_of_ne m c main_v46 (by decide)).symm)

theorem hF3_1 (c : Dev nD) : (dat3 (Vin3 m) c).arrAt (1 : Fin 4) cfg3.N = Vout3 m c main_arg4 :=
  ((dat3 (Vin3 m) c).arrAt_in (1 : Fin 4) rfl _).trans ((A_eq3 (Vin3 m) c (1 : Fin 4)).trans (W24_of_ne m c main_arg4 (by decide)).symm)

theorem hF3_2 (c : Dev nD) : (dat3 (Vin3 m) c).arrAt (2 : Fin 4) cfg3.N = Vout3 m c main_v47 :=
  ((dat3 (Vin3 m) c).arrAt_in (2 : Fin 4) rfl _).trans ((A_eq3 (Vin3 m) c (2 : Fin 4)).trans (W24_of_ne m c main_v47 (by decide)).symm)
theorem hF3 (c : Dev nD) : ∀ w : Fin 4, (dat3 (Vin3 m) c).arrAt w cfg3.N = Vout3 m c (Pipeline.arrRef spec3 w)
  | 0 => hF3_0 m c
  | 1 => hF3_1 m c
  | 2 => hF3_2 m c
  | 3 => (W24_main_v48 m c).symm
  | ⟨_ + 4, h⟩ => absurd h (Nat.not_lt.2 (Nat.le_add_left _ _))
theorem hrest3 (c : Dev nD) : ∀ b, b ∉ Finset.univ.image (Pipeline.arrRef spec3) → Vout3 m c b = Vin3 m c b :=
  fun b hb => W24_of_ne m c b (fun e => hb (Finset.mem_image.mpr ⟨3, Finset.mem_univ _, e.symm⟩))

theorem hF4_0 (c : Dev nD) : (dat4 (Vin4 m) c).arrAt (0 : Fin 8) cfg4.N = Vout4 m c main_v46 :=
  ((dat4 (Vin4 m) c).arrAt_in (0 : Fin 8) rfl _).trans ((A_eq4 (Vin4 m) c (0 : Fin 8)).trans (W34_of_ne m c main_v46 (by decide) (by decide) (by decide)).symm)

theorem hF4_1 (c : Dev nD) : (dat4 (Vin4 m) c).arrAt (1 : Fin 8) cfg4.N = Vout4 m c main_v65 :=
  ((dat4 (Vin4 m) c).arrAt_in (1 : Fin 8) rfl _).trans ((A_eq4 (Vin4 m) c (1 : Fin 8)).trans (W34_of_ne m c main_v65 (by decide) (by decide) (by decide)).symm)

theorem hF4_2 (c : Dev nD) : (dat4 (Vin4 m) c).arrAt (2 : Fin 8) cfg4.N = Vout4 m c main_arg14 :=
  ((dat4 (Vin4 m) c).arrAt_in (2 : Fin 8) rfl _).trans ((A_eq4 (Vin4 m) c (2 : Fin 8)).trans (W34_of_ne m c main_arg14 (by decide) (by decide) (by decide)).symm)

theorem hF4_3 (c : Dev nD) : (dat4 (Vin4 m) c).arrAt (3 : Fin 8) cfg4.N = Vout4 m c main_v70 :=
  ((dat4 (Vin4 m) c).arrAt_in (3 : Fin 8) rfl _).trans ((A_eq4 (Vin4 m) c (3 : Fin 8)).trans (W34_of_ne m c main_v70 (by decide) (by decide) (by decide)).symm)

theorem hF4_4 (c : Dev nD) : (dat4 (Vin4 m) c).arrAt (4 : Fin 8) cfg4.N = Vout4 m c main_v71 :=
  ((dat4 (Vin4 m) c).arrAt_in (4 : Fin 8) rfl _).trans ((A_eq4 (Vin4 m) c (4 : Fin 8)).trans (W34_of_ne m c main_v71 (by decide) (by decide) (by decide)).symm)
theorem hF4 (c : Dev nD) : ∀ w : Fin 8, (dat4 (Vin4 m) c).arrAt w cfg4.N = Vout4 m c (Pipeline.arrRef spec4 w)
  | 0 => hF4_0 m c
  | 1 => hF4_1 m c
  | 2 => hF4_2 m c
  | 3 => hF4_3 m c
  | 4 => hF4_4 m c
  | 5 => (W34_main_v72_0 m c).symm
  | 6 => (W34_main_v72_1 m c).symm
  | 7 => (W34_main_v72_2 m c).symm
  | ⟨_ + 8, h⟩ => absurd h (Nat.not_lt.2 (Nat.le_add_left _ _))
theorem hrest4 (c : Dev nD) : ∀ b, b ∉ Finset.univ.image (Pipeline.arrRef spec4) → Vout4 m c b = Vin4 m c b :=
  fun b hb => W34_of_ne m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

theorem hF5_0 (c : Dev nD) : (dat5 (Vin5 m) c).arrAt (0 : Fin 4) cfg5.N = Vout5 m c main_v72_0 :=
  ((dat5 (Vin5 m) c).arrAt_in (0 : Fin 4) rfl _).trans ((A_eq5 (Vin5 m) c (0 : Fin 4)).trans (W36_of_ne m c main_v72_0 (by decide)).symm)

theorem hF5_1 (c : Dev nD) : (dat5 (Vin5 m) c).arrAt (1 : Fin 4) cfg5.N = Vout5 m c main_v84 :=
  ((dat5 (Vin5 m) c).arrAt_in (1 : Fin 4) rfl _).trans ((A_eq5 (Vin5 m) c (1 : Fin 4)).trans (W36_of_ne m c main_v84 (by decide)).symm)

theorem hF5_2 (c : Dev nD) : (dat5 (Vin5 m) c).arrAt (2 : Fin 4) cfg5.N = Vout5 m c main_v85 :=
  ((dat5 (Vin5 m) c).arrAt_in (2 : Fin 4) rfl _).trans ((A_eq5 (Vin5 m) c (2 : Fin 4)).trans (W36_of_ne m c main_v85 (by decide)).symm)
theorem hF5 (c : Dev nD) : ∀ w : Fin 4, (dat5 (Vin5 m) c).arrAt w cfg5.N = Vout5 m c (Pipeline.arrRef spec5 w)
  | 0 => hF5_0 m c
  | 1 => hF5_1 m c
  | 2 => hF5_2 m c
  | 3 => (W36_main_v86 m c).symm
  | ⟨_ + 4, h⟩ => absurd h (Nat.not_lt.2 (Nat.le_add_left _ _))
theorem hrest5 (c : Dev nD) : ∀ b, b ∉ Finset.univ.image (Pipeline.arrRef spec5) → Vout5 m c b = Vin5 m c b :=
  fun b hb => W36_of_ne m c b (fun e => hb (Finset.mem_image.mpr ⟨3, Finset.mem_univ _, e.symm⟩))

theorem hF6_0 (c : Dev nD) : (dat6 (Vin6 m) c).arrAt (0 : Fin 4) cfg6.N = Vout6 m c main_v86 :=
  ((dat6 (Vin6 m) c).arrAt_in (0 : Fin 4) rfl _).trans ((A_eq6 (Vin6 m) c (0 : Fin 4)).trans (W38_of_ne m c main_v86 (by decide)).symm)

theorem hF6_1 (c : Dev nD) : (dat6 (Vin6 m) c).arrAt (1 : Fin 4) cfg6.N = Vout6 m c main_arg6 :=
  ((dat6 (Vin6 m) c).arrAt_in (1 : Fin 4) rfl _).trans ((A_eq6 (Vin6 m) c (1 : Fin 4)).trans (W38_of_ne m c main_arg6 (by decide)).symm)

theorem hF6_2 (c : Dev nD) : (dat6 (Vin6 m) c).arrAt (2 : Fin 4) cfg6.N = Vout6 m c main_v87 :=
  ((dat6 (Vin6 m) c).arrAt_in (2 : Fin 4) rfl _).trans ((A_eq6 (Vin6 m) c (2 : Fin 4)).trans (W38_of_ne m c main_v87 (by decide)).symm)
theorem hF6 (c : Dev nD) : ∀ w : Fin 4, (dat6 (Vin6 m) c).arrAt w cfg6.N = Vout6 m c (Pipeline.arrRef spec6 w)
  | 0 => hF6_0 m c
  | 1 => hF6_1 m c
  | 2 => hF6_2 m c
  | 3 => (W38_main_v88 m c).symm
  | ⟨_ + 4, h⟩ => absurd h (Nat.not_lt.2 (Nat.le_add_left _ _))
theorem hrest6 (c : Dev nD) : ∀ b, b ∉ Finset.univ.image (Pipeline.arrRef spec6) → Vout6 m c b = Vin6 m c b :=
  fun b hb => W38_of_ne m c b (fun e => hb (Finset.mem_image.mpr ⟨3, Finset.mem_univ _, e.symm⟩))

set_option backward.isDefEq.respectTransparency.types false in
-- a kernel region as a segment between the buffer contents `Win` and `Wout`, from its launch facts and proof data
def mkReg (p : Fin 7) (launch : Pipeline.LaunchFacts (nD := nD) (τ := τ) cfgs p) (Win Wout : Dev nD → Valuation τ sig (Elt F))
    (hbody : ∀ c, BodyObligation (pdats m p c) (defs₀ (F := F)) Variants.none () Set.univ)
    (hA : ∀ c w, (pdats m p c).A w = Win c (Pipeline.arrRef (cfgs p).spec w))
    (hΦ : ∀ c i, (pdats m p c).Φ i = Pipeline.ΦA (cfgs p).spec c)
    (hq : ∀ c w, (pdats m p c).q w = fullShare)
    (howed : ∀ c x, (pdats m p c).owed x = 0)
    (hrec : ∀ c i, (pdats m p c).recorded i = Set.univ)
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) GenP.adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) GenP.adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro
        exact fun x _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) GenP.adm (pdats m) () defs₀ Variants.none L lv 0 :=
  mkReg m 0 launch0 (W1 m) (W2 m) (body_obligation0 (Vin0 m)) (A_eq0 (Vin0 m)) (Phi_eq0 (Vin0 m)) (q_eq0 (Vin0 m))
    (owed_eq0 (Vin0 m)) (recorded_eq0 (Vin0 m)) (hF0 m) (hrest0 m)

set_option backward.isDefEq.respectTransparency.types false in
def reg1 : Pipeline.RegionSeg (pcfgs (F := F)) GenP.adm (pdats m) () defs₀ Variants.none L lv 1 :=
  mkReg m 1 launch1 (W19 m) (W20 m) (body_obligation1 (Vin1 m)) (A_eq1 (Vin1 m)) (Phi_eq1 (Vin1 m)) (q_eq1 (Vin1 m))
    (owed_eq1 (Vin1 m)) (recorded_eq1 (Vin1 m)) (hF1 m) (hrest1 m)

set_option backward.isDefEq.respectTransparency.types false in
def reg2 : Pipeline.RegionSeg (pcfgs (F := F)) GenP.adm (pdats m) () defs₀ Variants.none L lv 2 :=
  mkReg m 2 launch2 (W21 m) (W22 m) (body_obligation2 (Vin2 m)) (A_eq2 (Vin2 m)) (Phi_eq2 (Vin2 m)) (q_eq2 (Vin2 m))
    (owed_eq2 (Vin2 m)) (recorded_eq2 (Vin2 m)) (hF2 m) (hrest2 m)

set_option backward.isDefEq.respectTransparency.types false in
def reg3 : Pipeline.RegionSeg (pcfgs (F := F)) GenP.adm (pdats m) () defs₀ Variants.none L lv 3 :=
  mkReg m 3 launch3 (W23 m) (W24 m) (body_obligation3 (Vin3 m)) (A_eq3 (Vin3 m)) (Phi_eq3 (Vin3 m)) (q_eq3 (Vin3 m))
    (owed_eq3 (Vin3 m)) (recorded_eq3 (Vin3 m)) (hF3 m) (hrest3 m)

set_option backward.isDefEq.respectTransparency.types false in
def reg4 : Pipeline.RegionSeg (pcfgs (F := F)) GenP.adm (pdats m) () defs₀ Variants.none L lv 4 :=
  mkReg m 4 launch4 (W33 m) (W34 m) (body_obligation4 (Vin4 m)) (A_eq4 (Vin4 m)) (Phi_eq4 (Vin4 m)) (q_eq4 (Vin4 m))
    (owed_eq4 (Vin4 m)) (recorded_eq4 (Vin4 m)) (hF4 m) (hrest4 m)

set_option backward.isDefEq.respectTransparency.types false in
def reg5 : Pipeline.RegionSeg (pcfgs (F := F)) GenP.adm (pdats m) () defs₀ Variants.none L lv 5 :=
  mkReg m 5 launch5 (W35 m) (W36 m) (body_obligation5 (Vin5 m)) (A_eq5 (Vin5 m)) (Phi_eq5 (Vin5 m)) (q_eq5 (Vin5 m))
    (owed_eq5 (Vin5 m)) (recorded_eq5 (Vin5 m)) (hF5 m) (hrest5 m)

set_option backward.isDefEq.respectTransparency.types false in
def reg6 : Pipeline.RegionSeg (pcfgs (F := F)) GenP.adm (pdats m) () defs₀ Variants.none L lv 6 :=
  mkReg m 6 launch6 (W37 m) (W38 m) (body_obligation6 (Vin6 m)) (A_eq6 (Vin6 m)) (Phi_eq6 (Vin6 m)) (q_eq6 (Vin6 m))
    (owed_eq6 (Vin6 m)) (recorded_eq6 (Vin6 m)) (hF6 m) (hrest6 m)

theorem hpre0 (c : Dev nD) : iprop(StableHlo.held (c : Thread nD τ) (Pipeline.ucRefs τ sig) (GenP.V1 m c) ∗ R (F := F) c) ⊢ (reg0 m).pre c := by
  rw [V_eq_1 m c]; exact .rfl
theorem hpost0 (c : Dev nD) : (reg0 m).post c ⊢ iprop(StableHlo.held (c : Thread nD τ) (Pipeline.ucRefs τ sig) (GenP.V2 m (outs m) c) ∗ R (F := F) c) := by
  rw [V_eq_2 m c]; exact .rfl
theorem hpre1 (c : Dev nD) : iprop(StableHlo.held (c : Thread nD τ) (Pipeline.ucRefs τ sig) (GenP.V19 m (outs m) c) ∗ R (F := F) c) ⊢ (reg1 m).pre c := by
  rw [V_eq_19 m c]; exact .rfl
theorem hpost1 (c : Dev nD) : (reg1 m).post c ⊢ iprop(StableHlo.held (c : Thread nD τ) (Pipeline.ucRefs τ sig) (GenP.V20 m (outs m) c) ∗ R (F := F) c) := by
  rw [V_eq_20 m c]; exact .rfl
theorem hpre2 (c : Dev nD) : iprop(StableHlo.held (c : Thread nD τ) (Pipeline.ucRefs τ sig) (GenP.V21 m (outs m) c) ∗ R (F := F) c) ⊢ (reg2 m).pre c := by
  rw [V_eq_21 m c]; exact .rfl
theorem hpost2 (c : Dev nD) : (reg2 m).post c ⊢ iprop(StableHlo.held (c : Thread nD τ) (Pipeline.ucRefs τ sig) (GenP.V22 m (outs m) c) ∗ R (F := F) c) := by
  rw [V_eq_22 m c]; exact .rfl
theorem hpre3 (c : Dev nD) : iprop(StableHlo.held (c : Thread nD τ) (Pipeline.ucRefs τ sig) (GenP.V23 m (outs m) c) ∗ R (F := F) c) ⊢ (reg3 m).pre c := by
  rw [V_eq_23 m c]; exact .rfl
theorem hpost3 (c : Dev nD) : (reg3 m).post c ⊢ iprop(StableHlo.held (c : Thread nD τ) (Pipeline.ucRefs τ sig) (GenP.V24 m (outs m) c) ∗ R (F := F) c) := by
  rw [V_eq_24 m c]; exact .rfl
theorem hpre4 (c : Dev nD) : iprop(StableHlo.held (c : Thread nD τ) (Pipeline.ucRefs τ sig) (GenP.V33 m (outs m) c) ∗ R (F := F) c) ⊢ (reg4 m).pre c := by
  rw [V_eq_33 m c]; exact .rfl
theorem hpost4 (c : Dev nD) : (reg4 m).post c ⊢ iprop(StableHlo.held (c : Thread nD τ) (Pipeline.ucRefs τ sig) (GenP.V34 m (outs m) c) ∗ R (F := F) c) := by
  rw [V_eq_34 m c]; exact .rfl
theorem hpre5 (c : Dev nD) : iprop(StableHlo.held (c : Thread nD τ) (Pipeline.ucRefs τ sig) (GenP.V35 m (outs m) c) ∗ R (F := F) c) ⊢ (reg5 m).pre c := by
  rw [V_eq_35 m c]; exact .rfl
theorem hpost5 (c : Dev nD) : (reg5 m).post c ⊢ iprop(StableHlo.held (c : Thread nD τ) (Pipeline.ucRefs τ sig) (GenP.V36 m (outs m) c) ∗ R (F := F) c) := by
  rw [V_eq_36 m c]; exact .rfl
theorem hpre6 (c : Dev nD) : iprop(StableHlo.held (c : Thread nD τ) (Pipeline.ucRefs τ sig) (GenP.V37 m (outs m) c) ∗ R (F := F) c) ⊢ (reg6 m).pre c := by
  rw [V_eq_37 m c]; exact .rfl
theorem hpost6 (c : Dev nD) : (reg6 m).post c ⊢ iprop(StableHlo.held (c : Thread nD τ) (Pipeline.ucRefs τ sig) (GenP.V38 m (outs m) c) ∗ R (F := F) c) := by
  rw [V_eq_38 m c]; exact .rfl

abbrev u₀ : UR sig nD τ := initOf (Pipeline.cells cfgs cellOf_inj) (Pipeline.launchToks cfgs cellOf_inj)

theorem hu₀ : (ownU u₀ : sProp 𝕄) ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R (F := F) c ⊢ (iprop(∃ W, owes (c : Thread nD τ) (0 : CellTallies nD τ sig Unit) W) : sProp 𝕄) := by
  iintro ⟨-, HO⟩; iexact HO

-- the conditional run with the seven regions' segment records supplied
theorem run_value (ρ : Dev nD → PrngReg) : θ_run defs (onTc (τ := τ) (main (F := F))) ⟨m, fun _ => 0, ρ⟩ (fun r => ∀ c : Dev nD,
      r.2.mem ((c.tc : Thread nD τ).loc main_v92) = W39 m c (Proc.devRef .tc main_v92) ∧ GenP.Kept m c r.2.mem) := by
  have h := GenP.run_cond m emb₁ () Variants.none L lv (fun _ _ => rfl) ρ (outs m) (pdats m) 0 (fun _ => BI.emp) u₀ hu₀
    (E := fun _ c => R c) (hE0 ρ) hE7
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
  rw [show GenP.V39 m (outs m) = W39 m from funext (V_eq_39 m)] at h
  exact h

theorem frame (ρ : Dev nD → PrngReg) : θ_run defs (onTc (τ := τ) (main (F := F))) ⟨m, fun _ => 0, ρ⟩ (fun r => ∀ c : Dev nD,
      GenP.Kept m c r.2.mem) :=
  (θ_run defs _ _).mono (fun _ h c => (h c).2) (run_value m ρ)

end Cert.Kernel.Hand

end
-- ==== Proof.KI.RegionsP.lean ====
import proofs.«410641_j56710748176715_1_alg».proof.Proof.Gen.KernelIdeal.Launch
import Idealize.ShloMosaic.Lib.Pipeline.Frame
import Idealize.ShloMosaic.Lib.Pipeline.Regions

set_option maxRecDepth 2372

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v1 (outs 2 main_v1 c)
abbrev V3 (c : Dev nD) : Valuation τ sig (Elt F) := StableHlo.after hostOps1 (V2 m outs c)
abbrev V4 (c : Dev nD) : Valuation τ sig (Elt F) := StableHlo.after hostOps1_1 (V3 m outs c)
abbrev V5 (c : Dev nD) : Valuation τ sig (Elt F) := StableHlo.after hostOps1_2 (V4 m outs c)
abbrev V6 (c : Dev nD) : Valuation τ sig (Elt F) := StableHlo.after hostOps1_3 (V5 m outs c)
abbrev V7 (c : Dev nD) : Valuation τ sig (Elt F) := StableHlo.after hostOps1_4 (V6 m outs c)
abbrev V8 (c : Dev nD) : Valuation τ sig (Elt F) := StableHlo.after hostOps1_5 (V7 m outs c)
abbrev V9 (c : Dev nD) : Valuation τ sig (Elt F) := StableHlo.after hostOps1_6 (V8 m outs c)
abbrev V10 (c : Dev nD) : Valuation τ sig (Elt F) := StableHlo.after hostOps1_7 (V9 m outs c)
abbrev V11 (c : Dev nD) : Valuation τ sig (Elt F) := StableHlo.after hostOps1_8 (V10 m outs c)
abbrev V12 (c : Dev nD) : Valuation τ sig (Elt F) := StableHlo.after hostOps1_9 (V11 m outs c)
abbrev V13 (c : Dev nD) : Valuation τ sig (Elt F) := StableHlo.after hostOps1_10 (V12 m outs c)
abbrev V14 (c : Dev nD) : Valuation τ sig (Elt F) := StableHlo.after hostOps1_11 (V13 m outs c)
abbrev V15 (c : Dev nD) : Valuation τ sig (Elt F) := StableHlo.after hostOps1_12 (V14 m outs c)
abbrev V16 (c : Dev nD) : Valuation τ sig (Elt F) := StableHlo.after hostOps1_13 (V15 m outs c)
abbrev V17 (c : Dev nD) : Valuation τ sig (Elt F) := StableHlo.after hostOps1_14 (V16 m outs c)
abbrev V18 (c : Dev nD) : Valuation τ sig (Elt F) := StableHlo.after hostOps1_15 (V17 m outs c)
abbrev V19 (c : Dev nD) : Valuation τ sig (Elt F) := StableHlo.after hostOps1_16 (V18 m outs c)
abbrev V20 (c : Dev nD) : Valuation τ sig (Elt F) := Function.update (Function.update (Function.update (V19 m outs c) main_v32_0 (outs 20 main_v32_0 c)) main_v32_1 (outs 20 main_v32_1 c)) main_v32_2 (outs 20 main_v32_2 c)
abbrev V21 (c : Dev nD) : Valuation τ sig (Elt F) := StableHlo.after hostOps2 (V20 m outs c)
abbrev V22 (c : Dev nD) : Valuation τ sig (Elt F) := Function.update (V21 m outs c) main_v46 (outs 22 main_v46 c)
abbrev V23 (c : Dev nD) : Valuation τ sig (Elt F) := StableHlo.after hostOps3 (V22 m outs c)
abbrev V24 (c : Dev nD) : Valuation τ sig (Elt F) := Function.update (V23 m outs c) main_v48 (outs 24 main_v48 c)
abbrev V25 (c : Dev nD) : Valuation τ sig (Elt F) := StableHlo.after hostOps4 (V24 m outs c)
abbrev V26 (c : Dev nD) : Valuation τ sig (Elt F) := StableHlo.after hostOps4_1 (V25 m outs c)
abbrev V27 (c : Dev nD) : Valuation τ sig (Elt F) := StableHlo.after hostOps4_2 (V26 m outs c)
abbrev V28 (c : Dev nD) : Valuation τ sig (Elt F) := StableHlo.after hostOps4_3 (V27 m outs c)
abbrev V29 (c : Dev nD) : Valuation τ sig (Elt F) := StableHlo.after hostOps4_4 (V28 m outs c)
abbrev V30 (c : Dev nD) : Valuation τ sig (Elt F) := StableHlo.after hostOps4_5 (V29 m outs c)
abbrev V31 (c : Dev nD) : Valuation τ sig (Elt F) := StableHlo.after hostOps4_6 (V30 m outs c)
abbrev V32 (c : Dev nD) : Valuation τ sig (Elt F) := StableHlo.after hostOps4_7 (V31 m outs c)
abbrev V33 (c : Dev nD) : Valuation τ sig (Elt F) := StableHlo.after hostOps4_8 (V32 m outs c)
abbrev V34 (c : Dev nD) : Valuation τ sig (Elt F) := Function.update (Function.update (Function.update (V33 m outs c) main_v72_0 (outs 34 main_v72_0 c)) main_v72_1 (outs 34 main_v72_1 c)) main_v72_2 (outs 34 main_v72_2 c)
abbrev V35 (c : Dev nD) : Valuation τ sig (Elt F) := StableHlo.after hostOps5 (V34 m outs c)
abbrev V36 (c : Dev nD) : Valuation τ sig (Elt F) := Function.update (V35 m outs c) main_v86 (outs 36 main_v86 c)
abbrev V37 (c : Dev nD) : Valuation τ sig (Elt F) := StableHlo.after hostOps6 (V36 m outs c)
abbrev V38 (c : Dev nD) : Valuation τ sig (Elt F) := Function.update (V37 m outs c) main_v88 (outs 38 main_v88 c)
abbrev V39 (c : Dev nD) : Valuation τ sig (Elt F) := StableHlo.after hostOps7 (V38 m outs c)

-- an operation whose one written buffer is listed writes inside the list
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals exact sub_of_mem (by decide)
theorem hostOps1_fresh : (hostOps1 : List (HloOp τ sig (Elt F))).Forall fun op => op.fresh = ∅ := by
  simp only [List.Forall]; repeat' constructor
abbrev hostOps1_W : List (Ref sig .tc) := [main_cst, main_v2, main_v3, main_v4]
theorem hostOps1_writes : (hostOps1 : List (HloOp τ sig (Elt F))).Forall fun op => op.writes ⊆ (hostOps1_W.map (Proc.devRef (τ := τ) .tc)).toFinset := by
  simp only [List.Forall]
  repeat' apply And.intro
  all_goals exact sub_of_mem (by decide)
theorem hostOps1_1_fresh : (hostOps1_1 : List (HloOp τ sig (Elt F))).Forall fun op => op.fresh = ∅ := by
  simp only [List.Forall]; repeat' constructor
abbrev hostOps1_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals exact sub_of_mem (by decide)
theorem hostOps1_2_fresh : (hostOps1_2 : List (HloOp τ sig (Elt F))).Forall fun op => op.fresh = ∅ := by
  simp only [List.Forall]; repeat' constructor
abbrev hostOps1_2_W : List (Ref sig .tc) := [main_cst_0, main_v6]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals exact sub_of_mem (by decide)
theorem hostOps1_3_fresh : (hostOps1_3 : List (HloOp τ sig (Elt F))).Forall fun op => op.fresh = ∅ := by
  simp only [List.Forall]; repeat' constructor
abbrev hostOps1_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals exact sub_of_mem (by decide)
theorem hostOps1_4_fresh : (hostOps1_4 : List (HloOp τ sig (Elt F))).Forall fun op => op.fresh = ∅ := by
  simp only [List.Forall]; repeat' constructor
abbrev hostOps1_4_W : List (Ref sig .tc) := [main_cst_1, main_v8]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals exact sub_of_mem (by decide)
theorem hostOps1_5_fresh : (hostOps1_5 : List (HloOp τ sig (Elt F))).Forall fun op => op.fresh = ∅ := by
  simp only [List.Forall]; repeat' constructor
abbrev hostOps1_5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v9]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals exact sub_of_mem (by decide)
theorem hostOps1_6_fresh : (hostOps1_6 : List (HloOp τ sig (Elt F))).Forall fun op => op.fresh = ∅ := by
  simp only [List.Forall]; repeat' constructor
abbrev hostOps1_6_W : List (Ref sig .tc) := [main_cst_2, main_v10]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals exact sub_of_mem (by decide)
theorem hostOps1_7_fresh : (hostOps1_7 : List (HloOp τ sig (Elt F))).Forall fun op => op.fresh = ∅ := by
  simp only [List.Forall]; repeat' constructor
abbrev hostOps1_7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v11]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals exact sub_of_mem (by decide)
theorem hostOps1_8_fresh : (hostOps1_8 : List (HloOp τ sig (Elt F))).Forall fun op => op.fresh = ∅ := by
  simp only [List.Forall]; repeat' constructor
abbrev hostOps1_8_W : List (Ref sig .tc) := [main_cst_3, main_v12]
theorem hostOps1_8_writes : (hostOps1_8 : List (HloOp τ sig (Elt F))).Forall fun op => op.writes ⊆ (hostOps1_8_W.map (Proc.devRef (τ := τ) .tc)).toFinset := by
  simp only [List.Forall]
  repeat' apply And.intro
  all_goals exact sub_of_mem (by decide)
theorem hostOps1_9_fresh : (hostOps1_9 : List (HloOp τ sig (Elt F))).Forall fun op => op.fresh = ∅ := by
  simp only [List.Forall]; repeat' constructor
abbrev hostOps1_9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v13]
theorem hostOps1_9_writes : (hostOps1_9 : List (HloOp τ sig (Elt F))).Forall fun op => op.writes ⊆ (hostOps1_9_W.map (Proc.devRef (τ := τ) .tc)).toFinset := by
  simp only [List.Forall]
  repeat' apply And.intro
  all_goals exact sub_of_mem (by decide)
theorem hostOps1_10_fresh : (hostOps1_10 : List (HloOp τ sig (Elt F))).Forall fun op => op.fresh = ∅ := by
  simp only [List.Forall]; repeat' constructor
abbrev hostOps1_10_W : List (Ref sig .tc) := [main_cst_4, main_v14]
theorem hostOps1_10_writes : (hostOps1_10 : List (HloOp τ sig (Elt F))).Forall fun op => op.writes ⊆ (hostOps1_10_W.map (Proc.devRef (τ := τ) .tc)).toFinset := by
  simp only [List.Forall]
  repeat' apply And.intro
  all_goals exact sub_of_mem (by decide)
theorem hostOps1_11_fresh : (hostOps1_11 : List (HloOp τ sig (Elt F))).Forall fun op => op.fresh = ∅ := by
  simp only [List.Forall]; repeat' constructor
abbrev hostOps1_11_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v15]
theorem hostOps1_11_writes : (hostOps1_11 : List (HloOp τ sig (Elt F))).Forall fun op => op.writes ⊆ (hostOps1_11_W.map (Proc.devRef (τ := τ) .tc)).toFinset := by
  simp only [List.Forall]
  repeat' apply And.intro
  all_goals exact sub_of_mem (by decide)
theorem hostOps1_12_fresh : (hostOps1_12 : List (HloOp τ sig (Elt F))).Forall fun op => op.fresh = ∅ := by
  simp only [List.Forall]; repeat' constructor
abbrev hostOps1_12_W : List (Ref sig .tc) := [main_cst_5, main_v16]
theorem hostOps1_12_writes : (hostOps1_12 : List (HloOp τ sig (Elt F))).Forall fun op => op.writes ⊆ (hostOps1_12_W.map (Proc.devRef (τ := τ) .tc)).toFinset := by
  simp only [List.Forall]
  repeat' apply And.intro
  all_goals exact sub_of_mem (by decide)
theorem hostOps1_13_fresh : (hostOps1_13 : List (HloOp τ sig (Elt F))).Forall fun op => op.fresh = ∅ := by
  simp only [List.Forall]; repeat' constructor
abbrev hostOps1_13_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v17]
theorem hostOps1_13_writes : (hostOps1_13 : List (HloOp τ sig (Elt F))).Forall fun op => op.writes ⊆ (hostOps1_13_W.map (Proc.devRef (τ := τ) .tc)).toFinset := by
  simp only [List.Forall]
  repeat' apply And.intro
  all_goals exact sub_of_mem (by decide)
theorem hostOps1_14_fresh : (hostOps1_14 : List (HloOp τ sig (Elt F))).Forall fun op => op.fresh = ∅ := by
  simp only [List.Forall]; repeat' constructor
abbrev hostOps1_14_W : List (Ref sig .tc) := [main_cst_6, main_v18]
theorem hostOps1_14_writes : (hostOps1_14 : List (HloOp τ sig (Elt F))).Forall fun op => op.writes ⊆ (hostOps1_14_W.map (Proc.devRef (τ := τ) .tc)).toFinset := by
  simp only [List.Forall]
  repeat' apply And.intro
  all_goals exact sub_of_mem (by decide)
theorem hostOps1_15_fresh : (hostOps1_15 : List (HloOp τ sig (Elt F))).Forall fun op => op.fresh = ∅ := by
  simp only [List.Forall]; repeat' constructor
abbrev hostOps1_15_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v19]
theorem hostOps1_15_writes : (hostOps1_15 : List (HloOp τ sig (Elt F))).Forall fun op => op.writes ⊆ (hostOps1_15_W.map (Proc.devRef (τ := τ) .tc)).toFinset := by
  simp only [List.Forall]
  repeat' apply And.intro
  all_goals exact sub_of_mem (by decide)
theorem hostOps1_16_fresh : (hostOps1_16 : List (HloOp τ sig (Elt F))).Forall fun op => op.fresh = ∅ := by
  simp only [List.Forall]; repeat' constructor
abbrev hostOps1_16_W : List (Ref sig .tc) := [main_cst_7, main_v20, main_v21, main_v22, main_v23, main_v24, main_v25, main_v26, main_v27, main_v28, main_v29, main_v30, main_v31]
theorem hostOps1_16_writes : (hostOps1_16 : List (HloOp τ sig (Elt F))).Forall fun op => op.writes ⊆ (hostOps1_16_W.map (Proc.devRef (τ := τ) .tc)).toFinset := by
  simp only [List.Forall]
  repeat' apply And.intro
  all_goals exact sub_of_mem (by decide)
theorem hostOps2_fresh : (hostOps2 : List (HloOp τ sig (Elt F))).Forall fun op => op.fresh = ∅ := by
  simp only [List.Forall]; repeat' constructor
abbrev hostOps2_W : List (Ref sig .tc) := [main_v33, main_cst_8, main_v34, main_v35, main_v36, main_cst_9, main_v37, main_v38, main_v39, main_v40, main_cst_10, main_v41, main_v42, main_v43, main_v44, main_v45]
theorem hostOps2_writes : (hostOps2 : List (HloOp τ sig (Elt F))).Forall fun op => op.writes ⊆ (hostOps2_W.map (Proc.devRef (τ := τ) .tc)).toFinset := by
  simp only [List.Forall]
  repeat' apply And.intro
  all_goals exact sub_of_mem (by decide)
theorem hostOps3_fresh : (hostOps3 : List (HloOp τ sig (Elt F))).Forall fun op => op.fresh = ∅ := by
  simp only [List.Forall]; repeat' constructor
abbrev hostOps3_W : List (Ref sig .tc) := [main_v47]
theorem hostOps3_writes : (hostOps3 : List (HloOp τ sig (Elt F))).Forall fun op => op.writes ⊆ (hostOps3_W.map (Proc.devRef (τ := τ) .tc)).toFinset := by
  simp only [List.Forall]
  repeat' apply And.intro
  all_goals exact sub_of_mem (by decide)
theorem hostOps4_fresh : (hostOps4 : List (HloOp τ sig (Elt F))).Forall fun op => op.fresh = ∅ := by
  simp only [List.Forall]; repeat' constructor
abbrev hostOps4_W : List (Ref sig .tc) := [main_cst_11, main_v49, main_v50, main_v51, main_v52]
theorem hostOps4_writes : (hostOps4 : List (HloOp τ sig (Elt F))).Forall fun op => op.writes ⊆ (hostOps4_W.map (Proc.devRef (τ := τ) .tc)).toFinset := by
  simp only [List.Forall]
  repeat' apply And.intro
  all_goals exact sub_of_mem (by decide)
theorem hostOps4_1_fresh : (hostOps4_1 : List (HloOp τ sig (Elt F))).Forall fun op => op.fresh = ∅ := by
  simp only [List.Forall]; repeat' constructor
abbrev hostOps4_1_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v53]
theorem hostOps4_1_writes : (hostOps4_1 : List (HloOp τ sig (Elt F))).Forall fun op => op.writes ⊆ (hostOps4_1_W.map (Proc.devRef (τ := τ) .tc)).toFinset := by
  simp only [List.Forall]
  repeat' apply And.intro
  all_goals exact sub_of_mem (by decide)
theorem hostOps4_2_fresh : (hostOps4_2 : List (HloOp τ sig (Elt F))).Forall fun op => op.fresh = ∅ := by
  simp only [List.Forall]; repeat' constructor
abbrev hostOps4_2_W : List (Ref sig .tc) := [main_cst_12, main_v54]
theorem hostOps4_2_writes : (hostOps4_2 : List (HloOp τ sig (Elt F))).Forall fun op => op.writes ⊆ (hostOps4_2_W.map (Proc.devRef (τ := τ) .tc)).toFinset := by
  simp only [List.Forall]
  repeat' apply And.intro
  all_goals exact sub_of_mem (by decide)
theorem hostOps4_3_fresh : (hostOps4_3 : List (HloOp τ sig (Elt F))).Forall fun op => op.fresh = ∅ := by
  simp only [List.Forall]; repeat' constructor
abbrev hostOps4_3_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v55]
theorem hostOps4_3_writes : (hostOps4_3 : List (HloOp τ sig (Elt F))).Forall fun op => op.writes ⊆ (hostOps4_3_W.map (Proc.devRef (τ := τ) .tc)).toFinset := by
  simp only [List.Forall]
  repeat' apply And.intro
  all_goals exact sub_of_mem (by decide)
theorem hostOps4_4_fresh : (hostOps4_4 : List (HloOp τ sig (Elt F))).Forall fun op => op.fresh = ∅ := by
  simp only [List.Forall]; repeat' constructor
abbrev hostOps4_4_W : List (Ref sig .tc) := [main_cst_13, main_v56]
theorem hostOps4_4_writes : (hostOps4_4 : List (HloOp τ sig (Elt F))).Forall fun op => op.writes ⊆ (hostOps4_4_W.map (Proc.devRef (τ := τ) .tc)).toFinset := by
  simp only [List.Forall]
  repeat' apply And.intro
  all_goals exact sub_of_mem (by decide)
theorem hostOps4_5_fresh : (hostOps4_5 : List (HloOp τ sig (Elt F))).Forall fun op => op.fresh = ∅ := by
  simp only [List.Forall]; repeat' constructor
abbrev hostOps4_5_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v57]
theorem hostOps4_5_writes : (hostOps4_5 : List (HloOp τ sig (Elt F))).Forall fun op => op.writes ⊆ (hostOps4_5_W.map (Proc.devRef (τ := τ) .tc)).toFinset := by
  simp only [List.Forall]
  repeat' apply And.intro
  all_goals exact sub_of_mem (by decide)
theorem hostOps4_6_fresh : (hostOps4_6 : List (HloOp τ sig (Elt F))).Forall fun op => op.fresh = ∅ := by
  simp only [List.Forall]; repeat' constructor
abbrev hostOps4_6_W : List (Ref sig .tc) := [main_cst_14, main_v58]
theorem hostOps4_6_writes : (hostOps4_6 : List (HloOp τ sig (Elt F))).Forall fun op => op.writes ⊆ (hostOps4_6_W.map (Proc.devRef (τ := τ) .tc)).toFinset := by
  simp only [List.Forall]
  repeat' apply And.intro
  all_goals exact sub_of_mem (by decide)
theorem hostOps4_7_fresh : (hostOps4_7 : List (HloOp τ sig (Elt F))).Forall fun op => op.fresh = ∅ := by
  simp only [List.Forall]; repeat' constructor
abbrev hostOps4_7_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v59]
theorem hostOps4_7_writes : (hostOps4_7 : List (HloOp τ sig (Elt F))).Forall fun op => op.writes ⊆ (hostOps4_7_W.map (Proc.devRef (τ := τ) .tc)).toFinset := by
  simp only [List.Forall]
  repeat' apply And.intro
  all_goals exact sub_of_mem (by decide)
theorem hostOps4_8_fresh : (hostOps4_8 : List (HloOp τ sig (Elt F))).Forall fun op => op.fresh = ∅ := by
  simp only [List.Forall]; repeat' constructor
abbrev hostOps4_8_W : List (Ref sig .tc) := [main_cst_15, main_v60, main_v61, main_v62, main_v63, main_v64, main_v65, main_v66, main_v67, main_v68, main_v69, main_v70, main_v71]
theorem hostOps4_8_writes : (hostOps4_8 : List (HloOp τ sig (Elt F))).Forall fun op => op.writes ⊆ (hostOps4_8_W.map (Proc.devRef (τ := τ) .tc)).toFinset := by
  simp only [List.Forall]
  repeat' apply And.intro
  all_goals exact sub_of_mem (by decide)
theorem hostOps5_fresh : (hostOps5 : List (HloOp τ sig (Elt F))).Forall fun op => op.fresh = ∅ := by
  simp only [List.Forall]; repeat' constructor
abbrev hostOps5_W : List (Ref sig .tc) := [main_v73, main_cst_16, main_v74, main_v75, main_v76, main_cst_17, main_v77, main_v78, main_v79, main_v80, main_cst_18, main_v81, main_v82, main_v83, main_v84, main_v85]
theorem hostOps5_writes : (hostOps5 : List (HloOp τ sig (Elt F))).Forall fun op => op.writes ⊆ (hostOps5_W.map (Proc.devRef (τ := τ) .tc)).toFinset := by
  simp only [List.Forall]
  repeat' apply And.intro
  all_goals exact sub_of_mem (by decide)
theorem hostOps6_fresh : (hostOps6 : List (HloOp τ sig (Elt F))).Forall fun op => op.fresh = ∅ := by
  simp only [List.Forall]; repeat' constructor
abbrev hostOps6_W : List (Ref sig .tc) := [main_v87]
theorem hostOps6_writes : (hostOps6 : List (HloOp τ sig (Elt F))).Forall fun op => op.writes ⊆ (hostOps6_W.map (Proc.devRef (τ := τ) .tc)).toFinset := by
  simp only [List.Forall]
  repeat' apply And.intro
  all_goals exact sub_of_mem (by decide)
theorem hostOps7_fresh : (hostOps7 : List (HloOp τ sig (Elt F))).Forall fun op => op.fresh = ∅ := by
  simp only [List.Forall]; repeat' constructor
abbrev hostOps7_W : List (Ref sig .tc) := [main_cst_19, main_v89, main_v90, main_v91, main_v92]
theorem hostOps7_writes : (hostOps7 : List (HloOp τ sig (Elt F))).Forall fun op => op.writes ⊆ (hostOps7_W.map (Proc.devRef (τ := τ) .tc)).toFinset := by
  simp only [List.Forall]
  repeat' apply And.intro
  all_goals exact sub_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ hostOps1_1_W) : V4 m outs c r = V3 m outs c r :=
  StableHlo.after_of_writes_sub hostOps1_1 _ hostOps1_1_writes h
theorem V5_of (c : Dev nD) (r : Ref sig .tc) (h : r ∉ hostOps1_2_W) : V5 m outs c r = V4 m outs c r :=
  StableHlo.after_of_writes_sub hostOps1_2 _ hostOps1_2_writes h
theorem V6_of (c : Dev nD) (r : Ref sig .tc) (h : r ∉ hostOps1_3_W) : V6 m outs c r = V5 m outs c r :=
  StableHlo.after_of_writes_sub hostOps1_3 _ hostOps1_3_writes h
theorem V7_of (c : Dev nD) (r : Ref sig .tc) (h : r ∉ hostOps1_4_W) : V7 m outs c r = V6 m outs c r :=
  StableHlo.after_of_writes_sub hostOps1_4 _ hostOps1_4_writes h
theorem V8_of (c : Dev nD) (r : Ref sig .tc) (h : r ∉ hostOps1_5_W) : V8 m outs c r = V7 m outs c r :=
  StableHlo.after_of_writes_sub hostOps1_5 _ hostOps1_5_writes h
theorem V9_of (c : Dev nD) (r : Ref sig .tc) (h : r ∉ hostOps1_6_W) : V9 m outs c r = V8 m outs c r :=
  StableHlo.after_of_writes_sub hostOps1_6 _ hostOps1_6_writes h
theorem V10_of (c : Dev nD) (r : Ref sig .tc) (h : r ∉ hostOps1_7_W) : V10 m outs c r = V9 m outs c r :=
  StableHlo.after_of_writes_sub hostOps1_7 _ hostOps1_7_writes h
theorem V11_of (c : Dev nD) (r : Ref sig .tc) (h : r ∉ hostOps1_8_W) : V11 m outs c r = V10 m outs c r :=
  StableHlo.after_of_writes_sub hostOps1_8 _ hostOps1_8_writes h
theorem V12_of (c : Dev nD) (r : Ref sig .tc) (h : r ∉ hostOps1_9_W) : V12 m outs c r = V11 m outs c r :=
  StableHlo.after_of_writes_sub hostOps1_9 _ hostOps1_9_writes h
theorem V13_of (c : Dev nD) (r : Ref sig .tc) (h : r ∉ hostOps1_10_W) : V13 m outs c r = V12 m outs c r :=
  StableHlo.after_of_writes_sub hostOps1_10 _ hostOps1_10_writes h
theorem V14_of (c : Dev nD) (r : Ref sig .tc) (h : r ∉ hostOps1_11_W) : V14 m outs c r = V13 m outs c r :=
  StableHlo.after_of_writes_sub hostOps1_11 _ hostOps1_11_writes h
theorem V15_of (c : Dev nD) (r : Ref sig .tc) (h : r ∉ hostOps1_12_W) : V15 m outs c r = V14 m outs c r :=
  StableHlo.after_of_writes_sub hostOps1_12 _ hostOps1_12_writes h
theorem V16_of (c : Dev nD) (r : Ref sig .tc) (h : r ∉ hostOps1_13_W) : V16 m outs c r = V15 m outs c r :=
  StableHlo.after_of_writes_sub hostOps1_13 _ hostOps1_13_writes h
theorem V17_of (c : Dev nD) (r : Ref sig .tc) (h : r ∉ hostOps1_14_W) : V17 m outs c r = V16 m outs c r :=
  StableHlo.after_of_writes_sub hostOps1_14 _ hostOps1_14_writes h
theorem V18_of (c : Dev nD) (r : Ref sig .tc) (h : r ∉ hostOps1_15_W) : V18 m outs c r = V17 m outs c r :=
  StableHlo.after_of_writes_sub hostOps1_15 _ hostOps1_15_writes h
theorem V19_of (c : Dev nD) (r : Ref sig .tc) (h : r ∉ hostOps1_16_W) : V19 m outs c r = V18 m outs c r :=
  StableHlo.after_of_writes_sub hostOps1_16 _ hostOps1_16_writes h
theorem V20_of (c : Dev nD) (r : Ref sig .tc) (h : r ∉ ([main_v32_0, main_v32_1, main_v32_2] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v32_0), Function.update_of_ne (StableHlo.devRef_ne_of_ne (List.ne_of_not_mem_cons (List.not_mem_of_not_mem_cons h)) : (Proc.devRef .tc r : DevRef τ sig) ≠ Proc.devRef .tc main_v32_1), Function.update_of_ne (StableHlo.devRef_ne_of_ne (List.ne_of_not_mem_cons (List.not_mem_of_not_mem_cons (List.not_mem_of_not_mem_cons h))) : (Proc.devRef .tc r : DevRef τ sig) ≠ Proc.devRef .tc main_v32_2)]
theorem V21_of (c : Dev nD) (r : Ref sig .tc) (h : r ∉ hostOps2_W) : V21 m outs c r = V20 m outs c r :=
  StableHlo.after_of_writes_sub hostOps2 _ hostOps2_writes h
theorem V22_of (c : Dev nD) (r : Ref sig .tc) (h : r ∉ ([main_v46] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v46)]
theorem V23_of (c : Dev nD) (r : Ref sig .tc) (h : r ∉ hostOps3_W) : V23 m outs c r = V22 m outs c r :=
  StableHlo.after_of_writes_sub hostOps3 _ hostOps3_writes h
theorem V24_of (c : Dev nD) (r : Ref sig .tc) (h : r ∉ ([main_v48] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v48)]
theorem V25_of (c : Dev nD) (r : Ref sig .tc) (h : r ∉ hostOps4_W) : V25 m outs c r = V24 m outs c r :=
  StableHlo.after_of_writes_sub hostOps4 _ hostOps4_writes h
theorem V26_of (c : Dev nD) (r : Ref sig .tc) (h : r ∉ hostOps4_1_W) : V26 m outs c r = V25 m outs c r :=
  StableHlo.after_of_writes_sub hostOps4_1 _ hostOps4_1_writes h
theorem V27_of (c : Dev nD) (r : Ref sig .tc) (h : r ∉ hostOps4_2_W) : V27 m outs c r = V26 m outs c r :=
  StableHlo.after_of_writes_sub hostOps4_2 _ hostOps4_2_writes h
theorem V28_of (c : Dev nD) (r : Ref sig .tc) (h : r ∉ hostOps4_3_W) : V28 m outs c r = V27 m outs c r :=
  StableHlo.after_of_writes_sub hostOps4_3 _ hostOps4_3_writes h
theorem V29_of (c : Dev nD) (r : Ref sig .tc) (h : r ∉ hostOps4_4_W) : V29 m outs c r = V28 m outs c r :=
  StableHlo.after_of_writes_sub hostOps4_4 _ hostOps4_4_writes h
theorem V30_of (c : Dev nD) (r : Ref sig .tc) (h : r ∉ hostOps4_5_W) : V30 m outs c r = V29 m outs c r :=
  StableHlo.after_of_writes_sub hostOps4_5 _ hostOps4_5_writes h
theorem V31_of (c : Dev nD) (r : Ref sig .tc) (h : r ∉ hostOps4_6_W) : V31 m outs c r = V30 m outs c r :=
  StableHlo.after_of_writes_sub hostOps4_6 _ hostOps4_6_writes h
theorem V32_of (c : Dev nD) (r : Ref sig .tc) (h : r ∉ hostOps4_7_W) : V32 m outs c r = V31 m outs c r :=
  StableHlo.after_of_writes_sub hostOps4_7 _ hostOps4_7_writes h
theorem V33_of (c : Dev nD) (r : Ref sig .tc) (h : r ∉ hostOps4_8_W) : V33 m outs c r = V32 m outs c r :=
  StableHlo.after_of_writes_sub hostOps4_8 _ hostOps4_8_writes h
theorem V34_of (c : Dev nD) (r : Ref sig .tc) (h : r ∉ ([main_v72_0, main_v72_1, main_v72_2] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v72_0), Function.update_of_ne (StableHlo.devRef_ne_of_ne (List.ne_of_not_mem_cons (List.not_mem_of_not_mem_cons h)) : (Proc.devRef .tc r : DevRef τ sig) ≠ Proc.devRef .tc main_v72_1), Function.update_of_ne (StableHlo.devRef_ne_of_ne (List.ne_of_not_mem_cons (List.not_mem_of_not_mem_cons (List.not_mem_of_not_mem_cons h))) : (Proc.devRef .tc r : DevRef τ sig) ≠ Proc.devRef .tc main_v72_2)]
theorem V35_of (c : Dev nD) (r : Ref sig .tc) (h : r ∉ hostOps5_W) : V35 m outs c r = V34 m outs c r :=
  StableHlo.after_of_writes_sub hostOps5 _ hostOps5_writes h
theorem V36_of (c : Dev nD) (r : Ref sig .tc) (h : r ∉ ([main_v86] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v86)]
theorem V37_of (c : Dev nD) (r : Ref sig .tc) (h : r ∉ hostOps6_W) : V37 m outs c r = V36 m outs c r :=
  StableHlo.after_of_writes_sub hostOps6 _ hostOps6_writes h
theorem V38_of (c : Dev nD) (r : Ref sig .tc) (h : r ∉ ([main_v88] : List (Ref sig .tc))) : V38 m outs c r = V37 m outs c r := by
  simp only [V38, Function.update_of_ne (StableHlo.devRef_ne_of_ne (List.ne_of_not_mem_cons h) : (Proc.devRef .tc r : DevRef τ sig) ≠ Proc.devRef .tc main_v88)]
theorem V39_of (c : Dev nD) (r : Ref sig .tc) (h : r ∉ hostOps7_W) : V39 m outs c r = V38 m outs c r :=
  StableHlo.after_of_writes_sub hostOps7 _ hostOps7_writes h

-- no item writes `r`
abbrev Unwritten (r : Ref sig .tc) : Prop :=
  r ∉ hostOps7_W ∧ r ∉ ([main_v88] : List (Ref sig .tc)) ∧ r ∉ hostOps6_W ∧ r ∉ ([main_v86] : List (Ref sig .tc)) ∧ r ∉ hostOps5_W ∧ r ∉ ([main_v72_0, main_v72_1, main_v72_2] : List (Ref sig .tc)) ∧ r ∉ hostOps4_8_W ∧ r ∉ hostOps4_7_W ∧ r ∉ hostOps4_6_W ∧ r ∉ hostOps4_5_W ∧ r ∉ hostOps4_4_W ∧ r ∉ hostOps4_3_W ∧ r ∉ hostOps4_2_W ∧ r ∉ hostOps4_1_W ∧ r ∉ hostOps4_W ∧ r ∉ ([main_v48] : List (Ref sig .tc)) ∧ r ∉ hostOps3_W ∧ r ∉ ([main_v46] : List (Ref sig .tc)) ∧ r ∉ hostOps2_W ∧ r ∉ ([main_v32_0, main_v32_1, main_v32_2] : List (Ref sig .tc)) ∧ r ∉ hostOps1_16_W ∧ r ∉ hostOps1_15_W ∧ r ∉ hostOps1_14_W ∧ r ∉ hostOps1_13_W ∧ r ∉ hostOps1_12_W ∧ r ∉ hostOps1_11_W ∧ r ∉ hostOps1_10_W ∧ r ∉ hostOps1_9_W ∧ r ∉ hostOps1_8_W ∧ r ∉ hostOps1_7_W ∧ r ∉ hostOps1_6_W ∧ r ∉ hostOps1_5_W ∧ r ∉ hostOps1_4_W ∧ r ∉ hostOps1_3_W ∧ r ∉ hostOps1_2_W ∧ r ∉ hostOps1_1_W ∧ r ∉ hostOps1_W ∧ r ∉ ([main_v1] : List (Ref sig .tc)) ∧ r ∉ hostOps0_W

-- a buffer no item writes holds at the end what it held at launch
theorem V39_keep (c : Dev nD) (r : Ref sig .tc) (h : Unwritten r) : V39 m outs c r = m ((c : Thread nD τ).loc r) := by
  obtain ⟨h39, h38, h37, h36, h35, h34, h33, h32, h31, h30, h29, h28, h27, h26, h25, h24, h23, h22, h21, h20, h19, h18, h17, h16, h15, h14, h13, h12, h11, h10, h9, h8, h7, h6, h5, h4, h3, h2, h1⟩ := h
  exact (V39_of m outs c r h39).trans <| (V38_of m outs c r h38).trans <| (V37_of m outs c r h37).trans <| (V36_of m outs c r h36).trans <| (V35_of m outs c r h35).trans <| (V34_of m outs c r h34).trans <| (V33_of m outs c r h33).trans <| (V32_of m outs c r h32).trans <| (V31_of m outs c r h31).trans <| (V30_of m outs c r h30).trans <| (V29_of m outs c r h29).trans <| (V28_of m outs c r h28).trans <| (V27_of m outs c r h27).trans <| (V26_of m outs c r h26).trans <| (V25_of m outs c r h25).trans <| (V24_of m outs c r h24).trans <| (V23_of m outs c r h23).trans <| (V22_of m outs c r h22).trans <| (V21_of m outs c r h21).trans <| (V20_of m outs c r h20).trans <| (V19_of m outs c r h19).trans <| (V18_of m outs c r h18).trans <| (V17_of m outs c r h17).trans <| (V16_of m outs c r h16).trans <| (V15_of m outs c r h15).trans <| (V14_of m outs c r h14).trans <| (V13_of m outs c r h13).trans <| (V12_of m outs c r h12).trans <| (V11_of m outs c r h11).trans <| (V10_of m outs c r h10).trans <| (V9_of m outs c r h9).trans <| (V8_of m outs c r h8).trans <| (V7_of m outs c r h7).trans <| (V6_of m outs c r h6).trans <| (V5_of m outs c r h5).trans <| (V4_of m outs c r h4).trans <| (V3_of m outs c r h3).trans <| (V2_of m outs c r h2).trans <| (V1_of m c r h1).trans rfl

section

variable {Ix : Type} [DecidableEq Ix] {U : Type} [URA U] {Lvl : Type} [Preorder Lvl]

-- a host stretch as a segment from the buffer contents `V`
abbrev hseg (𝒱₀ : Variants) (L : GSem nD τ sig → Finset Ix) (lv : GSem nD τ sig → Ix → Lvl) (ops : List (HloOp τ sig (Elt F)))
    (hsub : ops.Forall fun op => op.bufs ⊆ StableHlo.tcRefs τ sig) (hfresh : ops.Forall fun op => op.fresh = ∅)
    (V : Dev nD → Valuation τ sig (Elt F)) (E : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops (fun op h => Pipeline.sub_ucRefs op ((List.forall_iff_forall_mem.mp hsub) op h))
    (List.forall_iff_forall_mem.mp hfresh) V E

abbrev adm : (p : Fin 7) → (pcfgs (F := F) p).Adm := fun p => (cfgs p).toPCfg_adm

abbrev segs (𝒱₀ : Variants) (L : GSem nD τ sig → Finset Ix) (lv : GSem nD τ sig → Ix → Lvl) (E : Fin 8 → Dev nD → sProp (MT nD τ sig Ix (Elt F) ℕ U Lvl)) (ι : Ix)
    (pdats : (p : Fin 7) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (c : Dev nD) :
    List (Seg (pcfgs (F := F)) adm pdats ι defs₀ 𝒱₀ L lv) :=
  [.host (hseg 𝒱₀ L lv hostOps0 hostOps0_sub hostOps0_fresh (V0 m) (E 0)),
   .region R0,
   .host (hseg 𝒱₀ L lv hostOps1 hostOps1_sub hostOps1_fresh (V2 m outs) (E 1)),
   .host (hseg 𝒱₀ L lv hostOps1_1 hostOps1_1_sub hostOps1_1_fresh (V3 m outs) (E 1)),
   .host (hseg 𝒱₀ L lv hostOps1_2 hostOps1_2_sub hostOps1_2_fresh (V4 m outs) (E 1)),
   .host (hseg 𝒱₀ L lv hostOps1_3 hostOps1_3_sub hostOps1_3_fresh (V5 m outs) (E 1)),
   .host (hseg 𝒱₀ L lv hostOps1_4 hostOps1_4_sub hostOps1_4_fresh (V6 m outs) (E 1)),
   .host (hseg 𝒱₀ L lv hostOps1_5 hostOps1_5_sub hostOps1_5_fresh (V7 m outs) (E 1)),
   .host (hseg 𝒱₀ L lv hostOps1_6 hostOps1_6_sub hostOps1_6_fresh (V8 m outs) (E 1)),
   .host (hseg 𝒱₀ L lv hostOps1_7 hostOps1_7_sub hostOps1_7_fresh (V9 m outs) (E 1)),
   .host (hseg 𝒱₀ L lv hostOps1_8 hostOps1_8_sub hostOps1_8_fresh (V10 m outs) (E 1)),
   .host (hseg 𝒱₀ L lv hostOps1_9 hostOps1_9_sub hostOps1_9_fresh (V11 m outs) (E 1)),
   .host (hseg 𝒱₀ L lv hostOps1_10 hostOps1_10_sub hostOps1_10_fresh (V12 m outs) (E 1)),
   .host (hseg 𝒱₀ L lv hostOps1_11 hostOps1_11_sub hostOps1_11_fresh (V13 m outs) (E 1)),
   .host (hseg 𝒱₀ L lv hostOps1_12 hostOps1_12_sub hostOps1_12_fresh (V14 m outs) (E 1)),
   .host (hseg 𝒱₀ L lv hostOps1_13 hostOps1_13_sub hostOps1_13_fresh (V15 m outs) (E 1)),
   .host (hseg 𝒱₀ L lv hostOps1_14 hostOps1_14_sub hostOps1_14_fresh (V16 m outs) (E 1)),
   .host (hseg 𝒱₀ L lv hostOps1_15 hostOps1_15_sub hostOps1_15_fresh (V17 m outs) (E 1)),
   .host (hseg 𝒱₀ L lv hostOps1_16 hostOps1_16_sub hostOps1_16_fresh (V18 m outs) (E 1)),
   .region R1,
   .host (hseg 𝒱₀ L lv hostOps2 hostOps2_sub hostOps2_fresh (V20 m outs) (E 2)),
   .region R2,
   .host (hseg 𝒱₀ L lv hostOps3 hostOps3_sub hostOps3_fresh (V22 m outs) (E 3)),
   .region R3,
   .host (hseg 𝒱₀ L lv hostOps4 hostOps4_sub hostOps4_fresh (V24 m outs) (E 4)),
   .host (hseg 𝒱₀ L lv hostOps4_1 hostOps4_1_sub hostOps4_1_fresh (V25 m outs) (E 4)),
   .host (hseg 𝒱₀ L lv hostOps4_2 hostOps4_2_sub hostOps4_2_fresh (V26 m outs) (E 4)),
   .host (hseg 𝒱₀ L lv hostOps4_3 hostOps4_3_sub hostOps4_3_fresh (V27 m outs) (E 4)),
   .host (hseg 𝒱₀ L lv hostOps4_4 hostOps4_4_sub hostOps4_4_fresh (V28 m outs) (E 4)),
   .host (hseg 𝒱₀ L lv hostOps4_5 hostOps4_5_sub hostOps4_5_fresh (V29 m outs) (E 4)),
   .host (hseg 𝒱₀ L lv hostOps4_6 hostOps4_6_sub hostOps4_6_fresh (V30 m outs) (E 4)),
   .host (hseg 𝒱₀ L lv hostOps4_7 hostOps4_7_sub hostOps4_7_fresh (V31 m outs) (E 4)),
   .host (hseg 𝒱₀ L lv hostOps4_8 hostOps4_8_sub hostOps4_8_fresh (V32 m outs) (E 4)),
   .region R4,
   .host (hseg 𝒱₀ L lv hostOps5 hostOps5_sub hostOps5_fresh (V34 m outs) (E 5)),
   .region R5,
   .host (hseg 𝒱₀ L lv hostOps6 hostOps6_sub hostOps6_fresh (V36 m outs) (E 6)),
   .region R6,
   .host (hseg 𝒱₀ L lv hostOps7 hostOps7_sub hostOps7_fresh (V38 m outs) (E 7))]

end

-- every argument array holds in `μ` what it held at launch
abbrev Kept (c : Dev nD) (μ : (ℓ : Loc nD τ sig) → Buf (Elt F) ℓ) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)
  ∧ μ ((c.tc : Thread nD τ).loc main_arg15) = m ((c.tc : Thread nD τ).loc main_arg15)
  ∧ μ ((c.tc : Thread nD τ).loc main_arg16) = m ((c.tc : Thread nD τ).loc main_arg16)
  ∧ μ ((c.tc : Thread nD τ).loc main_arg17) = m ((c.tc : Thread nD τ).loc main_arg17)
  ∧ μ ((c.tc : Thread nD τ).loc main_arg18) = m ((c.tc : Thread nD τ).loc main_arg18)
  ∧ μ ((c.tc : Thread nD τ).loc main_arg19) = m ((c.tc : Thread nD τ).loc main_arg19)
  ∧ μ ((c.tc : Thread nD τ).loc main_arg20) = m ((c.tc : Thread nD τ).loc main_arg20)
  ∧ μ ((c.tc : Thread nD τ).loc main_arg21) = m ((c.tc : Thread nD τ).loc main_arg21)
  ∧ μ ((c.tc : Thread nD τ).loc main_arg22) = m ((c.tc : Thread nD τ).loc main_arg22)
  ∧ μ ((c.tc : Thread nD τ).loc main_arg23) = m ((c.tc : Thread nD τ).loc main_arg23)
  ∧ μ ((c.tc : Thread nD τ).loc main_arg24) = m ((c.tc : Thread nD τ).loc main_arg24)
  ∧ μ ((c.tc : Thread nD τ).loc main_arg25) = m ((c.tc : Thread nD τ).loc main_arg25)
  ∧ μ ((c.tc : Thread nD τ).loc main_arg26) = m ((c.tc : Thread nD τ).loc main_arg26)
  ∧ μ ((c.tc : Thread nD τ).loc main_arg27) = m ((c.tc : Thread nD τ).loc main_arg27)
  ∧ μ ((c.tc : Thread nD τ).loc main_arg28) = m ((c.tc : Thread nD τ).loc main_arg28)

set_option backward.isDefEq.respectTransparency.types false in
-- the run of @main, given one segment record per kernel region
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V19 m outs c) ∗ E 1 c) ⊢ R1.pre c)
    (hpost1 : ∀ c : Dev nD, R1.post c ⊢ iprop(StableHlo.held (c : Thread nD τ) (Pipeline.ucRefs τ sig) (V20 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V23 m outs c) ∗ E 3 c) ⊢ R3.pre c)
    (hpost3 : ∀ c : Dev nD, R3.post c ⊢ iprop(StableHlo.held (c : Thread nD τ) (Pipeline.ucRefs τ sig) (V24 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V33 m outs c) ∗ E 4 c) ⊢ R4.pre c)
    (hpost4 : ∀ c : Dev nD, R4.post c ⊢ iprop(StableHlo.held (c : Thread nD τ) (Pipeline.ucRefs τ sig) (V34 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V35 m outs c) ∗ E 5 c) ⊢ R5.pre c)
    (hpost5 : ∀ c : Dev nD, R5.post c ⊢ iprop(StableHlo.held (c : Thread nD τ) (Pipeline.ucRefs τ sig) (V36 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V37 m outs c) ∗ E 6 c) ⊢ R6.pre c)
    (hpost6 : ∀ c : Dev nD, R6.post c ⊢ iprop(StableHlo.held (c : Thread nD τ) (Pipeline.ucRefs τ sig) (V38 m outs c) ∗ E 7 c)) :
    θ_run defs (onTc (τ := τ) (main (F := F))) ⟨m, fun _ => 0, ρ⟩ (fun r => ∀ c : Dev nD,
      r.2.mem ((c.tc : Thread nD τ).loc main_v92) = V39 m outs c main_v92 ∧ Kept m c r.2.mem) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V39 m outs c))
    (hch := fun c => ⟨.rfl, hpre0 c, hpost0 c, .rfl, .rfl, .rfl, .rfl, .rfl, .rfl, .rfl, .rfl, .rfl, .rfl, .rfl, .rfl, .rfl, .rfl, .rfl, .rfl, hpre1 c, hpost1 c, hpre2 c, hpost2 c, hpre3 c, hpost3 c, .rfl, .rfl, .rfl, .rfl, .rfl, .rfl, .rfl, .rfl, hpre4 c, hpost4 c, hpre5 c, hpost5 c, hpre6 c, hpost6 c, sep_mono .rfl (hE7 c)⟩)
    (hinit := ?_) (QY := fun c s => s.mem ((c.tc : Thread nD τ).loc main_v92) = V39 m outs c main_v92 ∧ Kept m c s.mem)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V39 m outs c) s') $$ [Hh HSI]
    · isplitl [Hh] <;> iassumption
    icases Hr with ⟨%h, HSI⟩
    imodintro
    isplitr
    · ipureintro
      have hk := fun (r : Ref sig .tc) (hr : ¬ (Proc.devRef .tc r : DevRef τ sig).isScoped) (hw : Unwritten r) =>
        (h (Proc.devRef .tc r) (Finset.mem_filter.mpr ⟨StableHlo.devRef_mem_tcRefs r, hr⟩)).trans (V39_keep m outs c r hw)
      refine ⟨h (Proc.devRef .tc main_v92) (Finset.mem_filter.mpr ⟨StableHlo.devRef_mem_tcRefs main_v92, by decide⟩),
        hk main_arg0 (by decide) ?_,
        hk main_arg1 (by decide) ?_,
        hk main_arg2 (by decide) ?_,
        hk main_arg3 (by decide) ?_,
        hk main_arg4 (by decide) ?_,
        hk main_arg5 (by decide) ?_,
        hk main_arg6 (by decide) ?_,
        hk main_arg7 (by decide) ?_,
        hk main_arg8 (by decide) ?_,
        hk main_arg9 (by decide) ?_,
        hk main_arg10 (by decide) ?_,
        hk main_arg11 (by decide) ?_,
        hk main_arg12 (by decide) ?_,
        hk main_arg13 (by decide) ?_,
        hk main_arg14 (by decide) ?_,
        hk main_arg15 (by decide) ?_,
        hk main_arg16 (by decide) ?_,
        hk main_arg17 (by decide) ?_,
        hk main_arg18 (by decide) ?_,
        hk main_arg19 (by decide) ?_,
        hk main_arg20 (by decide) ?_,
        hk main_arg21 (by decide) ?_,
        hk main_arg22 (by decide) ?_,
        hk main_arg23 (by decide) ?_,
        hk main_arg24 (by decide) ?_,
        hk main_arg25 (by decide) ?_,
        hk main_arg26 (by decide) ?_,
        hk main_arg27 (by decide) ?_,
        hk main_arg28 (by decide) ?_⟩
      all_goals repeat' apply And.intro
      all_goals decide
    · iexact HSI

end Cert.KernelIdeal.GenP

end
-- ==== Proof.KI.R0.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x64 := Rect.unit (s := S2000x64) ![0, 0] S2000x64.size inb_S2000x64_S2000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

def out0_3 (x0 : Vec F S2000x64 .f32) (x1 : Vec F S64x128 .f32) (x2 : Vec F S1x128 .f32) : Vec F S2000x128 .f32 :=
  View.canon [⟨r0_3, k0_pay1 (View.ld x0 r0_0) (View.ld x1 r0_1) (View.ld x2 r0_2)⟩]

theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in

theorem sound_kernel0 (c : Dev nD) (E : Set ℕ) (i : grid0.Coords)
    (arg1 : Memref sig .tc .vmem S2000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fp_kernel i arg1 harg1 arg2 harg2 arg3 harg3 arg4 harg4) K := by
  simp only [cc0__fp_kernel_eq_skeleton]; unfold cc0__fp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (i : Fin (cfg0.N + 1)) : (dat0 V c).Φ i = Pipeline.ΦA spec0 c := by
  dsimp only [dat0]
theorem q_eq0 (c : Dev nD) (w : Fin cfg0.W) : (dat0 V c).q w = fullShare := by
  dsimp only [dat0]
theorem owed_eq0 (c : Dev nD) (x) : (dat0 V c).owed x = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S2000x64 := Rect.unit (s := S2000x64) ![0, 0] S2000x64.size inb_S2000x64_S2000x64_0_0
abbrev r1_n : Rect S2000x80 := Rect.unit (s := S2000x80) ![0, 0] S2000x80.size inb_S2000x80_S2000x80_0_0
abbrev r1_s : Rect S64x128 := Rect.unit (s := S64x128) ![0, 0] S64x128.size inb_S64x128_S64x128_0_0
abbrev r1_d : Rect S1x80x128 := Rect.unit (s := S1x80x128) ![0, 0, 0] S1x80x128.size inb_S1x80x128_S1x80x128_0_0_0
abbrev r1_v : Rect S1x128 := Rect.unit (s := S1x128) ![0, 0] S1x128.size inb_S1x128_S1x128_0_0
abbrev r1_o : Rect S2000x128 := Rect.unit (s := S2000x128) ![0, 0] S2000x128.size inb_S2000x128_S2000x128_0_0

def out1_5 (x0 : Vec F S2000x64 .f32) (x1 : Vec F S2000x80 .f32) (x2 : Vec F S64x128 .f32) (x3 : Vec F S1x80x128 .f32) (x4 : Vec F S1x128 .f32) : Vec F S2000x128 .f32 :=
  View.canon [⟨r1_o, k1_pay4 (View.ld x0 r1_a) (View.ld x2 r1_s) (View.ld x1 r1_n) (View.ld x3 r1_d) (View.ld x4 r1_v)⟩]

def zero1_6 : Vec F S1x128 .f32 := View.canon [⟨r1_v, k1_pay2 (F := F)⟩]

def zero1_7 : Vec F S1x128 .f32 := View.canon [⟨r1_v, k1_pay3 (F := F)⟩]

def step1_6 (x0 : Vec F S2000x64 .f32) (x1 : Vec F S2000x80 .f32) (x2 : Vec F S64x128 .f32) (x3 : Vec F S1x80x128 .f32) (x4 : Vec F S1x128 .f32) (p : Vec F S1x128 .f32) : Vec F S1x128 .f32 :=
  View.canon [⟨r1_v, k1_pay5 (View.ld x0 r1_a) (View.ld x2 r1_s) (View.ld x1 r1_n) (View.ld x3 r1_d) (View.ld x4 r1_v) (View.ld p r1_v)⟩]

def step1_7 (x0 : Vec F S2000x64 .f32) (x1 : Vec F S2000x80 .f32) (x2 : Vec F S64x128 .f32) (x3 : Vec F S1x80x128 .f32) (x4 : Vec F S1x128 .f32) (p : Vec F S1x128 .f32) : Vec F S1x128 .f32 :=
  View.canon [⟨r1_v, k1_pay1 (k1_pay6 (View.ld p r1_v)) (k1_pay7 (View.ld x0 r1_a) (View.ld x2 r1_s) (View.ld x1 r1_n) (View.ld x3 r1_d) (View.ld x4 r1_v))⟩]

def pt1 (n : ℕ) : Fin cfg1.N := if h : n < cfg1.N then ⟨n, h⟩ else ⟨0, lt_of_lt_of_eq (by decide : 0 < 100) (show 100 = cfg1.N from N_1.symm)⟩

theorem pt1_val (t : Fin cfg1.N) : pt1 t.val = t := by unfold pt1; rw [dif_pos t.isLt]

def acc1 (c : Dev nD) : ℕ → Vec F S1x128 .f32 × Vec F S1x128 .f32
  | 0 => (step1_6 (iblk1 V c 0 (pt1 0)) (iblk1 V c 1 (pt1 0)) (iblk1 V c 2 (pt1 0)) (iblk1 V c 3 (pt1 0)) (iblk1 V c 4 (pt1 0)) zero1_6,
          step1_7 (iblk1 V c 0 (pt1 0)) (iblk1 V c 1 (pt1 0)) (iblk1 V c 2 (pt1 0)) (iblk1 V c 3 (pt1 0)) (iblk1 V c 4 (pt1 0)) zero1_7)
  | n + 1 => (step1_6 (iblk1 V c 0 (pt1 (n + 1))) (iblk1 V c 1 (pt1 (n + 1))) (iblk1 V c 2 (pt1 (n + 1))) (iblk1 V c 3 (pt1 (n + 1))) (iblk1 V c 4 (pt1 (n + 1))) (acc1 c n).1,
          step1_7 (iblk1 V c 0 (pt1 (n + 1))) (iblk1 V c 1 (pt1 (n + 1))) (iblk1 V c 2 (pt1 (n + 1))) (iblk1 V c 3 (pt1 (n + 1))) (iblk1 V c 4 (pt1 (n + 1))) (acc1 c n).2)

theorem acc1_zero (c : Dev nD) : acc1 V c 0 =
    (step1_6 (iblk1 V c 0 (pt1 0)) (iblk1 V c 1 (pt1 0)) (iblk1 V c 2 (pt1 0)) (iblk1 V c 3 (pt1 0)) (iblk1 V c 4 (pt1 0)) zero1_6,
     step1_7 (iblk1 V c 0 (pt1 0)) (iblk1 V c 1 (pt1 0)) (iblk1 V c 2 (pt1 0)) (iblk1 V c 3 (pt1 0)) (iblk1 V c 4 (pt1 0)) zero1_7) := rfl

theorem acc1_succ (c : Dev nD) (n : ℕ) : acc1 V c (n + 1) =
    (step1_6 (iblk1 V c 0 (pt1 (n + 1))) (iblk1 V c 1 (pt1 (n + 1))) (iblk1 V c 2 (pt1 (n + 1))) (iblk1 V c 3 (pt1 (n + 1))) (iblk1 V c 4 (pt1 (n + 1))) (acc1 V c n).1,
     step1_7 (iblk1 V c 0 (pt1 (n + 1))) (iblk1 V c 1 (pt1 (n + 1))) (iblk1 V c 2 (pt1 (n + 1))) (iblk1 V c 3 (pt1 (n + 1))) (iblk1 V c 4 (pt1 (n + 1))) (acc1 V c n).2) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => (acc1 V c t.val).1
    | ⟨7, _⟩ => (acc1 V c t.val).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (i : Fin (cfg1.N + 1)) : (dat1 V c).Φ i = Pipeline.ΦA spec1 c := by
  dsimp only [dat1]
theorem q_eq1 (c : Dev nD) (w : Fin cfg1.W) : (dat1 V c).q w = fullShare := by
  dsimp only [dat1]
theorem owed_eq1 (c : Dev nD) (x) : (dat1 V c).owed x = 0 := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = (acc1 V c t.val).1 := by dsimp only [dat1]
theorem after1_7 (c : Dev nD) (t : Fin cfg1.N) : (dat1 V c).after 7 t = (acc1 V c t.val).2 := by dsimp only [dat1]

abbrev cond1 (i : grid1.Coords) : Prop := (Scalar.cmpi .ne (Scalar.extui (Scalar.cmpi .eq (BitVec.ofNat 32 (i 0).val) 0#32)) 0#32) = 1#1

theorem hcond1 : ∀ t : Fin cfg1.N, cond1 (grid1.coords t) ↔ t.val % 100 = 0 :=
  (by decide +kernel : ∀ t : Fin grid1.N, cond1 (grid1.coords t) ↔ t.val % 100 = 0)

theorem zeros2_1 : (![0, 0] : Fin S1x128.rank → Nat) = fun _ => 0 := by funext a; fin_cases a <;> rfl

theorem cover1_v (p : Vec F S1x128 .f32) (L : List (View.Piece (Elt F) S1x128 .f32)) (y : S1x128.Idx) :
    ∃ pc ∈ ((⟨r1_v, p⟩ : View.Piece (Elt F) S1x128 .f32) :: L), y ∈ pc.1.set :=
  ⟨_, List.mem_cons_self .., View.mem_set_unit_zero zeros2_1 inb_S1x128_S1x128_0_0 y⟩

theorem canon1_v (p : Vec F S1x128 .f32) (L : List (View.Piece (Elt F) S1x128 .f32)) :
    View.canon ((⟨r1_v, p⟩ : View.Piece (Elt F) S1x128 .f32) :: L) = View.canon [(⟨r1_v, p⟩ : View.Piece (Elt F) S1x128 .f32)] :=
  (View.canon_cons_unit_zero zeros2_1 inb_S1x128_S1x128_0_0 p L).trans (View.canon_unit_zero zeros2_1 inb_S1x128_S1x128_0_0 p).symm

theorem cover1_5 (p : Vec F S2000x128 .f32) (y : S2000x128.Idx) :
    ∃ pc ∈ ([⟨r1_o, p⟩] : List (View.Piece (Elt F) S2000x128 .f32)), y ∈ pc.1.set :=
  View.cover_of_tiled [⟨r1_o, p⟩] S2000x128.size (by rfl) y

set_option maxHeartbeats 1000000 in

theorem sound_kernel1_A (c : Dev nD) (E : Set ℕ) (i : grid1.Coords) (hc : cond1 i)
    (arg1 : Memref sig .tc .vmem S2000x64 .f32) (harg1 : arg1.IsWhole) (arg2 : Memref sig .tc .vmem S2000x80 .f32) (harg2 : arg2.IsWhole)
    (arg3 : Memref sig .tc .vmem S64x128 .f32) (harg3 : arg3.IsWhole) (arg4 : Memref sig .tc .vmem S1x80x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x64 .f32) (x1 : Vec F S2000x80 .f32) (x2 : Vec F S64x128 .f32) (x3 : Vec F S1x80x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (step1_6 x0 x1 x2 x3 x4 zero1_6)
            ∗ owns (c : Thread nD τ) arg8 fullShare (step1_7 x0 x1 x2 x3 x4 zero1_7)) -∗ K ⟨⟩))
      ⊢ wp frame (wpE (defs₀ (F := F)) Variants.none c none) E (cc1__conv_linear_kernel i arg1 harg1 arg2 harg2 arg3 harg3 arg4 harg4 arg5 harg5 arg6 harg6 arg7 harg7 arg8 harg8) K := by
  simp only [cc1__conv_linear_kernel_eq_skeleton]; unfold cc1__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    refine (View.read_writes_eq_canon _ _ _ (cover1_v _ _)).trans ((canon1_v _ _).trans ?_)
    exact congrArg (fun z => View.canon [(⟨r1_v, k1_pay5 _ _ _ _ _ z⟩ : View.Piece (Elt F) S1x128 .f32)])
      (View.readCov_eq_canon_ld arg7.view [(⟨r1_v, k1_pay2 (F := F)⟩ : View.Piece (Elt F) S1x128 .f32)] r1_v (cover1_v _ _))
  iexists _; isplitr
  swap; · iexact H7
  ipureintro
  refine (View.read_writes_eq_canon _ _ _ (cover1_v _ _)).trans ((canon1_v _ _).trans ?_)
  exact congrArg (fun z => View.canon [(⟨r1_v, k1_pay1 (k1_pay6 z) _⟩ : View.Piece (Elt F) S1x128 .f32)])
    (View.readCov_eq_canon_ld arg8.view [(⟨r1_v, k1_pay3 (F := F)⟩ : View.Piece (Elt F) S1x128 .f32)] r1_v (cover1_v _ _))

set_option maxHeartbeats 1000000 in

theorem sound_kernel1_B (c : Dev nD) (E : Set ℕ) (i : grid1.Coords) (hc : ¬cond1 i)
    (arg1 : Memref sig .tc .vmem S2000x64 .f32) (harg1 : arg1.IsWhole) (arg2 : Memref sig .tc .vmem S2000x80 .f32) (harg2 : arg2.IsWhole)
    (arg3 : Memref sig .tc .vmem S64x128 .f32) (harg3 : arg3.IsWhole) (arg4 : Memref sig .tc .vmem S1x80x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x64 .f32) (x1 : Vec F S2000x80 .f32) (x2 : Vec F S64x128 .f32) (x3 : Vec F S1x80x128 .f32) (x4 : Vec F S1x128 .f32)
    (p6 p7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare p6 ∗ owns (c : Thread nD τ) arg8 fullShare p7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (step1_6 x0 x1 x2 x3 x4 p6)
            ∗ owns (c : Thread nD τ) arg8 fullShare (step1_7 x0 x1 x2 x3 x4 p7)) -∗ K ⟨⟩))
      ⊢ wp frame (wpE (defs₀ (F := F)) Variants.none c none) E (cc1__conv_linear_kernel i arg1 harg1 arg2 harg2 arg3 harg3 arg4 harg4 arg5 harg5 arg6 harg6 arg7 harg7 arg8 harg8) K := by
  simp only [cc1__conv_linear_kernel_eq_skeleton]; unfold cc1__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_v _ _)
  iexists _; isplitr
  swap; · iexact H7
  ipureintro
  exact View.read_writes_eq_canon _ _ _ (cover1_v _ _)

theorem lt1 (t : Fin cfg1.N) : t.val < 100 := lt_of_lt_of_eq t.isLt (show cfg1.N = 100 from N_1)

theorem acc1_A (c : Dev nD) (t : Fin cfg1.N) (h0 : t.val % 100 = 0) : acc1 V c t.val =
    (step1_6 (iblk1 V c 0 t) (iblk1 V c 1 t) (iblk1 V c 2 t) (iblk1 V c 3 t) (iblk1 V c 4 t) zero1_6,
     step1_7 (iblk1 V c 0 t) (iblk1 V c 1 t) (iblk1 V c 2 t) (iblk1 V c 3 t) (iblk1 V c 4 t) zero1_7) := by
  have hN := lt1 t
  obtain ⟨n, hn⟩ := t
  cases n with
  | zero => exact (acc1_zero V c).trans (by rw [pt1_val ⟨0, hn⟩])
  | succ n => exfalso; dsimp only at h0 hN; omega

theorem acc1_B (c : Dev nD) (t : Fin cfg1.N) (h0 : ¬t.val % 100 = 0) : acc1 V c t.val =
    (step1_6 (iblk1 V c 0 t) (iblk1 V c 1 t) (iblk1 V c 2 t) (iblk1 V c 3 t) (iblk1 V c 4 t) (acc1 V c (t.val - 1)).1,
     step1_7 (iblk1 V c 0 t) (iblk1 V c 1 t) (iblk1 V c 2 t) (iblk1 V c 3 t) (iblk1 V c 4 t) (acc1 V c (t.val - 1)).2) := by
  obtain ⟨n, hn⟩ := t
  cases n with
  | zero => exact absurd (Nat.zero_mod _) h0
  | succ n => exact (acc1_succ V c n).trans (by rw [pt1_val ⟨n + 1, hn⟩]; rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem before1_6_B (c : Dev nD) (t : Fin cfg1.N) (h0 : ¬t.val % 100 = 0) (d) :
    (dat1 V c).before 6 t d = (acc1 V c (t.val - 1)).1 := by
  have hN := lt1 t
  rw [Dat.before_out_kept _ 6 rfl t (by omega) (Bool.eq_false_iff.mpr fun h => by have := (flush1_6 _).mp h; dsimp only at this; omega)
    (fun _ => rfl) (fun _ _ => rfl)]
  dsimp only [dat1]

theorem before1_7_B (c : Dev nD) (t : Fin cfg1.N) (h0 : ¬t.val % 100 = 0) (d) :
    (dat1 V c).before 7 t d = (acc1 V c (t.val - 1)).2 := by
  have hN := lt1 t
  rw [Dat.before_out_kept _ 7 rfl t (by omega) (Bool.eq_false_iff.mpr fun h => by have := (flush1_7 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 100 = 0
  · rw [acc1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) ((hcond1 t).mpr h0) _ _ _ _ _ _ _ _ _ _ _ _ _ _ _ _
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc1_B V c t h0]
    simp only [before1_6_B V c t h0, before1_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) (fun h => h0 ((hcond1 t).mp h)) _ _ _ _ _ _ _ _ _ _ _ _ _ _ _ _
      (iblk1 V c 0 t) (iblk1 V c 1 t) (iblk1 V c 2 t) (iblk1 V c 3 t) (iblk1 V c 4 t)
      (acc1 V c (t.val - 1)).1 (acc1 V c (t.val - 1)).2 _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0

abbrev r2_1 : Rect S1x128 := Rect.unit (s := S1x128) ![0, 0] S1x128.size inb_S1x128_S1x128_0_0

def out2_3 (x0 : Vec F S2000x128 .f32) (x1 : Vec F S1x128 .f32) (x2 : Vec F S1x128 .f32) : Vec F S2000x128 .f32 :=
  View.canon [⟨r2_0, k2_pay1 (View.ld x0 r2_0) (View.ld x1 r2_1) (View.ld x2 r2_1)⟩]

theorem cover2_3 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in

theorem sound_kernel2 (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__norm_relu_kernel i arg1 harg1 arg2 harg2 arg3 harg3 arg4 harg4) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi_eq2 (c : Dev nD) (i : Fin (cfg2.N + 1)) : (dat2 V c).Φ i = Pipeline.ΦA spec2 c := by
  dsimp only [dat2]

theorem q_eq2 (c : Dev nD) (w : Fin cfg2.W) : (dat2 V c).q w = fullShare := by
  dsimp only [dat2]

theorem owed_eq2 (c : Dev nD) (x) : (dat2 V c).owed x = 0 := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S2000x128 := Rect.unit (s := S2000x128) ![0, 0] S2000x128.size inb_S2000x128_S2000x128_0_0

def out3_3 (x0 : Vec F S2000x128 .f32) (x1 : Vec F S128x128 .f32) (x2 : Vec F S1x128 .f32) : Vec F S2000x128 .f32 :=
  View.canon [⟨r3_3, k3_pay1 (View.ld x0 r3_0) (View.ld x1 r3_1) (View.ld x2 r3_2)⟩]

theorem cover3_3 (p0 : Vec F S2000x128 .f32) (y : S2000x128.Idx) :
    ∃ pc ∈ ([⟨r3_3, p0⟩] : List (View.Piece (Elt F) S2000x128 .f32)), y ∈ pc.1.set :=
  View.cover_of_tiled [⟨r3_3, p0⟩] S2000x128.size (by rfl) y

set_option maxHeartbeats 1000000 in

theorem sound_kernel3 (c : Dev nD) (E : Set ℕ) (i : grid3.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__fp_kernel i arg1 harg1 arg2 harg2 arg3 harg3 arg4 harg4) K := by
  simp only [cc3__fp_kernel_eq_skeleton]; unfold cc3__fp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem Phi_eq3 (c : Dev nD) (i : Fin (cfg3.N + 1)) : (dat3 V c).Φ i = Pipeline.ΦA spec3 c := by
  dsimp only [dat3]
theorem q_eq3 (c : Dev nD) (w : Fin cfg3.W) : (dat3 V c).q w = fullShare := by
  dsimp only [dat3]
theorem owed_eq3 (c : Dev nD) (x) : (dat3 V c).owed x = 0 := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S2000x128 := Rect.unit (s := S2000x128) ![0, 0] S2000x128.size inb_S2000x128_S2000x128_0_0
abbrev r4_n : Rect S2000x144 := Rect.unit (s := S2000x144) ![0, 0] S2000x144.size inb_S2000x144_S2000x144_0_0
abbrev r4_s : Rect S128x128 := Rect.unit (s := S128x128) ![0, 0] S128x128.size inb_S128x128_S128x128_0_0
abbrev r4_d : Rect S1x144x128 := Rect.unit (s := S1x144x128) ![0, 0, 0] S1x144x128.size inb_S1x144x128_S1x144x128_0_0_0
abbrev r4_v : Rect S1x128 := Rect.unit (s := S1x128) ![0, 0] S1x128.size inb_S1x128_S1x128_0_0
abbrev r4_o : Rect S2000x128 := Rect.unit (s := S2000x128) ![0, 0] S2000x128.size inb_S2000x128_S2000x128_0_0

def out4_5 (x0 : Vec F S2000x128 .f32) (x1 : Vec F S2000x144 .f32) (x2 : Vec F S128x128 .f32) (x3 : Vec F S1x144x128 .f32) (x4 : Vec F S1x128 .f32) : Vec F S2000x128 .f32 :=
  View.canon [⟨r4_o, k4_pay4 (View.ld x0 r4_a) (View.ld x2 r4_s) (View.ld x1 r4_n) (View.ld x3 r4_d) (View.ld x4 r4_v)⟩]

def zero4_6 : Vec F S1x128 .f32 := View.canon [⟨r4_v, k4_pay2 (F := F)⟩]

def zero4_7 : Vec F S1x128 .f32 := View.canon [⟨r4_v, k4_pay3 (F := F)⟩]

def step4_6 (x0 : Vec F S2000x128 .f32) (x1 : Vec F S2000x144 .f32) (x2 : Vec F S128x128 .f32) (x3 : Vec F S1x144x128 .f32) (x4 : Vec F S1x128 .f32) (p : Vec F S1x128 .f32) : Vec F S1x128 .f32 :=
  View.canon [⟨r4_v, k4_pay5 (View.ld x0 r4_a) (View.ld x2 r4_s) (View.ld x1 r4_n) (View.ld x3 r4_d) (View.ld x4 r4_v) (View.ld p r4_v)⟩]

def step4_7 (x0 : Vec F S2000x128 .f32) (x1 : Vec F S2000x144 .f32) (x2 : Vec F S128x128 .f32) (x3 : Vec F S1x144x128 .f32) (x4 : Vec F S1x128 .f32) (p : Vec F S1x128 .f32) : Vec F S1x128 .f32 :=
  View.canon [⟨r4_v, k4_pay1 (k4_pay6 (View.ld p r4_v)) (k4_pay7 (View.ld x0 r4_a) (View.ld x2 r4_s) (View.ld x1 r4_n) (View.ld x3 r4_d) (View.ld x4 r4_v))⟩]

def pt4 (n : ℕ) : Fin cfg4.N := if h : n < cfg4.N then ⟨n, h⟩ else ⟨0, lt_of_lt_of_eq (by decide : 0 < 100) (show 100 = cfg4.N from N_4.symm)⟩

theorem pt4_val (t : Fin cfg4.N) : pt4 t.val = t := by unfold pt4; rw [dif_pos t.isLt]

def acc4 (c : Dev nD) : ℕ → Vec F S1x128 .f32 × Vec F S1x128 .f32
  | 0 => (step4_6 (iblk4 V c 0 (pt4 0)) (iblk4 V c 1 (pt4 0)) (iblk4 V c 2 (pt4 0)) (iblk4 V c 3 (pt4 0)) (iblk4 V c 4 (pt4 0)) zero4_6,
          step4_7 (iblk4 V c 0 (pt4 0)) (iblk4 V c 1 (pt4 0)) (iblk4 V c 2 (pt4 0)) (iblk4 V c 3 (pt4 0)) (iblk4 V c 4 (pt4 0)) zero4_7)
  | n + 1 => (step4_6 (iblk4 V c 0 (pt4 (n + 1))) (iblk4 V c 1 (pt4 (n + 1))) (iblk4 V c 2 (pt4 (n + 1))) (iblk4 V c 3 (pt4 (n + 1))) (iblk4 V c 4 (pt4 (n + 1))) (acc4 c n).1,
          step4_7 (iblk4 V c 0 (pt4 (n + 1))) (iblk4 V c 1 (pt4 (n + 1))) (iblk4 V c 2 (pt4 (n + 1))) (iblk4 V c 3 (pt4 (n + 1))) (iblk4 V c 4 (pt4 (n + 1))) (acc4 c n).2)

theorem acc4_zero (c : Dev nD) : acc4 V c 0 =
    (step4_6 (iblk4 V c 0 (pt4 0)) (iblk4 V c 1 (pt4 0)) (iblk4 V c 2 (pt4 0)) (iblk4 V c 3 (pt4 0)) (iblk4 V c 4 (pt4 0)) zero4_6,
     step4_7 (iblk4 V c 0 (pt4 0)) (iblk4 V c 1 (pt4 0)) (iblk4 V c 2 (pt4 0)) (iblk4 V c 3 (pt4 0)) (iblk4 V c 4 (pt4 0)) zero4_7) := rfl

theorem acc4_succ (c : Dev nD) (n : ℕ) : acc4 V c (n + 1) =
    (step4_6 (iblk4 V c 0 (pt4 (n + 1))) (iblk4 V c 1 (pt4 (n + 1))) (iblk4 V c 2 (pt4 (n + 1))) (iblk4 V c 3 (pt4 (n + 1))) (iblk4 V c 4 (pt4 (n + 1))) (acc4 V c n).1,
     step4_7 (iblk4 V c 0 (pt4 (n + 1))) (iblk4 V c 1 (pt4 (n + 1))) (iblk4 V c 2 (pt4 (n + 1))) (iblk4 V c 3 (pt4 (n + 1))) (iblk4 V c 4 (pt4 (n + 1))) (acc4 V c n).2) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => (acc4 V c t.val).1
    | ⟨7, _⟩ => (acc4 V c t.val).2
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (i : Fin (cfg4.N + 1)) : (dat4 V c).Φ i = Pipeline.ΦA spec4 c := by
  dsimp only [dat4]
theorem q_eq4 (c : Dev nD) (w : Fin cfg4.W) : (dat4 V c).q w = fullShare := by
  dsimp only [dat4]
theorem owed_eq4 (c : Dev nD) (x) : (dat4 V c).owed x = 0 := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t =
    out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = (acc4 V c t.val).1 := by dsimp only [dat4]
theorem after4_7 (c : Dev nD) (t : Fin cfg4.N) : (dat4 V c).after 7 t = (acc4 V c t.val).2 := by dsimp only [dat4]

abbrev cond4 (i : grid4.Coords) : Prop := (Scalar.cmpi .ne (Scalar.extui (Scalar.cmpi .eq (BitVec.ofNat 32 (i 0).val) 0#32)) 0#32) = 1#1

theorem hcond4 : ∀ t : Fin cfg4.N, cond4 (grid4.coords t) ↔ t.val % 100 = 0 :=
  (by decide +kernel : ∀ t : Fin grid4.N, cond4 (grid4.coords t) ↔ t.val % 100 = 0)

theorem zeros2_4 : (![0, 0] : Fin S1x128.rank → Nat) = fun _ => 0 := by funext a; fin_cases a <;> rfl

theorem cover4_v (p : Vec F S1x128 .f32) (L : List (View.Piece (Elt F) S1x128 .f32)) (y : S1x128.Idx) :
    ∃ pc ∈ ((⟨r4_v, p⟩ : View.Piece (Elt F) S1x128 .f32) :: L), y ∈ pc.1.set :=
  ⟨_, List.mem_cons_self .., View.mem_set_unit_zero zeros2_4 inb_S1x128_S1x128_0_0 y⟩

theorem canon4_v (p : Vec F S1x128 .f32) (L : List (View.Piece (Elt F) S1x128 .f32)) :
    View.canon ((⟨r4_v, p⟩ : View.Piece (Elt F) S1x128 .f32) :: L) = View.canon [(⟨r4_v, p⟩ : View.Piece (Elt F) S1x128 .f32)] :=
  (View.canon_cons_unit_zero zeros2_4 inb_S1x128_S1x128_0_0 p L).trans (View.canon_unit_zero zeros2_4 inb_S1x128_S1x128_0_0 p).symm

theorem cover4_5 (p : Vec F S2000x128 .f32) (y : S2000x128.Idx) :
    ∃ pc ∈ ([⟨r4_o, p⟩] : List (View.Piece (Elt F) S2000x128 .f32)), y ∈ pc.1.set :=
  View.cover_of_tiled [⟨r4_o, p⟩] S2000x128.size (by rfl) y

set_option maxHeartbeats 1000000 in

theorem sound_kernel4_A (c : Dev nD) (E : Set ℕ) (i : grid4.Coords) (hc : cond4 i)
    (arg1 : Memref sig .tc .vmem S2000x128 .f32) (harg1 : arg1.IsWhole) (arg2 : Memref sig .tc .vmem S2000x144 .f32) (harg2 : arg2.IsWhole)
    (arg3 : Memref sig .tc .vmem S128x128 .f32) (harg3 : arg3.IsWhole) (arg4 : Memref sig .tc .vmem S1x144x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x128 .f32) (x1 : Vec F S2000x144 .f32) (x2 : Vec F S128x128 .f32) (x3 : Vec F S1x144x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out4_5 x0 x1 x2 x3 x4)
            ∗ owns (c : Thread nD τ) arg7 fullShare (step4_6 x0 x1 x2 x3 x4 zero4_6)
            ∗ owns (c : Thread nD τ) arg8 fullShare (step4_7 x0 x1 x2 x3 x4 zero4_7)) -∗ K ⟨⟩))
      ⊢ wp frame (wpE (defs₀ (F := F)) Variants.none c none) E (cc4__conv_linear_kernel i arg1 harg1 arg2 harg2 arg3 harg3 arg4 harg4 arg5 harg5 arg6 harg6 arg7 harg7 arg8 harg8) K := by
  simp only [cc4__conv_linear_kernel_eq_skeleton]; unfold cc4__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  isplitl [H6]
  · iexists _; isplitr
    swap; · iexact H6
    ipureintro
    refine (View.read_writes_eq_canon _ _ _ (cover4_v _ _)).trans ((canon4_v _ _).trans ?_)
    exact congrArg (fun z => View.canon [(⟨r4_v, k4_pay5 _ _ _ _ _ z⟩ : View.Piece (Elt F) S1x128 .f32)])
      (View.readCov_eq_canon_ld arg7.view [(⟨r4_v, k4_pay2 (F := F)⟩ : View.Piece (Elt F) S1x128 .f32)] r4_v (cover4_v _ _))
  iexists _; isplitr
  swap; · iexact H7
  ipureintro
  refine (View.read_writes_eq_canon _ _ _ (cover4_v _ _)).trans ((canon4_v _ _).trans ?_)
  exact congrArg (fun z => View.canon [(⟨r4_v, k4_pay1 (k4_pay6 z) _⟩ : View.Piece (Elt F) S1x128 .f32)])
    (View.readCov_eq_canon_ld arg8.view [(⟨r4_v, k4_pay3 (F := F)⟩ : View.Piece (Elt F) S1x128 .f32)] r4_v (cover4_v _ _))

set_option maxHeartbeats 1000000 in

theorem sound_kernel4_B (c : Dev nD) (E : Set ℕ) (i : grid4.Coords) (hc : ¬cond4 i)
    (arg1 : Memref sig .tc .vmem S2000x128 .f32) (harg1 : arg1.IsWhole) (arg2 : Memref sig .tc .vmem S2000x144 .f32) (harg2 : arg2.IsWhole)
    (arg3 : Memref sig .tc .vmem S128x128 .f32) (harg3 : arg3.IsWhole) (arg4 : Memref sig .tc .vmem S1x144x128 .f32) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S1x128 .f32) (harg7 : arg7.IsWhole) (arg8 : Memref sig .tc .vmem S1x128 .f32) (harg8 : arg8.IsWhole)
    (x0 : Vec F S2000x128 .f32) (x1 : Vec F S2000x144 .f32) (x2 : Vec F S128x128 .f32) (x3 : Vec F S1x144x128 .f32) (x4 : Vec F S1x128 .f32)
    (p6 p7 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare p6 ∗ owns (c : Thread nD τ) arg8 fullShare p7
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (out4_5 x0 x1 x2 x3 x4)
            ∗ owns (c : Thread nD τ) arg7 fullShare (step4_6 x0 x1 x2 x3 x4 p6)
            ∗ owns (c : Thread nD τ) arg8 fullShare (step4_7 x0 x1 x2 x3 x4 p7)) -∗ K ⟨⟩))
      ⊢ wp frame (wpE (defs₀ (F := F)) Variants.none c none) E (cc4__conv_linear_kernel i arg1 harg1 arg2 harg2 arg3 harg3 arg4 harg4 arg5 harg5 arg6 harg6 arg7 harg7 arg8 harg8) K := by
  simp only [cc4__conv_linear_kernel_eq_skeleton]; unfold cc4__conv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  isplitl [H6]
  · iexists _; isplitr
    swap; · iexact H6
    ipureintro
    exact View.read_writes_eq_canon _ _ _ (cover4_v _ _)
  iexists _; isplitr
  swap; · iexact H7
  ipureintro
  exact View.read_writes_eq_canon _ _ _ (cover4_v _ _)

theorem lt4 (t : Fin cfg4.N) : t.val < 100 := lt_of_lt_of_eq t.isLt (show cfg4.N = 100 from N_4)

theorem acc4_A (c : Dev nD) (t : Fin cfg4.N) (h0 : t.val % 100 = 0) : acc4 V c t.val =
    (step4_6 (iblk4 V c 0 t) (iblk4 V c 1 t) (iblk4 V c 2 t) (iblk4 V c 3 t) (iblk4 V c 4 t) zero4_6,
     step4_7 (iblk4 V c 0 t) (iblk4 V c 1 t) (iblk4 V c 2 t) (iblk4 V c 3 t) (iblk4 V c 4 t) zero4_7) := by
  have hN := lt4 t
  obtain ⟨n, hn⟩ := t
  cases n with
  | zero => exact (acc4_zero V c).trans (by rw [pt4_val ⟨0, hn⟩])
  | succ n => exfalso; dsimp only at h0 hN; omega

theorem acc4_B (c : Dev nD) (t : Fin cfg4.N) (h0 : ¬t.val % 100 = 0) : acc4 V c t.val =
    (step4_6 (iblk4 V c 0 t) (iblk4 V c 1 t) (iblk4 V c 2 t) (iblk4 V c 3 t) (iblk4 V c 4 t) (acc4 V c (t.val - 1)).1,
     step4_7 (iblk4 V c 0 t) (iblk4 V c 1 t) (iblk4 V c 2 t) (iblk4 V c 3 t) (iblk4 V c 4 t) (acc4 V c (t.val - 1)).2) := by
  obtain ⟨n, hn⟩ := t
  cases n with
  | zero => exact absurd (Nat.zero_mod _) h0
  | succ n => exact (acc4_succ V c n).trans (by rw [pt4_val ⟨n + 1, hn⟩]; rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem before4_6_B (c : Dev nD) (t : Fin cfg4.N) (h0 : ¬t.val % 100 = 0) (d) :
    (dat4 V c).before 6 t d = (acc4 V c (t.val - 1)).1 := by
  have hN := lt4 t
  rw [Dat.before_out_kept _ 6 rfl t (by omega) (Bool.eq_false_iff.mpr fun h => by have := (flush4_6 _).mp h; dsimp only at this; omega)
    (fun _ => rfl) (fun _ _ => rfl)]
  dsimp only [dat4]

theorem before4_7_B (c : Dev nD) (t : Fin cfg4.N) (h0 : ¬t.val % 100 = 0) (d) :
    (dat4 V c).before 7 t d = (acc4 V c (t.val - 1)).2 := by
  have hN := lt4 t
  rw [Dat.before_out_kept _ 7 rfl t (by omega) (Bool.eq_false_iff.mpr fun h => by have := (flush4_7 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  by_cases h0 : t.val % 100 = 0
  · rw [acc4_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_A c Set.univ (grid4.coords t) ((hcond4 t).mpr h0) _ _ _ _ _ _ _ _ _ _ _ _ _ _ _ _
      (iblk4 V c 0 t) (iblk4 V c 1 t) (iblk4 V c 2 t) (iblk4 V c 3 t) (iblk4 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc4_B V c t h0]
    simp only [before4_6_B V c t h0, before4_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_B c Set.univ (grid4.coords t) (fun h => h0 ((hcond4 t).mp h)) _ _ _ _ _ _ _ _ _ _ _ _ _ _ _ _
      (iblk4 V c 0 t) (iblk4 V c 1 t) (iblk4 V c 2 t) (iblk4 V c 3 t) (iblk4 V c 4 t)
      (acc4 V c (t.val - 1)).1 (acc4 V c (t.val - 1)).2 _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0

abbrev r5_1 : Rect S1x128 := Rect.unit (s := S1x128) ![0, 0] S1x128.size inb_S1x128_S1x128_0_0

def out5_3 (x0 : Vec F S2000x128 .f32) (x1 : Vec F S1x128 .f32) (x2 : Vec F S1x128 .f32) : Vec F S2000x128 .f32 :=
  View.canon [⟨r5_0, k5_pay1 (View.ld x0 r5_0) (View.ld x1 r5_1) (View.ld x2 r5_1)⟩]

theorem cover5_3 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in

theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__norm_relu_kernel i arg1 harg1 arg2 harg2 arg3 harg3 arg4 harg4) K := by
  simp only [cc5__norm_relu_kernel_eq_skeleton]; unfold cc5__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem Phi_eq5 (c : Dev nD) (i : Fin (cfg5.N + 1)) : (dat5 V c).Φ i = Pipeline.ΦA spec5 c := by
  dsimp only [dat5]

theorem q_eq5 (c : Dev nD) (w : Fin cfg5.W) : (dat5 V c).q w = fullShare := by
  dsimp only [dat5]

theorem owed_eq5 (c : Dev nD) (x) : (dat5 V c).owed x = 0 := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«410641_j56710748176715_1_alg».proof.Proof.Gen.KernelIdeal.Launch
import proofs.«410641_j56710748176715_1_alg».proof.Proof.Gen.KernelIdeal.Skeleton
import proofs.«410641_j56710748176715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S2000x128 := Rect.unit (s := S2000x128) ![0, 0] S2000x128.size inb_S2000x128_S2000x128_0_0

def out6_3 (x0 : Vec F S2000x128 .f32) (x1 : Vec F S128x128 .f32) (x2 : Vec F S1x128 .f32) : Vec F S2000x128 .f32 :=
  View.canon [⟨r6_3, k6_pay1 (View.ld x0 r6_0) (View.ld x1 r6_1) (View.ld x2 r6_2)⟩]

theorem cover6_3 (p0 : Vec F S2000x128 .f32) (y : S2000x128.Idx) :
    ∃ pc ∈ ([⟨r6_3, p0⟩] : List (View.Piece (Elt F) S2000x128 .f32)), y ∈ pc.1.set :=
  View.cover_of_tiled [⟨r6_3, p0⟩] S2000x128.size (by rfl) y

set_option maxHeartbeats 1000000 in

theorem sound_kernel6 (c : Dev nD) (E : Set ℕ) (i : grid6.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__fp_kernel i arg1 harg1 arg2 harg2 arg3 harg3 arg4 harg4) K := by
  simp only [cc6__fp_kernel_eq_skeleton]; unfold cc6__fp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem Phi_eq6 (c : Dev nD) (i : Fin (cfg6.N + 1)) : (dat6 V c).Φ i = Pipeline.ΦA spec6 c := by
  dsimp only [dat6]
theorem q_eq6 (c : Dev nD) (w : Fin cfg6.W) : (dat6 V c).q w = fullShare := by
  dsimp only [dat6]
theorem owed_eq6 (c : Dev nD) (x) : (dat6 V c).owed x = 0 := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
import proofs.«410641_j56710748176715_1_alg».proof.Proof.KI.RegionsP
import proofs.«410641_j56710748176715_1_alg».proof.Proof.KI.R0
import proofs.«410641_j56710748176715_1_alg».proof.Proof.KI.R1
import proofs.«410641_j56710748176715_1_alg».proof.Proof.KI.R2
import proofs.«410641_j56710748176715_1_alg».proof.Proof.KI.R3
import proofs.«410641_j56710748176715_1_alg».proof.Proof.KI.R4
import proofs.«410641_j56710748176715_1_alg».proof.Proof.KI.R5
import proofs.«410641_j56710748176715_1_alg».proof.Proof.KI.R6

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem recorded_eq0 (V : (c : Dev nD) → (b : Ref sig .tc) → Buf (Elt F) ((c : Thread nD τ).loc b)) (c : Dev nD) (i : Fin (cfg0.N + 1)) : (dat0 V c).recorded i = Set.univ := rfl
theorem recorded_eq1 (V : (c : Dev nD) → (b : Ref sig .tc) → Buf (Elt F) ((c : Thread nD τ).loc b)) (c : Dev nD) (i : Fin (cfg1.N + 1)) : (dat1 V c).recorded i = Set.univ := rfl
theorem recorded_eq2 (V : (c : Dev nD) → (b : Ref sig .tc) → Buf (Elt F) ((c : Thread nD τ).loc b)) (c : Dev nD) (i : Fin (cfg2.N + 1)) : (dat2 V c).recorded i = Set.univ := rfl
theorem recorded_eq3 (V : (c : Dev nD) → (b : Ref sig .tc) → Buf (Elt F) ((c : Thread nD τ).loc b)) (c : Dev nD) (i : Fin (cfg3.N + 1)) : (dat3 V c).recorded i = Set.univ := rfl
theorem recorded_eq4 (V : (c : Dev nD) → (b : Ref sig .tc) → Buf (Elt F) ((c : Thread nD τ).loc b)) (c : Dev nD) (i : Fin (cfg4.N + 1)) : (dat4 V c).recorded i = Set.univ := rfl
theorem recorded_eq5 (V : (c : Dev nD) → (b : Ref sig .tc) → Buf (Elt F) ((c : Thread nD τ).loc b)) (c : Dev nD) (i : Fin (cfg5.N + 1)) : (dat5 V c).recorded i = Set.univ := rfl
theorem recorded_eq6 (V : (c : Dev nD) → (b : Ref sig .tc) → Buf (Elt F) ((c : Thread nD τ).loc b)) (c : Dev nD) (i : Fin (cfg6.N + 1)) : (dat6 V c).recorded i = Set.univ := rfl

abbrev W0 (c : Dev nD) : Valuation τ sig (Elt F) := fun b => m (c, b)

abbrev W1 (c : Dev nD) : Valuation τ sig (Elt F) := StableHlo.after hostOps0 (W0 m c)

abbrev Vin0 : (c : Dev nD) → (b : Ref sig .tc) → Buf (Elt F) ((c : Thread nD τ).loc b) := fun c b => W1 m c b

def W2 (c : Dev nD) : Valuation τ sig (Elt F) :=
  Function.update (W1 m c) main_v1 ((dat0 (Vin0 m) c).arrAt (3 : Fin 4) cfg0.N)
theorem W2_main_v1 (c : Dev nD) : W2 m c main_v1 = (dat0 (Vin0 m) c).arrAt (3 : Fin 4) cfg0.N := by
  unfold W2
  rw [Function.update_self]
theorem W2_of_ne (c : Dev nD) (b : Ref sig .tc) (h0 : b ≠ main_v1) : W2 m c b = W1 m c b := by
  unfold W2
  rw [Function.update_of_ne (StableHlo.devRef_ne_of_ne h0 : (Proc.devRef .tc b : DevRef τ sig) ≠ Proc.devRef .tc main_v1)]

abbrev Vout0 : (c : Dev nD) → (b : Ref sig .tc) → Buf (Elt F) ((c : Thread nD τ).loc b) := fun c b => W2 m c b

abbrev W3 (c : Dev nD) : Valuation τ sig (Elt F) := StableHlo.after hostOps1 (W2 m c)

abbrev W4 (c : Dev nD) : Valuation τ sig (Elt F) := StableHlo.after hostOps1_1 (W3 m c)

abbrev W5 (c : Dev nD) : Valuation τ sig (Elt F) := StableHlo.after hostOps1_2 (W4 m c)

abbrev W6 (c : Dev nD) : Valuation τ sig (Elt F) := StableHlo.after hostOps1_3 (W5 m c)

abbrev W7 (c : Dev nD) : Valuation τ sig (Elt F) := StableHlo.after hostOps1_4 (W6 m c)

abbrev W8 (c : Dev nD) : Valuation τ sig (Elt F) := StableHlo.after hostOps1_5 (W7 m c)

abbrev W9 (c : Dev nD) : Valuation τ sig (Elt F) := StableHlo.after hostOps1_6 (W8 m c)

abbrev W10 (c : Dev nD) : Valuation τ sig (Elt F) := StableHlo.after hostOps1_7 (W9 m c)

abbrev W11 (c : Dev nD) : Valuation τ sig (Elt F) := StableHlo.after hostOps1_8 (W10 m c)

abbrev W12 (c : Dev nD) : Valuation τ sig (Elt F) := StableHlo.after hostOps1_9 (W11 m c)

abbrev W13 (c : Dev nD) : Valuation τ sig (Elt F) := StableHlo.after hostOps1_10 (W12 m c)

abbrev W14 (c : Dev nD) : Valuation τ sig (Elt F) := StableHlo.after hostOps1_11 (W13 m c)

abbrev W15 (c : Dev nD) : Valuation τ sig (Elt F) := StableHlo.after hostOps1_12 (W14 m c)

abbrev W16 (c : Dev nD) : Valuation τ sig (Elt F) := StableHlo.after hostOps1_13 (W15 m c)

abbrev W17 (c : Dev nD) : Valuation τ sig (Elt F) := StableHlo.after hostOps1_14 (W16 m c)

abbrev W18 (c : Dev nD) : Valuation τ sig (Elt F) := StableHlo.after hostOps1_15 (W17 m c)

abbrev W19 (c : Dev nD) : Valuation τ sig (Elt F) := StableHlo.after hostOps1_16 (W18 m c)

abbrev Vin1 : (c : Dev nD) → (b : Ref sig .tc) → Buf (Elt F) ((c : Thread nD τ).loc b) := fun c b => W19 m c b

def W20 (c : Dev nD) : Valuation τ sig (Elt F) :=
  Function.update (Function.update (Function.update (W19 m c) main_v32_0 ((dat1 (Vin1 m) c).arrAt (5 : Fin 8) cfg1.N)) main_v32_1 ((dat1 (Vin1 m) c).arrAt (6 : Fin 8) cfg1.N)) main_v32_2 ((dat1 (Vin1 m) c).arrAt (7 : Fin 8) cfg1.N)
theorem W20_main_v32_0 (c : Dev nD) : W20 m c main_v32_0 = (dat1 (Vin1 m) c).arrAt (5 : Fin 8) cfg1.N := by
  unfold W20
  rw [Function.update_of_ne (StableHlo.devRef_ne_of_ne (by decide) : (Proc.devRef .tc main_v32_0 : DevRef τ sig) ≠ Proc.devRef .tc main_v32_2), Function.update_of_ne (StableHlo.devRef_ne_of_ne (by decide) : (Proc.devRef .tc main_v32_0 : DevRef τ sig) ≠ Proc.devRef .tc main_v32_1), Function.update_self]
theorem W20_main_v32_1 (c : Dev nD) : W20 m c main_v32_1 = (dat1 (Vin1 m) c).arrAt (6 : Fin 8) cfg1.N := by
  unfold W20
  rw [Function.update_of_ne (StableHlo.devRef_ne_of_ne (by decide) : (Proc.devRef .tc main_v32_1 : DevRef τ sig) ≠ Proc.devRef .tc main_v32_2), Function.update_self]
theorem W20_main_v32_2 (c : Dev nD) : W20 m c main_v32_2 = (dat1 (Vin1 m) c).arrAt (7 : Fin 8) cfg1.N := by
  unfold W20
  rw [Function.update_self]
theorem W20_of_ne (c : Dev nD) (b : Ref sig .tc) (h0 : b ≠ main_v32_0) (h1 : b ≠ main_v32_1) (h2 : b ≠ main_v32_2) : W20 m c b = W19 m c b := by
  unfold W20
  rw [Function.update_of_ne (StableHlo.devRef_ne_of_ne h2 : (Proc.devRef .tc b : DevRef τ sig) ≠ Proc.devRef .tc main_v32_2), Function.update_of_ne (StableHlo.devRef_ne_of_ne h1 : (Proc.devRef .tc b : DevRef τ sig) ≠ Proc.devRef .tc main_v32_1), Function.update_of_ne (StableHlo.devRef_ne_of_ne h0 : (Proc.devRef .tc b : DevRef τ sig) ≠ Proc.devRef .tc main_v32_0)]

abbrev Vout1 : (c : Dev nD) → (b : Ref sig .tc) → Buf (Elt F) ((c : Thread nD τ).loc b) := fun c b => W20 m c b

abbrev W21 (c : Dev nD) : Valuation τ sig (Elt F) := StableHlo.after hostOps2 (W20 m c)

abbrev Vin2 : (c : Dev nD) → (b : Ref sig .tc) → Buf (Elt F) ((c : Thread nD τ).loc b) := fun c b => W21 m c b

def W22 (c : Dev nD) : Valuation τ sig (Elt F) :=
  Function.update (W21 m c) main_v46 ((dat2 (Vin2 m) c).arrAt (3 : Fin 4) cfg2.N)
theorem W22_main_v46 (c : Dev nD) : W22 m c main_v46 = (dat2 (Vin2 m) c).arrAt (3 : Fin 4) cfg2.N := by
  unfold W22
  rw [Function.update_self]
theorem W22_of_ne (c : Dev nD) (b : Ref sig .tc) (h0 : b ≠ main_v46) : W22 m c b = W21 m c b := by
  unfold W22
  rw [Function.update_of_ne (StableHlo.devRef_ne_of_ne h0 : (Proc.devRef .tc b : DevRef τ sig) ≠ Proc.devRef .tc main_v46)]

abbrev Vout2 : (c : Dev nD) → (b : Ref sig .tc) → Buf (Elt F) ((c : Thread nD τ).loc b) := fun c b => W22 m c b

abbrev W23 (c : Dev nD) : Valuation τ sig (Elt F) := StableHlo.after hostOps3 (W22 m c)

abbrev Vin3 : (c : Dev nD) → (b : Ref sig .tc) → Buf (Elt F) ((c : Thread nD τ).loc b) := fun c b => W23 m c b

def W24 (c : Dev nD) : Valuation τ sig (Elt F) :=
  Function.update (W23 m c) main_v48 ((dat3 (Vin3 m) c).arrAt (3 : Fin 4) cfg3.N)
theorem W24_main_v48 (c : Dev nD) : W24 m c main_v48 = (dat3 (Vin3 m) c).arrAt (3 : Fin 4) cfg3.N := by
  unfold W24
  rw [Function.update_self]
theorem W24_of_ne (c : Dev nD) (b : Ref sig .tc) (h0 : b ≠ main_v48) : W24 m c b = W23 m c b := by
  unfold W24
  rw [Function.update_of_ne (StableHlo.devRef_ne_of_ne h0 : (Proc.devRef .tc b : DevRef τ sig) ≠ Proc.devRef .tc main_v48)]

abbrev Vout3 : (c : Dev nD) → (b : Ref sig .tc) → Buf (Elt F) ((c : Thread nD τ).loc b) := fun c b => W24 m c b

abbrev W25 (c : Dev nD) : Valuation τ sig (Elt F) := StableHlo.after hostOps4 (W24 m c)

abbrev W26 (c : Dev nD) : Valuation τ sig (Elt F) := StableHlo.after hostOps4_1 (W25 m c)

abbrev W27 (c : Dev nD) : Valuation τ sig (Elt F) := StableHlo.after hostOps4_2 (W26 m c)

abbrev W28 (c : Dev nD) : Valuation τ sig (Elt F) := StableHlo.after hostOps4_3 (W27 m c)

abbrev W29 (c : Dev nD) : Valuation τ sig (Elt F) := StableHlo.after hostOps4_4 (W28 m c)

abbrev W30 (c : Dev nD) : Valuation τ sig (Elt F) := StableHlo.after hostOps4_5 (W29 m c)

abbrev W31 (c : Dev nD) : Valuation τ sig (Elt F) := StableHlo.after hostOps4_6 (W30 m c)

abbrev W32 (c : Dev nD) : Valuation τ sig (Elt F) := StableHlo.after hostOps4_7 (W31 m c)

abbrev W33 (c : Dev nD) : Valuation τ sig (Elt F) := StableHlo.after hostOps4_8 (W32 m c)

abbrev Vin4 : (c : Dev nD) → (b : Ref sig .tc) → Buf (Elt F) ((c : Thread nD τ).loc b) := fun c b => W33 m c b

def W34 (c : Dev nD) : Valuation τ sig (Elt F) :=
  Function.update (Function.update (Function.update (W33 m c) main_v72_0 ((dat4 (Vin4 m) c).arrAt (5 : Fin 8) cfg4.N)) main_v72_1 ((dat4 (Vin4 m) c).arrAt (6 : Fin 8) cfg4.N)) main_v72_2 ((dat4 (Vin4 m) c).arrAt (7 : Fin 8) cfg4.N)
theorem W34_main_v72_0 (c : Dev nD) : W34 m c main_v72_0 = (dat4 (Vin4 m) c).arrAt (5 : Fin 8) cfg4.N := by
  unfold W34
  rw [Function.update_of_ne (StableHlo.devRef_ne_of_ne (by decide) : (Proc.devRef .tc main_v72_0 : DevRef τ sig) ≠ Proc.devRef .tc main_v72_2), Function.update_of_ne (StableHlo.devRef_ne_of_ne (by decide) : (Proc.devRef .tc main_v72_0 : DevRef τ sig) ≠ Proc.devRef .tc main_v72_1), Function.update_self]
theorem W34_main_v72_1 (c : Dev nD) : W34 m c main_v72_1 = (dat4 (Vin4 m) c).arrAt (6 : Fin 8) cfg4.N := by
  unfold W34
  rw [Function.update_of_ne (StableHlo.devRef_ne_of_ne (by decide) : (Proc.devRef .tc main_v72_1 : DevRef τ sig) ≠ Proc.devRef .tc main_v72_2), Function.update_self]
theorem W34_main_v72_2 (c : Dev nD) : W34 m c main_v72_2 = (dat4 (Vin4 m) c).arrAt (7 : Fin 8) cfg4.N := by
  unfold W34
  rw [Function.update_self]
theorem W34_of_ne (c : Dev nD) (b : Ref sig .tc) (h0 : b ≠ main_v72_0) (h1 : b ≠ main_v72_1) (h2 : b ≠ main_v72_2) : W34 m c b = W33 m c b := by
  unfold W34
  rw [Function.update_of_ne (StableHlo.devRef_ne_of_ne h2 : (Proc.devRef .tc b : DevRef τ sig) ≠ Proc.devRef .tc main_v72_2), Function.update_of_ne (StableHlo.devRef_ne_of_ne h1 : (Proc.devRef .tc b : DevRef τ sig) ≠ Proc.devRef .tc main_v72_1), Function.update_of_ne (StableHlo.devRef_ne_of_ne h0 : (Proc.devRef .tc b : DevRef τ sig) ≠ Proc.devRef .tc main_v72_0)]

abbrev Vout4 : (c : Dev nD) → (b : Ref sig .tc) → Buf (Elt F) ((c : Thread nD τ).loc b) := fun c b => W34 m c b

abbrev W35 (c : Dev nD) : Valuation τ sig (Elt F) := StableHlo.after hostOps5 (W34 m c)

abbrev Vin5 : (c : Dev nD) → (b : Ref sig .tc) → Buf (Elt F) ((c : Thread nD τ).loc b) := fun c b => W35 m c b

def W36 (c : Dev nD) : Valuation τ sig (Elt F) :=
  Function.update (W35 m c) main_v86 ((dat5 (Vin5 m) c).arrAt (3 : Fin 4) cfg5.N)
theorem W36_main_v86 (c : Dev nD) : W36 m c main_v86 = (dat5 (Vin5 m) c).arrAt (3 : Fin 4) cfg5.N := by
  unfold W36
  rw [Function.update_self]
theorem W36_of_ne (c : Dev nD) (b : Ref sig .tc) (h0 : b ≠ main_v86) : W36 m c b = W35 m c b := by
  unfold W36
  rw [Function.update_of_ne (StableHlo.devRef_ne_of_ne h0 : (Proc.devRef .tc b : DevRef τ sig) ≠ Proc.devRef .tc main_v86)]

abbrev Vout5 : (c : Dev nD) → (b : Ref sig .tc) → Buf (Elt F) ((c : Thread nD τ).loc b) := fun c b => W36 m c b

abbrev W37 (c : Dev nD) : Valuation τ sig (Elt F) := StableHlo.after hostOps6 (W36 m c)

abbrev Vin6 : (c : Dev nD) → (b : Ref sig .tc) → Buf (Elt F) ((c : Thread nD τ).loc b) := fun c b => W37 m c b

def W38 (c : Dev nD) : Valuation τ sig (Elt F) :=
  Function.update (W37 m c) main_v88 ((dat6 (Vin6 m) c).arrAt (3 : Fin 4) cfg6.N)
theorem W38_main_v88 (c : Dev nD) : W38 m c main_v88 = (dat6 (Vin6 m) c).arrAt (3 : Fin 4) cfg6.N := by
  unfold W38
  rw [Function.update_self]
theorem W38_of_ne (c : Dev nD) (b : Ref sig .tc) (h0 : b ≠ main_v88) : W38 m c b = W37 m c b := by
  unfold W38
  rw [Function.update_of_ne (StableHlo.devRef_ne_of_ne h0 : (Proc.devRef .tc b : DevRef τ sig) ≠ Proc.devRef .tc main_v88)]

abbrev Vout6 : (c : Dev nD) → (b : Ref sig .tc) → Buf (Elt F) ((c : Thread nD τ).loc b) := fun c b => W38 m c b

abbrev W39 (c : Dev nD) : Valuation τ sig (Elt F) := StableHlo.after hostOps7 (W38 m c)

def outs : GenP.Outs (F := F) := fun J r c =>
  match J with
  | 2 => W2 m c r
  | 20 => W20 m c r
  | 22 => W22 m c r
  | 24 => W24 m c r
  | 34 => W34 m c r
  | 36 => W36 m c r
  | 38 => W38 m c r
  | _ => W0 m c r

theorem V_eq_1 (c : Dev nD) : GenP.V1 m c = W1 m c := rfl
theorem V_eq_2 (c : Dev nD) : GenP.V2 m (outs m) c = W2 m c := by
  unfold W2
  show Function.update (GenP.V1 m c) (Proc.devRef .tc main_v1 : DevRef τ sig) (outs m 2 main_v1 c) = _
  rw [show outs m 2 main_v1 c = _ from W2_main_v1 m c, V_eq_1 m c]
theorem V_eq_3 (c : Dev nD) : GenP.V3 m (outs m) c = W3 m c := congrArg (StableHlo.after hostOps1) (V_eq_2 m c)
theorem V_eq_4 (c : Dev nD) : GenP.V4 m (outs m) c = W4 m c := congrArg (StableHlo.after hostOps1_1) (V_eq_3 m c)
theorem V_eq_5 (c : Dev nD) : GenP.V5 m (outs m) c = W5 m c := congrArg (StableHlo.after hostOps1_2) (V_eq_4 m c)
theorem V_eq_6 (c : Dev nD) : GenP.V6 m (outs m) c = W6 m c := congrArg (StableHlo.after hostOps1_3) (V_eq_5 m c)
theorem V_eq_7 (c : Dev nD) : GenP.V7 m (outs m) c = W7 m c := congrArg (StableHlo.after hostOps1_4) (V_eq_6 m c)
theorem V_eq_8 (c : Dev nD) : GenP.V8 m (outs m) c = W8 m c := congrArg (StableHlo.after hostOps1_5) (V_eq_7 m c)
theorem V_eq_9 (c : Dev nD) : GenP.V9 m (outs m) c = W9 m c := congrArg (StableHlo.after hostOps1_6) (V_eq_8 m c)
theorem V_eq_10 (c : Dev nD) : GenP.V10 m (outs m) c = W10 m c := congrArg (StableHlo.after hostOps1_7) (V_eq_9 m c)
theorem V_eq_11 (c : Dev nD) : GenP.V11 m (outs m) c = W11 m c := congrArg (StableHlo.after hostOps1_8) (V_eq_10 m c)
theorem V_eq_12 (c : Dev nD) : GenP.V12 m (outs m) c = W12 m c := congrArg (StableHlo.after hostOps1_9) (V_eq_11 m c)
theorem V_eq_13 (c : Dev nD) : GenP.V13 m (outs m) c = W13 m c := congrArg (StableHlo.after hostOps1_10) (V_eq_12 m c)
theorem V_eq_14 (c : Dev nD) : GenP.V14 m (outs m) c = W14 m c := congrArg (StableHlo.after hostOps1_11) (V_eq_13 m c)
theorem V_eq_15 (c : Dev nD) : GenP.V15 m (outs m) c = W15 m c := congrArg (StableHlo.after hostOps1_12) (V_eq_14 m c)
theorem V_eq_16 (c : Dev nD) : GenP.V16 m (outs m) c = W16 m c := congrArg (StableHlo.after hostOps1_13) (V_eq_15 m c)
theorem V_eq_17 (c : Dev nD) : GenP.V17 m (outs m) c = W17 m c := congrArg (StableHlo.after hostOps1_14) (V_eq_16 m c)
theorem V_eq_18 (c : Dev nD) : GenP.V18 m (outs m) c = W18 m c := congrArg (StableHlo.after hostOps1_15) (V_eq_17 m c)
theorem V_eq_19 (c : Dev nD) : GenP.V19 m (outs m) c = W19 m c := congrArg (StableHlo.after hostOps1_16) (V_eq_18 m c)
theorem V_eq_20 (c : Dev nD) : GenP.V20 m (outs m) c = W20 m c := by
  unfold W20
  show Function.update (Function.update (Function.update (GenP.V19 m (outs m) c) (Proc.devRef .tc main_v32_0 : DevRef τ sig) (outs m 20 main_v32_0 c)) (Proc.devRef .tc main_v32_1 : DevRef τ sig) (outs m 20 main_v32_1 c)) (Proc.devRef .tc main_v32_2 : DevRef τ sig) (outs m 20 main_v32_2 c) = _
  rw [show outs m 20 main_v32_0 c = _ from W20_main_v32_0 m c, show outs m 20 main_v32_1 c = _ from W20_main_v32_1 m c, show outs m 20 main_v32_2 c = _ from W20_main_v32_2 m c, V_eq_19 m c]
theorem V_eq_21 (c : Dev nD) : GenP.V21 m (outs m) c = W21 m c := congrArg (StableHlo.after hostOps2) (V_eq_20 m c)
theorem V_eq_22 (c : Dev nD) : GenP.V22 m (outs m) c = W22 m c := by
  unfold W22
  show Function.update (GenP.V21 m (outs m) c) (Proc.devRef .tc main_v46 : DevRef τ sig) (outs m 22 main_v46 c) = _
  rw [show outs m 22 main_v46 c = _ from W22_main_v46 m c, V_eq_21 m c]
theorem V_eq_23 (c : Dev nD) : GenP.V23 m (outs m) c = W23 m c := congrArg (StableHlo.after hostOps3) (V_eq_22 m c)
theorem V_eq_24 (c : Dev nD) : GenP.V24 m (outs m) c = W24 m c := by
  unfold W24
  show Function.update (GenP.V23 m (outs m) c) (Proc.devRef .tc main_v48 : DevRef τ sig) (outs m 24 main_v48 c) = _
  rw [show outs m 24 main_v48 c = _ from W24_main_v48 m c, V_eq_23 m c]
theorem V_eq_25 (c : Dev nD) : GenP.V25 m (outs m) c = W25 m c := congrArg (StableHlo.after hostOps4) (V_eq_24 m c)
theorem V_eq_26 (c : Dev nD) : GenP.V26 m (outs m) c = W26 m c := congrArg (StableHlo.after hostOps4_1) (V_eq_25 m c)
theorem V_eq_27 (c : Dev nD) : GenP.V27 m (outs m) c = W27 m c := congrArg (StableHlo.after hostOps4_2) (V_eq_26 m c)
theorem V_eq_28 (c : Dev nD) : GenP.V28 m (outs m) c = W28 m c := congrArg (StableHlo.after hostOps4_3) (V_eq_27 m c)
theorem V_eq_29 (c : Dev nD) : GenP.V29 m (outs m) c = W29 m c := congrArg (StableHlo.after hostOps4_4) (V_eq_28 m c)
theorem V_eq_30 (c : Dev nD) : GenP.V30 m (outs m) c = W30 m c := congrArg (StableHlo.after hostOps4_5) (V_eq_29 m c)
theorem V_eq_31 (c : Dev nD) : GenP.V31 m (outs m) c = W31 m c := congrArg (StableHlo.after hostOps4_6) (V_eq_30 m c)
theorem V_eq_32 (c : Dev nD) : GenP.V32 m (outs m) c = W32 m c := congrArg (StableHlo.after hostOps4_7) (V_eq_31 m c)
theorem V_eq_33 (c : Dev nD) : GenP.V33 m (outs m) c = W33 m c := congrArg (StableHlo.after hostOps4_8) (V_eq_32 m c)
theorem V_eq_34 (c : Dev nD) : GenP.V34 m (outs m) c = W34 m c := by
  unfold W34
  show Function.update (Function.update (Function.update (GenP.V33 m (outs m) c) (Proc.devRef .tc main_v72_0 : DevRef τ sig) (outs m 34 main_v72_0 c)) (Proc.devRef .tc main_v72_1 : DevRef τ sig) (outs m 34 main_v72_1 c)) (Proc.devRef .tc main_v72_2 : DevRef τ sig) (outs m 34 main_v72_2 c) = _
  rw [show outs m 34 main_v72_0 c = _ from W34_main_v72_0 m c, show outs m 34 main_v72_1 c = _ from W34_main_v72_1 m c, show outs m 34 main_v72_2 c = _ from W34_main_v72_2 m c, V_eq_33 m c]
theorem V_eq_35 (c : Dev nD) : GenP.V35 m (outs m) c = W35 m c := congrArg (StableHlo.after hostOps5) (V_eq_34 m c)
theorem V_eq_36 (c : Dev nD) : GenP.V36 m (outs m) c = W36 m c := by
  unfold W36
  show Function.update (GenP.V35 m (outs m) c) (Proc.devRef .tc main_v86 : DevRef τ sig) (outs m 36 main_v86 c) = _
  rw [show outs m 36 main_v86 c = _ from W36_main_v86 m c, V_eq_35 m c]
theorem V_eq_37 (c : Dev nD) : GenP.V37 m (outs m) c = W37 m c := congrArg (StableHlo.after hostOps6) (V_eq_36 m c)
theorem V_eq_38 (c : Dev nD) : GenP.V38 m (outs m) c = W38 m c := by
  unfold W38
  show Function.update (GenP.V37 m (outs m) c) (Proc.devRef .tc main_v88 : DevRef τ sig) (outs m 38 main_v88 c) = _
  rw [show outs m 38 main_v88 c = _ from W38_main_v88 m c, V_eq_37 m c]
theorem V_eq_39 (c : Dev nD) : GenP.V39 m (outs m) c = W39 m c := congrArg (StableHlo.after hostOps7) (V_eq_38 m c)

def pdats : (p : Fin 7) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0_0 (c : Dev nD) : (dat0 (Vin0 m) c).arrAt (0 : Fin 4) cfg0.N = Vout0 m c main_arg0 :=
  ((dat0 (Vin0 m) c).arrAt_in (0 : Fin 4) rfl _).trans ((A_eq0 (Vin0 m) c (0 : Fin 4)).trans (W2_of_ne m c main_arg0 (by decide)).symm)

theorem hF0_1 (c : Dev nD) : (dat0 (Vin0 m) c).arrAt (1 : Fin 4) cfg0.N = Vout0 m c main_arg2 :=
  ((dat0 (Vin0 m) c).arrAt_in (1 : Fin 4) rfl _).trans ((A_eq0 (Vin0 m) c (1 : Fin 4)).trans (W2_of_ne m c main_arg2 (by decide)).symm)

theorem hF0_2 (c : Dev nD) : (dat0 (Vin0 m) c).arrAt (2 : Fin 4) cfg0.N = Vout0 m c main_v0 :=
  ((dat0 (Vin0 m) c).arrAt_in (2 : Fin 4) rfl _).trans ((A_eq0 (Vin0 m) c (2 : Fin 4)).trans (W2_of_ne m c main_v0 (by decide)).symm)
theorem hF0 (c : Dev nD) : ∀ w : Fin 4, (dat0 (Vin0 m) c).arrAt w cfg0.N = Vout0 m c (Pipeline.arrRef spec0 w)
  | 0 => hF0_0 m c
  | 1 => hF0_1 m c
  | 2 => hF0_2 m c
  | 3 => (W2_main_v1 m c).symm
  | ⟨_ + 4, h⟩ => absurd h (Nat.not_lt.2 (Nat.le_add_left _ _))
theorem hrest0 (c : Dev nD) : ∀ b, b ∉ Finset.univ.image (Pipeline.arrRef spec0) → Vout0 m c b = Vin0 m c b :=
  fun b hb => W2_of_ne m c b (fun e => hb (Finset.mem_image.mpr ⟨3, Finset.mem_univ _, e.symm⟩))

theorem hF1_0 (c : Dev nD) : (dat1 (Vin1 m) c).arrAt (0 : Fin 8) cfg1.N = Vout1 m c main_arg0 :=
  ((dat1 (Vin1 m) c).arrAt_in (0 : Fin 8) rfl _).trans ((A_eq1 (Vin1 m) c (0 : Fin 8)).trans (W20_of_ne m c main_arg0 (by decide) (by decide) (by decide)).symm)

theorem hF1_1 (c : Dev nD) : (dat1 (Vin1 m) c).arrAt (1 : Fin 8) cfg1.N = Vout1 m c main_v25 :=
  ((dat1 (Vin1 m) c).arrAt_in (1 : Fin 8) rfl _).trans ((A_eq1 (Vin1 m) c (1 : Fin 8)).trans (W20_of_ne m c main_v25 (by decide) (by decide) (by decide)).symm)

theorem hF1_2 (c : Dev nD) : (dat1 (Vin1 m) c).arrAt (2 : Fin 8) cfg1.N = Vout1 m c main_arg8 :=
  ((dat1 (Vin1 m) c).arrAt_in (2 : Fin 8) rfl _).trans ((A_eq1 (Vin1 m) c (2 : Fin 8)).trans (W20_of_ne m c main_arg8 (by decide) (by decide) (by decide)).symm)

theorem hF1_3 (c : Dev nD) : (dat1 (Vin1 m) c).arrAt (3 : Fin 8) cfg1.N = Vout1 m c main_v30 :=
  ((dat1 (Vin1 m) c).arrAt_in (3 : Fin 8) rfl _).trans ((A_eq1 (Vin1 m) c (3 : Fin 8)).trans (W20_of_ne m c main_v30 (by decide) (by decide) (by decide)).symm)

theorem hF1_4 (c : Dev nD) : (dat1 (Vin1 m) c).arrAt (4 : Fin 8) cfg1.N = Vout1 m c main_v31 :=
  ((dat1 (Vin1 m) c).arrAt_in (4 : Fin 8) rfl _).trans ((A_eq1 (Vin1 m) c (4 : Fin 8)).trans (W20_of_ne m c main_v31 (by decide) (by decide) (by decide)).symm)
theorem hF1 (c : Dev nD) : ∀ w : Fin 8, (dat1 (Vin1 m) c).arrAt w cfg1.N = Vout1 m c (Pipeline.arrRef spec1 w)
  | 0 => hF1_0 m c
  | 1 => hF1_1 m c
  | 2 => hF1_2 m c
  | 3 => hF1_3 m c
  | 4 => hF1_4 m c
  | 5 => (W20_main_v32_0 m c).symm
  | 6 => (W20_main_v32_1 m c).symm
  | 7 => (W20_main_v32_2 m c).symm
  | ⟨_ + 8, h⟩ => absurd h (Nat.not_lt.2 (Nat.le_add_left _ _))
theorem hrest1 (c : Dev nD) : ∀ b, b ∉ Finset.univ.image (Pipeline.arrRef spec1) → Vout1 m c b = Vin1 m c b :=
  fun b hb => W20_of_ne m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

theorem hF2_0 (c : Dev nD) : (dat2 (Vin2 m) c).arrAt (0 : Fin 4) cfg2.N = Vout2 m c main_v32_0 :=
  ((dat2 (Vin2 m) c).arrAt_in (0 : Fin 4) rfl _).trans ((A_eq2 (Vin2 m) c (0 : Fin 4)).trans (W22_of_ne m c main_v32_0 (by decide)).symm)

theorem hF2_1 (c : Dev nD) : (dat2 (Vin2 m) c).arrAt (1 : Fin 4) cfg2.N = Vout2 m c main_v44 :=
  ((dat2 (Vin2 m) c).arrAt_in (1 : Fin 4) rfl _).trans ((A_eq2 (Vin2 m) c (1 : Fin 4)).trans (W22_of_ne m c main_v44 (by decide)).symm)

theorem hF2_2 (c : Dev nD) : (dat2 (Vin2 m) c).arrAt (2 : Fin 4) cfg2.N = Vout2 m c main_v45 :=
  ((dat2 (Vin2 m) c).arrAt_in (2 : Fin 4) rfl _).trans ((A_eq2 (Vin2 m) c (2 : Fin 4)).trans (W22_of_ne m c main_v45 (by decide)).symm)
theorem hF2 (c : Dev nD) : ∀ w : Fin 4, (dat2 (Vin2 m) c).arrAt w cfg2.N = Vout2 m c (Pipeline.arrRef spec2 w)
  | 0 => hF2_0 m c
  | 1 => hF2_1 m c
  | 2 => hF2_2 m c
  | 3 => (W22_main_v46 m c).symm
  | ⟨_ + 4, h⟩ => absurd h (Nat.not_lt.2 (Nat.le_add_left _ _))
theorem hrest2 (c : Dev nD) : ∀ b, b ∉ Finset.univ.image (Pipeline.arrRef spec2) → Vout2 m c b = Vin2 m c b :=
  fun b hb => W22_of_ne m c b (fun e => hb (Finset.mem_image.mpr ⟨3, Finset.mem_univ _, e.symm⟩))

theorem hF3_0 (c : Dev nD) : (dat3 (Vin3 m) c).arrAt (0 : Fin 4) cfg3.N = Vout3 m c main_v46 :=
  ((dat3 (Vin3 m) c).arrAt_in (0 : Fin 4) rfl _).trans ((A_eq3 (Vin3 m) c (0 : Fin 4)).trans (W24_of_ne m c main_v46 (by decide)).symm)

theorem hF3_1 (c : Dev nD) : (dat3 (Vin3 m) c).arrAt (1 : Fin 4) cfg3.N = Vout3 m c main_arg4 :=
  ((dat3 (Vin3 m) c).arrAt_in (1 : Fin 4) rfl _).trans ((A_eq3 (Vin3 m) c (1 : Fin 4)).trans (W24_of_ne m c main_arg4 (by decide)).symm)

theorem hF3_2 (c : Dev nD) : (dat3 (Vin3 m) c).arrAt (2 : Fin 4) cfg3.N = Vout3 m c main_v47 :=
  ((dat3 (Vin3 m) c).arrAt_in (2 : Fin 4) rfl _).trans ((A_eq3 (Vin3 m) c (2 : Fin 4)).trans (W24_of_ne m c main_v47 (by decide)).symm)
theorem hF3 (c : Dev nD) : ∀ w : Fin 4, (dat3 (Vin3 m) c).arrAt w cfg3.N = Vout3 m c (Pipeline.arrRef spec3 w)
  | 0 => hF3_0 m c
  | 1 => hF3_1 m c
  | 2 => hF3_2 m c
  | 3 => (W24_main_v48 m c).symm
  | ⟨_ + 4, h⟩ => absurd h (Nat.not_lt.2 (Nat.le_add_left _ _))
theorem hrest3 (c : Dev nD) : ∀ b, b ∉ Finset.univ.image (Pipeline.arrRef spec3) → Vout3 m c b = Vin3 m c b :=
  fun b hb => W24_of_ne m c b (fun e => hb (Finset.mem_image.mpr ⟨3, Finset.mem_univ _, e.symm⟩))

theorem hF4_0 (c : Dev nD) : (dat4 (Vin4 m) c).arrAt (0 : Fin 8) cfg4.N = Vout4 m c main_v46 :=
  ((dat4 (Vin4 m) c).arrAt_in (0 : Fin 8) rfl _).trans ((A_eq4 (Vin4 m) c (0 : Fin 8)).trans (W34_of_ne m c main_v46 (by decide) (by decide) (by decide)).symm)

theorem hF4_1 (c : Dev nD) : (dat4 (Vin4 m) c).arrAt (1 : Fin 8) cfg4.N = Vout4 m c main_v65 :=
  ((dat4 (Vin4 m) c).arrAt_in (1 : Fin 8) rfl _).trans ((A_eq4 (Vin4 m) c (1 : Fin 8)).trans (W34_of_ne m c main_v65 (by decide) (by decide) (by decide)).symm)

theorem hF4_2 (c : Dev nD) : (dat4 (Vin4 m) c).arrAt (2 : Fin 8) cfg4.N = Vout4 m c main_arg14 :=
  ((dat4 (Vin4 m) c).arrAt_in (2 : Fin 8) rfl _).trans ((A_eq4 (Vin4 m) c (2 : Fin 8)).trans (W34_of_ne m c main_arg14 (by decide) (by decide) (by decide)).symm)

theorem hF4_3 (c : Dev nD) : (dat4 (Vin4 m) c).arrAt (3 : Fin 8) cfg4.N = Vout4 m c main_v70 :=
  ((dat4 (Vin4 m) c).arrAt_in (3 : Fin 8) rfl _).trans ((A_eq4 (Vin4 m) c (3 : Fin 8)).trans (W34_of_ne m c main_v70 (by decide) (by decide) (by decide)).symm)

theorem hF4_4 (c : Dev nD) : (dat4 (Vin4 m) c).arrAt (4 : Fin 8) cfg4.N = Vout4 m c main_v71 :=
  ((dat4 (Vin4 m) c).arrAt_in (4 : Fin 8) rfl _).trans ((A_eq4 (Vin4 m) c (4 : Fin 8)).trans (W34_of_ne m c main_v71 (by decide) (by decide) (by decide)).symm)
theorem hF4 (c : Dev nD) : ∀ w : Fin 8, (dat4 (Vin4 m) c).arrAt w cfg4.N = Vout4 m c (Pipeline.arrRef spec4 w)
  | 0 => hF4_0 m c
  | 1 => hF4_1 m c
  | 2 => hF4_2 m c
  | 3 => hF4_3 m c
  | 4 => hF4_4 m c
  | 5 => (W34_main_v72_0 m c).symm
  | 6 => (W34_main_v72_1 m c).symm
  | 7 => (W34_main_v72_2 m c).symm
  | ⟨_ + 8, h⟩ => absurd h (Nat.not_lt.2 (Nat.le_add_left _ _))
theorem hrest4 (c : Dev nD) : ∀ b, b ∉ Finset.univ.image (Pipeline.arrRef spec4) → Vout4 m c b = Vin4 m c b :=
  fun b hb => W34_of_ne m c b (fun e => hb (Finset.mem_image.mpr ⟨5, Finset.mem_univ _, e.symm⟩)) (fun e => hb (Finset.mem_image.mpr ⟨6, Finset.mem_univ _, e.symm⟩)) (fun e => hb (Finset.mem_image.mpr ⟨7, Finset.mem_univ _, e.symm⟩))

theorem hF5_0 (c : Dev nD) : (dat5 (Vin5 m) c).arrAt (0 : Fin 4) cfg5.N = Vout5 m c main_v72_0 :=
  ((dat5 (Vin5 m) c).arrAt_in (0 : Fin 4) rfl _).trans ((A_eq5 (Vin5 m) c (0 : Fin 4)).trans (W36_of_ne m c main_v72_0 (by decide)).symm)

theorem hF5_1 (c : Dev nD) : (dat5 (Vin5 m) c).arrAt (1 : Fin 4) cfg5.N = Vout5 m c main_v84 :=
  ((dat5 (Vin5 m) c).arrAt_in (1 : Fin 4) rfl _).trans ((A_eq5 (Vin5 m) c (1 : Fin 4)).trans (W36_of_ne m c main_v84 (by decide)).symm)

theorem hF5_2 (c : Dev nD) : (dat5 (Vin5 m) c).arrAt (2 : Fin 4) cfg5.N = Vout5 m c main_v85 :=
  ((dat5 (Vin5 m) c).arrAt_in (2 : Fin 4) rfl _).trans ((A_eq5 (Vin5 m) c (2 : Fin 4)).trans (W36_of_ne m c main_v85 (by decide)).symm)
theorem hF5 (c : Dev nD) : ∀ w : Fin 4, (dat5 (Vin5 m) c).arrAt w cfg5.N = Vout5 m c (Pipeline.arrRef spec5 w)
  | 0 => hF5_0 m c
  | 1 => hF5_1 m c
  | 2 => hF5_2 m c
  | 3 => (W36_main_v86 m c).symm
  | ⟨_ + 4, h⟩ => absurd h (Nat.not_lt.2 (Nat.le_add_left _ _))
theorem hrest5 (c : Dev nD) : ∀ b, b ∉ Finset.univ.image (Pipeline.arrRef spec5) → Vout5 m c b = Vin5 m c b :=
  fun b hb => W36_of_ne m c b (fun e => hb (Finset.mem_image.mpr ⟨3, Finset.mem_univ _, e.symm⟩))

theorem hF6_0 (c : Dev nD) : (dat6 (Vin6 m) c).arrAt (0 : Fin 4) cfg6.N = Vout6 m c main_v86 :=
  ((dat6 (Vin6 m) c).arrAt_in (0 : Fin 4) rfl _).trans ((A_eq6 (Vin6 m) c (0 : Fin 4)).trans (W38_of_ne m c main_v86 (by decide)).symm)

theorem hF6_1 (c : Dev nD) : (dat6 (Vin6 m) c).arrAt (1 : Fin 4) cfg6.N = Vout6 m c main_arg6 :=
  ((dat6 (Vin6 m) c).arrAt_in (1 : Fin 4) rfl _).trans ((A_eq6 (Vin6 m) c (1 : Fin 4)).trans (W38_of_ne m c main_arg6 (by decide)).symm)

theorem hF6_2 (c : Dev nD) : (dat6 (Vin6 m) c).arrAt (2 : Fin 4) cfg6.N = Vout6 m c main_v87 :=
  ((dat6 (Vin6 m) c).arrAt_in (2 : Fin 4) rfl _).trans ((A_eq6 (Vin6 m) c (2 : Fin 4)).trans (W38_of_ne m c main_v87 (by decide)).symm)
theorem hF6 (c : Dev nD) : ∀ w : Fin 4, (dat6 (Vin6 m) c).arrAt w cfg6.N = Vout6 m c (Pipeline.arrRef spec6 w)
  | 0 => hF6_0 m c
  | 1 => hF6_1 m c
  | 2 => hF6_2 m c
  | 3 => (W38_main_v88 m c).symm
  | ⟨_ + 4, h⟩ => absurd h (Nat.not_lt.2 (Nat.le_add_left _ _))
theorem hrest6 (c : Dev nD) : ∀ b, b ∉ Finset.univ.image (Pipeline.arrRef spec6) → Vout6 m c b = Vin6 m c b :=
  fun b hb => W38_of_ne m c b (fun e => hb (Finset.mem_image.mpr ⟨3, Finset.mem_univ _, e.symm⟩))

set_option backward.isDefEq.respectTransparency.types false in
-- a kernel region as a segment between the buffer contents `Win` and `Wout`, from its launch facts and proof data
def mkReg (p : Fin 7) (launch : Pipeline.LaunchFacts (nD := nD) (τ := τ) cfgs p) (Win Wout : Dev nD → Valuation τ sig (Elt F))
    (hbody : ∀ c, BodyObligation (pdats m p c) (defs₀ (F := F)) Variants.none () Set.univ)
    (hA : ∀ c w, (pdats m p c).A w = Win c (Pipeline.arrRef (cfgs p).spec w))
    (hΦ : ∀ c i, (pdats m p c).Φ i = Pipeline.ΦA (cfgs p).spec c)
    (hq : ∀ c w, (pdats m p c).q w = fullShare)
    (howed : ∀ c x, (pdats m p c).owed x = 0)
    (hrec : ∀ c i, (pdats m p c).recorded i = Set.univ)
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) GenP.adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) GenP.adm (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro
        exact fun x _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) GenP.adm (pdats m) () defs₀ Variants.none L lv 0 :=
  mkReg m 0 launch0 (W1 m) (W2 m) (body_obligation0 (Vin0 m)) (A_eq0 (Vin0 m)) (Phi_eq0 (Vin0 m)) (q_eq0 (Vin0 m))
    (owed_eq0 (Vin0 m)) (recorded_eq0 (Vin0 m)) (hF0 m) (hrest0 m)

set_option backward.isDefEq.respectTransparency.types false in
def reg1 : Pipeline.RegionSeg (pcfgs (F := F)) GenP.adm (pdats m) () defs₀ Variants.none L lv 1 :=
  mkReg m 1 launch1 (W19 m) (W20 m) (body_obligation1 (Vin1 m)) (A_eq1 (Vin1 m)) (Phi_eq1 (Vin1 m)) (q_eq1 (Vin1 m))
    (owed_eq1 (Vin1 m)) (recorded_eq1 (Vin1 m)) (hF1 m) (hrest1 m)

set_option backward.isDefEq.respectTransparency.types false in
def reg2 : Pipeline.RegionSeg (pcfgs (F := F)) GenP.adm (pdats m) () defs₀ Variants.none L lv 2 :=
  mkReg m 2 launch2 (W21 m) (W22 m) (body_obligation2 (Vin2 m)) (A_eq2 (Vin2 m)) (Phi_eq2 (Vin2 m)) (q_eq2 (Vin2 m))
    (owed_eq2 (Vin2 m)) (recorded_eq2 (Vin2 m)) (hF2 m) (hrest2 m)

set_option backward.isDefEq.respectTransparency.types false in
def reg3 : Pipeline.RegionSeg (pcfgs (F := F)) GenP.adm (pdats m) () defs₀ Variants.none L lv 3 :=
  mkReg m 3 launch3 (W23 m) (W24 m) (body_obligation3 (Vin3 m)) (A_eq3 (Vin3 m)) (Phi_eq3 (Vin3 m)) (q_eq3 (Vin3 m))
    (owed_eq3 (Vin3 m)) (recorded_eq3 (Vin3 m)) (hF3 m) (hrest3 m)

set_option backward.isDefEq.respectTransparency.types false in
def reg4 : Pipeline.RegionSeg (pcfgs (F := F)) GenP.adm (pdats m) () defs₀ Variants.none L lv 4 :=
  mkReg m 4 launch4 (W33 m) (W34 m) (body_obligation4 (Vin4 m)) (A_eq4 (Vin4 m)) (Phi_eq4 (Vin4 m)) (q_eq4 (Vin4 m))
    (owed_eq4 (Vin4 m)) (recorded_eq4 (Vin4 m)) (hF4 m) (hrest4 m)

set_option backward.isDefEq.respectTransparency.types false in
def reg5 : Pipeline.RegionSeg (pcfgs (F := F)) GenP.adm (pdats m) () defs₀ Variants.none L lv 5 :=
  mkReg m 5 launch5 (W35 m) (W36 m) (body_obligation5 (Vin5 m)) (A_eq5 (Vin5 m)) (Phi_eq5 (Vin5 m)) (q_eq5 (Vin5 m))
    (owed_eq5 (Vin5 m)) (recorded_eq5 (Vin5 m)) (hF5 m) (hrest5 m)

set_option backward.isDefEq.respectTransparency.types false in
def reg6 : Pipeline.RegionSeg (pcfgs (F := F)) GenP.adm (pdats m) () defs₀ Variants.none L lv 6 :=
  mkReg m 6 launch6 (W37 m) (W38 m) (body_obligation6 (Vin6 m)) (A_eq6 (Vin6 m)) (Phi_eq6 (Vin6 m)) (q_eq6 (Vin6 m))
    (owed_eq6 (Vin6 m)) (recorded_eq6 (Vin6 m)) (hF6 m) (hrest6 m)

theorem hpre0 (c : Dev nD) : iprop(StableHlo.held (c : Thread nD τ) (Pipeline.ucRefs τ sig) (GenP.V1 m c) ∗ R (F := F) c) ⊢ (reg0 m).pre c := by
  rw [V_eq_1 m c]; exact .rfl
theorem hpost0 (c : Dev nD) : (reg0 m).post c ⊢ iprop(StableHlo.held (c : Thread nD τ) (Pipeline.ucRefs τ sig) (GenP.V2 m (outs m) c) ∗ R (F := F) c) := by
  rw [V_eq_2 m c]; exact .rfl
theorem hpre1 (c : Dev nD) : iprop(StableHlo.held (c : Thread nD τ) (Pipeline.ucRefs τ sig) (GenP.V19 m (outs m) c) ∗ R (F := F) c) ⊢ (reg1 m).pre c := by
  rw [V_eq_19 m c]; exact .rfl
theorem hpost1 (c : Dev nD) : (reg1 m).post c ⊢ iprop(StableHlo.held (c : Thread nD τ) (Pipeline.ucRefs τ sig) (GenP.V20 m (outs m) c) ∗ R (F := F) c) := by
  rw [V_eq_20 m c]; exact .rfl
theorem hpre2 (c : Dev nD) : iprop(StableHlo.held (c : Thread nD τ) (Pipeline.ucRefs τ sig) (GenP.V21 m (outs m) c) ∗ R (F := F) c) ⊢ (reg2 m).pre c := by
  rw [V_eq_21 m c]; exact .rfl
theorem hpost2 (c : Dev nD) : (reg2 m).post c ⊢ iprop(StableHlo.held (c : Thread nD τ) (Pipeline.ucRefs τ sig) (GenP.V22 m (outs m) c) ∗ R (F := F) c) := by
  rw [V_eq_22 m c]; exact .rfl
theorem hpre3 (c : Dev nD) : iprop(StableHlo.held (c : Thread nD τ) (Pipeline.ucRefs τ sig) (GenP.V23 m (outs m) c) ∗ R (F := F) c) ⊢ (reg3 m).pre c := by
  rw [V_eq_23 m c]; exact .rfl
theorem hpost3 (c : Dev nD) : (reg3 m).post c ⊢ iprop(StableHlo.held (c : Thread nD τ) (Pipeline.ucRefs τ sig) (GenP.V24 m (outs m) c) ∗ R (F := F) c) := by
  rw [V_eq_24 m c]; exact .rfl
theorem hpre4 (c : Dev nD) : iprop(StableHlo.held (c : Thread nD τ) (Pipeline.ucRefs τ sig) (GenP.V33 m (outs m) c) ∗ R (F := F) c) ⊢ (reg4 m).pre c := by
  rw [V_eq_33 m c]; exact .rfl
theorem hpost4 (c : Dev nD) : (reg4 m).post c ⊢ iprop(StableHlo.held (c : Thread nD τ) (Pipeline.ucRefs τ sig) (GenP.V34 m (outs m) c) ∗ R (F := F) c) := by
  rw [V_eq_34 m c]; exact .rfl
theorem hpre5 (c : Dev nD) : iprop(StableHlo.held (c : Thread nD τ) (Pipeline.ucRefs τ sig) (GenP.V35 m (outs m) c) ∗ R (F := F) c) ⊢ (reg5 m).pre c := by
  rw [V_eq_35 m c]; exact .rfl
theorem hpost5 (c : Dev nD) : (reg5 m).post c ⊢ iprop(StableHlo.held (c : Thread nD τ) (Pipeline.ucRefs τ sig) (GenP.V36 m (outs m) c) ∗ R (F := F) c) := by
  rw [V_eq_36 m c]; exact .rfl
theorem hpre6 (c : Dev nD) : iprop(StableHlo.held (c : Thread nD τ) (Pipeline.ucRefs τ sig) (GenP.V37 m (outs m) c) ∗ R (F := F) c) ⊢ (reg6 m).pre c := by
  rw [V_eq_37 m c]; exact .rfl
theorem hpost6 (c : Dev nD) : (reg6 m).post c ⊢ iprop(StableHlo.held (c : Thread nD τ) (Pipeline.ucRefs τ sig) (GenP.V38 m (outs m) c) ∗ R (F := F) c) := by
  rw [V_eq_38 m c]; exact .rfl

abbrev u₀ : UR sig nD τ := initOf (Pipeline.cells cfgs cellOf_inj) (Pipeline.launchToks cfgs cellOf_inj)

theorem hu₀ : (ownU u₀ : sProp 𝕄) ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R (F := F) c ⊢ (iprop(∃ W, owes (c : Thread nD τ) (0 : CellTallies nD τ sig Unit) W) : sProp 𝕄) := by
  iintro ⟨-, HO⟩; iexact HO

-- the conditional run with the seven regions' segment records supplied
theorem run_value (ρ : Dev nD → PrngReg) : θ_run defs (onTc (τ := τ) (main (F := F))) ⟨m, fun _ => 0, ρ⟩ (fun r => ∀ c : Dev nD,
      r.2.mem ((c.tc : Thread nD τ).loc main_v92) = W39 m c (Proc.devRef .tc main_v92) ∧ GenP.Kept m c r.2.mem) := by
  have h := GenP.run_cond m emb₁ () Variants.none L lv (fun _ _ => rfl) ρ (outs m) (pdats m) 0 (fun _ => BI.emp) u₀ hu₀
    (E := fun _ c => R c) (hE0 ρ) hE7
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
  rw [show GenP.V39 m (outs m) = W39 m from funext (V_eq_39 m)] at h
  exact h

theorem frame (ρ : Dev nD → PrngReg) : θ_run defs (onTc (τ := τ) (main (F := F))) ⟨m, fun _ => 0, ρ⟩ (fun r => ∀ c : Dev nD,
      GenP.Kept m c r.2.mem) :=
  (θ_run defs _ _).mono (fun _ h c => (h c).2) (run_value m ρ)

end Cert.KernelIdeal.Hand

end
-- ==== Proof.Ref.Stages.lean ====
import proofs.«410641_j56710748176715_1_alg».proof.ReferenceIdeal

noncomputable section

namespace Cert.Spec

open Idealize.ShloMosaic
open Cert.ReferenceIdeal Cert.ReferenceIdeal.Facts₀

variable {F : FTy → Type} [FloatOps F] [Facts₀]

def sm64 (x : FVec F S200000x64 .f32) (W : FVec F S64x128 .f32) (b : FVec F S128 .f32) : FVec F S200000x128 .f32 :=
  let y : FVec F S200000x128 .f32 :=
    addf (Host.dotGeneral dot_S200000x64_S64x128_S200000x128_1_0_0_1_n_n none x W)
      (broadcastInDim S200000x128 ![0, 1] bcast_S1x128_S200000x128_0_1 (broadcastInDim S1x128 ![1] bcast_S128_S1x128_1 b))
  let rowMax : FVec F S200000 .f32 :=
    Host.reduce FloatOps.maximumf y (constant (F := F) S_ .f32 0xFF800000#32) reducesTo_S200000x128_S200000_d1 h_S_
  let m : FVec F S200000 .f32 :=
    maximumf (broadcastInDim S200000 ![] bcast_S_S200000 (constant (F := F) S_ .f32 0xFF800000#32)) rowMax
  let e : FVec F S200000x128 .f32 :=
    Host.exp (subf y (broadcastInDim S200000x128 ![0, 1] bcast_S200000x1_S200000x128_0_1
      (broadcastInDim S200000x1 ![0] bcast_S200000_S200000x1_0 m)))
  let s : FVec F S200000 .f32 :=
    Host.reduceAdd e (constant (F := F) S_ .f32 0x00000000#32) reducesTo_S200000x128_S200000_d1 h_S_
  Host.divf e (broadcastInDim S200000x128 ![0, 1] bcast_S200000x1_S200000x128_0_1
    (broadcastInDim S200000x1 ![0] bcast_S200000_S200000x1_0 s))

def sm128 (x : FVec F S200000x128 .f32) (W : FVec F S128x128 .f32) (b : FVec F S128 .f32) : FVec F S200000x128 .f32 :=
  let y : FVec F S200000x128 .f32 :=
    addf (Host.dotGeneral dot_S200000x128_S128x128_S200000x128_1_0_0_1_n_n none x W)
      (broadcastInDim S200000x128 ![0, 1] bcast_S1x128_S200000x128_0_1 (broadcastInDim S1x128 ![1] bcast_S128_S1x128_1 b))
  let rowMax : FVec F S200000 .f32 :=
    Host.reduce FloatOps.maximumf y (constant (F := F) S_ .f32 0xFF800000#32) reducesTo_S200000x128_S200000_d1 h_S_
  let m : FVec F S200000 .f32 :=
    maximumf (broadcastInDim S200000 ![] bcast_S_S200000 (constant (F := F) S_ .f32 0xFF800000#32)) rowMax
  let e : FVec F S200000x128 .f32 :=
    Host.exp (subf y (broadcastInDim S200000x128 ![0, 1] bcast_S200000x1_S200000x128_0_1
      (broadcastInDim S200000x1 ![0] bcast_S200000_S200000x1_0 m)))
  let s : FVec F S200000 .f32 :=
    Host.reduceAdd e (constant (F := F) S_ .f32 0x00000000#32) reducesTo_S200000x128_S200000_d1 h_S_
  Host.divf e (broadcastInDim S200000x128 ![0, 1] bcast_S200000x1_S200000x128_0_1
    (broadcastInDim S200000x1 ![0] bcast_S200000_S200000x1_0 s))

def seg (u : FVec F S200000x128 .f32) (ids : IVec S200000 32) : FVec F S8192x128 .f32 :=
  Host.scatterAdd scatter_S8192x128_S200000x1_S200000x128_1_0_0_1
    (broadcastInDim S8192x128 ![] bcast_S_S8192x128 (constant (F := F) S_ .f32 0x00000000#32))
    (broadcastInDim S200000x1 ![0] bcast_S200000_S200000x1_0 ids) u

def gA1 (t : FVec F S200000x64 .f32) (idx : IVec S50000x1 32) : FVec F S50000x64 .f32 :=
  let zero : IVec S50000x1 32 := broadcastInDim S50000x1 ![] bcast_S_S50000x1 (constantI S_ 32 0#32)
  let neg : IVec S50000x1 1 := cmpi .slt idx zero
  let bound : IVec S50000x1 32 := broadcastInDim S50000x1 ![] bcast_S_S50000x1 (constantI S_ 32 200000#32)
  let wrapped : IVec S50000x1 32 := select neg (addi idx bound) idx
  let col : IVec S50000x1x1 32 := broadcastInDim S50000x1x1 ![0, 1] bcast_S50000x1_S50000x1x1_0_1 wrapped
  Host.reduceAdd (Host.gather gather_S200000x64_S50000x1x1_S50000x1x64_2_0_n_n_0_2_164 t col) (constant (F := F) S_ .f32 0x00000000#32)
    reducesTo_S50000x1x64_S50000x64_d1 h_S_

def gA2 (t : FVec F S200000x64 .f32) (idx : IVec S50000x2 32) : FVec F S50000x64 .f32 :=
  let zero : IVec S50000x2 32 := broadcastInDim S50000x2 ![] bcast_S_S50000x2 (constantI S_ 32 0#32)
  let neg : IVec S50000x2 1 := cmpi .slt idx zero
  let bound : IVec S50000x2 32 := broadcastInDim S50000x2 ![] bcast_S_S50000x2 (constantI S_ 32 200000#32)
  let wrapped : IVec S50000x2 32 := select neg (addi idx bound) idx
  let col : IVec S50000x2x1 32 := broadcastInDim S50000x2x1 ![0, 1] bcast_S50000x2_S50000x2x1_0_1 wrapped
  Host.reduceAdd (Host.gather gather_S200000x64_S50000x2x1_S50000x2x64_2_0_n_n_0_2_164 t col) (constant (F := F) S_ .f32 0x00000000#32)
    reducesTo_S50000x2x64_S50000x64_d1 h_S_

def gA3 (t : FVec F S200000x64 .f32) (idx : IVec S50000x3 32) : FVec F S50000x64 .f32 :=
  let zero : IVec S50000x3 32 := broadcastInDim S50000x3 ![] bcast_S_S50000x3 (constantI S_ 32 0#32)
  let neg : IVec S50000x3 1 := cmpi .slt idx zero
  let bound : IVec S50000x3 32 := broadcastInDim S50000x3 ![] bcast_S_S50000x3 (constantI S_ 32 200000#32)
  let wrapped : IVec S50000x3 32 := select neg (addi idx bound) idx
  let col : IVec S50000x3x1 32 := broadcastInDim S50000x3x1 ![0, 1] bcast_S50000x3_S50000x3x1_0_1 wrapped
  Host.reduceAdd (Host.gather gather_S200000x64_S50000x3x1_S50000x3x64_2_0_n_n_0_2_164 t col) (constant (F := F) S_ .f32 0x00000000#32)
    reducesTo_S50000x3x64_S50000x64_d1 h_S_

def gA4 (t : FVec F S200000x64 .f32) (idx : IVec S50000x4 32) : FVec F S50000x64 .f32 :=
  let zero : IVec S50000x4 32 := broadcastInDim S50000x4 ![] bcast_S_S50000x4 (constantI S_ 32 0#32)
  let neg : IVec S50000x4 1 := cmpi .slt idx zero
  let bound : IVec S50000x4 32 := broadcastInDim S50000x4 ![] bcast_S_S50000x4 (constantI S_ 32 200000#32)
  let wrapped : IVec S50000x4 32 := select neg (addi idx bound) idx
  let col : IVec S50000x4x1 32 := broadcastInDim S50000x4x1 ![0, 1] bcast_S50000x4_S50000x4x1_0_1 wrapped
  Host.reduceAdd (Host.gather gather_S200000x64_S50000x4x1_S50000x4x64_2_0_n_n_0_2_164 t col) (constant (F := F) S_ .f32 0x00000000#32)
    reducesTo_S50000x4x64_S50000x64_d1 h_S_

def gH1 (t : FVec F S200000x128 .f32) (idx : IVec S50000x1 32) : FVec F S50000x128 .f32 :=
  let zero : IVec S50000x1 32 := broadcastInDim S50000x1 ![] bcast_S_S50000x1 (constantI S_ 32 0#32)
  let neg : IVec S50000x1 1 := cmpi .slt idx zero
  let bound : IVec S50000x1 32 := broadcastInDim S50000x1 ![] bcast_S_S50000x1 (constantI S_ 32 200000#32)
  let wrapped : IVec S50000x1 32 := select neg (addi idx bound) idx
  let col : IVec S50000x1x1 32 := broadcastInDim S50000x1x1 ![0, 1] bcast_S50000x1_S50000x1x1_0_1 wrapped
  Host.reduceAdd (Host.gather gather_S200000x128_S50000x1x1_S50000x1x128_2_0_n_n_0_2_1128 t col) (constant (F := F) S_ .f32 0x00000000#32)
    reducesTo_S50000x1x128_S50000x128_d1 h_S_

def gH2 (t : FVec F S200000x128 .f32) (idx : IVec S50000x2 32) : FVec F S50000x128 .f32 :=
  let zero : IVec S50000x2 32 := broadcastInDim S50000x2 ![] bcast_S_S50000x2 (constantI S_ 32 0#32)
  let neg : IVec S50000x2 1 := cmpi .slt idx zero
  let bound : IVec S50000x2 32 := broadcastInDim S50000x2 ![] bcast_S_S50000x2 (constantI S_ 32 200000#32)
  let wrapped : IVec S50000x2 32 := select neg (addi idx bound) idx
  let col : IVec S50000x2x1 32 := broadcastInDim S50000x2x1 ![0, 1] bcast_S50000x2_S50000x2x1_0_1 wrapped
  Host.reduceAdd (Host.gather gather_S200000x128_S50000x2x1_S50000x2x128_2_0_n_n_0_2_1128 t col) (constant (F := F) S_ .f32 0x00000000#32)
    reducesTo_S50000x2x128_S50000x128_d1 h_S_

def gH3 (t : FVec F S200000x128 .f32) (idx : IVec S50000x3 32) : FVec F S50000x128 .f32 :=
  let zero : IVec S50000x3 32 := broadcastInDim S50000x3 ![] bcast_S_S50000x3 (constantI S_ 32 0#32)
  let neg : IVec S50000x3 1 := cmpi .slt idx zero
  let bound : IVec S50000x3 32 := broadcastInDim S50000x3 ![] bcast_S_S50000x3 (constantI S_ 32 200000#32)
  let wrapped : IVec S50000x3 32 := select neg (addi idx bound) idx
  let col : IVec S50000x3x1 32 := broadcastInDim S50000x3x1 ![0, 1] bcast_S50000x3_S50000x3x1_0_1 wrapped
  Host.reduceAdd (Host.gather gather_S200000x128_S50000x3x1_S50000x3x128_2_0_n_n_0_2_1128 t col) (constant (F := F) S_ .f32 0x00000000#32)
    reducesTo_S50000x3x128_S50000x128_d1 h_S_

def gH4 (t : FVec F S200000x128 .f32) (idx : IVec S50000x4 32) : FVec F S50000x128 .f32 :=
  let zero : IVec S50000x4 32 := broadcastInDim S50000x4 ![] bcast_S_S50000x4 (constantI S_ 32 0#32)
  let neg : IVec S50000x4 1 := cmpi .slt idx zero
  let bound : IVec S50000x4 32 := broadcastInDim S50000x4 ![] bcast_S_S50000x4 (constantI S_ 32 200000#32)
  let wrapped : IVec S50000x4 32 := select neg (addi idx bound) idx
  let col : IVec S50000x4x1 32 := broadcastInDim S50000x4x1 ![0, 1] bcast_S50000x4_S50000x4x1_0_1 wrapped
  Host.reduceAdd (Host.gather gather_S200000x128_S50000x4x1_S50000x4x128_2_0_n_n_0_2_1128 t col) (constant (F := F) S_ .f32 0x00000000#32)
    reducesTo_S50000x4x128_S50000x128_d1 h_S_

def gB1 (t : FVec F S300000x16 .f32) (idx : IVec S50000x1 32) : FVec F S50000x16 .f32 :=
  let zero : IVec S50000x1 32 := broadcastInDim S50000x1 ![] bcast_S_S50000x1 (constantI S_ 32 0#32)
  let neg : IVec S50000x1 1 := cmpi .slt idx zero
  let bound : IVec S50000x1 32 := broadcastInDim S50000x1 ![] bcast_S_S50000x1 (constantI S_ 32 300000#32)
  let wrapped : IVec S50000x1 32 := select neg (addi idx bound) idx
  let col : IVec S50000x1x1 32 := broadcastInDim S50000x1x1 ![0, 1] bcast_S50000x1_S50000x1x1_0_1 wrapped
  Host.reduceAdd (Host.gather gather_S300000x16_S50000x1x1_S50000x1x16_2_0_n_n_0_2_116 t col) (constant (F := F) S_ .f32 0x00000000#32)
    reducesTo_S50000x1x16_S50000x16_d1 h_S_

def gB2 (t : FVec F S300000x16 .f32) (idx : IVec S50000x2 32) : FVec F S50000x16 .f32 :=
  let zero : IVec S50000x2 32 := broadcastInDim S50000x2 ![] bcast_S_S50000x2 (constantI S_ 32 0#32)
  let neg : IVec S50000x2 1 := cmpi .slt idx zero
  let bound : IVec S50000x2 32 := broadcastInDim S50000x2 ![] bcast_S_S50000x2 (constantI S_ 32 300000#32)
  let wrapped : IVec S50000x2 32 := select neg (addi idx bound) idx
  let col : IVec S50000x2x1 32 := broadcastInDim S50000x2x1 ![0, 1] bcast_S50000x2_S50000x2x1_0_1 wrapped
  Host.reduceAdd (Host.gather gather_S300000x16_S50000x2x1_S50000x2x16_2_0_n_n_0_2_116 t col) (constant (F := F) S_ .f32 0x00000000#32)
    reducesTo_S50000x2x16_S50000x16_d1 h_S_

def gB3 (t : FVec F S300000x16 .f32) (idx : IVec S50000x3 32) : FVec F S50000x16 .f32 :=
  let zero : IVec S50000x3 32 := broadcastInDim S50000x3 ![] bcast_S_S50000x3 (constantI S_ 32 0#32)
  let neg : IVec S50000x3 1 := cmpi .slt idx zero
  let bound : IVec S50000x3 32 := broadcastInDim S50000x3 ![] bcast_S_S50000x3 (constantI S_ 32 300000#32)
  let wrapped : IVec S50000x3 32 := select neg (addi idx bound) idx
  let col : IVec S50000x3x1 32 := broadcastInDim S50000x3x1 ![0, 1] bcast_S50000x3_S50000x3x1_0_1 wrapped
  Host.reduceAdd (Host.gather gather_S300000x16_S50000x3x1_S50000x3x16_2_0_n_n_0_2_116 t col) (constant (F := F) S_ .f32 0x00000000#32)
    reducesTo_S50000x3x16_S50000x16_d1 h_S_

def gB4 (t : FVec F S300000x16 .f32) (idx : IVec S50000x4 32) : FVec F S50000x16 .f32 :=
  let zero : IVec S50000x4 32 := broadcastInDim S50000x4 ![] bcast_S_S50000x4 (constantI S_ 32 0#32)
  let neg : IVec S50000x4 1 := cmpi .slt idx zero
  let bound : IVec S50000x4 32 := broadcastInDim S50000x4 ![] bcast_S_S50000x4 (constantI S_ 32 300000#32)
  let wrapped : IVec S50000x4 32 := select neg (addi idx bound) idx
  let col : IVec S50000x4x1 32 := broadcastInDim S50000x4x1 ![0, 1] bcast_S50000x4_S50000x4x1_0_1 wrapped
  Host.reduceAdd (Host.gather gather_S300000x16_S50000x4x1_S50000x4x16_2_0_n_n_0_2_116 t col) (constant (F := F) S_ .f32 0x00000000#32)
    reducesTo_S50000x4x16_S50000x16_d1 h_S_

def cat80 (a : FVec F S50000x64 .f32) (b : FVec F S50000x16 .f32) : FVec F S50000x80 .f32 :=
  concatenate S50000x80 1 [⟨S50000x64, a⟩, ⟨S50000x16, b⟩] concatenates_S50000x64_S50000x16_S50000x80_d1

def cat144 (a : FVec F S50000x128 .f32) (b : FVec F S50000x16 .f32) : FVec F S50000x144 .f32 :=
  concatenate S50000x144 1 [⟨S50000x128, a⟩, ⟨S50000x16, b⟩] concatenates_S50000x128_S50000x16_S50000x144_d1

def x1 (A : FVec F S200000x64 .f32) (sW : FVec F S64x128 .f32) (cb : FVec F S128 .f32)
    (n1 n2 n3 n4 : FVec F S50000x80 .f32) (d1 d2 d3 d4 : FVec F S80x128 .f32) : FVec F S200000x128 .f32 :=
  let p1 : FVec F S50000x128 .f32 := Host.dotGeneral dot_S50000x80_S80x128_S50000x128_1_0_0_1_n_n none n1 d1
  let p2 : FVec F S50000x128 .f32 := Host.dotGeneral dot_S50000x80_S80x128_S50000x128_1_0_0_1_n_n none n2 d2
  let p3 : FVec F S50000x128 .f32 := Host.dotGeneral dot_S50000x80_S80x128_S50000x128_1_0_0_1_n_n none n3 d3
  let p4 : FVec F S50000x128 .f32 := Host.dotGeneral dot_S50000x80_S80x128_S50000x128_1_0_0_1_n_n none n4 d4
  let nb : FVec F S200000x128 .f32 :=
    concatenate S200000x128 0 [⟨S50000x128, p1⟩, ⟨S50000x128, p2⟩, ⟨S50000x128, p3⟩, ⟨S50000x128, p4⟩]
      concatenates_S50000x128_S50000x128_S50000x128_S50000x128_S200000x128_d0
  let self : FVec F S200000x128 .f32 := Host.dotGeneral dot_S200000x64_S64x128_S200000x128_1_0_0_1_n_n none A sW
  addf (addf self nb)
    (broadcastInDim S200000x128 ![0, 1] bcast_S1x128_S200000x128_0_1 (broadcastInDim S1x128 ![1] bcast_S128_S1x128_1 cb))

def x2 (A : FVec F S200000x128 .f32) (sW : FVec F S128x128 .f32) (cb : FVec F S128 .f32)
    (n1 n2 n3 n4 : FVec F S50000x144 .f32) (d1 d2 d3 d4 : FVec F S144x128 .f32) : FVec F S200000x128 .f32 :=
  let p1 : FVec F S50000x128 .f32 := Host.dotGeneral dot_S50000x144_S144x128_S50000x128_1_0_0_1_n_n none n1 d1
  let p2 : FVec F S50000x128 .f32 := Host.dotGeneral dot_S50000x144_S144x128_S50000x128_1_0_0_1_n_n none n2 d2
  let p3 : FVec F S50000x128 .f32 := Host.dotGeneral dot_S50000x144_S144x128_S50000x128_1_0_0_1_n_n none n3 d3
  let p4 : FVec F S50000x128 .f32 := Host.dotGeneral dot_S50000x144_S144x128_S50000x128_1_0_0_1_n_n none n4 d4
  let nb : FVec F S200000x128 .f32 :=
    concatenate S200000x128 0 [⟨S50000x128, p1⟩, ⟨S50000x128, p2⟩, ⟨S50000x128, p3⟩, ⟨S50000x128, p4⟩]
      concatenates_S50000x128_S50000x128_S50000x128_S50000x128_S200000x128_d0
  let self : FVec F S200000x128 .f32 := Host.dotGeneral dot_S200000x128_S128x128_S200000x128_1_0_0_1_n_n none A sW
  addf (addf self nb)
    (broadcastInDim S200000x128 ![0, 1] bcast_S1x128_S200000x128_0_1 (broadcastInDim S1x128 ![1] bcast_S128_S1x128_1 cb))

def bnMean (x : FVec F S200000x128 .f32) : FVec F S128 .f32 :=
  Host.divf
    (Host.reduceAdd x (constant (F := F) S_ .f32 0x00000000#32) reducesTo_S200000x128_S128_d0 h_S_)
    (broadcastInDim S128 ![] bcast_S_S128 (constant (F := F) S_ .f32 0x48435000#32))

def bnVar (x : FVec F S200000x128 .f32) : FVec F S128 .f32 :=
  let colSum : FVec F S128 .f32 :=
    Host.reduceAdd x (constant (F := F) S_ .f32 0x00000000#32) reducesTo_S200000x128_S128_d0 h_S_
  let mean : FVec F S1x128 .f32 :=
    Host.divf (broadcastInDim S1x128 ![1] bcast_S128_S1x128_1 colSum)
      (broadcastInDim S1x128 ![] bcast_S_S1x128 (constant (F := F) S_ .f32 0x48435000#32))
  let centred : FVec F S200000x128 .f32 :=
    subf x (broadcastInDim S200000x128 ![0, 1] bcast_S1x128_S200000x128_0_1 mean)
  let sq : FVec F S200000x128 .f32 := mulf centred centred
  let ddof : FVec F S_ .f32 := sitofp .f32 (constantI S_ 32 0#32)
  let norm : FVec F S_ .f32 := subf (constant (F := F) S_ .f32 0x48435000#32) ddof
  let sqSum : FVec F S128 .f32 :=
    Host.reduceAdd sq (constant (F := F) S_ .f32 0x00000000#32) reducesTo_S200000x128_S128_d0 h_S_
  let quot : FVec F S128 .f32 := Host.divf sqSum (broadcastInDim S128 ![] bcast_S_S128 norm)
  let pos : IVec S_ 1 := cmpf .ogt norm (constant (F := F) S_ .f32 0x00000000#32)
  let nan : FVec F S128 .f32 :=
    broadcastInDim S128 ![] bcast_S_S128 (id (constant (F := F) S_ .f32 0x7FC00000#32))
  select (broadcastInDim S128 ![] bcast_S_S128 pos) quot nan

def bnrelu (x : FVec F S200000x128 .f32) : FVec F S200000x128 .f32 :=
  let centred : FVec F S200000x128 .f32 :=
    subf x (broadcastInDim S200000x128 ![0, 1] bcast_S1x128_S200000x128_0_1
      (broadcastInDim S1x128 ![1] bcast_S128_S1x128_1 (bnMean x)))
  let invStd : FVec F S128 .f32 :=
    Host.rsqrt (addf (bnVar x) (broadcastInDim S128 ![] bcast_S_S128 (constant (F := F) S_ .f32 0x3727C5AC#32)))
  let y : FVec F S200000x128 .f32 :=
    mulf centred (broadcastInDim S200000x128 ![0, 1] bcast_S1x128_S200000x128_0_1
      (broadcastInDim S1x128 ![1] bcast_S128_S1x128_1 invStd))
  maximumf y (broadcastInDim S200000x128 ![] bcast_S_S200000x128 (constant (F := F) S_ .f32 0x00000000#32))

def res (a0 : FVec F S200000x64 .f32) (a1 : FVec F S300000x16 .f32) (a2 : FVec F S64x128 .f32) (a3 : FVec F S128 .f32) (a4 : FVec F S128x128 .f32) (a5 : FVec F S128 .f32) (a6 : FVec F S128x128 .f32) (a7 : FVec F S128 .f32) (a8 : FVec F S64x128 .f32) (a9 : FVec F S128 .f32) (a10 : FVec F S80x128 .f32) (a11 : FVec F S80x128 .f32) (a12 : FVec F S80x128 .f32) (a13 : FVec F S80x128 .f32) (a14 : FVec F S128x128 .f32) (a15 : FVec F S128 .f32) (a16 : FVec F S144x128 .f32) (a17 : FVec F S144x128 .f32) (a18 : FVec F S144x128 .f32) (a19 : FVec F S144x128 .f32) (a20 : IVec S50000x1 32) (a21 : IVec S50000x2 32) (a22 : IVec S50000x3 32) (a23 : IVec S50000x4 32) (a24 : IVec S50000x1 32) (a25 : IVec S50000x2 32) (a26 : IVec S50000x3 32) (a27 : IVec S50000x4 32) (a28 : IVec S200000 32) : FVec F S8192x128 .f32 :=
  let fp0 : FVec F S8192x128 .f32 := seg (sm64 a0 a2 a3) a28
  let h1 : FVec F S200000x128 .f32 :=
    bnrelu (x1 a0 a8 a9
      (cat80 (gA1 a0 a20) (gB1 a1 a24)) (cat80 (gA2 a0 a21) (gB2 a1 a25))
      (cat80 (gA3 a0 a22) (gB3 a1 a26)) (cat80 (gA4 a0 a23) (gB4 a1 a27))
      a10 a11 a12 a13)
  let fp1 : FVec F S8192x128 .f32 := addf fp0 (seg (sm128 h1 a4 a5) a28)
  let h2 : FVec F S200000x128 .f32 :=
    bnrelu (x2 h1 a14 a15
      (cat144 (gH1 h1 a20) (gB1 a1 a24)) (cat144 (gH2 h1 a21) (gB2 a1 a25))
      (cat144 (gH3 h1 a22) (gB3 a1 a26)) (cat144 (gH4 h1 a23) (gB4 a1 a27))
      a16 a17 a18 a19)
  addf fp1 (seg (sm128 h2 a6 a7) a28)

end Cert.Spec
-- ==== Proof.Math.Real.lean ====
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Fin
import Mathlib.Algebra.Order.BigOperators.Group.Finset
import Mathlib.Logic.Equiv.Fin.Basic
import Mathlib.Analysis.SpecialFunctions.Pow.Real
import Mathlib.Tactic.Ring
import Mathlib.Tactic.FieldSimp
import Mathlib.Tactic.Linarith
import Mathlib.Tactic.NormNum
import Mathlib.Tactic.Positivity
import Idealize.ShloMosaic.PureOps.Ideal
import Idealize.ShloMosaic.PureOps.Ideal.Laws

noncomputable section

namespace Cert.Proof.MathR

open Idealize.ShloMosaic
open scoped BigOperators

def IsReal (x : EReal) : Prop := ∃ r : ℝ, x = (r : EReal)

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

theorem div_coe_coe (a : ℝ) {n : ℝ} (hn : n ≠ 0) :
    Ideal.div (a : EReal) (n : EReal) = ((a / n : ℝ) : EReal) := by
  rw [Ideal.div_coe hn, ← EReal.coe_mul, mul_one_div]

namespace IsReal

theorem coe (r : ℝ) : IsReal (r : EReal) := ⟨r, rfl⟩

theorem zero : IsReal 0 := ⟨0, EReal.coe_zero.symm⟩

theorem one : IsReal 1 := ⟨1, EReal.coe_one.symm⟩

theorem ne_top {x : EReal} (hx : IsReal x) : x ≠ ⊤ := by
  obtain ⟨a, rfl⟩ := hx; exact EReal.coe_ne_top a

theorem ne_bot {x : EReal} (hx : IsReal x) : x ≠ ⊥ := by
  obtain ⟨a, rfl⟩ := hx; exact EReal.coe_ne_bot a

theorem of_ne {x : EReal} (h₁ : x ≠ ⊤) (h₂ : x ≠ ⊥) : IsReal x :=
  ⟨x.toReal, (EReal.coe_toReal h₁ h₂).symm⟩

theorem coe_toReal {x : EReal} (hx : IsReal x) : ((x.toReal : ℝ) : EReal) = x :=
  EReal.coe_toReal hx.ne_top hx.ne_bot

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (max x y) := by
  obtain ⟨a, rfl⟩ := hx; obtain ⟨b, rfl⟩ := hy; exact ⟨_, (coe_max a b).symm⟩

theorem min {x y : EReal} (hx : IsReal x) (hy : IsReal y) : IsReal (min x y) := by
  obtain ⟨a, rfl⟩ := hx; obtain ⟨b, rfl⟩ := hy; exact ⟨_, (coe_min a b).symm⟩

theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

theorem sum_univ {ι : Type*} [Fintype ι] (f : ι → EReal) (h : ∀ i, IsReal (f i)) :
    IsReal (∑ i, f i) :=
  sum Finset.univ f fun i _ => h i

theorem div_coe {x : EReal} (hx : IsReal x) {n : ℝ} (hn : n ≠ 0) : IsReal (Ideal.div x (n : EReal)) := by
  obtain ⟨a, rfl⟩ := hx; exact ⟨_, div_coe_coe a hn⟩

theorem div {x y : EReal} (hx : IsReal x) (hy : IsReal y) (h0 : y ≠ 0) : IsReal (Ideal.div x y) := by
  obtain ⟨b, rfl⟩ := hy
  exact hx.div_coe (by intro hb; exact h0 (by rw [hb, EReal.coe_zero]))

theorem rsqrt_coe {r : ℝ} (hr : 0 < r) : IsReal (Ideal.rsqrt (r : EReal)) := by
  refine ⟨(Real.sqrt r)⁻¹, ?_⟩
  rw [Ideal.rsqrt_coe, if_neg (not_lt.mpr hr.le), if_neg hr.ne']

theorem exp {x : EReal} (hx : IsReal x) : IsReal (Ideal.exp x) := by
  obtain ⟨a, rfl⟩ := hx; exact ⟨Real.exp a, rfl⟩

end IsReal

theorem rsqrt_coe_pos {r : ℝ} (hr : 0 < r) :
    ∃ s : ℝ, 0 < s ∧ Ideal.rsqrt (r : EReal) = (s : EReal) := by
  refine ⟨(Real.sqrt r)⁻¹, inv_pos.mpr (Real.sqrt_pos.mpr hr), ?_⟩
  rw [Ideal.rsqrt_coe, if_neg (not_lt.mpr hr.le), if_neg hr.ne']

theorem real_variance {ι : Type*} [Fintype ι] (r : ι → ℝ) {n : ℝ} (hn : n ≠ 0)
    (hcard : (Fintype.card ι : ℝ) = n) :
    (∑ i, (r i - (∑ j, r j) / n) * (r i - (∑ j, r j) / n)) / n
      = (∑ i, r i * r i) / n - (∑ j, r j) / n * ((∑ j, r j) / n) := by
  set m : ℝ := (∑ j, r j) / n with hm
  have hS : ∑ j, r j = m * n := by rw [hm]; field_simp
  have hexp : ∀ i, (r i - m) * (r i - m) = r i * r i - 2 * m * r i + m * m := fun i => by ring
  have h1 : ∑ i, (r i - m) * (r i - m) = ∑ i, r i * r i - 2 * m * ∑ i, r i + n * (m * m) := by
    simp only [hexp]
    rw [Finset.sum_add_distrib, Finset.sum_sub_distrib, ← Finset.mul_sum, Finset.sum_const,
      Finset.card_univ, nsmul_eq_mul, hcard]
  rw [h1, hS]
  field_simp
  ring

theorem variance_real {ι : Type*} [Fintype ι] (x : ι → EReal) (hx : ∀ i, IsReal (x i)) {n : ℝ}
    (hn : 0 < n) (hcard : (Fintype.card ι : ℝ) = n) :
    ∃ v : ℝ, 0 ≤ v ∧
      Ideal.div (∑ i, (x i - Ideal.div (∑ j, x j) (n : EReal)) * (x i - Ideal.div (∑ j, x j) (n : EReal)))
          (n : EReal) = (v : EReal) ∧
      Ideal.div (∑ i, x i * x i) (n : EReal)
          - Ideal.div (∑ j, x j) (n : EReal) * Ideal.div (∑ j, x j) (n : EReal) = (v : EReal) := by
  have hn0 : n ≠ 0 := hn.ne'
  choose r hr using hx
  obtain rfl : x = fun i => (r i : EReal) := funext hr
  have hμ : Ideal.div ((∑ j, r j : ℝ) : EReal) (n : EReal) = (((∑ j, r j) / n : ℝ) : EReal) :=
    div_coe_coe _ hn0
  refine ⟨(∑ i, (r i - (∑ j, r j) / n) * (r i - (∑ j, r j) / n)) / n, ?_, ?_, ?_⟩
  · exact div_nonneg (Finset.sum_nonneg fun i _ => mul_self_nonneg _) hn.le
  · simp only [← coe_sum, hμ, ← EReal.coe_sub, ← EReal.coe_mul]
    exact div_coe_coe _ hn0
  · simp only [← coe_sum, hμ, ← EReal.coe_mul]
    rw [div_coe_coe _ hn0, ← EReal.coe_sub, real_variance r hn0 hcard]

theorem variance_identity {ι : Type*} [Fintype ι] (x : ι → EReal) (hx : ∀ i, IsReal (x i)) {n : ℝ}
    (hn : 0 < n) (hcard : (Fintype.card ι : ℝ) = n) :
    Ideal.div (∑ i, (x i - Ideal.div (∑ j, x j) (n : EReal)) * (x i - Ideal.div (∑ j, x j) (n : EReal)))
        (n : EReal)
      = Ideal.div (∑ i, x i * x i) (n : EReal)
          - Ideal.div (∑ j, x j) (n : EReal) * Ideal.div (∑ j, x j) (n : EReal) := by
  obtain ⟨v, -, h₁, h₂⟩ := variance_real x hx hn hcard
  rw [h₁, h₂]

theorem variance_dev_isReal {ι : Type*} [Fintype ι] (x : ι → EReal) (hx : ∀ i, IsReal (x i)) {n : ℝ}
    (hn : 0 < n) (hcard : (Fintype.card ι : ℝ) = n) :
    IsReal (Ideal.div (∑ i, (x i - Ideal.div (∑ j, x j) (n : EReal))
      * (x i - Ideal.div (∑ j, x j) (n : EReal))) (n : EReal)) := by
  obtain ⟨v, -, h₁, -⟩ := variance_real x hx hn hcard
  exact ⟨v, h₁⟩

theorem variance_sq_isReal {ι : Type*} [Fintype ι] (x : ι → EReal) (hx : ∀ i, IsReal (x i)) {n : ℝ}
    (hn : 0 < n) (hcard : (Fintype.card ι : ℝ) = n) :
    IsReal (Ideal.div (∑ i, x i * x i) (n : EReal)
      - Ideal.div (∑ j, x j) (n : EReal) * Ideal.div (∑ j, x j) (n : EReal)) := by
  obtain ⟨v, -, -, h₂⟩ := variance_real x hx hn hcard
  exact ⟨v, h₂⟩

theorem rsqrt_add_pos {v e : ℝ} (hv : 0 ≤ v) (he : 0 < e) :
    ∃ s : ℝ, 0 < s ∧ Ideal.rsqrt ((v : EReal) + (e : EReal)) = (s : EReal) := by
  rw [← EReal.coe_add]
  exact rsqrt_coe_pos (by linarith)

theorem block_lt {a b : ℕ} (t : Fin a) (r : Fin b) : b * t.val + r.val < a * b := by
  have h1 : b * t.val + r.val < b * (t.val + 1) := by rw [Nat.mul_succ]; exact Nat.add_lt_add_left r.isLt _
  have h2 : b * (t.val + 1) ≤ b * a := Nat.mul_le_mul_left b t.isLt
  rw [Nat.mul_comm a b]; exact lt_of_lt_of_le h1 h2

theorem sum_blocks {M : Type*} [AddCommMonoid M] (a b : ℕ) (f : Fin (a * b) → M) :
    ∑ i, f i = ∑ t : Fin a, ∑ r : Fin b, f ⟨t.val * b + r.val, by
      rw [Nat.mul_comm t.val b]; exact block_lt t r⟩ := by
  rw [← finProdFinEquiv.sum_comp, Fintype.sum_prod_type]
  refine Finset.sum_congr rfl fun t _ => Finset.sum_congr rfl fun r _ => ?_
  congr 1
  apply Fin.ext
  show r.val + b * t.val = t.val * b + r.val
  rw [Nat.add_comm, Nat.mul_comm]

theorem sum_blocks_of_eq {M : Type*} [AddCommMonoid M] {n : ℕ} (a b : ℕ) (h : n = a * b) (g : Fin n → M) :
    ∑ i, g i = ∑ t : Fin a, ∑ r : Fin b, g ⟨b * t.val + r.val, h ▸ block_lt t r⟩ := by
  subst h
  rw [sum_blocks a b g]
  refine Finset.sum_congr rfl fun t _ => Finset.sum_congr rfl fun r _ => ?_
  congr 1
  apply Fin.ext
  show t.val * b + r.val = b * t.val + r.val
  rw [Nat.mul_comm]

theorem sum_200000 {M : Type*} [AddCommMonoid M] (g : Fin 200000 → M) :
    ∑ i, g i = ∑ t : Fin 100, ∑ r : Fin 2000, g ⟨2000 * t.val + r.val, by omega⟩ :=
  sum_blocks_of_eq 100 2000 (by norm_num) g

theorem acc_eq {M : Type*} [AddCommMonoid M] (z : M) (g acc : ℕ → M) (h0 : acc 0 = z + g 0)
    (hs : ∀ t, acc (t + 1) = acc t + g (t + 1)) (t : ℕ) :
    acc t = z + ∑ k ∈ Finset.range (t + 1), g k := by
  induction t with
  | zero => rw [h0, Finset.sum_range_one]
  | succ t ih => rw [hs, ih, Finset.sum_range_succ _ (t + 1), add_assoc]

theorem acc_eq_of_lt {M : Type*} [AddCommMonoid M] (N : ℕ) (z : M) (g acc : ℕ → M) (h0 : acc 0 = z + g 0)
    (hs : ∀ t, t + 1 < N → acc (t + 1) = acc t + g (t + 1)) (t : ℕ) (ht : t < N) :
    acc t = z + ∑ k ∈ Finset.range (t + 1), g k := by
  induction t with
  | zero => rw [h0, Finset.sum_range_one]
  | succ t ih => rw [hs t ht, ih (Nat.lt_of_succ_lt ht), Finset.sum_range_succ _ (t + 1), add_assoc]

theorem acc_fin_last {M : Type*} [AddCommMonoid M] {N : ℕ} (z : M) (g acc : Fin (N + 1) → M)
    (h0 : acc 0 = z + g 0)
    (hs : ∀ (t : ℕ) (h : t + 1 < N + 1), acc ⟨t + 1, h⟩ = acc ⟨t, Nat.lt_of_succ_lt h⟩ + g ⟨t + 1, h⟩) :
    acc (Fin.last N) = z + ∑ k, g k := by
  let g' : ℕ → M := fun k => if h : k < N + 1 then g ⟨k, h⟩ else 0
  let acc' : ℕ → M := fun k => if h : k < N + 1 then acc ⟨k, h⟩ else 0
  have key := acc_eq_of_lt (N + 1) z g' acc'
    (by simp only [g', acc', Nat.zero_lt_succ, dite_true]; exact h0)
    (fun t ht => by
      have ht' : t < N + 1 := Nat.lt_of_succ_lt ht
      simp only [g', acc', ht, ht', dite_true]; exact hs t ht)
    N (Nat.lt_succ_self N)
  have hsum : ∑ k ∈ Finset.range (N + 1), g' k = ∑ k : Fin (N + 1), g k := by
    rw [← Fin.sum_univ_eq_sum_range g' (N + 1)]
    exact Finset.sum_congr rfl fun k _ => by simp only [g', k.isLt, dite_true]
  rw [hsum] at key
  simp only [acc', Nat.lt_succ_self, dite_true] at key
  exact key

theorem acc_fin100 {M : Type*} [AddCommMonoid M] (z : M) (g acc : Fin 100 → M)
    (h0 : acc ⟨0, by omega⟩ = z + g ⟨0, by omega⟩)
    (hs : ∀ (t : ℕ) (h : t + 1 < 100), acc ⟨t + 1, h⟩ = acc ⟨t, by omega⟩ + g ⟨t + 1, h⟩) :
    acc ⟨99, by omega⟩ = z + ∑ k, g k :=
  acc_fin_last (N := 99) z g acc h0 hs

theorem max_bot_eq (a : EReal) : max (⊥ : EReal) a = a := bot_sup_eq a

theorem bot_sup (a : EReal) : (⊥ : EReal) ⊔ a = a := bot_sup_eq a

theorem ofBits_neg_inf : Ideal.ofBits .f32 0xFF800000#32 = ⊥ := by
  simp [Ideal.ofBits, Ideal.ieee]

theorem ofBits_zero : Ideal.ofBits .f32 0x00000000#32 = 0 := Ideal.ofBits_zero_f32

theorem ofBits_nan : Ideal.ofBits .f32 0x7FC00000#32 = ⊥ := by
  simp [Ideal.ofBits, Ideal.ieee]

theorem ofBits_200000 : Ideal.ofBits .f32 0x48435000#32 = ((200000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(2 ^ 23 + 2606508 : ℕ) * (2 : ℝ) ^ ((110 : ℤ) - 127 - 23), by positivity, ?_⟩
  simp [Ideal.ofBits, Ideal.ieee, -EReal.coe_mul]

theorem ofBits_pos_inf : Ideal.ofBits .f32 0x7F800000#32 = ⊤ := by
  simp [Ideal.ofBits, Ideal.ieee]

theorem count_sub_zero :
    Ideal.ofBits .f32 0x48435000#32 - ((((0#32 : BitVec 32).toInt : ℝ)) : EReal) = ((200000 : ℝ) : EReal) := by
  rw [ofBits_200000, ← EReal.coe_sub]
  norm_num

theorem isReal_iff_abs_lt_top (x : EReal) : IsReal x ↔ max x (-x) < ⊤ := by
  induction x using EReal.rec with
  | bot => simp [IsReal]
  | coe r =>
    refine ⟨fun _ => ?_, fun _ => IsReal.coe r⟩
    rw [← EReal.coe_neg, ← coe_max]
    exact EReal.coe_lt_top _
  | top => simp [IsReal]

theorem isReal_of_cmp_abs {x : EReal}
    (h : Ideal.cmp .olt (max x (-x)) (Ideal.ofBits .f32 0x7F800000#32) = 1#1) : IsReal x := by
  rw [ofBits_pos_inf] at h
  rw [isReal_iff_abs_lt_top]
  by_contra hlt
  simp [Ideal.cmp, hlt] at h

theorem variance_real_200000 {ι : Type*} [Fintype ι] (hι : Fintype.card ι = 200000) (x : ι → EReal)
    (hx : ∀ i, IsReal (x i)) :
    ∃ v : ℝ, 0 ≤ v ∧
      Ideal.div (∑ i, (x i - Ideal.div (∑ j, x j) ((200000 : ℝ) : EReal))
          * (x i - Ideal.div (∑ j, x j) ((200000 : ℝ) : EReal))) ((200000 : ℝ) : EReal) = (v : EReal) ∧
      Ideal.div (∑ i, x i * x i) ((200000 : ℝ) : EReal)
          - Ideal.div (∑ j, x j) ((200000 : ℝ) : EReal) * Ideal.div (∑ j, x j) ((200000 : ℝ) : EReal)
        = (v : EReal) :=
  variance_real x hx (by norm_num) (by rw [hι]; norm_num)

end Cert.Proof.MathR

end
-- ==== Proof.KI.ValTake.lean ====
import proofs.«410641_j56710748176715_1_alg».proof.KernelIdeal
import proofs.«410641_j56710748176715_1_alg».proof.Proof.Ref.Stages
import proofs.«410641_j56710748176715_1_alg».proof.Proof.Math.Real
import Idealize.ShloMosaic.Lib.StableHlo.Predicate

noncomputable section

namespace Cert.KernelIdeal.HandV

open Idealize.ShloMosaic
open Cert.Proof.MathR

section General
variable {α : Type}

theorem bcast_mem {s t : Shape} {dims : Fin s.rank → Fin t.rank} (h : s.BroadcastsInDim t dims) (x : s.Idx → α)
    (P : α → Prop) (hx : ∀ i, P (x i)) (j : t.Idx) : P (broadcastInDim t dims h x j) := hx _

theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a]
    have h1 : IntOp.andi (1#1) (1#1) = 1#1 := by decide
    rw [h1]; exact ih

theorem reduce_andi_ones {s t u : Shape} {axes : List (Fin s.rank)} (x : IVec s 1) (h : s.ReducesTo axes t)
    (hu : 0 < u.numel) (hx : ∀ i, x i = 1#1) (j : t.Idx) :
    Host.reduce IntOp.andi x (constantI u 1 1#1) h hu j = 1#1 := by
  unfold Host.reduce
  exact foldl_andi_one _ (fun n => x (s.rowMajor.symm n)) (fun n => hx _)

theorem mask_select_eq {I3 I2 R3 S0 S1 S111 : Shape} {ax : List (Fin I3.rank)}
    {d0 : Fin S0.rank → Fin I3.rank} {d1 : Fin S1.rank → Fin S111.rank} {d2 : Fin S111.rank → Fin I3.rank}
    {d3 : Fin I2.rank → Fin R3.rank}
    (hb0 : S0.BroadcastsInDim I3 d0) (hb1 : S1.BroadcastsInDim S111 d1) (hb2 : S111.BroadcastsInDim I3 d2)
    (hr : I3.ReducesTo ax I2) (h0 : 0 < S0.numel) (hb3 : I2.BroadcastsInDim R3 d3)
    (col : IVec I3 32) (hi : BitVec 32) (hhi : hi.toNat < 2 ^ 31) (hcol : ∀ j, (col j).toNat ≤ hi.toNat)
    (g nan : R3.Idx → α) :
    select (broadcastInDim R3 d3 hb3
        (Host.reduce IntOp.andi
          (andi (cmpi .sge col (broadcastInDim I3 d0 hb0 (constantI S0 32 0#32)))
                (cmpi .sle col (broadcastInDim I3 d2 hb2 (broadcastInDim S111 d1 hb1 (constantI S1 32 hi)))))
          (constantI S0 1 1#1) hr h0)) g nan = g := by
  funext j
  have hall : ∀ i, andi (cmpi .sge col (broadcastInDim I3 d0 hb0 (constantI S0 32 0#32)))
                (cmpi .sle col (broadcastInDim I3 d2 hb2 (broadcastInDim S111 d1 hb1 (constantI S1 32 hi)))) i = 1#1 := by
    intro i
    have hci := hcol i
    have h1 : IntOp.cmpi .sge (col i) 0#32 = 1#1 :=
      (StableHlo.Predicate.sge_iff_toNat (by omega) (by decide)).mpr (by simp)
    have h2 : IntOp.cmpi .sle (col i) hi = 1#1 :=
      (StableHlo.Predicate.sle_iff_toNat (by omega) hhi).mpr hci
    show IntOp.andi (IntOp.cmpi .sge (col i) 0#32) (IntOp.cmpi .sle (col i) hi) = 1#1
    rw [h1, h2]; decide
  show Scalar.select (Host.reduce IntOp.andi _ (constantI S0 1 1#1) hr h0 _) (g j) (nan j) = g j
  rw [reduce_andi_ones _ hr h0 hall]
  rfl

theorem mask_select_bcast_eq {I3 I2 R3 S0 S1 S111 J : Shape} {ax : List (Fin I3.rank)}
    {d0 : Fin S0.rank → Fin I3.rank} {d1 : Fin S1.rank → Fin S111.rank} {d2 : Fin S111.rank → Fin I3.rank}
    {d3 : Fin I2.rank → Fin R3.rank} {dc : Fin J.rank → Fin I3.rank}
    (hb0 : S0.BroadcastsInDim I3 d0) (hb1 : S1.BroadcastsInDim S111 d1) (hb2 : S111.BroadcastsInDim I3 d2)
    (hr : I3.ReducesTo ax I2) (h0 : 0 < S0.numel) (hb3 : I2.BroadcastsInDim R3 d3) (hbc : J.BroadcastsInDim I3 dc)
    (w : IVec J 32) (hi : BitVec 32) (hhi : hi.toNat < 2 ^ 31) (hw : ∀ i, (w i).toNat ≤ hi.toNat)
    (g nan : R3.Idx → α) :
    select (broadcastInDim R3 d3 hb3
        (Host.reduce IntOp.andi
          (andi (cmpi .sge (broadcastInDim I3 dc hbc w) (broadcastInDim I3 d0 hb0 (constantI S0 32 0#32)))
                (cmpi .sle (broadcastInDim I3 dc hbc w)
                  (broadcastInDim I3 d2 hb2 (broadcastInDim S111 d1 hb1 (constantI S1 32 hi)))))
          (constantI S0 1 1#1) hr h0)) g nan = g :=
  mask_select_eq hb0 hb1 hb2 hr h0 hb3 _ hi hhi (bcast_mem hbc w (fun v => v.toNat ≤ hi.toNat) hw) g nan

theorem wrap_eq {s S0 : Shape} {d0 : Fin S0.rank → Fin s.rank} (hb : S0.BroadcastsInDim s d0) (idx : IVec s 32)
    (N : BitVec 32) (hidx : ∀ i, (idx i).toNat < 2 ^ 31) :
    select (cmpi .slt idx (broadcastInDim s d0 hb (constantI S0 32 0#32)))
      (addi idx (broadcastInDim s d0 hb (constantI S0 32 N))) idx = idx := by
  funext i
  have h : ¬ IntOp.cmpi .slt (idx i) 0#32 = 1#1 := fun h => by
    have := (StableHlo.Predicate.slt_iff_toNat (hidx i) (by decide)).mp h
    simp at this
  show Scalar.select (IntOp.cmpi .slt (idx i) 0#32) _ (idx i) = idx i
  exact if_neg h

theorem gather_mem {s si t : Shape} {w : Nat} (d : GatherDims s si t) (x : s.Idx → α) (idx : IVec si w)
    (P : α → Prop) (hx : ∀ i, P (x i)) (j : t.Idx) : P (Host.gather d x idx j) := hx _

theorem hostReduceAdd_isReal {s t u : Shape} {axes : List (Fin s.rank)} (x : FVec Ideal s .f32)
    (init : u.Idx → Ideal .f32) (h : s.ReducesTo axes t) (hu : 0 < u.numel)
    (hx : ∀ i, IsReal (x i)) (hinit : ∀ i, IsReal (init i)) (j : t.Idx) :
    IsReal (Host.reduceAdd (F := Ideal) x init h hu j) := by
  show IsReal (Ideal.hostReduceAdd h x (init (Shape.Idx.first hu)) j)
  unfold Ideal.hostReduceAdd
  exact (hinit _).add (IsReal.sum _ _ fun i _ => hx i)

theorem const_zero_isReal {u : Shape} (i : u.Idx) : IsReal (constant (F := Ideal) u .f32 0x00000000#32 i) := by
  show IsReal (Ideal.ofBits .f32 0x00000000#32)
  rw [Ideal.ofBits_zero_f32]; exact IsReal.zero

end General

section Takes
variable {F : FTy → Type} [FloatOps F] [Cert.KernelIdeal.Facts₀]
open Cert.KernelIdeal Cert.KernelIdeal.Facts₀

def takeSelB1 (t : FVec F S300000x16 .f32) (idx : IVec S50000x1 32) : FVec F S50000x1x16 .f32 :=
  let zero : IVec S50000x1 32 := broadcastInDim S50000x1 ![] bcast_S_S50000x1 (constantI S_ 32 0#32)
  let neg : IVec S50000x1 1 := cmpi .slt idx zero
  let bound : IVec S50000x1 32 := broadcastInDim S50000x1 ![] bcast_S_S50000x1 (constantI S_ 32 300000#32)
  let wrapped : IVec S50000x1 32 := select neg (addi idx bound) idx
  let col : IVec S50000x1x1 32 := broadcastInDim S50000x1x1 ![0, 1] bcast_S50000x1_S50000x1x1_0_1 wrapped
  let ge : IVec S50000x1x1 1 := cmpi .sge col (broadcastInDim S50000x1x1 ![] bcast_S_S50000x1x1 (constantI S_ 32 0#32))
  let le : IVec S50000x1x1 1 := cmpi .sle col (broadcastInDim S50000x1x1 ![0, 1, 2] bcast_S1x1x1_S50000x1x1_0_1_2
    (broadcastInDim S1x1x1 ![2] bcast_S1_S1x1x1_2 (constantI S1 32 299999#32)))
  let ok : IVec S50000x1 1 := Host.reduce IntOp.andi (andi ge le) (constantI S_ 1 1#1) reducesTo_S50000x1x1_S50000x1_d2 h_S_
  select (broadcastInDim S50000x1x16 ![0, 1] bcast_S50000x1_S50000x1x16_0_1 ok)
    (Host.gather gather_S300000x16_S50000x1x1_S50000x1x16_2_0_n_n_0_2_116 t col)
    (broadcastInDim S50000x1x16 ![] bcast_S_S50000x1x16 (constant (F := F) S_ .f32 0x7FC00000#32))

def takeB1 (t : FVec F S300000x16 .f32) (idx : IVec S50000x1 32) : FVec F S50000x16 .f32 :=
  Host.reduceAdd (takeSelB1 t idx) (constant (F := F) S_ .f32 0x00000000#32) reducesTo_S50000x1x16_S50000x16_d1 h_S_

theorem takeB1_eq [Cert.ReferenceIdeal.Facts₀] (t : FVec F S300000x16 .f32) (idx : IVec S50000x1 32)
    (hidx : ∀ i, (idx i).toNat < 300000) : takeB1 t idx = Cert.Spec.gB1 t idx := by
  have hw := wrap_eq bcast_S_S50000x1 idx 300000#32 (fun i => by have := hidx i; omega)
  have hsel : takeSelB1 t idx = Host.gather gather_S300000x16_S50000x1x1_S50000x1x16_2_0_n_n_0_2_116 t _ :=
    mask_select_bcast_eq _ _ _ _ _ _ _ _ 299999#32 (by decide)
      (fun i => by rw [hw]; have := hidx i; show (idx i).toNat ≤ 299999; omega) _ _
  show Host.reduceAdd (takeSelB1 t idx) _ _ _ = _
  rw [hsel]; rfl

theorem gB1_isReal [Cert.ReferenceIdeal.Facts₀] (t : FVec Ideal S300000x16 .f32) (ht : ∀ k, IsReal (t k))
    (idx : IVec S50000x1 32) (j : S50000x16.Idx) : IsReal (Cert.Spec.gB1 (F := Ideal) t idx j) :=
  hostReduceAdd_isReal _ _ _ _ (gather_mem _ t _ IsReal ht) const_zero_isReal j

def takeSelB2 (t : FVec F S300000x16 .f32) (idx : IVec S50000x2 32) : FVec F S50000x2x16 .f32 :=
  let zero : IVec S50000x2 32 := broadcastInDim S50000x2 ![] bcast_S_S50000x2 (constantI S_ 32 0#32)
  let neg : IVec S50000x2 1 := cmpi .slt idx zero
  let bound : IVec S50000x2 32 := broadcastInDim S50000x2 ![] bcast_S_S50000x2 (constantI S_ 32 300000#32)
  let wrapped : IVec S50000x2 32 := select neg (addi idx bound) idx
  let col : IVec S50000x2x1 32 := broadcastInDim S50000x2x1 ![0, 1] bcast_S50000x2_S50000x2x1_0_1 wrapped
  let ge : IVec S50000x2x1 1 := cmpi .sge col (broadcastInDim S50000x2x1 ![] bcast_S_S50000x2x1 (constantI S_ 32 0#32))
  let le : IVec S50000x2x1 1 := cmpi .sle col (broadcastInDim S50000x2x1 ![0, 1, 2] bcast_S1x1x1_S50000x2x1_0_1_2
    (broadcastInDim S1x1x1 ![2] bcast_S1_S1x1x1_2 (constantI S1 32 299999#32)))
  let ok : IVec S50000x2 1 := Host.reduce IntOp.andi (andi ge le) (constantI S_ 1 1#1) reducesTo_S50000x2x1_S50000x2_d2 h_S_
  select (broadcastInDim S50000x2x16 ![0, 1] bcast_S50000x2_S50000x2x16_0_1 ok)
    (Host.gather gather_S300000x16_S50000x2x1_S50000x2x16_2_0_n_n_0_2_116 t col)
    (broadcastInDim S50000x2x16 ![] bcast_S_S50000x2x16 (constant (F := F) S_ .f32 0x7FC00000#32))

def takeB2 (t : FVec F S300000x16 .f32) (idx : IVec S50000x2 32) : FVec F S50000x16 .f32 :=
  Host.reduceAdd (takeSelB2 t idx) (constant (F := F) S_ .f32 0x00000000#32) reducesTo_S50000x2x16_S50000x16_d1 h_S_

theorem takeB2_eq [Cert.ReferenceIdeal.Facts₀] (t : FVec F S300000x16 .f32) (idx : IVec S50000x2 32)
    (hidx : ∀ i, (idx i).toNat < 300000) : takeB2 t idx = Cert.Spec.gB2 t idx := by
  have hw := wrap_eq bcast_S_S50000x2 idx 300000#32 (fun i => by have := hidx i; omega)
  have hsel : takeSelB2 t idx = Host.gather gather_S300000x16_S50000x2x1_S50000x2x16_2_0_n_n_0_2_116 t _ :=
    mask_select_bcast_eq _ _ _ _ _ _ _ _ 299999#32 (by decide)
      (fun i => by rw [hw]; have := hidx i; show (idx i).toNat ≤ 299999; omega) _ _
  show Host.reduceAdd (takeSelB2 t idx) _ _ _ = _
  rw [hsel]; rfl

theorem gB2_isReal [Cert.ReferenceIdeal.Facts₀] (t : FVec Ideal S300000x16 .f32) (ht : ∀ k, IsReal (t k))
    (idx : IVec S50000x2 32) (j : S50000x16.Idx) : IsReal (Cert.Spec.gB2 (F := Ideal) t idx j) :=
  hostReduceAdd_isReal _ _ _ _ (gather_mem _ t _ IsReal ht) const_zero_isReal j

def takeSelB3 (t : FVec F S300000x16 .f32) (idx : IVec S50000x3 32) : FVec F S50000x3x16 .f32 :=
  let zero : IVec S50000x3 32 := broadcastInDim S50000x3 ![] bcast_S_S50000x3 (constantI S_ 32 0#32)
  let neg : IVec S50000x3 1 := cmpi .slt idx zero
  let bound : IVec S50000x3 32 := broadcastInDim S50000x3 ![] bcast_S_S50000x3 (constantI S_ 32 300000#32)
  let wrapped : IVec S50000x3 32 := select neg (addi idx bound) idx
  let col : IVec S50000x3x1 32 := broadcastInDim S50000x3x1 ![0, 1] bcast_S50000x3_S50000x3x1_0_1 wrapped
  let ge : IVec S50000x3x1 1 := cmpi .sge col (broadcastInDim S50000x3x1 ![] bcast_S_S50000x3x1 (constantI S_ 32 0#32))
  let le : IVec S50000x3x1 1 := cmpi .sle col (broadcastInDim S50000x3x1 ![0, 1, 2] bcast_S1x1x1_S50000x3x1_0_1_2
    (broadcastInDim S1x1x1 ![2] bcast_S1_S1x1x1_2 (constantI S1 32 299999#32)))
  let ok : IVec S50000x3 1 := Host.reduce IntOp.andi (andi ge le) (constantI S_ 1 1#1) reducesTo_S50000x3x1_S50000x3_d2 h_S_
  select (broadcastInDim S50000x3x16 ![0, 1] bcast_S50000x3_S50000x3x16_0_1 ok)
    (Host.gather gather_S300000x16_S50000x3x1_S50000x3x16_2_0_n_n_0_2_116 t col)
    (broadcastInDim S50000x3x16 ![] bcast_S_S50000x3x16 (constant (F := F) S_ .f32 0x7FC00000#32))

def takeB3 (t : FVec F S300000x16 .f32) (idx : IVec S50000x3 32) : FVec F S50000x16 .f32 :=
  Host.reduceAdd (takeSelB3 t idx) (constant (F := F) S_ .f32 0x00000000#32) reducesTo_S50000x3x16_S50000x16_d1 h_S_

theorem takeB3_eq [Cert.ReferenceIdeal.Facts₀] (t : FVec F S300000x16 .f32) (idx : IVec S50000x3 32)
    (hidx : ∀ i, (idx i).toNat < 300000) : takeB3 t idx = Cert.Spec.gB3 t idx := by
  have hw := wrap_eq bcast_S_S50000x3 idx 300000#32 (fun i => by have := hidx i; omega)
  have hsel : takeSelB3 t idx = Host.gather gather_S300000x16_S50000x3x1_S50000x3x16_2_0_n_n_0_2_116 t _ :=
    mask_select_bcast_eq _ _ _ _ _ _ _ _ 299999#32 (by decide)
      (fun i => by rw [hw]; have := hidx i; show (idx i).toNat ≤ 299999; omega) _ _
  show Host.reduceAdd (takeSelB3 t idx) _ _ _ = _
  rw [hsel]; rfl

theorem gB3_isReal [Cert.ReferenceIdeal.Facts₀] (t : FVec Ideal S300000x16 .f32) (ht : ∀ k, IsReal (t k))
    (idx : IVec S50000x3 32) (j : S50000x16.Idx) : IsReal (Cert.Spec.gB3 (F := Ideal) t idx j) :=
  hostReduceAdd_isReal _ _ _ _ (gather_mem _ t _ IsReal ht) const_zero_isReal j

def takeSelB4 (t : FVec F S300000x16 .f32) (idx : IVec S50000x4 32) : FVec F S50000x4x16 .f32 :=
  let zero : IVec S50000x4 32 := broadcastInDim S50000x4 ![] bcast_S_S50000x4 (constantI S_ 32 0#32)
  let neg : IVec S50000x4 1 := cmpi .slt idx zero
  let bound : IVec S50000x4 32 := broadcastInDim S50000x4 ![] bcast_S_S50000x4 (constantI S_ 32 300000#32)
  let wrapped : IVec S50000x4 32 := select neg (addi idx bound) idx
  let col : IVec S50000x4x1 32 := broadcastInDim S50000x4x1 ![0, 1] bcast_S50000x4_S50000x4x1_0_1 wrapped
  let ge : IVec S50000x4x1 1 := cmpi .sge col (broadcastInDim S50000x4x1 ![] bcast_S_S50000x4x1 (constantI S_ 32 0#32))
  let le : IVec S50000x4x1 1 := cmpi .sle col (broadcastInDim S50000x4x1 ![0, 1, 2] bcast_S1x1x1_S50000x4x1_0_1_2
    (broadcastInDim S1x1x1 ![2] bcast_S1_S1x1x1_2 (constantI S1 32 299999#32)))
  let ok : IVec S50000x4 1 := Host.reduce IntOp.andi (andi ge le) (constantI S_ 1 1#1) reducesTo_S50000x4x1_S50000x4_d2 h_S_
  select (broadcastInDim S50000x4x16 ![0, 1] bcast_S50000x4_S50000x4x16_0_1 ok)
    (Host.gather gather_S300000x16_S50000x4x1_S50000x4x16_2_0_n_n_0_2_116 t col)
    (broadcastInDim S50000x4x16 ![] bcast_S_S50000x4x16 (constant (F := F) S_ .f32 0x7FC00000#32))

def takeB4 (t : FVec F S300000x16 .f32) (idx : IVec S50000x4 32) : FVec F S50000x16 .f32 :=
  Host.reduceAdd (takeSelB4 t idx) (constant (F := F) S_ .f32 0x00000000#32) reducesTo_S50000x4x16_S50000x16_d1 h_S_

theorem takeB4_eq [Cert.ReferenceIdeal.Facts₀] (t : FVec F S300000x16 .f32) (idx : IVec S50000x4 32)
    (hidx : ∀ i, (idx i).toNat < 300000) : takeB4 t idx = Cert.Spec.gB4 t idx := by
  have hw := wrap_eq bcast_S_S50000x4 idx 300000#32 (fun i => by have := hidx i; omega)
  have hsel : takeSelB4 t idx = Host.gather gather_S300000x16_S50000x4x1_S50000x4x16_2_0_n_n_0_2_116 t _ :=
    mask_select_bcast_eq _ _ _ _ _ _ _ _ 299999#32 (by decide)
      (fun i => by rw [hw]; have := hidx i; show (idx i).toNat ≤ 299999; omega) _ _
  show Host.reduceAdd (takeSelB4 t idx) _ _ _ = _
  rw [hsel]; rfl

theorem gB4_isReal [Cert.ReferenceIdeal.Facts₀] (t : FVec Ideal S300000x16 .f32) (ht : ∀ k, IsReal (t k))
    (idx : IVec S50000x4 32) (j : S50000x16.Idx) : IsReal (Cert.Spec.gB4 (F := Ideal) t idx j) :=
  hostReduceAdd_isReal _ _ _ _ (gather_mem _ t _ IsReal ht) const_zero_isReal j

def takeSelA1 (t : FVec F S200000x64 .f32) (idx : IVec S50000x1 32) : FVec F S50000x1x64 .f32 :=
  let zero : IVec S50000x1 32 := broadcastInDim S50000x1 ![] bcast_S_S50000x1 (constantI S_ 32 0#32)
  let neg : IVec S50000x1 1 := cmpi .slt idx zero
  let bound : IVec S50000x1 32 := broadcastInDim S50000x1 ![] bcast_S_S50000x1 (constantI S_ 32 200000#32)
  let wrapped : IVec S50000x1 32 := select neg (addi idx bound) idx
  let col : IVec S50000x1x1 32 := broadcastInDim S50000x1x1 ![0, 1] bcast_S50000x1_S50000x1x1_0_1 wrapped
  let ge : IVec S50000x1x1 1 := cmpi .sge col (broadcastInDim S50000x1x1 ![] bcast_S_S50000x1x1 (constantI S_ 32 0#32))
  let le : IVec S50000x1x1 1 := cmpi .sle col (broadcastInDim S50000x1x1 ![0, 1, 2] bcast_S1x1x1_S50000x1x1_0_1_2
    (broadcastInDim S1x1x1 ![2] bcast_S1_S1x1x1_2 (constantI S1 32 199999#32)))
  let ok : IVec S50000x1 1 := Host.reduce IntOp.andi (andi ge le) (constantI S_ 1 1#1) reducesTo_S50000x1x1_S50000x1_d2 h_S_
  select (broadcastInDim S50000x1x64 ![0, 1] bcast_S50000x1_S50000x1x64_0_1 ok)
    (Host.gather gather_S200000x64_S50000x1x1_S50000x1x64_2_0_n_n_0_2_164 t col)
    (broadcastInDim S50000x1x64 ![] bcast_S_S50000x1x64 (constant (F := F) S_ .f32 0x7FC00000#32))

def takeA1 (t : FVec F S200000x64 .f32) (idx : IVec S50000x1 32) : FVec F S50000x64 .f32 :=
  Host.reduceAdd (takeSelA1 t idx) (constant (F := F) S_ .f32 0x00000000#32) reducesTo_S50000x1x64_S50000x64_d1 h_S_

theorem takeA1_eq [Cert.ReferenceIdeal.Facts₀] (t : FVec F S200000x64 .f32) (idx : IVec S50000x1 32)
    (hidx : ∀ i, (idx i).toNat < 200000) : takeA1 t idx = Cert.Spec.gA1 t idx := by
  have hw := wrap_eq bcast_S_S50000x1 idx 200000#32 (fun i => by have := hidx i; omega)
  have hsel : takeSelA1 t idx = Host.gather gather_S200000x64_S50000x1x1_S50000x1x64_2_0_n_n_0_2_164 t _ :=
    mask_select_bcast_eq _ _ _ _ _ _ _ _ 199999#32 (by decide)
      (fun i => by rw [hw]; have := hidx i; show (idx i).toNat ≤ 199999; omega) _ _
  show Host.reduceAdd (takeSelA1 t idx) _ _ _ = _
  rw [hsel]; rfl

theorem gA1_isReal [Cert.ReferenceIdeal.Facts₀] (t : FVec Ideal S200000x64 .f32) (ht : ∀ k, IsReal (t k))
    (idx : IVec S50000x1 32) (j : S50000x64.Idx) : IsReal (Cert.Spec.gA1 (F := Ideal) t idx j) :=
  hostReduceAdd_isReal _ _ _ _ (gather_mem _ t _ IsReal ht) const_zero_isReal j

def takeSelA2 (t : FVec F S200000x64 .f32) (idx : IVec S50000x2 32) : FVec F S50000x2x64 .f32 :=
  let zero : IVec S50000x2 32 := broadcastInDim S50000x2 ![] bcast_S_S50000x2 (constantI S_ 32 0#32)
  let neg : IVec S50000x2 1 := cmpi .slt idx zero
  let bound : IVec S50000x2 32 := broadcastInDim S50000x2 ![] bcast_S_S50000x2 (constantI S_ 32 200000#32)
  let wrapped : IVec S50000x2 32 := select neg (addi idx bound) idx
  let col : IVec S50000x2x1 32 := broadcastInDim S50000x2x1 ![0, 1] bcast_S50000x2_S50000x2x1_0_1 wrapped
  let ge : IVec S50000x2x1 1 := cmpi .sge col (broadcastInDim S50000x2x1 ![] bcast_S_S50000x2x1 (constantI S_ 32 0#32))
  let le : IVec S50000x2x1 1 := cmpi .sle col (broadcastInDim S50000x2x1 ![0, 1, 2] bcast_S1x1x1_S50000x2x1_0_1_2
    (broadcastInDim S1x1x1 ![2] bcast_S1_S1x1x1_2 (constantI S1 32 199999#32)))
  let ok : IVec S50000x2 1 := Host.reduce IntOp.andi (andi ge le) (constantI S_ 1 1#1) reducesTo_S50000x2x1_S50000x2_d2 h_S_
  select (broadcastInDim S50000x2x64 ![0, 1] bcast_S50000x2_S50000x2x64_0_1 ok)
    (Host.gather gather_S200000x64_S50000x2x1_S50000x2x64_2_0_n_n_0_2_164 t col)
    (broadcastInDim S50000x2x64 ![] bcast_S_S50000x2x64 (constant (F := F) S_ .f32 0x7FC00000#32))

def takeA2 (t : FVec F S200000x64 .f32) (idx : IVec S50000x2 32) : FVec F S50000x64 .f32 :=
  Host.reduceAdd (takeSelA2 t idx) (constant (F := F) S_ .f32 0x00000000#32) reducesTo_S50000x2x64_S50000x64_d1 h_S_

theorem takeA2_eq [Cert.ReferenceIdeal.Facts₀] (t : FVec F S200000x64 .f32) (idx : IVec S50000x2 32)
    (hidx : ∀ i, (idx i).toNat < 200000) : takeA2 t idx = Cert.Spec.gA2 t idx := by
  have hw := wrap_eq bcast_S_S50000x2 idx 200000#32 (fun i => by have := hidx i; omega)
  have hsel : takeSelA2 t idx = Host.gather gather_S200000x64_S50000x2x1_S50000x2x64_2_0_n_n_0_2_164 t _ :=
    mask_select_bcast_eq _ _ _ _ _ _ _ _ 199999#32 (by decide)
      (fun i => by rw [hw]; have := hidx i; show (idx i).toNat ≤ 199999; omega) _ _
  show Host.reduceAdd (takeSelA2 t idx) _ _ _ = _
  rw [hsel]; rfl

theorem gA2_isReal [Cert.ReferenceIdeal.Facts₀] (t : FVec Ideal S200000x64 .f32) (ht : ∀ k, IsReal (t k))
    (idx : IVec S50000x2 32) (j : S50000x64.Idx) : IsReal (Cert.Spec.gA2 (F := Ideal) t idx j) :=
  hostReduceAdd_isReal _ _ _ _ (gather_mem _ t _ IsReal ht) const_zero_isReal j

def takeSelA3 (t : FVec F S200000x64 .f32) (idx : IVec S50000x3 32) : FVec F S50000x3x64 .f32 :=
  let zero : IVec S50000x3 32 := broadcastInDim S50000x3 ![] bcast_S_S50000x3 (constantI S_ 32 0#32)
  let neg : IVec S50000x3 1 := cmpi .slt idx zero
  let bound : IVec S50000x3 32 := broadcastInDim S50000x3 ![] bcast_S_S50000x3 (constantI S_ 32 200000#32)
  let wrapped : IVec S50000x3 32 := select neg (addi idx bound) idx
  let col : IVec S50000x3x1 32 := broadcastInDim S50000x3x1 ![0, 1] bcast_S50000x3_S50000x3x1_0_1 wrapped
  let ge : IVec S50000x3x1 1 := cmpi .sge col (broadcastInDim S50000x3x1 ![] bcast_S_S50000x3x1 (constantI S_ 32 0#32))
  let le : IVec S50000x3x1 1 := cmpi .sle col (broadcastInDim S50000x3x1 ![0, 1, 2] bcast_S1x1x1_S50000x3x1_0_1_2
    (broadcastInDim S1x1x1 ![2] bcast_S1_S1x1x1_2 (constantI S1 32 199999#32)))
  let ok : IVec S50000x3 1 := Host.reduce IntOp.andi (andi ge le) (constantI S_ 1 1#1) reducesTo_S50000x3x1_S50000x3_d2 h_S_
  select (broadcastInDim S50000x3x64 ![0, 1] bcast_S50000x3_S50000x3x64_0_1 ok)
    (Host.gather gather_S200000x64_S50000x3x1_S50000x3x64_2_0_n_n_0_2_164 t col)
    (broadcastInDim S50000x3x64 ![] bcast_S_S50000x3x64 (constant (F := F) S_ .f32 0x7FC00000#32))

def takeA3 (t : FVec F S200000x64 .f32) (idx : IVec S50000x3 32) : FVec F S50000x64 .f32 :=
  Host.reduceAdd (takeSelA3 t idx) (constant (F := F) S_ .f32 0x00000000#32) reducesTo_S50000x3x64_S50000x64_d1 h_S_

theorem takeA3_eq [Cert.ReferenceIdeal.Facts₀] (t : FVec F S200000x64 .f32) (idx : IVec S50000x3 32)
    (hidx : ∀ i, (idx i).toNat < 200000) : takeA3 t idx = Cert.Spec.gA3 t idx := by
  have hw := wrap_eq bcast_S_S50000x3 idx 200000#32 (fun i => by have := hidx i; omega)
  have hsel : takeSelA3 t idx = Host.gather gather_S200000x64_S50000x3x1_S50000x3x64_2_0_n_n_0_2_164 t _ :=
    mask_select_bcast_eq _ _ _ _ _ _ _ _ 199999#32 (by decide)
      (fun i => by rw [hw]; have := hidx i; show (idx i).toNat ≤ 199999; omega) _ _
  show Host.reduceAdd (takeSelA3 t idx) _ _ _ = _
  rw [hsel]; rfl

theorem gA3_isReal [Cert.ReferenceIdeal.Facts₀] (t : FVec Ideal S200000x64 .f32) (ht : ∀ k, IsReal (t k))
    (idx : IVec S50000x3 32) (j : S50000x64.Idx) : IsReal (Cert.Spec.gA3 (F := Ideal) t idx j) :=
  hostReduceAdd_isReal _ _ _ _ (gather_mem _ t _ IsReal ht) const_zero_isReal j

def takeSelA4 (t : FVec F S200000x64 .f32) (idx : IVec S50000x4 32) : FVec F S50000x4x64 .f32 :=
  let zero : IVec S50000x4 32 := broadcastInDim S50000x4 ![] bcast_S_S50000x4 (constantI S_ 32 0#32)
  let neg : IVec S50000x4 1 := cmpi .slt idx zero
  let bound : IVec S50000x4 32 := broadcastInDim S50000x4 ![] bcast_S_S50000x4 (constantI S_ 32 200000#32)
  let wrapped : IVec S50000x4 32 := select neg (addi idx bound) idx
  let col : IVec S50000x4x1 32 := broadcastInDim S50000x4x1 ![0, 1] bcast_S50000x4_S50000x4x1_0_1 wrapped
  let ge : IVec S50000x4x1 1 := cmpi .sge col (broadcastInDim S50000x4x1 ![] bcast_S_S50000x4x1 (constantI S_ 32 0#32))
  let le : IVec S50000x4x1 1 := cmpi .sle col (broadcastInDim S50000x4x1 ![0, 1, 2] bcast_S1x1x1_S50000x4x1_0_1_2
    (broadcastInDim S1x1x1 ![2] bcast_S1_S1x1x1_2 (constantI S1 32 199999#32)))
  let ok : IVec S50000x4 1 := Host.reduce IntOp.andi (andi ge le) (constantI S_ 1 1#1) reducesTo_S50000x4x1_S50000x4_d2 h_S_
  select (broadcastInDim S50000x4x64 ![0, 1] bcast_S50000x4_S50000x4x64_0_1 ok)
    (Host.gather gather_S200000x64_S50000x4x1_S50000x4x64_2_0_n_n_0_2_164 t col)
    (broadcastInDim S50000x4x64 ![] bcast_S_S50000x4x64 (constant (F := F) S_ .f32 0x7FC00000#32))

def takeA4 (t : FVec F S200000x64 .f32) (idx : IVec S50000x4 32) : FVec F S50000x64 .f32 :=
  Host.reduceAdd (takeSelA4 t idx) (constant (F := F) S_ .f32 0x00000000#32) reducesTo_S50000x4x64_S50000x64_d1 h_S_

theorem takeA4_eq [Cert.ReferenceIdeal.Facts₀] (t : FVec F S200000x64 .f32) (idx : IVec S50000x4 32)
    (hidx : ∀ i, (idx i).toNat < 200000) : takeA4 t idx = Cert.Spec.gA4 t idx := by
  have hw := wrap_eq bcast_S_S50000x4 idx 200000#32 (fun i => by have := hidx i; omega)
  have hsel : takeSelA4 t idx = Host.gather gather_S200000x64_S50000x4x1_S50000x4x64_2_0_n_n_0_2_164 t _ :=
    mask_select_bcast_eq _ _ _ _ _ _ _ _ 199999#32 (by decide)
      (fun i => by rw [hw]; have := hidx i; show (idx i).toNat ≤ 199999; omega) _ _
  show Host.reduceAdd (takeSelA4 t idx) _ _ _ = _
  rw [hsel]; rfl

theorem gA4_isReal [Cert.ReferenceIdeal.Facts₀] (t : FVec Ideal S200000x64 .f32) (ht : ∀ k, IsReal (t k))
    (idx : IVec S50000x4 32) (j : S50000x64.Idx) : IsReal (Cert.Spec.gA4 (F := Ideal) t idx j) :=
  hostReduceAdd_isReal _ _ _ _ (gather_mem _ t _ IsReal ht) const_zero_isReal j

def takeSelH1 (t : FVec F S200000x128 .f32) (idx : IVec S50000x1 32) : FVec F S50000x1x128 .f32 :=
  let zero : IVec S50000x1 32 := broadcastInDim S50000x1 ![] bcast_S_S50000x1 (constantI S_ 32 0#32)
  let neg : IVec S50000x1 1 := cmpi .slt idx zero
  let bound : IVec S50000x1 32 := broadcastInDim S50000x1 ![] bcast_S_S50000x1 (constantI S_ 32 200000#32)
  let wrapped : IVec S50000x1 32 := select neg (addi idx bound) idx
  let col : IVec S50000x1x1 32 := broadcastInDim S50000x1x1 ![0, 1] bcast_S50000x1_S50000x1x1_0_1 wrapped
  let ge : IVec S50000x1x1 1 := cmpi .sge col (broadcastInDim S50000x1x1 ![] bcast_S_S50000x1x1 (constantI S_ 32 0#32))
  let le : IVec S50000x1x1 1 := cmpi .sle col (broadcastInDim S50000x1x1 ![0, 1, 2] bcast_S1x1x1_S50000x1x1_0_1_2
    (broadcastInDim S1x1x1 ![2] bcast_S1_S1x1x1_2 (constantI S1 32 199999#32)))
  let ok : IVec S50000x1 1 := Host.reduce IntOp.andi (andi ge le) (constantI S_ 1 1#1) reducesTo_S50000x1x1_S50000x1_d2 h_S_
  select (broadcastInDim S50000x1x128 ![0, 1] bcast_S50000x1_S50000x1x128_0_1 ok)
    (Host.gather gather_S200000x128_S50000x1x1_S50000x1x128_2_0_n_n_0_2_1128 t col)
    (broadcastInDim S50000x1x128 ![] bcast_S_S50000x1x128 (constant (F := F) S_ .f32 0x7FC00000#32))

def takeH1 (t : FVec F S200000x128 .f32) (idx : IVec S50000x1 32) : FVec F S50000x128 .f32 :=
  Host.reduceAdd (takeSelH1 t idx) (constant (F := F) S_ .f32 0x00000000#32) reducesTo_S50000x1x128_S50000x128_d1 h_S_

theorem takeH1_eq [Cert.ReferenceIdeal.Facts₀] (t : FVec F S200000x128 .f32) (idx : IVec S50000x1 32)
    (hidx : ∀ i, (idx i).toNat < 200000) : takeH1 t idx = Cert.Spec.gH1 t idx := by
  have hw := wrap_eq bcast_S_S50000x1 idx 200000#32 (fun i => by have := hidx i; omega)
  have hsel : takeSelH1 t idx = Host.gather gather_S200000x128_S50000x1x1_S50000x1x128_2_0_n_n_0_2_1128 t _ :=
    mask_select_bcast_eq _ _ _ _ _ _ _ _ 199999#32 (by decide)
      (fun i => by rw [hw]; have := hidx i; show (idx i).toNat ≤ 199999; omega) _ _
  show Host.reduceAdd (takeSelH1 t idx) _ _ _ = _
  rw [hsel]; rfl

theorem gH1_isReal [Cert.ReferenceIdeal.Facts₀] (t : FVec Ideal S200000x128 .f32) (ht : ∀ k, IsReal (t k))
    (idx : IVec S50000x1 32) (j : S50000x128.Idx) : IsReal (Cert.Spec.gH1 (F := Ideal) t idx j) :=
  hostReduceAdd_isReal _ _ _ _ (gather_mem _ t _ IsReal ht) const_zero_isReal j

def takeSelH2 (t : FVec F S200000x128 .f32) (idx : IVec S50000x2 32) : FVec F S50000x2x128 .f32 :=
  let zero : IVec S50000x2 32 := broadcastInDim S50000x2 ![] bcast_S_S50000x2 (constantI S_ 32 0#32)
  let neg : IVec S50000x2 1 := cmpi .slt idx zero
  let bound : IVec S50000x2 32 := broadcastInDim S50000x2 ![] bcast_S_S50000x2 (constantI S_ 32 200000#32)
  let wrapped : IVec S50000x2 32 := select neg (addi idx bound) idx
  let col : IVec S50000x2x1 32 := broadcastInDim S50000x2x1 ![0, 1] bcast_S50000x2_S50000x2x1_0_1 wrapped
  let ge : IVec S50000x2x1 1 := cmpi .sge col (broadcastInDim S50000x2x1 ![] bcast_S_S50000x2x1 (constantI S_ 32 0#32))
  let le : IVec S50000x2x1 1 := cmpi .sle col (broadcastInDim S50000x2x1 ![0, 1, 2] bcast_S1x1x1_S50000x2x1_0_1_2
    (broadcastInDim S1x1x1 ![2] bcast_S1_S1x1x1_2 (constantI S1 32 199999#32)))
  let ok : IVec S50000x2 1 := Host.reduce IntOp.andi (andi ge le) (constantI S_ 1 1#1) reducesTo_S50000x2x1_S50000x2_d2 h_S_
  select (broadcastInDim S50000x2x128 ![0, 1] bcast_S50000x2_S50000x2x128_0_1 ok)
    (Host.gather gather_S200000x128_S50000x2x1_S50000x2x128_2_0_n_n_0_2_1128 t col)
    (broadcastInDim S50000x2x128 ![] bcast_S_S50000x2x128 (constant (F := F) S_ .f32 0x7FC00000#32))

def takeH2 (t : FVec F S200000x128 .f32) (idx : IVec S50000x2 32) : FVec F S50000x128 .f32 :=
  Host.reduceAdd (takeSelH2 t idx) (constant (F := F) S_ .f32 0x00000000#32) reducesTo_S50000x2x128_S50000x128_d1 h_S_

theorem takeH2_eq [Cert.ReferenceIdeal.Facts₀] (t : FVec F S200000x128 .f32) (idx : IVec S50000x2 32)
    (hidx : ∀ i, (idx i).toNat < 200000) : takeH2 t idx = Cert.Spec.gH2 t idx := by
  have hw := wrap_eq bcast_S_S50000x2 idx 200000#32 (fun i => by have := hidx i; omega)
  have hsel : takeSelH2 t idx = Host.gather gather_S200000x128_S50000x2x1_S50000x2x128_2_0_n_n_0_2_1128 t _ :=
    mask_select_bcast_eq _ _ _ _ _ _ _ _ 199999#32 (by decide)
      (fun i => by rw [hw]; have := hidx i; show (idx i).toNat ≤ 199999; omega) _ _
  show Host.reduceAdd (takeSelH2 t idx) _ _ _ = _
  rw [hsel]; rfl

theorem gH2_isReal [Cert.ReferenceIdeal.Facts₀] (t : FVec Ideal S200000x128 .f32) (ht : ∀ k, IsReal (t k))
    (idx : IVec S50000x2 32) (j : S50000x128.Idx) : IsReal (Cert.Spec.gH2 (F := Ideal) t idx j) :=
  hostReduceAdd_isReal _ _ _ _ (gather_mem _ t _ IsReal ht) const_zero_isReal j

def takeSelH3 (t : FVec F S200000x128 .f32) (idx : IVec S50000x3 32) : FVec F S50000x3x128 .f32 :=
  let zero : IVec S50000x3 32 := broadcastInDim S50000x3 ![] bcast_S_S50000x3 (constantI S_ 32 0#32)
  let neg : IVec S50000x3 1 := cmpi .slt idx zero
  let bound : IVec S50000x3 32 := broadcastInDim S50000x3 ![] bcast_S_S50000x3 (constantI S_ 32 200000#32)
  let wrapped : IVec S50000x3 32 := select neg (addi idx bound) idx
  let col : IVec S50000x3x1 32 := broadcastInDim S50000x3x1 ![0, 1] bcast_S50000x3_S50000x3x1_0_1 wrapped
  let ge : IVec S50000x3x1 1 := cmpi .sge col (broadcastInDim S50000x3x1 ![] bcast_S_S50000x3x1 (constantI S_ 32 0#32))
  let le : IVec S50000x3x1 1 := cmpi .sle col (broadcastInDim S50000x3x1 ![0, 1, 2] bcast_S1x1x1_S50000x3x1_0_1_2
    (broadcastInDim S1x1x1 ![2] bcast_S1_S1x1x1_2 (constantI S1 32 199999#32)))
  let ok : IVec S50000x3 1 := Host.reduce IntOp.andi (andi ge le) (constantI S_ 1 1#1) reducesTo_S50000x3x1_S50000x3_d2 h_S_
  select (broadcastInDim S50000x3x128 ![0, 1] bcast_S50000x3_S50000x3x128_0_1 ok)
    (Host.gather gather_S200000x128_S50000x3x1_S50000x3x128_2_0_n_n_0_2_1128 t col)
    (broadcastInDim S50000x3x128 ![] bcast_S_S50000x3x128 (constant (F := F) S_ .f32 0x7FC00000#32))

def takeH3 (t : FVec F S200000x128 .f32) (idx : IVec S50000x3 32) : FVec F S50000x128 .f32 :=
  Host.reduceAdd (takeSelH3 t idx) (constant (F := F) S_ .f32 0x00000000#32) reducesTo_S50000x3x128_S50000x128_d1 h_S_

theorem takeH3_eq [Cert.ReferenceIdeal.Facts₀] (t : FVec F S200000x128 .f32) (idx : IVec S50000x3 32)
    (hidx : ∀ i, (idx i).toNat < 200000) : takeH3 t idx = Cert.Spec.gH3 t idx := by
  have hw := wrap_eq bcast_S_S50000x3 idx 200000#32 (fun i => by have := hidx i; omega)
  have hsel : takeSelH3 t idx = Host.gather gather_S200000x128_S50000x3x1_S50000x3x128_2_0_n_n_0_2_1128 t _ :=
    mask_select_bcast_eq _ _ _ _ _ _ _ _ 199999#32 (by decide)
      (fun i => by rw [hw]; have := hidx i; show (idx i).toNat ≤ 199999; omega) _ _
  show Host.reduceAdd (takeSelH3 t idx) _ _ _ = _
  rw [hsel]; rfl

theorem gH3_isReal [Cert.ReferenceIdeal.Facts₀] (t : FVec Ideal S200000x128 .f32) (ht : ∀ k, IsReal (t k))
    (idx : IVec S50000x3 32) (j : S50000x128.Idx) : IsReal (Cert.Spec.gH3 (F := Ideal) t idx j) :=
  hostReduceAdd_isReal _ _ _ _ (gather_mem _ t _ IsReal ht) const_zero_isReal j

def takeSelH4 (t : FVec F S200000x128 .f32) (idx : IVec S50000x4 32) : FVec F S50000x4x128 .f32 :=
  let zero : IVec S50000x4 32 := broadcastInDim S50000x4 ![] bcast_S_S50000x4 (constantI S_ 32 0#32)
  let neg : IVec S50000x4 1 := cmpi .slt idx zero
  let bound : IVec S50000x4 32 := broadcastInDim S50000x4 ![] bcast_S_S50000x4 (constantI S_ 32 200000#32)
  let wrapped : IVec S50000x4 32 := select neg (addi idx bound) idx
  let col : IVec S50000x4x1 32 := broadcastInDim S50000x4x1 ![0, 1] bcast_S50000x4_S50000x4x1_0_1 wrapped
  let ge : IVec S50000x4x1 1 := cmpi .sge col (broadcastInDim S50000x4x1 ![] bcast_S_S50000x4x1 (constantI S_ 32 0#32))
  let le : IVec S50000x4x1 1 := cmpi .sle col (broadcastInDim S50000x4x1 ![0, 1, 2] bcast_S1x1x1_S50000x4x1_0_1_2
    (broadcastInDim S1x1x1 ![2] bcast_S1_S1x1x1_2 (constantI S1 32 199999#32)))
  let ok : IVec S50000x4 1 := Host.reduce IntOp.andi (andi ge le) (constantI S_ 1 1#1) reducesTo_S50000x4x1_S50000x4_d2 h_S_
  select (broadcastInDim S50000x4x128 ![0, 1] bcast_S50000x4_S50000x4x128_0_1 ok)
    (Host.gather gather_S200000x128_S50000x4x1_S50000x4x128_2_0_n_n_0_2_1128 t col)
    (broadcastInDim S50000x4x128 ![] bcast_S_S50000x4x128 (constant (F := F) S_ .f32 0x7FC00000#32))

def takeH4 (t : FVec F S200000x128 .f32) (idx : IVec S50000x4 32) : FVec F S50000x128 .f32 :=
  Host.reduceAdd (takeSelH4 t idx) (constant (F := F) S_ .f32 0x00000000#32) reducesTo_S50000x4x128_S50000x128_d1 h_S_

theorem takeH4_eq [Cert.ReferenceIdeal.Facts₀] (t : FVec F S200000x128 .f32) (idx : IVec S50000x4 32)
    (hidx : ∀ i, (idx i).toNat < 200000) : takeH4 t idx = Cert.Spec.gH4 t idx := by
  have hw := wrap_eq bcast_S_S50000x4 idx 200000#32 (fun i => by have := hidx i; omega)
  have hsel : takeSelH4 t idx = Host.gather gather_S200000x128_S50000x4x1_S50000x4x128_2_0_n_n_0_2_1128 t _ :=
    mask_select_bcast_eq _ _ _ _ _ _ _ _ 199999#32 (by decide)
      (fun i => by rw [hw]; have := hidx i; show (idx i).toNat ≤ 199999; omega) _ _
  show Host.reduceAdd (takeSelH4 t idx) _ _ _ = _
  rw [hsel]; rfl

theorem gH4_isReal [Cert.ReferenceIdeal.Facts₀] (t : FVec Ideal S200000x128 .f32) (ht : ∀ k, IsReal (t k))
    (idx : IVec S50000x4 32) (j : S50000x128.Idx) : IsReal (Cert.Spec.gH4 (F := Ideal) t idx j) :=
  hostReduceAdd_isReal _ _ _ _ (gather_mem _ t _ IsReal ht) const_zero_isReal j

end Takes

end Cert.KernelIdeal.HandV

end
-- ==== Proof.LibTypedRef.lean ====
import Idealize.ShloMosaic.Lib.StableHlo

namespace Idealize.ShloMosaic.StableHlo.TRef

variable {sig : RefSig} {Val : EltTy → Type} {T : BufTy}

-- contents moved to the buffer's declared type and back along the same proof are unchanged
theorem ofBuf_toBuf (x : TRef sig T) (v : T.Contents Val) : x.ofBuf (x.toBuf v) = v := by
  obtain ⟨r, h, _, _⟩ := x
  subst h
  rfl

end Idealize.ShloMosaic.StableHlo.TRef
-- ==== Proof.KI.Host1.lean ====
import proofs.«410641_j56710748176715_1_alg».proof.Proof.Gen.KernelIdeal.Launch
import proofs.«410641_j56710748176715_1_alg».proof.Proof.KI.ValTake
import proofs.«410641_j56710748176715_1_alg».proof.Proof.LibTypedRef
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HandV

open Cert.KernelIdeal Cert.KernelIdeal.Gen
open Idealize.ShloMosaic Idealize.ShloMosaic.TcCoe Idealize.ShloMosaic.StableHlo
open Idealize.ShloMosaic.ValueIdx

variable {F : FTy → Type} [FloatOps F]

set_option maxHeartbeats 1000000

section Concat
variable {α : Type}

theorem concat4_rows_apply {n m N : ℕ} (x0 x1 x2 x3 : (⟨2, ![n, m]⟩ : Shape).Idx → α)
    (h : Shape.Concatenates [(⟨2, ![n, m]⟩ : Shape), ⟨2, ![n, m]⟩, ⟨2, ![n, m]⟩, ⟨2, ![n, m]⟩] ⟨2, ![N, m]⟩ 0)
    (d : Fin 4) (r : Fin n) (k : Fin m) (hr : n * d.val + r.val < N) :
    concatenate (⟨2, ![N, m]⟩ : Shape) 0 [⟨⟨2, ![n, m]⟩, x0⟩, ⟨⟨2, ![n, m]⟩, x1⟩, ⟨⟨2, ![n, m]⟩, x2⟩, ⟨⟨2, ![n, m]⟩, x3⟩] h
        (ix2 ⟨n * d.val + r.val, hr⟩ k)
      = (![x0, x1, x2, x3] d) (ix2 r k) := by
  have hoff : ∀ b : Fin (⟨2, ![n, m]⟩ : Shape).rank, b.cast (rfl : (⟨2, ![n, m]⟩ : Shape).rank = (⟨2, ![N, m]⟩ : Shape).rank) ≠ (0 : Fin (⟨2, ![N, m]⟩ : Shape).rank) →
      ((ix2 r k : (⟨2, ![n, m]⟩ : Shape).Idx) b).val = ((ix2 ⟨n * d.val + r.val, hr⟩ k : (⟨2, ![N, m]⟩ : Shape).Idx) (b.cast rfl)).val := by
    intro b hb
    match b with
    | ⟨0, _⟩ => exact absurd (Fin.ext rfl) hb
    | ⟨1, _⟩ => rfl
  match d with
  | ⟨0, _⟩ =>
    exact concatenate_apply_piece (0 : Fin (⟨2, ![N, m]⟩ : Shape).rank) [⟨⟨2, ![n, m]⟩, x0⟩, ⟨⟨2, ![n, m]⟩, x1⟩, ⟨⟨2, ![n, m]⟩, x2⟩, ⟨⟨2, ![n, m]⟩, x3⟩] h _ 0 (by simp) ⟨2, ![n, m]⟩ x0 rfl rfl 0 rfl (ix2 r k) hoff
      (by show 0 + r.val = n * 0 + r.val; omega)
  | ⟨1, _⟩ =>
    exact concatenate_apply_piece (0 : Fin (⟨2, ![N, m]⟩ : Shape).rank) [⟨⟨2, ![n, m]⟩, x0⟩, ⟨⟨2, ![n, m]⟩, x1⟩, ⟨⟨2, ![n, m]⟩, x2⟩, ⟨⟨2, ![n, m]⟩, x3⟩] h _ 1 (by simp) ⟨2, ![n, m]⟩ x1 rfl rfl n
      (by show n + 0 = n; omega) (ix2 r k) hoff
      (by show n + r.val = n * 1 + r.val; omega)
  | ⟨2, _⟩ =>
    exact concatenate_apply_piece (0 : Fin (⟨2, ![N, m]⟩ : Shape).rank) [⟨⟨2, ![n, m]⟩, x0⟩, ⟨⟨2, ![n, m]⟩, x1⟩, ⟨⟨2, ![n, m]⟩, x2⟩, ⟨⟨2, ![n, m]⟩, x3⟩] h _ 2 (by simp) ⟨2, ![n, m]⟩ x2 rfl rfl (2 * n)
      (by show n + (n + 0) = 2 * n; omega) (ix2 r k) hoff
      (by show 2 * n + r.val = n * 2 + r.val; omega)
  | ⟨3, _⟩ =>
    exact concatenate_apply_piece (0 : Fin (⟨2, ![N, m]⟩ : Shape).rank) [⟨⟨2, ![n, m]⟩, x0⟩, ⟨⟨2, ![n, m]⟩, x1⟩, ⟨⟨2, ![n, m]⟩, x2⟩, ⟨⟨2, ![n, m]⟩, x3⟩] h _ 3 (by simp) ⟨2, ![n, m]⟩ x3 rfl rfl (3 * n)
      (by show n + (n + (n + 0)) = 3 * n; omega) (ix2 r k) hoff
      (by show 3 * n + r.val = n * 3 + r.val; omega)

theorem stack4_apply {a b : ℕ} (y0 y1 y2 y3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (d : Fin 4) (k : Fin a) (j : Fin b) :
    concatenate (⟨3, ![4, a, b]⟩ : Shape) 0 [⟨⟨3, ![1, a, b]⟩, y0⟩, ⟨⟨3, ![1, a, b]⟩, y1⟩, ⟨⟨3, ![1, a, b]⟩, y2⟩, ⟨⟨3, ![1, a, b]⟩, y3⟩] h (ix3 d k j)
      = (![y0, y1, y2, y3] d) (ix3 (0 : Fin 1) k j) := by
  have hoff : ∀ c : Fin (⟨3, ![1, a, b]⟩ : Shape).rank, c.cast (rfl : (⟨3, ![1, a, b]⟩ : Shape).rank = (⟨3, ![4, a, b]⟩ : Shape).rank) ≠ (0 : Fin (⟨3, ![4, a, b]⟩ : Shape).rank) →
      ((ix3 (0 : Fin 1) k j : (⟨3, ![1, a, b]⟩ : Shape).Idx) c).val = ((ix3 d k j : (⟨3, ![4, a, b]⟩ : Shape).Idx) (c.cast rfl)).val := by
    intro c hc
    match c with
    | ⟨0, _⟩ => exact absurd (Fin.ext rfl) hc
    | ⟨1, _⟩ => rfl
    | ⟨2, _⟩ => rfl
  match d with
  | ⟨0, _⟩ =>
    exact concatenate_apply_piece (0 : Fin (⟨3, ![4, a, b]⟩ : Shape).rank) [⟨⟨3, ![1, a, b]⟩, y0⟩, ⟨⟨3, ![1, a, b]⟩, y1⟩, ⟨⟨3, ![1, a, b]⟩, y2⟩, ⟨⟨3, ![1, a, b]⟩, y3⟩] h _ 0 (by simp) ⟨3, ![1, a, b]⟩ y0 rfl rfl 0 rfl (ix3 (0 : Fin 1) k j) hoff rfl
  | ⟨1, _⟩ =>
    exact concatenate_apply_piece (0 : Fin (⟨3, ![4, a, b]⟩ : Shape).rank) [⟨⟨3, ![1, a, b]⟩, y0⟩, ⟨⟨3, ![1, a, b]⟩, y1⟩, ⟨⟨3, ![1, a, b]⟩, y2⟩, ⟨⟨3, ![1, a, b]⟩, y3⟩] h _ 1 (by simp) ⟨3, ![1, a, b]⟩ y1 rfl rfl 1 rfl (ix3 (0 : Fin 1) k j) hoff rfl
  | ⟨2, _⟩ =>
    exact concatenate_apply_piece (0 : Fin (⟨3, ![4, a, b]⟩ : Shape).rank) [⟨⟨3, ![1, a, b]⟩, y0⟩, ⟨⟨3, ![1, a, b]⟩, y1⟩, ⟨⟨3, ![1, a, b]⟩, y2⟩, ⟨⟨3, ![1, a, b]⟩, y3⟩] h _ 2 (by simp) ⟨3, ![1, a, b]⟩ y2 rfl rfl 2 rfl (ix3 (0 : Fin 1) k j) hoff rfl
  | ⟨3, _⟩ =>
    exact concatenate_apply_piece (0 : Fin (⟨3, ![4, a, b]⟩ : Shape).rank) [⟨⟨3, ![1, a, b]⟩, y0⟩, ⟨⟨3, ![1, a, b]⟩, y1⟩, ⟨⟨3, ![1, a, b]⟩, y2⟩, ⟨⟨3, ![1, a, b]⟩, y3⟩] h _ 3 (by simp) ⟨3, ![1, a, b]⟩ y3 rfl rfl 3 rfl (ix3 (0 : Fin 1) k j) hoff rfl

theorem bcast_ab_1ab_apply {a b : ℕ} (ha : a ≠ 1) (hb : b ≠ 1) (x : (⟨2, ![a, b]⟩ : Shape).Idx → α)
    (h : (⟨2, ![a, b]⟩ : Shape).BroadcastsInDim ⟨3, ![1, a, b]⟩ ![1, 2]) (u : Fin 1) (k : Fin a) (j : Fin b) :
    broadcastInDim (⟨3, ![1, a, b]⟩ : Shape) ![1, 2] h x (ix3 u k j) = x (ix2 k j) :=
  broadcastInDim_apply _ _ x _ _ (fun c => by
    match c with
    | ⟨0, _⟩ => exact (if_neg ha).symm
    | ⟨1, _⟩ => exact (if_neg hb).symm)

end Concat

theorem after_hostOps0_main_v0 (W : Valuation τ sig (Elt F)) :
    StableHlo.after (hostOps0 (F := F)) W (Proc.devRef .tc main_v0)
      = (fun i => shapeCast S1x128 (W (Proc.devRef .tc main_arg3) : FVec F S128 .f32) shapeCasts_S128_S1x128 i : FVec F S1x128 .f32) := by
  after_results
  try rfl

theorem after_hostOps0_main_v0_apply (W : Valuation τ sig (Elt F)) (j : Fin 128) :
    (StableHlo.after (hostOps0 (F := F)) W (Proc.devRef .tc main_v0) : FVec F S1x128 .f32) (ix2 (0 : Fin 1) j)
      = (W (Proc.devRef .tc main_arg3) : FVec F S128 .f32) (ix1 j) := by
  rw [after_hostOps0_main_v0]
  exact shapeCast_a_1a_apply _ _ 0 j

theorem after_hostOps1_main_v4 (W : Valuation τ sig (Elt F)) :
    StableHlo.after (hostOps1 (F := F)) W (Proc.devRef .tc main_v4)
      = (Host.scatterAdd scatter_S8192x128_S200000x1_S200000x128_1_0_0_1
          (broadcastInDim S8192x128 ![] bcast_S_S8192x128 (constant (F := F) S_ .f32 0x00000000#32))
          (broadcastInDim S200000x1 ![0] bcast_S200000_S200000x1_0 (W (Proc.devRef .tc main_arg28) : IVec S200000 32))
          (W (Proc.devRef .tc main_v1) : FVec F S200000x128 .f32) : FVec F S8192x128 .f32) := by
  after_results
  try rfl

theorem after_hostOps1_2_main_v6 (W : Valuation τ sig (Elt F)) :
    StableHlo.after (hostOps1_2 (F := F)) W (Proc.devRef .tc main_v6)
      = (Host.reduceAdd (W (Proc.devRef .tc main_v5) : FVec F S50000x1x16 .f32) (constant (F := F) S_ .f32 0x00000000#32)
          reducesTo_S50000x1x16_S50000x16_d1 h_S_ : FVec F S50000x16 .f32) := by
  after_results
  try rfl

theorem after_hostOps1_4_main_v8 (W : Valuation τ sig (Elt F)) :
    StableHlo.after (hostOps1_4 (F := F)) W (Proc.devRef .tc main_v8)
      = (Host.reduceAdd (W (Proc.devRef .tc main_v7) : FVec F S50000x2x16 .f32) (constant (F := F) S_ .f32 0x00000000#32)
          reducesTo_S50000x2x16_S50000x16_d1 h_S_ : FVec F S50000x16 .f32) := by
  after_results
  try rfl

theorem after_hostOps1_6_main_v10 (W : Valuation τ sig (Elt F)) :
    StableHlo.after (hostOps1_6 (F := F)) W (Proc.devRef .tc main_v10)
      = (Host.reduceAdd (W (Proc.devRef .tc main_v9) : FVec F S50000x3x16 .f32) (constant (F := F) S_ .f32 0x00000000#32)
          reducesTo_S50000x3x16_S50000x16_d1 h_S_ : FVec F S50000x16 .f32) := by
  after_results
  try rfl

theorem after_hostOps1_8_main_v12 (W : Valuation τ sig (Elt F)) :
    StableHlo.after (hostOps1_8 (F := F)) W (Proc.devRef .tc main_v12)
      = (Host.reduceAdd (W (Proc.devRef .tc main_v11) : FVec F S50000x4x16 .f32) (constant (F := F) S_ .f32 0x00000000#32)
          reducesTo_S50000x4x16_S50000x16_d1 h_S_ : FVec F S50000x16 .f32) := by
  after_results
  try rfl

theorem after_hostOps1_10_main_v14 (W : Valuation τ sig (Elt F)) :
    StableHlo.after (hostOps1_10 (F := F)) W (Proc.devRef .tc main_v14)
      = (Host.reduceAdd (W (Proc.devRef .tc main_v13) : FVec F S50000x1x64 .f32) (constant (F := F) S_ .f32 0x00000000#32)
          reducesTo_S50000x1x64_S50000x64_d1 h_S_ : FVec F S50000x64 .f32) := by
  after_results
  try rfl

theorem after_hostOps1_12_main_v16 (W : Valuation τ sig (Elt F)) :
    StableHlo.after (hostOps1_12 (F := F)) W (Proc.devRef .tc main_v16)
      = (Host.reduceAdd (W (Proc.devRef .tc main_v15) : FVec F S50000x2x64 .f32) (constant (F := F) S_ .f32 0x00000000#32)
          reducesTo_S50000x2x64_S50000x64_d1 h_S_ : FVec F S50000x64 .f32) := by
  after_results
  try rfl

theorem after_hostOps1_14_main_v18 (W : Valuation τ sig (Elt F)) :
    StableHlo.after (hostOps1_14 (F := F)) W (Proc.devRef .tc main_v18)
      = (Host.reduceAdd (W (Proc.devRef .tc main_v17) : FVec F S50000x3x64 .f32) (constant (F := F) S_ .f32 0x00000000#32)
          reducesTo_S50000x3x64_S50000x64_d1 h_S_ : FVec F S50000x64 .f32) := by
  after_results
  try rfl

theorem after_hostOps1_1_main_v5 (W : Valuation τ sig (Elt F)) :
    StableHlo.after (hostOps1_1 (F := F)) W (Proc.devRef .tc main_v5)
      = takeSelB1 (W (Proc.devRef .tc main_arg1)) (W (Proc.devRef .tc main_arg24)) := by
  after_results_simp
  simp only [TRef.ofBuf, TRef.toBuf, cast_eq]
  rfl

theorem after_hostOps1_3_main_v7 (W : Valuation τ sig (Elt F)) :
    StableHlo.after (hostOps1_3 (F := F)) W (Proc.devRef .tc main_v7)
      = takeSelB2 (W (Proc.devRef .tc main_arg1)) (W (Proc.devRef .tc main_arg25)) := by
  after_results_simp
  simp only [TRef.ofBuf, TRef.toBuf, cast_eq]
  rfl

theorem after_hostOps1_5_main_v9 (W : Valuation τ sig (Elt F)) :
    StableHlo.after (hostOps1_5 (F := F)) W (Proc.devRef .tc main_v9)
      = takeSelB3 (W (Proc.devRef .tc main_arg1)) (W (Proc.devRef .tc main_arg26)) := by
  after_results_simp
  simp only [TRef.ofBuf, TRef.toBuf, cast_eq]
  rfl

theorem after_hostOps1_7_main_v11 (W : Valuation τ sig (Elt F)) :
    StableHlo.after (hostOps1_7 (F := F)) W (Proc.devRef .tc main_v11)
      = takeSelB4 (W (Proc.devRef .tc main_arg1)) (W (Proc.devRef .tc main_arg27)) := by
  after_results_simp
  simp only [TRef.ofBuf, TRef.toBuf, cast_eq]
  rfl

theorem after_hostOps1_9_main_v13 (W : Valuation τ sig (Elt F)) :
    StableHlo.after (hostOps1_9 (F := F)) W (Proc.devRef .tc main_v13)
      = takeSelA1 (W (Proc.devRef .tc main_arg0)) (W (Proc.devRef .tc main_arg20)) := by
  after_results_simp
  simp only [TRef.ofBuf, TRef.toBuf, cast_eq]
  rfl

theorem after_hostOps1_11_main_v15 (W : Valuation τ sig (Elt F)) :
    StableHlo.after (hostOps1_11 (F := F)) W (Proc.devRef .tc main_v15)
      = takeSelA2 (W (Proc.devRef .tc main_arg0)) (W (Proc.devRef .tc main_arg21)) := by
  after_results_simp
  simp only [TRef.ofBuf, TRef.toBuf, cast_eq]
  rfl

theorem after_hostOps1_13_main_v17 (W : Valuation τ sig (Elt F)) :
    StableHlo.after (hostOps1_13 (F := F)) W (Proc.devRef .tc main_v17)
      = takeSelA3 (W (Proc.devRef .tc main_arg0)) (W (Proc.devRef .tc main_arg22)) := by
  after_results_simp
  simp only [TRef.ofBuf, TRef.toBuf, cast_eq]
  rfl

theorem after_hostOps1_15_main_v19 (W : Valuation τ sig (Elt F)) :
    StableHlo.after (hostOps1_15 (F := F)) W (Proc.devRef .tc main_v19)
      = takeSelA4 (W (Proc.devRef .tc main_arg0)) (W (Proc.devRef .tc main_arg23)) := by
  after_results_simp
  simp only [TRef.ofBuf, TRef.toBuf, cast_eq]
  rfl

abbrev kcat80 (a : FVec F S50000x64 .f32) (b : FVec F S50000x16 .f32) : FVec F S50000x80 .f32 :=
  concatenate S50000x80 1 [⟨S50000x64, a⟩, ⟨S50000x16, b⟩] concatenates_S50000x64_S50000x16_S50000x80_d1

def nbrParts1 (W : Valuation τ sig (Elt F)) : Fin 4 → FVec F S50000x80 .f32 :=
  ![kcat80 (W (Proc.devRef .tc main_v14)) (W (Proc.devRef .tc main_v6)),
    kcat80 (W (Proc.devRef .tc main_v16)) (W (Proc.devRef .tc main_v8)),
    kcat80 (W (Proc.devRef .tc main_v18)) (W (Proc.devRef .tc main_v10)),
    kcat80 (Host.reduceAdd (W (Proc.devRef .tc main_v19) : FVec F S50000x4x64 .f32) (constant (F := F) S_ .f32 0x00000000#32)
        reducesTo_S50000x4x64_S50000x64_d1 h_S_) (W (Proc.devRef .tc main_v12))]

theorem after_hostOps1_16_main_v25 (W : Valuation τ sig (Elt F)) :
    StableHlo.after (hostOps1_16 (F := F)) W (Proc.devRef .tc main_v25)
      = (concatenate S200000x80 0 [⟨S50000x80, nbrParts1 W 0⟩, ⟨S50000x80, nbrParts1 W 1⟩, ⟨S50000x80, nbrParts1 W 2⟩, ⟨S50000x80, nbrParts1 W 3⟩]
          concatenates_S50000x80_S50000x80_S50000x80_S50000x80_S200000x80_d0 : FVec F S200000x80 .f32) := by
  after_results
  try rfl

theorem after_hostOps1_16_main_v25_apply (W : Valuation τ sig (Elt F)) (d : Fin 4) (r : Fin 50000) (k : Fin 80)
    (hr : 50000 * d.val + r.val < 200000) :
    (StableHlo.after (hostOps1_16 (F := F)) W (Proc.devRef .tc main_v25) : FVec F S200000x80 .f32) (ix2 ⟨50000 * d.val + r.val, hr⟩ k)
      = nbrParts1 W d (ix2 r k) := by
  rw [after_hostOps1_16_main_v25]
  refine (concat4_rows_apply (n := 50000) (m := 80) (N := 200000) _ _ _ _ concatenates_S50000x80_S50000x80_S50000x80_S50000x80_S200000x80_d0 d r k hr).trans ?_
  match d with
  | ⟨0, _⟩ => rfl
  | ⟨1, _⟩ => rfl
  | ⟨2, _⟩ => rfl
  | ⟨3, _⟩ => rfl

theorem after_hostOps1_16_main_v30 (W : Valuation τ sig (Elt F)) :
    StableHlo.after (hostOps1_16 (F := F)) W (Proc.devRef .tc main_v30)
      = (concatenate S4x80x128 0
          [⟨S1x80x128, broadcastInDim S1x80x128 ![1, 2] bcast_S80x128_S1x80x128_1_2 (W (Proc.devRef .tc main_arg10) : FVec F S80x128 .f32)⟩,
           ⟨S1x80x128, broadcastInDim S1x80x128 ![1, 2] bcast_S80x128_S1x80x128_1_2 (W (Proc.devRef .tc main_arg11) : FVec F S80x128 .f32)⟩,
           ⟨S1x80x128, broadcastInDim S1x80x128 ![1, 2] bcast_S80x128_S1x80x128_1_2 (W (Proc.devRef .tc main_arg12) : FVec F S80x128 .f32)⟩,
           ⟨S1x80x128, broadcastInDim S1x80x128 ![1, 2] bcast_S80x128_S1x80x128_1_2 (W (Proc.devRef .tc main_arg13) : FVec F S80x128 .f32)⟩]
          concatenates_S1x80x128_S1x80x128_S1x80x128_S1x80x128_S4x80x128_d0 : FVec F S4x80x128 .f32) := by
  after_results
  try rfl

theorem after_hostOps1_16_main_v30_apply (W : Valuation τ sig (Elt F)) (d : Fin 4) (k : Fin 80) (j : Fin 128) :
    (StableHlo.after (hostOps1_16 (F := F)) W (Proc.devRef .tc main_v30) : FVec F S4x80x128 .f32) (ix3 d k j)
      = (![(W (Proc.devRef .tc main_arg10) : FVec F S80x128 .f32), W (Proc.devRef .tc main_arg11),
           W (Proc.devRef .tc main_arg12), W (Proc.devRef .tc main_arg13)] d) (ix2 k j) := by
  rw [after_hostOps1_16_main_v30]
  refine (stack4_apply (a := 80) (b := 128) _ _ _ _ concatenates_S1x80x128_S1x80x128_S1x80x128_S1x80x128_S4x80x128_d0 d k j).trans ?_
  match d with
  | ⟨0, _⟩ => exact bcast_ab_1ab_apply (by decide) (by decide) _ bcast_S80x128_S1x80x128_1_2 0 k j
  | ⟨1, _⟩ => exact bcast_ab_1ab_apply (by decide) (by decide) _ bcast_S80x128_S1x80x128_1_2 0 k j
  | ⟨2, _⟩ => exact bcast_ab_1ab_apply (by decide) (by decide) _ bcast_S80x128_S1x80x128_1_2 0 k j
  | ⟨3, _⟩ => exact bcast_ab_1ab_apply (by decide) (by decide) _ bcast_S80x128_S1x80x128_1_2 0 k j

theorem after_hostOps1_16_main_v31 (W : Valuation τ sig (Elt F)) :
    StableHlo.after (hostOps1_16 (F := F)) W (Proc.devRef .tc main_v31)
      = (fun i => shapeCast S1x128 (W (Proc.devRef .tc main_arg9) : FVec F S128 .f32) shapeCasts_S128_S1x128 i : FVec F S1x128 .f32) := by
  after_results
  try rfl

theorem after_hostOps1_16_main_v31_apply (W : Valuation τ sig (Elt F)) (j : Fin 128) :
    (StableHlo.after (hostOps1_16 (F := F)) W (Proc.devRef .tc main_v31) : FVec F S1x128 .f32) (ix2 (0 : Fin 1) j)
      = (W (Proc.devRef .tc main_arg9) : FVec F S128 .f32) (ix1 j) := by
  rw [after_hostOps1_16_main_v31]
  exact shapeCast_a_1a_apply _ _ 0 j

def kMean (s1 : FVec F S1x128 .f32) : FVec F S128 .f32 :=
  Host.divf (fun i => shapeCast S128 s1 shapeCasts_S1x128_S128 i)
    (broadcastInDim S128 ![] bcast_S_S128 (constant (F := F) S_ .f32 0x48435000#32))

def kInvStd (s1 s2 : FVec F S1x128 .f32) : FVec F S128 .f32 :=
  Host.rsqrt (addf
    (subf (Host.divf (fun i => shapeCast S128 s2 shapeCasts_S1x128_S128 i)
            (broadcastInDim S128 ![] bcast_S_S128 (constant (F := F) S_ .f32 0x48435000#32)))
          (mulf (kMean s1) (kMean s1)))
    (broadcastInDim S128 ![] bcast_S_S128 (constant (F := F) S_ .f32 0x3727C5AC#32)))

theorem after_hostOps2_main_v44 (W : Valuation τ sig (Elt F)) :
    StableHlo.after (hostOps2 (F := F)) W (Proc.devRef .tc main_v44)
      = (fun i => shapeCast S1x128 (kMean (W (Proc.devRef .tc main_v32_1) : FVec F S1x128 .f32)) shapeCasts_S128_S1x128 i : FVec F S1x128 .f32) := by
  after_results
  try rfl

theorem after_hostOps2_main_v45 (W : Valuation τ sig (Elt F)) :
    StableHlo.after (hostOps2 (F := F)) W (Proc.devRef .tc main_v45)
      = (fun i => shapeCast S1x128 (kInvStd (W (Proc.devRef .tc main_v32_1) : FVec F S1x128 .f32) (W (Proc.devRef .tc main_v32_2) : FVec F S1x128 .f32)) shapeCasts_S128_S1x128 i : FVec F S1x128 .f32) := by
  after_results
  try rfl

theorem after_hostOps2_main_v44_apply (W : Valuation τ sig (Elt F)) (j : Fin 128) :
    (StableHlo.after (hostOps2 (F := F)) W (Proc.devRef .tc main_v44) : FVec F S1x128 .f32) (ix2 (0 : Fin 1) j)
      = kMean (W (Proc.devRef .tc main_v32_1) : FVec F S1x128 .f32) (ix1 j) := by
  rw [after_hostOps2_main_v44]
  exact shapeCast_a_1a_apply _ _ 0 j

theorem after_hostOps2_main_v45_apply (W : Valuation τ sig (Elt F)) (j : Fin 128) :
    (StableHlo.after (hostOps2 (F := F)) W (Proc.devRef .tc main_v45) : FVec F S1x128 .f32) (ix2 (0 : Fin 1) j)
      = kInvStd (W (Proc.devRef .tc main_v32_1) : FVec F S1x128 .f32) (W (Proc.devRef .tc main_v32_2) : FVec F S1x128 .f32) (ix1 j) := by
  rw [after_hostOps2_main_v45]
  exact shapeCast_a_1a_apply _ _ 0 j

end Cert.KernelIdeal.HandV
end
-- ==== Proof.KI.Host2.lean ====
import proofs.«410641_j56710748176715_1_alg».proof.Proof.Gen.KernelIdeal.Launch
import proofs.«410641_j56710748176715_1_alg».proof.Proof.LibTypedRef
import proofs.«410641_j56710748176715_1_alg».proof.Proof.KI.ValTake
import Idealize.ShloMosaic.Lib.StableHlo.Run
import Idealize.ShloMosaic.Lib.ValueIdx
import Idealize.ShloMosaic.Lib.ValueLayout
import Idealize.ShloMosaic.Lib.Pipeline.Value

set_option maxRecDepth 2372

noncomputable section

namespace Cert.KernelIdeal.HandV

open Cert.KernelIdeal Cert.KernelIdeal.Gen
open Idealize.ShloMosaic Idealize.ShloMosaic.TcCoe Idealize.ShloMosaic.StableHlo
open Idealize.ShloMosaic.ValueIdx

variable {F : FTy → Type} [FloatOps F]

def rowK (b : FVec F S128 .f32) : FVec F S1x128 .f32 := shapeCast S1x128 b shapeCasts_S128_S1x128

def meanK (s : FVec F S1x128 .f32) : FVec F S128 .f32 :=
  Host.divf (shapeCast S128 s shapeCasts_S1x128_S128)
    (broadcastInDim S128 ![] bcast_S_S128 (constant (F := F) S_ .f32 0x48435000#32))

def invStdK (s q : FVec F S1x128 .f32) : FVec F S128 .f32 :=
  Host.rsqrt (addf (subf (meanK q) (mulf (meanK s) (meanK s)))
    (broadcastInDim S128 ![] bcast_S_S128 (constant (F := F) S_ .f32 0x3727C5AC#32)))

def rowsK (p1 p2 p3 p4 : FVec F S50000x144 .f32) : FVec F S200000x144 .f32 :=
  concatenate S200000x144 0 [⟨S50000x144, p1⟩, ⟨S50000x144, p2⟩, ⟨S50000x144, p3⟩, ⟨S50000x144, p4⟩]
    concatenates_S50000x144_S50000x144_S50000x144_S50000x144_S200000x144_d0

def stackK (d1 d2 d3 d4 : FVec F S144x128 .f32) : FVec F S4x144x128 .f32 :=
  concatenate S4x144x128 0
    [⟨S1x144x128, broadcastInDim S1x144x128 ![1, 2] bcast_S144x128_S1x144x128_1_2 d1⟩,
     ⟨S1x144x128, broadcastInDim S1x144x128 ![1, 2] bcast_S144x128_S1x144x128_1_2 d2⟩,
     ⟨S1x144x128, broadcastInDim S1x144x128 ![1, 2] bcast_S144x128_S1x144x128_1_2 d3⟩,
     ⟨S1x144x128, broadcastInDim S1x144x128 ![1, 2] bcast_S144x128_S1x144x128_1_2 d4⟩]
    concatenates_S1x144x128_S1x144x128_S1x144x128_S1x144x128_S4x144x128_d0

def pick4 {α : Type} (a b c e : α) : Fin 4 → α
  | ⟨0, _⟩ => a | ⟨1, _⟩ => b | ⟨2, _⟩ => c | ⟨3, _⟩ => e

section Stretches
variable [Cert.ReferenceIdeal.Facts₀] (W : Valuation τ sig (Elt F))

theorem h3_v47 : (StableHlo.after hostOps3 W (Proc.devRef .tc main_v47) : FVec F S1x128 .f32)
    = rowK (W (Proc.devRef .tc main_arg5)) := by
  after_results; rfl

theorem h4_v52 : (StableHlo.after hostOps4 W (Proc.devRef .tc main_v52) : FVec F S8192x128 .f32)
    = addf (W (Proc.devRef .tc main_v4))
        (Cert.Spec.seg (W (Proc.devRef .tc main_v48)) (W (Proc.devRef .tc main_arg28))) := by
  after_results; rfl

theorem h5_v84 : (StableHlo.after hostOps5 W (Proc.devRef .tc main_v84) : FVec F S1x128 .f32)
    = rowK (meanK (W (Proc.devRef .tc main_v72_1))) := by
  after_results; rfl

theorem h5_v85 : (StableHlo.after hostOps5 W (Proc.devRef .tc main_v85) : FVec F S1x128 .f32)
    = rowK (invStdK (W (Proc.devRef .tc main_v72_1)) (W (Proc.devRef .tc main_v72_2))) := by
  after_results; rfl

theorem h6_v87 : (StableHlo.after hostOps6 W (Proc.devRef .tc main_v87) : FVec F S1x128 .f32)
    = rowK (W (Proc.devRef .tc main_arg7)) := by
  after_results; rfl

theorem h7_v92 : (StableHlo.after hostOps7 W (Proc.devRef .tc main_v92) : FVec F S8192x128 .f32)
    = addf (W (Proc.devRef .tc main_v52))
        (Cert.Spec.seg (W (Proc.devRef .tc main_v88)) (W (Proc.devRef .tc main_arg28))) := by
  after_results; rfl

set_option maxHeartbeats 1000000 in

theorem h4_1_v53 : (StableHlo.after hostOps4_1 W (Proc.devRef .tc main_v53) : FVec F S50000x1x128 .f32)
    = takeSelH1 (W (Proc.devRef .tc main_v46)) (W (Proc.devRef .tc main_arg20)) := by
  after_results_simp
  simp only [TRef.ofBuf, TRef.toBuf, cast_eq]
  rfl

set_option maxHeartbeats 1000000 in

theorem h4_3_v55 : (StableHlo.after hostOps4_3 W (Proc.devRef .tc main_v55) : FVec F S50000x2x128 .f32)
    = takeSelH2 (W (Proc.devRef .tc main_v46)) (W (Proc.devRef .tc main_arg21)) := by
  after_results_simp
  simp only [TRef.ofBuf, TRef.toBuf, cast_eq]
  rfl

set_option maxHeartbeats 1000000 in

theorem h4_5_v57 : (StableHlo.after hostOps4_5 W (Proc.devRef .tc main_v57) : FVec F S50000x3x128 .f32)
    = takeSelH3 (W (Proc.devRef .tc main_v46)) (W (Proc.devRef .tc main_arg22)) := by
  after_results_simp
  simp only [TRef.ofBuf, TRef.toBuf, cast_eq]
  rfl

set_option maxHeartbeats 1000000 in

theorem h4_7_v59 : (StableHlo.after hostOps4_7 W (Proc.devRef .tc main_v59) : FVec F S50000x4x128 .f32)
    = takeSelH4 (W (Proc.devRef .tc main_v46)) (W (Proc.devRef .tc main_arg23)) := by
  after_results_simp
  simp only [TRef.ofBuf, TRef.toBuf, cast_eq]
  rfl

theorem h4_2_v54 : (StableHlo.after hostOps4_2 W (Proc.devRef .tc main_v54) : FVec F S50000x128 .f32)
    = Host.reduceAdd (W (Proc.devRef .tc main_v53)) (constant (F := F) S_ .f32 0x00000000#32)
        reducesTo_S50000x1x128_S50000x128_d1 h_S_ := by
  after_results

theorem h4_4_v56 : (StableHlo.after hostOps4_4 W (Proc.devRef .tc main_v56) : FVec F S50000x128 .f32)
    = Host.reduceAdd (W (Proc.devRef .tc main_v55)) (constant (F := F) S_ .f32 0x00000000#32)
        reducesTo_S50000x2x128_S50000x128_d1 h_S_ := by
  after_results

theorem h4_6_v58 : (StableHlo.after hostOps4_6 W (Proc.devRef .tc main_v58) : FVec F S50000x128 .f32)
    = Host.reduceAdd (W (Proc.devRef .tc main_v57)) (constant (F := F) S_ .f32 0x00000000#32)
        reducesTo_S50000x3x128_S50000x128_d1 h_S_ := by
  after_results

theorem h4_8_v65 : (StableHlo.after hostOps4_8 W (Proc.devRef .tc main_v65) : FVec F S200000x144 .f32)
    = rowsK (Cert.Spec.cat144 (W (Proc.devRef .tc main_v54)) (W (Proc.devRef .tc main_v6)))
        (Cert.Spec.cat144 (W (Proc.devRef .tc main_v56)) (W (Proc.devRef .tc main_v8)))
        (Cert.Spec.cat144 (W (Proc.devRef .tc main_v58)) (W (Proc.devRef .tc main_v10)))
        (Cert.Spec.cat144 (Host.reduceAdd (W (Proc.devRef .tc main_v59)) (constant (F := F) S_ .f32 0x00000000#32)
        reducesTo_S50000x4x128_S50000x128_d1 h_S_)
          (W (Proc.devRef .tc main_v12))) := by
  after_results; rfl

theorem h4_8_v70 : (StableHlo.after hostOps4_8 W (Proc.devRef .tc main_v70) : FVec F S4x144x128 .f32)
    = stackK (W (Proc.devRef .tc main_arg16)) (W (Proc.devRef .tc main_arg17))
        (W (Proc.devRef .tc main_arg18)) (W (Proc.devRef .tc main_arg19)) := by
  after_results; rfl

theorem h4_8_v71 : (StableHlo.after hostOps4_8 W (Proc.devRef .tc main_v71) : FVec F S1x128 .f32)
    = rowK (W (Proc.devRef .tc main_arg15)) := by
  after_results; rfl

end Stretches

section Keeps
variable (W : Valuation τ sig (Elt F))

abbrev writes3 : List (Ref sig .tc) := [main_v47]
theorem h3_keep {r : Ref sig .tc} (hr : r ∉ writes3) :
    StableHlo.after (hostOps3 (F := F)) W (Proc.devRef .tc r) = W (Proc.devRef .tc r) :=
  StableHlo.after_of_writes_sub hostOps3 W (by simp [List.Forall]) hr

abbrev writes4 : List (Ref sig .tc) := [main_cst_11, main_v49, main_v50, main_v51, main_v52]
theorem h4_keep {r : Ref sig .tc} (hr : r ∉ writes4) :
    StableHlo.after (hostOps4 (F := F)) W (Proc.devRef .tc r) = W (Proc.devRef .tc r) :=
  StableHlo.after_of_writes_sub hostOps4 W (by simp [List.Forall]) hr

abbrev writes5 : List (Ref sig .tc) := [main_v73, main_cst_16, main_v74, main_v75, main_v76, main_cst_17, main_v77, main_v78, main_v79, main_v80, main_cst_18, main_v81, main_v82, main_v83, main_v84, main_v85]
theorem h5_keep {r : Ref sig .tc} (hr : r ∉ writes5) :
    StableHlo.after (hostOps5 (F := F)) W (Proc.devRef .tc r) = W (Proc.devRef .tc r) :=
  StableHlo.after_of_writes_sub hostOps5 W (by simp [List.Forall]) hr

abbrev writes6 : List (Ref sig .tc) := [main_v87]
theorem h6_keep {r : Ref sig .tc} (hr : r ∉ writes6) :
    StableHlo.after (hostOps6 (F := F)) W (Proc.devRef .tc r) = W (Proc.devRef .tc r) :=
  StableHlo.after_of_writes_sub hostOps6 W (by simp [List.Forall]) hr

abbrev writes7 : List (Ref sig .tc) := [main_cst_19, main_v89, main_v90, main_v91, main_v92]
theorem h7_keep {r : Ref sig .tc} (hr : r ∉ writes7) :
    StableHlo.after (hostOps7 (F := F)) W (Proc.devRef .tc r) = W (Proc.devRef .tc r) :=
  StableHlo.after_of_writes_sub hostOps7 W (by simp [List.Forall]) hr

abbrev writes4_1 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v53]
theorem h4_1_keep {r : Ref sig .tc} (hr : r ∉ writes4_1) :
    StableHlo.after (hostOps4_1 (F := F)) W (Proc.devRef .tc r) = W (Proc.devRef .tc r) :=
  StableHlo.after_of_writes_sub hostOps4_1 W (by simp [List.Forall]) hr

abbrev writes4_2 : List (Ref sig .tc) := [main_cst_12, main_v54]
theorem h4_2_keep {r : Ref sig .tc} (hr : r ∉ writes4_2) :
    StableHlo.after (hostOps4_2 (F := F)) W (Proc.devRef .tc r) = W (Proc.devRef .tc r) :=
  StableHlo.after_of_writes_sub hostOps4_2 W (by simp [List.Forall]) hr

abbrev writes4_3 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v55]
theorem h4_3_keep {r : Ref sig .tc} (hr : r ∉ writes4_3) :
    StableHlo.after (hostOps4_3 (F := F)) W (Proc.devRef .tc r) = W (Proc.devRef .tc r) :=
  StableHlo.after_of_writes_sub hostOps4_3 W (by simp [List.Forall]) hr

abbrev writes4_4 : List (Ref sig .tc) := [main_cst_13, main_v56]
theorem h4_4_keep {r : Ref sig .tc} (hr : r ∉ writes4_4) :
    StableHlo.after (hostOps4_4 (F := F)) W (Proc.devRef .tc r) = W (Proc.devRef .tc r) :=
  StableHlo.after_of_writes_sub hostOps4_4 W (by simp [List.Forall]) hr

abbrev writes4_5 : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v57]
theorem h4_5_keep {r : Ref sig .tc} (hr : r ∉ writes4_5) :
    StableHlo.after (hostOps4_5 (F := F)) W (Proc.devRef .tc r) = W (Proc.devRef .tc r) :=
  StableHlo.after_of_writes_sub hostOps4_5 W (by simp [List.Forall]) hr

abbrev writes4_6 : List (Ref sig .tc) := [main_cst_14, main_v58]
theorem h4_6_keep {r : Ref sig .tc} (hr : r ∉ writes4_6) :
    StableHlo.after (hostOps4_6 (F := F)) W (Proc.devRef .tc r) = W (Proc.devRef .tc r) :=
  StableHlo.after_of_writes_sub hostOps4_6 W (by simp [List.Forall]) hr

abbrev writes4_7 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v59]
theorem h4_7_keep {r : Ref sig .tc} (hr : r ∉ writes4_7) :
    StableHlo.after (hostOps4_7 (F := F)) W (Proc.devRef .tc r) = W (Proc.devRef .tc r) :=
  StableHlo.after_of_writes_sub hostOps4_7 W (by simp [List.Forall]) hr

abbrev writes4_8 : List (Ref sig .tc) := [main_cst_15, main_v60, main_v61, main_v62, main_v63, main_v64, main_v65, main_v66, main_v67, main_v68, main_v69, main_v70, main_v71]
theorem h4_8_keep {r : Ref sig .tc} (hr : r ∉ writes4_8) :
    StableHlo.after (hostOps4_8 (F := F)) W (Proc.devRef .tc r) = W (Proc.devRef .tc r) :=
  StableHlo.after_of_writes_sub hostOps4_8 W (by simp [List.Forall]) hr

end Keeps

section Chain
variable [Cert.ReferenceIdeal.Facts₀] (W : Valuation τ sig (Elt F))

abbrev after4s : Valuation τ sig (Elt F) :=
  StableHlo.after hostOps4_8 (StableHlo.after hostOps4_7 (StableHlo.after hostOps4_6 (StableHlo.after hostOps4_5
    (StableHlo.after hostOps4_4 (StableHlo.after hostOps4_3 (StableHlo.after hostOps4_2 (StableHlo.after hostOps4_1 W)))))))

local macro "chain_steps" : tactic =>
  `(tactic| repeat (first
      | rw [h4_7_v59] | rw [h4_6_v58] | rw [h4_5_v57] | rw [h4_4_v56] | rw [h4_3_v55] | rw [h4_2_v54] | rw [h4_1_v53]
      | (rw [h4_7_keep]; rotate_left; decide)
      | (rw [h4_6_keep]; rotate_left; decide)
      | (rw [h4_5_keep]; rotate_left; decide)
      | (rw [h4_4_keep]; rotate_left; decide)
      | (rw [h4_3_keep]; rotate_left; decide)
      | (rw [h4_2_keep]; rotate_left; decide)
      | (rw [h4_1_keep]; rotate_left; decide)))

set_option maxHeartbeats 1000000 in

theorem after4s_v65 : (after4s W (Proc.devRef .tc main_v65) : FVec F S200000x144 .f32)
    = rowsK
        (Cert.Spec.cat144 (takeH1 (W (Proc.devRef .tc main_v46)) (W (Proc.devRef .tc main_arg20))) (W (Proc.devRef .tc main_v6)))
        (Cert.Spec.cat144 (takeH2 (W (Proc.devRef .tc main_v46)) (W (Proc.devRef .tc main_arg21))) (W (Proc.devRef .tc main_v8)))
        (Cert.Spec.cat144 (takeH3 (W (Proc.devRef .tc main_v46)) (W (Proc.devRef .tc main_arg22))) (W (Proc.devRef .tc main_v10)))
        (Cert.Spec.cat144 (takeH4 (W (Proc.devRef .tc main_v46)) (W (Proc.devRef .tc main_arg23))) (W (Proc.devRef .tc main_v12))) := by
  show StableHlo.after hostOps4_8 _ _ = _
  rw [h4_8_v65]
  chain_steps
  rfl

theorem after4s_v70 : (after4s W (Proc.devRef .tc main_v70) : FVec F S4x144x128 .f32)
    = stackK (W (Proc.devRef .tc main_arg16)) (W (Proc.devRef .tc main_arg17))
        (W (Proc.devRef .tc main_arg18)) (W (Proc.devRef .tc main_arg19)) := by
  show StableHlo.after hostOps4_8 _ _ = _
  rw [h4_8_v70]
  chain_steps

theorem after4s_v71 : (after4s W (Proc.devRef .tc main_v71) : FVec F S1x128 .f32)
    = rowK (W (Proc.devRef .tc main_arg15)) := by
  show StableHlo.after hostOps4_8 _ _ = _
  rw [h4_8_v71]
  chain_steps

theorem after4s_keep {r : Ref sig .tc}
    (hr : r ∉ writes4_1 ++ writes4_2 ++ writes4_3 ++ writes4_4 ++ writes4_5 ++ writes4_6 ++ writes4_7 ++ writes4_8) :
    after4s W (Proc.devRef .tc r) = W (Proc.devRef .tc r) := by
  simp only [List.mem_append, not_or] at hr
  obtain ⟨⟨⟨⟨⟨⟨⟨h1, h2⟩, h3⟩, h4⟩, h5⟩, h6⟩, h7⟩, h8⟩ := hr
  show StableHlo.after hostOps4_8 _ _ = _
  rw [h4_8_keep _ h8, h4_7_keep _ h7, h4_6_keep _ h6, h4_5_keep _ h5, h4_4_keep _ h4, h4_3_keep _ h3, h4_2_keep _ h2,
    h4_1_keep _ h1]

end Chain

section Readings

theorem rowK_apply (b : FVec F S128 .f32) (u : Fin 1) (j : Fin 128) : rowK b (ix2 u j) = b (ix1 j) :=
  shapeCast_a_1a_apply b shapeCasts_S128_S1x128 u j

theorem rowsK_apply (p1 p2 p3 p4 : FVec F S50000x144 .f32) (d : Fin 4) (r : Fin 50000) (k : Fin 144)
    (h : 50000 * d.val + r.val < 200000) :
    rowsK p1 p2 p3 p4 (ix2 ⟨50000 * d.val + r.val, h⟩ k) = pick4 p1 p2 p3 p4 d (ix2 r k) := by
  have hi : ∀ (j0 : Fin 200000) (b : Fin S50000x144.rank), b.cast (rfl : S50000x144.rank = S200000x144.rank) ≠ (0 : Fin 2) →
      ((ix2 r k : S50000x144.Idx) b).val = ((ix2 j0 k : S200000x144.Idx) (b.cast rfl)).val := fun j0 b hb => by
    match b with
    | ⟨0, _⟩ => exact absurd rfl hb
    | ⟨1, _⟩ => rfl
  match d with
  | ⟨0, _⟩ =>
    refine concatenate_apply_piece (t := S200000x144) (0 : Fin 2) [⟨S50000x144, p1⟩, ⟨S50000x144, p2⟩, ⟨S50000x144, p3⟩, ⟨S50000x144, p4⟩]
      concatenates_S50000x144_S50000x144_S50000x144_S50000x144_S200000x144_d0
      (ix2 ⟨_, h⟩ k) 0 ?_ S50000x144 p1 rfl rfl 0 ?_ (ix2 r k) (hi _) ?_
    · simp
    · first | (simp; done) | (norm_num [Shape.size]; done) | decide
    · show 0 + r.val = 50000 * 0 + r.val; omega
  | ⟨1, _⟩ =>
    refine concatenate_apply_piece (t := S200000x144) (0 : Fin 2) [⟨S50000x144, p1⟩, ⟨S50000x144, p2⟩, ⟨S50000x144, p3⟩, ⟨S50000x144, p4⟩]
      concatenates_S50000x144_S50000x144_S50000x144_S50000x144_S200000x144_d0
      (ix2 ⟨_, h⟩ k) 1 ?_ S50000x144 p2 rfl rfl 50000 ?_ (ix2 r k) (hi _) ?_
    · simp
    · first | (simp; done) | (norm_num [Shape.size]; done) | decide
    · show 50000 + r.val = 50000 * 1 + r.val; omega
  | ⟨2, _⟩ =>
    refine concatenate_apply_piece (t := S200000x144) (0 : Fin 2) [⟨S50000x144, p1⟩, ⟨S50000x144, p2⟩, ⟨S50000x144, p3⟩, ⟨S50000x144, p4⟩]
      concatenates_S50000x144_S50000x144_S50000x144_S50000x144_S200000x144_d0
      (ix2 ⟨_, h⟩ k) 2 ?_ S50000x144 p3 rfl rfl 100000 ?_ (ix2 r k) (hi _) ?_
    · simp
    · first | (simp; done) | (norm_num [Shape.size]; done) | decide
    · show 100000 + r.val = 50000 * 2 + r.val; omega
  | ⟨3, _⟩ =>
    refine concatenate_apply_piece (t := S200000x144) (0 : Fin 2) [⟨S50000x144, p1⟩, ⟨S50000x144, p2⟩, ⟨S50000x144, p3⟩, ⟨S50000x144, p4⟩]
      concatenates_S50000x144_S50000x144_S50000x144_S50000x144_S200000x144_d0
      (ix2 ⟨_, h⟩ k) 3 ?_ S50000x144 p4 rfl rfl 150000 ?_ (ix2 r k) (hi _) ?_
    · simp
    · first | (simp; done) | (norm_num [Shape.size]; done) | decide
    · show 150000 + r.val = 50000 * 3 + r.val; omega

theorem lead1_apply (x : FVec F S144x128 .f32) (k : Fin 144) (j : Fin 128) :
    broadcastInDim S1x144x128 ![1, 2] bcast_S144x128_S1x144x128_1_2 x (ix3 (0 : Fin 1) k j) = x (ix2 k j) :=
  broadcastInDim_apply _ _ x _ (ix2 k j) (fun a => by
    match a with
    | ⟨0, _⟩ => rfl
    | ⟨1, _⟩ => rfl)

theorem stackK_apply (d1 d2 d3 d4 : FVec F S144x128 .f32) (d : Fin 4) (k : Fin 144) (j : Fin 128) :
    stackK d1 d2 d3 d4 (ix3 d k j) = pick4 d1 d2 d3 d4 d (ix2 k j) := by
  have hi : ∀ (d0 : Fin 4) (b : Fin S1x144x128.rank), b.cast (rfl : S1x144x128.rank = S4x144x128.rank) ≠ (0 : Fin 3) →
      ((ix3 (0 : Fin 1) k j : S1x144x128.Idx) b).val = ((ix3 d0 k j : S4x144x128.Idx) (b.cast rfl)).val := fun d0 b hb => by
    match b with
    | ⟨0, _⟩ => exact absurd rfl hb
    | ⟨1, _⟩ => rfl
    | ⟨2, _⟩ => rfl
  match d with
  | ⟨0, _⟩ =>
    refine (concatenate_apply_piece (t := S4x144x128) (0 : Fin 3) [⟨S1x144x128, broadcastInDim S1x144x128 ![1, 2] bcast_S144x128_S1x144x128_1_2 d1⟩,
       ⟨S1x144x128, broadcastInDim S1x144x128 ![1, 2] bcast_S144x128_S1x144x128_1_2 d2⟩,
       ⟨S1x144x128, broadcastInDim S1x144x128 ![1, 2] bcast_S144x128_S1x144x128_1_2 d3⟩,
       ⟨S1x144x128, broadcastInDim S1x144x128 ![1, 2] bcast_S144x128_S1x144x128_1_2 d4⟩]
      concatenates_S1x144x128_S1x144x128_S1x144x128_S1x144x128_S4x144x128_d0
      (ix3 (⟨0, by decide⟩ : Fin 4) k j) 0 ?_ S1x144x128 _ rfl rfl 0 rfl (ix3 (0 : Fin 1) k j) (hi _) ?_).trans (lead1_apply d1 k j)
    · simp
    · rfl
  | ⟨1, _⟩ =>
    refine (concatenate_apply_piece (t := S4x144x128) (0 : Fin 3) [⟨S1x144x128, broadcastInDim S1x144x128 ![1, 2] bcast_S144x128_S1x144x128_1_2 d1⟩,
       ⟨S1x144x128, broadcastInDim S1x144x128 ![1, 2] bcast_S144x128_S1x144x128_1_2 d2⟩,
       ⟨S1x144x128, broadcastInDim S1x144x128 ![1, 2] bcast_S144x128_S1x144x128_1_2 d3⟩,
       ⟨S1x144x128, broadcastInDim S1x144x128 ![1, 2] bcast_S144x128_S1x144x128_1_2 d4⟩]
      concatenates_S1x144x128_S1x144x128_S1x144x128_S1x144x128_S4x144x128_d0
      (ix3 (⟨1, by decide⟩ : Fin 4) k j) 1 ?_ S1x144x128 _ rfl rfl 1 rfl (ix3 (0 : Fin 1) k j) (hi _) ?_).trans (lead1_apply d2 k j)
    · simp
    · rfl
  | ⟨2, _⟩ =>
    refine (concatenate_apply_piece (t := S4x144x128) (0 : Fin 3) [⟨S1x144x128, broadcastInDim S1x144x128 ![1, 2] bcast_S144x128_S1x144x128_1_2 d1⟩,
       ⟨S1x144x128, broadcastInDim S1x144x128 ![1, 2] bcast_S144x128_S1x144x128_1_2 d2⟩,
       ⟨S1x144x128, broadcastInDim S1x144x128 ![1, 2] bcast_S144x128_S1x144x128_1_2 d3⟩,
       ⟨S1x144x128, broadcastInDim S1x144x128 ![1, 2] bcast_S144x128_S1x144x128_1_2 d4⟩]
      concatenates_S1x144x128_S1x144x128_S1x144x128_S1x144x128_S4x144x128_d0
      (ix3 (⟨2, by decide⟩ : Fin 4) k j) 2 ?_ S1x144x128 _ rfl rfl 2 rfl (ix3 (0 : Fin 1) k j) (hi _) ?_).trans (lead1_apply d3 k j)
    · simp
    · rfl
  | ⟨3, _⟩ =>
    refine (concatenate_apply_piece (t := S4x144x128) (0 : Fin 3) [⟨S1x144x128, broadcastInDim S1x144x128 ![1, 2] bcast_S144x128_S1x144x128_1_2 d1⟩,
       ⟨S1x144x128, broadcastInDim S1x144x128 ![1, 2] bcast_S144x128_S1x144x128_1_2 d2⟩,
       ⟨S1x144x128, broadcastInDim S1x144x128 ![1, 2] bcast_S144x128_S1x144x128_1_2 d3⟩,
       ⟨S1x144x128, broadcastInDim S1x144x128 ![1, 2] bcast_S144x128_S1x144x128_1_2 d4⟩]
      concatenates_S1x144x128_S1x144x128_S1x144x128_S1x144x128_S4x144x128_d0
      (ix3 (⟨3, by decide⟩ : Fin 4) k j) 3 ?_ S1x144x128 _ rfl rfl 3 rfl (ix3 (0 : Fin 1) k j) (hi _) ?_).trans (lead1_apply d4 k j)
    · simp
    · rfl

end Readings

section AtIdeal

theorem meanK_apply (s : FVec Ideal S1x128 .f32) (j : Fin 128) :
    meanK s (ix1 j) = Ideal.div (s (ix2 (0 : Fin 1) j)) (Ideal.ofBits .f32 0x48435000#32) :=
  congrArg (fun v => Ideal.div v (Ideal.ofBits .f32 0x48435000#32)) (shapeCast_1a_a_apply s shapeCasts_S1x128_S128 j)

theorem invStdK_apply (s q : FVec Ideal S1x128 .f32) (j : Fin 128) :
    invStdK s q (ix1 j) = Ideal.rsqrt
      (Ideal.div (q (ix2 (0 : Fin 1) j)) (Ideal.ofBits .f32 0x48435000#32)
        - Ideal.div (s (ix2 (0 : Fin 1) j)) (Ideal.ofBits .f32 0x48435000#32)
          * Ideal.div (s (ix2 (0 : Fin 1) j)) (Ideal.ofBits .f32 0x48435000#32)
        + Ideal.ofBits .f32 0x3727C5AC#32) := by
  show Ideal.rsqrt (meanK q (ix1 j) - meanK s (ix1 j) * meanK s (ix1 j) + Ideal.ofBits .f32 0x3727C5AC#32) = _
  rw [meanK_apply q j, meanK_apply s j]

end AtIdeal

section Applied
variable [Cert.ReferenceIdeal.Facts₀] (W : Valuation τ sig (Elt F))

theorem h3_v47_apply (j : Fin 128) :
    (StableHlo.after hostOps3 W (Proc.devRef .tc main_v47) : FVec F S1x128 .f32) (ix2 (0 : Fin 1) j)
      = (W (Proc.devRef .tc main_arg5) : FVec F S128 .f32) (ix1 j) :=
  (congrFun (h3_v47 W) _).trans (rowK_apply _ 0 j)

theorem h6_v87_apply (j : Fin 128) :
    (StableHlo.after hostOps6 W (Proc.devRef .tc main_v87) : FVec F S1x128 .f32) (ix2 (0 : Fin 1) j)
      = (W (Proc.devRef .tc main_arg7) : FVec F S128 .f32) (ix1 j) :=
  (congrFun (h6_v87 W) _).trans (rowK_apply _ 0 j)

theorem h5_v84_apply (j : Fin 128) :
    (StableHlo.after hostOps5 W (Proc.devRef .tc main_v84) : FVec F S1x128 .f32) (ix2 (0 : Fin 1) j)
      = meanK (W (Proc.devRef .tc main_v72_1)) (ix1 j) :=
  (congrFun (h5_v84 W) _).trans (rowK_apply _ 0 j)

theorem h5_v85_apply (j : Fin 128) :
    (StableHlo.after hostOps5 W (Proc.devRef .tc main_v85) : FVec F S1x128 .f32) (ix2 (0 : Fin 1) j)
      = invStdK (W (Proc.devRef .tc main_v72_1)) (W (Proc.devRef .tc main_v72_2)) (ix1 j) :=
  (congrFun (h5_v85 W) _).trans (rowK_apply _ 0 j)

theorem after4s_v71_apply (j : Fin 128) :
    (after4s W (Proc.devRef .tc main_v71) : FVec F S1x128 .f32) (ix2 (0 : Fin 1) j)
      = (W (Proc.devRef .tc main_arg15) : FVec F S128 .f32) (ix1 j) :=
  (congrFun (after4s_v71 W) _).trans (rowK_apply _ 0 j)

theorem after4s_v65_apply (d : Fin 4) (r : Fin 50000) (k : Fin 144) (h : 50000 * d.val + r.val < 200000) :
    (after4s W (Proc.devRef .tc main_v65) : FVec F S200000x144 .f32) (ix2 ⟨50000 * d.val + r.val, h⟩ k)
      = pick4
          (Cert.Spec.cat144 (takeH1 (W (Proc.devRef .tc main_v46)) (W (Proc.devRef .tc main_arg20))) (W (Proc.devRef .tc main_v6)))
          (Cert.Spec.cat144 (takeH2 (W (Proc.devRef .tc main_v46)) (W (Proc.devRef .tc main_arg21))) (W (Proc.devRef .tc main_v8)))
          (Cert.Spec.cat144 (takeH3 (W (Proc.devRef .tc main_v46)) (W (Proc.devRef .tc main_arg22))) (W (Proc.devRef .tc main_v10)))
          (Cert.Spec.cat144 (takeH4 (W (Proc.devRef .tc main_v46)) (W (Proc.devRef .tc main_arg23))) (W (Proc.devRef .tc main_v12)))
          d (ix2 r k) :=
  (congrFun (after4s_v65 W) _).trans (rowsK_apply _ _ _ _ d r k h)

theorem after4s_v70_apply (d : Fin 4) (k : Fin 144) (j : Fin 128) :
    (after4s W (Proc.devRef .tc main_v70) : FVec F S4x144x128 .f32) (ix3 d k j)
      = pick4 (W (Proc.devRef .tc main_arg16) : FVec F S144x128 .f32) (W (Proc.devRef .tc main_arg17))
          (W (Proc.devRef .tc main_arg18)) (W (Proc.devRef .tc main_arg19)) d (ix2 k j) :=
  (congrFun (after4s_v70 W) _).trans (stackK_apply _ _ _ _ d k j)

end Applied

end Cert.KernelIdeal.HandV

end
-- ==== Proof.KI.ValNorm.lean ====
import proofs.«410641_j56710748176715_1_alg».proof.Proof.KI.R2
import proofs.«410641_j56710748176715_1_alg».proof.Proof.KI.R5
import proofs.«410641_j56710748176715_1_alg».proof.Proof.Ref.Stages
import proofs.«410641_j56710748176715_1_alg».proof.Proof.Math.Real
import proofs.«410641_j56710748176715_1_alg».proof.Proof.Gen.ReferenceIdeal
import proofs.«410641_j56710748176715_1_alg».proof.Proof.Gen.KernelIdeal
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal
import Idealize.ShloMosaic.PureOps.Ideal.Laws

set_option maxRecDepth 16384

noncomputable section

namespace Cert.Proof.BnRead

open Idealize.ShloMosaic Idealize.ShloMosaic.ValueIdx
open Cert.ReferenceIdeal Cert.ReferenceIdeal.Facts₀
open Cert.Proof.MathR
open scoped BigOperators

theorem colSum_apply (x : FVec Ideal S200000x128 .f32) (q : Fin 128) :
    Host.reduceAdd x (constant (F := Ideal) S_ .f32 0x00000000#32) reducesTo_S200000x128_S128_d0 h_S_ (ix1 q)
      = ∑ k : Fin 200000, x (ix2 k q) := by
  have h' : S200000x128.ReducesTo [0] S128 := reducesTo_S200000x128_S128_d0
  have h : S200000x128.Reduces [0] S128 := ⟨h'.1, Nat.one_pos, h'.2⟩
  rw [hostReduceAdd_apply, Ideal.hostReduceAdd_single h' h, constant_apply, Ideal.ofBits_zero_f32, zero_add]
  refine Finset.sum_congr rfl fun k _ => congrArg x (funext fun a => Fin.ext ?_)
  match a with
  | ⟨0, _⟩ => rfl
  | ⟨1, _⟩ => rfl

theorem rowOf_apply (v : FVec Ideal S128 .f32) (u : Fin 1) (q : Fin 128) :
    broadcastInDim S1x128 ![1] bcast_S128_S1x128_1 v (ix2 u q) = v (ix1 q) := by
  refine broadcastInDim_apply _ _ v (ix2 u q) (ix1 q) fun a => ?_
  match a with
  | ⟨0, _⟩ => rfl

theorem rowsOf_apply (w : FVec Ideal S1x128 .f32) (p : Fin 200000) (q : Fin 128) :
    broadcastInDim S200000x128 ![0, 1] bcast_S1x128_S200000x128_0_1 w (ix2 p q) = w (ix2 (0 : Fin 1) q) := by
  refine broadcastInDim_apply _ _ w (ix2 p q) (ix2 (0 : Fin 1) q) fun a => ?_
  match a with
  | ⟨0, _⟩ => rfl
  | ⟨1, _⟩ => rfl

theorem bnMean_apply (x : FVec Ideal S200000x128 .f32) (q : Fin 128) :
    Cert.Spec.bnMean x (ix1 q) = Ideal.div (∑ k : Fin 200000, x (ix2 k q)) ((200000 : ℝ) : EReal) := by
  unfold Cert.Spec.bnMean
  rw [hostDivf_apply, colSum_apply, broadcastInDim_scalar_apply, constant_apply, ofBits_200000]

theorem norm_apply :
    subf (constant (F := Ideal) S_ .f32 0x48435000#32) (sitofp .f32 (constantI S_ 32 0#32)) ix0 = ((200000 : ℝ) : EReal) := by
  rw [subf_apply, constant_apply, sitofp_apply, constantI_apply]
  exact count_sub_zero

theorem pos_apply :
    cmpf .ogt (subf (constant (F := Ideal) S_ .f32 0x48435000#32) (sitofp .f32 (constantI S_ 32 0#32)))
      (constant (F := Ideal) S_ .f32 0x00000000#32) ix0 = 1#1 := by
  rw [cmpf_apply, norm_apply, constant_apply, Ideal.ofBits_zero_f32, Ideal.cmpf_def]
  have h : (0 : EReal) < ((200000 : ℝ) : EReal) := EReal.coe_pos.mpr (by norm_num)
  simp [Ideal.cmp, h]

theorem centredSq_apply (x : FVec Ideal S200000x128 .f32) (k : Fin 200000) (q : Fin 128) :
    mulf
      (subf x (broadcastInDim S200000x128 ![0, 1] bcast_S1x128_S200000x128_0_1
        (Host.divf (broadcastInDim S1x128 ![1] bcast_S128_S1x128_1
            (Host.reduceAdd x (constant (F := Ideal) S_ .f32 0x00000000#32) reducesTo_S200000x128_S128_d0 h_S_))
          (broadcastInDim S1x128 ![] bcast_S_S1x128 (constant (F := Ideal) S_ .f32 0x48435000#32)))))
      (subf x (broadcastInDim S200000x128 ![0, 1] bcast_S1x128_S200000x128_0_1
        (Host.divf (broadcastInDim S1x128 ![1] bcast_S128_S1x128_1
            (Host.reduceAdd x (constant (F := Ideal) S_ .f32 0x00000000#32) reducesTo_S200000x128_S128_d0 h_S_))
          (broadcastInDim S1x128 ![] bcast_S_S1x128 (constant (F := Ideal) S_ .f32 0x48435000#32)))))
      (ix2 k q)
      = (x (ix2 k q) - Ideal.div (∑ j : Fin 200000, x (ix2 j q)) ((200000 : ℝ) : EReal))
          * (x (ix2 k q) - Ideal.div (∑ j : Fin 200000, x (ix2 j q)) ((200000 : ℝ) : EReal)) := by
  rw [mulf_apply, subf_apply, rowsOf_apply, hostDivf_apply, rowOf_apply, colSum_apply, broadcastInDim_scalar_apply,
    constant_apply, ofBits_200000]

theorem bnVar_apply (x : FVec Ideal S200000x128 .f32) (q : Fin 128) :
    Cert.Spec.bnVar x (ix1 q)
      = Ideal.div (∑ k : Fin 200000, (x (ix2 k q) - Ideal.div (∑ j : Fin 200000, x (ix2 j q)) ((200000 : ℝ) : EReal))
          * (x (ix2 k q) - Ideal.div (∑ j : Fin 200000, x (ix2 j q)) ((200000 : ℝ) : EReal))) ((200000 : ℝ) : EReal) := by
  unfold Cert.Spec.bnVar
  rw [select_apply, broadcastInDim_scalar_apply, pos_apply, select_one, hostDivf_apply, colSum_apply,
    broadcastInDim_scalar_apply, norm_apply]
  rw [Finset.sum_congr (s₁ := (Finset.univ : Finset (Fin 200000))) rfl (fun k _ => centredSq_apply x k q)]

theorem hostRsqrt_apply {s : Shape} {φ : FTy} (v : FVec Ideal s φ) (i : s.Idx) : Host.rsqrt v i = Ideal.rsqrt (v i) := rfl

theorem bnrelu_apply (x : FVec Ideal S200000x128 .f32) (p : Fin 200000) (q : Fin 128) :
    Cert.Spec.bnrelu x (ix2 p q)
      = max ((x (ix2 p q) - Cert.Spec.bnMean x (ix1 q))
          * Ideal.rsqrt (Cert.Spec.bnVar x (ix1 q) + Ideal.ofBits .f32 0x3727C5AC#32)) 0 := by
  unfold Cert.Spec.bnrelu
  rw [maximumf_apply, mulf_apply, subf_apply, rowsOf_apply, rowOf_apply, rowsOf_apply, rowOf_apply,
    broadcastInDim_scalar_apply, constant_apply, Ideal.ofBits_zero_f32, hostRsqrt_apply, addf_apply,
    broadcastInDim_scalar_apply, constant_apply]

end Cert.Proof.BnRead

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

theorem hz_norm : (![0, 0] : Fin 2 → Nat) = fun _ => 0 := funext fun a => by fin_cases a <;> rfl

def normClamp (x : S200000x128.Idx → EReal) (mean istd : S128.Idx → EReal) : S200000x128.Idx → EReal :=
  fun i => max ((x i - mean (ix1 (i 1))) * istd (ix1 (i 1))) 0

theorem normClamp_ix2 (x : S200000x128.Idx → EReal) (mean istd : S128.Idx → EReal) (p : Fin 200000) (q : Fin 128) :
    normClamp x mean istd (ix2 p q) = max ((x (ix2 p q) - mean (ix1 q)) * istd (ix1 q)) 0 := rfl

variable (V : (c : Dev nD) → (b : Ref sig .tc) → Buf (Elt Ideal) ((c : Thread nD τ).loc b))

theorem pay2_apply (x0 : Vec Ideal S2000x128 .f32) (x1 x2 : Vec Ideal S1x128 .f32) (p : Fin 2000) (q : Fin 128) :
    k2_pay1 x0 x1 x2 (ix2 p q) = max ((x0 (ix2 p q) - x1 (ix2 (0 : Fin 1) q)) * x2 (ix2 (0 : Fin 1) q)) 0 := by
  unfold k2_pay1
  rw [maximumf_apply, mulf_apply, subf_apply, broadcast_apply, shapeCast_self, shapeCast_self, shapeCast_self,
    broadcastTo_1b_ab_apply, broadcastTo_1b_ab_apply]
  exact congrArg _ Ideal.ofBits_zero_f32

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem iblk2_0_apply (c : Dev nD) (t : Fin cfg2.N) (y : S2000x128.Idx) (k : S200000x128.Idx)
    (hk0 : (k 0).val = t.val * 2000 + (y 0).val) (hk1 : (k 1).val = (y 1).val) :
    (iblk2 V c 0 t : Vec Ideal S2000x128 .f32) y = (V c (Pipeline.arrRef spec2 0) : S200000x128.Idx → EReal) k := by
  obtain ⟨e0, e1, -⟩ := idx_facts2 t
  unfold iblk2
  rw [View.read_apply]
  refine congrArg (V c (Pipeline.arrRef spec2 0)) ?_
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

theorem iblk2_1_eq (c : Dev nD) (t : Fin cfg2.N) :
    (iblk2 V c 1 t : Vec Ideal S1x128 .f32) = (V c (Pipeline.arrRef spec2 1) : S1x128.Idx → EReal) := by
  obtain ⟨-, -, e0, e1, -⟩ := idx_facts2 t
  funext y
  unfold iblk2
  rw [View.read_apply]
  refine congrArg (V c (Pipeline.arrRef spec2 1)) ?_
  funext a
  apply Fin.ext
  match a with
  | ⟨0, _⟩ => show win2_1.index t 0 * 1 + 1 * (y 0).val = (y 0).val; rw [e0]; omega
  | ⟨1, _⟩ => show win2_1.index t 1 * 128 + 1 * (y 1).val = (y 1).val; rw [e1]; omega

theorem iblk2_2_eq (c : Dev nD) (t : Fin cfg2.N) :
    (iblk2 V c 2 t : Vec Ideal S1x128 .f32) = (V c (Pipeline.arrRef spec2 2) : S1x128.Idx → EReal) := by
  obtain ⟨-, -, -, -, e0, e1, -⟩ := idx_facts2 t
  funext y
  unfold iblk2
  rw [View.read_apply]
  refine congrArg (V c (Pipeline.arrRef spec2 2)) ?_
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

theorem norm_block2 (X : S200000x128.Idx → EReal) (M I : S1x128.Idx → EReal) (mean istd : S128.Idx → EReal)
    (hm : ∀ j : Fin 128, M (ix2 (0 : Fin 1) j) = mean (ix1 j)) (hi : ∀ j : Fin 128, I (ix2 (0 : Fin 1) j) = istd (ix1 j))
    (x0 : Vec Ideal S2000x128 .f32) (tv : ℕ)
    (h0 : ∀ (y : S2000x128.Idx) (k : S200000x128.Idx), (k 0).val = tv * 2000 + (y 0).val → (k 1).val = (y 1).val → x0 y = X k)
    (y : S2000x128.Idx) (k : S200000x128.Idx) (hk0 : (k 0).val = tv * 2000 + (y 0).val) (hk1 : (k 1).val = (y 1).val) :
    k2_pay1 x0 M I y = normClamp X mean istd k := by
  have hx := h0 y k hk0 hk1
  obtain ⟨p, q, rfl⟩ : ∃ (p : Fin 2000) (q : Fin 128), y = ix2 p q := ⟨y 0, y 1, eq_ix2 y⟩
  obtain ⟨r, q', rfl⟩ : ∃ (r : Fin 200000) (q' : Fin 128), k = ix2 r q' := ⟨k 0, k 1, eq_ix2 k⟩
  obtain rfl : q' = q := Fin.ext hk1
  rw [pay2_apply, normClamp_ix2, hx, hm, hi]

theorem flushed2_3 (c : Dev nD) (mean istd : S128.Idx → EReal)
    (hm : ∀ j : Fin 128, (V c (Pipeline.arrRef spec2 1) : S1x128.Idx → EReal) (ix2 (0 : Fin 1) j) = mean (ix1 j))
    (hi : ∀ j : Fin 128, (V c (Pipeline.arrRef spec2 2) : S1x128.Idx → EReal) (ix2 (0 : Fin 1) j) = istd (ix1 j))
    (t : Fin cfg2.N) :
    (dat2 (F := Ideal) V c).flushed 3 t
      = ((cfg2.win 3).blk t).view.read (Elt Ideal) (normClamp (V c (Pipeline.arrRef spec2 0)) mean istd) := by
  obtain ⟨-, -, -, -, -, -, e0, e1⟩ := idx_facts2 t
  show (cfg2.win 3).cut (grid2.coords t) ((dat2 V c).after 3 t) = _
  rw [after2_3]
  unfold out2_3
  rw [View.canon_unit_zero hz_norm]
  simp only [View.ld_unit_zero (S := S2000x128) hz_norm, View.ld_unit_zero (S := S1x128) hz_norm]
  rw [iblk2_1_eq, iblk2_2_eq]
  funext j
  refine norm_block2 (V c (Pipeline.arrRef spec2 0)) (V c (Pipeline.arrRef spec2 1)) (V c (Pipeline.arrRef spec2 2)) mean istd hm hi
    (iblk2 V c 0 t) t.val (fun y k => iblk2_0_apply V c t y k) j (((cfg2.win 3).blk t).view.emb j) ?_ ?_
  · show win2_3.index t 0 * 2000 + 1 * (j 0).val = t.val * 2000 + (j 0).val
    rw [e0]; omega
  · show win2_3.index t 1 * 128 + 1 * (j 1).val = (j 1).val
    rw [e1]; omega

theorem mem_blk2_3 (t : Fin cfg2.N) (i : S200000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v46).slice (win2_3.rect t)).set ↔ _
  rw [View.set_slice_whole, Rect.mem_set_unit]
  exact Iff.rfl

theorem covered2_3 (i : S200000x128.Idx) :
    ∃ t : Fin cfg2.N, (cfg2.win 3).flush t = true ∧ i ∈ ((cfg2.win 3).blk t).view.set := by
  have hi0 : (i 0).val < 200000 := (i 0).isLt
  have hi1 : (i 1).val < 128 := (i 1).isLt
  have hN : cfg2.N = 100 := N_2
  have ht : (i 0).val / 2000 < cfg2.N := by rw [hN]; omega
  obtain ⟨-, -, -, -, -, -, e0, e1⟩ := idx_facts2 ⟨(i 0).val / 2000, ht⟩
  refine ⟨⟨(i 0).val / 2000, ht⟩, flush2_3 _, ?_⟩
  rw [mem_blk2_3]
  intro a
  match a with
  | ⟨0, _⟩ =>
    show win2_3.index ⟨(i 0).val / 2000, ht⟩ 0 * 2000 ≤ (i 0).val ∧ (i 0).val < win2_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ 1 * 128 ≤ (i 1).val ∧ (i 1).val < win2_3.index ⟨(i 0).val / 2000, ht⟩ 1 * 128 + 128
    rw [e1]; omega

theorem arr2 (c : Dev nD) (mean istd : S128.Idx → EReal)
    (hm : ∀ j : Fin 128, (V c (Pipeline.arrRef spec2 1) : S1x128.Idx → EReal) (ix2 (0 : Fin 1) j) = mean (ix1 j))
    (hi : ∀ j : Fin 128, (V c (Pipeline.arrRef spec2 2) : S1x128.Idx → EReal) (ix2 (0 : Fin 1) j) = istd (ix1 j)) :
    (dat2 (F := Ideal) V c).arrAt 3 cfg2.N = normClamp (V c (Pipeline.arrRef spec2 0)) mean istd :=
  (dat2 V c).arrAt_eq_of_cover 3 _ (fun t _ => flushed2_3 V c mean istd hm hi t) covered2_3

theorem pay5_apply (x0 : Vec Ideal S2000x128 .f32) (x1 x2 : Vec Ideal S1x128 .f32) (p : Fin 2000) (q : Fin 128) :
    k5_pay1 x0 x1 x2 (ix2 p q) = max ((x0 (ix2 p q) - x1 (ix2 (0 : Fin 1) q)) * x2 (ix2 (0 : Fin 1) q)) 0 := by
  unfold k5_pay1
  rw [maximumf_apply, mulf_apply, subf_apply, broadcast_apply, shapeCast_self, shapeCast_self, shapeCast_self,
    broadcastTo_1b_ab_apply, broadcastTo_1b_ab_apply]
  exact congrArg _ Ideal.ofBits_zero_f32

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem iblk5_0_apply (c : Dev nD) (t : Fin cfg5.N) (y : S2000x128.Idx) (k : S200000x128.Idx)
    (hk0 : (k 0).val = t.val * 2000 + (y 0).val) (hk1 : (k 1).val = (y 1).val) :
    (iblk5 V c 0 t : Vec Ideal S2000x128 .f32) y = (V c (Pipeline.arrRef spec5 0) : S200000x128.Idx → EReal) k := by
  obtain ⟨e0, e1, -⟩ := idx_facts5 t
  unfold iblk5
  rw [View.read_apply]
  refine congrArg (V c (Pipeline.arrRef spec5 0)) ?_
  funext a
  apply Fin.ext
  match a with
  | ⟨0, _⟩ => show win5_0.index t 0 * 2000 + 1 * (y 0).val = (k 0).val; rw [e0, hk0]; omega
  | ⟨1, _⟩ => show win5_0.index t 1 * 128 + 1 * (y 1).val = (k 1).val; rw [e1, hk1]; omega

theorem iblk5_1_eq (c : Dev nD) (t : Fin cfg5.N) :
    (iblk5 V c 1 t : Vec Ideal S1x128 .f32) = (V c (Pipeline.arrRef spec5 1) : S1x128.Idx → EReal) := by
  obtain ⟨-, -, e0, e1, -⟩ := idx_facts5 t
  funext y
  unfold iblk5
  rw [View.read_apply]
  refine congrArg (V c (Pipeline.arrRef spec5 1)) ?_
  funext a
  apply Fin.ext
  match a with
  | ⟨0, _⟩ => show win5_1.index t 0 * 1 + 1 * (y 0).val = (y 0).val; rw [e0]; omega
  | ⟨1, _⟩ => show win5_1.index t 1 * 128 + 1 * (y 1).val = (y 1).val; rw [e1]; omega

theorem iblk5_2_eq (c : Dev nD) (t : Fin cfg5.N) :
    (iblk5 V c 2 t : Vec Ideal S1x128 .f32) = (V c (Pipeline.arrRef spec5 2) : S1x128.Idx → EReal) := by
  obtain ⟨-, -, -, -, e0, e1, -⟩ := idx_facts5 t
  funext y
  unfold iblk5
  rw [View.read_apply]
  refine congrArg (V c (Pipeline.arrRef spec5 2)) ?_
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

theorem norm_block5 (X : S200000x128.Idx → EReal) (M I : S1x128.Idx → EReal) (mean istd : S128.Idx → EReal)
    (hm : ∀ j : Fin 128, M (ix2 (0 : Fin 1) j) = mean (ix1 j)) (hi : ∀ j : Fin 128, I (ix2 (0 : Fin 1) j) = istd (ix1 j))
    (x0 : Vec Ideal S2000x128 .f32) (tv : ℕ)
    (h0 : ∀ (y : S2000x128.Idx) (k : S200000x128.Idx), (k 0).val = tv * 2000 + (y 0).val → (k 1).val = (y 1).val → x0 y = X k)
    (y : S2000x128.Idx) (k : S200000x128.Idx) (hk0 : (k 0).val = tv * 2000 + (y 0).val) (hk1 : (k 1).val = (y 1).val) :
    k5_pay1 x0 M I y = normClamp X mean istd k := by
  have hx := h0 y k hk0 hk1
  obtain ⟨p, q, rfl⟩ : ∃ (p : Fin 2000) (q : Fin 128), y = ix2 p q := ⟨y 0, y 1, eq_ix2 y⟩
  obtain ⟨r, q', rfl⟩ : ∃ (r : Fin 200000) (q' : Fin 128), k = ix2 r q' := ⟨k 0, k 1, eq_ix2 k⟩
  obtain rfl : q' = q := Fin.ext hk1
  rw [pay5_apply, normClamp_ix2, hx, hm, hi]

theorem flushed5_3 (c : Dev nD) (mean istd : S128.Idx → EReal)
    (hm : ∀ j : Fin 128, (V c (Pipeline.arrRef spec5 1) : S1x128.Idx → EReal) (ix2 (0 : Fin 1) j) = mean (ix1 j))
    (hi : ∀ j : Fin 128, (V c (Pipeline.arrRef spec5 2) : S1x128.Idx → EReal) (ix2 (0 : Fin 1) j) = istd (ix1 j))
    (t : Fin cfg5.N) :
    (dat5 (F := Ideal) V c).flushed 3 t
      = ((cfg5.win 3).blk t).view.read (Elt Ideal) (normClamp (V c (Pipeline.arrRef spec5 0)) mean istd) := by
  obtain ⟨-, -, -, -, -, -, e0, e1⟩ := idx_facts5 t
  show (cfg5.win 3).cut (grid5.coords t) ((dat5 V c).after 3 t) = _
  rw [after5_3]
  unfold out5_3
  rw [View.canon_unit_zero hz_norm]
  simp only [View.ld_unit_zero (S := S2000x128) hz_norm, View.ld_unit_zero (S := S1x128) hz_norm]
  rw [iblk5_1_eq, iblk5_2_eq]
  funext j
  refine norm_block5 (V c (Pipeline.arrRef spec5 0)) (V c (Pipeline.arrRef spec5 1)) (V c (Pipeline.arrRef spec5 2)) mean istd hm hi
    (iblk5 V c 0 t) t.val (fun y k => iblk5_0_apply V c t y k) j (((cfg5.win 3).blk t).view.emb j) ?_ ?_
  · show win5_3.index t 0 * 2000 + 1 * (j 0).val = t.val * 2000 + (j 0).val
    rw [e0]; omega
  · show win5_3.index t 1 * 128 + 1 * (j 1).val = (j 1).val
    rw [e1]; omega

theorem mem_blk5_3 (t : Fin cfg5.N) (i : S200000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v86).slice (win5_3.rect t)).set ↔ _
  rw [View.set_slice_whole, Rect.mem_set_unit]
  exact Iff.rfl

theorem covered5_3 (i : S200000x128.Idx) :
    ∃ t : Fin cfg5.N, (cfg5.win 3).flush t = true ∧ i ∈ ((cfg5.win 3).blk t).view.set := by
  have hi0 : (i 0).val < 200000 := (i 0).isLt
  have hi1 : (i 1).val < 128 := (i 1).isLt
  have hN : cfg5.N = 100 := N_5
  have ht : (i 0).val / 2000 < cfg5.N := by rw [hN]; omega
  obtain ⟨-, -, -, -, -, -, e0, e1⟩ := idx_facts5 ⟨(i 0).val / 2000, ht⟩
  refine ⟨⟨(i 0).val / 2000, ht⟩, flush5_3 _, ?_⟩
  rw [mem_blk5_3]
  intro a
  match a with
  | ⟨0, _⟩ =>
    show win5_3.index ⟨(i 0).val / 2000, ht⟩ 0 * 2000 ≤ (i 0).val ∧ (i 0).val < win5_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win5_3.index ⟨(i 0).val / 2000, ht⟩ 1 * 128 ≤ (i 1).val ∧ (i 1).val < win5_3.index ⟨(i 0).val / 2000, ht⟩ 1 * 128 + 128
    rw [e1]; omega

theorem arr5 (c : Dev nD) (mean istd : S128.Idx → EReal)
    (hm : ∀ j : Fin 128, (V c (Pipeline.arrRef spec5 1) : S1x128.Idx → EReal) (ix2 (0 : Fin 1) j) = mean (ix1 j))
    (hi : ∀ j : Fin 128, (V c (Pipeline.arrRef spec5 2) : S1x128.Idx → EReal) (ix2 (0 : Fin 1) j) = istd (ix1 j)) :
    (dat5 (F := Ideal) V c).arrAt 3 cfg5.N = normClamp (V c (Pipeline.arrRef spec5 0)) mean istd :=
  (dat5 V c).arrAt_eq_of_cover 3 _ (fun t _ => flushed5_3 V c mean istd hm hi t) covered5_3

end Cert.KernelIdeal.HandV

namespace Cert.KernelIdeal.HandV

open Idealize.ShloMosaic Idealize.ShloMosaic.ValueIdx
open Cert.KernelIdeal.Facts₀
open Cert.Proof.MathR
open scoped BigOperators

theorem normClamp_eq_bnrelu (x : S200000x128.Idx → EReal) (hx : ∀ i, IsReal (x i)) (mean istd : S128.Idx → EReal)
    (hmean : ∀ j : Fin 128, mean (ix1 j) = Ideal.div (∑ i : Fin 200000, x (ix2 i j)) ((200000 : ℝ) : EReal))
    (histd : ∀ j : Fin 128, istd (ix1 j)
      = Ideal.rsqrt (Ideal.div (∑ i : Fin 200000, x (ix2 i j) * x (ix2 i j)) ((200000 : ℝ) : EReal)
          - mean (ix1 j) * mean (ix1 j) + Ideal.ofBits .f32 0x3727C5AC#32)) :
    normClamp x mean istd = Cert.Spec.bnrelu (F := Ideal) x := by
  funext i
  obtain ⟨p, q, rfl⟩ : ∃ (p : Fin 200000) (q : Fin 128), i = ix2 p q := ⟨i 0, i 1, eq_ix2 i⟩
  obtain ⟨v, -, h₁, h₂⟩ := variance_real_200000 (Fintype.card_fin 200000) (fun k : Fin 200000 => x (ix2 k q)) (fun k => hx _)
  beta_reduce at h₁ h₂
  rw [normClamp_ix2, Cert.Proof.BnRead.bnrelu_apply, Cert.Proof.BnRead.bnMean_apply, Cert.Proof.BnRead.bnVar_apply,
    histd, hmean, h₁, h₂]

theorem bnrelu_isReal (x : S200000x128.Idx → EReal) (hx : ∀ i, IsReal (x i)) (i : S200000x128.Idx) :
    IsReal (Cert.Spec.bnrelu (F := Ideal) x i) := by
  obtain ⟨p, q, rfl⟩ : ∃ (p : Fin 200000) (q : Fin 128), i = ix2 p q := ⟨i 0, i 1, eq_ix2 i⟩
  obtain ⟨v, hv, h₁, -⟩ := variance_real_200000 (Fintype.card_fin 200000) (fun k : Fin 200000 => x (ix2 k q)) (fun k => hx _)
  beta_reduce at h₁
  obtain ⟨e, he, hE⟩ := ofBits_eps
  obtain ⟨sr, -, hsr⟩ := rsqrt_add_pos hv he
  rw [Cert.Proof.BnRead.bnrelu_apply, Cert.Proof.BnRead.bnMean_apply, Cert.Proof.BnRead.bnVar_apply, h₁, hE, hsr]
  exact (((hx _).sub ((IsReal.sum_univ _ fun k => hx _).div_coe (by norm_num))).mul (IsReal.coe sr)).max IsReal.zero

abbrev meanOf (s1 : FVec Ideal S1x128 .f32) : FVec Ideal S128 .f32 :=
  Host.divf (fun i => shapeCast S128 s1 shapeCasts_S1x128_S128 i)
    (broadcastInDim S128 ![] bcast_S_S128 (constant (F := Ideal) S_ .f32 0x48435000#32))

abbrev invStdOf (s1 s2 : FVec Ideal S1x128 .f32) : FVec Ideal S128 .f32 :=
  Host.rsqrt (addf (subf (Host.divf (fun i => shapeCast S128 s2 shapeCasts_S1x128_S128 i)
        (broadcastInDim S128 ![] bcast_S_S128 (constant (F := Ideal) S_ .f32 0x48435000#32)))
      (mulf (meanOf s1) (meanOf s1)))
    (broadcastInDim S128 ![] bcast_S_S128 (constant (F := Ideal) S_ .f32 0x3727C5AC#32)))

theorem meanOf_apply (s1 : FVec Ideal S1x128 .f32) (j : Fin 128) :
    meanOf s1 (ix1 j) = Ideal.div (s1 (ix2 (0 : Fin 1) j)) ((200000 : ℝ) : EReal) := by
  unfold meanOf
  rw [hostDivf_apply, shapeCast_1a_a_apply, broadcastInDim_scalar_apply, constant_apply, ofBits_200000]

theorem invStdOf_apply (s1 s2 : FVec Ideal S1x128 .f32) (j : Fin 128) :
    invStdOf s1 s2 (ix1 j)
      = Ideal.rsqrt (Ideal.div (s2 (ix2 (0 : Fin 1) j)) ((200000 : ℝ) : EReal)
          - meanOf s1 (ix1 j) * meanOf s1 (ix1 j) + Ideal.ofBits .f32 0x3727C5AC#32) := by
  unfold invStdOf
  rw [Cert.Proof.BnRead.hostRsqrt_apply, addf_apply, subf_apply, mulf_apply, hostDivf_apply, shapeCast_1a_a_apply,
    broadcastInDim_scalar_apply, constant_apply, ofBits_200000, broadcastInDim_scalar_apply, constant_apply]

theorem bn_bridge (x : S200000x128.Idx → EReal) (hx : ∀ i, IsReal (x i)) (s1 s2 : FVec Ideal S1x128 .f32)
    (hs : ∀ j : Fin 128, s1 (ix2 (0 : Fin 1) j) = ∑ i : Fin 200000, x (ix2 i j))
    (hss : ∀ j : Fin 128, s2 (ix2 (0 : Fin 1) j) = ∑ i : Fin 200000, x (ix2 i j) * x (ix2 i j)) :
    normClamp x (meanOf s1) (invStdOf s1 s2) = Cert.Spec.bnrelu (F := Ideal) x :=
  normClamp_eq_bnrelu x hx _ _ (fun j => by rw [meanOf_apply, hs]) (fun j => by rw [invStdOf_apply, hss])

end Cert.KernelIdeal.HandV

end
-- ==== Proof.KI.ValConvSpec.lean ====
import proofs.«410641_j56710748176715_1_alg».proof.Proof.Ref.Stages
import proofs.«410641_j56710748176715_1_alg».proof.Proof.Gen.ReferenceIdeal
import proofs.«410641_j56710748176715_1_alg».proof.Proof.Math.Real
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.SpecConv

open Cert.ReferenceIdeal Cert.ReferenceIdeal.Gen
open Idealize.ShloMosaic Idealize.ShloMosaic.ValueIdx
open Cert.Proof.MathR
open scoped BigOperators

def sel4 {α : Type} (d : Fin 4) (a b c e : α) : α :=
  match d with
  | 0 => a
  | 1 => b
  | 2 => c
  | 3 => e

def brow (d : Fin 4) (r : Fin 50000) : Fin 200000 := ⟨50000 * d.val + r.val, by have := d.isLt; have := r.isLt; omega⟩

theorem exists_brow (i : Fin 200000) : ∃ (d : Fin 4) (r : Fin 50000), i = brow d r :=
  ⟨⟨i.val / 50000, by have := i.isLt; omega⟩, ⟨i.val % 50000, Nat.mod_lt _ (by decide)⟩,
    Fin.ext (by show i.val = 50000 * (i.val / 50000) + i.val % 50000; omega)⟩

theorem lhs_s1_0 (i : S200000x128.Idx) (q : dot_S200000x64_S64x128_S200000x128_1_0_0_1_n_n.contr.Idx) :
    (dot_S200000x64_S64x128_S200000x128_1_0_0_1_n_n.lhsIdx i q 0).val = (i 0).val := by
  unfold DotDims.lhsIdx
  rw [dif_neg (show ¬(0 : Fin S200000x64.rank) ∈ dot_S200000x64_S64x128_S200000x128_1_0_0_1_n_n.lhsBatch by decide),
    dif_pos (show (0 : Fin S200000x64.rank) ∈ dot_S200000x64_S64x128_S200000x128_1_0_0_1_n_n.lhsNonContracting by decide)]
  rfl
theorem lhs_s1_1 (i : S200000x128.Idx) (q : dot_S200000x64_S64x128_S200000x128_1_0_0_1_n_n.contr.Idx) :
    (dot_S200000x64_S64x128_S200000x128_1_0_0_1_n_n.lhsIdx i q 1).val = (q ⟨0, by decide⟩).val :=
  dot_S200000x64_S64x128_S200000x128_1_0_0_1_n_n.lhsIdx_val_of_single rfl i q
theorem rhs_s1_0 (i : S200000x128.Idx) (q : dot_S200000x64_S64x128_S200000x128_1_0_0_1_n_n.contr.Idx) :
    (dot_S200000x64_S64x128_S200000x128_1_0_0_1_n_n.rhsIdx i q 0).val = (q ⟨0, by decide⟩).val :=
  dot_S200000x64_S64x128_S200000x128_1_0_0_1_n_n.rhsIdx_val_of_single rfl i q
theorem rhs_s1_1 (i : S200000x128.Idx) (q : dot_S200000x64_S64x128_S200000x128_1_0_0_1_n_n.contr.Idx) :
    (dot_S200000x64_S64x128_S200000x128_1_0_0_1_n_n.rhsIdx i q 1).val = (i 1).val := by
  unfold DotDims.rhsIdx
  rw [dif_neg (show ¬(1 : Fin S64x128.rank) ∈ dot_S200000x64_S64x128_S200000x128_1_0_0_1_n_n.rhsBatch by decide),
    dif_pos (show (1 : Fin S64x128.rank) ∈ dot_S200000x64_S64x128_S200000x128_1_0_0_1_n_n.rhsNonContracting by decide)]
  rfl

theorem dot_s1 (x : FVec Ideal S200000x64 .f32) (w : FVec Ideal S64x128 .f32) (p : Fin 200000) (q : Fin 128) :
    Host.dotGeneral dot_S200000x64_S64x128_S200000x128_1_0_0_1_n_n none x w (ix2 p q) = ∑ k : Fin 64, x (ix2 p k) * w (ix2 k q) := by
  simp only [Host.dotGeneral]
  rw [Ideal.dotGeneral_apply, ← Equiv.sum_comp (contrEquiv1 dot_S200000x64_S64x128_S200000x128_1_0_0_1_n_n 64 rfl rfl).symm]
  refine Finset.sum_congr rfl fun k _ => ?_
  have hk := contrEquiv1_symm_val dot_S200000x64_S64x128_S200000x128_1_0_0_1_n_n 64 rfl rfl k
  have el : dot_S200000x64_S64x128_S200000x128_1_0_0_1_n_n.lhsIdx (ix2 p q) ((contrEquiv1 dot_S200000x64_S64x128_S200000x128_1_0_0_1_n_n 64 rfl rfl).symm k) = ix2 p k := funext fun a => Fin.ext (by
    match a with
    | ⟨0, _⟩ => exact lhs_s1_0 _ _
    | ⟨1, _⟩ => exact (lhs_s1_1 _ _).trans hk)
  have er : dot_S200000x64_S64x128_S200000x128_1_0_0_1_n_n.rhsIdx (ix2 p q) ((contrEquiv1 dot_S200000x64_S64x128_S200000x128_1_0_0_1_n_n 64 rfl rfl).symm k) = ix2 k q := funext fun a => Fin.ext (by
    match a with
    | ⟨0, _⟩ => exact (rhs_s1_0 _ _).trans hk
    | ⟨1, _⟩ => exact rhs_s1_1 _ _)
  rw [el, er]

theorem lhs_g1_0 (i : S50000x128.Idx) (q : dot_S50000x80_S80x128_S50000x128_1_0_0_1_n_n.contr.Idx) :
    (dot_S50000x80_S80x128_S50000x128_1_0_0_1_n_n.lhsIdx i q 0).val = (i 0).val := by
  unfold DotDims.lhsIdx
  rw [dif_neg (show ¬(0 : Fin S50000x80.rank) ∈ dot_S50000x80_S80x128_S50000x128_1_0_0_1_n_n.lhsBatch by decide),
    dif_pos (show (0 : Fin S50000x80.rank) ∈ dot_S50000x80_S80x128_S50000x128_1_0_0_1_n_n.lhsNonContracting by decide)]
  rfl
theorem lhs_g1_1 (i : S50000x128.Idx) (q : dot_S50000x80_S80x128_S50000x128_1_0_0_1_n_n.contr.Idx) :
    (dot_S50000x80_S80x128_S50000x128_1_0_0_1_n_n.lhsIdx i q 1).val = (q ⟨0, by decide⟩).val :=
  dot_S50000x80_S80x128_S50000x128_1_0_0_1_n_n.lhsIdx_val_of_single rfl i q
theorem rhs_g1_0 (i : S50000x128.Idx) (q : dot_S50000x80_S80x128_S50000x128_1_0_0_1_n_n.contr.Idx) :
    (dot_S50000x80_S80x128_S50000x128_1_0_0_1_n_n.rhsIdx i q 0).val = (q ⟨0, by decide⟩).val :=
  dot_S50000x80_S80x128_S50000x128_1_0_0_1_n_n.rhsIdx_val_of_single rfl i q
theorem rhs_g1_1 (i : S50000x128.Idx) (q : dot_S50000x80_S80x128_S50000x128_1_0_0_1_n_n.contr.Idx) :
    (dot_S50000x80_S80x128_S50000x128_1_0_0_1_n_n.rhsIdx i q 1).val = (i 1).val := by
  unfold DotDims.rhsIdx
  rw [dif_neg (show ¬(1 : Fin S80x128.rank) ∈ dot_S50000x80_S80x128_S50000x128_1_0_0_1_n_n.rhsBatch by decide),
    dif_pos (show (1 : Fin S80x128.rank) ∈ dot_S50000x80_S80x128_S50000x128_1_0_0_1_n_n.rhsNonContracting by decide)]
  rfl

theorem dot_g1 (x : FVec Ideal S50000x80 .f32) (w : FVec Ideal S80x128 .f32) (p : Fin 50000) (q : Fin 128) :
    Host.dotGeneral dot_S50000x80_S80x128_S50000x128_1_0_0_1_n_n none x w (ix2 p q) = ∑ k : Fin 80, x (ix2 p k) * w (ix2 k q) := by
  simp only [Host.dotGeneral]
  rw [Ideal.dotGeneral_apply, ← Equiv.sum_comp (contrEquiv1 dot_S50000x80_S80x128_S50000x128_1_0_0_1_n_n 80 rfl rfl).symm]
  refine Finset.sum_congr rfl fun k _ => ?_
  have hk := contrEquiv1_symm_val dot_S50000x80_S80x128_S50000x128_1_0_0_1_n_n 80 rfl rfl k
  have el : dot_S50000x80_S80x128_S50000x128_1_0_0_1_n_n.lhsIdx (ix2 p q) ((contrEquiv1 dot_S50000x80_S80x128_S50000x128_1_0_0_1_n_n 80 rfl rfl).symm k) = ix2 p k := funext fun a => Fin.ext (by
    match a with
    | ⟨0, _⟩ => exact lhs_g1_0 _ _
    | ⟨1, _⟩ => exact (lhs_g1_1 _ _).trans hk)
  have er : dot_S50000x80_S80x128_S50000x128_1_0_0_1_n_n.rhsIdx (ix2 p q) ((contrEquiv1 dot_S50000x80_S80x128_S50000x128_1_0_0_1_n_n 80 rfl rfl).symm k) = ix2 k q := funext fun a => Fin.ext (by
    match a with
    | ⟨0, _⟩ => exact (rhs_g1_0 _ _).trans hk
    | ⟨1, _⟩ => exact rhs_g1_1 _ _)
  rw [el, er]

theorem x1_apply (A : FVec Ideal S200000x64 .f32) (sW : FVec Ideal S64x128 .f32) (cb : FVec Ideal S128 .f32)
    (n1 n2 n3 n4 : FVec Ideal S50000x80 .f32) (d1 d2 d3 d4 : FVec Ideal S80x128 .f32) (d : Fin 4) (r : Fin 50000) (j : Fin 128) :
    Cert.Spec.x1 A sW cb n1 n2 n3 n4 d1 d2 d3 d4 (ix2 (brow d r) j)
      = ((∑ k : Fin 64, A (ix2 (brow d r) k) * sW (ix2 k j))
          + ∑ k : Fin 80, sel4 d n1 n2 n3 n4 (ix2 r k) * sel4 d d1 d2 d3 d4 (ix2 k j))
        + cb (ix1 j) := by
  unfold Cert.Spec.x1
  refine congrArg₂ (· + ·) (congrArg₂ (· + ·) ?_ ?_) ?_
  · exact dot_s1 A sW (brow d r) j
  · match d with
    | ⟨0, _⟩ =>
      exact (concatenate_apply_piece (0 : Fin S200000x128.rank) _ _ (ix2 (brow ⟨0, by omega⟩ r) j) 0 (by simp) S50000x128 _ rfl rfl 0 rfl (ix2 r j)
        (fun b hb => by match b with | ⟨0, _⟩ => exact absurd rfl hb | ⟨1, _⟩ => rfl) rfl).trans (dot_g1 n1 d1 r j)
    | ⟨1, _⟩ =>
      exact (concatenate_apply_piece (0 : Fin S200000x128.rank) _ _ (ix2 (brow ⟨1, by omega⟩ r) j) 1 (by simp) S50000x128 _ rfl rfl 50000 rfl (ix2 r j)
        (fun b hb => by match b with | ⟨0, _⟩ => exact absurd rfl hb | ⟨1, _⟩ => rfl) rfl).trans (dot_g1 n2 d2 r j)
    | ⟨2, _⟩ =>
      exact (concatenate_apply_piece (0 : Fin S200000x128.rank) _ _ (ix2 (brow ⟨2, by omega⟩ r) j) 2 (by simp) S50000x128 _ rfl rfl 100000 rfl (ix2 r j)
        (fun b hb => by match b with | ⟨0, _⟩ => exact absurd rfl hb | ⟨1, _⟩ => rfl) rfl).trans (dot_g1 n3 d3 r j)
    | ⟨3, _⟩ =>
      exact (concatenate_apply_piece (0 : Fin S200000x128.rank) _ _ (ix2 (brow ⟨3, by omega⟩ r) j) 3 (by simp) S50000x128 _ rfl rfl 150000 (by show ([50000, 50000, 50000] : List ℕ).sum = 150000; simp) (ix2 r j)
        (fun b hb => by match b with | ⟨0, _⟩ => exact absurd rfl hb | ⟨1, _⟩ => rfl) rfl).trans (dot_g1 n4 d4 r j)
  · refine (broadcastInDim_apply _ _ _ (ix2 (brow d r) j) (ix2 (0 : Fin 1) j) (fun a => ?_)).trans ?_
    · match a with
      | ⟨0, _⟩ => rfl
      | ⟨1, _⟩ => rfl
    · exact broadcastInDim_apply _ _ _ (ix2 (0 : Fin 1) j) (ix1 j) (fun a => by match a with | ⟨0, _⟩ => rfl)

theorem x1_isReal (A : FVec Ideal S200000x64 .f32) (sW : FVec Ideal S64x128 .f32) (cb : FVec Ideal S128 .f32)
    (n1 n2 n3 n4 : FVec Ideal S50000x80 .f32) (d1 d2 d3 d4 : FVec Ideal S80x128 .f32)
    (hA : ∀ i, IsReal (A i)) (hW : ∀ i, IsReal (sW i)) (hb : ∀ i, IsReal (cb i))
    (hn1 : ∀ i, IsReal (n1 i)) (hn2 : ∀ i, IsReal (n2 i)) (hn3 : ∀ i, IsReal (n3 i)) (hn4 : ∀ i, IsReal (n4 i))
    (hd1 : ∀ i, IsReal (d1 i)) (hd2 : ∀ i, IsReal (d2 i)) (hd3 : ∀ i, IsReal (d3 i)) (hd4 : ∀ i, IsReal (d4 i))
    (i : S200000x128.Idx) : IsReal (Cert.Spec.x1 A sW cb n1 n2 n3 n4 d1 d2 d3 d4 i) := by
  obtain ⟨i0, j, rfl⟩ : ∃ (i0 : Fin 200000) (j : Fin 128), i = ix2 i0 j := ⟨i 0, i 1, eq_ix2 i⟩
  obtain ⟨d, r, rfl⟩ := exists_brow i0
  rw [x1_apply]
  have hn : ∀ i, IsReal (sel4 d n1 n2 n3 n4 i) := fun i => by
    match d with
    | ⟨0, _⟩ => exact hn1 i
    | ⟨1, _⟩ => exact hn2 i
    | ⟨2, _⟩ => exact hn3 i
    | ⟨3, _⟩ => exact hn4 i
  have hd : ∀ i, IsReal (sel4 d d1 d2 d3 d4 i) := fun i => by
    match d with
    | ⟨0, _⟩ => exact hd1 i
    | ⟨1, _⟩ => exact hd2 i
    | ⟨2, _⟩ => exact hd3 i
    | ⟨3, _⟩ => exact hd4 i
  exact IsReal.add (IsReal.add (IsReal.sum_univ _ fun k => IsReal.mul (hA _) (hW _))
    (IsReal.sum_univ _ fun k => IsReal.mul (hn _) (hd _))) (hb _)

theorem lhs_s2_0 (i : S200000x128.Idx) (q : dot_S200000x128_S128x128_S200000x128_1_0_0_1_n_n.contr.Idx) :
    (dot_S200000x128_S128x128_S200000x128_1_0_0_1_n_n.lhsIdx i q 0).val = (i 0).val := by
  unfold DotDims.lhsIdx
  rw [dif_neg (show ¬(0 : Fin S200000x128.rank) ∈ dot_S200000x128_S128x128_S200000x128_1_0_0_1_n_n.lhsBatch by decide),
    dif_pos (show (0 : Fin S200000x128.rank) ∈ dot_S200000x128_S128x128_S200000x128_1_0_0_1_n_n.lhsNonContracting by decide)]
  rfl
theorem lhs_s2_1 (i : S200000x128.Idx) (q : dot_S200000x128_S128x128_S200000x128_1_0_0_1_n_n.contr.Idx) :
    (dot_S200000x128_S128x128_S200000x128_1_0_0_1_n_n.lhsIdx i q 1).val = (q ⟨0, by decide⟩).val :=
  dot_S200000x128_S128x128_S200000x128_1_0_0_1_n_n.lhsIdx_val_of_single rfl i q
theorem rhs_s2_0 (i : S200000x128.Idx) (q : dot_S200000x128_S128x128_S200000x128_1_0_0_1_n_n.contr.Idx) :
    (dot_S200000x128_S128x128_S200000x128_1_0_0_1_n_n.rhsIdx i q 0).val = (q ⟨0, by decide⟩).val :=
  dot_S200000x128_S128x128_S200000x128_1_0_0_1_n_n.rhsIdx_val_of_single rfl i q
theorem rhs_s2_1 (i : S200000x128.Idx) (q : dot_S200000x128_S128x128_S200000x128_1_0_0_1_n_n.contr.Idx) :
    (dot_S200000x128_S128x128_S200000x128_1_0_0_1_n_n.rhsIdx i q 1).val = (i 1).val := by
  unfold DotDims.rhsIdx
  rw [dif_neg (show ¬(1 : Fin S128x128.rank) ∈ dot_S200000x128_S128x128_S200000x128_1_0_0_1_n_n.rhsBatch by decide),
    dif_pos (show (1 : Fin S128x128.rank) ∈ dot_S200000x128_S128x128_S200000x128_1_0_0_1_n_n.rhsNonContracting by decide)]
  rfl

theorem dot_s2 (x : FVec Ideal S200000x128 .f32) (w : FVec Ideal S128x128 .f32) (p : Fin 200000) (q : Fin 128) :
    Host.dotGeneral dot_S200000x128_S128x128_S200000x128_1_0_0_1_n_n none x w (ix2 p q) = ∑ k : Fin 128, x (ix2 p k) * w (ix2 k q) := by
  simp only [Host.dotGeneral]
  rw [Ideal.dotGeneral_apply, ← Equiv.sum_comp (contrEquiv1 dot_S200000x128_S128x128_S200000x128_1_0_0_1_n_n 128 rfl rfl).symm]
  refine Finset.sum_congr rfl fun k _ => ?_
  have hk := contrEquiv1_symm_val dot_S200000x128_S128x128_S200000x128_1_0_0_1_n_n 128 rfl rfl k
  have el : dot_S200000x128_S128x128_S200000x128_1_0_0_1_n_n.lhsIdx (ix2 p q) ((contrEquiv1 dot_S200000x128_S128x128_S200000x128_1_0_0_1_n_n 128 rfl rfl).symm k) = ix2 p k := funext fun a => Fin.ext (by
    match a with
    | ⟨0, _⟩ => exact lhs_s2_0 _ _
    | ⟨1, _⟩ => exact (lhs_s2_1 _ _).trans hk)
  have er : dot_S200000x128_S128x128_S200000x128_1_0_0_1_n_n.rhsIdx (ix2 p q) ((contrEquiv1 dot_S200000x128_S128x128_S200000x128_1_0_0_1_n_n 128 rfl rfl).symm k) = ix2 k q := funext fun a => Fin.ext (by
    match a with
    | ⟨0, _⟩ => exact (rhs_s2_0 _ _).trans hk
    | ⟨1, _⟩ => exact rhs_s2_1 _ _)
  rw [el, er]

theorem lhs_g2_0 (i : S50000x128.Idx) (q : dot_S50000x144_S144x128_S50000x128_1_0_0_1_n_n.contr.Idx) :
    (dot_S50000x144_S144x128_S50000x128_1_0_0_1_n_n.lhsIdx i q 0).val = (i 0).val := by
  unfold DotDims.lhsIdx
  rw [dif_neg (show ¬(0 : Fin S50000x144.rank) ∈ dot_S50000x144_S144x128_S50000x128_1_0_0_1_n_n.lhsBatch by decide),
    dif_pos (show (0 : Fin S50000x144.rank) ∈ dot_S50000x144_S144x128_S50000x128_1_0_0_1_n_n.lhsNonContracting by decide)]
  rfl
theorem lhs_g2_1 (i : S50000x128.Idx) (q : dot_S50000x144_S144x128_S50000x128_1_0_0_1_n_n.contr.Idx) :
    (dot_S50000x144_S144x128_S50000x128_1_0_0_1_n_n.lhsIdx i q 1).val = (q ⟨0, by decide⟩).val :=
  dot_S50000x144_S144x128_S50000x128_1_0_0_1_n_n.lhsIdx_val_of_single rfl i q
theorem rhs_g2_0 (i : S50000x128.Idx) (q : dot_S50000x144_S144x128_S50000x128_1_0_0_1_n_n.contr.Idx) :
    (dot_S50000x144_S144x128_S50000x128_1_0_0_1_n_n.rhsIdx i q 0).val = (q ⟨0, by decide⟩).val :=
  dot_S50000x144_S144x128_S50000x128_1_0_0_1_n_n.rhsIdx_val_of_single rfl i q
theorem rhs_g2_1 (i : S50000x128.Idx) (q : dot_S50000x144_S144x128_S50000x128_1_0_0_1_n_n.contr.Idx) :
    (dot_S50000x144_S144x128_S50000x128_1_0_0_1_n_n.rhsIdx i q 1).val = (i 1).val := by
  unfold DotDims.rhsIdx
  rw [dif_neg (show ¬(1 : Fin S144x128.rank) ∈ dot_S50000x144_S144x128_S50000x128_1_0_0_1_n_n.rhsBatch by decide),
    dif_pos (show (1 : Fin S144x128.rank) ∈ dot_S50000x144_S144x128_S50000x128_1_0_0_1_n_n.rhsNonContracting by decide)]
  rfl

theorem dot_g2 (x : FVec Ideal S50000x144 .f32) (w : FVec Ideal S144x128 .f32) (p : Fin 50000) (q : Fin 128) :
    Host.dotGeneral dot_S50000x144_S144x128_S50000x128_1_0_0_1_n_n none x w (ix2 p q) = ∑ k : Fin 144, x (ix2 p k) * w (ix2 k q) := by
  simp only [Host.dotGeneral]
  rw [Ideal.dotGeneral_apply, ← Equiv.sum_comp (contrEquiv1 dot_S50000x144_S144x128_S50000x128_1_0_0_1_n_n 144 rfl rfl).symm]
  refine Finset.sum_congr rfl fun k _ => ?_
  have hk := contrEquiv1_symm_val dot_S50000x144_S144x128_S50000x128_1_0_0_1_n_n 144 rfl rfl k
  have el : dot_S50000x144_S144x128_S50000x128_1_0_0_1_n_n.lhsIdx (ix2 p q) ((contrEquiv1 dot_S50000x144_S144x128_S50000x128_1_0_0_1_n_n 144 rfl rfl).symm k) = ix2 p k := funext fun a => Fin.ext (by
    match a with
    | ⟨0, _⟩ => exact lhs_g2_0 _ _
    | ⟨1, _⟩ => exact (lhs_g2_1 _ _).trans hk)
  have er : dot_S50000x144_S144x128_S50000x128_1_0_0_1_n_n.rhsIdx (ix2 p q) ((contrEquiv1 dot_S50000x144_S144x128_S50000x128_1_0_0_1_n_n 144 rfl rfl).symm k) = ix2 k q := funext fun a => Fin.ext (by
    match a with
    | ⟨0, _⟩ => exact (rhs_g2_0 _ _).trans hk
    | ⟨1, _⟩ => exact rhs_g2_1 _ _)
  rw [el, er]

theorem x2_apply (A : FVec Ideal S200000x128 .f32) (sW : FVec Ideal S128x128 .f32) (cb : FVec Ideal S128 .f32)
    (n1 n2 n3 n4 : FVec Ideal S50000x144 .f32) (d1 d2 d3 d4 : FVec Ideal S144x128 .f32) (d : Fin 4) (r : Fin 50000) (j : Fin 128) :
    Cert.Spec.x2 A sW cb n1 n2 n3 n4 d1 d2 d3 d4 (ix2 (brow d r) j)
      = ((∑ k : Fin 128, A (ix2 (brow d r) k) * sW (ix2 k j))
          + ∑ k : Fin 144, sel4 d n1 n2 n3 n4 (ix2 r k) * sel4 d d1 d2 d3 d4 (ix2 k j))
        + cb (ix1 j) := by
  unfold Cert.Spec.x2
  refine congrArg₂ (· + ·) (congrArg₂ (· + ·) ?_ ?_) ?_
  · exact dot_s2 A sW (brow d r) j
  · match d with
    | ⟨0, _⟩ =>
      exact (concatenate_apply_piece (0 : Fin S200000x128.rank) _ _ (ix2 (brow ⟨0, by omega⟩ r) j) 0 (by simp) S50000x128 _ rfl rfl 0 rfl (ix2 r j)
        (fun b hb => by match b with | ⟨0, _⟩ => exact absurd rfl hb | ⟨1, _⟩ => rfl) rfl).trans (dot_g2 n1 d1 r j)
    | ⟨1, _⟩ =>
      exact (concatenate_apply_piece (0 : Fin S200000x128.rank) _ _ (ix2 (brow ⟨1, by omega⟩ r) j) 1 (by simp) S50000x128 _ rfl rfl 50000 rfl (ix2 r j)
        (fun b hb => by match b with | ⟨0, _⟩ => exact absurd rfl hb | ⟨1, _⟩ => rfl) rfl).trans (dot_g2 n2 d2 r j)
    | ⟨2, _⟩ =>
      exact (concatenate_apply_piece (0 : Fin S200000x128.rank) _ _ (ix2 (brow ⟨2, by omega⟩ r) j) 2 (by simp) S50000x128 _ rfl rfl 100000 rfl (ix2 r j)
        (fun b hb => by match b with | ⟨0, _⟩ => exact absurd rfl hb | ⟨1, _⟩ => rfl) rfl).trans (dot_g2 n3 d3 r j)
    | ⟨3, _⟩ =>
      exact (concatenate_apply_piece (0 : Fin S200000x128.rank) _ _ (ix2 (brow ⟨3, by omega⟩ r) j) 3 (by simp) S50000x128 _ rfl rfl 150000 (by show ([50000, 50000, 50000] : List ℕ).sum = 150000; simp) (ix2 r j)
        (fun b hb => by match b with | ⟨0, _⟩ => exact absurd rfl hb | ⟨1, _⟩ => rfl) rfl).trans (dot_g2 n4 d4 r j)
  · refine (broadcastInDim_apply _ _ _ (ix2 (brow d r) j) (ix2 (0 : Fin 1) j) (fun a => ?_)).trans ?_
    · match a with
      | ⟨0, _⟩ => rfl
      | ⟨1, _⟩ => rfl
    · exact broadcastInDim_apply _ _ _ (ix2 (0 : Fin 1) j) (ix1 j) (fun a => by match a with | ⟨0, _⟩ => rfl)

theorem x2_isReal (A : FVec Ideal S200000x128 .f32) (sW : FVec Ideal S128x128 .f32) (cb : FVec Ideal S128 .f32)
    (n1 n2 n3 n4 : FVec Ideal S50000x144 .f32) (d1 d2 d3 d4 : FVec Ideal S144x128 .f32)
    (hA : ∀ i, IsReal (A i)) (hW : ∀ i, IsReal (sW i)) (hb : ∀ i, IsReal (cb i))
    (hn1 : ∀ i, IsReal (n1 i)) (hn2 : ∀ i, IsReal (n2 i)) (hn3 : ∀ i, IsReal (n3 i)) (hn4 : ∀ i, IsReal (n4 i))
    (hd1 : ∀ i, IsReal (d1 i)) (hd2 : ∀ i, IsReal (d2 i)) (hd3 : ∀ i, IsReal (d3 i)) (hd4 : ∀ i, IsReal (d4 i))
    (i : S200000x128.Idx) : IsReal (Cert.Spec.x2 A sW cb n1 n2 n3 n4 d1 d2 d3 d4 i) := by
  obtain ⟨i0, j, rfl⟩ : ∃ (i0 : Fin 200000) (j : Fin 128), i = ix2 i0 j := ⟨i 0, i 1, eq_ix2 i⟩
  obtain ⟨d, r, rfl⟩ := exists_brow i0
  rw [x2_apply]
  have hn : ∀ i, IsReal (sel4 d n1 n2 n3 n4 i) := fun i => by
    match d with
    | ⟨0, _⟩ => exact hn1 i
    | ⟨1, _⟩ => exact hn2 i
    | ⟨2, _⟩ => exact hn3 i
    | ⟨3, _⟩ => exact hn4 i
  have hd : ∀ i, IsReal (sel4 d d1 d2 d3 d4 i) := fun i => by
    match d with
    | ⟨0, _⟩ => exact hd1 i
    | ⟨1, _⟩ => exact hd2 i
    | ⟨2, _⟩ => exact hd3 i
    | ⟨3, _⟩ => exact hd4 i
  exact IsReal.add (IsReal.add (IsReal.sum_univ _ fun k => IsReal.mul (hA _) (hW _))
    (IsReal.sum_univ _ fun k => IsReal.mul (hn _) (hd _))) (hb _)

end Cert.SpecConv

end
-- ==== Proof.KI.ValFp.lean ====
import proofs.«410641_j56710748176715_1_alg».proof.Proof.KI.R0
import proofs.«410641_j56710748176715_1_alg».proof.Proof.KI.R3
import proofs.«410641_j56710748176715_1_alg».proof.Proof.KI.R6
import proofs.«410641_j56710748176715_1_alg».proof.Proof.Ref.Stages
import proofs.«410641_j56710748176715_1_alg».proof.Proof.Gen.ReferenceIdeal
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.Lib.IdealHost
import Idealize.ShloMosaic.PureOps.Ideal.Laws
import Idealize.ShloMosaic.PureOps.Reduce

set_option maxRecDepth 16384

noncomputable section

namespace Cert.KernelIdeal.HandV

open Idealize.ShloMosaic Idealize.ShloMosaic.ValueIdx

abbrev ninf : EReal := Ideal.ofBits .f32 0xFF800000#32

def rowMax (z : Fin 128 → EReal) : EReal := max ninf ((Finset.univ : Finset (Fin 128)).fold max ninf z)

def rowSm (z : Fin 128 → EReal) (j : Fin 128) : EReal :=
  Ideal.div (Ideal.exp (z j - rowMax z)) (∑ k : Fin 128, Ideal.exp (z k - rowMax z))

section KTail
open Cert.KernelIdeal

variable (hr : S2000x128.Reduces [1] S2000) (hc : S2000.ShapeCasts S2000x1) (hb : S2000x1.Broadcasts S2000x128)

theorem col_apply (v : FVec Ideal S2000 .f32) (r : Fin 2000) (j : Fin 128) :
    broadcastTo S2000x128 (shapeCast S2000x1 v hc) hb (ix2 r j) = v (ix1 r) := by
  refine (broadcastTo_apply (shapeCast S2000x1 v hc) hb (ix2 r j) (ix2 r (0 : Fin 1)) ?_).trans ?_
  · intro a
    match a with
    | ⟨0, _⟩ => rfl
    | ⟨1, _⟩ => rfl
  · exact shapeCast_apply v hc (ix2 r (0 : Fin 1)) (ix1 r) (by
      rw [Shape.rowMajor_val_two, Shape.rowMajor_val_one]; show r.val = r.val * 1 + 0; omega)

theorem lift_eq (r : Fin 2000) (k : Fin 128) : hr.lift (ix1 r) k = ix2 r k := by
  funext a; apply Fin.ext
  match a with
  | ⟨0, _⟩ => rfl
  | ⟨1, _⟩ => rfl

theorem kmax_apply (v8 : FVec Ideal S2000x128 .f32) (hφ : FKind.Formats .f32)
    (hacc : (0xFF800000#32 : BitVec 32) = FKind.maximumf.neutral .f32 hφ) (r : Fin 2000) :
    multiReduction .maximumf [1] S2000 v8 0xFF800000#32 hr hφ hacc (ix1 r)
      = (Finset.univ : Finset (Fin 128)).fold max ninf (fun k => v8 (ix2 r k)) := by
  refine (Ideal.multiReduction_maximumf_single v8 0xFF800000#32 hr hφ hacc (ix1 r)).trans ?_
  exact congrArg (fun f : Fin 128 → EReal => (Finset.univ : Finset (Fin 128)).fold max ninf f)
    (funext fun k => congrArg v8 (lift_eq hr r k))

theorem ksum_apply (v : FVec Ideal S2000x128 .f32) (hφ : FKind.Formats .f32)
    (hacc : (0x00000000#32 : BitVec 32) = FKind.add.neutral .f32 hφ) (r : Fin 2000) :
    multiReduction .add [1] S2000 v 0x00000000#32 hr hφ hacc (ix1 r) = ∑ k : Fin 128, v (ix2 r k) := by
  refine (Ideal.multiReduction_add_single v 0x00000000#32 hr hφ hacc (ix1 r)).trans ?_
  exact Finset.sum_congr rfl fun k _ => congrArg v (lift_eq hr r k)

section Generic
variable {F : FTy → Type} [FloatOps F]

def kM (v8 : FVec F S2000x128 .f32) : FVec F S2000x128 .f32 :=
  broadcastTo S2000x128 (shapeCast S2000x1 (maximumf (broadcast S2000 (Scalar.ofBits .f32 0xFF800000#32))
    (multiReduction .maximumf [1] S2000 v8 0xFF800000#32 hr (.inl rfl) rfl)) hc) hb

def kE (v8 : FVec F S2000x128 .f32) : FVec F S2000x128 .f32 := exp (subf v8 (kM hr hc hb v8))

def kTail (v8 : FVec F S2000x128 .f32) : FVec F S2000x128 .f32 :=
  divf (kE hr hc hb v8) (broadcastTo S2000x128 (shapeCast S2000x1
    (multiReduction .add [1] S2000 (kE hr hc hb v8) 0x00000000#32 hr (.inl rfl) rfl) hc) hb)

end Generic

theorem kM_apply (v8 : FVec Ideal S2000x128 .f32) (r : Fin 2000) (k : Fin 128) :
    kM hr hc hb v8 (ix2 r k) = rowMax (fun k => v8 (ix2 r k)) := by
  unfold kM
  refine (col_apply hc hb _ r k).trans ?_
  exact congrArg (max ninf) (kmax_apply hr v8 (.inl rfl) rfl r)

theorem kE_apply (v8 : FVec Ideal S2000x128 .f32) (r : Fin 2000) (k : Fin 128) :
    kE hr hc hb v8 (ix2 r k) = Ideal.exp (v8 (ix2 r k) - rowMax (fun k => v8 (ix2 r k))) :=
  congrArg (fun m => Ideal.exp (v8 (ix2 r k) - m)) (kM_apply hr hc hb v8 r k)

theorem kTail_apply (v8 : FVec Ideal S2000x128 .f32) (r : Fin 2000) (j : Fin 128) :
    kTail hr hc hb v8 (ix2 r j) = rowSm (fun k => v8 (ix2 r k)) j := by
  unfold kTail rowSm
  refine congrArg₂ Ideal.div (kE_apply hr hc hb v8 r j) ?_
  refine (col_apply hc hb _ r j).trans ?_
  refine (ksum_apply hr _ (.inl rfl) rfl r).trans ?_
  exact Finset.sum_congr rfl fun k _ => kE_apply hr hc hb v8 r k

end KTail

section HTail
open Cert.ReferenceIdeal

variable (hR' : S200000x128.ReducesTo [1] S200000) (hR : S200000x128.Reduces [1] S200000) (hu : 0 < S_.numel)
  (hb0 : S_.BroadcastsInDim S200000 ![]) (hb1 : S200000.BroadcastsInDim S200000x1 ![0])
  (hb2 : S200000x1.BroadcastsInDim S200000x128 ![0, 1])

theorem hcol_apply (v : FVec Ideal S200000 .f32) (R : Fin 200000) (j : Fin 128) :
    broadcastInDim S200000x128 ![0, 1] hb2 (broadcastInDim S200000x1 ![0] hb1 v) (ix2 R j) = v (ix1 R) := by
  refine (broadcastInDim_apply ![0, 1] hb2 (broadcastInDim S200000x1 ![0] hb1 v) (ix2 R j) (ix2 R (0 : Fin 1)) ?_).trans ?_
  · intro a
    match a with
    | ⟨0, _⟩ => rfl
    | ⟨1, _⟩ => rfl
  · refine broadcastInDim_apply ![0] hb1 v (ix2 R (0 : Fin 1)) (ix1 R) ?_
    intro a
    match a with
    | ⟨0, _⟩ => rfl

theorem hlift_eq (R : Fin 200000) (k : Fin 128) : hR.lift (ix1 R) k = ix2 R k := by
  funext a; apply Fin.ext
  match a with
  | ⟨0, _⟩ => rfl
  | ⟨1, _⟩ => rfl

include hR in

theorem hmax_apply (y : FVec Ideal S200000x128 .f32) (R : Fin 200000) :
    Host.reduce FloatOps.maximumf y (constant (F := Ideal) S_ .f32 0xFF800000#32) hR' hu (ix1 R)
      = (Finset.univ : Finset (Fin 128)).fold max ninf (fun k => y (ix2 R k)) := by
  refine (Host.reduce_eq_fold_single FloatOps.maximumf y (constant (F := Ideal) S_ .f32 0xFF800000#32) hR' hR hu (ix1 R)).trans ?_
  exact congrArg (fun f : Fin 128 → EReal => (Finset.univ : Finset (Fin 128)).fold max ninf f)
    (funext fun k => congrArg y (hlift_eq hR R k))

include hR in

theorem hsum_apply (e : FVec Ideal S200000x128 .f32) (R : Fin 200000) :
    Host.reduceAdd e (constant (F := Ideal) S_ .f32 0x00000000#32) hR' hu (ix1 R) = ∑ k : Fin 128, e (ix2 R k) := by
  refine (Ideal.hostReduceAdd_single hR' hR e (Ideal.ofBits .f32 0x00000000#32) (ix1 R)).trans ?_
  rw [Ideal.ofBits_zero_f32, zero_add]
  exact Finset.sum_congr rfl fun k _ => congrArg e (hlift_eq hR R k)

section Generic
variable {F : FTy → Type} [FloatOps F]

def hM (y : FVec F S200000x128 .f32) : FVec F S200000x128 .f32 :=
  broadcastInDim S200000x128 ![0, 1] hb2 (broadcastInDim S200000x1 ![0] hb1
    (maximumf (broadcastInDim S200000 ![] hb0 (constant (F := F) S_ .f32 0xFF800000#32))
      (Host.reduce FloatOps.maximumf y (constant (F := F) S_ .f32 0xFF800000#32) hR' hu)))

def hE (y : FVec F S200000x128 .f32) : FVec F S200000x128 .f32 := Host.exp (subf y (hM hR' hu hb0 hb1 hb2 y))

def hTail (y : FVec F S200000x128 .f32) : FVec F S200000x128 .f32 :=
  Host.divf (hE hR' hu hb0 hb1 hb2 y) (broadcastInDim S200000x128 ![0, 1] hb2 (broadcastInDim S200000x1 ![0] hb1
    (Host.reduceAdd (hE hR' hu hb0 hb1 hb2 y) (constant (F := F) S_ .f32 0x00000000#32) hR' hu)))

end Generic

theorem maxBcast_apply (v : FVec Ideal S200000 .f32) (R : Fin 200000) :
    maximumf (broadcastInDim S200000 ![] hb0 (constant (F := Ideal) S_ .f32 0xFF800000#32)) v (ix1 R) = max ninf (v (ix1 R)) := rfl

theorem hostExpSub_apply {s : Shape} (y m : FVec Ideal s .f32) (i : s.Idx) :
    Host.exp (subf y m) i = Ideal.exp (y i - m i) := rfl

include hR in
theorem hM_apply (y : FVec Ideal S200000x128 .f32) (R : Fin 200000) (k : Fin 128) :
    hM hR' hu hb0 hb1 hb2 y (ix2 R k) = rowMax (fun k => y (ix2 R k)) := by
  unfold hM rowMax
  refine (hcol_apply hb1 hb2 _ R k).trans ?_
  refine (maxBcast_apply hb0 _ R).trans ?_
  exact congrArg (max ninf) (hmax_apply hR' hR hu y R)

include hR in
theorem hE_apply (y : FVec Ideal S200000x128 .f32) (R : Fin 200000) (k : Fin 128) :
    hE hR' hu hb0 hb1 hb2 y (ix2 R k) = Ideal.exp (y (ix2 R k) - rowMax (fun k => y (ix2 R k))) := by
  unfold hE
  refine (hostExpSub_apply y _ (ix2 R k)).trans ?_
  exact congrArg (fun m => Ideal.exp (y (ix2 R k) - m)) (hM_apply hR' hR hu hb0 hb1 hb2 y R k)

include hR in

theorem hTail_apply (y : FVec Ideal S200000x128 .f32) (R : Fin 200000) (j : Fin 128) :
    hTail hR' hu hb0 hb1 hb2 y (ix2 R j) = rowSm (fun k => y (ix2 R k)) j := by
  unfold hTail rowSm
  refine (hostDivf_apply _ _ (ix2 R j)).trans ?_
  refine congrArg₂ Ideal.div (hE_apply hR' hR hu hb0 hb1 hb2 y R j) ?_
  refine (hcol_apply hb1 hb2 _ R j).trans ?_
  refine (hsum_apply hR' hR hu _ R).trans ?_
  exact Finset.sum_congr rfl fun k _ => hE_apply hR' hR hu hb0 hb1 hb2 y R k

end HTail

section KZ
open Cert.KernelIdeal Cert.KernelIdeal.Gen
open Idealize.ShloMosaic.StackMember (dotGeneral_plain_apply)

section Generic
variable {F : FTy → Type} [FloatOps F]

def kZ64 (x : Vec F S2000x64 .f32) (W : Vec F S64x128 .f32) (b2 : Vec F S1x128 .f32) : FVec F S2000x128 .f32 :=
  addf (matmul dot_S2000x64_S64x128_S2000x128_1_0_0_1_n_n none (truncf .bf16 x bitsLt_bf16_f32) (truncf .bf16 W bitsLt_bf16_f32)
      (constant S2000x128 .f32 0x00000000#32))
    (broadcastTo S2000x128 (shapeCast S1x128 b2 shapeCasts_S1x128_S1x128) broadcasts_S1x128_S2000x128)

theorem k0_pay1_eq (x : Vec F S2000x64 .f32) (W : Vec F S64x128 .f32) (b2 : Vec F S1x128 .f32) :
    k0_pay1 x W b2 = kTail reduces_S2000x128_S2000 shapeCasts_S2000_S2000x1 broadcasts_S2000x1_S2000x128 (kZ64 x W b2) := rfl

end Generic

theorem matmul_plain_apply {m K n : Nat} {φ₁ φ₂ : FTy} (A : FVec Ideal ⟨2, ![m, K]⟩ φ₁) (B : FVec Ideal ⟨2, ![K, n]⟩ φ₂)
    (a : Fin m) (b : Fin n) :
    matmul (DotDims.plain m K n) none A B (constant ⟨2, ![m, n]⟩ .f32 0x00000000#32) (ix2 a b) = ∑ c : Fin K, A (ix2 a c) * B (ix2 c b) :=
  (congrFun (matmul_zero_eq_dotGeneral (DotDims.plain m K n) none A B) (ix2 a b)).trans (dotGeneral_plain_apply none A B a b)

theorem biasRow_apply (b2 : FVec Ideal S1x128 .f32) (r : Fin 2000) (k : Fin 128) :
    broadcastTo S2000x128 (shapeCast S1x128 b2 shapeCasts_S1x128_S1x128) broadcasts_S1x128_S2000x128 (ix2 r k) = b2 (ix2 (0 : Fin 1) k) :=
  (broadcastTo_1b_ab_apply _ broadcasts_S1x128_S2000x128 r k).trans (congrFun (shapeCast_self b2 shapeCasts_S1x128_S1x128) _)

theorem kZ64_apply (x : Vec Ideal S2000x64 .f32) (W : Vec Ideal S64x128 .f32) (b2 : Vec Ideal S1x128 .f32) (r : Fin 2000) (k : Fin 128) :
    kZ64 x W b2 (ix2 r k) = (∑ q : Fin 64, x (ix2 r q) * W (ix2 q k)) + b2 (ix2 (0 : Fin 1) k) := by
  unfold kZ64
  refine (addf_apply _ _ (ix2 r k)).trans ?_
  refine congrArg₂ (fun u v : EReal => u + v) ?_ (biasRow_apply b2 r k)
  exact matmul_plain_apply (m := 2000) (K := 64) (n := 128) (truncf .bf16 x bitsLt_bf16_f32) (truncf .bf16 W bitsLt_bf16_f32) r k

end KZ

section KZ2
open Cert.KernelIdeal Cert.KernelIdeal.Gen

section Generic
variable {F : FTy → Type} [FloatOps F]

def kZ128 (x : Vec F S2000x128 .f32) (W : Vec F S128x128 .f32) (b2 : Vec F S1x128 .f32) : FVec F S2000x128 .f32 :=
  addf (matmul dot_S2000x128_S128x128_S2000x128_1_0_0_1_n_n none
      (truncf .bf16 (shapeCast S2000x128 x shapeCasts_S2000x128_S2000x128) bitsLt_bf16_f32) (truncf .bf16 W bitsLt_bf16_f32)
      (constant S2000x128 .f32 0x00000000#32))
    (broadcastTo S2000x128 (shapeCast S1x128 b2 shapeCasts_S1x128_S1x128) broadcasts_S1x128_S2000x128)

theorem k3_pay1_eq (x : Vec F S2000x128 .f32) (W : Vec F S128x128 .f32) (b2 : Vec F S1x128 .f32) :
    k3_pay1 x W b2 = kTail reduces_S2000x128_S2000 shapeCasts_S2000_S2000x1 broadcasts_S2000x1_S2000x128 (kZ128 x W b2) := rfl

theorem k6_pay1_eq (x : Vec F S2000x128 .f32) (W : Vec F S128x128 .f32) (b2 : Vec F S1x128 .f32) :
    k6_pay1 x W b2 = kTail reduces_S2000x128_S2000 shapeCasts_S2000_S2000x1 broadcasts_S2000x1_S2000x128 (kZ128 x W b2) := rfl

end Generic

theorem kZ128_apply (x : Vec Ideal S2000x128 .f32) (W : Vec Ideal S128x128 .f32) (b2 : Vec Ideal S1x128 .f32) (r : Fin 2000) (k : Fin 128) :
    kZ128 x W b2 (ix2 r k) = (∑ q : Fin 128, x (ix2 r q) * W (ix2 q k)) + b2 (ix2 (0 : Fin 1) k) := by
  unfold kZ128
  rw [shapeCast_self]
  refine (addf_apply _ _ (ix2 r k)).trans ?_
  refine congrArg₂ (fun u v : EReal => u + v) ?_ (biasRow_apply b2 r k)
  exact matmul_plain_apply (m := 2000) (K := 128) (n := 128) (truncf .bf16 x bitsLt_bf16_f32) (truncf .bf16 W bitsLt_bf16_f32) r k

theorem k0_pay1_apply (x : Vec Ideal S2000x64 .f32) (W : Vec Ideal S64x128 .f32) (b2 : Vec Ideal S1x128 .f32) (r : Fin 2000) (j : Fin 128) :
    k0_pay1 x W b2 (ix2 r j) = rowSm (fun k => (∑ q : Fin 64, x (ix2 r q) * W (ix2 q k)) + b2 (ix2 (0 : Fin 1) k)) j := by
  rw [k0_pay1_eq]
  refine (kTail_apply _ _ _ _ r j).trans ?_
  exact congrArg (fun z : Fin 128 → EReal => rowSm z j) (funext fun k => kZ64_apply x W b2 r k)

theorem k3_pay1_apply (x : Vec Ideal S2000x128 .f32) (W : Vec Ideal S128x128 .f32) (b2 : Vec Ideal S1x128 .f32) (r : Fin 2000) (j : Fin 128) :
    k3_pay1 x W b2 (ix2 r j) = rowSm (fun k => (∑ q : Fin 128, x (ix2 r q) * W (ix2 q k)) + b2 (ix2 (0 : Fin 1) k)) j := by
  rw [k3_pay1_eq]
  refine (kTail_apply _ _ _ _ r j).trans ?_
  exact congrArg (fun z : Fin 128 → EReal => rowSm z j) (funext fun k => kZ128_apply x W b2 r k)

theorem k6_pay1_apply (x : Vec Ideal S2000x128 .f32) (W : Vec Ideal S128x128 .f32) (b2 : Vec Ideal S1x128 .f32) (r : Fin 2000) (j : Fin 128) :
    k6_pay1 x W b2 (ix2 r j) = rowSm (fun k => (∑ q : Fin 128, x (ix2 r q) * W (ix2 q k)) + b2 (ix2 (0 : Fin 1) k)) j := by
  rw [k6_pay1_eq]
  refine (kTail_apply _ _ _ _ r j).trans ?_
  exact congrArg (fun z : Fin 128 → EReal => rowSm z j) (funext fun k => kZ128_apply x W b2 r k)

end KZ2

section HZ
open Cert.ReferenceIdeal Cert.ReferenceIdeal.Facts₀
open Idealize.ShloMosaic.StackMember (dotGeneral_plain_apply)

section Generic
variable {F : FTy → Type} [FloatOps F]

def hZ64 (X : FVec F S200000x64 .f32) (W : FVec F S64x128 .f32) (b : FVec F S128 .f32) : FVec F S200000x128 .f32 :=
  addf (Host.dotGeneral dot_S200000x64_S64x128_S200000x128_1_0_0_1_n_n none X W)
    (broadcastInDim S200000x128 ![0, 1] bcast_S1x128_S200000x128_0_1 (broadcastInDim S1x128 ![1] bcast_S128_S1x128_1 b))

def hZ128 (X : FVec F S200000x128 .f32) (W : FVec F S128x128 .f32) (b : FVec F S128 .f32) : FVec F S200000x128 .f32 :=
  addf (Host.dotGeneral dot_S200000x128_S128x128_S200000x128_1_0_0_1_n_n none X W)
    (broadcastInDim S200000x128 ![0, 1] bcast_S1x128_S200000x128_0_1 (broadcastInDim S1x128 ![1] bcast_S128_S1x128_1 b))

theorem sm64_eq (X : FVec F S200000x64 .f32) (W : FVec F S64x128 .f32) (b : FVec F S128 .f32) :
    Cert.Spec.sm64 X W b = hTail reducesTo_S200000x128_S200000_d1 h_S_ bcast_S_S200000 bcast_S200000_S200000x1_0
      bcast_S200000x1_S200000x128_0_1 (hZ64 X W b) := rfl

theorem sm128_eq (X : FVec F S200000x128 .f32) (W : FVec F S128x128 .f32) (b : FVec F S128 .f32) :
    Cert.Spec.sm128 X W b = hTail reducesTo_S200000x128_S200000_d1 h_S_ bcast_S_S200000 bcast_S200000_S200000x1_0
      bcast_S200000x1_S200000x128_0_1 (hZ128 X W b) := rfl

end Generic

theorem hbias_apply (b : FVec Ideal S128 .f32) (R : Fin 200000) (k : Fin 128) :
    broadcastInDim S200000x128 ![0, 1] bcast_S1x128_S200000x128_0_1 (broadcastInDim S1x128 ![1] bcast_S128_S1x128_1 b) (ix2 R k)
      = b (ix1 k) := by
  refine (broadcastInDim_oneRow_apply bcast_S1x128_S200000x128_0_1 _ R k).trans ?_
  refine broadcastInDim_apply ![1] bcast_S128_S1x128_1 b (ix2 (0 : Fin 1) k) (ix1 k) ?_
  intro a
  match a with
  | ⟨0, _⟩ => rfl

theorem hZ64_apply (X : FVec Ideal S200000x64 .f32) (W : FVec Ideal S64x128 .f32) (b : FVec Ideal S128 .f32)
    (R : Fin 200000) (k : Fin 128) :
    hZ64 X W b (ix2 R k) = (∑ q : Fin 64, X (ix2 R q) * W (ix2 q k)) + b (ix1 k) := by
  unfold hZ64
  refine (addf_apply _ _ (ix2 R k)).trans ?_
  refine congrArg₂ (fun u v : EReal => u + v) ?_ (hbias_apply b R k)
  exact dotGeneral_plain_apply (m := 200000) (k := 64) (n := 128) none X W R k

theorem hZ128_apply (X : FVec Ideal S200000x128 .f32) (W : FVec Ideal S128x128 .f32) (b : FVec Ideal S128 .f32)
    (R : Fin 200000) (k : Fin 128) :
    hZ128 X W b (ix2 R k) = (∑ q : Fin 128, X (ix2 R q) * W (ix2 q k)) + b (ix1 k) := by
  unfold hZ128
  refine (addf_apply _ _ (ix2 R k)).trans ?_
  refine congrArg₂ (fun u v : EReal => u + v) ?_ (hbias_apply b R k)
  exact dotGeneral_plain_apply (m := 200000) (k := 128) (n := 128) none X W R k

theorem sm64_apply (X : FVec Ideal S200000x64 .f32) (W : FVec Ideal S64x128 .f32) (b : FVec Ideal S128 .f32)
    (R : Fin 200000) (j : Fin 128) :
    Cert.Spec.sm64 X W b (ix2 R j) = rowSm (fun k => (∑ q : Fin 64, X (ix2 R q) * W (ix2 q k)) + b (ix1 k)) j := by
  rw [sm64_eq]
  refine (hTail_apply _ (by decide) _ _ _ _ _ R j).trans ?_
  exact congrArg (fun z : Fin 128 → EReal => rowSm z j) (funext fun k => hZ64_apply X W b R k)

theorem sm128_apply (X : FVec Ideal S200000x128 .f32) (W : FVec Ideal S128x128 .f32) (b : FVec Ideal S128 .f32)
    (R : Fin 200000) (j : Fin 128) :
    Cert.Spec.sm128 X W b (ix2 R j) = rowSm (fun k => (∑ q : Fin 128, X (ix2 R q) * W (ix2 q k)) + b (ix1 k)) j := by
  rw [sm128_eq]
  refine (hTail_apply _ (by decide) _ _ _ _ _ R j).trans ?_
  exact congrArg (fun z : Fin 128 → EReal => rowSm z j) (funext fun k => hZ128_apply X W b R k)

end HZ

section Join
open Cert.KernelIdeal

theorem pay0_eq_sm64 (X : FVec Ideal Cert.ReferenceIdeal.S200000x64 .f32) (W : FVec Ideal Cert.ReferenceIdeal.S64x128 .f32)
    (b : FVec Ideal Cert.ReferenceIdeal.S128 .f32)
    (x : Vec Ideal S2000x64 .f32) (w : Vec Ideal S64x128 .f32) (b2 : Vec Ideal S1x128 .f32) (T : Nat) (hT : T < 100)
    (hx : ∀ (r : Fin 2000) (q : Fin 64), x (ix2 r q) = X (ix2 (⟨2000 * T + r.val, by omega⟩ : Fin 200000) q))
    (hw : ∀ (q : Fin 64) (k : Fin 128), w (ix2 q k) = W (ix2 q k))
    (hb : ∀ k : Fin 128, b2 (ix2 (0 : Fin 1) k) = b (ix1 k)) (r : Fin 2000) (j : Fin 128) :
    Cert.KernelIdeal.Gen.k0_pay1 x w b2 (ix2 r j)
      = Cert.Spec.sm64 X W b (ix2 (⟨2000 * T + r.val, by omega⟩ : Fin 200000) j) := by
  rw [k0_pay1_apply, sm64_apply]
  refine congrArg (fun z : Fin 128 → EReal => rowSm z j) (funext fun k => ?_)
  rw [hb k]
  exact congrArg (fun u : EReal => u + b (ix1 k)) (Finset.sum_congr rfl fun q _ => by rw [hx r q, hw q k])

theorem pay3_eq_sm128 (X : FVec Ideal Cert.ReferenceIdeal.S200000x128 .f32) (W : FVec Ideal Cert.ReferenceIdeal.S128x128 .f32)
    (b : FVec Ideal Cert.ReferenceIdeal.S128 .f32)
    (x : Vec Ideal S2000x128 .f32) (w : Vec Ideal S128x128 .f32) (b2 : Vec Ideal S1x128 .f32) (T : Nat) (hT : T < 100)
    (hx : ∀ (r : Fin 2000) (q : Fin 128), x (ix2 r q) = X (ix2 (⟨2000 * T + r.val, by omega⟩ : Fin 200000) q))
    (hw : ∀ (q : Fin 128) (k : Fin 128), w (ix2 q k) = W (ix2 q k))
    (hb : ∀ k : Fin 128, b2 (ix2 (0 : Fin 1) k) = b (ix1 k)) (r : Fin 2000) (j : Fin 128) :
    Cert.KernelIdeal.Gen.k3_pay1 x w b2 (ix2 r j)
      = Cert.Spec.sm128 X W b (ix2 (⟨2000 * T + r.val, by omega⟩ : Fin 200000) j) := by
  rw [k3_pay1_apply, sm128_apply]
  refine congrArg (fun z : Fin 128 → EReal => rowSm z j) (funext fun k => ?_)
  rw [hb k]
  exact congrArg (fun u : EReal => u + b (ix1 k)) (Finset.sum_congr rfl fun q _ => by rw [hx r q, hw q k])

theorem pay6_eq_sm128 (X : FVec Ideal Cert.ReferenceIdeal.S200000x128 .f32) (W : FVec Ideal Cert.ReferenceIdeal.S128x128 .f32)
    (b : FVec Ideal Cert.ReferenceIdeal.S128 .f32)
    (x : Vec Ideal S2000x128 .f32) (w : Vec Ideal S128x128 .f32) (b2 : Vec Ideal S1x128 .f32) (T : Nat) (hT : T < 100)
    (hx : ∀ (r : Fin 2000) (q : Fin 128), x (ix2 r q) = X (ix2 (⟨2000 * T + r.val, by omega⟩ : Fin 200000) q))
    (hw : ∀ (q : Fin 128) (k : Fin 128), w (ix2 q k) = W (ix2 q k))
    (hb : ∀ k : Fin 128, b2 (ix2 (0 : Fin 1) k) = b (ix1 k)) (r : Fin 2000) (j : Fin 128) :
    Cert.KernelIdeal.Gen.k6_pay1 x w b2 (ix2 r j)
      = Cert.Spec.sm128 X W b (ix2 (⟨2000 * T + r.val, by omega⟩ : Fin 200000) j) := by
  rw [k6_pay1_apply, sm128_apply]
  refine congrArg (fun z : Fin 128 → EReal => rowSm z j) (funext fun k => ?_)
  rw [hb k]
  exact congrArg (fun u : EReal => u + b (ix1 k)) (Finset.sum_congr rfl fun q _ => by rw [hx r q, hw q k])

end Join

theorem hz2 : (![0, 0] : Fin 2 → Nat) = fun _ => 0 := funext fun a => by fin_cases a <;> rfl

section Region0
open Cert.KernelIdeal Cert.KernelIdeal.Gen Cert.KernelIdeal.Hand
open Idealize.ShloMosaic.TcCoe
open Idealize.ShloMosaic.Pipeline (Dat)

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (b : FVec Ideal Cert.ReferenceIdeal.S128 .f32)
    (hb : ∀ j : Fin 128, (V c (Pipeline.arrRef spec0 2)) (ix2 (0 : Fin 1) j) = b (ix1 j)) (t : Fin cfg0.N) :
    (dat0 (F := Ideal) V c).flushed 3 t = ((cfg0.win 3).blk t).view.read (Elt Ideal)
      (Cert.Spec.sm64 (V c (Pipeline.arrRef spec0 0)) (V c (Pipeline.arrRef spec0 1)) b) := by
  show (cfg0.win 3).cut (grid0.coords t) ((dat0 (F := Ideal) V c).after 3 t) = _
  rw [after0_3]
  unfold out0_3
  rw [View.canon_unit_zero hz2]
  simp only [View.ld_unit_zero (S := S2000x64) hz2, View.ld_unit_zero (S := S64x128) hz2, View.ld_unit_zero (S := S1x128) hz2]
  obtain ⟨e00, e01, e10, e11, e20, e21, e30, e31⟩ := idx_facts0 t
  have htN : t.val < 100 := t.isLt
  funext y
  obtain ⟨r, j, rfl⟩ : ∃ (r : Fin 2000) (j : Fin 128), y = ix2 r j := ⟨y 0, y 1, eq_ix2 y⟩
  have hemb : ((cfg0.win 3).blk t).view.emb (ix2 r j) = ix2 (⟨2000 * t.val + r.val, by omega⟩ : Fin 200000) j := by
    funext a; apply Fin.ext
    match a with
    | ⟨0, _⟩ => show win0_3.index t (0 : Fin 2) * 2000 + 1 * r.val = 2000 * t.val + r.val; omega
    | ⟨1, _⟩ => show win0_3.index t (1 : Fin 2) * 128 + 1 * j.val = j.val; omega
  show k0_pay1 (iblk0 V c 0 t) (iblk0 V c 1 t) (iblk0 V c 2 t) (ix2 r j)
    = Cert.Spec.sm64 (V c (Pipeline.arrRef spec0 0)) (V c (Pipeline.arrRef spec0 1)) b (((cfg0.win 3).blk t).view.emb (ix2 r j))
  rw [hemb]
  refine pay0_eq_sm64 (V c (Pipeline.arrRef spec0 0)) (V c (Pipeline.arrRef spec0 1)) b
    (iblk0 V c 0 t) (iblk0 V c 1 t) (iblk0 V c 2 t) t.val htN ?_ ?_ ?_ r j
  · intro r' q
    show V c (Pipeline.arrRef spec0 0) (((cfg0.win 0).blk t).view.emb (ix2 r' q)) = _
    refine congrArg (V c (Pipeline.arrRef spec0 0)) ?_
    funext a; apply Fin.ext
    match a with
    | ⟨0, _⟩ => show win0_0.index t (0 : Fin 2) * 2000 + 1 * r'.val = 2000 * t.val + r'.val; omega
    | ⟨1, _⟩ => show win0_0.index t (1 : Fin 2) * 64 + 1 * q.val = q.val; omega
  · intro q k
    show V c (Pipeline.arrRef spec0 1) (((cfg0.win 1).blk t).view.emb (ix2 q k)) = _
    refine congrArg (V c (Pipeline.arrRef spec0 1)) ?_
    funext a; apply Fin.ext
    match a with
    | ⟨0, _⟩ => show win0_1.index t (0 : Fin 2) * 64 + 1 * q.val = q.val; omega
    | ⟨1, _⟩ => show win0_1.index t (1 : Fin 2) * 128 + 1 * k.val = k.val; omega
  · intro k
    refine Eq.trans ?_ (hb k)
    show V c (Pipeline.arrRef spec0 2) (((cfg0.win 2).blk t).view.emb (ix2 (0 : Fin 1) k)) = _
    refine congrArg (V c (Pipeline.arrRef spec0 2)) ?_
    funext a; apply Fin.ext
    match a with
    | ⟨0, _⟩ => show win0_2.index t (0 : Fin 2) * 1 + 1 * 0 = 0; omega
    | ⟨1, _⟩ => show win0_2.index t (1 : Fin 2) * 128 + 1 * k.val = k.val; omega

theorem mem_blk0 (t : Fin cfg0.N) (i : S200000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

theorem cover0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  refine ⟨(⟨(i 0).val / 2000, by show (i 0).val / 2000 < 100; omega⟩ : Fin cfg0.N), flush0_3 _, ?_⟩
  obtain ⟨e00, e01, e10, e11, e20, e21, e30, e31⟩ := idx_facts0 (⟨(i 0).val / 2000, by show (i 0).val / 2000 < 100; omega⟩ : Fin cfg0.N)
  rw [mem_blk0]
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e31]; omega

theorem arr0 (c : Dev nD) (b : FVec Ideal Cert.ReferenceIdeal.S128 .f32)
    (hb : ∀ j : Fin 128, (V c (Pipeline.arrRef spec0 2)) (ix2 (0 : Fin 1) j) = b (ix1 j)) :
    (dat0 (F := Ideal) V c).arrAt 3 cfg0.N
      = Cert.Spec.sm64 (V c (Pipeline.arrRef spec0 0)) (V c (Pipeline.arrRef spec0 1)) b :=
  (dat0 (F := Ideal) V c).arrAt_eq_of_cover 3 _ (fun t _ => flushed0_eq V c b hb t) cover0

end Region0

section Region3
open Cert.KernelIdeal Cert.KernelIdeal.Gen Cert.KernelIdeal.Hand
open Idealize.ShloMosaic.TcCoe
open Idealize.ShloMosaic.Pipeline (Dat)

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed3_eq (c : Dev nD) (b : FVec Ideal Cert.ReferenceIdeal.S128 .f32)
    (hb : ∀ j : Fin 128, (V c (Pipeline.arrRef spec3 2)) (ix2 (0 : Fin 1) j) = b (ix1 j)) (t : Fin cfg3.N) :
    (dat3 (F := Ideal) V c).flushed 3 t = ((cfg3.win 3).blk t).view.read (Elt Ideal)
      (Cert.Spec.sm128 (V c (Pipeline.arrRef spec3 0)) (V c (Pipeline.arrRef spec3 1)) b) := by
  show (cfg3.win 3).cut (grid3.coords t) ((dat3 (F := Ideal) V c).after 3 t) = _
  rw [after3_3]
  unfold out3_3
  rw [View.canon_unit_zero hz2]
  simp only [View.ld_unit_zero (S := S2000x128) hz2, View.ld_unit_zero (S := S128x128) hz2, View.ld_unit_zero (S := S1x128) hz2]
  obtain ⟨e00, e01, e10, e11, e20, e21, e30, e31⟩ := idx_facts3 t
  have htN : t.val < 100 := t.isLt
  funext y
  obtain ⟨r, j, rfl⟩ : ∃ (r : Fin 2000) (j : Fin 128), y = ix2 r j := ⟨y 0, y 1, eq_ix2 y⟩
  have hemb : ((cfg3.win 3).blk t).view.emb (ix2 r j) = ix2 (⟨2000 * t.val + r.val, by omega⟩ : Fin 200000) j := by
    funext a; apply Fin.ext
    match a with
    | ⟨0, _⟩ => show win3_3.index t (0 : Fin 2) * 2000 + 1 * r.val = 2000 * t.val + r.val; omega
    | ⟨1, _⟩ => show win3_3.index t (1 : Fin 2) * 128 + 1 * j.val = j.val; omega
  show k3_pay1 (iblk3 V c 0 t) (iblk3 V c 1 t) (iblk3 V c 2 t) (ix2 r j)
    = Cert.Spec.sm128 (V c (Pipeline.arrRef spec3 0)) (V c (Pipeline.arrRef spec3 1)) b (((cfg3.win 3).blk t).view.emb (ix2 r j))
  rw [hemb]
  refine pay3_eq_sm128 (V c (Pipeline.arrRef spec3 0)) (V c (Pipeline.arrRef spec3 1)) b
    (iblk3 V c 0 t) (iblk3 V c 1 t) (iblk3 V c 2 t) t.val htN ?_ ?_ ?_ r j
  · intro r' q
    show V c (Pipeline.arrRef spec3 0) (((cfg3.win 0).blk t).view.emb (ix2 r' q)) = _
    refine congrArg (V c (Pipeline.arrRef spec3 0)) ?_
    funext a; apply Fin.ext
    match a with
    | ⟨0, _⟩ => show win3_0.index t (0 : Fin 2) * 2000 + 1 * r'.val = 2000 * t.val + r'.val; omega
    | ⟨1, _⟩ => show win3_0.index t (1 : Fin 2) * 128 + 1 * q.val = q.val; omega
  · intro q k
    show V c (Pipeline.arrRef spec3 1) (((cfg3.win 1).blk t).view.emb (ix2 q k)) = _
    refine congrArg (V c (Pipeline.arrRef spec3 1)) ?_
    funext a; apply Fin.ext
    match a with
    | ⟨0, _⟩ => show win3_1.index t (0 : Fin 2) * 128 + 1 * q.val = q.val; omega
    | ⟨1, _⟩ => show win3_1.index t (1 : Fin 2) * 128 + 1 * k.val = k.val; omega
  · intro k
    refine Eq.trans ?_ (hb k)
    show V c (Pipeline.arrRef spec3 2) (((cfg3.win 2).blk t).view.emb (ix2 (0 : Fin 1) k)) = _
    refine congrArg (V c (Pipeline.arrRef spec3 2)) ?_
    funext a; apply Fin.ext
    match a with
    | ⟨0, _⟩ => show win3_2.index t (0 : Fin 2) * 1 + 1 * 0 = 0; omega
    | ⟨1, _⟩ => show win3_2.index t (1 : Fin 2) * 128 + 1 * k.val = k.val; omega

theorem mem_blk3 (t : Fin cfg3.N) (i : S200000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v48).slice (win3_3.rect t)).set ↔ _
  rw [View.set_slice_whole, Rect.mem_set_unit]
  exact Iff.rfl

theorem cover3 (i : S200000x128.Idx) :
    ∃ t : Fin cfg3.N, (cfg3.win 3).flush t = true ∧ i ∈ ((cfg3.win 3).blk t).view.set := by
  have hi0 : (i 0).val < 200000 := (i 0).isLt
  have hi1 : (i 1).val < 128 := (i 1).isLt
  refine ⟨(⟨(i 0).val / 2000, by show (i 0).val / 2000 < 100; omega⟩ : Fin cfg3.N), flush3_3 _, ?_⟩
  obtain ⟨e00, e01, e10, e11, e20, e21, e30, e31⟩ := idx_facts3 (⟨(i 0).val / 2000, by show (i 0).val / 2000 < 100; omega⟩ : Fin cfg3.N)
  rw [mem_blk3]
  intro a
  match a with
  | ⟨0, _⟩ =>
    show win3_3.index _ (0 : Fin 2) * 2000 ≤ (i 0).val ∧ (i 0).val < win3_3.index _ (0 : Fin 2) * 2000 + 2000
    rw [e30]; show (i 0).val / 2000 * 2000 ≤ (i 0).val ∧ (i 0).val < (i 0).val / 2000 * 2000 + 2000; omega
  | ⟨1, _⟩ =>
    show win3_3.index _ (1 : Fin 2) * 128 ≤ (i 1).val ∧ (i 1).val < win3_3.index _ (1 : Fin 2) * 128 + 128
    rw [e31]; omega

theorem arr3 (c : Dev nD) (b : FVec Ideal Cert.ReferenceIdeal.S128 .f32)
    (hb : ∀ j : Fin 128, (V c (Pipeline.arrRef spec3 2)) (ix2 (0 : Fin 1) j) = b (ix1 j)) :
    (dat3 (F := Ideal) V c).arrAt 3 cfg3.N
      = Cert.Spec.sm128 (V c (Pipeline.arrRef spec3 0)) (V c (Pipeline.arrRef spec3 1)) b :=
  (dat3 (F := Ideal) V c).arrAt_eq_of_cover 3 _ (fun t _ => flushed3_eq V c b hb t) cover3

end Region3

section Region6
open Cert.KernelIdeal Cert.KernelIdeal.Gen Cert.KernelIdeal.Hand
open Idealize.ShloMosaic.TcCoe
open Idealize.ShloMosaic.Pipeline (Dat)

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem flushed6_eq (c : Dev nD) (b : FVec Ideal Cert.ReferenceIdeal.S128 .f32)
    (hb : ∀ j : Fin 128, (V c (Pipeline.arrRef spec6 2)) (ix2 (0 : Fin 1) j) = b (ix1 j)) (t : Fin cfg6.N) :
    (dat6 (F := Ideal) V c).flushed 3 t = ((cfg6.win 3).blk t).view.read (Elt Ideal)
      (Cert.Spec.sm128 (V c (Pipeline.arrRef spec6 0)) (V c (Pipeline.arrRef spec6 1)) b) := by
  show (cfg6.win 3).cut (grid6.coords t) ((dat6 (F := Ideal) V c).after 3 t) = _
  rw [after6_3]
  unfold out6_3
  rw [View.canon_unit_zero hz2]
  simp only [View.ld_unit_zero (S := S2000x128) hz2, View.ld_unit_zero (S := S128x128) hz2, View.ld_unit_zero (S := S1x128) hz2]
  obtain ⟨e00, e01, e10, e11, e20, e21, e30, e31⟩ := idx_facts6 t
  have htN : t.val < 100 := t.isLt
  funext y
  obtain ⟨r, j, rfl⟩ : ∃ (r : Fin 2000) (j : Fin 128), y = ix2 r j := ⟨y 0, y 1, eq_ix2 y⟩
  have hemb : ((cfg6.win 3).blk t).view.emb (ix2 r j) = ix2 (⟨2000 * t.val + r.val, by omega⟩ : Fin 200000) j := by
    funext a; apply Fin.ext
    match a with
    | ⟨0, _⟩ => show win6_3.index t (0 : Fin 2) * 2000 + 1 * r.val = 2000 * t.val + r.val; omega
    | ⟨1, _⟩ => show win6_3.index t (1 : Fin 2) * 128 + 1 * j.val = j.val; omega
  show k6_pay1 (iblk6 V c 0 t) (iblk6 V c 1 t) (iblk6 V c 2 t) (ix2 r j)
    = Cert.Spec.sm128 (V c (Pipeline.arrRef spec6 0)) (V c (Pipeline.arrRef spec6 1)) b (((cfg6.win 3).blk t).view.emb (ix2 r j))
  rw [hemb]
  refine pay6_eq_sm128 (V c (Pipeline.arrRef spec6 0)) (V c (Pipeline.arrRef spec6 1)) b
    (iblk6 V c 0 t) (iblk6 V c 1 t) (iblk6 V c 2 t) t.val htN ?_ ?_ ?_ r j
  · intro r' q
    show V c (Pipeline.arrRef spec6 0) (((cfg6.win 0).blk t).view.emb (ix2 r' q)) = _
    refine congrArg (V c (Pipeline.arrRef spec6 0)) ?_
    funext a; apply Fin.ext
    match a with
    | ⟨0, _⟩ => show win6_0.index t (0 : Fin 2) * 2000 + 1 * r'.val = 2000 * t.val + r'.val; omega
    | ⟨1, _⟩ => show win6_0.index t (1 : Fin 2) * 128 + 1 * q.val = q.val; omega
  · intro q k
    show V c (Pipeline.arrRef spec6 1) (((cfg6.win 1).blk t).view.emb (ix2 q k)) = _
    refine congrArg (V c (Pipeline.arrRef spec6 1)) ?_
    funext a; apply Fin.ext
    match a with
    | ⟨0, _⟩ => show win6_1.index t (0 : Fin 2) * 128 + 1 * q.val = q.val; omega
    | ⟨1, _⟩ => show win6_1.index t (1 : Fin 2) * 128 + 1 * k.val = k.val; omega
  · intro k
    refine Eq.trans ?_ (hb k)
    show V c (Pipeline.arrRef spec6 2) (((cfg6.win 2).blk t).view.emb (ix2 (0 : Fin 1) k)) = _
    refine congrArg (V c (Pipeline.arrRef spec6 2)) ?_
    funext a; apply Fin.ext
    match a with
    | ⟨0, _⟩ => show win6_2.index t (0 : Fin 2) * 1 + 1 * 0 = 0; omega
    | ⟨1, _⟩ => show win6_2.index t (1 : Fin 2) * 128 + 1 * k.val = k.val; omega

theorem mem_blk6 (t : Fin cfg6.N) (i : S200000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v88).slice (win6_3.rect t)).set ↔ _
  rw [View.set_slice_whole, Rect.mem_set_unit]
  exact Iff.rfl

theorem cover6 (i : S200000x128.Idx) :
    ∃ t : Fin cfg6.N, (cfg6.win 3).flush t = true ∧ i ∈ ((cfg6.win 3).blk t).view.set := by
  have hi0 : (i 0).val < 200000 := (i 0).isLt
  have hi1 : (i 1).val < 128 := (i 1).isLt
  refine ⟨(⟨(i 0).val / 2000, by show (i 0).val / 2000 < 100; omega⟩ : Fin cfg6.N), flush6_3 _, ?_⟩
  obtain ⟨e00, e01, e10, e11, e20, e21, e30, e31⟩ := idx_facts6 (⟨(i 0).val / 2000, by show (i 0).val / 2000 < 100; omega⟩ : Fin cfg6.N)
  rw [mem_blk6]
  intro a
  match a with
  | ⟨0, _⟩ =>
    show win6_3.index _ (0 : Fin 2) * 2000 ≤ (i 0).val ∧ (i 0).val < win6_3.index _ (0 : Fin 2) * 2000 + 2000
    rw [e30]; show (i 0).val / 2000 * 2000 ≤ (i 0).val ∧ (i 0).val < (i 0).val / 2000 * 2000 + 2000; omega
  | ⟨1, _⟩ =>
    show win6_3.index _ (1 : Fin 2) * 128 ≤ (i 1).val ∧ (i 1).val < win6_3.index _ (1 : Fin 2) * 128 + 128
    rw [e31]; omega

theorem arr6 (c : Dev nD) (b : FVec Ideal Cert.ReferenceIdeal.S128 .f32)
    (hb : ∀ j : Fin 128, (V c (Pipeline.arrRef spec6 2)) (ix2 (0 : Fin 1) j) = b (ix1 j)) :
    (dat6 (F := Ideal) V c).arrAt 3 cfg6.N
      = Cert.Spec.sm128 (V c (Pipeline.arrRef spec6 0)) (V c (Pipeline.arrRef spec6 1)) b :=
  (dat6 (F := Ideal) V c).arrAt_eq_of_cover 3 _ (fun t _ => flushed6_eq V c b hb t) cover6

end Region6

end Cert.KernelIdeal.HandV

end
-- ==== Proof.KI.ValConvPay.lean ====
import proofs.«410641_j56710748176715_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Cert.KernelIdeal Cert.KernelIdeal.Gen
open Idealize.ShloMosaic Idealize.ShloMosaic.ValueIdx
open scoped BigOperators

theorem colsum_apply (src : FVec Ideal S2000x128 .f32) (hφ : FKind.Formats .f32)
    (hacc : (0x00000000#32 : BitVec 32) = FKind.add.neutral .f32 hφ) (q : Fin 128) :
    multiReduction .add [0] S128 src 0x00000000#32 reduces_S2000x128_S128 hφ hacc (ix1 q) = ∑ p : Fin 2000, src (ix2 p q) := by
  refine (Ideal.multiReduction_add_single src 0x00000000#32 reduces_S2000x128_S128 hφ hacc (ix1 q)).trans ?_
  refine Finset.sum_congr rfl fun p _ => congrArg src ?_
  funext a; apply Fin.ext
  match a with
  | ⟨0, _⟩ => rfl
  | ⟨1, _⟩ => rfl

theorem lhs_a1_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl
theorem lhs_a1_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs_a1_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs_a1_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

theorem matmul_a1 (x : FVec Ideal S2000x64 .bf16) (w : FVec Ideal S64x128 .bf16) (p : Fin 2000) (q : Fin 128) :
    matmul dot_S2000x64_S64x128_S2000x128_1_0_0_1_n_n none x w (constant (F := Ideal) S2000x128 .f32 0x00000000#32) (ix2 p q)
      = ∑ k : Fin 64, x (ix2 p k) * w (ix2 k q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs_a1_0 _ _
    | ⟨1, _⟩ => exact (lhs_a1_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs_a1_0 _ _).trans hk
    | ⟨1, _⟩ => exact rhs_a1_1 _ _)
  rw [el, er]

theorem lhs_n1_0 (i : S2000x128.Idx) (q : dot_S2000x80_S80x128_S2000x128_1_0_0_1_n_n.contr.Idx) :
    (dot_S2000x80_S80x128_S2000x128_1_0_0_1_n_n.lhsIdx i q 0).val = (i 0).val := by
  unfold DotDims.lhsIdx
  rw [dif_neg (show ¬(0 : Fin S2000x80.rank) ∈ dot_S2000x80_S80x128_S2000x128_1_0_0_1_n_n.lhsBatch by decide),
    dif_pos (show (0 : Fin S2000x80.rank) ∈ dot_S2000x80_S80x128_S2000x128_1_0_0_1_n_n.lhsNonContracting by decide)]
  rfl
theorem lhs_n1_1 (i : S2000x128.Idx) (q : dot_S2000x80_S80x128_S2000x128_1_0_0_1_n_n.contr.Idx) :
    (dot_S2000x80_S80x128_S2000x128_1_0_0_1_n_n.lhsIdx i q 1).val = (q ⟨0, by decide⟩).val :=
  dot_S2000x80_S80x128_S2000x128_1_0_0_1_n_n.lhsIdx_val_of_single rfl i q
theorem rhs_n1_0 (i : S2000x128.Idx) (q : dot_S2000x80_S80x128_S2000x128_1_0_0_1_n_n.contr.Idx) :
    (dot_S2000x80_S80x128_S2000x128_1_0_0_1_n_n.rhsIdx i q 0).val = (q ⟨0, by decide⟩).val :=
  dot_S2000x80_S80x128_S2000x128_1_0_0_1_n_n.rhsIdx_val_of_single rfl i q
theorem rhs_n1_1 (i : S2000x128.Idx) (q : dot_S2000x80_S80x128_S2000x128_1_0_0_1_n_n.contr.Idx) :
    (dot_S2000x80_S80x128_S2000x128_1_0_0_1_n_n.rhsIdx i q 1).val = (i 1).val := by
  unfold DotDims.rhsIdx
  rw [dif_neg (show ¬(1 : Fin S80x128.rank) ∈ dot_S2000x80_S80x128_S2000x128_1_0_0_1_n_n.rhsBatch by decide),
    dif_pos (show (1 : Fin S80x128.rank) ∈ dot_S2000x80_S80x128_S2000x128_1_0_0_1_n_n.rhsNonContracting by decide)]
  rfl

theorem matmul_n1 (x : FVec Ideal S2000x80 .bf16) (w : FVec Ideal S80x128 .bf16) (p : Fin 2000) (q : Fin 128) :
    matmul dot_S2000x80_S80x128_S2000x128_1_0_0_1_n_n none x w (constant (F := Ideal) S2000x128 .f32 0x00000000#32) (ix2 p q)
      = ∑ k : Fin 80, x (ix2 p k) * w (ix2 k q) := by
  simp only [matmul]
  rw [Ideal.matmul_constant_zero_apply, ← Equiv.sum_comp (contrEquiv1 dot_S2000x80_S80x128_S2000x128_1_0_0_1_n_n 80 rfl rfl).symm]
  refine Finset.sum_congr rfl fun k _ => ?_
  have hk := contrEquiv1_symm_val dot_S2000x80_S80x128_S2000x128_1_0_0_1_n_n 80 rfl rfl k
  have el : dot_S2000x80_S80x128_S2000x128_1_0_0_1_n_n.lhsIdx (ix2 p q) ((contrEquiv1 dot_S2000x80_S80x128_S2000x128_1_0_0_1_n_n 80 rfl rfl).symm k) = ix2 p k := funext fun a => Fin.ext (by
    match a with
    | ⟨0, _⟩ => exact lhs_n1_0 _ _
    | ⟨1, _⟩ => exact (lhs_n1_1 _ _).trans hk)
  have er : dot_S2000x80_S80x128_S2000x128_1_0_0_1_n_n.rhsIdx (ix2 p q) ((contrEquiv1 dot_S2000x80_S80x128_S2000x128_1_0_0_1_n_n 80 rfl rfl).symm k) = ix2 k q := funext fun a => Fin.ext (by
    match a with
    | ⟨0, _⟩ => exact (rhs_n1_0 _ _).trans hk
    | ⟨1, _⟩ => exact rhs_n1_1 _ _)
  rw [el, er]

theorem lin1_apply (v3 : Vec Ideal S2000x64 .f32) (v5 : Vec Ideal S64x128 .f32) (v7 : Vec Ideal S2000x80 .f32)
    (v10 : Vec Ideal S1x80x128 .f32) (v16 : Vec Ideal S1x128 .f32) (p : Fin 2000) (q : Fin 128) :
    k1_pay4 v3 v5 v7 v10 v16 (ix2 p q)
      = ((∑ k : Fin 64, v3 (ix2 p k) * v5 (ix2 k q)) + ∑ k : Fin 80, v7 (ix2 p k) * v10 (ix3 (0 : Fin 1) k q))
        + v16 (ix2 (0 : Fin 1) q) := by
  unfold k1_pay4
  refine congrArg₂ (· + ·) (congrArg₂ (· + ·) ?_ ?_) ?_
  · exact matmul_a1 _ _ p q
  · refine (matmul_n1 _ _ p q).trans ?_
    refine Finset.sum_congr rfl fun k _ => congrArg₂ (· * ·) ?_ ?_
    · exact congrFun (shapeCast_self v7 _) (ix2 p k)
    · exact shapeCast_1ab_ab_apply v10 _ k q
  · refine (broadcastTo_1b_ab_apply _ _ p q).trans ?_
    exact congrFun (shapeCast_self v16 _) _

theorem sum1_apply (v3 : Vec Ideal S2000x64 .f32) (v5 : Vec Ideal S64x128 .f32) (v7 : Vec Ideal S2000x80 .f32)
    (v10 : Vec Ideal S1x80x128 .f32) (v16 : Vec Ideal S1x128 .f32) (P : Vec Ideal S1x128 .f32) (q : Fin 128) :
    k1_pay5 v3 v5 v7 v10 v16 P (ix2 (0 : Fin 1) q)
      = P (ix2 (0 : Fin 1) q) + ∑ p : Fin 2000, k1_pay4 v3 v5 v7 v10 v16 (ix2 p q) := by
  unfold k1_pay5
  refine congrArg₂ (· + ·) (congrFun (shapeCast_self P _) _) ?_
  refine (shapeCast_a_1a_apply _ _ 0 q).trans ?_
  exact colsum_apply _ _ _ q

theorem sq1_apply (v3 : Vec Ideal S2000x64 .f32) (v5 : Vec Ideal S64x128 .f32) (v7 : Vec Ideal S2000x80 .f32)
    (v10 : Vec Ideal S1x80x128 .f32) (v16 : Vec Ideal S1x128 .f32) (P : Vec Ideal S1x128 .f32) (q : Fin 128) :
    k1_pay1 (k1_pay6 P) (k1_pay7 v3 v5 v7 v10 v16) (ix2 (0 : Fin 1) q)
      = P (ix2 (0 : Fin 1) q)
        + ∑ p : Fin 2000, k1_pay4 v3 v5 v7 v10 v16 (ix2 p q) * k1_pay4 v3 v5 v7 v10 v16 (ix2 p q) := by
  unfold k1_pay1 k1_pay6 k1_pay7
  refine congrArg₂ (· + ·) (congrFun (shapeCast_self P _) _) ?_
  refine (shapeCast_a_1a_apply _ _ 0 q).trans ?_
  exact colsum_apply _ _ _ q

theorem zero1_2_apply (j : S1x128.Idx) : k1_pay2 (F := Ideal) j = 0 := by
  unfold k1_pay2
  exact Ideal.ofBits_zero_f32
theorem zero1_3_apply (j : S1x128.Idx) : k1_pay3 (F := Ideal) j = 0 := by
  unfold k1_pay3
  exact Ideal.ofBits_zero_f32

def linRow1 (A : FVec Ideal S200000x64 .f32) (N : FVec Ideal S200000x80 .f32) (W : FVec Ideal S64x128 .f32)
    (D : FVec Ideal S4x80x128 .f32) (B : FVec Ideal S1x128 .f32) (i : Fin 200000) (j : Fin 128) : EReal :=
  ((∑ k : Fin 64, A (ix2 i k) * W (ix2 k j))
      + ∑ k : Fin 80, N (ix2 i k) * D (ix3 (⟨i.val / 50000, by have := i.isLt; omega⟩ : Fin 4) k j))
    + B (ix2 (0 : Fin 1) j)

theorem lin1_block (x0 : Vec Ideal S2000x64 .f32) (x1 : Vec Ideal S2000x80 .f32) (x2 : Vec Ideal S64x128 .f32)
    (x3 : Vec Ideal S1x80x128 .f32) (x4 : Vec Ideal S1x128 .f32)
    (A : FVec Ideal S200000x64 .f32) (N : FVec Ideal S200000x80 .f32) (W : FVec Ideal S64x128 .f32)
    (D : FVec Ideal S4x80x128 .f32) (B : FVec Ideal S1x128 .f32) (t : ℕ) (ht : t < 100)
    (h0 : ∀ (p : Fin 2000) (k : Fin 64), x0 (ix2 p k) = A (ix2 (⟨2000 * t + p.val, by have := p.isLt; omega⟩ : Fin 200000) k))
    (h1 : ∀ (p : Fin 2000) (k : Fin 80), x1 (ix2 p k) = N (ix2 (⟨2000 * t + p.val, by have := p.isLt; omega⟩ : Fin 200000) k))
    (h2 : ∀ (k : Fin 64) (q : Fin 128), x2 (ix2 k q) = W (ix2 k q))
    (h3 : ∀ (k : Fin 80) (q : Fin 128), x3 (ix3 (0 : Fin 1) k q) = D (ix3 (⟨t / 25, by omega⟩ : Fin 4) k q))
    (h4 : ∀ q : Fin 128, x4 (ix2 (0 : Fin 1) q) = B (ix2 (0 : Fin 1) q))
    (p : Fin 2000) (q : Fin 128) :
    k1_pay4 x0 x2 x1 x3 x4 (ix2 p q) = linRow1 A N W D B ⟨2000 * t + p.val, by have := p.isLt; omega⟩ q := by
  rw [lin1_apply]
  unfold linRow1
  have e : (⟨(2000 * t + p.val) / 50000, by have := p.isLt; omega⟩ : Fin 4) = ⟨t / 25, by omega⟩ :=
    Fin.ext (by have := p.isLt; show (2000 * t + p.val) / 50000 = t / 25; omega)
  refine congrArg₂ (· + ·) (congrArg₂ (· + ·) ?_ ?_) (h4 q)
  · exact Finset.sum_congr rfl fun k _ => by rw [h0, h2]
  · exact Finset.sum_congr rfl fun k _ => by rw [h1, h3, e]

theorem lhs_a4_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_a4_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_a4_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_a4_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem matmul_a4 (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_a4_0 _ _
    | ⟨1, _⟩ => exact (lhs_a4_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_a4_0 _ _).trans hk
    | ⟨1, _⟩ => exact rhs_a4_1 _ _)
  rw [el, er]

theorem lhs_n4_0 (i : S2000x128.Idx) (q : dot_S2000x144_S144x128_S2000x128_1_0_0_1_n_n.contr.Idx) :
    (dot_S2000x144_S144x128_S2000x128_1_0_0_1_n_n.lhsIdx i q 0).val = (i 0).val := by
  unfold DotDims.lhsIdx
  rw [dif_neg (show ¬(0 : Fin S2000x144.rank) ∈ dot_S2000x144_S144x128_S2000x128_1_0_0_1_n_n.lhsBatch by decide),
    dif_pos (show (0 : Fin S2000x144.rank) ∈ dot_S2000x144_S144x128_S2000x128_1_0_0_1_n_n.lhsNonContracting by decide)]
  rfl
theorem lhs_n4_1 (i : S2000x128.Idx) (q : dot_S2000x144_S144x128_S2000x128_1_0_0_1_n_n.contr.Idx) :
    (dot_S2000x144_S144x128_S2000x128_1_0_0_1_n_n.lhsIdx i q 1).val = (q ⟨0, by decide⟩).val :=
  dot_S2000x144_S144x128_S2000x128_1_0_0_1_n_n.lhsIdx_val_of_single rfl i q
theorem rhs_n4_0 (i : S2000x128.Idx) (q : dot_S2000x144_S144x128_S2000x128_1_0_0_1_n_n.contr.Idx) :
    (dot_S2000x144_S144x128_S2000x128_1_0_0_1_n_n.rhsIdx i q 0).val = (q ⟨0, by decide⟩).val :=
  dot_S2000x144_S144x128_S2000x128_1_0_0_1_n_n.rhsIdx_val_of_single rfl i q
theorem rhs_n4_1 (i : S2000x128.Idx) (q : dot_S2000x144_S144x128_S2000x128_1_0_0_1_n_n.contr.Idx) :
    (dot_S2000x144_S144x128_S2000x128_1_0_0_1_n_n.rhsIdx i q 1).val = (i 1).val := by
  unfold DotDims.rhsIdx
  rw [dif_neg (show ¬(1 : Fin S144x128.rank) ∈ dot_S2000x144_S144x128_S2000x128_1_0_0_1_n_n.rhsBatch by decide),
    dif_pos (show (1 : Fin S144x128.rank) ∈ dot_S2000x144_S144x128_S2000x128_1_0_0_1_n_n.rhsNonContracting by decide)]
  rfl

theorem matmul_n4 (x : FVec Ideal S2000x144 .bf16) (w : FVec Ideal S144x128 .bf16) (p : Fin 2000) (q : Fin 128) :
    matmul dot_S2000x144_S144x128_S2000x128_1_0_0_1_n_n none x w (constant (F := Ideal) S2000x128 .f32 0x00000000#32) (ix2 p q)
      = ∑ k : Fin 144, x (ix2 p k) * w (ix2 k q) := by
  simp only [matmul]
  rw [Ideal.matmul_constant_zero_apply, ← Equiv.sum_comp (contrEquiv1 dot_S2000x144_S144x128_S2000x128_1_0_0_1_n_n 144 rfl rfl).symm]
  refine Finset.sum_congr rfl fun k _ => ?_
  have hk := contrEquiv1_symm_val dot_S2000x144_S144x128_S2000x128_1_0_0_1_n_n 144 rfl rfl k
  have el : dot_S2000x144_S144x128_S2000x128_1_0_0_1_n_n.lhsIdx (ix2 p q) ((contrEquiv1 dot_S2000x144_S144x128_S2000x128_1_0_0_1_n_n 144 rfl rfl).symm k) = ix2 p k := funext fun a => Fin.ext (by
    match a with
    | ⟨0, _⟩ => exact lhs_n4_0 _ _
    | ⟨1, _⟩ => exact (lhs_n4_1 _ _).trans hk)
  have er : dot_S2000x144_S144x128_S2000x128_1_0_0_1_n_n.rhsIdx (ix2 p q) ((contrEquiv1 dot_S2000x144_S144x128_S2000x128_1_0_0_1_n_n 144 rfl rfl).symm k) = ix2 k q := funext fun a => Fin.ext (by
    match a with
    | ⟨0, _⟩ => exact (rhs_n4_0 _ _).trans hk
    | ⟨1, _⟩ => exact rhs_n4_1 _ _)
  rw [el, er]

theorem lin4_apply (v3 : Vec Ideal S2000x128 .f32) (v5 : Vec Ideal S128x128 .f32) (v7 : Vec Ideal S2000x144 .f32)
    (v10 : Vec Ideal S1x144x128 .f32) (v16 : Vec Ideal S1x128 .f32) (p : Fin 2000) (q : Fin 128) :
    k4_pay4 v3 v5 v7 v10 v16 (ix2 p q)
      = ((∑ k : Fin 128, v3 (ix2 p k) * v5 (ix2 k q)) + ∑ k : Fin 144, v7 (ix2 p k) * v10 (ix3 (0 : Fin 1) k q))
        + v16 (ix2 (0 : Fin 1) q) := by
  unfold k4_pay4
  refine congrArg₂ (· + ·) (congrArg₂ (· + ·) ?_ ?_) ?_
  · refine (matmul_a4 _ _ p q).trans ?_
    exact Finset.sum_congr rfl fun k _ => congrArg₂ (· * ·) (congrFun (shapeCast_self v3 _) (ix2 p k)) rfl
  · refine (matmul_n4 _ _ p q).trans ?_
    refine Finset.sum_congr rfl fun k _ => congrArg₂ (· * ·) ?_ ?_
    · exact congrFun (shapeCast_self v7 _) (ix2 p k)
    · exact shapeCast_1ab_ab_apply v10 _ k q
  · refine (broadcastTo_1b_ab_apply _ _ p q).trans ?_
    exact congrFun (shapeCast_self v16 _) _

theorem sum4_apply (v3 : Vec Ideal S2000x128 .f32) (v5 : Vec Ideal S128x128 .f32) (v7 : Vec Ideal S2000x144 .f32)
    (v10 : Vec Ideal S1x144x128 .f32) (v16 : Vec Ideal S1x128 .f32) (P : Vec Ideal S1x128 .f32) (q : Fin 128) :
    k4_pay5 v3 v5 v7 v10 v16 P (ix2 (0 : Fin 1) q)
      = P (ix2 (0 : Fin 1) q) + ∑ p : Fin 2000, k4_pay4 v3 v5 v7 v10 v16 (ix2 p q) := by
  unfold k4_pay5
  refine congrArg₂ (· + ·) (congrFun (shapeCast_self P _) _) ?_
  refine (shapeCast_a_1a_apply _ _ 0 q).trans ?_
  exact colsum_apply _ _ _ q

theorem sq4_apply (v3 : Vec Ideal S2000x128 .f32) (v5 : Vec Ideal S128x128 .f32) (v7 : Vec Ideal S2000x144 .f32)
    (v10 : Vec Ideal S1x144x128 .f32) (v16 : Vec Ideal S1x128 .f32) (P : Vec Ideal S1x128 .f32) (q : Fin 128) :
    k4_pay1 (k4_pay6 P) (k4_pay7 v3 v5 v7 v10 v16) (ix2 (0 : Fin 1) q)
      = P (ix2 (0 : Fin 1) q)
        + ∑ p : Fin 2000, k4_pay4 v3 v5 v7 v10 v16 (ix2 p q) * k4_pay4 v3 v5 v7 v10 v16 (ix2 p q) := by
  unfold k4_pay1 k4_pay6 k4_pay7
  refine congrArg₂ (· + ·) (congrFun (shapeCast_self P _) _) ?_
  refine (shapeCast_a_1a_apply _ _ 0 q).trans ?_
  exact colsum_apply _ _ _ q

theorem zero4_2_apply (j : S1x128.Idx) : k4_pay2 (F := Ideal) j = 0 := by
  unfold k4_pay2
  exact Ideal.ofBits_zero_f32
theorem zero4_3_apply (j : S1x128.Idx) : k4_pay3 (F := Ideal) j = 0 := by
  unfold k4_pay3
  exact Ideal.ofBits_zero_f32

def linRow4 (A : FVec Ideal S200000x128 .f32) (N : FVec Ideal S200000x144 .f32) (W : FVec Ideal S128x128 .f32)
    (D : FVec Ideal S4x144x128 .f32) (B : FVec Ideal S1x128 .f32) (i : Fin 200000) (j : Fin 128) : EReal :=
  ((∑ k : Fin 128, A (ix2 i k) * W (ix2 k j))
      + ∑ k : Fin 144, N (ix2 i k) * D (ix3 (⟨i.val / 50000, by have := i.isLt; omega⟩ : Fin 4) k j))
    + B (ix2 (0 : Fin 1) j)

theorem lin4_block (x0 : Vec Ideal S2000x128 .f32) (x1 : Vec Ideal S2000x144 .f32) (x2 : Vec Ideal S128x128 .f32)
    (x3 : Vec Ideal S1x144x128 .f32) (x4 : Vec Ideal S1x128 .f32)
    (A : FVec Ideal S200000x128 .f32) (N : FVec Ideal S200000x144 .f32) (W : FVec Ideal S128x128 .f32)
    (D : FVec Ideal S4x144x128 .f32) (B : FVec Ideal S1x128 .f32) (t : ℕ) (ht : t < 100)
    (h0 : ∀ (p : Fin 2000) (k : Fin 128), x0 (ix2 p k) = A (ix2 (⟨2000 * t + p.val, by have := p.isLt; omega⟩ : Fin 200000) k))
    (h1 : ∀ (p : Fin 2000) (k : Fin 144), x1 (ix2 p k) = N (ix2 (⟨2000 * t + p.val, by have := p.isLt; omega⟩ : Fin 200000) k))
    (h2 : ∀ (k : Fin 128) (q : Fin 128), x2 (ix2 k q) = W (ix2 k q))
    (h3 : ∀ (k : Fin 144) (q : Fin 128), x3 (ix3 (0 : Fin 1) k q) = D (ix3 (⟨t / 25, by omega⟩ : Fin 4) k q))
    (h4 : ∀ q : Fin 128, x4 (ix2 (0 : Fin 1) q) = B (ix2 (0 : Fin 1) q))
    (p : Fin 2000) (q : Fin 128) :
    k4_pay4 x0 x2 x1 x3 x4 (ix2 p q) = linRow4 A N W D B ⟨2000 * t + p.val, by have := p.isLt; omega⟩ q := by
  rw [lin4_apply]
  unfold linRow4
  have e : (⟨(2000 * t + p.val) / 50000, by have := p.isLt; omega⟩ : Fin 4) = ⟨t / 25, by omega⟩ :=
    Fin.ext (by have := p.isLt; show (2000 * t + p.val) / 50000 = t / 25; omega)
  refine congrArg₂ (· + ·) (congrArg₂ (· + ·) ?_ ?_) (h4 q)
  · exact Finset.sum_congr rfl fun k _ => by rw [h0, h2]
  · exact Finset.sum_congr rfl fun k _ => by rw [h1, h3, e]

end Cert.KernelIdeal.HandV

end
-- ==== Proof.KI.ValConv1.lean ====
import proofs.«410641_j56710748176715_1_alg».proof.Proof.KI.R1
import proofs.«410641_j56710748176715_1_alg».proof.Proof.KI.ValConvPay
import proofs.«410641_j56710748176715_1_alg».proof.Proof.KI.ValConvSpec
import proofs.«410641_j56710748176715_1_alg».proof.Proof.Math.Real
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem hz2_1 : (![0, 0] : Fin 2 → Nat) = fun _ => 0 := funext fun a => by fin_cases a <;> rfl
theorem hz3_1 : (![0, 0, 0] : Fin 3 → Nat) = fun _ => 0 := funext fun a => by fin_cases a <;> rfl

theorem out1_5_eq (x0 : Vec Ideal S2000x64 .f32) (x1 : Vec Ideal S2000x80 .f32) (x2 : Vec Ideal S64x128 .f32) (x3 : Vec Ideal S1x80x128 .f32) (x4 : Vec Ideal S1x128 .f32) : out1_5 x0 x1 x2 x3 x4 = k1_pay4 x0 x2 x1 x3 x4 := by
  unfold out1_5
  rw [View.canon_unit_zero hz2_1]
  simp only [View.ld_unit_zero (S := S2000x64) hz2_1, View.ld_unit_zero (S := S2000x80) hz2_1, View.ld_unit_zero (S := S64x128) hz2_1,
    View.ld_unit_zero (S := S1x80x128) hz3_1, View.ld_unit_zero (S := S1x128) hz2_1]

theorem step1_6_eq (x0 : Vec Ideal S2000x64 .f32) (x1 : Vec Ideal S2000x80 .f32) (x2 : Vec Ideal S64x128 .f32) (x3 : Vec Ideal S1x80x128 .f32) (x4 : Vec Ideal S1x128 .f32) (p : Vec Ideal S1x128 .f32) : step1_6 x0 x1 x2 x3 x4 p = k1_pay5 x0 x2 x1 x3 x4 p := by
  unfold step1_6
  rw [View.canon_unit_zero hz2_1]
  simp only [View.ld_unit_zero (S := S2000x64) hz2_1, View.ld_unit_zero (S := S2000x80) hz2_1, View.ld_unit_zero (S := S64x128) hz2_1,
    View.ld_unit_zero (S := S1x80x128) hz3_1, View.ld_unit_zero (S := S1x128) hz2_1]

theorem step1_7_eq (x0 : Vec Ideal S2000x64 .f32) (x1 : Vec Ideal S2000x80 .f32) (x2 : Vec Ideal S64x128 .f32) (x3 : Vec Ideal S1x80x128 .f32) (x4 : Vec Ideal S1x128 .f32) (p : Vec Ideal S1x128 .f32) :
    step1_7 x0 x1 x2 x3 x4 p = k1_pay1 (k1_pay6 p) (k1_pay7 x0 x2 x1 x3 x4) := by
  unfold step1_7
  rw [View.canon_unit_zero hz2_1]
  simp only [View.ld_unit_zero (S := S2000x64) hz2_1, View.ld_unit_zero (S := S2000x80) hz2_1, View.ld_unit_zero (S := S64x128) hz2_1,
    View.ld_unit_zero (S := S1x80x128) hz3_1, View.ld_unit_zero (S := S1x128) hz2_1]

theorem zero1_6_eq : zero1_6 (F := Ideal) = k1_pay2 (F := Ideal) := by
  unfold zero1_6
  rw [View.canon_unit_zero hz2_1]
theorem zero1_7_eq : zero1_7 (F := Ideal) = k1_pay3 (F := Ideal) := by
  unfold zero1_7
  rw [View.canon_unit_zero hz2_1]

abbrev arr1_0 (c : Dev nD) : Vec Ideal S200000x64 .f32 := V c (Pipeline.arrRef spec1 0)
abbrev arr1_1 (c : Dev nD) : Vec Ideal S200000x80 .f32 := V c (Pipeline.arrRef spec1 1)
abbrev arr1_2 (c : Dev nD) : Vec Ideal S64x128 .f32 := V c (Pipeline.arrRef spec1 2)
abbrev arr1_3 (c : Dev nD) : Vec Ideal S4x80x128 .f32 := V c (Pipeline.arrRef spec1 3)
abbrev arr1_4 (c : Dev nD) : Vec Ideal S1x128 .f32 := V c (Pipeline.arrRef spec1 4)

abbrev blk1_0 (c : Dev nD) (t : Fin cfg1.N) : Vec Ideal S2000x64 .f32 := iblk1 V c 0 t
abbrev blk1_1 (c : Dev nD) (t : Fin cfg1.N) : Vec Ideal S2000x80 .f32 := iblk1 V c 1 t
abbrev blk1_2 (c : Dev nD) (t : Fin cfg1.N) : Vec Ideal S64x128 .f32 := iblk1 V c 2 t
abbrev blk1_3 (c : Dev nD) (t : Fin cfg1.N) : Vec Ideal S1x80x128 .f32 := iblk1 V c 3 t
abbrev blk1_4 (c : Dev nD) (t : Fin cfg1.N) : Vec Ideal S1x128 .f32 := iblk1 V c 4 t

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 25 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem lt100_1 (t : Fin cfg1.N) : t.val < 100 := lt_of_lt_of_eq t.isLt N_1

theorem blk1_0_apply (c : Dev nD) (t : Fin cfg1.N) (p : Fin 2000) (k : Fin 64) :
    blk1_0 V c t (ix2 p k) = arr1_0 V c (ix2 (⟨2000 * t.val + p.val, by have := lt100_1 t; have := p.isLt; omega⟩ : Fin 200000) k) := by
  obtain ⟨e00, e01, e10, e11, e20, e21, e30, e31, e32, e40, e41, e50, e51, e60, e61, e70, e71⟩ := idx1 t
  unfold blk1_0 arr1_0 iblk1
  rw [View.read_apply]
  show V c (Pipeline.arrRef spec1 0) _ = V c (Pipeline.arrRef spec1 0) _
  congr 1
  funext ax
  apply Fin.ext
  match ax with
  | ⟨0, _⟩ => show win1_0.index t (0 : Fin 2) * 2000 + 1 * p.val = 2000 * t.val + p.val; rw [e00]; omega
  | ⟨1, _⟩ => show win1_0.index t (1 : Fin 2) * 64 + 1 * k.val = k.val; rw [e01]; omega

theorem blk1_1_apply (c : Dev nD) (t : Fin cfg1.N) (p : Fin 2000) (k : Fin 80) :
    blk1_1 V c t (ix2 p k) = arr1_1 V c (ix2 (⟨2000 * t.val + p.val, by have := lt100_1 t; have := p.isLt; omega⟩ : Fin 200000) k) := by
  obtain ⟨e00, e01, e10, e11, e20, e21, e30, e31, e32, e40, e41, e50, e51, e60, e61, e70, e71⟩ := idx1 t
  unfold blk1_1 arr1_1 iblk1
  rw [View.read_apply]
  show V c (Pipeline.arrRef spec1 1) _ = V c (Pipeline.arrRef spec1 1) _
  congr 1
  funext ax
  apply Fin.ext
  match ax with
  | ⟨0, _⟩ => show win1_1.index t (0 : Fin 2) * 2000 + 1 * p.val = 2000 * t.val + p.val; rw [e10]; omega
  | ⟨1, _⟩ => show win1_1.index t (1 : Fin 2) * 80 + 1 * k.val = k.val; rw [e11]; omega

theorem blk1_2_apply (c : Dev nD) (t : Fin cfg1.N) (k : Fin 64) (q : Fin 128) :
    blk1_2 V c t (ix2 k q) = arr1_2 V c (ix2 k q) := by
  obtain ⟨e00, e01, e10, e11, e20, e21, e30, e31, e32, e40, e41, e50, e51, e60, e61, e70, e71⟩ := idx1 t
  unfold blk1_2 arr1_2 iblk1
  rw [View.read_apply]
  show V c (Pipeline.arrRef spec1 2) _ = V c (Pipeline.arrRef spec1 2) _
  congr 1
  funext ax
  apply Fin.ext
  match ax with
  | ⟨0, _⟩ => show win1_2.index t (0 : Fin 2) * 64 + 1 * k.val = k.val; rw [e20]; omega
  | ⟨1, _⟩ => show win1_2.index t (1 : Fin 2) * 128 + 1 * q.val = q.val; rw [e21]; omega

theorem blk1_3_apply (c : Dev nD) (t : Fin cfg1.N) (k : Fin 80) (q : Fin 128) :
    blk1_3 V c t (ix3 (0 : Fin 1) k q) = arr1_3 V c (ix3 (⟨t.val / 25, by have := lt100_1 t; omega⟩ : Fin 4) k q) := by
  obtain ⟨e00, e01, e10, e11, e20, e21, e30, e31, e32, e40, e41, e50, e51, e60, e61, e70, e71⟩ := idx1 t
  unfold blk1_3 arr1_3 iblk1
  rw [View.read_apply]
  show V c (Pipeline.arrRef spec1 3) _ = V c (Pipeline.arrRef spec1 3) _
  congr 1
  funext ax
  apply Fin.ext
  match ax with
  | ⟨0, _⟩ => show win1_3.index t (0 : Fin 3) * 1 + 1 * 0 = t.val / 25; rw [e30]; omega
  | ⟨1, _⟩ => show win1_3.index t (1 : Fin 3) * 80 + 1 * k.val = k.val; rw [e31]; omega
  | ⟨2, _⟩ => show win1_3.index t (2 : Fin 3) * 128 + 1 * q.val = q.val; rw [e32]; omega

theorem blk1_4_apply (c : Dev nD) (t : Fin cfg1.N) (q : Fin 128) :
    blk1_4 V c t (ix2 (0 : Fin 1) q) = arr1_4 V c (ix2 (0 : Fin 1) q) := by
  obtain ⟨e00, e01, e10, e11, e20, e21, e30, e31, e32, e40, e41, e50, e51, e60, e61, e70, e71⟩ := idx1 t
  unfold blk1_4 arr1_4 iblk1
  rw [View.read_apply]
  show V c (Pipeline.arrRef spec1 4) _ = V c (Pipeline.arrRef spec1 4) _
  congr 1
  funext ax
  apply Fin.ext
  match ax with
  | ⟨0, _⟩ => show win1_4.index t (0 : Fin 2) * 1 + 1 * 0 = 0; rw [e40]
  | ⟨1, _⟩ => show win1_4.index t (1 : Fin 2) * 128 + 1 * q.val = q.val; rw [e41]; omega

theorem lin1_at (c : Dev nD) (t : Fin cfg1.N) (p : Fin 2000) (q : Fin 128) :
    k1_pay4 (blk1_0 V c t) (blk1_2 V c t) (blk1_1 V c t) (blk1_3 V c t) (blk1_4 V c t) (ix2 p q)
      = linRow1 (arr1_0 V c) (arr1_1 V c) (arr1_2 V c) (arr1_3 V c) (arr1_4 V c) ⟨2000 * t.val + p.val, by have := lt100_1 t; have := p.isLt; omega⟩ q :=
  lin1_block (blk1_0 V c t) (blk1_1 V c t) (blk1_2 V c t) (blk1_3 V c t) (blk1_4 V c t) (arr1_0 V c) (arr1_1 V c) (arr1_2 V c) (arr1_3 V c) (arr1_4 V c) t.val (lt100_1 t)
    (fun p k => blk1_0_apply V c t p k) (fun p k => blk1_1_apply V c t p k) (fun k q => blk1_2_apply V c t k q)
    (fun k q => blk1_3_apply V c t k q) (fun q => blk1_4_apply V c t q) p q

def G1_5 (c : Dev nD) : S200000x128.Idx → EReal := fun y => linRow1 (arr1_0 V c) (arr1_1 V c) (arr1_2 V c) (arr1_3 V c) (arr1_4 V c) (y 0) (y 1)

theorem read1_5 (t : Fin cfg1.N) (G : Vec Ideal S200000x128 .f32) (p : Fin 2000) (q : Fin 128) :
    ((cfg1.win 5).blk t).view.read (Elt Ideal) G (ix2 p q)
      = G (ix2 (⟨2000 * t.val + p.val, by have := lt100_1 t; have := p.isLt; omega⟩ : Fin 200000) q) := by
  obtain ⟨e00, e01, e10, e11, e20, e21, e30, e31, e32, e40, e41, e50, e51, e60, e61, e70, e71⟩ := idx1 t
  rw [View.read_apply]
  show G _ = G _
  congr 1
  funext ax
  apply Fin.ext
  match ax with
  | ⟨0, _⟩ => show win1_5.index t (0 : Fin 2) * 2000 + 1 * p.val = 2000 * t.val + p.val; rw [e50]; omega
  | ⟨1, _⟩ => show win1_5.index t (1 : Fin 2) * 128 + 1 * q.val = q.val; rw [e51]; omega

theorem flushed1_5_eq (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5, out1_5_eq]
  funext y
  obtain ⟨p, q, rfl⟩ : ∃ (p : Fin 2000) (q : Fin 128), y = ix2 p q := ⟨y 0, y 1, eq_ix2 y⟩
  rw [read1_5 t (G1_5 V c) p q]
  show k1_pay4 (blk1_0 V c t) (blk1_2 V c t) (blk1_1 V c t) (blk1_3 V c t) (blk1_4 V c t) (ix2 p q) = _
  exact lin1_at V c t p q

theorem mem_blk1_5 (t : Fin cfg1.N) (i : S200000x128.Idx) :
    i ∈ ((cfg1.win 5).blk t).view.set ↔ ∀ ax : Fin 2, win1_5.index t ax * S2000x128.size ax ≤ (i ax).val
      ∧ (i ax).val < win1_5.index t ax * S2000x128.size ax + S2000x128.size ax := by
  show i ∈ ((View.whole main_v32_0).slice (win1_5.rect t)).set ↔ _
  rw [View.set_slice_whole, Rect.mem_set_unit]
  exact Iff.rfl

theorem final1_5 (c : Dev nD) : (dat1 V c).arrAt 5 cfg1.N = G1_5 V c :=
  (dat1 V c).arrAt_eq_of_cover 5 (G1_5 V c) (fun t _ => flushed1_5_eq V c t) fun i => by
    have hi0 : (i 0).val < 200000 := (i 0).isLt
    have hi1 : (i 1).val < 128 := (i 1).isLt
    have hN : cfg1.N = 100 := N_1
    have ht : (i 0).val / 2000 < cfg1.N := by rw [hN]; omega
    obtain ⟨e00, e01, e10, e11, e20, e21, e30, e31, e32, e40, e41, e50, e51, e60, e61, e70, e71⟩ := idx1 ⟨(i 0).val / 2000, ht⟩
    refine ⟨⟨(i 0).val / 2000, ht⟩, flush1_5 _, ?_⟩
    rw [mem_blk1_5]
    intro ax
    match ax with
    | ⟨0, _⟩ =>
      show win1_5.index ⟨(i 0).val / 2000, ht⟩ (0 : Fin 2) * 2000 ≤ (i 0).val
        ∧ (i 0).val < win1_5.index ⟨(i 0).val / 2000, ht⟩ (0 : Fin 2) * 2000 + 2000
      rw [e50]; show (i 0).val / 2000 * 2000 ≤ (i 0).val ∧ (i 0).val < (i 0).val / 2000 * 2000 + 2000; omega
    | ⟨1, _⟩ =>
      show win1_5.index ⟨(i 0).val / 2000, ht⟩ (1 : Fin 2) * 128 ≤ (i 1).val
        ∧ (i 1).val < win1_5.index ⟨(i 0).val / 2000, ht⟩ (1 : Fin 2) * 128 + 128
      rw [e51]; omega

def G1_6 (c : Dev nD) : S1x128.Idx → EReal := fun y => ∑ i : Fin 200000, linRow1 (arr1_0 V c) (arr1_1 V c) (arr1_2 V c) (arr1_3 V c) (arr1_4 V c) i (y 1)

def G1_7 (c : Dev nD) : S1x128.Idx → EReal :=
  fun y => ∑ i : Fin 200000, linRow1 (arr1_0 V c) (arr1_1 V c) (arr1_2 V c) (arr1_3 V c) (arr1_4 V c) i (y 1) * linRow1 (arr1_0 V c) (arr1_1 V c) (arr1_2 V c) (arr1_3 V c) (arr1_4 V c) i (y 1)

theorem acc1_6_zero (c : Dev nD) (q : Fin 128) :
    (acc1 V c 0).1 (ix2 (0 : Fin 1) q) = 0 + ∑ p : Fin 2000, k1_pay4 (blk1_0 V c (pt1 0)) (blk1_2 V c (pt1 0)) (blk1_1 V c (pt1 0)) (blk1_3 V c (pt1 0)) (blk1_4 V c (pt1 0)) (ix2 p q) := by
  rw [acc1_zero]
  show step1_6 (blk1_0 V c (pt1 0)) (blk1_1 V c (pt1 0)) (blk1_2 V c (pt1 0)) (blk1_3 V c (pt1 0)) (blk1_4 V c (pt1 0)) zero1_6 (ix2 (0 : Fin 1) q) = _
  rw [step1_6_eq, zero1_6_eq]
  refine (sum1_apply (blk1_0 V c (pt1 0)) (blk1_2 V c (pt1 0)) (blk1_1 V c (pt1 0)) (blk1_3 V c (pt1 0)) (blk1_4 V c (pt1 0)) _ q).trans ?_
  exact congrArg₂ (· + ·) (zero1_2_apply _) rfl

theorem acc1_6_succ (c : Dev nD) (m : ℕ) (q : Fin 128) :
    (acc1 V c (m + 1)).1 (ix2 (0 : Fin 1) q)
      = (acc1 V c m).1 (ix2 (0 : Fin 1) q) + ∑ p : Fin 2000, k1_pay4 (blk1_0 V c (pt1 (m + 1))) (blk1_2 V c (pt1 (m + 1))) (blk1_1 V c (pt1 (m + 1))) (blk1_3 V c (pt1 (m + 1))) (blk1_4 V c (pt1 (m + 1))) (ix2 p q) := by
  rw [acc1_succ]
  show step1_6 (blk1_0 V c (pt1 (m + 1))) (blk1_1 V c (pt1 (m + 1))) (blk1_2 V c (pt1 (m + 1))) (blk1_3 V c (pt1 (m + 1))) (blk1_4 V c (pt1 (m + 1))) (acc1 V c m).1 (ix2 (0 : Fin 1) q) = _
  rw [step1_6_eq]
  exact sum1_apply (blk1_0 V c (pt1 (m + 1))) (blk1_2 V c (pt1 (m + 1))) (blk1_1 V c (pt1 (m + 1))) (blk1_3 V c (pt1 (m + 1))) (blk1_4 V c (pt1 (m + 1))) (acc1 V c m).1 q

theorem acc1_7_zero (c : Dev nD) (q : Fin 128) :
    (acc1 V c 0).2 (ix2 (0 : Fin 1) q) = 0 + ∑ p : Fin 2000, k1_pay4 (blk1_0 V c (pt1 0)) (blk1_2 V c (pt1 0)) (blk1_1 V c (pt1 0)) (blk1_3 V c (pt1 0)) (blk1_4 V c (pt1 0)) (ix2 p q) * k1_pay4 (blk1_0 V c (pt1 0)) (blk1_2 V c (pt1 0)) (blk1_1 V c (pt1 0)) (blk1_3 V c (pt1 0)) (blk1_4 V c (pt1 0)) (ix2 p q) := by
  rw [acc1_zero]
  show step1_7 (blk1_0 V c (pt1 0)) (blk1_1 V c (pt1 0)) (blk1_2 V c (pt1 0)) (blk1_3 V c (pt1 0)) (blk1_4 V c (pt1 0)) zero1_7 (ix2 (0 : Fin 1) q) = _
  rw [step1_7_eq, zero1_7_eq]
  refine (sq1_apply (blk1_0 V c (pt1 0)) (blk1_2 V c (pt1 0)) (blk1_1 V c (pt1 0)) (blk1_3 V c (pt1 0)) (blk1_4 V c (pt1 0)) _ q).trans ?_
  exact congrArg₂ (· + ·) (zero1_3_apply _) rfl

theorem acc1_7_succ (c : Dev nD) (m : ℕ) (q : Fin 128) :
    (acc1 V c (m + 1)).2 (ix2 (0 : Fin 1) q)
      = (acc1 V c m).2 (ix2 (0 : Fin 1) q) + ∑ p : Fin 2000, k1_pay4 (blk1_0 V c (pt1 (m + 1))) (blk1_2 V c (pt1 (m + 1))) (blk1_1 V c (pt1 (m + 1))) (blk1_3 V c (pt1 (m + 1))) (blk1_4 V c (pt1 (m + 1))) (ix2 p q) * k1_pay4 (blk1_0 V c (pt1 (m + 1))) (blk1_2 V c (pt1 (m + 1))) (blk1_1 V c (pt1 (m + 1))) (blk1_3 V c (pt1 (m + 1))) (blk1_4 V c (pt1 (m + 1))) (ix2 p q) := by
  rw [acc1_succ]
  show step1_7 (blk1_0 V c (pt1 (m + 1))) (blk1_1 V c (pt1 (m + 1))) (blk1_2 V c (pt1 (m + 1))) (blk1_3 V c (pt1 (m + 1))) (blk1_4 V c (pt1 (m + 1))) (acc1 V c m).2 (ix2 (0 : Fin 1) q) = _
  rw [step1_7_eq]
  exact sq1_apply (blk1_0 V c (pt1 (m + 1))) (blk1_2 V c (pt1 (m + 1))) (blk1_1 V c (pt1 (m + 1))) (blk1_3 V c (pt1 (m + 1))) (blk1_4 V c (pt1 (m + 1))) (acc1 V c m).2 q

theorem colsum1_at (c : Dev nD) (t : Fin cfg1.N) (q : Fin 128) :
    (∑ p : Fin 2000, k1_pay4 (blk1_0 V c (pt1 t.val)) (blk1_2 V c (pt1 t.val)) (blk1_1 V c (pt1 t.val)) (blk1_3 V c (pt1 t.val)) (blk1_4 V c (pt1 t.val)) (ix2 p q))
      = ∑ p : Fin 2000, linRow1 (arr1_0 V c) (arr1_1 V c) (arr1_2 V c) (arr1_3 V c) (arr1_4 V c) ⟨2000 * t.val + p.val, by have := lt100_1 t; have := p.isLt; omega⟩ q := by
  rw [pt1_val]
  exact Finset.sum_congr rfl fun p _ => lin1_at V c t p q

theorem colsq1_at (c : Dev nD) (t : Fin cfg1.N) (q : Fin 128) :
    (∑ p : Fin 2000, k1_pay4 (blk1_0 V c (pt1 t.val)) (blk1_2 V c (pt1 t.val)) (blk1_1 V c (pt1 t.val)) (blk1_3 V c (pt1 t.val)) (blk1_4 V c (pt1 t.val)) (ix2 p q) * k1_pay4 (blk1_0 V c (pt1 t.val)) (blk1_2 V c (pt1 t.val)) (blk1_1 V c (pt1 t.val)) (blk1_3 V c (pt1 t.val)) (blk1_4 V c (pt1 t.val)) (ix2 p q))
      = ∑ p : Fin 2000, linRow1 (arr1_0 V c) (arr1_1 V c) (arr1_2 V c) (arr1_3 V c) (arr1_4 V c) ⟨2000 * t.val + p.val, by have := lt100_1 t; have := p.isLt; omega⟩ q
          * linRow1 (arr1_0 V c) (arr1_1 V c) (arr1_2 V c) (arr1_3 V c) (arr1_4 V c) ⟨2000 * t.val + p.val, by have := lt100_1 t; have := p.isLt; omega⟩ q := by
  rw [pt1_val]
  exact Finset.sum_congr rfl fun p _ => by rw [lin1_at V c t p q]

theorem acc1_6_last (c : Dev nD) (m : ℕ) (hm : m = 99) (q : Fin 128) :
    (acc1 V c m).1 (ix2 (0 : Fin 1) q) = G1_6 V c (ix2 (0 : Fin 1) q) := by
  subst hm
  show (acc1 V c 99).1 (ix2 (0 : Fin 1) q) = ∑ i : Fin 200000, linRow1 (arr1_0 V c) (arr1_1 V c) (arr1_2 V c) (arr1_3 V c) (arr1_4 V c) i q
  rw [Cert.Proof.MathR.acc_eq 0 (fun m => ∑ p : Fin 2000, k1_pay4 (blk1_0 V c (pt1 m)) (blk1_2 V c (pt1 m)) (blk1_1 V c (pt1 m)) (blk1_3 V c (pt1 m)) (blk1_4 V c (pt1 m)) (ix2 p q))
      (fun m => (acc1 V c m).1 (ix2 (0 : Fin 1) q)) (acc1_6_zero V c q) (fun m => acc1_6_succ V c m q) 99,
    zero_add, ← Fin.sum_univ_eq_sum_range (fun m => ∑ p : Fin 2000, k1_pay4 (blk1_0 V c (pt1 m)) (blk1_2 V c (pt1 m)) (blk1_1 V c (pt1 m)) (blk1_3 V c (pt1 m)) (blk1_4 V c (pt1 m)) (ix2 p q)) 100,
    Cert.Proof.MathR.sum_200000]
  refine Finset.sum_congr rfl fun t _ => ?_
  exact colsum1_at V c ⟨t.val, lt_of_lt_of_eq t.isLt N_1.symm⟩ q

theorem acc1_7_last (c : Dev nD) (m : ℕ) (hm : m = 99) (q : Fin 128) :
    (acc1 V c m).2 (ix2 (0 : Fin 1) q) = G1_7 V c (ix2 (0 : Fin 1) q) := by
  subst hm
  show (acc1 V c 99).2 (ix2 (0 : Fin 1) q) = ∑ i : Fin 200000, linRow1 (arr1_0 V c) (arr1_1 V c) (arr1_2 V c) (arr1_3 V c) (arr1_4 V c) i q * linRow1 (arr1_0 V c) (arr1_1 V c) (arr1_2 V c) (arr1_3 V c) (arr1_4 V c) i q
  rw [Cert.Proof.MathR.acc_eq 0 (fun m => ∑ p : Fin 2000, k1_pay4 (blk1_0 V c (pt1 m)) (blk1_2 V c (pt1 m)) (blk1_1 V c (pt1 m)) (blk1_3 V c (pt1 m)) (blk1_4 V c (pt1 m)) (ix2 p q) * k1_pay4 (blk1_0 V c (pt1 m)) (blk1_2 V c (pt1 m)) (blk1_1 V c (pt1 m)) (blk1_3 V c (pt1 m)) (blk1_4 V c (pt1 m)) (ix2 p q))
      (fun m => (acc1 V c m).2 (ix2 (0 : Fin 1) q)) (acc1_7_zero V c q) (fun m => acc1_7_succ V c m q) 99,
    zero_add, ← Fin.sum_univ_eq_sum_range (fun m => ∑ p : Fin 2000, k1_pay4 (blk1_0 V c (pt1 m)) (blk1_2 V c (pt1 m)) (blk1_1 V c (pt1 m)) (blk1_3 V c (pt1 m)) (blk1_4 V c (pt1 m)) (ix2 p q) * k1_pay4 (blk1_0 V c (pt1 m)) (blk1_2 V c (pt1 m)) (blk1_1 V c (pt1 m)) (blk1_3 V c (pt1 m)) (blk1_4 V c (pt1 m)) (ix2 p q)) 100,
    Cert.Proof.MathR.sum_200000]
  refine Finset.sum_congr rfl fun t _ => ?_
  exact colsq1_at V c ⟨t.val, lt_of_lt_of_eq t.isLt N_1.symm⟩ q

theorem read1_6 (t : Fin cfg1.N) (G : Vec Ideal S1x128 .f32) (q : Fin 128) :
    ((cfg1.win 6).blk t).view.read (Elt Ideal) G (ix2 (0 : Fin 1) q) = G (ix2 (0 : Fin 1) q) := by
  obtain ⟨e00, e01, e10, e11, e20, e21, e30, e31, e32, e40, e41, e50, e51, e60, e61, e70, e71⟩ := idx1 t
  rw [View.read_apply]
  show G _ = G _
  congr 1
  funext ax
  apply Fin.ext
  match ax with
  | ⟨0, _⟩ => show win1_6.index t (0 : Fin 2) * 1 + 1 * 0 = 0; rw [e60]
  | ⟨1, _⟩ => show win1_6.index t (1 : Fin 2) * 128 + 1 * q.val = q.val; rw [e61]; omega

theorem flushed1_6_eq (c : Dev nD) (t : Fin cfg1.N) (hf : (cfg1.win 6).flush t = true) :
    (dat1 V c).flushed 6 t = ((cfg1.win 6).blk t).view.read (Elt Ideal) (G1_6 V c) := by
  have h99 : t.val = 99 := by have := (flush1_6 t).mp hf; have := lt100_1 t; omega
  show (cfg1.win 6).cut (grid1.coords t) ((dat1 V c).after 6 t) = _
  rw [after1_6]
  funext y
  obtain ⟨u, q, rfl⟩ : ∃ (u : Fin 1) (q : Fin 128), y = ix2 u q := ⟨y 0, y 1, eq_ix2 y⟩
  obtain rfl : u = 0 := Subsingleton.elim _ _
  rw [read1_6 t (G1_6 V c) q]
  show (acc1 V c t.val).1 (ix2 (0 : Fin 1) q) = _
  exact acc1_6_last V c t.val h99 q

theorem mem_blk1_6 (t : Fin cfg1.N) (i : S1x128.Idx) :
    i ∈ ((cfg1.win 6).blk t).view.set ↔ ∀ ax : Fin 2, win1_6.index t ax * S1x128.size ax ≤ (i ax).val
      ∧ (i ax).val < win1_6.index t ax * S1x128.size ax + S1x128.size ax := by
  show i ∈ ((View.whole main_v32_1).slice (win1_6.rect t)).set ↔ _
  rw [View.set_slice_whole, Rect.mem_set_unit]
  exact Iff.rfl

theorem final1_6 (c : Dev nD) : (dat1 V c).arrAt 6 cfg1.N = G1_6 V c :=
  (dat1 V c).arrAt_eq_of_cover 6 (G1_6 V c) (flushed1_6_eq V c) fun i => by
    have hi0 : (i 0).val < 1 := (i 0).isLt
    have hi1 : (i 1).val < 128 := (i 1).isLt
    have ht : 99 < cfg1.N := by rw [show cfg1.N = 100 from N_1]; omega
    obtain ⟨e00, e01, e10, e11, e20, e21, e30, e31, e32, e40, e41, e50, e51, e60, e61, e70, e71⟩ := idx1 ⟨99, ht⟩
    refine ⟨⟨99, ht⟩, (flush1_6 _).mpr rfl, ?_⟩
    rw [mem_blk1_6]
    intro ax
    match ax with
    | ⟨0, _⟩ =>
      show win1_6.index ⟨99, ht⟩ (0 : Fin 2) * 1 ≤ (i 0).val ∧ (i 0).val < win1_6.index ⟨99, ht⟩ (0 : Fin 2) * 1 + 1
      rw [e60]; omega
    | ⟨1, _⟩ =>
      show win1_6.index ⟨99, ht⟩ (1 : Fin 2) * 128 ≤ (i 1).val ∧ (i 1).val < win1_6.index ⟨99, ht⟩ (1 : Fin 2) * 128 + 128
      rw [e61]; omega

theorem read1_7 (t : Fin cfg1.N) (G : Vec Ideal S1x128 .f32) (q : Fin 128) :
    ((cfg1.win 7).blk t).view.read (Elt Ideal) G (ix2 (0 : Fin 1) q) = G (ix2 (0 : Fin 1) q) := by
  obtain ⟨e00, e01, e10, e11, e20, e21, e30, e31, e32, e40, e41, e50, e51, e60, e61, e70, e71⟩ := idx1 t
  rw [View.read_apply]
  show G _ = G _
  congr 1
  funext ax
  apply Fin.ext
  match ax with
  | ⟨0, _⟩ => show win1_7.index t (0 : Fin 2) * 1 + 1 * 0 = 0; rw [e70]
  | ⟨1, _⟩ => show win1_7.index t (1 : Fin 2) * 128 + 1 * q.val = q.val; rw [e71]; omega

theorem flushed1_7_eq (c : Dev nD) (t : Fin cfg1.N) (hf : (cfg1.win 7).flush t = true) :
    (dat1 V c).flushed 7 t = ((cfg1.win 7).blk t).view.read (Elt Ideal) (G1_7 V c) := by
  have h99 : t.val = 99 := by have := (flush1_7 t).mp hf; have := lt100_1 t; omega
  show (cfg1.win 7).cut (grid1.coords t) ((dat1 V c).after 7 t) = _
  rw [after1_7]
  funext y
  obtain ⟨u, q, rfl⟩ : ∃ (u : Fin 1) (q : Fin 128), y = ix2 u q := ⟨y 0, y 1, eq_ix2 y⟩
  obtain rfl : u = 0 := Subsingleton.elim _ _
  rw [read1_7 t (G1_7 V c) q]
  show (acc1 V c t.val).2 (ix2 (0 : Fin 1) q) = _
  exact acc1_7_last V c t.val h99 q

theorem mem_blk1_7 (t : Fin cfg1.N) (i : S1x128.Idx) :
    i ∈ ((cfg1.win 7).blk t).view.set ↔ ∀ ax : Fin 2, win1_7.index t ax * S1x128.size ax ≤ (i ax).val
      ∧ (i ax).val < win1_7.index t ax * S1x128.size ax + S1x128.size ax := by
  show i ∈ ((View.whole main_v32_2).slice (win1_7.rect t)).set ↔ _
  rw [View.set_slice_whole, Rect.mem_set_unit]
  exact Iff.rfl

theorem final1_7 (c : Dev nD) : (dat1 V c).arrAt 7 cfg1.N = G1_7 V c :=
  (dat1 V c).arrAt_eq_of_cover 7 (G1_7 V c) (flushed1_7_eq V c) fun i => by
    have hi0 : (i 0).val < 1 := (i 0).isLt
    have hi1 : (i 1).val < 128 := (i 1).isLt
    have ht : 99 < cfg1.N := by rw [show cfg1.N = 100 from N_1]; omega
    obtain ⟨e00, e01, e10, e11, e20, e21, e30, e31, e32, e40, e41, e50, e51, e60, e61, e70, e71⟩ := idx1 ⟨99, ht⟩
    refine ⟨⟨99, ht⟩, (flush1_7 _).mpr rfl, ?_⟩
    rw [mem_blk1_7]
    intro ax
    match ax with
    | ⟨0, _⟩ =>
      show win1_7.index ⟨99, ht⟩ (0 : Fin 2) * 1 ≤ (i 0).val ∧ (i 0).val < win1_7.index ⟨99, ht⟩ (0 : Fin 2) * 1 + 1
      rw [e70]; omega
    | ⟨1, _⟩ =>
      show win1_7.index ⟨99, ht⟩ (1 : Fin 2) * 128 ≤ (i 1).val ∧ (i 1).val < win1_7.index ⟨99, ht⟩ (1 : Fin 2) * 128 + 128
      rw [e71]; omega

abbrev res1_5 (c : Dev nD) : Vec Ideal S200000x128 .f32 := (dat1 V c).arrAt 5 cfg1.N
abbrev res1_6 (c : Dev nD) : Vec Ideal S1x128 .f32 := (dat1 V c).arrAt 6 cfg1.N
abbrev res1_7 (c : Dev nD) : Vec Ideal S1x128 .f32 := (dat1 V c).arrAt 7 cfg1.N

theorem conv1_sum (c : Dev nD) (j : Fin 128) :
    res1_6 V c (ix2 (0 : Fin 1) j) = ∑ i : Fin 200000, res1_5 V c (ix2 i j) := by
  unfold res1_6 res1_5
  rw [final1_6, final1_5]
  rfl

theorem conv1_sumsq (c : Dev nD) (j : Fin 128) :
    res1_7 V c (ix2 (0 : Fin 1) j) = ∑ i : Fin 200000, res1_5 V c (ix2 i j) * res1_5 V c (ix2 i j) := by
  unfold res1_7 res1_5
  rw [final1_7, final1_5]
  rfl

theorem conv1_x (c : Dev nD) (cb : FVec Ideal S128 .f32) (n1 n2 n3 n4 : FVec Ideal S50000x80 .f32)
    (d1 d2 d3 d4 : FVec Ideal S80x128 .f32)
    (hn : ∀ (d : Fin 4) (r : Fin 50000) (k : Fin 80),
      arr1_1 V c (ix2 (Cert.SpecConv.brow d r) k) = Cert.SpecConv.sel4 d n1 n2 n3 n4 (ix2 r k))
    (hd : ∀ (d : Fin 4) (k : Fin 80) (j : Fin 128), arr1_3 V c (ix3 d k j) = Cert.SpecConv.sel4 d d1 d2 d3 d4 (ix2 k j))
    (hb : ∀ j : Fin 128, arr1_4 V c (ix2 (0 : Fin 1) j) = cb (ix1 j)) :
    (dat1 V c).arrAt 5 cfg1.N = Cert.Spec.x1 (arr1_0 V c) (arr1_2 V c) cb n1 n2 n3 n4 d1 d2 d3 d4 := by
  rw [final1_5]
  funext y
  obtain ⟨i, j, rfl⟩ : ∃ (i : Fin 200000) (j : Fin 128), y = ix2 i j := ⟨y 0, y 1, eq_ix2 y⟩
  obtain ⟨d, r, rfl⟩ := Cert.SpecConv.exists_brow i
  refine Eq.trans ?_ (Cert.SpecConv.x1_apply (arr1_0 V c) (arr1_2 V c) cb n1 n2 n3 n4 d1 d2 d3 d4 d r j).symm
  show linRow1 (arr1_0 V c) (arr1_1 V c) (arr1_2 V c) (arr1_3 V c) (arr1_4 V c) (Cert.SpecConv.brow d r) j = _
  unfold linRow1
  have e : (⟨(Cert.SpecConv.brow d r).val / 50000, by have := (Cert.SpecConv.brow d r).isLt; omega⟩ : Fin 4) = d :=
    Fin.ext (by show (50000 * d.val + r.val) / 50000 = d.val; have := r.isLt; omega)
  refine congrArg₂ (· + ·) (congrArg₂ (· + ·) rfl (Finset.sum_congr rfl fun k _ => ?_)) (hb j)
  rw [hn d r k, e, hd d k j]

theorem conv1_sum_x (c : Dev nD) (cb : FVec Ideal S128 .f32) (n1 n2 n3 n4 : FVec Ideal S50000x80 .f32)
    (d1 d2 d3 d4 : FVec Ideal S80x128 .f32)
    (hn : ∀ (d : Fin 4) (r : Fin 50000) (k : Fin 80),
      arr1_1 V c (ix2 (Cert.SpecConv.brow d r) k) = Cert.SpecConv.sel4 d n1 n2 n3 n4 (ix2 r k))
    (hd : ∀ (d : Fin 4) (k : Fin 80) (j : Fin 128), arr1_3 V c (ix3 d k j) = Cert.SpecConv.sel4 d d1 d2 d3 d4 (ix2 k j))
    (hb : ∀ j : Fin 128, arr1_4 V c (ix2 (0 : Fin 1) j) = cb (ix1 j)) (j : Fin 128) :
    res1_6 V c (ix2 (0 : Fin 1) j) = ∑ i : Fin 200000, Cert.Spec.x1 (arr1_0 V c) (arr1_2 V c) cb n1 n2 n3 n4 d1 d2 d3 d4 (ix2 i j) := by
  rw [conv1_sum]
  unfold res1_5
  rw [conv1_x V c cb n1 n2 n3 n4 d1 d2 d3 d4 hn hd hb]

theorem conv1_sumsq_x (c : Dev nD) (cb : FVec Ideal S128 .f32) (n1 n2 n3 n4 : FVec Ideal S50000x80 .f32)
    (d1 d2 d3 d4 : FVec Ideal S80x128 .f32)
    (hn : ∀ (d : Fin 4) (r : Fin 50000) (k : Fin 80),
      arr1_1 V c (ix2 (Cert.SpecConv.brow d r) k) = Cert.SpecConv.sel4 d n1 n2 n3 n4 (ix2 r k))
    (hd : ∀ (d : Fin 4) (k : Fin 80) (j : Fin 128), arr1_3 V c (ix3 d k j) = Cert.SpecConv.sel4 d d1 d2 d3 d4 (ix2 k j))
    (hb : ∀ j : Fin 128, arr1_4 V c (ix2 (0 : Fin 1) j) = cb (ix1 j)) (j : Fin 128) :
    res1_7 V c (ix2 (0 : Fin 1) j)
      = ∑ i : Fin 200000, Cert.Spec.x1 (arr1_0 V c) (arr1_2 V c) cb n1 n2 n3 n4 d1 d2 d3 d4 (ix2 i j) * Cert.Spec.x1 (arr1_0 V c) (arr1_2 V c) cb n1 n2 n3 n4 d1 d2 d3 d4 (ix2 i j) := by
  rw [conv1_sumsq]
  unfold res1_5
  rw [conv1_x V c cb n1 n2 n3 n4 d1 d2 d3 d4 hn hd hb]

end Cert.KernelIdeal.HandV

end
-- ==== Proof.KI.ValConv4.lean ====
import proofs.«410641_j56710748176715_1_alg».proof.Proof.KI.R4
import proofs.«410641_j56710748176715_1_alg».proof.Proof.KI.ValConvPay
import proofs.«410641_j56710748176715_1_alg».proof.Proof.KI.ValConvSpec
import proofs.«410641_j56710748176715_1_alg».proof.Proof.Math.Real
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem hz2_4 : (![0, 0] : Fin 2 → Nat) = fun _ => 0 := funext fun a => by fin_cases a <;> rfl
theorem hz3_4 : (![0, 0, 0] : Fin 3 → Nat) = fun _ => 0 := funext fun a => by fin_cases a <;> rfl

theorem out4_5_eq (x0 : Vec Ideal S2000x128 .f32) (x1 : Vec Ideal S2000x144 .f32) (x2 : Vec Ideal S128x128 .f32) (x3 : Vec Ideal S1x144x128 .f32) (x4 : Vec Ideal S1x128 .f32) : out4_5 x0 x1 x2 x3 x4 = k4_pay4 x0 x2 x1 x3 x4 := by
  unfold out4_5
  rw [View.canon_unit_zero hz2_4]
  simp only [View.ld_unit_zero (S := S2000x128) hz2_4, View.ld_unit_zero (S := S2000x144) hz2_4, View.ld_unit_zero (S := S128x128) hz2_4,
    View.ld_unit_zero (S := S1x144x128) hz3_4, View.ld_unit_zero (S := S1x128) hz2_4]

theorem step4_6_eq (x0 : Vec Ideal S2000x128 .f32) (x1 : Vec Ideal S2000x144 .f32) (x2 : Vec Ideal S128x128 .f32) (x3 : Vec Ideal S1x144x128 .f32) (x4 : Vec Ideal S1x128 .f32) (p : Vec Ideal S1x128 .f32) : step4_6 x0 x1 x2 x3 x4 p = k4_pay5 x0 x2 x1 x3 x4 p := by
  unfold step4_6
  rw [View.canon_unit_zero hz2_4]
  simp only [View.ld_unit_zero (S := S2000x128) hz2_4, View.ld_unit_zero (S := S2000x144) hz2_4, View.ld_unit_zero (S := S128x128) hz2_4,
    View.ld_unit_zero (S := S1x144x128) hz3_4, View.ld_unit_zero (S := S1x128) hz2_4]

theorem step4_7_eq (x0 : Vec Ideal S2000x128 .f32) (x1 : Vec Ideal S2000x144 .f32) (x2 : Vec Ideal S128x128 .f32) (x3 : Vec Ideal S1x144x128 .f32) (x4 : Vec Ideal S1x128 .f32) (p : Vec Ideal S1x128 .f32) :
    step4_7 x0 x1 x2 x3 x4 p = k4_pay1 (k4_pay6 p) (k4_pay7 x0 x2 x1 x3 x4) := by
  unfold step4_7
  rw [View.canon_unit_zero hz2_4]
  simp only [View.ld_unit_zero (S := S2000x128) hz2_4, View.ld_unit_zero (S := S2000x144) hz2_4, View.ld_unit_zero (S := S128x128) hz2_4,
    View.ld_unit_zero (S := S1x144x128) hz3_4, View.ld_unit_zero (S := S1x128) hz2_4]

theorem zero4_6_eq : zero4_6 (F := Ideal) = k4_pay2 (F := Ideal) := by
  unfold zero4_6
  rw [View.canon_unit_zero hz2_4]
theorem zero4_7_eq : zero4_7 (F := Ideal) = k4_pay3 (F := Ideal) := by
  unfold zero4_7
  rw [View.canon_unit_zero hz2_4]

abbrev arr4_0 (c : Dev nD) : Vec Ideal S200000x128 .f32 := V c (Pipeline.arrRef spec4 0)
abbrev arr4_1 (c : Dev nD) : Vec Ideal S200000x144 .f32 := V c (Pipeline.arrRef spec4 1)
abbrev arr4_2 (c : Dev nD) : Vec Ideal S128x128 .f32 := V c (Pipeline.arrRef spec4 2)
abbrev arr4_3 (c : Dev nD) : Vec Ideal S4x144x128 .f32 := V c (Pipeline.arrRef spec4 3)
abbrev arr4_4 (c : Dev nD) : Vec Ideal S1x128 .f32 := V c (Pipeline.arrRef spec4 4)

abbrev blk4_0 (c : Dev nD) (t : Fin cfg4.N) : Vec Ideal S2000x128 .f32 := iblk4 V c 0 t
abbrev blk4_1 (c : Dev nD) (t : Fin cfg4.N) : Vec Ideal S2000x144 .f32 := iblk4 V c 1 t
abbrev blk4_2 (c : Dev nD) (t : Fin cfg4.N) : Vec Ideal S128x128 .f32 := iblk4 V c 2 t
abbrev blk4_3 (c : Dev nD) (t : Fin cfg4.N) : Vec Ideal S1x144x128 .f32 := iblk4 V c 3 t
abbrev blk4_4 (c : Dev nD) (t : Fin cfg4.N) : Vec Ideal S1x128 .f32 := iblk4 V c 4 t

theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 3) = t.val / 25 ∧ win4_3.index t (1 : Fin 3) = 0 ∧ win4_3.index t (2 : Fin 3) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem lt100_4 (t : Fin cfg4.N) : t.val < 100 := lt_of_lt_of_eq t.isLt N_4

theorem blk4_0_apply (c : Dev nD) (t : Fin cfg4.N) (p : Fin 2000) (k : Fin 128) :
    blk4_0 V c t (ix2 p k) = arr4_0 V c (ix2 (⟨2000 * t.val + p.val, by have := lt100_4 t; have := p.isLt; omega⟩ : Fin 200000) k) := by
  obtain ⟨e00, e01, e10, e11, e20, e21, e30, e31, e32, e40, e41, e50, e51, e60, e61, e70, e71⟩ := idx4 t
  unfold blk4_0 arr4_0 iblk4
  rw [View.read_apply]
  show V c (Pipeline.arrRef spec4 0) _ = V c (Pipeline.arrRef spec4 0) _
  congr 1
  funext ax
  apply Fin.ext
  match ax with
  | ⟨0, _⟩ => show win4_0.index t (0 : Fin 2) * 2000 + 1 * p.val = 2000 * t.val + p.val; rw [e00]; omega
  | ⟨1, _⟩ => show win4_0.index t (1 : Fin 2) * 128 + 1 * k.val = k.val; rw [e01]; omega

theorem blk4_1_apply (c : Dev nD) (t : Fin cfg4.N) (p : Fin 2000) (k : Fin 144) :
    blk4_1 V c t (ix2 p k) = arr4_1 V c (ix2 (⟨2000 * t.val + p.val, by have := lt100_4 t; have := p.isLt; omega⟩ : Fin 200000) k) := by
  obtain ⟨e00, e01, e10, e11, e20, e21, e30, e31, e32, e40, e41, e50, e51, e60, e61, e70, e71⟩ := idx4 t
  unfold blk4_1 arr4_1 iblk4
  rw [View.read_apply]
  show V c (Pipeline.arrRef spec4 1) _ = V c (Pipeline.arrRef spec4 1) _
  congr 1
  funext ax
  apply Fin.ext
  match ax with
  | ⟨0, _⟩ => show win4_1.index t (0 : Fin 2) * 2000 + 1 * p.val = 2000 * t.val + p.val; rw [e10]; omega
  | ⟨1, _⟩ => show win4_1.index t (1 : Fin 2) * 144 + 1 * k.val = k.val; rw [e11]; omega

theorem blk4_2_apply (c : Dev nD) (t : Fin cfg4.N) (k : Fin 128) (q : Fin 128) :
    blk4_2 V c t (ix2 k q) = arr4_2 V c (ix2 k q) := by
  obtain ⟨e00, e01, e10, e11, e20, e21, e30, e31, e32, e40, e41, e50, e51, e60, e61, e70, e71⟩ := idx4 t
  unfold blk4_2 arr4_2 iblk4
  rw [View.read_apply]
  show V c (Pipeline.arrRef spec4 2) _ = V c (Pipeline.arrRef spec4 2) _
  congr 1
  funext ax
  apply Fin.ext
  match ax with
  | ⟨0, _⟩ => show win4_2.index t (0 : Fin 2) * 128 + 1 * k.val = k.val; rw [e20]; omega
  | ⟨1, _⟩ => show win4_2.index t (1 : Fin 2) * 128 + 1 * q.val = q.val; rw [e21]; omega

theorem blk4_3_apply (c : Dev nD) (t : Fin cfg4.N) (k : Fin 144) (q : Fin 128) :
    blk4_3 V c t (ix3 (0 : Fin 1) k q) = arr4_3 V c (ix3 (⟨t.val / 25, by have := lt100_4 t; omega⟩ : Fin 4) k q) := by
  obtain ⟨e00, e01, e10, e11, e20, e21, e30, e31, e32, e40, e41, e50, e51, e60, e61, e70, e71⟩ := idx4 t
  unfold blk4_3 arr4_3 iblk4
  rw [View.read_apply]
  show V c (Pipeline.arrRef spec4 3) _ = V c (Pipeline.arrRef spec4 3) _
  congr 1
  funext ax
  apply Fin.ext
  match ax with
  | ⟨0, _⟩ => show win4_3.index t (0 : Fin 3) * 1 + 1 * 0 = t.val / 25; rw [e30]; omega
  | ⟨1, _⟩ => show win4_3.index t (1 : Fin 3) * 144 + 1 * k.val = k.val; rw [e31]; omega
  | ⟨2, _⟩ => show win4_3.index t (2 : Fin 3) * 128 + 1 * q.val = q.val; rw [e32]; omega

theorem blk4_4_apply (c : Dev nD) (t : Fin cfg4.N) (q : Fin 128) :
    blk4_4 V c t (ix2 (0 : Fin 1) q) = arr4_4 V c (ix2 (0 : Fin 1) q) := by
  obtain ⟨e00, e01, e10, e11, e20, e21, e30, e31, e32, e40, e41, e50, e51, e60, e61, e70, e71⟩ := idx4 t
  unfold blk4_4 arr4_4 iblk4
  rw [View.read_apply]
  show V c (Pipeline.arrRef spec4 4) _ = V c (Pipeline.arrRef spec4 4) _
  congr 1
  funext ax
  apply Fin.ext
  match ax with
  | ⟨0, _⟩ => show win4_4.index t (0 : Fin 2) * 1 + 1 * 0 = 0; rw [e40]
  | ⟨1, _⟩ => show win4_4.index t (1 : Fin 2) * 128 + 1 * q.val = q.val; rw [e41]; omega

theorem lin4_at (c : Dev nD) (t : Fin cfg4.N) (p : Fin 2000) (q : Fin 128) :
    k4_pay4 (blk4_0 V c t) (blk4_2 V c t) (blk4_1 V c t) (blk4_3 V c t) (blk4_4 V c t) (ix2 p q)
      = linRow4 (arr4_0 V c) (arr4_1 V c) (arr4_2 V c) (arr4_3 V c) (arr4_4 V c) ⟨2000 * t.val + p.val, by have := lt100_4 t; have := p.isLt; omega⟩ q :=
  lin4_block (blk4_0 V c t) (blk4_1 V c t) (blk4_2 V c t) (blk4_3 V c t) (blk4_4 V c t) (arr4_0 V c) (arr4_1 V c) (arr4_2 V c) (arr4_3 V c) (arr4_4 V c) t.val (lt100_4 t)
    (fun p k => blk4_0_apply V c t p k) (fun p k => blk4_1_apply V c t p k) (fun k q => blk4_2_apply V c t k q)
    (fun k q => blk4_3_apply V c t k q) (fun q => blk4_4_apply V c t q) p q

def G4_5 (c : Dev nD) : S200000x128.Idx → EReal := fun y => linRow4 (arr4_0 V c) (arr4_1 V c) (arr4_2 V c) (arr4_3 V c) (arr4_4 V c) (y 0) (y 1)

theorem read4_5 (t : Fin cfg4.N) (G : Vec Ideal S200000x128 .f32) (p : Fin 2000) (q : Fin 128) :
    ((cfg4.win 5).blk t).view.read (Elt Ideal) G (ix2 p q)
      = G (ix2 (⟨2000 * t.val + p.val, by have := lt100_4 t; have := p.isLt; omega⟩ : Fin 200000) q) := by
  obtain ⟨e00, e01, e10, e11, e20, e21, e30, e31, e32, e40, e41, e50, e51, e60, e61, e70, e71⟩ := idx4 t
  rw [View.read_apply]
  show G _ = G _
  congr 1
  funext ax
  apply Fin.ext
  match ax with
  | ⟨0, _⟩ => show win4_5.index t (0 : Fin 2) * 2000 + 1 * p.val = 2000 * t.val + p.val; rw [e50]; omega
  | ⟨1, _⟩ => show win4_5.index t (1 : Fin 2) * 128 + 1 * q.val = q.val; rw [e51]; omega

theorem flushed4_5_eq (c : Dev nD) (t : Fin cfg4.N) :
    (dat4 V c).flushed 5 t = ((cfg4.win 5).blk t).view.read (Elt Ideal) (G4_5 V c) := by
  show (cfg4.win 5).cut (grid4.coords t) ((dat4 V c).after 5 t) = _
  rw [after4_5, out4_5_eq]
  funext y
  obtain ⟨p, q, rfl⟩ : ∃ (p : Fin 2000) (q : Fin 128), y = ix2 p q := ⟨y 0, y 1, eq_ix2 y⟩
  rw [read4_5 t (G4_5 V c) p q]
  show k4_pay4 (blk4_0 V c t) (blk4_2 V c t) (blk4_1 V c t) (blk4_3 V c t) (blk4_4 V c t) (ix2 p q) = _
  exact lin4_at V c t p q

theorem mem_blk4_5 (t : Fin cfg4.N) (i : S200000x128.Idx) :
    i ∈ ((cfg4.win 5).blk t).view.set ↔ ∀ ax : Fin 2, win4_5.index t ax * S2000x128.size ax ≤ (i ax).val
      ∧ (i ax).val < win4_5.index t ax * S2000x128.size ax + S2000x128.size ax := by
  show i ∈ ((View.whole main_v72_0).slice (win4_5.rect t)).set ↔ _
  rw [View.set_slice_whole, Rect.mem_set_unit]
  exact Iff.rfl

theorem final4_5 (c : Dev nD) : (dat4 V c).arrAt 5 cfg4.N = G4_5 V c :=
  (dat4 V c).arrAt_eq_of_cover 5 (G4_5 V c) (fun t _ => flushed4_5_eq V c t) fun i => by
    have hi0 : (i 0).val < 200000 := (i 0).isLt
    have hi1 : (i 1).val < 128 := (i 1).isLt
    have hN : cfg4.N = 100 := N_4
    have ht : (i 0).val / 2000 < cfg4.N := by rw [hN]; omega
    obtain ⟨e00, e01, e10, e11, e20, e21, e30, e31, e32, e40, e41, e50, e51, e60, e61, e70, e71⟩ := idx4 ⟨(i 0).val / 2000, ht⟩
    refine ⟨⟨(i 0).val / 2000, ht⟩, flush4_5 _, ?_⟩
    rw [mem_blk4_5]
    intro ax
    match ax with
    | ⟨0, _⟩ =>
      show win4_5.index ⟨(i 0).val / 2000, ht⟩ (0 : Fin 2) * 2000 ≤ (i 0).val
        ∧ (i 0).val < win4_5.index ⟨(i 0).val / 2000, ht⟩ (0 : Fin 2) * 2000 + 2000
      rw [e50]; show (i 0).val / 2000 * 2000 ≤ (i 0).val ∧ (i 0).val < (i 0).val / 2000 * 2000 + 2000; omega
    | ⟨1, _⟩ =>
      show win4_5.index ⟨(i 0).val / 2000, ht⟩ (1 : Fin 2) * 128 ≤ (i 1).val
        ∧ (i 1).val < win4_5.index ⟨(i 0).val / 2000, ht⟩ (1 : Fin 2) * 128 + 128
      rw [e51]; omega

def G4_6 (c : Dev nD) : S1x128.Idx → EReal := fun y => ∑ i : Fin 200000, linRow4 (arr4_0 V c) (arr4_1 V c) (arr4_2 V c) (arr4_3 V c) (arr4_4 V c) i (y 1)

def G4_7 (c : Dev nD) : S1x128.Idx → EReal :=
  fun y => ∑ i : Fin 200000, linRow4 (arr4_0 V c) (arr4_1 V c) (arr4_2 V c) (arr4_3 V c) (arr4_4 V c) i (y 1) * linRow4 (arr4_0 V c) (arr4_1 V c) (arr4_2 V c) (arr4_3 V c) (arr4_4 V c) i (y 1)

theorem acc4_6_zero (c : Dev nD) (q : Fin 128) :
    (acc4 V c 0).1 (ix2 (0 : Fin 1) q) = 0 + ∑ p : Fin 2000, k4_pay4 (blk4_0 V c (pt4 0)) (blk4_2 V c (pt4 0)) (blk4_1 V c (pt4 0)) (blk4_3 V c (pt4 0)) (blk4_4 V c (pt4 0)) (ix2 p q) := by
  rw [acc4_zero]
  show step4_6 (blk4_0 V c (pt4 0)) (blk4_1 V c (pt4 0)) (blk4_2 V c (pt4 0)) (blk4_3 V c (pt4 0)) (blk4_4 V c (pt4 0)) zero4_6 (ix2 (0 : Fin 1) q) = _
  rw [step4_6_eq, zero4_6_eq]
  refine (sum4_apply (blk4_0 V c (pt4 0)) (blk4_2 V c (pt4 0)) (blk4_1 V c (pt4 0)) (blk4_3 V c (pt4 0)) (blk4_4 V c (pt4 0)) _ q).trans ?_
  exact congrArg₂ (· + ·) (zero4_2_apply _) rfl

theorem acc4_6_succ (c : Dev nD) (m : ℕ) (q : Fin 128) :
    (acc4 V c (m + 1)).1 (ix2 (0 : Fin 1) q)
      = (acc4 V c m).1 (ix2 (0 : Fin 1) q) + ∑ p : Fin 2000, k4_pay4 (blk4_0 V c (pt4 (m + 1))) (blk4_2 V c (pt4 (m + 1))) (blk4_1 V c (pt4 (m + 1))) (blk4_3 V c (pt4 (m + 1))) (blk4_4 V c (pt4 (m + 1))) (ix2 p q) := by
  rw [acc4_succ]
  show step4_6 (blk4_0 V c (pt4 (m + 1))) (blk4_1 V c (pt4 (m + 1))) (blk4_2 V c (pt4 (m + 1))) (blk4_3 V c (pt4 (m + 1))) (blk4_4 V c (pt4 (m + 1))) (acc4 V c m).1 (ix2 (0 : Fin 1) q) = _
  rw [step4_6_eq]
  exact sum4_apply (blk4_0 V c (pt4 (m + 1))) (blk4_2 V c (pt4 (m + 1))) (blk4_1 V c (pt4 (m + 1))) (blk4_3 V c (pt4 (m + 1))) (blk4_4 V c (pt4 (m + 1))) (acc4 V c m).1 q

theorem acc4_7_zero (c : Dev nD) (q : Fin 128) :
    (acc4 V c 0).2 (ix2 (0 : Fin 1) q) = 0 + ∑ p : Fin 2000, k4_pay4 (blk4_0 V c (pt4 0)) (blk4_2 V c (pt4 0)) (blk4_1 V c (pt4 0)) (blk4_3 V c (pt4 0)) (blk4_4 V c (pt4 0)) (ix2 p q) * k4_pay4 (blk4_0 V c (pt4 0)) (blk4_2 V c (pt4 0)) (blk4_1 V c (pt4 0)) (blk4_3 V c (pt4 0)) (blk4_4 V c (pt4 0)) (ix2 p q) := by
  rw [acc4_zero]
  show step4_7 (blk4_0 V c (pt4 0)) (blk4_1 V c (pt4 0)) (blk4_2 V c (pt4 0)) (blk4_3 V c (pt4 0)) (blk4_4 V c (pt4 0)) zero4_7 (ix2 (0 : Fin 1) q) = _
  rw [step4_7_eq, zero4_7_eq]
  refine (sq4_apply (blk4_0 V c (pt4 0)) (blk4_2 V c (pt4 0)) (blk4_1 V c (pt4 0)) (blk4_3 V c (pt4 0)) (blk4_4 V c (pt4 0)) _ q).trans ?_
  exact congrArg₂ (· + ·) (zero4_3_apply _) rfl

theorem acc4_7_succ (c : Dev nD) (m : ℕ) (q : Fin 128) :
    (acc4 V c (m + 1)).2 (ix2 (0 : Fin 1) q)
      = (acc4 V c m).2 (ix2 (0 : Fin 1) q) + ∑ p : Fin 2000, k4_pay4 (blk4_0 V c (pt4 (m + 1))) (blk4_2 V c (pt4 (m + 1))) (blk4_1 V c (pt4 (m + 1))) (blk4_3 V c (pt4 (m + 1))) (blk4_4 V c (pt4 (m + 1))) (ix2 p q) * k4_pay4 (blk4_0 V c (pt4 (m + 1))) (blk4_2 V c (pt4 (m + 1))) (blk4_1 V c (pt4 (m + 1))) (blk4_3 V c (pt4 (m + 1))) (blk4_4 V c (pt4 (m + 1))) (ix2 p q) := by
  rw [acc4_succ]
  show step4_7 (blk4_0 V c (pt4 (m + 1))) (blk4_1 V c (pt4 (m + 1))) (blk4_2 V c (pt4 (m + 1))) (blk4_3 V c (pt4 (m + 1))) (blk4_4 V c (pt4 (m + 1))) (acc4 V c m).2 (ix2 (0 : Fin 1) q) = _
  rw [step4_7_eq]
  exact sq4_apply (blk4_0 V c (pt4 (m + 1))) (blk4_2 V c (pt4 (m + 1))) (blk4_1 V c (pt4 (m + 1))) (blk4_3 V c (pt4 (m + 1))) (blk4_4 V c (pt4 (m + 1))) (acc4 V c m).2 q

theorem colsum4_at (c : Dev nD) (t : Fin cfg4.N) (q : Fin 128) :
    (∑ p : Fin 2000, k4_pay4 (blk4_0 V c (pt4 t.val)) (blk4_2 V c (pt4 t.val)) (blk4_1 V c (pt4 t.val)) (blk4_3 V c (pt4 t.val)) (blk4_4 V c (pt4 t.val)) (ix2 p q))
      = ∑ p : Fin 2000, linRow4 (arr4_0 V c) (arr4_1 V c) (arr4_2 V c) (arr4_3 V c) (arr4_4 V c) ⟨2000 * t.val + p.val, by have := lt100_4 t; have := p.isLt; omega⟩ q := by
  rw [pt4_val]
  exact Finset.sum_congr rfl fun p _ => lin4_at V c t p q

theorem colsq4_at (c : Dev nD) (t : Fin cfg4.N) (q : Fin 128) :
    (∑ p : Fin 2000, k4_pay4 (blk4_0 V c (pt4 t.val)) (blk4_2 V c (pt4 t.val)) (blk4_1 V c (pt4 t.val)) (blk4_3 V c (pt4 t.val)) (blk4_4 V c (pt4 t.val)) (ix2 p q) * k4_pay4 (blk4_0 V c (pt4 t.val)) (blk4_2 V c (pt4 t.val)) (blk4_1 V c (pt4 t.val)) (blk4_3 V c (pt4 t.val)) (blk4_4 V c (pt4 t.val)) (ix2 p q))
      = ∑ p : Fin 2000, linRow4 (arr4_0 V c) (arr4_1 V c) (arr4_2 V c) (arr4_3 V c) (arr4_4 V c) ⟨2000 * t.val + p.val, by have := lt100_4 t; have := p.isLt; omega⟩ q
          * linRow4 (arr4_0 V c) (arr4_1 V c) (arr4_2 V c) (arr4_3 V c) (arr4_4 V c) ⟨2000 * t.val + p.val, by have := lt100_4 t; have := p.isLt; omega⟩ q := by
  rw [pt4_val]
  exact Finset.sum_congr rfl fun p _ => by rw [lin4_at V c t p q]

theorem acc4_6_last (c : Dev nD) (m : ℕ) (hm : m = 99) (q : Fin 128) :
    (acc4 V c m).1 (ix2 (0 : Fin 1) q) = G4_6 V c (ix2 (0 : Fin 1) q) := by
  subst hm
  show (acc4 V c 99).1 (ix2 (0 : Fin 1) q) = ∑ i : Fin 200000, linRow4 (arr4_0 V c) (arr4_1 V c) (arr4_2 V c) (arr4_3 V c) (arr4_4 V c) i q
  rw [Cert.Proof.MathR.acc_eq 0 (fun m => ∑ p : Fin 2000, k4_pay4 (blk4_0 V c (pt4 m)) (blk4_2 V c (pt4 m)) (blk4_1 V c (pt4 m)) (blk4_3 V c (pt4 m)) (blk4_4 V c (pt4 m)) (ix2 p q))
      (fun m => (acc4 V c m).1 (ix2 (0 : Fin 1) q)) (acc4_6_zero V c q) (fun m => acc4_6_succ V c m q) 99,
    zero_add, ← Fin.sum_univ_eq_sum_range (fun m => ∑ p : Fin 2000, k4_pay4 (blk4_0 V c (pt4 m)) (blk4_2 V c (pt4 m)) (blk4_1 V c (pt4 m)) (blk4_3 V c (pt4 m)) (blk4_4 V c (pt4 m)) (ix2 p q)) 100,
    Cert.Proof.MathR.sum_200000]
  refine Finset.sum_congr rfl fun t _ => ?_
  exact colsum4_at V c ⟨t.val, lt_of_lt_of_eq t.isLt N_4.symm⟩ q

theorem acc4_7_last (c : Dev nD) (m : ℕ) (hm : m = 99) (q : Fin 128) :
    (acc4 V c m).2 (ix2 (0 : Fin 1) q) = G4_7 V c (ix2 (0 : Fin 1) q) := by
  subst hm
  show (acc4 V c 99).2 (ix2 (0 : Fin 1) q) = ∑ i : Fin 200000, linRow4 (arr4_0 V c) (arr4_1 V c) (arr4_2 V c) (arr4_3 V c) (arr4_4 V c) i q * linRow4 (arr4_0 V c) (arr4_1 V c) (arr4_2 V c) (arr4_3 V c) (arr4_4 V c) i q
  rw [Cert.Proof.MathR.acc_eq 0 (fun m => ∑ p : Fin 2000, k4_pay4 (blk4_0 V c (pt4 m)) (blk4_2 V c (pt4 m)) (blk4_1 V c (pt4 m)) (blk4_3 V c (pt4 m)) (blk4_4 V c (pt4 m)) (ix2 p q) * k4_pay4 (blk4_0 V c (pt4 m)) (blk4_2 V c (pt4 m)) (blk4_1 V c (pt4 m)) (blk4_3 V c (pt4 m)) (blk4_4 V c (pt4 m)) (ix2 p q))
      (fun m => (acc4 V c m).2 (ix2 (0 : Fin 1) q)) (acc4_7_zero V c q) (fun m => acc4_7_succ V c m q) 99,
    zero_add, ← Fin.sum_univ_eq_sum_range (fun m => ∑ p : Fin 2000, k4_pay4 (blk4_0 V c (pt4 m)) (blk4_2 V c (pt4 m)) (blk4_1 V c (pt4 m)) (blk4_3 V c (pt4 m)) (blk4_4 V c (pt4 m)) (ix2 p q) * k4_pay4 (blk4_0 V c (pt4 m)) (blk4_2 V c (pt4 m)) (blk4_1 V c (pt4 m)) (blk4_3 V c (pt4 m)) (blk4_4 V c (pt4 m)) (ix2 p q)) 100,
    Cert.Proof.MathR.sum_200000]
  refine Finset.sum_congr rfl fun t _ => ?_
  exact colsq4_at V c ⟨t.val, lt_of_lt_of_eq t.isLt N_4.symm⟩ q

theorem read4_6 (t : Fin cfg4.N) (G : Vec Ideal S1x128 .f32) (q : Fin 128) :
    ((cfg4.win 6).blk t).view.read (Elt Ideal) G (ix2 (0 : Fin 1) q) = G (ix2 (0 : Fin 1) q) := by
  obtain ⟨e00, e01, e10, e11, e20, e21, e30, e31, e32, e40, e41, e50, e51, e60, e61, e70, e71⟩ := idx4 t
  rw [View.read_apply]
  show G _ = G _
  congr 1
  funext ax
  apply Fin.ext
  match ax with
  | ⟨0, _⟩ => show win4_6.index t (0 : Fin 2) * 1 + 1 * 0 = 0; rw [e60]
  | ⟨1, _⟩ => show win4_6.index t (1 : Fin 2) * 128 + 1 * q.val = q.val; rw [e61]; omega

theorem flushed4_6_eq (c : Dev nD) (t : Fin cfg4.N) (hf : (cfg4.win 6).flush t = true) :
    (dat4 V c).flushed 6 t = ((cfg4.win 6).blk t).view.read (Elt Ideal) (G4_6 V c) := by
  have h99 : t.val = 99 := by have := (flush4_6 t).mp hf; have := lt100_4 t; omega
  show (cfg4.win 6).cut (grid4.coords t) ((dat4 V c).after 6 t) = _
  rw [after4_6]
  funext y
  obtain ⟨u, q, rfl⟩ : ∃ (u : Fin 1) (q : Fin 128), y = ix2 u q := ⟨y 0, y 1, eq_ix2 y⟩
  obtain rfl : u = 0 := Subsingleton.elim _ _
  rw [read4_6 t (G4_6 V c) q]
  show (acc4 V c t.val).1 (ix2 (0 : Fin 1) q) = _
  exact acc4_6_last V c t.val h99 q

theorem mem_blk4_6 (t : Fin cfg4.N) (i : S1x128.Idx) :
    i ∈ ((cfg4.win 6).blk t).view.set ↔ ∀ ax : Fin 2, win4_6.index t ax * S1x128.size ax ≤ (i ax).val
      ∧ (i ax).val < win4_6.index t ax * S1x128.size ax + S1x128.size ax := by
  show i ∈ ((View.whole main_v72_1).slice (win4_6.rect t)).set ↔ _
  rw [View.set_slice_whole, Rect.mem_set_unit]
  exact Iff.rfl

theorem final4_6 (c : Dev nD) : (dat4 V c).arrAt 6 cfg4.N = G4_6 V c :=
  (dat4 V c).arrAt_eq_of_cover 6 (G4_6 V c) (flushed4_6_eq V c) fun i => by
    have hi0 : (i 0).val < 1 := (i 0).isLt
    have hi1 : (i 1).val < 128 := (i 1).isLt
    have ht : 99 < cfg4.N := by rw [show cfg4.N = 100 from N_4]; omega
    obtain ⟨e00, e01, e10, e11, e20, e21, e30, e31, e32, e40, e41, e50, e51, e60, e61, e70, e71⟩ := idx4 ⟨99, ht⟩
    refine ⟨⟨99, ht⟩, (flush4_6 _).mpr rfl, ?_⟩
    rw [mem_blk4_6]
    intro ax
    match ax with
    | ⟨0, _⟩ =>
      show win4_6.index ⟨99, ht⟩ (0 : Fin 2) * 1 ≤ (i 0).val ∧ (i 0).val < win4_6.index ⟨99, ht⟩ (0 : Fin 2) * 1 + 1
      rw [e60]; omega
    | ⟨1, _⟩ =>
      show win4_6.index ⟨99, ht⟩ (1 : Fin 2) * 128 ≤ (i 1).val ∧ (i 1).val < win4_6.index ⟨99, ht⟩ (1 : Fin 2) * 128 + 128
      rw [e61]; omega

theorem read4_7 (t : Fin cfg4.N) (G : Vec Ideal S1x128 .f32) (q : Fin 128) :
    ((cfg4.win 7).blk t).view.read (Elt Ideal) G (ix2 (0 : Fin 1) q) = G (ix2 (0 : Fin 1) q) := by
  obtain ⟨e00, e01, e10, e11, e20, e21, e30, e31, e32, e40, e41, e50, e51, e60, e61, e70, e71⟩ := idx4 t
  rw [View.read_apply]
  show G _ = G _
  congr 1
  funext ax
  apply Fin.ext
  match ax with
  | ⟨0, _⟩ => show win4_7.index t (0 : Fin 2) * 1 + 1 * 0 = 0; rw [e70]
  | ⟨1, _⟩ => show win4_7.index t (1 : Fin 2) * 128 + 1 * q.val = q.val; rw [e71]; omega

theorem flushed4_7_eq (c : Dev nD) (t : Fin cfg4.N) (hf : (cfg4.win 7).flush t = true) :
    (dat4 V c).flushed 7 t = ((cfg4.win 7).blk t).view.read (Elt Ideal) (G4_7 V c) := by
  have h99 : t.val = 99 := by have := (flush4_7 t).mp hf; have := lt100_4 t; omega
  show (cfg4.win 7).cut (grid4.coords t) ((dat4 V c).after 7 t) = _
  rw [after4_7]
  funext y
  obtain ⟨u, q, rfl⟩ : ∃ (u : Fin 1) (q : Fin 128), y = ix2 u q := ⟨y 0, y 1, eq_ix2 y⟩
  obtain rfl : u = 0 := Subsingleton.elim _ _
  rw [read4_7 t (G4_7 V c) q]
  show (acc4 V c t.val).2 (ix2 (0 : Fin 1) q) = _
  exact acc4_7_last V c t.val h99 q

theorem mem_blk4_7 (t : Fin cfg4.N) (i : S1x128.Idx) :
    i ∈ ((cfg4.win 7).blk t).view.set ↔ ∀ ax : Fin 2, win4_7.index t ax * S1x128.size ax ≤ (i ax).val
      ∧ (i ax).val < win4_7.index t ax * S1x128.size ax + S1x128.size ax := by
  show i ∈ ((View.whole main_v72_2).slice (win4_7.rect t)).set ↔ _
  rw [View.set_slice_whole, Rect.mem_set_unit]
  exact Iff.rfl

theorem final4_7 (c : Dev nD) : (dat4 V c).arrAt 7 cfg4.N = G4_7 V c :=
  (dat4 V c).arrAt_eq_of_cover 7 (G4_7 V c) (flushed4_7_eq V c) fun i => by
    have hi0 : (i 0).val < 1 := (i 0).isLt
    have hi1 : (i 1).val < 128 := (i 1).isLt
    have ht : 99 < cfg4.N := by rw [show cfg4.N = 100 from N_4]; omega
    obtain ⟨e00, e01, e10, e11, e20, e21, e30, e31, e32, e40, e41, e50, e51, e60, e61, e70, e71⟩ := idx4 ⟨99, ht⟩
    refine ⟨⟨99, ht⟩, (flush4_7 _).mpr rfl, ?_⟩
    rw [mem_blk4_7]
    intro ax
    match ax with
    | ⟨0, _⟩ =>
      show win4_7.index ⟨99, ht⟩ (0 : Fin 2) * 1 ≤ (i 0).val ∧ (i 0).val < win4_7.index ⟨99, ht⟩ (0 : Fin 2) * 1 + 1
      rw [e70]; omega
    | ⟨1, _⟩ =>
      show win4_7.index ⟨99, ht⟩ (1 : Fin 2) * 128 ≤ (i 1).val ∧ (i 1).val < win4_7.index ⟨99, ht⟩ (1 : Fin 2) * 128 + 128
      rw [e71]; omega

abbrev res4_5 (c : Dev nD) : Vec Ideal S200000x128 .f32 := (dat4 V c).arrAt 5 cfg4.N
abbrev res4_6 (c : Dev nD) : Vec Ideal S1x128 .f32 := (dat4 V c).arrAt 6 cfg4.N
abbrev res4_7 (c : Dev nD) : Vec Ideal S1x128 .f32 := (dat4 V c).arrAt 7 cfg4.N

theorem conv4_sum (c : Dev nD) (j : Fin 128) :
    res4_6 V c (ix2 (0 : Fin 1) j) = ∑ i : Fin 200000, res4_5 V c (ix2 i j) := by
  unfold res4_6 res4_5
  rw [final4_6, final4_5]
  rfl

theorem conv4_sumsq (c : Dev nD) (j : Fin 128) :
    res4_7 V c (ix2 (0 : Fin 1) j) = ∑ i : Fin 200000, res4_5 V c (ix2 i j) * res4_5 V c (ix2 i j) := by
  unfold res4_7 res4_5
  rw [final4_7, final4_5]
  rfl

theorem conv4_x (c : Dev nD) (cb : FVec Ideal S128 .f32) (n1 n2 n3 n4 : FVec Ideal S50000x144 .f32)
    (d1 d2 d3 d4 : FVec Ideal S144x128 .f32)
    (hn : ∀ (d : Fin 4) (r : Fin 50000) (k : Fin 144),
      arr4_1 V c (ix2 (Cert.SpecConv.brow d r) k) = Cert.SpecConv.sel4 d n1 n2 n3 n4 (ix2 r k))
    (hd : ∀ (d : Fin 4) (k : Fin 144) (j : Fin 128), arr4_3 V c (ix3 d k j) = Cert.SpecConv.sel4 d d1 d2 d3 d4 (ix2 k j))
    (hb : ∀ j : Fin 128, arr4_4 V c (ix2 (0 : Fin 1) j) = cb (ix1 j)) :
    (dat4 V c).arrAt 5 cfg4.N = Cert.Spec.x2 (arr4_0 V c) (arr4_2 V c) cb n1 n2 n3 n4 d1 d2 d3 d4 := by
  rw [final4_5]
  funext y
  obtain ⟨i, j, rfl⟩ : ∃ (i : Fin 200000) (j : Fin 128), y = ix2 i j := ⟨y 0, y 1, eq_ix2 y⟩
  obtain ⟨d, r, rfl⟩ := Cert.SpecConv.exists_brow i
  refine Eq.trans ?_ (Cert.SpecConv.x2_apply (arr4_0 V c) (arr4_2 V c) cb n1 n2 n3 n4 d1 d2 d3 d4 d r j).symm
  show linRow4 (arr4_0 V c) (arr4_1 V c) (arr4_2 V c) (arr4_3 V c) (arr4_4 V c) (Cert.SpecConv.brow d r) j = _
  unfold linRow4
  have e : (⟨(Cert.SpecConv.brow d r).val / 50000, by have := (Cert.SpecConv.brow d r).isLt; omega⟩ : Fin 4) = d :=
    Fin.ext (by show (50000 * d.val + r.val) / 50000 = d.val; have := r.isLt; omega)
  refine congrArg₂ (· + ·) (congrArg₂ (· + ·) rfl (Finset.sum_congr rfl fun k _ => ?_)) (hb j)
  rw [hn d r k, e, hd d k j]

theorem conv4_sum_x (c : Dev nD) (cb : FVec Ideal S128 .f32) (n1 n2 n3 n4 : FVec Ideal S50000x144 .f32)
    (d1 d2 d3 d4 : FVec Ideal S144x128 .f32)
    (hn : ∀ (d : Fin 4) (r : Fin 50000) (k : Fin 144),
      arr4_1 V c (ix2 (Cert.SpecConv.brow d r) k) = Cert.SpecConv.sel4 d n1 n2 n3 n4 (ix2 r k))
    (hd : ∀ (d : Fin 4) (k : Fin 144) (j : Fin 128), arr4_3 V c (ix3 d k j) = Cert.SpecConv.sel4 d d1 d2 d3 d4 (ix2 k j))
    (hb : ∀ j : Fin 128, arr4_4 V c (ix2 (0 : Fin 1) j) = cb (ix1 j)) (j : Fin 128) :
    res4_6 V c (ix2 (0 : Fin 1) j) = ∑ i : Fin 200000, Cert.Spec.x2 (arr4_0 V c) (arr4_2 V c) cb n1 n2 n3 n4 d1 d2 d3 d4 (ix2 i j) := by
  rw [conv4_sum]
  unfold res4_5
  rw [conv4_x V c cb n1 n2 n3 n4 d1 d2 d3 d4 hn hd hb]

theorem conv4_sumsq_x (c : Dev nD) (cb : FVec Ideal S128 .f32) (n1 n2 n3 n4 : FVec Ideal S50000x144 .f32)
    (d1 d2 d3 d4 : FVec Ideal S144x128 .f32)
    (hn : ∀ (d : Fin 4) (r : Fin 50000) (k : Fin 144),
      arr4_1 V c (ix2 (Cert.SpecConv.brow d r) k) = Cert.SpecConv.sel4 d n1 n2 n3 n4 (ix2 r k))
    (hd : ∀ (d : Fin 4) (k : Fin 144) (j : Fin 128), arr4_3 V c (ix3 d k j) = Cert.SpecConv.sel4 d d1 d2 d3 d4 (ix2 k j))
    (hb : ∀ j : Fin 128, arr4_4 V c (ix2 (0 : Fin 1) j) = cb (ix1 j)) (j : Fin 128) :
    res4_7 V c (ix2 (0 : Fin 1) j)
      = ∑ i : Fin 200000, Cert.Spec.x2 (arr4_0 V c) (arr4_2 V c) cb n1 n2 n3 n4 d1 d2 d3 d4 (ix2 i j) * Cert.Spec.x2 (arr4_0 V c) (arr4_2 V c) cb n1 n2 n3 n4 d1 d2 d3 d4 (ix2 i j) := by
  rw [conv4_sumsq]
  unfold res4_5
  rw [conv4_x V c cb n1 n2 n3 n4 d1 d2 d3 d4 hn hd hb]

end Cert.KernelIdeal.HandV

end
-- ==== Proof.KI.ValConv.lean ====
import proofs.«410641_j56710748176715_1_alg».proof.Proof.KI.ValConv1
import proofs.«410641_j56710748176715_1_alg».proof.Proof.KI.ValConv4
-- ==== Proof.KI.Bridge.lean ====
import proofs.«410641_j56710748176715_1_alg».proof.Proof.KI.RegionsP
import proofs.«410641_j56710748176715_1_alg».proof.Proof.Ref.Stages
import proofs.«410641_j56710748176715_1_alg».proof.Proof.Gen.ReferenceIdeal
import proofs.«410641_j56710748176715_1_alg».proof.Proof.PreFacts
import proofs.«410641_j56710748176715_1_alg».proof.Proof.Math.Real
import proofs.«410641_j56710748176715_1_alg».proof.Proof.KI.Run
import proofs.«410641_j56710748176715_1_alg».proof.Proof.KI.Host1
import proofs.«410641_j56710748176715_1_alg».proof.Proof.KI.Host2
import proofs.«410641_j56710748176715_1_alg».proof.Proof.KI.ValTake
import proofs.«410641_j56710748176715_1_alg».proof.Proof.KI.ValNorm
import proofs.«410641_j56710748176715_1_alg».proof.Proof.KI.ValConvSpec
import proofs.«410641_j56710748176715_1_alg».proof.Proof.KI.ValFp
import proofs.«410641_j56710748176715_1_alg».proof.Proof.KI.ValConv

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe
open Idealize.SL.Sem
open Cert.Proof.MathR
open Idealize.ShloMosaic.ValueIdx
open scoped BigOperators

variable (m : (ℓ : Loc nD τ sig) → Buf (Elt Ideal) ℓ) (c : Dev nD)

abbrev a0 : FVec Ideal S200000x64 .f32 := m ((c : Thread nD τ).loc main_arg0)

abbrev a1 : FVec Ideal S300000x16 .f32 := m ((c : Thread nD τ).loc main_arg1)

abbrev a2 : FVec Ideal S64x128 .f32 := m ((c : Thread nD τ).loc main_arg2)

abbrev a3 : FVec Ideal S128 .f32 := m ((c : Thread nD τ).loc main_arg3)

abbrev a4 : FVec Ideal S128x128 .f32 := m ((c : Thread nD τ).loc main_arg4)

abbrev a5 : FVec Ideal S128 .f32 := m ((c : Thread nD τ).loc main_arg5)

abbrev a6 : FVec Ideal S128x128 .f32 := m ((c : Thread nD τ).loc main_arg6)

abbrev a7 : FVec Ideal S128 .f32 := m ((c : Thread nD τ).loc main_arg7)

abbrev a8 : FVec Ideal S64x128 .f32 := m ((c : Thread nD τ).loc main_arg8)

abbrev a9 : FVec Ideal S128 .f32 := m ((c : Thread nD τ).loc main_arg9)

abbrev a10 : FVec Ideal S80x128 .f32 := m ((c : Thread nD τ).loc main_arg10)

abbrev a11 : FVec Ideal S80x128 .f32 := m ((c : Thread nD τ).loc main_arg11)

abbrev a12 : FVec Ideal S80x128 .f32 := m ((c : Thread nD τ).loc main_arg12)

abbrev a13 : FVec Ideal S80x128 .f32 := m ((c : Thread nD τ).loc main_arg13)

abbrev a14 : FVec Ideal S128x128 .f32 := m ((c : Thread nD τ).loc main_arg14)

abbrev a15 : FVec Ideal S128 .f32 := m ((c : Thread nD τ).loc main_arg15)

abbrev a16 : FVec Ideal S144x128 .f32 := m ((c : Thread nD τ).loc main_arg16)

abbrev a17 : FVec Ideal S144x128 .f32 := m ((c : Thread nD τ).loc main_arg17)

abbrev a18 : FVec Ideal S144x128 .f32 := m ((c : Thread nD τ).loc main_arg18)

abbrev a19 : FVec Ideal S144x128 .f32 := m ((c : Thread nD τ).loc main_arg19)

abbrev a20 : IVec S50000x1 32 := m ((c : Thread nD τ).loc main_arg20)

abbrev a21 : IVec S50000x2 32 := m ((c : Thread nD τ).loc main_arg21)

abbrev a22 : IVec S50000x3 32 := m ((c : Thread nD τ).loc main_arg22)

abbrev a23 : IVec S50000x4 32 := m ((c : Thread nD τ).loc main_arg23)

abbrev a24 : IVec S50000x1 32 := m ((c : Thread nD τ).loc main_arg24)

abbrev a25 : IVec S50000x2 32 := m ((c : Thread nD τ).loc main_arg25)

abbrev a26 : IVec S50000x3 32 := m ((c : Thread nD τ).loc main_arg26)

abbrev a27 : IVec S50000x4 32 := m ((c : Thread nD τ).loc main_arg27)

abbrev a28 : IVec S200000 32 := m ((c : Thread nD τ).loc main_arg28)

def stS0 : FVec Ideal S200000x128 .f32 := Cert.Spec.sm64 (F := Ideal) (a0 m c) (a2 m c) (a3 m c)

def stFP0 : FVec Ideal S8192x128 .f32 := Cert.Spec.seg (F := Ideal) (stS0 m c) (a28 m c)

def stBN1 : FVec Ideal S50000x16 .f32 := Cert.Spec.gB1 (F := Ideal) (a1 m c) (a24 m c)

def stAN1 : FVec Ideal S50000x64 .f32 := Cert.Spec.gA1 (F := Ideal) (a0 m c) (a20 m c)

def stP1 : FVec Ideal S50000x80 .f32 := Cert.Spec.cat80 (F := Ideal) (stAN1 m c) (stBN1 m c)

def stBN2 : FVec Ideal S50000x16 .f32 := Cert.Spec.gB2 (F := Ideal) (a1 m c) (a25 m c)

def stAN2 : FVec Ideal S50000x64 .f32 := Cert.Spec.gA2 (F := Ideal) (a0 m c) (a21 m c)

def stP2 : FVec Ideal S50000x80 .f32 := Cert.Spec.cat80 (F := Ideal) (stAN2 m c) (stBN2 m c)

def stBN3 : FVec Ideal S50000x16 .f32 := Cert.Spec.gB3 (F := Ideal) (a1 m c) (a26 m c)

def stAN3 : FVec Ideal S50000x64 .f32 := Cert.Spec.gA3 (F := Ideal) (a0 m c) (a22 m c)

def stP3 : FVec Ideal S50000x80 .f32 := Cert.Spec.cat80 (F := Ideal) (stAN3 m c) (stBN3 m c)

def stBN4 : FVec Ideal S50000x16 .f32 := Cert.Spec.gB4 (F := Ideal) (a1 m c) (a27 m c)

def stAN4 : FVec Ideal S50000x64 .f32 := Cert.Spec.gA4 (F := Ideal) (a0 m c) (a23 m c)

def stP4 : FVec Ideal S50000x80 .f32 := Cert.Spec.cat80 (F := Ideal) (stAN4 m c) (stBN4 m c)

def stX1 : FVec Ideal S200000x128 .f32 := Cert.Spec.x1 (F := Ideal) (a0 m c) (a8 m c) (a9 m c) (stP1 m c) (stP2 m c) (stP3 m c) (stP4 m c) (a10 m c) (a11 m c) (a12 m c) (a13 m c)

def stH1 : FVec Ideal S200000x128 .f32 := Cert.Spec.bnrelu (F := Ideal) (stX1 m c)

def stS1 : FVec Ideal S200000x128 .f32 := Cert.Spec.sm128 (F := Ideal) (stH1 m c) (a4 m c) (a5 m c)

def stFP1 : FVec Ideal S8192x128 .f32 := addf (stFP0 m c) (Cert.Spec.seg (F := Ideal) (stS1 m c) (a28 m c))

def stQ1 : FVec Ideal S50000x144 .f32 := Cert.Spec.cat144 (F := Ideal) (Cert.Spec.gH1 (F := Ideal) (stH1 m c) (a20 m c)) (stBN1 m c)

def stQ2 : FVec Ideal S50000x144 .f32 := Cert.Spec.cat144 (F := Ideal) (Cert.Spec.gH2 (F := Ideal) (stH1 m c) (a21 m c)) (stBN2 m c)

def stQ3 : FVec Ideal S50000x144 .f32 := Cert.Spec.cat144 (F := Ideal) (Cert.Spec.gH3 (F := Ideal) (stH1 m c) (a22 m c)) (stBN3 m c)

def stQ4 : FVec Ideal S50000x144 .f32 := Cert.Spec.cat144 (F := Ideal) (Cert.Spec.gH4 (F := Ideal) (stH1 m c) (a23 m c)) (stBN4 m c)

def stX2 : FVec Ideal S200000x128 .f32 := Cert.Spec.x2 (F := Ideal) (stH1 m c) (a14 m c) (a15 m c) (stQ1 m c) (stQ2 m c) (stQ3 m c) (stQ4 m c) (a16 m c) (a17 m c) (a18 m c) (a19 m c)

def stH2 : FVec Ideal S200000x128 .f32 := Cert.Spec.bnrelu (F := Ideal) (stX2 m c)

def stS2 : FVec Ideal S200000x128 .f32 := Cert.Spec.sm128 (F := Ideal) (stH2 m c) (a6 m c) (a7 m c)

def stRes : FVec Ideal S8192x128 .f32 := addf (stFP1 m c) (Cert.Spec.seg (F := Ideal) (stS2 m c) (a28 m c))

theorem stRes_eq : stRes m c = Cert.Spec.res (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) := by
  simp only [stRes, stFP1, stFP0, stS0, stS1, stS2, stH1, stH2, stX1, stX2, stP1, stP2, stP3, stP4, stQ1, stQ2, stQ3, stQ4, stAN1, stAN2, stAN3, stAN4, stBN1, stBN2, stBN3, stBN4, Cert.Spec.res]

theorem concatenate_mem {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

theorem cat80_isReal (a : FVec Ideal S50000x64 .f32) (b : FVec Ideal S50000x16 .f32)
    (ha : ∀ i, IsReal (a i)) (hb : ∀ i, IsReal (b i)) (j : S50000x80.Idx) : IsReal (Cert.Spec.cat80 (F := Ideal) a b j) :=
  concatenate_mem _ _ _ IsReal (fun p hp => by
    simp only [List.mem_cons, List.not_mem_nil, or_false] at hp
    rcases hp with rfl | rfl
    · exact ha
    · exact hb) j

theorem cat144_isReal (a : FVec Ideal S50000x128 .f32) (b : FVec Ideal S50000x16 .f32)
    (ha : ∀ i, IsReal (a i)) (hb : ∀ i, IsReal (b i)) (j : S50000x144.Idx) : IsReal (Cert.Spec.cat144 (F := Ideal) a b j) :=
  concatenate_mem _ _ _ IsReal (fun p hp => by
    simp only [List.mem_cons, List.not_mem_nil, or_false] at hp
    rcases hp with rfl | rfl
    · exact ha
    · exact hb) j

section Reals
variable (hdom : Cert.Proof.PreFacts.InDom (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c))
include hdom
theorem stBN1_isReal (j) : IsReal (stBN1 m c j) := gB1_isReal _ hdom.fin1 _ j
theorem stAN1_isReal (j) : IsReal (stAN1 m c j) := gA1_isReal _ hdom.fin0 _ j
theorem stP1_isReal (j) : IsReal (stP1 m c j) := cat80_isReal _ _ (stAN1_isReal m c hdom) (stBN1_isReal m c hdom) j
theorem stBN2_isReal (j) : IsReal (stBN2 m c j) := gB2_isReal _ hdom.fin1 _ j
theorem stAN2_isReal (j) : IsReal (stAN2 m c j) := gA2_isReal _ hdom.fin0 _ j
theorem stP2_isReal (j) : IsReal (stP2 m c j) := cat80_isReal _ _ (stAN2_isReal m c hdom) (stBN2_isReal m c hdom) j
theorem stBN3_isReal (j) : IsReal (stBN3 m c j) := gB3_isReal _ hdom.fin1 _ j
theorem stAN3_isReal (j) : IsReal (stAN3 m c j) := gA3_isReal _ hdom.fin0 _ j
theorem stP3_isReal (j) : IsReal (stP3 m c j) := cat80_isReal _ _ (stAN3_isReal m c hdom) (stBN3_isReal m c hdom) j
theorem stBN4_isReal (j) : IsReal (stBN4 m c j) := gB4_isReal _ hdom.fin1 _ j
theorem stAN4_isReal (j) : IsReal (stAN4 m c j) := gA4_isReal _ hdom.fin0 _ j
theorem stP4_isReal (j) : IsReal (stP4 m c j) := cat80_isReal _ _ (stAN4_isReal m c hdom) (stBN4_isReal m c hdom) j
theorem stX1_isReal (i) : IsReal (stX1 m c i) :=
  Cert.SpecConv.x1_isReal _ _ _ _ _ _ _ _ _ _ _ hdom.fin0 hdom.fin8 hdom.fin9 (stP1_isReal m c hdom) (stP2_isReal m c hdom) (stP3_isReal m c hdom) (stP4_isReal m c hdom)
    hdom.fin10 hdom.fin11 hdom.fin12 hdom.fin13 i
theorem stH1_isReal (i) : IsReal (stH1 m c i) := bnrelu_isReal _ (stX1_isReal m c hdom) i
theorem stQ1_isReal (j) : IsReal (stQ1 m c j) := cat144_isReal _ _ (gH1_isReal _ (stH1_isReal m c hdom) _) (stBN1_isReal m c hdom) j
theorem stQ2_isReal (j) : IsReal (stQ2 m c j) := cat144_isReal _ _ (gH2_isReal _ (stH1_isReal m c hdom) _) (stBN2_isReal m c hdom) j
theorem stQ3_isReal (j) : IsReal (stQ3 m c j) := cat144_isReal _ _ (gH3_isReal _ (stH1_isReal m c hdom) _) (stBN3_isReal m c hdom) j
theorem stQ4_isReal (j) : IsReal (stQ4 m c j) := cat144_isReal _ _ (gH4_isReal _ (stH1_isReal m c hdom) _) (stBN4_isReal m c hdom) j
theorem stX2_isReal (i) : IsReal (stX2 m c i) :=
  Cert.SpecConv.x2_isReal _ _ _ _ _ _ _ _ _ _ _ (stH1_isReal m c hdom) hdom.fin14 hdom.fin15 (stQ1_isReal m c hdom) (stQ2_isReal m c hdom) (stQ3_isReal m c hdom) (stQ4_isReal m c hdom)
    hdom.fin16 hdom.fin17 hdom.fin18 hdom.fin19 i
end Reals

def rowOf (v : FVec Ideal S128 .f32) : FVec Ideal S1x128 .f32 := shapeCast S1x128 v shapeCasts_S128_S1x128

theorem rowOf_apply (v : FVec Ideal S128 .f32) (j : Fin 128) : rowOf v (ix2 (0 : Fin 1) j) = v (ix1 j) :=
  shapeCast_a_1a_apply v _ 0 j

theorem reg2_val (V : (c : Dev nD) → (b : Ref sig .tc) → Buf (Elt Ideal) ((c : Thread nD τ).loc b)) (c : Dev nD)
    (x : S200000x128.Idx → EReal) (s1 s2 : FVec Ideal S1x128 .f32)
    (hX : V c main_v32_0 = x) (hx : ∀ i, IsReal (x i))
    (h1 : (V c main_v44 : FVec Ideal S1x128 .f32) = rowOf (meanOf s1))
    (h2 : (V c main_v45 : FVec Ideal S1x128 .f32) = rowOf (invStdOf s1 s2))
    (hs : ∀ j : Fin 128, s1 (ix2 (0 : Fin 1) j) = ∑ i : Fin 200000, x (ix2 i j))
    (hss : ∀ j : Fin 128, s2 (ix2 (0 : Fin 1) j) = ∑ i : Fin 200000, x (ix2 i j) * x (ix2 i j)) :
    (dat2 (F := Ideal) V c).arrAt 3 cfg2.N = Cert.Spec.bnrelu (F := Ideal) x := by
  have h := arr2 V c (meanOf s1) (invStdOf s1 s2)
    (fun j => (congrFun h1 _).trans (rowOf_apply _ j)) (fun j => (congrFun h2 _).trans (rowOf_apply _ j))
  rw [show V c (Pipeline.arrRef spec2 0) = x from hX] at h
  exact h.trans (bn_bridge x hx s1 s2 hs hss)

theorem reg5_val (V : (c : Dev nD) → (b : Ref sig .tc) → Buf (Elt Ideal) ((c : Thread nD τ).loc b)) (c : Dev nD)
    (x : S200000x128.Idx → EReal) (s1 s2 : FVec Ideal S1x128 .f32)
    (hX : V c main_v72_0 = x) (hx : ∀ i, IsReal (x i))
    (h1 : (V c main_v84 : FVec Ideal S1x128 .f32) = rowOf (meanOf s1))
    (h2 : (V c main_v85 : FVec Ideal S1x128 .f32) = rowOf (invStdOf s1 s2))
    (hs : ∀ j : Fin 128, s1 (ix2 (0 : Fin 1) j) = ∑ i : Fin 200000, x (ix2 i j))
    (hss : ∀ j : Fin 128, s2 (ix2 (0 : Fin 1) j) = ∑ i : Fin 200000, x (ix2 i j) * x (ix2 i j)) :
    (dat5 (F := Ideal) V c).arrAt 3 cfg5.N = Cert.Spec.bnrelu (F := Ideal) x := by
  have h := arr5 V c (meanOf s1) (invStdOf s1 s2)
    (fun j => (congrFun h1 _).trans (rowOf_apply _ j)) (fun j => (congrFun h2 _).trans (rowOf_apply _ j))
  rw [show V c (Pipeline.arrRef spec5 0) = x from hX] at h
  exact h.trans (bn_bridge x hx s1 s2 hs hss)

theorem W1_of (r : Ref sig .tc) (h : r ∉ hostOps0_W) : W1 m c r = W0 m c r :=
  StableHlo.after_of_writes_sub hostOps0 _ hostOps0_writes h
theorem W3_of (r : Ref sig .tc) (h : r ∉ hostOps1_W) : W3 m c r = W2 m c r :=
  StableHlo.after_of_writes_sub hostOps1 _ hostOps1_writes h
theorem W4_of (r : Ref sig .tc) (h : r ∉ hostOps1_1_W) : W4 m c r = W3 m c r :=
  StableHlo.after_of_writes_sub hostOps1_1 _ hostOps1_1_writes h
theorem W5_of (r : Ref sig .tc) (h : r ∉ hostOps1_2_W) : W5 m c r = W4 m c r :=
  StableHlo.after_of_writes_sub hostOps1_2 _ hostOps1_2_writes h
theorem W6_of (r : Ref sig .tc) (h : r ∉ hostOps1_3_W) : W6 m c r = W5 m c r :=
  StableHlo.after_of_writes_sub hostOps1_3 _ hostOps1_3_writes h
theorem W7_of (r : Ref sig .tc) (h : r ∉ hostOps1_4_W) : W7 m c r = W6 m c r :=
  StableHlo.after_of_writes_sub hostOps1_4 _ hostOps1_4_writes h
theorem W8_of (r : Ref sig .tc) (h : r ∉ hostOps1_5_W) : W8 m c r = W7 m c r :=
  StableHlo.after_of_writes_sub hostOps1_5 _ hostOps1_5_writes h
theorem W9_of (r : Ref sig .tc) (h : r ∉ hostOps1_6_W) : W9 m c r = W8 m c r :=
  StableHlo.after_of_writes_sub hostOps1_6 _ hostOps1_6_writes h
theorem W10_of (r : Ref sig .tc) (h : r ∉ hostOps1_7_W) : W10 m c r = W9 m c r :=
  StableHlo.after_of_writes_sub hostOps1_7 _ hostOps1_7_writes h
theorem W11_of (r : Ref sig .tc) (h : r ∉ hostOps1_8_W) : W11 m c r = W10 m c r :=
  StableHlo.after_of_writes_sub hostOps1_8 _ hostOps1_8_writes h
theorem W12_of (r : Ref sig .tc) (h : r ∉ hostOps1_9_W) : W12 m c r = W11 m c r :=
  StableHlo.after_of_writes_sub hostOps1_9 _ hostOps1_9_writes h
theorem W13_of (r : Ref sig .tc) (h : r ∉ hostOps1_10_W) : W13 m c r = W12 m c r :=
  StableHlo.after_of_writes_sub hostOps1_10 _ hostOps1_10_writes h
theorem W14_of (r : Ref sig .tc) (h : r ∉ hostOps1_11_W) : W14 m c r = W13 m c r :=
  StableHlo.after_of_writes_sub hostOps1_11 _ hostOps1_11_writes h
theorem W15_of (r : Ref sig .tc) (h : r ∉ hostOps1_12_W) : W15 m c r = W14 m c r :=
  StableHlo.after_of_writes_sub hostOps1_12 _ hostOps1_12_writes h
theorem W16_of (r : Ref sig .tc) (h : r ∉ hostOps1_13_W) : W16 m c r = W15 m c r :=
  StableHlo.after_of_writes_sub hostOps1_13 _ hostOps1_13_writes h
theorem W17_of (r : Ref sig .tc) (h : r ∉ hostOps1_14_W) : W17 m c r = W16 m c r :=
  StableHlo.after_of_writes_sub hostOps1_14 _ hostOps1_14_writes h
theorem W18_of (r : Ref sig .tc) (h : r ∉ hostOps1_15_W) : W18 m c r = W17 m c r :=
  StableHlo.after_of_writes_sub hostOps1_15 _ hostOps1_15_writes h
theorem W19_of (r : Ref sig .tc) (h : r ∉ hostOps1_16_W) : W19 m c r = W18 m c r :=
  StableHlo.after_of_writes_sub hostOps1_16 _ hostOps1_16_writes h
theorem W21_of (r : Ref sig .tc) (h : r ∉ hostOps2_W) : W21 m c r = W20 m c r :=
  StableHlo.after_of_writes_sub hostOps2 _ hostOps2_writes h
theorem W23_of (r : Ref sig .tc) (h : r ∉ hostOps3_W) : W23 m c r = W22 m c r :=
  StableHlo.after_of_writes_sub hostOps3 _ hostOps3_writes h
theorem W25_of (r : Ref sig .tc) (h : r ∉ hostOps4_W) : W25 m c r = W24 m c r :=
  StableHlo.after_of_writes_sub hostOps4 _ hostOps4_writes h
theorem W26_of (r : Ref sig .tc) (h : r ∉ hostOps4_1_W) : W26 m c r = W25 m c r :=
  StableHlo.after_of_writes_sub hostOps4_1 _ hostOps4_1_writes h
theorem W27_of (r : Ref sig .tc) (h : r ∉ hostOps4_2_W) : W27 m c r = W26 m c r :=
  StableHlo.after_of_writes_sub hostOps4_2 _ hostOps4_2_writes h
theorem W28_of (r : Ref sig .tc) (h : r ∉ hostOps4_3_W) : W28 m c r = W27 m c r :=
  StableHlo.after_of_writes_sub hostOps4_3 _ hostOps4_3_writes h
theorem W29_of (r : Ref sig .tc) (h : r ∉ hostOps4_4_W) : W29 m c r = W28 m c r :=
  StableHlo.after_of_writes_sub hostOps4_4 _ hostOps4_4_writes h
theorem W30_of (r : Ref sig .tc) (h : r ∉ hostOps4_5_W) : W30 m c r = W29 m c r :=
  StableHlo.after_of_writes_sub hostOps4_5 _ hostOps4_5_writes h
theorem W31_of (r : Ref sig .tc) (h : r ∉ hostOps4_6_W) : W31 m c r = W30 m c r :=
  StableHlo.after_of_writes_sub hostOps4_6 _ hostOps4_6_writes h
theorem W32_of (r : Ref sig .tc) (h : r ∉ hostOps4_7_W) : W32 m c r = W31 m c r :=
  StableHlo.after_of_writes_sub hostOps4_7 _ hostOps4_7_writes h
theorem W33_of (r : Ref sig .tc) (h : r ∉ hostOps4_8_W) : W33 m c r = W32 m c r :=
  StableHlo.after_of_writes_sub hostOps4_8 _ hostOps4_8_writes h
theorem W35_of (r : Ref sig .tc) (h : r ∉ hostOps5_W) : W35 m c r = W34 m c r :=
  StableHlo.after_of_writes_sub hostOps5 _ hostOps5_writes h
theorem W37_of (r : Ref sig .tc) (h : r ∉ hostOps6_W) : W37 m c r = W36 m c r :=
  StableHlo.after_of_writes_sub hostOps6 _ hostOps6_writes h
theorem W39_of (r : Ref sig .tc) (h : r ∉ hostOps7_W) : W39 m c r = W38 m c r :=
  StableHlo.after_of_writes_sub hostOps7 _ hostOps7_writes h

theorem arg0_at1 : W1 m c main_arg0 = a0 m c :=
  (W1_of m c main_arg0 (by decide))
theorem arg2_at1 : W1 m c main_arg2 = a2 m c :=
  (W1_of m c main_arg2 (by decide))
theorem arg28_at2 : W2 m c main_arg28 = a28 m c :=
  (W2_of_ne m c main_arg28 (by decide)).trans <| (W1_of m c main_arg28 (by decide))
theorem arg1_at3 : W3 m c main_arg1 = a1 m c :=
  (W3_of m c main_arg1 (by decide)).trans <| (W2_of_ne m c main_arg1 (by decide)).trans <| (W1_of m c main_arg1 (by decide))
theorem arg24_at3 : W3 m c main_arg24 = a24 m c :=
  (W3_of m c main_arg24 (by decide)).trans <| (W2_of_ne m c main_arg24 (by decide)).trans <| (W1_of m c main_arg24 (by decide))
theorem arg1_at5 : W5 m c main_arg1 = a1 m c :=
  (W5_of m c main_arg1 (by decide)).trans <| (W4_of m c main_arg1 (by decide)).trans <| (W3_of m c main_arg1 (by decide)).trans <| (W2_of_ne m c main_arg1 (by decide)).trans <| (W1_of m c main_arg1 (by decide))
theorem arg25_at5 : W5 m c main_arg25 = a25 m c :=
  (W5_of m c main_arg25 (by decide)).trans <| (W4_of m c main_arg25 (by decide)).trans <| (W3_of m c main_arg25 (by decide)).trans <| (W2_of_ne m c main_arg25 (by decide)).trans <| (W1_of m c main_arg25 (by decide))
theorem arg1_at7 : W7 m c main_arg1 = a1 m c :=
  (W7_of m c main_arg1 (by decide)).trans <| (W6_of m c main_arg1 (by decide)).trans <| (W5_of m c main_arg1 (by decide)).trans <| (W4_of m c main_arg1 (by decide)).trans <| (W3_of m c main_arg1 (by decide)).trans <| (W2_of_ne m c main_arg1 (by decide)).trans <| (W1_of m c main_arg1 (by decide))
theorem arg26_at7 : W7 m c main_arg26 = a26 m c :=
  (W7_of m c main_arg26 (by decide)).trans <| (W6_of m c main_arg26 (by decide)).trans <| (W5_of m c main_arg26 (by decide)).trans <| (W4_of m c main_arg26 (by decide)).trans <| (W3_of m c main_arg26 (by decide)).trans <| (W2_of_ne m c main_arg26 (by decide)).trans <| (W1_of m c main_arg26 (by decide))
theorem arg1_at9 : W9 m c main_arg1 = a1 m c :=
  (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of_ne m c main_arg1 (by decide)).trans <| (W1_of m c main_arg1 (by decide))
theorem arg27_at9 : W9 m c main_arg27 = a27 m c :=
  (W9_of m c main_arg27 (by decide)).trans <| (W8_of m c main_arg27 (by decide)).trans <| (W7_of m c main_arg27 (by decide)).trans <| (W6_of m c main_arg27 (by decide)).trans <| (W5_of m c main_arg27 (by decide)).trans <| (W4_of m c main_arg27 (by decide)).trans <| (W3_of m c main_arg27 (by decide)).trans <| (W2_of_ne m c main_arg27 (by decide)).trans <| (W1_of m c main_arg27 (by decide))
theorem arg0_at11 : W11 m c main_arg0 = a0 m c :=
  (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of_ne m c main_arg0 (by decide)).trans <| (W1_of m c main_arg0 (by decide))
theorem arg20_at11 : W11 m c main_arg20 = a20 m c :=
  (W11_of m c main_arg20 (by decide)).trans <| (W10_of m c main_arg20 (by decide)).trans <| (W9_of m c main_arg20 (by decide)).trans <| (W8_of m c main_arg20 (by decide)).trans <| (W7_of m c main_arg20 (by decide)).trans <| (W6_of m c main_arg20 (by decide)).trans <| (W5_of m c main_arg20 (by decide)).trans <| (W4_of m c main_arg20 (by decide)).trans <| (W3_of m c main_arg20 (by decide)).trans <| (W2_of_ne m c main_arg20 (by decide)).trans <| (W1_of m c main_arg20 (by decide))
theorem arg0_at13 : W13 m c main_arg0 = a0 m c :=
  (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of_ne m c main_arg0 (by decide)).trans <| (W1_of m c main_arg0 (by decide))
theorem arg21_at13 : W13 m c main_arg21 = a21 m c :=
  (W13_of m c main_arg21 (by decide)).trans <| (W12_of m c main_arg21 (by decide)).trans <| (W11_of m c main_arg21 (by decide)).trans <| (W10_of m c main_arg21 (by decide)).trans <| (W9_of m c main_arg21 (by decide)).trans <| (W8_of m c main_arg21 (by decide)).trans <| (W7_of m c main_arg21 (by decide)).trans <| (W6_of m c main_arg21 (by decide)).trans <| (W5_of m c main_arg21 (by decide)).trans <| (W4_of m c main_arg21 (by decide)).trans <| (W3_of m c main_arg21 (by decide)).trans <| (W2_of_ne m c main_arg21 (by decide)).trans <| (W1_of m c main_arg21 (by decide))
theorem arg0_at15 : W15 m c main_arg0 = a0 m c :=
  (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of_ne m c main_arg0 (by decide)).trans <| (W1_of m c main_arg0 (by decide))
theorem arg22_at15 : W15 m c main_arg22 = a22 m c :=
  (W15_of m c main_arg22 (by decide)).trans <| (W14_of m c main_arg22 (by decide)).trans <| (W13_of m c main_arg22 (by decide)).trans <| (W12_of m c main_arg22 (by decide)).trans <| (W11_of m c main_arg22 (by decide)).trans <| (W10_of m c main_arg22 (by decide)).trans <| (W9_of m c main_arg22 (by decide)).trans <| (W8_of m c main_arg22 (by decide)).trans <| (W7_of m c main_arg22 (by decide)).trans <| (W6_of m c main_arg22 (by decide)).trans <| (W5_of m c main_arg22 (by decide)).trans <| (W4_of m c main_arg22 (by decide)).trans <| (W3_of m c main_arg22 (by decide)).trans <| (W2_of_ne m c main_arg22 (by decide)).trans <| (W1_of m c main_arg22 (by decide))
theorem arg0_at17 : W17 m c main_arg0 = a0 m c :=
  (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of_ne m c main_arg0 (by decide)).trans <| (W1_of m c main_arg0 (by decide))
theorem arg23_at17 : W17 m c main_arg23 = a23 m c :=
  (W17_of m c main_arg23 (by decide)).trans <| (W16_of m c main_arg23 (by decide)).trans <| (W15_of m c main_arg23 (by decide)).trans <| (W14_of m c main_arg23 (by decide)).trans <| (W13_of m c main_arg23 (by decide)).trans <| (W12_of m c main_arg23 (by decide)).trans <| (W11_of m c main_arg23 (by decide)).trans <| (W10_of m c main_arg23 (by decide)).trans <| (W9_of m c main_arg23 (by decide)).trans <| (W8_of m c main_arg23 (by decide)).trans <| (W7_of m c main_arg23 (by decide)).trans <| (W6_of m c main_arg23 (by decide)).trans <| (W5_of m c main_arg23 (by decide)).trans <| (W4_of m c main_arg23 (by decide)).trans <| (W3_of m c main_arg23 (by decide)).trans <| (W2_of_ne m c main_arg23 (by decide)).trans <| (W1_of m c main_arg23 (by decide))
theorem arg10_at18 : W18 m c main_arg10 = a10 m c :=
  (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of_ne m c main_arg10 (by decide)).trans <| (W1_of m c main_arg10 (by decide))
theorem arg11_at18 : W18 m c main_arg11 = a11 m c :=
  (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of_ne m c main_arg11 (by decide)).trans <| (W1_of m c main_arg11 (by decide))
theorem arg12_at18 : W18 m c main_arg12 = a12 m c :=
  (W18_of m c main_arg12 (by decide)).trans <| (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of_ne m c main_arg12 (by decide)).trans <| (W1_of m c main_arg12 (by decide))
theorem arg13_at18 : W18 m c main_arg13 = a13 m c :=
  (W18_of m c main_arg13 (by decide)).trans <| (W17_of m c main_arg13 (by decide)).trans <| (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of_ne m c main_arg13 (by decide)).trans <| (W1_of m c main_arg13 (by decide))
theorem arg9_at18 : W18 m c main_arg9 = a9 m c :=
  (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of_ne m c main_arg9 (by decide)).trans <| (W1_of m c main_arg9 (by decide))
theorem arg0_at19 : W19 m c main_arg0 = a0 m c :=
  (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of_ne m c main_arg0 (by decide)).trans <| (W1_of m c main_arg0 (by decide))
theorem arg8_at19 : W19 m c main_arg8 = a8 m c :=
  (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of_ne m c main_arg8 (by decide)).trans <| (W1_of m c main_arg8 (by decide))
theorem arg5_at22 : W22 m c main_arg5 = a5 m c :=
  (W22_of_ne m c main_arg5 (by decide)).trans <| (W21_of m c main_arg5 (by decide)).trans <| (W20_of_ne m c main_arg5 (by decide) (by decide) (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of_ne m c main_arg5 (by decide)).trans <| (W1_of m c main_arg5 (by decide))
theorem arg4_at23 : W23 m c main_arg4 = a4 m c :=
  (W23_of m c main_arg4 (by decide)).trans <| (W22_of_ne m c main_arg4 (by decide)).trans <| (W21_of m c main_arg4 (by decide)).trans <| (W20_of_ne m c main_arg4 (by decide) (by decide) (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of_ne m c main_arg4 (by decide)).trans <| (W1_of m c main_arg4 (by decide))
theorem arg28_at24 : W24 m c main_arg28 = a28 m c :=
  (W24_of_ne m c main_arg28 (by decide)).trans <| (W23_of m c main_arg28 (by decide)).trans <| (W22_of_ne m c main_arg28 (by decide)).trans <| (W21_of m c main_arg28 (by decide)).trans <| (W20_of_ne m c main_arg28 (by decide) (by decide) (by decide)).trans <| (W19_of m c main_arg28 (by decide)).trans <| (W18_of m c main_arg28 (by decide)).trans <| (W17_of m c main_arg28 (by decide)).trans <| (W16_of m c main_arg28 (by decide)).trans <| (W15_of m c main_arg28 (by decide)).trans <| (W14_of m c main_arg28 (by decide)).trans <| (W13_of m c main_arg28 (by decide)).trans <| (W12_of m c main_arg28 (by decide)).trans <| (W11_of m c main_arg28 (by decide)).trans <| (W10_of m c main_arg28 (by decide)).trans <| (W9_of m c main_arg28 (by decide)).trans <| (W8_of m c main_arg28 (by decide)).trans <| (W7_of m c main_arg28 (by decide)).trans <| (W6_of m c main_arg28 (by decide)).trans <| (W5_of m c main_arg28 (by decide)).trans <| (W4_of m c main_arg28 (by decide)).trans <| (W3_of m c main_arg28 (by decide)).trans <| (W2_of_ne m c main_arg28 (by decide)).trans <| (W1_of m c main_arg28 (by decide))
theorem arg20_at25 : W25 m c main_arg20 = a20 m c :=
  (W25_of m c main_arg20 (by decide)).trans <| (W24_of_ne m c main_arg20 (by decide)).trans <| (W23_of m c main_arg20 (by decide)).trans <| (W22_of_ne m c main_arg20 (by decide)).trans <| (W21_of m c main_arg20 (by decide)).trans <| (W20_of_ne m c main_arg20 (by decide) (by decide) (by decide)).trans <| (W19_of m c main_arg20 (by decide)).trans <| (W18_of m c main_arg20 (by decide)).trans <| (W17_of m c main_arg20 (by decide)).trans <| (W16_of m c main_arg20 (by decide)).trans <| (W15_of m c main_arg20 (by decide)).trans <| (W14_of m c main_arg20 (by decide)).trans <| (W13_of m c main_arg20 (by decide)).trans <| (W12_of m c main_arg20 (by decide)).trans <| (W11_of m c main_arg20 (by decide)).trans <| (W10_of m c main_arg20 (by decide)).trans <| (W9_of m c main_arg20 (by decide)).trans <| (W8_of m c main_arg20 (by decide)).trans <| (W7_of m c main_arg20 (by decide)).trans <| (W6_of m c main_arg20 (by decide)).trans <| (W5_of m c main_arg20 (by decide)).trans <| (W4_of m c main_arg20 (by decide)).trans <| (W3_of m c main_arg20 (by decide)).trans <| (W2_of_ne m c main_arg20 (by decide)).trans <| (W1_of m c main_arg20 (by decide))
theorem arg21_at25 : W25 m c main_arg21 = a21 m c :=
  (W25_of m c main_arg21 (by decide)).trans <| (W24_of_ne m c main_arg21 (by decide)).trans <| (W23_of m c main_arg21 (by decide)).trans <| (W22_of_ne m c main_arg21 (by decide)).trans <| (W21_of m c main_arg21 (by decide)).trans <| (W20_of_ne m c main_arg21 (by decide) (by decide) (by decide)).trans <| (W19_of m c main_arg21 (by decide)).trans <| (W18_of m c main_arg21 (by decide)).trans <| (W17_of m c main_arg21 (by decide)).trans <| (W16_of m c main_arg21 (by decide)).trans <| (W15_of m c main_arg21 (by decide)).trans <| (W14_of m c main_arg21 (by decide)).trans <| (W13_of m c main_arg21 (by decide)).trans <| (W12_of m c main_arg21 (by decide)).trans <| (W11_of m c main_arg21 (by decide)).trans <| (W10_of m c main_arg21 (by decide)).trans <| (W9_of m c main_arg21 (by decide)).trans <| (W8_of m c main_arg21 (by decide)).trans <| (W7_of m c main_arg21 (by decide)).trans <| (W6_of m c main_arg21 (by decide)).trans <| (W5_of m c main_arg21 (by decide)).trans <| (W4_of m c main_arg21 (by decide)).trans <| (W3_of m c main_arg21 (by decide)).trans <| (W2_of_ne m c main_arg21 (by decide)).trans <| (W1_of m c main_arg21 (by decide))
theorem arg22_at25 : W25 m c main_arg22 = a22 m c :=
  (W25_of m c main_arg22 (by decide)).trans <| (W24_of_ne m c main_arg22 (by decide)).trans <| (W23_of m c main_arg22 (by decide)).trans <| (W22_of_ne m c main_arg22 (by decide)).trans <| (W21_of m c main_arg22 (by decide)).trans <| (W20_of_ne m c main_arg22 (by decide) (by decide) (by decide)).trans <| (W19_of m c main_arg22 (by decide)).trans <| (W18_of m c main_arg22 (by decide)).trans <| (W17_of m c main_arg22 (by decide)).trans <| (W16_of m c main_arg22 (by decide)).trans <| (W15_of m c main_arg22 (by decide)).trans <| (W14_of m c main_arg22 (by decide)).trans <| (W13_of m c main_arg22 (by decide)).trans <| (W12_of m c main_arg22 (by decide)).trans <| (W11_of m c main_arg22 (by decide)).trans <| (W10_of m c main_arg22 (by decide)).trans <| (W9_of m c main_arg22 (by decide)).trans <| (W8_of m c main_arg22 (by decide)).trans <| (W7_of m c main_arg22 (by decide)).trans <| (W6_of m c main_arg22 (by decide)).trans <| (W5_of m c main_arg22 (by decide)).trans <| (W4_of m c main_arg22 (by decide)).trans <| (W3_of m c main_arg22 (by decide)).trans <| (W2_of_ne m c main_arg22 (by decide)).trans <| (W1_of m c main_arg22 (by decide))
theorem arg23_at25 : W25 m c main_arg23 = a23 m c :=
  (W25_of m c main_arg23 (by decide)).trans <| (W24_of_ne m c main_arg23 (by decide)).trans <| (W23_of m c main_arg23 (by decide)).trans <| (W22_of_ne m c main_arg23 (by decide)).trans <| (W21_of m c main_arg23 (by decide)).trans <| (W20_of_ne m c main_arg23 (by decide) (by decide) (by decide)).trans <| (W19_of m c main_arg23 (by decide)).trans <| (W18_of m c main_arg23 (by decide)).trans <| (W17_of m c main_arg23 (by decide)).trans <| (W16_of m c main_arg23 (by decide)).trans <| (W15_of m c main_arg23 (by decide)).trans <| (W14_of m c main_arg23 (by decide)).trans <| (W13_of m c main_arg23 (by decide)).trans <| (W12_of m c main_arg23 (by decide)).trans <| (W11_of m c main_arg23 (by decide)).trans <| (W10_of m c main_arg23 (by decide)).trans <| (W9_of m c main_arg23 (by decide)).trans <| (W8_of m c main_arg23 (by decide)).trans <| (W7_of m c main_arg23 (by decide)).trans <| (W6_of m c main_arg23 (by decide)).trans <| (W5_of m c main_arg23 (by decide)).trans <| (W4_of m c main_arg23 (by decide)).trans <| (W3_of m c main_arg23 (by decide)).trans <| (W2_of_ne m c main_arg23 (by decide)).trans <| (W1_of m c main_arg23 (by decide))
theorem arg16_at25 : W25 m c main_arg16 = a16 m c :=
  (W25_of m c main_arg16 (by decide)).trans <| (W24_of_ne m c main_arg16 (by decide)).trans <| (W23_of m c main_arg16 (by decide)).trans <| (W22_of_ne m c main_arg16 (by decide)).trans <| (W21_of m c main_arg16 (by decide)).trans <| (W20_of_ne m c main_arg16 (by decide) (by decide) (by decide)).trans <| (W19_of m c main_arg16 (by decide)).trans <| (W18_of m c main_arg16 (by decide)).trans <| (W17_of m c main_arg16 (by decide)).trans <| (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of_ne m c main_arg16 (by decide)).trans <| (W1_of m c main_arg16 (by decide))
theorem arg17_at25 : W25 m c main_arg17 = a17 m c :=
  (W25_of m c main_arg17 (by decide)).trans <| (W24_of_ne m c main_arg17 (by decide)).trans <| (W23_of m c main_arg17 (by decide)).trans <| (W22_of_ne m c main_arg17 (by decide)).trans <| (W21_of m c main_arg17 (by decide)).trans <| (W20_of_ne m c main_arg17 (by decide) (by decide) (by decide)).trans <| (W19_of m c main_arg17 (by decide)).trans <| (W18_of m c main_arg17 (by decide)).trans <| (W17_of m c main_arg17 (by decide)).trans <| (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of_ne m c main_arg17 (by decide)).trans <| (W1_of m c main_arg17 (by decide))
theorem arg18_at25 : W25 m c main_arg18 = a18 m c :=
  (W25_of m c main_arg18 (by decide)).trans <| (W24_of_ne m c main_arg18 (by decide)).trans <| (W23_of m c main_arg18 (by decide)).trans <| (W22_of_ne m c main_arg18 (by decide)).trans <| (W21_of m c main_arg18 (by decide)).trans <| (W20_of_ne m c main_arg18 (by decide) (by decide) (by decide)).trans <| (W19_of m c main_arg18 (by decide)).trans <| (W18_of m c main_arg18 (by decide)).trans <| (W17_of m c main_arg18 (by decide)).trans <| (W16_of m c main_arg18 (by decide)).trans <| (W15_of m c main_arg18 (by decide)).trans <| (W14_of m c main_arg18 (by decide)).trans <| (W13_of m c main_arg18 (by decide)).trans <| (W12_of m c main_arg18 (by decide)).trans <| (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of_ne m c main_arg18 (by decide)).trans <| (W1_of m c main_arg18 (by decide))
theorem arg19_at25 : W25 m c main_arg19 = a19 m c :=
  (W25_of m c main_arg19 (by decide)).trans <| (W24_of_ne m c main_arg19 (by decide)).trans <| (W23_of m c main_arg19 (by decide)).trans <| (W22_of_ne m c main_arg19 (by decide)).trans <| (W21_of m c main_arg19 (by decide)).trans <| (W20_of_ne m c main_arg19 (by decide) (by decide) (by decide)).trans <| (W19_of m c main_arg19 (by decide)).trans <| (W18_of m c main_arg19 (by decide)).trans <| (W17_of m c main_arg19 (by decide)).trans <| (W16_of m c main_arg19 (by decide)).trans <| (W15_of m c main_arg19 (by decide)).trans <| (W14_of m c main_arg19 (by decide)).trans <| (W13_of m c main_arg19 (by decide)).trans <| (W12_of m c main_arg19 (by decide)).trans <| (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of_ne m c main_arg19 (by decide)).trans <| (W1_of m c main_arg19 (by decide))
theorem arg15_at25 : W25 m c main_arg15 = a15 m c :=
  (W25_of m c main_arg15 (by decide)).trans <| (W24_of_ne m c main_arg15 (by decide)).trans <| (W23_of m c main_arg15 (by decide)).trans <| (W22_of_ne m c main_arg15 (by decide)).trans <| (W21_of m c main_arg15 (by decide)).trans <| (W20_of_ne m c main_arg15 (by decide) (by decide) (by decide)).trans <| (W19_of m c main_arg15 (by decide)).trans <| (W18_of m c main_arg15 (by decide)).trans <| (W17_of m c main_arg15 (by decide)).trans <| (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of_ne m c main_arg15 (by decide)).trans <| (W1_of m c main_arg15 (by decide))
theorem arg14_at33 : W33 m c main_arg14 = a14 m c :=
  (W33_of m c main_arg14 (by decide)).trans <| (W32_of m c main_arg14 (by decide)).trans <| (W31_of m c main_arg14 (by decide)).trans <| (W30_of m c main_arg14 (by decide)).trans <| (W29_of m c main_arg14 (by decide)).trans <| (W28_of m c main_arg14 (by decide)).trans <| (W27_of m c main_arg14 (by decide)).trans <| (W26_of m c main_arg14 (by decide)).trans <| (W25_of m c main_arg14 (by decide)).trans <| (W24_of_ne m c main_arg14 (by decide)).trans <| (W23_of m c main_arg14 (by decide)).trans <| (W22_of_ne m c main_arg14 (by decide)).trans <| (W21_of m c main_arg14 (by decide)).trans <| (W20_of_ne m c main_arg14 (by decide) (by decide) (by decide)).trans <| (W19_of m c main_arg14 (by decide)).trans <| (W18_of m c main_arg14 (by decide)).trans <| (W17_of m c main_arg14 (by decide)).trans <| (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of_ne m c main_arg14 (by decide)).trans <| (W1_of m c main_arg14 (by decide))
theorem arg7_at36 : W36 m c main_arg7 = a7 m c :=
  (W36_of_ne m c main_arg7 (by decide)).trans <| (W35_of m c main_arg7 (by decide)).trans <| (W34_of_ne m c main_arg7 (by decide) (by decide) (by decide)).trans <| (W33_of m c main_arg7 (by decide)).trans <| (W32_of m c main_arg7 (by decide)).trans <| (W31_of m c main_arg7 (by decide)).trans <| (W30_of m c main_arg7 (by decide)).trans <| (W29_of m c main_arg7 (by decide)).trans <| (W28_of m c main_arg7 (by decide)).trans <| (W27_of m c main_arg7 (by decide)).trans <| (W26_of m c main_arg7 (by decide)).trans <| (W25_of m c main_arg7 (by decide)).trans <| (W24_of_ne m c main_arg7 (by decide)).trans <| (W23_of m c main_arg7 (by decide)).trans <| (W22_of_ne m c main_arg7 (by decide)).trans <| (W21_of m c main_arg7 (by decide)).trans <| (W20_of_ne m c main_arg7 (by decide) (by decide) (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of_ne m c main_arg7 (by decide)).trans <| (W1_of m c main_arg7 (by decide))
theorem arg6_at37 : W37 m c main_arg6 = a6 m c :=
  (W37_of m c main_arg6 (by decide)).trans <| (W36_of_ne m c main_arg6 (by decide)).trans <| (W35_of m c main_arg6 (by decide)).trans <| (W34_of_ne m c main_arg6 (by decide) (by decide) (by decide)).trans <| (W33_of m c main_arg6 (by decide)).trans <| (W32_of m c main_arg6 (by decide)).trans <| (W31_of m c main_arg6 (by decide)).trans <| (W30_of m c main_arg6 (by decide)).trans <| (W29_of m c main_arg6 (by decide)).trans <| (W28_of m c main_arg6 (by decide)).trans <| (W27_of m c main_arg6 (by decide)).trans <| (W26_of m c main_arg6 (by decide)).trans <| (W25_of m c main_arg6 (by decide)).trans <| (W24_of_ne m c main_arg6 (by decide)).trans <| (W23_of m c main_arg6 (by decide)).trans <| (W22_of_ne m c main_arg6 (by decide)).trans <| (W21_of m c main_arg6 (by decide)).trans <| (W20_of_ne m c main_arg6 (by decide) (by decide) (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of_ne m c main_arg6 (by decide)).trans <| (W1_of m c main_arg6 (by decide))
theorem arg28_at38 : W38 m c main_arg28 = a28 m c :=
  (W38_of_ne m c main_arg28 (by decide)).trans <| (W37_of m c main_arg28 (by decide)).trans <| (W36_of_ne m c main_arg28 (by decide)).trans <| (W35_of m c main_arg28 (by decide)).trans <| (W34_of_ne m c main_arg28 (by decide) (by decide) (by decide)).trans <| (W33_of m c main_arg28 (by decide)).trans <| (W32_of m c main_arg28 (by decide)).trans <| (W31_of m c main_arg28 (by decide)).trans <| (W30_of m c main_arg28 (by decide)).trans <| (W29_of m c main_arg28 (by decide)).trans <| (W28_of m c main_arg28 (by decide)).trans <| (W27_of m c main_arg28 (by decide)).trans <| (W26_of m c main_arg28 (by decide)).trans <| (W25_of m c main_arg28 (by decide)).trans <| (W24_of_ne m c main_arg28 (by decide)).trans <| (W23_of m c main_arg28 (by decide)).trans <| (W22_of_ne m c main_arg28 (by decide)).trans <| (W21_of m c main_arg28 (by decide)).trans <| (W20_of_ne m c main_arg28 (by decide) (by decide) (by decide)).trans <| (W19_of m c main_arg28 (by decide)).trans <| (W18_of m c main_arg28 (by decide)).trans <| (W17_of m c main_arg28 (by decide)).trans <| (W16_of m c main_arg28 (by decide)).trans <| (W15_of m c main_arg28 (by decide)).trans <| (W14_of m c main_arg28 (by decide)).trans <| (W13_of m c main_arg28 (by decide)).trans <| (W12_of m c main_arg28 (by decide)).trans <| (W11_of m c main_arg28 (by decide)).trans <| (W10_of m c main_arg28 (by decide)).trans <| (W9_of m c main_arg28 (by decide)).trans <| (W8_of m c main_arg28 (by decide)).trans <| (W7_of m c main_arg28 (by decide)).trans <| (W6_of m c main_arg28 (by decide)).trans <| (W5_of m c main_arg28 (by decide)).trans <| (W4_of m c main_arg28 (by decide)).trans <| (W3_of m c main_arg28 (by decide)).trans <| (W2_of_ne m c main_arg28 (by decide)).trans <| (W1_of m c main_arg28 (by decide))
theorem keep_v6_5_18 : W18 m c main_v6 = W5 m c main_v6 :=
  (W18_of m c main_v6 (by decide)).trans <| (W17_of m c main_v6 (by decide)).trans <| (W16_of m c main_v6 (by decide)).trans <| (W15_of m c main_v6 (by decide)).trans <| (W14_of m c main_v6 (by decide)).trans <| (W13_of m c main_v6 (by decide)).trans <| (W12_of m c main_v6 (by decide)).trans <| (W11_of m c main_v6 (by decide)).trans <| (W10_of m c main_v6 (by decide)).trans <| (W9_of m c main_v6 (by decide)).trans <| (W8_of m c main_v6 (by decide)).trans <| (W7_of m c main_v6 (by decide)).trans <| (W6_of m c main_v6 (by decide))
theorem keep_v8_7_18 : W18 m c main_v8 = W7 m c main_v8 :=
  (W18_of m c main_v8 (by decide)).trans <| (W17_of m c main_v8 (by decide)).trans <| (W16_of m c main_v8 (by decide)).trans <| (W15_of m c main_v8 (by decide)).trans <| (W14_of m c main_v8 (by decide)).trans <| (W13_of m c main_v8 (by decide)).trans <| (W12_of m c main_v8 (by decide)).trans <| (W11_of m c main_v8 (by decide)).trans <| (W10_of m c main_v8 (by decide)).trans <| (W9_of m c main_v8 (by decide)).trans <| (W8_of m c main_v8 (by decide))
theorem keep_v10_9_18 : W18 m c main_v10 = W9 m c main_v10 :=
  (W18_of m c main_v10 (by decide)).trans <| (W17_of m c main_v10 (by decide)).trans <| (W16_of m c main_v10 (by decide)).trans <| (W15_of m c main_v10 (by decide)).trans <| (W14_of m c main_v10 (by decide)).trans <| (W13_of m c main_v10 (by decide)).trans <| (W12_of m c main_v10 (by decide)).trans <| (W11_of m c main_v10 (by decide)).trans <| (W10_of m c main_v10 (by decide))
theorem keep_v12_11_18 : W18 m c main_v12 = W11 m c main_v12 :=
  (W18_of m c main_v12 (by decide)).trans <| (W17_of m c main_v12 (by decide)).trans <| (W16_of m c main_v12 (by decide)).trans <| (W15_of m c main_v12 (by decide)).trans <| (W14_of m c main_v12 (by decide)).trans <| (W13_of m c main_v12 (by decide)).trans <| (W12_of m c main_v12 (by decide))
theorem keep_v14_13_18 : W18 m c main_v14 = W13 m c main_v14 :=
  (W18_of m c main_v14 (by decide)).trans <| (W17_of m c main_v14 (by decide)).trans <| (W16_of m c main_v14 (by decide)).trans <| (W15_of m c main_v14 (by decide)).trans <| (W14_of m c main_v14 (by decide))
theorem keep_v16_15_18 : W18 m c main_v16 = W15 m c main_v16 :=
  (W18_of m c main_v16 (by decide)).trans <| (W17_of m c main_v16 (by decide)).trans <| (W16_of m c main_v16 (by decide))
theorem keep_v18_17_18 : W18 m c main_v18 = W17 m c main_v18 :=
  (W18_of m c main_v18 (by decide))
theorem keep_v32_0_20_21 : W21 m c main_v32_0 = W20 m c main_v32_0 :=
  (W21_of m c main_v32_0 (by decide))
theorem keep_v46_22_23 : W23 m c main_v46 = W22 m c main_v46 :=
  (W23_of m c main_v46 (by decide))
theorem keep_v4_3_24 : W24 m c main_v4 = W3 m c main_v4 :=
  (W24_of_ne m c main_v4 (by decide)).trans <| (W23_of m c main_v4 (by decide)).trans <| (W22_of_ne m c main_v4 (by decide)).trans <| (W21_of m c main_v4 (by decide)).trans <| (W20_of_ne m c main_v4 (by decide) (by decide) (by decide)).trans <| (W19_of m c main_v4 (by decide)).trans <| (W18_of m c main_v4 (by decide)).trans <| (W17_of m c main_v4 (by decide)).trans <| (W16_of m c main_v4 (by decide)).trans <| (W15_of m c main_v4 (by decide)).trans <| (W14_of m c main_v4 (by decide)).trans <| (W13_of m c main_v4 (by decide)).trans <| (W12_of m c main_v4 (by decide)).trans <| (W11_of m c main_v4 (by decide)).trans <| (W10_of m c main_v4 (by decide)).trans <| (W9_of m c main_v4 (by decide)).trans <| (W8_of m c main_v4 (by decide)).trans <| (W7_of m c main_v4 (by decide)).trans <| (W6_of m c main_v4 (by decide)).trans <| (W5_of m c main_v4 (by decide)).trans <| (W4_of m c main_v4 (by decide))
theorem keep_v46_22_25 : W25 m c main_v46 = W22 m c main_v46 :=
  (W25_of m c main_v46 (by decide)).trans <| (W24_of_ne m c main_v46 (by decide)).trans <| (W23_of m c main_v46 (by decide))
theorem keep_v6_5_25 : W25 m c main_v6 = W5 m c main_v6 :=
  (W25_of m c main_v6 (by decide)).trans <| (W24_of_ne m c main_v6 (by decide)).trans <| (W23_of m c main_v6 (by decide)).trans <| (W22_of_ne m c main_v6 (by decide)).trans <| (W21_of m c main_v6 (by decide)).trans <| (W20_of_ne m c main_v6 (by decide) (by decide) (by decide)).trans <| (W19_of m c main_v6 (by decide)).trans <| (W18_of m c main_v6 (by decide)).trans <| (W17_of m c main_v6 (by decide)).trans <| (W16_of m c main_v6 (by decide)).trans <| (W15_of m c main_v6 (by decide)).trans <| (W14_of m c main_v6 (by decide)).trans <| (W13_of m c main_v6 (by decide)).trans <| (W12_of m c main_v6 (by decide)).trans <| (W11_of m c main_v6 (by decide)).trans <| (W10_of m c main_v6 (by decide)).trans <| (W9_of m c main_v6 (by decide)).trans <| (W8_of m c main_v6 (by decide)).trans <| (W7_of m c main_v6 (by decide)).trans <| (W6_of m c main_v6 (by decide))
theorem keep_v8_7_25 : W25 m c main_v8 = W7 m c main_v8 :=
  (W25_of m c main_v8 (by decide)).trans <| (W24_of_ne m c main_v8 (by decide)).trans <| (W23_of m c main_v8 (by decide)).trans <| (W22_of_ne m c main_v8 (by decide)).trans <| (W21_of m c main_v8 (by decide)).trans <| (W20_of_ne m c main_v8 (by decide) (by decide) (by decide)).trans <| (W19_of m c main_v8 (by decide)).trans <| (W18_of m c main_v8 (by decide)).trans <| (W17_of m c main_v8 (by decide)).trans <| (W16_of m c main_v8 (by decide)).trans <| (W15_of m c main_v8 (by decide)).trans <| (W14_of m c main_v8 (by decide)).trans <| (W13_of m c main_v8 (by decide)).trans <| (W12_of m c main_v8 (by decide)).trans <| (W11_of m c main_v8 (by decide)).trans <| (W10_of m c main_v8 (by decide)).trans <| (W9_of m c main_v8 (by decide)).trans <| (W8_of m c main_v8 (by decide))
theorem keep_v10_9_25 : W25 m c main_v10 = W9 m c main_v10 :=
  (W25_of m c main_v10 (by decide)).trans <| (W24_of_ne m c main_v10 (by decide)).trans <| (W23_of m c main_v10 (by decide)).trans <| (W22_of_ne m c main_v10 (by decide)).trans <| (W21_of m c main_v10 (by decide)).trans <| (W20_of_ne m c main_v10 (by decide) (by decide) (by decide)).trans <| (W19_of m c main_v10 (by decide)).trans <| (W18_of m c main_v10 (by decide)).trans <| (W17_of m c main_v10 (by decide)).trans <| (W16_of m c main_v10 (by decide)).trans <| (W15_of m c main_v10 (by decide)).trans <| (W14_of m c main_v10 (by decide)).trans <| (W13_of m c main_v10 (by decide)).trans <| (W12_of m c main_v10 (by decide)).trans <| (W11_of m c main_v10 (by decide)).trans <| (W10_of m c main_v10 (by decide))
theorem keep_v12_11_25 : W25 m c main_v12 = W11 m c main_v12 :=
  (W25_of m c main_v12 (by decide)).trans <| (W24_of_ne m c main_v12 (by decide)).trans <| (W23_of m c main_v12 (by decide)).trans <| (W22_of_ne m c main_v12 (by decide)).trans <| (W21_of m c main_v12 (by decide)).trans <| (W20_of_ne m c main_v12 (by decide) (by decide) (by decide)).trans <| (W19_of m c main_v12 (by decide)).trans <| (W18_of m c main_v12 (by decide)).trans <| (W17_of m c main_v12 (by decide)).trans <| (W16_of m c main_v12 (by decide)).trans <| (W15_of m c main_v12 (by decide)).trans <| (W14_of m c main_v12 (by decide)).trans <| (W13_of m c main_v12 (by decide)).trans <| (W12_of m c main_v12 (by decide))
theorem keep_v46_22_33 : W33 m c main_v46 = W22 m c main_v46 :=
  (W33_of m c main_v46 (by decide)).trans <| (W32_of m c main_v46 (by decide)).trans <| (W31_of m c main_v46 (by decide)).trans <| (W30_of m c main_v46 (by decide)).trans <| (W29_of m c main_v46 (by decide)).trans <| (W28_of m c main_v46 (by decide)).trans <| (W27_of m c main_v46 (by decide)).trans <| (W26_of m c main_v46 (by decide)).trans <| (W25_of m c main_v46 (by decide)).trans <| (W24_of_ne m c main_v46 (by decide)).trans <| (W23_of m c main_v46 (by decide))
theorem keep_v72_0_34_35 : W35 m c main_v72_0 = W34 m c main_v72_0 :=
  (W35_of m c main_v72_0 (by decide))
theorem keep_v86_36_37 : W37 m c main_v86 = W36 m c main_v86 :=
  (W37_of m c main_v86 (by decide))
theorem keep_v52_25_38 : W38 m c main_v52 = W25 m c main_v52 :=
  (W38_of_ne m c main_v52 (by decide)).trans <| (W37_of m c main_v52 (by decide)).trans <| (W36_of_ne m c main_v52 (by decide)).trans <| (W35_of m c main_v52 (by decide)).trans <| (W34_of_ne m c main_v52 (by decide) (by decide) (by decide)).trans <| (W33_of m c main_v52 (by decide)).trans <| (W32_of m c main_v52 (by decide)).trans <| (W31_of m c main_v52 (by decide)).trans <| (W30_of m c main_v52 (by decide)).trans <| (W29_of m c main_v52 (by decide)).trans <| (W28_of m c main_v52 (by decide)).trans <| (W27_of m c main_v52 (by decide)).trans <| (W26_of m c main_v52 (by decide))

theorem reg0_W (b : FVec Ideal S128 .f32)
    (hb : ∀ j : Fin 128, (W1 m c main_v0 : FVec Ideal S1x128 .f32) (ix2 (0 : Fin 1) j) = b (ix1 j)) :
    (W2 m c main_v1 : FVec Ideal S200000x128 .f32) = Cert.Spec.sm64 (F := Ideal) (W1 m c main_arg0) (W1 m c main_arg2) b :=
  (W2_main_v1 m c).trans (arr0 (Vin0 m) c b hb)

theorem reg3_W (b : FVec Ideal S128 .f32)
    (hb : ∀ j : Fin 128, (W23 m c main_v47 : FVec Ideal S1x128 .f32) (ix2 (0 : Fin 1) j) = b (ix1 j)) :
    (W24 m c main_v48 : FVec Ideal S200000x128 .f32) = Cert.Spec.sm128 (F := Ideal) (W23 m c main_v46) (W23 m c main_arg4) b :=
  (W24_main_v48 m c).trans (arr3 (Vin3 m) c b hb)

theorem reg6_W (b : FVec Ideal S128 .f32)
    (hb : ∀ j : Fin 128, (W37 m c main_v87 : FVec Ideal S1x128 .f32) (ix2 (0 : Fin 1) j) = b (ix1 j)) :
    (W38 m c main_v88 : FVec Ideal S200000x128 .f32) = Cert.Spec.sm128 (F := Ideal) (W37 m c main_v86) (W37 m c main_arg6) b :=
  (W38_main_v88 m c).trans (arr6 (Vin6 m) c b hb)

theorem reg1x_W (cb : FVec Ideal S128 .f32) (n1 n2 n3 n4 : FVec Ideal S50000x80 .f32) (d1 d2 d3 d4 : FVec Ideal S80x128 .f32)
    (hn : ∀ (d : Fin 4) (r : Fin 50000) (k : Fin 80),
      (W19 m c main_v25 : FVec Ideal S200000x80 .f32) (ix2 (Cert.SpecConv.brow d r) k) = Cert.SpecConv.sel4 d n1 n2 n3 n4 (ix2 r k))
    (hd : ∀ (d : Fin 4) (k : Fin 80) (j : Fin 128),
      (W19 m c main_v30 : FVec Ideal S4x80x128 .f32) (ix3 d k j) = Cert.SpecConv.sel4 d d1 d2 d3 d4 (ix2 k j))
    (hb : ∀ j : Fin 128, (W19 m c main_v31 : FVec Ideal S1x128 .f32) (ix2 (0 : Fin 1) j) = cb (ix1 j)) :
    (W20 m c main_v32_0 : FVec Ideal S200000x128 .f32)
      = Cert.Spec.x1 (F := Ideal) (W19 m c main_arg0) (W19 m c main_arg8) cb n1 n2 n3 n4 d1 d2 d3 d4 :=
  (W20_main_v32_0 m c).trans (conv1_x (Vin1 m) c cb n1 n2 n3 n4 d1 d2 d3 d4 hn hd hb)

theorem reg1s_W (x : S200000x128.Idx → EReal) (s : S1x128.Idx → EReal)
    (hx : W20 m c main_v32_0 = x) (hs : W20 m c main_v32_1 = s) (j : Fin 128) :
    s (ix2 (0 : Fin 1) j) = ∑ i : Fin 200000, x (ix2 i j) := by
  subst hx hs
  exact (congrFun (W20_main_v32_1 m c) _).trans ((conv1_sum (Vin1 m) c j).trans
    (Finset.sum_congr rfl fun i _ => (congrFun (W20_main_v32_0 m c) _).symm))

theorem reg1q_W (x : S200000x128.Idx → EReal) (s : S1x128.Idx → EReal)
    (hx : W20 m c main_v32_0 = x) (hs : W20 m c main_v32_2 = s) (j : Fin 128) :
    s (ix2 (0 : Fin 1) j) = ∑ i : Fin 200000, x (ix2 i j) * x (ix2 i j) := by
  subst hx hs
  exact (congrFun (W20_main_v32_2 m c) _).trans ((conv1_sumsq (Vin1 m) c j).trans
    (Finset.sum_congr rfl fun i _ =>
      congrArg₂ (· * ·) (congrFun (W20_main_v32_0 m c) _).symm (congrFun (W20_main_v32_0 m c) _).symm))

theorem reg4x_W (cb : FVec Ideal S128 .f32) (n1 n2 n3 n4 : FVec Ideal S50000x144 .f32) (d1 d2 d3 d4 : FVec Ideal S144x128 .f32)
    (hn : ∀ (d : Fin 4) (r : Fin 50000) (k : Fin 144),
      (W33 m c main_v65 : FVec Ideal S200000x144 .f32) (ix2 (Cert.SpecConv.brow d r) k) = Cert.SpecConv.sel4 d n1 n2 n3 n4 (ix2 r k))
    (hd : ∀ (d : Fin 4) (k : Fin 144) (j : Fin 128),
      (W33 m c main_v70 : FVec Ideal S4x144x128 .f32) (ix3 d k j) = Cert.SpecConv.sel4 d d1 d2 d3 d4 (ix2 k j))
    (hb : ∀ j : Fin 128, (W33 m c main_v71 : FVec Ideal S1x128 .f32) (ix2 (0 : Fin 1) j) = cb (ix1 j)) :
    (W34 m c main_v72_0 : FVec Ideal S200000x128 .f32)
      = Cert.Spec.x2 (F := Ideal) (W33 m c main_v46) (W33 m c main_arg14) cb n1 n2 n3 n4 d1 d2 d3 d4 :=
  (W34_main_v72_0 m c).trans (conv4_x (Vin4 m) c cb n1 n2 n3 n4 d1 d2 d3 d4 hn hd hb)

theorem reg4s_W (x : S200000x128.Idx → EReal) (s : S1x128.Idx → EReal)
    (hx : W34 m c main_v72_0 = x) (hs : W34 m c main_v72_1 = s) (j : Fin 128) :
    s (ix2 (0 : Fin 1) j) = ∑ i : Fin 200000, x (ix2 i j) := by
  subst hx hs
  exact (congrFun (W34_main_v72_1 m c) _).trans ((conv4_sum (Vin4 m) c j).trans
    (Finset.sum_congr rfl fun i _ => (congrFun (W34_main_v72_0 m c) _).symm))

theorem reg4q_W (x : S200000x128.Idx → EReal) (s : S1x128.Idx → EReal)
    (hx : W34 m c main_v72_0 = x) (hs : W34 m c main_v72_2 = s) (j : Fin 128) :
    s (ix2 (0 : Fin 1) j) = ∑ i : Fin 200000, x (ix2 i j) * x (ix2 i j) := by
  subst hx hs
  exact (congrFun (W34_main_v72_2 m c) _).trans ((conv4_sumsq (Vin4 m) c j).trans
    (Finset.sum_congr rfl fun i _ =>
      congrArg₂ (· * ·) (congrFun (W34_main_v72_0 m c) _).symm (congrFun (W34_main_v72_0 m c) _).symm))

theorem bridge (hdom : Cert.Proof.PreFacts.InDom (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c)) :
    (W39 m c main_v92 : FVec Ideal S8192x128 .f32)
      = Cert.Spec.res (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) := by

  have e0 : ∀ j : Fin 128, (W1 m c main_v0 : FVec Ideal S1x128 .f32) (ix2 (0 : Fin 1) j) = a3 m c (ix1 j) :=
    fun j => after_hostOps0_main_v0_apply (W0 m c) j
  have s0 : (W2 m c main_v1 : FVec Ideal S200000x128 .f32) = stS0 m c :=
    (reg0_W m c (a3 m c) e0).trans (by rw [arg0_at1 m c, arg2_at1 m c]; rfl)
  have fp0 : (W3 m c main_v4 : FVec Ideal S8192x128 .f32) = stFP0 m c :=
    (after_hostOps1_main_v4 (W2 m c)).trans (by rw [s0, arg28_at2 m c]; rfl)

  have bn1 : (W5 m c main_v6 : FVec Ideal _ .f32) = stBN1 m c :=
    (after_hostOps1_2_main_v6 (W4 m c)).trans (by
      rw [show (W4 m c main_v5 : FVec Ideal S50000x1x16 .f32) = _ from after_hostOps1_1_main_v5 (W3 m c), arg1_at3 m c, arg24_at3 m c]
      exact takeB1_eq _ _ hdom.rng24)
  have bn2 : (W7 m c main_v8 : FVec Ideal _ .f32) = stBN2 m c :=
    (after_hostOps1_4_main_v8 (W6 m c)).trans (by
      rw [show (W6 m c main_v7 : FVec Ideal S50000x2x16 .f32) = _ from after_hostOps1_3_main_v7 (W5 m c), arg1_at5 m c, arg25_at5 m c]
      exact takeB2_eq _ _ hdom.rng25)
  have bn3 : (W9 m c main_v10 : FVec Ideal _ .f32) = stBN3 m c :=
    (after_hostOps1_6_main_v10 (W8 m c)).trans (by
      rw [show (W8 m c main_v9 : FVec Ideal S50000x3x16 .f32) = _ from after_hostOps1_5_main_v9 (W7 m c), arg1_at7 m c, arg26_at7 m c]
      exact takeB3_eq _ _ hdom.rng26)
  have bn4 : (W11 m c main_v12 : FVec Ideal _ .f32) = stBN4 m c :=
    (after_hostOps1_8_main_v12 (W10 m c)).trans (by
      rw [show (W10 m c main_v11 : FVec Ideal S50000x4x16 .f32) = _ from after_hostOps1_7_main_v11 (W9 m c), arg1_at9 m c, arg27_at9 m c]
      exact takeB4_eq _ _ hdom.rng27)
  have an1 : (W13 m c main_v14 : FVec Ideal _ .f32) = stAN1 m c :=
    (after_hostOps1_10_main_v14 (W12 m c)).trans (by
      rw [show (W12 m c main_v13 : FVec Ideal S50000x1x64 .f32) = _ from after_hostOps1_9_main_v13 (W11 m c), arg0_at11 m c, arg20_at11 m c]
      exact takeA1_eq _ _ hdom.rng20)
  have an2 : (W15 m c main_v16 : FVec Ideal _ .f32) = stAN2 m c :=
    (after_hostOps1_12_main_v16 (W14 m c)).trans (by
      rw [show (W14 m c main_v15 : FVec Ideal S50000x2x64 .f32) = _ from after_hostOps1_11_main_v15 (W13 m c), arg0_at13 m c, arg21_at13 m c]
      exact takeA2_eq _ _ hdom.rng21)
  have an3 : (W17 m c main_v18 : FVec Ideal _ .f32) = stAN3 m c :=
    (after_hostOps1_14_main_v18 (W16 m c)).trans (by
      rw [show (W16 m c main_v17 : FVec Ideal S50000x3x64 .f32) = _ from after_hostOps1_13_main_v17 (W15 m c), arg0_at15 m c, arg22_at15 m c]
      exact takeA3_eq _ _ hdom.rng22)
  have sa4 : (W18 m c main_v19 : FVec Ideal S50000x4x64 .f32) = takeSelA4 (a0 m c) (a23 m c) :=
    (after_hostOps1_15_main_v19 (W17 m c)).trans (by rw [arg0_at17 m c, arg23_at17 m c])
  have an4 : Host.reduceAdd (W18 m c main_v19 : FVec Ideal S50000x4x64 .f32) (constant (F := Ideal) S_ .f32 0x00000000#32)
      reducesTo_S50000x4x64_S50000x64_d1 h_S_ = stAN4 m c := by
    rw [sa4]; exact takeA4_eq _ _ hdom.rng23

  have hP : nbrParts1 (W18 m c) = ![stP1 m c, stP2 m c, stP3 m c, stP4 m c] := by
    unfold nbrParts1
    rw [keep_v14_13_18 m c, an1, keep_v6_5_18 m c, bn1, keep_v16_15_18 m c, an2, keep_v8_7_18 m c, bn2,
      keep_v18_17_18 m c, an3, keep_v10_9_18 m c, bn3, an4, keep_v12_11_18 m c, bn4]
    rfl
  have hn : ∀ (d : Fin 4) (r : Fin 50000) (k : Fin 80),
      (W19 m c main_v25 : FVec Ideal S200000x80 .f32) (ix2 (Cert.SpecConv.brow d r) k)
        = Cert.SpecConv.sel4 d (stP1 m c) (stP2 m c) (stP3 m c) (stP4 m c) (ix2 r k) := fun d r k =>
    (after_hostOps1_16_main_v25_apply (W18 m c) d r k (Cert.SpecConv.brow d r).isLt).trans (by
      rw [hP]; fin_cases d <;> rfl)
  have hd : ∀ (d : Fin 4) (k : Fin 80) (j : Fin 128),
      (W19 m c main_v30 : FVec Ideal S4x80x128 .f32) (ix3 d k j)
        = Cert.SpecConv.sel4 d (a10 m c) (a11 m c) (a12 m c) (a13 m c) (ix2 k j) := fun d k j =>
    (after_hostOps1_16_main_v30_apply (W18 m c) d k j).trans (by
      rw [arg10_at18 m c, arg11_at18 m c, arg12_at18 m c, arg13_at18 m c]; fin_cases d <;> rfl)
  have hb : ∀ j : Fin 128, (W19 m c main_v31 : FVec Ideal S1x128 .f32) (ix2 (0 : Fin 1) j) = a9 m c (ix1 j) := fun j =>
    (after_hostOps1_16_main_v31_apply (W18 m c) j).trans (by rw [arg9_at18 m c])
  have x1 : (W20 m c main_v32_0 : FVec Ideal S200000x128 .f32) = stX1 m c :=
    (reg1x_W m c (a9 m c) (stP1 m c) (stP2 m c) (stP3 m c) (stP4 m c) (a10 m c) (a11 m c) (a12 m c) (a13 m c) hn hd hb).trans (by
      rw [arg0_at19 m c, arg8_at19 m c]; rfl)

  have h1 : (W22 m c main_v46 : FVec Ideal S200000x128 .f32) = stH1 m c := by
    refine (W22_main_v46 m c).trans ?_
    refine (reg2_val (Vin2 m) c (stX1 m c) (W20 m c main_v32_1) (W20 m c main_v32_2)
      ((keep_v32_0_20_21 m c).trans x1) (stX1_isReal m c hdom)
      (after_hostOps2_main_v44 (W20 m c)) (after_hostOps2_main_v45 (W20 m c))
      (reg1s_W m c _ _ x1 rfl) (reg1q_W m c _ _ x1 rfl)).trans ?_
    rfl

  have e3 : ∀ j : Fin 128, (W23 m c main_v47 : FVec Ideal S1x128 .f32) (ix2 (0 : Fin 1) j) = a5 m c (ix1 j) := fun j =>
    (h3_v47_apply (W22 m c) j).trans (by rw [arg5_at22 m c])
  have s1 : (W24 m c main_v48 : FVec Ideal S200000x128 .f32) = stS1 m c :=
    (reg3_W m c (a5 m c) e3).trans (by rw [keep_v46_22_23 m c, h1, arg4_at23 m c]; rfl)
  have fp1 : (W25 m c main_v52 : FVec Ideal S8192x128 .f32) = stFP1 m c :=
    (h4_v52 (W24 m c)).trans (by rw [keep_v4_3_24 m c, fp0, s1, arg28_at24 m c]; rfl)

  have hn2 : ∀ (d : Fin 4) (r : Fin 50000) (k : Fin 144),
      (W33 m c main_v65 : FVec Ideal S200000x144 .f32) (ix2 (Cert.SpecConv.brow d r) k)
        = Cert.SpecConv.sel4 d (stQ1 m c) (stQ2 m c) (stQ3 m c) (stQ4 m c) (ix2 r k) := fun d r k =>
    (after4s_v65_apply (W25 m c) d r k (Cert.SpecConv.brow d r).isLt).trans (by
      rw [keep_v46_22_25 m c, h1, arg20_at25 m c, arg21_at25 m c, arg22_at25 m c, arg23_at25 m c,
        keep_v6_5_25 m c, bn1, keep_v8_7_25 m c, bn2, keep_v10_9_25 m c, bn3, keep_v12_11_25 m c, bn4,
        takeH1_eq _ _ hdom.rng20, takeH2_eq _ _ hdom.rng21, takeH3_eq _ _ hdom.rng22, takeH4_eq _ _ hdom.rng23]
      fin_cases d <;> rfl)
  have hd2 : ∀ (d : Fin 4) (k : Fin 144) (j : Fin 128),
      (W33 m c main_v70 : FVec Ideal S4x144x128 .f32) (ix3 d k j)
        = Cert.SpecConv.sel4 d (a16 m c) (a17 m c) (a18 m c) (a19 m c) (ix2 k j) := fun d k j =>
    (after4s_v70_apply (W25 m c) d k j).trans (by
      rw [arg16_at25 m c, arg17_at25 m c, arg18_at25 m c, arg19_at25 m c]; fin_cases d <;> rfl)
  have hb2 : ∀ j : Fin 128, (W33 m c main_v71 : FVec Ideal S1x128 .f32) (ix2 (0 : Fin 1) j) = a15 m c (ix1 j) := fun j =>
    (after4s_v71_apply (W25 m c) j).trans (by rw [arg15_at25 m c])
  have x2 : (W34 m c main_v72_0 : FVec Ideal S200000x128 .f32) = stX2 m c :=
    (reg4x_W m c (a15 m c) (stQ1 m c) (stQ2 m c) (stQ3 m c) (stQ4 m c) (a16 m c) (a17 m c) (a18 m c) (a19 m c) hn2 hd2 hb2).trans (by
      rw [keep_v46_22_33 m c, h1, arg14_at33 m c]; rfl)

  have h2 : (W36 m c main_v86 : FVec Ideal S200000x128 .f32) = stH2 m c := by
    refine (W36_main_v86 m c).trans ?_
    refine (reg5_val (Vin5 m) c (stX2 m c) (W34 m c main_v72_1) (W34 m c main_v72_2)
      ((keep_v72_0_34_35 m c).trans x2) (stX2_isReal m c hdom)
      (h5_v84 (W34 m c)) (h5_v85 (W34 m c))
      (reg4s_W m c _ _ x2 rfl) (reg4q_W m c _ _ x2 rfl)).trans ?_
    rfl

  have e6 : ∀ j : Fin 128, (W37 m c main_v87 : FVec Ideal S1x128 .f32) (ix2 (0 : Fin 1) j) = a7 m c (ix1 j) := fun j =>
    (h6_v87_apply (W36 m c) j).trans (by rw [arg7_at36 m c])
  have s2 : (W38 m c main_v88 : FVec Ideal S200000x128 .f32) = stS2 m c :=
    (reg6_W m c (a7 m c) e6).trans (by rw [keep_v86_36_37 m c, h2, arg6_at37 m c]; rfl)
  have res : (W39 m c main_v92 : FVec Ideal S8192x128 .f32) = stRes m c :=
    (h7_v92 (W38 m c)).trans (by rw [keep_v52_25_38 m c, fp1, s2, arg28_at38 m c]; rfl)
  exact res.trans (stRes_eq m c)

end Cert.KernelIdeal.HandV
-- ==== Proof.Ref.Ops.lean ====
import proofs.«410641_j56710748176715_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

abbrev ops0 : List (HloOp τ sig (Elt F)) :=
  [ StableHlo.binary main_arg0 main_arg2 main_v0 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S200000x128 ![0, 1] bcast_S1x128_S200000x128_0_1 : (⟨S1x128, .f32⟩ : BufTy).Contents (Elt F) → (⟨S200000x128, .f32⟩ : BufTy).Contents (Elt F)),
    StableHlo.binary main_v0 main_v2 main_v3 (addf : (⟨S200000x128, .f32⟩ : BufTy).Contents (Elt F) → (⟨S200000x128, .f32⟩ : BufTy).Contents (Elt F) → (⟨S200000x128, .f32⟩ : BufTy).Contents (Elt F)),
    StableHlo.nullary main_cst (constant S_ .f32 0xFF800000#32),
    StableHlo.binary main_v3 main_cst main_v4 ((fun x v => Host.reduce FloatOps.maximumf x v reducesTo_S200000x128_S200000_d1 h_S_) : (⟨S200000x128, .f32⟩ : BufTy).Contents (Elt F) → (⟨S_, .f32⟩ : BufTy).Contents (Elt F) → (⟨S200000, .f32⟩ : BufTy).Contents (Elt F)),
    StableHlo.nullary main_cst_0 (constant S_ .f32 0xFF800000#32),
    StableHlo.unary main_cst_0 main_v5 (broadcastInDim S200000 ![] bcast_S_S200000 : (⟨S_, .f32⟩ : BufTy).Contents (Elt F) → (⟨S200000, .f32⟩ : BufTy).Contents (Elt F)),
    StableHlo.binary main_v5 main_v4 main_v6 (maximumf : (⟨S200000, .f32⟩ : BufTy).Contents (Elt F) → (⟨S200000, .f32⟩ : BufTy).Contents (Elt F) → (⟨S200000, .f32⟩ : BufTy).Contents (Elt F)),
    StableHlo.unary main_v6 main_v7 (broadcastInDim S200000x1 ![0] bcast_S200000_S200000x1_0 : (⟨S200000, .f32⟩ : BufTy).Contents (Elt F) → (⟨S200000x1, .f32⟩ : BufTy).Contents (Elt F)),
    StableHlo.unary main_v7 main_v8 (broadcastInDim S200000x128 ![0, 1] bcast_S200000x1_S200000x128_0_1 : (⟨S200000x1, .f32⟩ : BufTy).Contents (Elt F) → (⟨S200000x128, .f32⟩ : BufTy).Contents (Elt F)),
    StableHlo.binary main_v3 main_v8 main_v9 (subf : (⟨S200000x128, .f32⟩ : BufTy).Contents (Elt F) → (⟨S200000x128, .f32⟩ : BufTy).Contents (Elt F) → (⟨S200000x128, .f32⟩ : BufTy).Contents (Elt F)),
    StableHlo.unary main_v9 main_v10 (Host.exp : (⟨S200000x128, .f32⟩ : BufTy).Contents (Elt F) → (⟨S200000x128, .f32⟩ : BufTy).Contents (Elt F)),
    StableHlo.nullary main_cst_1 (constant S_ .f32 0x00000000#32),
    StableHlo.binary main_v10 main_cst_1 main_v11 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)),
    StableHlo.unary main_v11 main_v12 (broadcastInDim S200000x1 ![0] bcast_S200000_S200000x1_0 : (⟨S200000, .f32⟩ : BufTy).Contents (Elt F) → (⟨S200000x1, .f32⟩ : BufTy).Contents (Elt F)),
    StableHlo.unary main_v12 main_v13 (broadcastInDim S200000x128 ![0, 1] bcast_S200000x1_S200000x128_0_1 : (⟨S200000x1, .f32⟩ : BufTy).Contents (Elt F) → (⟨S200000x128, .f32⟩ : BufTy).Contents (Elt F)),
    StableHlo.binary main_v10 main_v13 main_v14 (Host.divf : (⟨S200000x128, .f32⟩ : BufTy).Contents (Elt F) → (⟨S200000x128, .f32⟩ : BufTy).Contents (Elt F) → (⟨S200000x128, .f32⟩ : BufTy).Contents (Elt F)),
    StableHlo.nullary main_cst_2 (constant S_ .f32 0x00000000#32),
    StableHlo.unary main_cst_2 main_v15 (broadcastInDim S8192x128 ![] bcast_S_S8192x128 : (⟨S_, .f32⟩ : BufTy).Contents (Elt F) → (⟨S8192x128, .f32⟩ : BufTy).Contents (Elt F)),
    StableHlo.unary main_arg28 main_v16 (broadcastInDim S200000x1 ![0] bcast_S200000_S200000x1_0 : (⟨S200000, .i32⟩ : BufTy).Contents (Elt F) → (⟨S200000x1, .i32⟩ : BufTy).Contents (Elt F)),
    StableHlo.ternary main_v15 main_v16 main_v14 main_v17 ((fun x i u => Host.scatterAdd scatter_S8192x128_S200000x1_S200000x128_1_0_0_1 x i u) : (⟨S8192x128, .f32⟩ : BufTy).Contents (Elt F) → (⟨S200000x1, .i32⟩ : BufTy).Contents (Elt F) → (⟨S200000x128, .f32⟩ : BufTy).Contents (Elt F) → (⟨S8192x128, .f32⟩ : BufTy).Contents (Elt F)),
    StableHlo.nullary main_c (constantI S_ 32 0#32),
    StableHlo.unary main_c main_v18 (broadcastInDim S50000x1 ![] bcast_S_S50000x1 : (⟨S_, .i32⟩ : BufTy).Contents (Elt F) → (⟨S50000x1, .i32⟩ : BufTy).Contents (Elt F)),
    StableHlo.binary main_arg20 main_v18 main_v19 (cmpi .slt : (⟨S50000x1, .i32⟩ : BufTy).Contents (Elt F) → (⟨S50000x1, .i32⟩ : BufTy).Contents (Elt F) → (⟨S50000x1, .i1⟩ : BufTy).Contents (Elt F)),
    StableHlo.nullary main_c_3 (constantI S_ 32 200000#32),
    StableHlo.unary main_c_3 main_v20 (broadcastInDim S50000x1 ![] bcast_S_S50000x1 : (⟨S_, .i32⟩ : BufTy).Contents (Elt F) → (⟨S50000x1, .i32⟩ : BufTy).Contents (Elt F)),
    StableHlo.binary main_arg20 main_v20 main_v21 (addi : (⟨S50000x1, .i32⟩ : BufTy).Contents (Elt F) → (⟨S50000x1, .i32⟩ : BufTy).Contents (Elt F) → (⟨S50000x1, .i32⟩ : BufTy).Contents (Elt F)),
    StableHlo.ternary main_v19 main_v21 main_arg20 main_v22 (select : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    StableHlo.unary main_v22 main_v23 (broadcastInDim S50000x1x1 ![0, 1] bcast_S50000x1_S50000x1x1_0_1 : (⟨S50000x1, .i32⟩ : BufTy).Contents (Elt F) → (⟨S50000x1x1, .i32⟩ : BufTy).Contents (Elt F)),
    StableHlo.binary main_arg0 main_v23 main_v24 ((fun x i => Host.gather gather_S200000x64_S50000x1x1_S50000x1x64_2_0_n_n_0_2_164 x i) : (⟨S200000x64, .f32⟩ : BufTy).Contents (Elt F) → (⟨S50000x1x1, .i32⟩ : BufTy).Contents (Elt F) → (⟨S50000x1x64, .f32⟩ : BufTy).Contents (Elt F)),
    StableHlo.nullary main_cst_4 (constant S_ .f32 0x00000000#32),
    StableHlo.binary main_v24 main_cst_4 main_v25 ((fun x v => Host.reduceAdd x v reducesTo_S50000x1x64_S50000x64_d1 h_S_) : (⟨S50000x1x64, .f32⟩ : BufTy).Contents (Elt F) → (⟨S_, .f32⟩ : BufTy).Contents (Elt F) → (⟨S50000x64, .f32⟩ : BufTy).Contents (Elt F)),
    StableHlo.nullary main_c_5 (constantI S_ 32 0#32),
    StableHlo.unary main_c_5 main_v26 (broadcastInDim S50000x1 ![] bcast_S_S50000x1 : (⟨S_, .i32⟩ : BufTy).Contents (Elt F) → (⟨S50000x1, .i32⟩ : BufTy).Contents (Elt F)),
    StableHlo.binary main_arg24 main_v26 main_v27 (cmpi .slt : (⟨S50000x1, .i32⟩ : BufTy).Contents (Elt F) → (⟨S50000x1, .i32⟩ : BufTy).Contents (Elt F) → (⟨S50000x1, .i1⟩ : BufTy).Contents (Elt F)),
    StableHlo.nullary main_c_6 (constantI S_ 32 300000#32),
    StableHlo.unary main_c_6 main_v28 (broadcastInDim S50000x1 ![] bcast_S_S50000x1 : (⟨S_, .i32⟩ : BufTy).Contents (Elt F) → (⟨S50000x1, .i32⟩ : BufTy).Contents (Elt F)),
    StableHlo.binary main_arg24 main_v28 main_v29 (addi : (⟨S50000x1, .i32⟩ : BufTy).Contents (Elt F) → (⟨S50000x1, .i32⟩ : BufTy).Contents (Elt F) → (⟨S50000x1, .i32⟩ : BufTy).Contents (Elt F)),
    StableHlo.ternary main_v27 main_v29 main_arg24 main_v30 (select : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    StableHlo.unary main_v30 main_v31 (broadcastInDim S50000x1x1 ![0, 1] bcast_S50000x1_S50000x1x1_0_1 : (⟨S50000x1, .i32⟩ : BufTy).Contents (Elt F) → (⟨S50000x1x1, .i32⟩ : BufTy).Contents (Elt F)),
    StableHlo.binary main_arg1 main_v31 main_v32 ((fun x i => Host.gather gather_S300000x16_S50000x1x1_S50000x1x16_2_0_n_n_0_2_116 x i) : (⟨S300000x16, .f32⟩ : BufTy).Contents (Elt F) → (⟨S50000x1x1, .i32⟩ : BufTy).Contents (Elt F) → (⟨S50000x1x16, .f32⟩ : BufTy).Contents (Elt F)),
    StableHlo.nullary main_cst_7 (constant S_ .f32 0x00000000#32),
    StableHlo.binary main_v32 main_cst_7 main_v33 ((fun x v => Host.reduceAdd x v reducesTo_S50000x1x16_S50000x16_d1 h_S_) : (⟨S50000x1x16, .f32⟩ : BufTy).Contents (Elt F) → (⟨S_, .f32⟩ : BufTy).Contents (Elt F) → (⟨S50000x16, .f32⟩ : BufTy).Contents (Elt F)),
    StableHlo.binary main_v25 main_v33 main_v34 ((fun a b => concatenate S50000x80 1 [⟨S50000x64, a⟩, ⟨S50000x16, b⟩] concatenates_S50000x64_S50000x16_S50000x80_d1) : (⟨S50000x64, .f32⟩ : BufTy).Contents (Elt F) → (⟨S50000x16, .f32⟩ : BufTy).Contents (Elt F) → (⟨S50000x80, .f32⟩ : BufTy).Contents (Elt F)),
    StableHlo.binary main_v34 main_arg10 main_v35 ((fun l r => Host.dotGeneral dot_S50000x80_S80x128_S50000x128_1_0_0_1_n_n none l r) : (⟨S50000x80, .f32⟩ : BufTy).Contents (Elt F) → (⟨S80x128, .f32⟩ : BufTy).Contents (Elt F) → (⟨S50000x128, .f32⟩ : BufTy).Contents (Elt F)),
    StableHlo.nullary main_c_8 (constantI S_ 32 0#32),
    StableHlo.unary main_c_8 main_v36 (broadcastInDim S50000x2 ![] bcast_S_S50000x2 : (⟨S_, .i32⟩ : BufTy).Contents (Elt F) → (⟨S50000x2, .i32⟩ : BufTy).Contents (Elt F)),
    StableHlo.binary main_arg21 main_v36 main_v37 (cmpi .slt : (⟨S50000x2, .i32⟩ : BufTy).Contents (Elt F) → (⟨S50000x2, .i32⟩ : BufTy).Contents (Elt F) → (⟨S50000x2, .i1⟩ : BufTy).Contents (Elt F)),
    StableHlo.nullary main_c_9 (constantI S_ 32 200000#32),
    StableHlo.unary main_c_9 main_v38 (broadcastInDim S50000x2 ![] bcast_S_S50000x2 : (⟨S_, .i32⟩ : BufTy).Contents (Elt F) → (⟨S50000x2, .i32⟩ : BufTy).Contents (Elt F)),
    StableHlo.binary main_arg21 main_v38 main_v39 (addi : (⟨S50000x2, .i32⟩ : BufTy).Contents (Elt F) → (⟨S50000x2, .i32⟩ : BufTy).Contents (Elt F) → (⟨S50000x2, .i32⟩ : BufTy).Contents (Elt F)),
    StableHlo.ternary main_v37 main_v39 main_arg21 main_v40 (select : (⟨S50000x2, .i1⟩ : BufTy).Contents (Elt F) → (⟨S50000x2, .i32⟩ : BufTy).Contents (Elt F) → (⟨S50000x2, .i32⟩ : BufTy).Contents (Elt F) → (⟨S50000x2, .i32⟩ : BufTy).Contents (Elt F)),
    StableHlo.unary main_v40 main_v41 (broadcastInDim S50000x2x1 ![0, 1] bcast_S50000x2_S50000x2x1_0_1 : (⟨S50000x2, .i32⟩ : BufTy).Contents (Elt F) → (⟨S50000x2x1, .i32⟩ : BufTy).Contents (Elt F)),
    StableHlo.binary main_arg0 main_v41 main_v42 ((fun x i => Host.gather gather_S200000x64_S50000x2x1_S50000x2x64_2_0_n_n_0_2_164 x i) : (⟨S200000x64, .f32⟩ : BufTy).Contents (Elt F) → (⟨S50000x2x1, .i32⟩ : BufTy).Contents (Elt F) → (⟨S50000x2x64, .f32⟩ : BufTy).Contents (Elt F)),
    StableHlo.nullary main_cst_10 (constant S_ .f32 0x00000000#32),
    StableHlo.binary main_v42 main_cst_10 main_v43 ((fun x v => Host.reduceAdd x v reducesTo_S50000x2x64_S50000x64_d1 h_S_) : (⟨S50000x2x64, .f32⟩ : BufTy).Contents (Elt F) → (⟨S_, .f32⟩ : BufTy).Contents (Elt F) → (⟨S50000x64, .f32⟩ : BufTy).Contents (Elt F)),
    StableHlo.nullary main_c_11 (constantI S_ 32 0#32),
    StableHlo.unary main_c_11 main_v44 (broadcastInDim S50000x2 ![] bcast_S_S50000x2 : (⟨S_, .i32⟩ : BufTy).Contents (Elt F) → (⟨S50000x2, .i32⟩ : BufTy).Contents (Elt F)),
    StableHlo.binary main_arg25 main_v44 main_v45 (cmpi .slt : (⟨S50000x2, .i32⟩ : BufTy).Contents (Elt F) → (⟨S50000x2, .i32⟩ : BufTy).Contents (Elt F) → (⟨S50000x2, .i1⟩ : BufTy).Contents (Elt F)) ]

set_option maxHeartbeats 4000000 in

abbrev ops1 : List (HloOp τ sig (Elt F)) :=
  [ StableHlo.nullary main_c_12 (constantI S_ 32 300000#32),
    StableHlo.unary main_c_12 main_v46 (broadcastInDim S50000x2 ![] bcast_S_S50000x2 : (⟨S_, .i32⟩ : BufTy).Contents (Elt F) → (⟨S50000x2, .i32⟩ : BufTy).Contents (Elt F)),
    StableHlo.binary main_arg25 main_v46 main_v47 (addi : (⟨S50000x2, .i32⟩ : BufTy).Contents (Elt F) → (⟨S50000x2, .i32⟩ : BufTy).Contents (Elt F) → (⟨S50000x2, .i32⟩ : BufTy).Contents (Elt F)),
    StableHlo.ternary main_v45 main_v47 main_arg25 main_v48 (select : (⟨S50000x2, .i1⟩ : BufTy).Contents (Elt F) → (⟨S50000x2, .i32⟩ : BufTy).Contents (Elt F) → (⟨S50000x2, .i32⟩ : BufTy).Contents (Elt F) → (⟨S50000x2, .i32⟩ : BufTy).Contents (Elt F)),
    StableHlo.unary main_v48 main_v49 (broadcastInDim S50000x2x1 ![0, 1] bcast_S50000x2_S50000x2x1_0_1 : (⟨S50000x2, .i32⟩ : BufTy).Contents (Elt F) → (⟨S50000x2x1, .i32⟩ : BufTy).Contents (Elt F)),
    StableHlo.binary main_arg1 main_v49 main_v50 ((fun x i => Host.gather gather_S300000x16_S50000x2x1_S50000x2x16_2_0_n_n_0_2_116 x i) : (⟨S300000x16, .f32⟩ : BufTy).Contents (Elt F) → (⟨S50000x2x1, .i32⟩ : BufTy).Contents (Elt F) → (⟨S50000x2x16, .f32⟩ : BufTy).Contents (Elt F)),
    StableHlo.nullary main_cst_13 (constant S_ .f32 0x00000000#32),
    StableHlo.binary main_v50 main_cst_13 main_v51 ((fun x v => Host.reduceAdd x v reducesTo_S50000x2x16_S50000x16_d1 h_S_) : (⟨S50000x2x16, .f32⟩ : BufTy).Contents (Elt F) → (⟨S_, .f32⟩ : BufTy).Contents (Elt F) → (⟨S50000x16, .f32⟩ : BufTy).Contents (Elt F)),
    StableHlo.binary main_v43 main_v51 main_v52 ((fun a b => concatenate S50000x80 1 [⟨S50000x64, a⟩, ⟨S50000x16, b⟩] concatenates_S50000x64_S50000x16_S50000x80_d1) : (⟨S50000x64, .f32⟩ : BufTy).Contents (Elt F) → (⟨S50000x16, .f32⟩ : BufTy).Contents (Elt F) → (⟨S50000x80, .f32⟩ : BufTy).Contents (Elt F)),
    StableHlo.binary main_v52 main_arg11 main_v53 ((fun l r => Host.dotGeneral dot_S50000x80_S80x128_S50000x128_1_0_0_1_n_n none l r) : (⟨S50000x80, .f32⟩ : BufTy).Contents (Elt F) → (⟨S80x128, .f32⟩ : BufTy).Contents (Elt F) → (⟨S50000x128, .f32⟩ : BufTy).Contents (Elt F)),
    StableHlo.nullary main_c_14 (constantI S_ 32 0#32),
    StableHlo.unary main_c_14 main_v54 (broadcastInDim S50000x3 ![] bcast_S_S50000x3 : (⟨S_, .i32⟩ : BufTy).Contents (Elt F) → (⟨S50000x3, .i32⟩ : BufTy).Contents (Elt F)),
    StableHlo.binary main_arg22 main_v54 main_v55 (cmpi .slt : (⟨S50000x3, .i32⟩ : BufTy).Contents (Elt F) → (⟨S50000x3, .i32⟩ : BufTy).Contents (Elt F) → (⟨S50000x3, .i1⟩ : BufTy).Contents (Elt F)),
    StableHlo.nullary main_c_15 (constantI S_ 32 200000#32),
    StableHlo.unary main_c_15 main_v56 (broadcastInDim S50000x3 ![] bcast_S_S50000x3 : (⟨S_, .i32⟩ : BufTy).Contents (Elt F) → (⟨S50000x3, .i32⟩ : BufTy).Contents (Elt F)),
    StableHlo.binary main_arg22 main_v56 main_v57 (addi : (⟨S50000x3, .i32⟩ : BufTy).Contents (Elt F) → (⟨S50000x3, .i32⟩ : BufTy).Contents (Elt F) → (⟨S50000x3, .i32⟩ : BufTy).Contents (Elt F)),
    StableHlo.ternary main_v55 main_v57 main_arg22 main_v58 (select : (⟨S50000x3, .i1⟩ : BufTy).Contents (Elt F) → (⟨S50000x3, .i32⟩ : BufTy).Contents (Elt F) → (⟨S50000x3, .i32⟩ : BufTy).Contents (Elt F) → (⟨S50000x3, .i32⟩ : BufTy).Contents (Elt F)),
    StableHlo.unary main_v58 main_v59 (broadcastInDim S50000x3x1 ![0, 1] bcast_S50000x3_S50000x3x1_0_1 : (⟨S50000x3, .i32⟩ : BufTy).Contents (Elt F) → (⟨S50000x3x1, .i32⟩ : BufTy).Contents (Elt F)),
    StableHlo.binary main_arg0 main_v59 main_v60 ((fun x i => Host.gather gather_S200000x64_S50000x3x1_S50000x3x64_2_0_n_n_0_2_164 x i) : (⟨S200000x64, .f32⟩ : BufTy).Contents (Elt F) → (⟨S50000x3x1, .i32⟩ : BufTy).Contents (Elt F) → (⟨S50000x3x64, .f32⟩ : BufTy).Contents (Elt F)),
    StableHlo.nullary main_cst_16 (constant S_ .f32 0x00000000#32),
    StableHlo.binary main_v60 main_cst_16 main_v61 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)),
    StableHlo.nullary main_c_17 (constantI S_ 32 0#32),
    StableHlo.unary main_c_17 main_v62 (broadcastInDim S50000x3 ![] bcast_S_S50000x3 : (⟨S_, .i32⟩ : BufTy).Contents (Elt F) → (⟨S50000x3, .i32⟩ : BufTy).Contents (Elt F)),
    StableHlo.binary main_arg26 main_v62 main_v63 (cmpi .slt : (⟨S50000x3, .i32⟩ : BufTy).Contents (Elt F) → (⟨S50000x3, .i32⟩ : BufTy).Contents (Elt F) → (⟨S50000x3, .i1⟩ : BufTy).Contents (Elt F)),
    StableHlo.nullary main_c_18 (constantI S_ 32 300000#32),
    StableHlo.unary main_c_18 main_v64 (broadcastInDim S50000x3 ![] bcast_S_S50000x3 : (⟨S_, .i32⟩ : BufTy).Contents (Elt F) → (⟨S50000x3, .i32⟩ : BufTy).Contents (Elt F)),
    StableHlo.binary main_arg26 main_v64 main_v65 (addi : (⟨S50000x3, .i32⟩ : BufTy).Contents (Elt F) → (⟨S50000x3, .i32⟩ : BufTy).Contents (Elt F) → (⟨S50000x3, .i32⟩ : BufTy).Contents (Elt F)),
    StableHlo.ternary main_v63 main_v65 main_arg26 main_v66 (select : (⟨S50000x3, .i1⟩ : BufTy).Contents (Elt F) → (⟨S50000x3, .i32⟩ : BufTy).Contents (Elt F) → (⟨S50000x3, .i32⟩ : BufTy).Contents (Elt F) → (⟨S50000x3, .i32⟩ : BufTy).Contents (Elt F)),
    StableHlo.unary main_v66 main_v67 (broadcastInDim S50000x3x1 ![0, 1] bcast_S50000x3_S50000x3x1_0_1 : (⟨S50000x3, .i32⟩ : BufTy).Contents (Elt F) → (⟨S50000x3x1, .i32⟩ : BufTy).Contents (Elt F)),
    StableHlo.binary main_arg1 main_v67 main_v68 ((fun x i => Host.gather gather_S300000x16_S50000x3x1_S50000x3x16_2_0_n_n_0_2_116 x i) : (⟨S300000x16, .f32⟩ : BufTy).Contents (Elt F) → (⟨S50000x3x1, .i32⟩ : BufTy).Contents (Elt F) → (⟨S50000x3x16, .f32⟩ : BufTy).Contents (Elt F)),
    StableHlo.nullary main_cst_19 (constant S_ .f32 0x00000000#32),
    StableHlo.binary main_v68 main_cst_19 main_v69 ((fun x v => Host.reduceAdd x v reducesTo_S50000x3x16_S50000x16_d1 h_S_) : (⟨S50000x3x16, .f32⟩ : BufTy).Contents (Elt F) → (⟨S_, .f32⟩ : BufTy).Contents (Elt F) → (⟨S50000x16, .f32⟩ : BufTy).Contents (Elt F)),
    StableHlo.binary main_v61 main_v69 main_v70 ((fun a b => concatenate S50000x80 1 [⟨S50000x64, a⟩, ⟨S50000x16, b⟩] concatenates_S50000x64_S50000x16_S50000x80_d1) : (⟨S50000x64, .f32⟩ : BufTy).Contents (Elt F) → (⟨S50000x16, .f32⟩ : BufTy).Contents (Elt F) → (⟨S50000x80, .f32⟩ : BufTy).Contents (Elt F)),
    StableHlo.binary main_v70 main_arg12 main_v71 ((fun l r => Host.dotGeneral dot_S50000x80_S80x128_S50000x128_1_0_0_1_n_n none l r) : (⟨S50000x80, .f32⟩ : BufTy).Contents (Elt F) → (⟨S80x128, .f32⟩ : BufTy).Contents (Elt F) → (⟨S50000x128, .f32⟩ : BufTy).Contents (Elt F)),
    StableHlo.nullary main_c_20 (constantI S_ 32 0#32),
    StableHlo.unary main_c_20 main_v72 (broadcastInDim S50000x4 ![] bcast_S_S50000x4 : (⟨S_, .i32⟩ : BufTy).Contents (Elt F) → (⟨S50000x4, .i32⟩ : BufTy).Contents (Elt F)),
    StableHlo.binary main_arg23 main_v72 main_v73 (cmpi .slt : (⟨S50000x4, .i32⟩ : BufTy).Contents (Elt F) → (⟨S50000x4, .i32⟩ : BufTy).Contents (Elt F) → (⟨S50000x4, .i1⟩ : BufTy).Contents (Elt F)),
    StableHlo.nullary main_c_21 (constantI S_ 32 200000#32),
    StableHlo.unary main_c_21 main_v74 (broadcastInDim S50000x4 ![] bcast_S_S50000x4 : (⟨S_, .i32⟩ : BufTy).Contents (Elt F) → (⟨S50000x4, .i32⟩ : BufTy).Contents (Elt F)),
    StableHlo.binary main_arg23 main_v74 main_v75 (addi : (⟨S50000x4, .i32⟩ : BufTy).Contents (Elt F) → (⟨S50000x4, .i32⟩ : BufTy).Contents (Elt F) → (⟨S50000x4, .i32⟩ : BufTy).Contents (Elt F)),
    StableHlo.ternary main_v73 main_v75 main_arg23 main_v76 (select : (⟨S50000x4, .i1⟩ : BufTy).Contents (Elt F) → (⟨S50000x4, .i32⟩ : BufTy).Contents (Elt F) → (⟨S50000x4, .i32⟩ : BufTy).Contents (Elt F) → (⟨S50000x4, .i32⟩ : BufTy).Contents (Elt F)),
    StableHlo.unary main_v76 main_v77 (broadcastInDim S50000x4x1 ![0, 1] bcast_S50000x4_S50000x4x1_0_1 : (⟨S50000x4, .i32⟩ : BufTy).Contents (Elt F) → (⟨S50000x4x1, .i32⟩ : BufTy).Contents (Elt F)),
    StableHlo.binary main_arg0 main_v77 main_v78 ((fun x i => Host.gather gather_S200000x64_S50000x4x1_S50000x4x64_2_0_n_n_0_2_164 x i) : (⟨S200000x64, .f32⟩ : BufTy).Contents (Elt F) → (⟨S50000x4x1, .i32⟩ : BufTy).Contents (Elt F) → (⟨S50000x4x64, .f32⟩ : BufTy).Contents (Elt F)),
    StableHlo.nullary main_cst_22 (constant S_ .f32 0x00000000#32),
    StableHlo.binary main_v78 main_cst_22 main_v79 ((fun x v => Host.reduceAdd x v reducesTo_S50000x4x64_S50000x64_d1 h_S_) : (⟨S50000x4x64, .f32⟩ : BufTy).Contents (Elt F) → (⟨S_, .f32⟩ : BufTy).Contents (Elt F) → (⟨S50000x64, .f32⟩ : BufTy).Contents (Elt F)),
    StableHlo.nullary main_c_23 (constantI S_ 32 0#32),
    StableHlo.unary main_c_23 main_v80 (broadcastInDim S50000x4 ![] bcast_S_S50000x4 : (⟨S_, .i32⟩ : BufTy).Contents (Elt F) → (⟨S50000x4, .i32⟩ : BufTy).Contents (Elt F)),
    StableHlo.binary main_arg27 main_v80 main_v81 (cmpi .slt : (⟨S50000x4, .i32⟩ : BufTy).Contents (Elt F) → (⟨S50000x4, .i32⟩ : BufTy).Contents (Elt F) → (⟨S50000x4, .i1⟩ : BufTy).Contents (Elt F)),
    StableHlo.nullary main_c_24 (constantI S_ 32 300000#32),
    StableHlo.unary main_c_24 main_v82 (broadcastInDim S50000x4 ![] bcast_S_S50000x4 : (⟨S_, .i32⟩ : BufTy).Contents (Elt F) → (⟨S50000x4, .i32⟩ : BufTy).Contents (Elt F)),
    StableHlo.binary main_arg27 main_v82 main_v83 (addi : (⟨S50000x4, .i32⟩ : BufTy).Contents (Elt F) → (⟨S50000x4, .i32⟩ : BufTy).Contents (Elt F) → (⟨S50000x4, .i32⟩ : BufTy).Contents (Elt F)),
    StableHlo.ternary main_v81 main_v83 main_arg27 main_v84 (select : (⟨S50000x4, .i1⟩ : BufTy).Contents (Elt F) → (⟨S50000x4, .i32⟩ : BufTy).Contents (Elt F) → (⟨S50000x4, .i32⟩ : BufTy).Contents (Elt F) → (⟨S50000x4, .i32⟩ : BufTy).Contents (Elt F)),
    StableHlo.unary main_v84 main_v85 (broadcastInDim S50000x4x1 ![0, 1] bcast_S50000x4_S50000x4x1_0_1 : (⟨S50000x4, .i32⟩ : BufTy).Contents (Elt F) → (⟨S50000x4x1, .i32⟩ : BufTy).Contents (Elt F)),
    StableHlo.binary main_arg1 main_v85 main_v86 ((fun x i => Host.gather gather_S300000x16_S50000x4x1_S50000x4x16_2_0_n_n_0_2_116 x i) : (⟨S300000x16, .f32⟩ : BufTy).Contents (Elt F) → (⟨S50000x4x1, .i32⟩ : BufTy).Contents (Elt F) → (⟨S50000x4x16, .f32⟩ : BufTy).Contents (Elt F)),
    StableHlo.nullary main_cst_25 (constant S_ .f32 0x00000000#32),
    StableHlo.binary main_v86 main_cst_25 main_v87 ((fun x v => Host.reduceAdd x v reducesTo_S50000x4x16_S50000x16_d1 h_S_) : (⟨S50000x4x16, .f32⟩ : BufTy).Contents (Elt F) → (⟨S_, .f32⟩ : BufTy).Contents (Elt F) → (⟨S50000x16, .f32⟩ : BufTy).Contents (Elt F)),
    StableHlo.binary main_v79 main_v87 main_v88 ((fun a b => concatenate S50000x80 1 [⟨S50000x64, a⟩, ⟨S50000x16, b⟩] concatenates_S50000x64_S50000x16_S50000x80_d1) : (⟨S50000x64, .f32⟩ : BufTy).Contents (Elt F) → (⟨S50000x16, .f32⟩ : BufTy).Contents (Elt F) → (⟨S50000x80, .f32⟩ : BufTy).Contents (Elt F)),
    StableHlo.binary main_v88 main_arg13 main_v89 ((fun l r => Host.dotGeneral dot_S50000x80_S80x128_S50000x128_1_0_0_1_n_n none l r) : (⟨S50000x80, .f32⟩ : BufTy).Contents (Elt F) → (⟨S80x128, .f32⟩ : BufTy).Contents (Elt F) → (⟨S50000x128, .f32⟩ : BufTy).Contents (Elt F)),
    StableHlo.nary ![main_v35, main_v53, main_v71, main_v89] main_v90 (fun u => concatenate S200000x128 0 [⟨S50000x128, u 0⟩, ⟨S50000x128, u 1⟩, ⟨S50000x128, u 2⟩, ⟨S50000x128, u 3⟩] concatenates_S50000x128_S50000x128_S50000x128_S50000x128_S200000x128_d0),
    StableHlo.binary main_arg0 main_arg8 main_v91 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)) ]

set_option maxHeartbeats 4000000 in

abbrev ops2 : List (HloOp τ sig (Elt F)) :=
  [ StableHlo.binary main_v91 main_v90 main_v92 (addf : (⟨S200000x128, .f32⟩ : BufTy).Contents (Elt F) → (⟨S200000x128, .f32⟩ : BufTy).Contents (Elt F) → (⟨S200000x128, .f32⟩ : BufTy).Contents (Elt F)),
    StableHlo.unary main_arg9 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S200000x128 ![0, 1] bcast_S1x128_S200000x128_0_1 : (⟨S1x128, .f32⟩ : BufTy).Contents (Elt F) → (⟨S200000x128, .f32⟩ : BufTy).Contents (Elt F)),
    StableHlo.binary main_v92 main_v94 main_v95 (addf : (⟨S200000x128, .f32⟩ : BufTy).Contents (Elt F) → (⟨S200000x128, .f32⟩ : BufTy).Contents (Elt F) → (⟨S200000x128, .f32⟩ : BufTy).Contents (Elt F)),
    StableHlo.nullary main_cst_26 (constant S_ .f32 0x00000000#32),
    StableHlo.binary main_v95 main_cst_26 main_v96 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_27 (constant S_ .f32 0x48435000#32),
    StableHlo.unary main_cst_27 main_v97 (broadcastInDim S128 ![] bcast_S_S128 : (⟨S_, .f32⟩ : BufTy).Contents (Elt F) → (⟨S128, .f32⟩ : BufTy).Contents (Elt F)),
    StableHlo.binary main_v96 main_v97 main_v98 (Host.divf : (⟨S128, .f32⟩ : BufTy).Contents (Elt F) → (⟨S128, .f32⟩ : BufTy).Contents (Elt F) → (⟨S128, .f32⟩ : BufTy).Contents (Elt F)),
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S200000x128 ![0, 1] bcast_S1x128_S200000x128_0_1 : (⟨S1x128, .f32⟩ : BufTy).Contents (Elt F) → (⟨S200000x128, .f32⟩ : BufTy).Contents (Elt F)),
    StableHlo.binary main_v95 main_v100 main_v101 (subf : (⟨S200000x128, .f32⟩ : BufTy).Contents (Elt F) → (⟨S200000x128, .f32⟩ : BufTy).Contents (Elt F) → (⟨S200000x128, .f32⟩ : BufTy).Contents (Elt F)),
    StableHlo.nullary main_c_28 (constantI S_ 32 0#32),
    StableHlo.TRef.nullary main_call0.cst (constant S_ .f32 0x00000000#32),
    StableHlo.TRef.binary (.of main_v95 : StableHlo.TRef sig ⟨S200000x128, .f32⟩) main_call0.cst main_call0.v0 (fun x v => Host.reduceAdd x v reducesTo_S200000x128_S128_d0 h_S_),
    StableHlo.TRef.unary main_call0.v0 main_call0.v1 (broadcastInDim S1x128 ![1] bcast_S128_S1x128_1),
    StableHlo.TRef.nullary main_call0.cst_0 (constant S_ .f32 0x48435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S200000x128 ![0, 1] bcast_S1x128_S200000x128_0_1),
    StableHlo.TRef.binary (.of main_v95 : StableHlo.TRef sig ⟨S200000x128, .f32⟩) main_call0.v4 main_call0.v5 subf,
    StableHlo.TRef.binary main_call0.v5 main_call0.v5 main_call0.v6 mulf,
    StableHlo.TRef.unary (.of main_c_28 : StableHlo.TRef sig ⟨S_, .i32⟩) main_call0.v7 (sitofp .f32),
    StableHlo.TRef.nullary main_call0.cst_1 (constant S_ .f32 0x48435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S200000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.nullary main_cst_29 (constant S_ .f32 0x3727C5AC#32),
    StableHlo.unary main_cst_29 main_v103 (broadcastInDim S128 ![] bcast_S_S128 : (⟨S_, .f32⟩ : BufTy).Contents (Elt F) → (⟨S128, .f32⟩ : BufTy).Contents (Elt F)),
    StableHlo.binary main_v102 main_v103 main_v104 (addf : (⟨S128, .f32⟩ : BufTy).Contents (Elt F) → (⟨S128, .f32⟩ : BufTy).Contents (Elt F) → (⟨S128, .f32⟩ : BufTy).Contents (Elt F)),
    StableHlo.unary main_v104 main_v105 (Host.rsqrt : (⟨S128, .f32⟩ : BufTy).Contents (Elt F) → (⟨S128, .f32⟩ : BufTy).Contents (Elt F)),
    StableHlo.unary main_v105 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S200000x128 ![0, 1] bcast_S1x128_S200000x128_0_1 : (⟨S1x128, .f32⟩ : BufTy).Contents (Elt F) → (⟨S200000x128, .f32⟩ : BufTy).Contents (Elt F)),
    StableHlo.binary main_v101 main_v107 main_v108 (mulf : (⟨S200000x128, .f32⟩ : BufTy).Contents (Elt F) → (⟨S200000x128, .f32⟩ : BufTy).Contents (Elt F) → (⟨S200000x128, .f32⟩ : BufTy).Contents (Elt F)),
    StableHlo.TRef.nullary main_call1.cst (constant S_ .f32 0x00000000#32),
    StableHlo.TRef.unary main_call1.cst main_call1.v0 (broadcastInDim S200000x128 ![] bcast_S_S200000x128),
    StableHlo.TRef.binary (.of main_v108 : StableHlo.TRef sig ⟨S200000x128, .f32⟩) main_call1.v0 main_call1.v1 maximumf,
    StableHlo.binary main_v109 main_arg4 main_v110 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_arg5 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S200000x128 ![0, 1] bcast_S1x128_S200000x128_0_1 : (⟨S1x128, .f32⟩ : BufTy).Contents (Elt F) → (⟨S200000x128, .f32⟩ : BufTy).Contents (Elt F)),
    StableHlo.binary main_v110 main_v112 main_v113 (addf : (⟨S200000x128, .f32⟩ : BufTy).Contents (Elt F) → (⟨S200000x128, .f32⟩ : BufTy).Contents (Elt F) → (⟨S200000x128, .f32⟩ : BufTy).Contents (Elt F)),
    StableHlo.nullary main_cst_30 (constant S_ .f32 0xFF800000#32),
    StableHlo.binary main_v113 main_cst_30 main_v114 ((fun x v => Host.reduce FloatOps.maximumf x v reducesTo_S200000x128_S200000_d1 h_S_) : (⟨S200000x128, .f32⟩ : BufTy).Contents (Elt F) → (⟨S_, .f32⟩ : BufTy).Contents (Elt F) → (⟨S200000, .f32⟩ : BufTy).Contents (Elt F)),
    StableHlo.nullary main_cst_31 (constant S_ .f32 0xFF800000#32),
    StableHlo.unary main_cst_31 main_v115 (broadcastInDim S200000 ![] bcast_S_S200000 : (⟨S_, .f32⟩ : BufTy).Contents (Elt F) → (⟨S200000, .f32⟩ : BufTy).Contents (Elt F)),
    StableHlo.binary main_v115 main_v114 main_v116 (maximumf : (⟨S200000, .f32⟩ : BufTy).Contents (Elt F) → (⟨S200000, .f32⟩ : BufTy).Contents (Elt F) → (⟨S200000, .f32⟩ : BufTy).Contents (Elt F)),
    StableHlo.unary main_v116 main_v117 (broadcastInDim S200000x1 ![0] bcast_S200000_S200000x1_0 : (⟨S200000, .f32⟩ : BufTy).Contents (Elt F) → (⟨S200000x1, .f32⟩ : BufTy).Contents (Elt F)),
    StableHlo.unary main_v117 main_v118 (broadcastInDim S200000x128 ![0, 1] bcast_S200000x1_S200000x128_0_1 : (⟨S200000x1, .f32⟩ : BufTy).Contents (Elt F) → (⟨S200000x128, .f32⟩ : BufTy).Contents (Elt F)),
    StableHlo.binary main_v113 main_v118 main_v119 (subf : (⟨S200000x128, .f32⟩ : BufTy).Contents (Elt F) → (⟨S200000x128, .f32⟩ : BufTy).Contents (Elt F) → (⟨S200000x128, .f32⟩ : BufTy).Contents (Elt F)),
    StableHlo.unary main_v119 main_v120 (Host.exp : (⟨S200000x128, .f32⟩ : BufTy).Contents (Elt F) → (⟨S200000x128, .f32⟩ : BufTy).Contents (Elt F)),
    StableHlo.nullary main_cst_32 (constant S_ .f32 0x00000000#32),
    StableHlo.binary main_v120 main_cst_32 main_v121 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)),
    StableHlo.unary main_v121 main_v122 (broadcastInDim S200000x1 ![0] bcast_S200000_S200000x1_0 : (⟨S200000, .f32⟩ : BufTy).Contents (Elt F) → (⟨S200000x1, .f32⟩ : BufTy).Contents (Elt F)),
    StableHlo.unary main_v122 main_v123 (broadcastInDim S200000x128 ![0, 1] bcast_S200000x1_S200000x128_0_1 : (⟨S200000x1, .f32⟩ : BufTy).Contents (Elt F) → (⟨S200000x128, .f32⟩ : BufTy).Contents (Elt F)),
    StableHlo.binary main_v120 main_v123 main_v124 (Host.divf : (⟨S200000x128, .f32⟩ : BufTy).Contents (Elt F) → (⟨S200000x128, .f32⟩ : BufTy).Contents (Elt F) → (⟨S200000x128, .f32⟩ : BufTy).Contents (Elt F)),
    StableHlo.nullary main_cst_33 (constant S_ .f32 0x00000000#32),
    StableHlo.unary main_cst_33 main_v125 (broadcastInDim S8192x128 ![] bcast_S_S8192x128 : (⟨S_, .f32⟩ : BufTy).Contents (Elt F) → (⟨S8192x128, .f32⟩ : BufTy).Contents (Elt F)),
    StableHlo.unary main_arg28 main_v126 (broadcastInDim S200000x1 ![0] bcast_S200000_S200000x1_0 : (⟨S200000, .i32⟩ : BufTy).Contents (Elt F) → (⟨S200000x1, .i32⟩ : BufTy).Contents (Elt F)),
    StableHlo.ternary main_v125 main_v126 main_v124 main_v127 ((fun x i u => Host.scatterAdd scatter_S8192x128_S200000x1_S200000x128_1_0_0_1 x i u) : (⟨S8192x128, .f32⟩ : BufTy).Contents (Elt F) → (⟨S200000x1, .i32⟩ : BufTy).Contents (Elt F) → (⟨S200000x128, .f32⟩ : BufTy).Contents (Elt F) → (⟨S8192x128, .f32⟩ : BufTy).Contents (Elt F)),
    StableHlo.binary main_v17 main_v127 main_v128 (addf : (⟨S8192x128, .f32⟩ : BufTy).Contents (Elt F) → (⟨S8192x128, .f32⟩ : BufTy).Contents (Elt F) → (⟨S8192x128, .f32⟩ : BufTy).Contents (Elt F)),
    StableHlo.nullary main_c_34 (constantI S_ 32 0#32),
    StableHlo.unary main_c_34 main_v129 (broadcastInDim S50000x1 ![] bcast_S_S50000x1 : (⟨S_, .i32⟩ : BufTy).Contents (Elt F) → (⟨S50000x1, .i32⟩ : BufTy).Contents (Elt F)),
    StableHlo.binary main_arg20 main_v129 main_v130 (cmpi .slt : (⟨S50000x1, .i32⟩ : BufTy).Contents (Elt F) → (⟨S50000x1, .i32⟩ : BufTy).Contents (Elt F) → (⟨S50000x1, .i1⟩ : BufTy).Contents (Elt F)),
    StableHlo.nullary main_c_35 (constantI S_ 32 200000#32),
    StableHlo.unary main_c_35 main_v131 (broadcastInDim S50000x1 ![] bcast_S_S50000x1 : (⟨S_, .i32⟩ : BufTy).Contents (Elt F) → (⟨S50000x1, .i32⟩ : BufTy).Contents (Elt F)),
    StableHlo.binary main_arg20 main_v131 main_v132 (addi : (⟨S50000x1, .i32⟩ : BufTy).Contents (Elt F) → (⟨S50000x1, .i32⟩ : BufTy).Contents (Elt F) → (⟨S50000x1, .i32⟩ : BufTy).Contents (Elt F)),
    StableHlo.ternary main_v130 main_v132 main_arg20 main_v133 (select : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    StableHlo.unary main_v133 main_v134 (broadcastInDim S50000x1x1 ![0, 1] bcast_S50000x1_S50000x1x1_0_1 : (⟨S50000x1, .i32⟩ : BufTy).Contents (Elt F) → (⟨S50000x1x1, .i32⟩ : BufTy).Contents (Elt F)),
    StableHlo.binary main_v109 main_v134 main_v135 ((fun x i => Host.gather gather_S200000x128_S50000x1x1_S50000x1x128_2_0_n_n_0_2_1128 x i) : (⟨S200000x128, .f32⟩ : BufTy).Contents (Elt F) → (⟨S50000x1x1, .i32⟩ : BufTy).Contents (Elt F) → (⟨S50000x1x128, .f32⟩ : BufTy).Contents (Elt F)),
    StableHlo.nullary main_cst_36 (constant S_ .f32 0x00000000#32),
    StableHlo.binary main_v135 main_cst_36 main_v136 ((fun x v => Host.reduceAdd x v reducesTo_S50000x1x128_S50000x128_d1 h_S_) : (⟨S50000x1x128, .f32⟩ : BufTy).Contents (Elt F) → (⟨S_, .f32⟩ : BufTy).Contents (Elt F) → (⟨S50000x128, .f32⟩ : BufTy).Contents (Elt F)),
    StableHlo.nullary main_c_37 (constantI S_ 32 0#32),
    StableHlo.unary main_c_37 main_v137 (broadcastInDim S50000x1 ![] bcast_S_S50000x1 : (⟨S_, .i32⟩ : BufTy).Contents (Elt F) → (⟨S50000x1, .i32⟩ : BufTy).Contents (Elt F)),
    StableHlo.binary main_arg24 main_v137 main_v138 (cmpi .slt : (⟨S50000x1, .i32⟩ : BufTy).Contents (Elt F) → (⟨S50000x1, .i32⟩ : BufTy).Contents (Elt F) → (⟨S50000x1, .i1⟩ : BufTy).Contents (Elt F)),
    StableHlo.nullary main_c_38 (constantI S_ 32 300000#32) ]

set_option maxHeartbeats 4000000 in

abbrev ops3 : List (HloOp τ sig (Elt F)) :=
  [ StableHlo.unary main_c_38 main_v139 (broadcastInDim S50000x1 ![] bcast_S_S50000x1 : (⟨S_, .i32⟩ : BufTy).Contents (Elt F) → (⟨S50000x1, .i32⟩ : BufTy).Contents (Elt F)),
    StableHlo.binary main_arg24 main_v139 main_v140 (addi : (⟨S50000x1, .i32⟩ : BufTy).Contents (Elt F) → (⟨S50000x1, .i32⟩ : BufTy).Contents (Elt F) → (⟨S50000x1, .i32⟩ : BufTy).Contents (Elt F)),
    StableHlo.ternary main_v138 main_v140 main_arg24 main_v141 (select : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    StableHlo.unary main_v141 main_v142 (broadcastInDim S50000x1x1 ![0, 1] bcast_S50000x1_S50000x1x1_0_1 : (⟨S50000x1, .i32⟩ : BufTy).Contents (Elt F) → (⟨S50000x1x1, .i32⟩ : BufTy).Contents (Elt F)),
    StableHlo.binary main_arg1 main_v142 main_v143 ((fun x i => Host.gather gather_S300000x16_S50000x1x1_S50000x1x16_2_0_n_n_0_2_116 x i) : (⟨S300000x16, .f32⟩ : BufTy).Contents (Elt F) → (⟨S50000x1x1, .i32⟩ : BufTy).Contents (Elt F) → (⟨S50000x1x16, .f32⟩ : BufTy).Contents (Elt F)),
    StableHlo.nullary main_cst_39 (constant S_ .f32 0x00000000#32),
    StableHlo.binary main_v143 main_cst_39 main_v144 ((fun x v => Host.reduceAdd x v reducesTo_S50000x1x16_S50000x16_d1 h_S_) : (⟨S50000x1x16, .f32⟩ : BufTy).Contents (Elt F) → (⟨S_, .f32⟩ : BufTy).Contents (Elt F) → (⟨S50000x16, .f32⟩ : BufTy).Contents (Elt F)),
    StableHlo.binary main_v136 main_v144 main_v145 ((fun a b => concatenate S50000x144 1 [⟨S50000x128, a⟩, ⟨S50000x16, b⟩] concatenates_S50000x128_S50000x16_S50000x144_d1) : (⟨S50000x128, .f32⟩ : BufTy).Contents (Elt F) → (⟨S50000x16, .f32⟩ : BufTy).Contents (Elt F) → (⟨S50000x144, .f32⟩ : BufTy).Contents (Elt F)),
    StableHlo.binary main_v145 main_arg16 main_v146 ((fun l r => Host.dotGeneral dot_S50000x144_S144x128_S50000x128_1_0_0_1_n_n none l r) : (⟨S50000x144, .f32⟩ : BufTy).Contents (Elt F) → (⟨S144x128, .f32⟩ : BufTy).Contents (Elt F) → (⟨S50000x128, .f32⟩ : BufTy).Contents (Elt F)),
    StableHlo.nullary main_c_40 (constantI S_ 32 0#32),
    StableHlo.unary main_c_40 main_v147 (broadcastInDim S50000x2 ![] bcast_S_S50000x2 : (⟨S_, .i32⟩ : BufTy).Contents (Elt F) → (⟨S50000x2, .i32⟩ : BufTy).Contents (Elt F)),
    StableHlo.binary main_arg21 main_v147 main_v148 (cmpi .slt : (⟨S50000x2, .i32⟩ : BufTy).Contents (Elt F) → (⟨S50000x2, .i32⟩ : BufTy).Contents (Elt F) → (⟨S50000x2, .i1⟩ : BufTy).Contents (Elt F)),
    StableHlo.nullary main_c_41 (constantI S_ 32 200000#32),
    StableHlo.unary main_c_41 main_v149 (broadcastInDim S50000x2 ![] bcast_S_S50000x2 : (⟨S_, .i32⟩ : BufTy).Contents (Elt F) → (⟨S50000x2, .i32⟩ : BufTy).Contents (Elt F)),
    StableHlo.binary main_arg21 main_v149 main_v150 (addi : (⟨S50000x2, .i32⟩ : BufTy).Contents (Elt F) → (⟨S50000x2, .i32⟩ : BufTy).Contents (Elt F) → (⟨S50000x2, .i32⟩ : BufTy).Contents (Elt F)),
    StableHlo.ternary main_v148 main_v150 main_arg21 main_v151 (select : (⟨S50000x2, .i1⟩ : BufTy).Contents (Elt F) → (⟨S50000x2, .i32⟩ : BufTy).Contents (Elt F) → (⟨S50000x2, .i32⟩ : BufTy).Contents (Elt F) → (⟨S50000x2, .i32⟩ : BufTy).Contents (Elt F)),
    StableHlo.unary main_v151 main_v152 (broadcastInDim S50000x2x1 ![0, 1] bcast_S50000x2_S50000x2x1_0_1 : (⟨S50000x2, .i32⟩ : BufTy).Contents (Elt F) → (⟨S50000x2x1, .i32⟩ : BufTy).Contents (Elt F)),
    StableHlo.binary main_v109 main_v152 main_v153 ((fun x i => Host.gather gather_S200000x128_S50000x2x1_S50000x2x128_2_0_n_n_0_2_1128 x i) : (⟨S200000x128, .f32⟩ : BufTy).Contents (Elt F) → (⟨S50000x2x1, .i32⟩ : BufTy).Contents (Elt F) → (⟨S50000x2x128, .f32⟩ : BufTy).Contents (Elt F)),
    StableHlo.nullary main_cst_42 (constant S_ .f32 0x00000000#32),
    StableHlo.binary main_v153 main_cst_42 main_v154 ((fun x v => Host.reduceAdd x v reducesTo_S50000x2x128_S50000x128_d1 h_S_) : (⟨S50000x2x128, .f32⟩ : BufTy).Contents (Elt F) → (⟨S_, .f32⟩ : BufTy).Contents (Elt F) → (⟨S50000x128, .f32⟩ : BufTy).Contents (Elt F)),
    StableHlo.nullary main_c_43 (constantI S_ 32 0#32),
    StableHlo.unary main_c_43 main_v155 (broadcastInDim S50000x2 ![] bcast_S_S50000x2 : (⟨S_, .i32⟩ : BufTy).Contents (Elt F) → (⟨S50000x2, .i32⟩ : BufTy).Contents (Elt F)),
    StableHlo.binary main_arg25 main_v155 main_v156 (cmpi .slt : (⟨S50000x2, .i32⟩ : BufTy).Contents (Elt F) → (⟨S50000x2, .i32⟩ : BufTy).Contents (Elt F) → (⟨S50000x2, .i1⟩ : BufTy).Contents (Elt F)),
    StableHlo.nullary main_c_44 (constantI S_ 32 300000#32),
    StableHlo.unary main_c_44 main_v157 (broadcastInDim S50000x2 ![] bcast_S_S50000x2 : (⟨S_, .i32⟩ : BufTy).Contents (Elt F) → (⟨S50000x2, .i32⟩ : BufTy).Contents (Elt F)),
    StableHlo.binary main_arg25 main_v157 main_v158 (addi : (⟨S50000x2, .i32⟩ : BufTy).Contents (Elt F) → (⟨S50000x2, .i32⟩ : BufTy).Contents (Elt F) → (⟨S50000x2, .i32⟩ : BufTy).Contents (Elt F)),
    StableHlo.ternary main_v156 main_v158 main_arg25 main_v159 (select : (⟨S50000x2, .i1⟩ : BufTy).Contents (Elt F) → (⟨S50000x2, .i32⟩ : BufTy).Contents (Elt F) → (⟨S50000x2, .i32⟩ : BufTy).Contents (Elt F) → (⟨S50000x2, .i32⟩ : BufTy).Contents (Elt F)),
    StableHlo.unary main_v159 main_v160 (broadcastInDim S50000x2x1 ![0, 1] bcast_S50000x2_S50000x2x1_0_1 : (⟨S50000x2, .i32⟩ : BufTy).Contents (Elt F) → (⟨S50000x2x1, .i32⟩ : BufTy).Contents (Elt F)),
    StableHlo.binary main_arg1 main_v160 main_v161 ((fun x i => Host.gather gather_S300000x16_S50000x2x1_S50000x2x16_2_0_n_n_0_2_116 x i) : (⟨S300000x16, .f32⟩ : BufTy).Contents (Elt F) → (⟨S50000x2x1, .i32⟩ : BufTy).Contents (Elt F) → (⟨S50000x2x16, .f32⟩ : BufTy).Contents (Elt F)),
    StableHlo.nullary main_cst_45 (constant S_ .f32 0x00000000#32),
    StableHlo.binary main_v161 main_cst_45 main_v162 ((fun x v => Host.reduceAdd x v reducesTo_S50000x2x16_S50000x16_d1 h_S_) : (⟨S50000x2x16, .f32⟩ : BufTy).Contents (Elt F) → (⟨S_, .f32⟩ : BufTy).Contents (Elt F) → (⟨S50000x16, .f32⟩ : BufTy).Contents (Elt F)),
    StableHlo.binary main_v154 main_v162 main_v163 ((fun a b => concatenate S50000x144 1 [⟨S50000x128, a⟩, ⟨S50000x16, b⟩] concatenates_S50000x128_S50000x16_S50000x144_d1) : (⟨S50000x128, .f32⟩ : BufTy).Contents (Elt F) → (⟨S50000x16, .f32⟩ : BufTy).Contents (Elt F) → (⟨S50000x144, .f32⟩ : BufTy).Contents (Elt F)),
    StableHlo.binary main_v163 main_arg17 main_v164 ((fun l r => Host.dotGeneral dot_S50000x144_S144x128_S50000x128_1_0_0_1_n_n none l r) : (⟨S50000x144, .f32⟩ : BufTy).Contents (Elt F) → (⟨S144x128, .f32⟩ : BufTy).Contents (Elt F) → (⟨S50000x128, .f32⟩ : BufTy).Contents (Elt F)),
    StableHlo.nullary main_c_46 (constantI S_ 32 0#32),
    StableHlo.unary main_c_46 main_v165 (broadcastInDim S50000x3 ![] bcast_S_S50000x3 : (⟨S_, .i32⟩ : BufTy).Contents (Elt F) → (⟨S50000x3, .i32⟩ : BufTy).Contents (Elt F)),
    StableHlo.binary main_arg22 main_v165 main_v166 (cmpi .slt : (⟨S50000x3, .i32⟩ : BufTy).Contents (Elt F) → (⟨S50000x3, .i32⟩ : BufTy).Contents (Elt F) → (⟨S50000x3, .i1⟩ : BufTy).Contents (Elt F)),
    StableHlo.nullary main_c_47 (constantI S_ 32 200000#32),
    StableHlo.unary main_c_47 main_v167 (broadcastInDim S50000x3 ![] bcast_S_S50000x3 : (⟨S_, .i32⟩ : BufTy).Contents (Elt F) → (⟨S50000x3, .i32⟩ : BufTy).Contents (Elt F)),
    StableHlo.binary main_arg22 main_v167 main_v168 (addi : (⟨S50000x3, .i32⟩ : BufTy).Contents (Elt F) → (⟨S50000x3, .i32⟩ : BufTy).Contents (Elt F) → (⟨S50000x3, .i32⟩ : BufTy).Contents (Elt F)),
    StableHlo.ternary main_v166 main_v168 main_arg22 main_v169 (select : (⟨S50000x3, .i1⟩ : BufTy).Contents (Elt F) → (⟨S50000x3, .i32⟩ : BufTy).Contents (Elt F) → (⟨S50000x3, .i32⟩ : BufTy).Contents (Elt F) → (⟨S50000x3, .i32⟩ : BufTy).Contents (Elt F)),
    StableHlo.unary main_v169 main_v170 (broadcastInDim S50000x3x1 ![0, 1] bcast_S50000x3_S50000x3x1_0_1 : (⟨S50000x3, .i32⟩ : BufTy).Contents (Elt F) → (⟨S50000x3x1, .i32⟩ : BufTy).Contents (Elt F)),
    StableHlo.binary main_v109 main_v170 main_v171 ((fun x i => Host.gather gather_S200000x128_S50000x3x1_S50000x3x128_2_0_n_n_0_2_1128 x i) : (⟨S200000x128, .f32⟩ : BufTy).Contents (Elt F) → (⟨S50000x3x1, .i32⟩ : BufTy).Contents (Elt F) → (⟨S50000x3x128, .f32⟩ : BufTy).Contents (Elt F)),
    StableHlo.nullary main_cst_48 (constant S_ .f32 0x00000000#32),
    StableHlo.binary main_v171 main_cst_48 main_v172 ((fun x v => Host.reduceAdd x v reducesTo_S50000x3x128_S50000x128_d1 h_S_) : (⟨S50000x3x128, .f32⟩ : BufTy).Contents (Elt F) → (⟨S_, .f32⟩ : BufTy).Contents (Elt F) → (⟨S50000x128, .f32⟩ : BufTy).Contents (Elt F)),
    StableHlo.nullary main_c_49 (constantI S_ 32 0#32),
    StableHlo.unary main_c_49 main_v173 (broadcastInDim S50000x3 ![] bcast_S_S50000x3 : (⟨S_, .i32⟩ : BufTy).Contents (Elt F) → (⟨S50000x3, .i32⟩ : BufTy).Contents (Elt F)),
    StableHlo.binary main_arg26 main_v173 main_v174 (cmpi .slt : (⟨S50000x3, .i32⟩ : BufTy).Contents (Elt F) → (⟨S50000x3, .i32⟩ : BufTy).Contents (Elt F) → (⟨S50000x3, .i1⟩ : BufTy).Contents (Elt F)),
    StableHlo.nullary main_c_50 (constantI S_ 32 300000#32),
    StableHlo.unary main_c_50 main_v175 (broadcastInDim S50000x3 ![] bcast_S_S50000x3 : (⟨S_, .i32⟩ : BufTy).Contents (Elt F) → (⟨S50000x3, .i32⟩ : BufTy).Contents (Elt F)),
    StableHlo.binary main_arg26 main_v175 main_v176 (addi : (⟨S50000x3, .i32⟩ : BufTy).Contents (Elt F) → (⟨S50000x3, .i32⟩ : BufTy).Contents (Elt F) → (⟨S50000x3, .i32⟩ : BufTy).Contents (Elt F)),
    StableHlo.ternary main_v174 main_v176 main_arg26 main_v177 (select : (⟨S50000x3, .i1⟩ : BufTy).Contents (Elt F) → (⟨S50000x3, .i32⟩ : BufTy).Contents (Elt F) → (⟨S50000x3, .i32⟩ : BufTy).Contents (Elt F) → (⟨S50000x3, .i32⟩ : BufTy).Contents (Elt F)),
    StableHlo.unary main_v177 main_v178 (broadcastInDim S50000x3x1 ![0, 1] bcast_S50000x3_S50000x3x1_0_1 : (⟨S50000x3, .i32⟩ : BufTy).Contents (Elt F) → (⟨S50000x3x1, .i32⟩ : BufTy).Contents (Elt F)),
    StableHlo.binary main_arg1 main_v178 main_v179 ((fun x i => Host.gather gather_S300000x16_S50000x3x1_S50000x3x16_2_0_n_n_0_2_116 x i) : (⟨S300000x16, .f32⟩ : BufTy).Contents (Elt F) → (⟨S50000x3x1, .i32⟩ : BufTy).Contents (Elt F) → (⟨S50000x3x16, .f32⟩ : BufTy).Contents (Elt F)),
    StableHlo.nullary main_cst_51 (constant S_ .f32 0x00000000#32),
    StableHlo.binary main_v179 main_cst_51 main_v180 ((fun x v => Host.reduceAdd x v reducesTo_S50000x3x16_S50000x16_d1 h_S_) : (⟨S50000x3x16, .f32⟩ : BufTy).Contents (Elt F) → (⟨S_, .f32⟩ : BufTy).Contents (Elt F) → (⟨S50000x16, .f32⟩ : BufTy).Contents (Elt F)),
    StableHlo.binary main_v172 main_v180 main_v181 ((fun a b => concatenate S50000x144 1 [⟨S50000x128, a⟩, ⟨S50000x16, b⟩] concatenates_S50000x128_S50000x16_S50000x144_d1) : (⟨S50000x128, .f32⟩ : BufTy).Contents (Elt F) → (⟨S50000x16, .f32⟩ : BufTy).Contents (Elt F) → (⟨S50000x144, .f32⟩ : BufTy).Contents (Elt F)),
    StableHlo.binary main_v181 main_arg18 main_v182 ((fun l r => Host.dotGeneral dot_S50000x144_S144x128_S50000x128_1_0_0_1_n_n none l r) : (⟨S50000x144, .f32⟩ : BufTy).Contents (Elt F) → (⟨S144x128, .f32⟩ : BufTy).Contents (Elt F) → (⟨S50000x128, .f32⟩ : BufTy).Contents (Elt F)),
    StableHlo.nullary main_c_52 (constantI S_ 32 0#32),
    StableHlo.unary main_c_52 main_v183 (broadcastInDim S50000x4 ![] bcast_S_S50000x4 : (⟨S_, .i32⟩ : BufTy).Contents (Elt F) → (⟨S50000x4, .i32⟩ : BufTy).Contents (Elt F)),
    StableHlo.binary main_arg23 main_v183 main_v184 (cmpi .slt : (⟨S50000x4, .i32⟩ : BufTy).Contents (Elt F) → (⟨S50000x4, .i32⟩ : BufTy).Contents (Elt F) → (⟨S50000x4, .i1⟩ : BufTy).Contents (Elt F)) ]

set_option maxHeartbeats 4000000 in

abbrev ops4 : List (HloOp τ sig (Elt F)) :=
  [ StableHlo.nullary main_c_53 (constantI S_ 32 200000#32),
    StableHlo.unary main_c_53 main_v185 (broadcastInDim S50000x4 ![] bcast_S_S50000x4 : (⟨S_, .i32⟩ : BufTy).Contents (Elt F) → (⟨S50000x4, .i32⟩ : BufTy).Contents (Elt F)),
    StableHlo.binary main_arg23 main_v185 main_v186 (addi : (⟨S50000x4, .i32⟩ : BufTy).Contents (Elt F) → (⟨S50000x4, .i32⟩ : BufTy).Contents (Elt F) → (⟨S50000x4, .i32⟩ : BufTy).Contents (Elt F)),
    StableHlo.ternary main_v184 main_v186 main_arg23 main_v187 (select : (⟨S50000x4, .i1⟩ : BufTy).Contents (Elt F) → (⟨S50000x4, .i32⟩ : BufTy).Contents (Elt F) → (⟨S50000x4, .i32⟩ : BufTy).Contents (Elt F) → (⟨S50000x4, .i32⟩ : BufTy).Contents (Elt F)),
    StableHlo.unary main_v187 main_v188 (broadcastInDim S50000x4x1 ![0, 1] bcast_S50000x4_S50000x4x1_0_1 : (⟨S50000x4, .i32⟩ : BufTy).Contents (Elt F) → (⟨S50000x4x1, .i32⟩ : BufTy).Contents (Elt F)),
    StableHlo.binary main_v109 main_v188 main_v189 ((fun x i => Host.gather gather_S200000x128_S50000x4x1_S50000x4x128_2_0_n_n_0_2_1128 x i) : (⟨S200000x128, .f32⟩ : BufTy).Contents (Elt F) → (⟨S50000x4x1, .i32⟩ : BufTy).Contents (Elt F) → (⟨S50000x4x128, .f32⟩ : BufTy).Contents (Elt F)),
    StableHlo.nullary main_cst_54 (constant S_ .f32 0x00000000#32),
    StableHlo.binary main_v189 main_cst_54 main_v190 ((fun x v => Host.reduceAdd x v reducesTo_S50000x4x128_S50000x128_d1 h_S_) : (⟨S50000x4x128, .f32⟩ : BufTy).Contents (Elt F) → (⟨S_, .f32⟩ : BufTy).Contents (Elt F) → (⟨S50000x128, .f32⟩ : BufTy).Contents (Elt F)),
    StableHlo.nullary main_c_55 (constantI S_ 32 0#32),
    StableHlo.unary main_c_55 main_v191 (broadcastInDim S50000x4 ![] bcast_S_S50000x4 : (⟨S_, .i32⟩ : BufTy).Contents (Elt F) → (⟨S50000x4, .i32⟩ : BufTy).Contents (Elt F)),
    StableHlo.binary main_arg27 main_v191 main_v192 (cmpi .slt : (⟨S50000x4, .i32⟩ : BufTy).Contents (Elt F) → (⟨S50000x4, .i32⟩ : BufTy).Contents (Elt F) → (⟨S50000x4, .i1⟩ : BufTy).Contents (Elt F)),
    StableHlo.nullary main_c_56 (constantI S_ 32 300000#32),
    StableHlo.unary main_c_56 main_v193 (broadcastInDim S50000x4 ![] bcast_S_S50000x4 : (⟨S_, .i32⟩ : BufTy).Contents (Elt F) → (⟨S50000x4, .i32⟩ : BufTy).Contents (Elt F)),
    StableHlo.binary main_arg27 main_v193 main_v194 (addi : (⟨S50000x4, .i32⟩ : BufTy).Contents (Elt F) → (⟨S50000x4, .i32⟩ : BufTy).Contents (Elt F) → (⟨S50000x4, .i32⟩ : BufTy).Contents (Elt F)),
    StableHlo.ternary main_v192 main_v194 main_arg27 main_v195 (select : (⟨S50000x4, .i1⟩ : BufTy).Contents (Elt F) → (⟨S50000x4, .i32⟩ : BufTy).Contents (Elt F) → (⟨S50000x4, .i32⟩ : BufTy).Contents (Elt F) → (⟨S50000x4, .i32⟩ : BufTy).Contents (Elt F)),
    StableHlo.unary main_v195 main_v196 (broadcastInDim S50000x4x1 ![0, 1] bcast_S50000x4_S50000x4x1_0_1 : (⟨S50000x4, .i32⟩ : BufTy).Contents (Elt F) → (⟨S50000x4x1, .i32⟩ : BufTy).Contents (Elt F)),
    StableHlo.binary main_arg1 main_v196 main_v197 ((fun x i => Host.gather gather_S300000x16_S50000x4x1_S50000x4x16_2_0_n_n_0_2_116 x i) : (⟨S300000x16, .f32⟩ : BufTy).Contents (Elt F) → (⟨S50000x4x1, .i32⟩ : BufTy).Contents (Elt F) → (⟨S50000x4x16, .f32⟩ : BufTy).Contents (Elt F)),
    StableHlo.nullary main_cst_57 (constant S_ .f32 0x00000000#32),
    StableHlo.binary main_v197 main_cst_57 main_v198 ((fun x v => Host.reduceAdd x v reducesTo_S50000x4x16_S50000x16_d1 h_S_) : (⟨S50000x4x16, .f32⟩ : BufTy).Contents (Elt F) → (⟨S_, .f32⟩ : BufTy).Contents (Elt F) → (⟨S50000x16, .f32⟩ : BufTy).Contents (Elt F)),
    StableHlo.binary main_v190 main_v198 main_v199 ((fun a b => concatenate S50000x144 1 [⟨S50000x128, a⟩, ⟨S50000x16, b⟩] concatenates_S50000x128_S50000x16_S50000x144_d1) : (⟨S50000x128, .f32⟩ : BufTy).Contents (Elt F) → (⟨S50000x16, .f32⟩ : BufTy).Contents (Elt F) → (⟨S50000x144, .f32⟩ : BufTy).Contents (Elt F)),
    StableHlo.binary main_v199 main_arg19 main_v200 ((fun l r => Host.dotGeneral dot_S50000x144_S144x128_S50000x128_1_0_0_1_n_n none l r) : (⟨S50000x144, .f32⟩ : BufTy).Contents (Elt F) → (⟨S144x128, .f32⟩ : BufTy).Contents (Elt F) → (⟨S50000x128, .f32⟩ : BufTy).Contents (Elt F)),
    StableHlo.nary ![main_v146, main_v164, main_v182, main_v200] main_v201 (fun u => concatenate S200000x128 0 [⟨S50000x128, u 0⟩, ⟨S50000x128, u 1⟩, ⟨S50000x128, u 2⟩, ⟨S50000x128, u 3⟩] concatenates_S50000x128_S50000x128_S50000x128_S50000x128_S200000x128_d0),
    StableHlo.binary main_v109 main_arg14 main_v202 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v202 main_v201 main_v203 (addf : (⟨S200000x128, .f32⟩ : BufTy).Contents (Elt F) → (⟨S200000x128, .f32⟩ : BufTy).Contents (Elt F) → (⟨S200000x128, .f32⟩ : BufTy).Contents (Elt F)),
    StableHlo.unary main_arg15 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S200000x128 ![0, 1] bcast_S1x128_S200000x128_0_1 : (⟨S1x128, .f32⟩ : BufTy).Contents (Elt F) → (⟨S200000x128, .f32⟩ : BufTy).Contents (Elt F)),
    StableHlo.binary main_v203 main_v205 main_v206 (addf : (⟨S200000x128, .f32⟩ : BufTy).Contents (Elt F) → (⟨S200000x128, .f32⟩ : BufTy).Contents (Elt F) → (⟨S200000x128, .f32⟩ : BufTy).Contents (Elt F)),
    StableHlo.nullary main_cst_58 (constant S_ .f32 0x00000000#32),
    StableHlo.binary main_v206 main_cst_58 main_v207 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_59 (constant S_ .f32 0x48435000#32),
    StableHlo.unary main_cst_59 main_v208 (broadcastInDim S128 ![] bcast_S_S128 : (⟨S_, .f32⟩ : BufTy).Contents (Elt F) → (⟨S128, .f32⟩ : BufTy).Contents (Elt F)),
    StableHlo.binary main_v207 main_v208 main_v209 (Host.divf : (⟨S128, .f32⟩ : BufTy).Contents (Elt F) → (⟨S128, .f32⟩ : BufTy).Contents (Elt F) → (⟨S128, .f32⟩ : BufTy).Contents (Elt F)),
    StableHlo.unary main_v209 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S200000x128 ![0, 1] bcast_S1x128_S200000x128_0_1 : (⟨S1x128, .f32⟩ : BufTy).Contents (Elt F) → (⟨S200000x128, .f32⟩ : BufTy).Contents (Elt F)),
    StableHlo.binary main_v206 main_v211 main_v212 (subf : (⟨S200000x128, .f32⟩ : BufTy).Contents (Elt F) → (⟨S200000x128, .f32⟩ : BufTy).Contents (Elt F) → (⟨S200000x128, .f32⟩ : BufTy).Contents (Elt F)),
    StableHlo.nullary main_c_60 (constantI S_ 32 0#32),
    StableHlo.TRef.nullary main_call2.cst (constant S_ .f32 0x00000000#32),
    StableHlo.TRef.binary (.of main_v206 : StableHlo.TRef sig ⟨S200000x128, .f32⟩) main_call2.cst main_call2.v0 (fun x v => Host.reduceAdd x v reducesTo_S200000x128_S128_d0 h_S_),
    StableHlo.TRef.unary main_call2.v0 main_call2.v1 (broadcastInDim S1x128 ![1] bcast_S128_S1x128_1),
    StableHlo.TRef.nullary main_call2.cst_0 (constant S_ .f32 0x48435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S200000x128 ![0, 1] bcast_S1x128_S200000x128_0_1),
    StableHlo.TRef.binary (.of main_v206 : StableHlo.TRef sig ⟨S200000x128, .f32⟩) main_call2.v4 main_call2.v5 subf,
    StableHlo.TRef.binary main_call2.v5 main_call2.v5 main_call2.v6 mulf,
    StableHlo.TRef.unary (.of main_c_60 : StableHlo.TRef sig ⟨S_, .i32⟩) main_call2.v7 (sitofp .f32),
    StableHlo.TRef.nullary main_call2.cst_1 (constant S_ .f32 0x48435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S200000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.nullary main_cst_61 (constant S_ .f32 0x3727C5AC#32),
    StableHlo.unary main_cst_61 main_v214 (broadcastInDim S128 ![] bcast_S_S128 : (⟨S_, .f32⟩ : BufTy).Contents (Elt F) → (⟨S128, .f32⟩ : BufTy).Contents (Elt F)),
    StableHlo.binary main_v213 main_v214 main_v215 (addf : (⟨S128, .f32⟩ : BufTy).Contents (Elt F) → (⟨S128, .f32⟩ : BufTy).Contents (Elt F) → (⟨S128, .f32⟩ : BufTy).Contents (Elt F)),
    StableHlo.unary main_v215 main_v216 (Host.rsqrt : (⟨S128, .f32⟩ : BufTy).Contents (Elt F) → (⟨S128, .f32⟩ : BufTy).Contents (Elt F)),
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S200000x128 ![0, 1] bcast_S1x128_S200000x128_0_1 : (⟨S1x128, .f32⟩ : BufTy).Contents (Elt F) → (⟨S200000x128, .f32⟩ : BufTy).Contents (Elt F)),
    StableHlo.binary main_v212 main_v218 main_v219 (mulf : (⟨S200000x128, .f32⟩ : BufTy).Contents (Elt F) → (⟨S200000x128, .f32⟩ : BufTy).Contents (Elt F) → (⟨S200000x128, .f32⟩ : BufTy).Contents (Elt F)),
    StableHlo.TRef.nullary main_call3.cst (constant S_ .f32 0x00000000#32),
    StableHlo.TRef.unary main_call3.cst main_call3.v0 (broadcastInDim S200000x128 ![] bcast_S_S200000x128),
    StableHlo.TRef.binary (.of main_v219 : StableHlo.TRef sig ⟨S200000x128, .f32⟩) main_call3.v0 main_call3.v1 maximumf,
    StableHlo.binary main_v220 main_arg6 main_v221 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_arg7 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S200000x128 ![0, 1] bcast_S1x128_S200000x128_0_1 : (⟨S1x128, .f32⟩ : BufTy).Contents (Elt F) → (⟨S200000x128, .f32⟩ : BufTy).Contents (Elt F)),
    StableHlo.binary main_v221 main_v223 main_v224 (addf : (⟨S200000x128, .f32⟩ : BufTy).Contents (Elt F) → (⟨S200000x128, .f32⟩ : BufTy).Contents (Elt F) → (⟨S200000x128, .f32⟩ : BufTy).Contents (Elt F)),
    StableHlo.nullary main_cst_62 (constant S_ .f32 0xFF800000#32),
    StableHlo.binary main_v224 main_cst_62 main_v225 ((fun x v => Host.reduce FloatOps.maximumf x v reducesTo_S200000x128_S200000_d1 h_S_) : (⟨S200000x128, .f32⟩ : BufTy).Contents (Elt F) → (⟨S_, .f32⟩ : BufTy).Contents (Elt F) → (⟨S200000, .f32⟩ : BufTy).Contents (Elt F)),
    StableHlo.nullary main_cst_63 (constant S_ .f32 0xFF800000#32),
    StableHlo.unary main_cst_63 main_v226 (broadcastInDim S200000 ![] bcast_S_S200000 : (⟨S_, .f32⟩ : BufTy).Contents (Elt F) → (⟨S200000, .f32⟩ : BufTy).Contents (Elt F)),
    StableHlo.binary main_v226 main_v225 main_v227 (maximumf : (⟨S200000, .f32⟩ : BufTy).Contents (Elt F) → (⟨S200000, .f32⟩ : BufTy).Contents (Elt F) → (⟨S200000, .f32⟩ : BufTy).Contents (Elt F)),
    StableHlo.unary main_v227 main_v228 (broadcastInDim S200000x1 ![0] bcast_S200000_S200000x1_0 : (⟨S200000, .f32⟩ : BufTy).Contents (Elt F) → (⟨S200000x1, .f32⟩ : BufTy).Contents (Elt F)),
    StableHlo.unary main_v228 main_v229 (broadcastInDim S200000x128 ![0, 1] bcast_S200000x1_S200000x128_0_1 : (⟨S200000x1, .f32⟩ : BufTy).Contents (Elt F) → (⟨S200000x128, .f32⟩ : BufTy).Contents (Elt F)),
    StableHlo.binary main_v224 main_v229 main_v230 (subf : (⟨S200000x128, .f32⟩ : BufTy).Contents (Elt F) → (⟨S200000x128, .f32⟩ : BufTy).Contents (Elt F) → (⟨S200000x128, .f32⟩ : BufTy).Contents (Elt F)),
    StableHlo.unary main_v230 main_v231 (Host.exp : (⟨S200000x128, .f32⟩ : BufTy).Contents (Elt F) → (⟨S200000x128, .f32⟩ : BufTy).Contents (Elt F)),
    StableHlo.nullary main_cst_64 (constant S_ .f32 0x00000000#32),
    StableHlo.binary main_v231 main_cst_64 main_v232 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)) ]

set_option maxHeartbeats 4000000 in

abbrev ops5 : List (HloOp τ sig (Elt F)) :=
  [ StableHlo.unary main_v232 main_v233 (broadcastInDim S200000x1 ![0] bcast_S200000_S200000x1_0 : (⟨S200000, .f32⟩ : BufTy).Contents (Elt F) → (⟨S200000x1, .f32⟩ : BufTy).Contents (Elt F)),
    StableHlo.unary main_v233 main_v234 (broadcastInDim S200000x128 ![0, 1] bcast_S200000x1_S200000x128_0_1 : (⟨S200000x1, .f32⟩ : BufTy).Contents (Elt F) → (⟨S200000x128, .f32⟩ : BufTy).Contents (Elt F)),
    StableHlo.binary main_v231 main_v234 main_v235 (Host.divf : (⟨S200000x128, .f32⟩ : BufTy).Contents (Elt F) → (⟨S200000x128, .f32⟩ : BufTy).Contents (Elt F) → (⟨S200000x128, .f32⟩ : BufTy).Contents (Elt F)),
    StableHlo.nullary main_cst_65 (constant S_ .f32 0x00000000#32),
    StableHlo.unary main_cst_65 main_v236 (broadcastInDim S8192x128 ![] bcast_S_S8192x128 : (⟨S_, .f32⟩ : BufTy).Contents (Elt F) → (⟨S8192x128, .f32⟩ : BufTy).Contents (Elt F)),
    StableHlo.unary main_arg28 main_v237 (broadcastInDim S200000x1 ![0] bcast_S200000_S200000x1_0 : (⟨S200000, .i32⟩ : BufTy).Contents (Elt F) → (⟨S200000x1, .i32⟩ : BufTy).Contents (Elt F)),
    StableHlo.ternary main_v236 main_v237 main_v235 main_v238 ((fun x i u => Host.scatterAdd scatter_S8192x128_S200000x1_S200000x128_1_0_0_1 x i u) : (⟨S8192x128, .f32⟩ : BufTy).Contents (Elt F) → (⟨S200000x1, .i32⟩ : BufTy).Contents (Elt F) → (⟨S200000x128, .f32⟩ : BufTy).Contents (Elt F) → (⟨S8192x128, .f32⟩ : BufTy).Contents (Elt F)),
    StableHlo.binary main_v128 main_v238 main_v239 (addf : (⟨S8192x128, .f32⟩ : BufTy).Contents (Elt F) → (⟨S8192x128, .f32⟩ : BufTy).Contents (Elt F) → (⟨S8192x128, .f32⟩ : BufTy).Contents (Elt F)) ]

abbrev ops : List (HloOp τ sig (Elt F)) := ops0 ++ (ops1 ++ (ops2 ++ (ops3 ++ (ops4 ++ ops5))))

end Cert.ReferenceIdeal.Hand

end
-- ==== Proof.LibAfter.lean ====
import Idealize.ShloMosaic.Lib.StableHlo.Run

noncomputable section

namespace Cert.Lib

open Idealize.ShloMosaic Idealize.ShloMosaic.StableHlo

-- running a concatenation of two operation lists is running the second from what the first leaves
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

-- what holds of every element of every chunk holds of every element of the concatenation
theorem forall_flatten {α : Type} {P : α → Prop} (ls : List (List α)) (h : ls.Forall fun l => l.Forall P) : ls.flatten.Forall P :=
  List.forall_iff_forall_mem.mpr fun a ha => by
    obtain ⟨l, hl, hal⟩ := List.mem_flatten.mp ha
    exact List.forall_iff_forall_mem.mp (List.forall_iff_forall_mem.mp h l hl) a hal

end Cert.Lib

end
-- ==== Proof.Ref.Run.lean ====
import proofs.«410641_j56710748176715_1_alg».proof.Proof.Ref.Ops
import proofs.«410641_j56710748176715_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {P : α → Prop} {l₁ l₂ : List α} (h₁ : l₁.Forall P) (h₂ : l₂.Forall P) : (l₁ ++ l₂).Forall P :=
  List.forall_iff_forall_mem.mpr fun a ha =>
    (List.mem_append.mp ha).elim (List.forall_iff_forall_mem.mp h₁ a) (List.forall_iff_forall_mem.mp h₂ a)

theorem seq_append_of_eq {Λ : Labels} {p q : Prog (TpuEff nD τ sig (Elt F) Λ .tc) PUnit} {l₁ l₂ : List (HloOp τ sig (Elt F))}
    (h₁ : p = seq l₁) (h₂ : q = seq l₂) : (p >>= fun _ => q) = seq (l₁ ++ l₂) := by
  rw [seq_append, h₁, h₂]

theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw]; exact Finset.singleton_subset_iff.mpr (List.mem_toFinset.mpr (List.mem_map_of_mem hy))

theorem after_append_of_keep {l₁ l₂ : List (HloOp τ sig (Elt F))} {b : DevRef τ sig}
    (h₁ : ∀ V, after l₁ V b = V b) (h₂ : ∀ V, after l₂ V b = V b) (V : Valuation τ sig (Elt F)) : after (l₁ ++ l₂) V b = V b := by
  rw [Cert.Lib.after_append, h₂, h₁]

set_option maxRecDepth 4096 in
set_option maxHeartbeats 4000000 in
theorem main_part0_eq (c : Dev nD) : main_part0 (F := F) c = seq ops0 := rfl

set_option maxRecDepth 4096 in
set_option maxHeartbeats 4000000 in
theorem main_part1_eq (c : Dev nD) : main_part1 (F := F) c = seq ops1 := rfl

set_option maxRecDepth 4096 in
set_option maxHeartbeats 4000000 in

theorem main_part2_eq (c : Dev nD) : main_part2 (F := F) c = seq ops2 := by
  simp only [main_part2, fn_var.body, fn_where.body, fn_relu.body, seq, bind_assoc, pure_bind]
  rfl

set_option maxRecDepth 4096 in
set_option maxHeartbeats 4000000 in
theorem main_part3_eq (c : Dev nD) : main_part3 (F := F) c = seq ops3 := rfl

set_option maxRecDepth 4096 in
set_option maxHeartbeats 4000000 in

theorem main_part4_eq (c : Dev nD) : main_part4 (F := F) c = seq ops4 := by
  simp only [main_part4, fn_var.body, fn_where.body, fn_relu.body, seq, bind_assoc, pure_bind]
  rfl

set_option maxRecDepth 4096 in
set_option maxHeartbeats 4000000 in
theorem main_part5_eq (c : Dev nD) : main_part5 (F := F) c = seq ops5 := rfl

theorem main_eq (c : Dev nD) : main (F := F) c = seq ops :=
  seq_append_of_eq (main_part0_eq c) (seq_append_of_eq (main_part1_eq c) (seq_append_of_eq (main_part2_eq c)
    (seq_append_of_eq (main_part3_eq c) (seq_append_of_eq (main_part4_eq c) (main_part5_eq c)))))

set_option maxRecDepth 4096 in
set_option maxHeartbeats 4000000 in
theorem ops0_sub : (ops0 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., binary_bufs_sub .., nullary_bufs_sub .., unary_bufs_sub .., binary_bufs_sub ..⟩

set_option maxRecDepth 4096 in
set_option maxHeartbeats 4000000 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 4096 in
set_option maxHeartbeats 4000000 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., binary_bufs_sub .., binary_bufs_sub .., binary_bufs_sub .., nary_bufs_sub .., binary_bufs_sub ..⟩

set_option maxRecDepth 4096 in
set_option maxHeartbeats 4000000 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 4096 in
set_option maxHeartbeats 4000000 in
theorem ops2_sub : (ops2 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., nullary_bufs_sub ..,
    unary_bufs_sub .., binary_bufs_sub .., unary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., nullary_bufs_sub .., unary_bufs_sub .., unary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    binary_bufs_sub .., nullary_bufs_sub .., unary_bufs_sub .., binary_bufs_sub .., nullary_bufs_sub ..⟩

set_option maxRecDepth 4096 in
set_option maxHeartbeats 4000000 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 4096 in
set_option maxHeartbeats 4000000 in
theorem ops3_sub : (ops3 : List (HloOp τ sig (Elt F))).Forall fun op => op.bufs ⊆ tcRefs τ sig :=
  ⟨unary_bufs_sub .., binary_bufs_sub .., ternary_bufs_sub .., unary_bufs_sub .., binary_bufs_sub .., nullary_bufs_sub ..,
    binary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    binary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    binary_bufs_sub .., binary_bufs_sub .., binary_bufs_sub .., nullary_bufs_sub .., unary_bufs_sub .., binary_bufs_sub ..⟩

set_option maxRecDepth 4096 in
set_option maxHeartbeats 4000000 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 4096 in
set_option maxHeartbeats 4000000 in
theorem ops4_sub : (ops4 : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    binary_bufs_sub .., binary_bufs_sub .., binary_bufs_sub .., nary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., nullary_bufs_sub .., unary_bufs_sub ..,
    binary_bufs_sub .., unary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub ..⟩

set_option maxRecDepth 4096 in
set_option maxHeartbeats 4000000 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 4096 in
set_option maxHeartbeats 4000000 in
theorem ops5_sub : (ops5 : List (HloOp τ sig (Elt F))).Forall fun op => op.bufs ⊆ tcRefs τ sig :=
  ⟨unary_bufs_sub .., unary_bufs_sub .., binary_bufs_sub .., nullary_bufs_sub .., unary_bufs_sub .., unary_bufs_sub ..,
    ternary_bufs_sub .., binary_bufs_sub ..⟩

set_option maxRecDepth 4096 in
set_option maxHeartbeats 4000000 in
theorem ops5_fresh : (ops5 : List (HloOp τ sig (Elt F))).Forall fun op => op.fresh = ∅ :=
  ⟨rfl, rfl, rfl, rfl, rfl, rfl, rfl, rfl⟩

theorem ops_sub : (ops : List (HloOp τ sig (Elt F))).Forall fun op => op.bufs ⊆ tcRefs τ sig :=
  forall_append ops0_sub (forall_append ops1_sub (forall_append ops2_sub (forall_append ops3_sub (forall_append ops4_sub (ops5_sub)))))

theorem ops_fresh : (ops : List (HloOp τ sig (Elt F))).Forall fun op => op.fresh = ∅ :=
  forall_append ops0_fresh (forall_append ops1_fresh (forall_append ops2_fresh (forall_append ops3_fresh (forall_append ops4_fresh (ops5_fresh)))))

theorem scopedRefs_eq : (Finset.univ.filter fun b : Ref sig .tc => b.isScoped) = ∅ := by decide
theorem scopedSems_eq : (Finset.univ.filter fun sm : SemLoc sig => sm.isScoped .tc) = ∅ := by decide

theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

abbrev W0 : List (Ref sig .tc) :=
  [main_v0, main_v1, main_v2, main_v3, main_cst, main_v4, main_cst_0, main_v5,
    main_v6, main_v7, main_v8, main_v9, main_v10, main_cst_1, main_v11, main_v12,
    main_v13, main_v14, main_cst_2, main_v15, main_v16, main_v17, main_c, main_v18,
    main_v19, main_c_3, main_v20, main_v21, main_v22, main_v23, main_v24, main_cst_4,
    main_v25, main_c_5, main_v26, main_v27, main_c_6, main_v28, main_v29, main_v30,
    main_v31, main_v32, main_cst_7, main_v33, main_v34, main_v35, main_c_8, main_v36,
    main_v37, main_c_9, main_v38, main_v39, main_v40, main_v41, main_v42, main_cst_10,
    main_v43, main_c_11, main_v44, main_v45]

set_option maxRecDepth 4096 in
set_option maxHeartbeats 4000000 in
theorem ops0_writes : (ops0 : List (HloOp τ sig (Elt F))).Forall fun op => op.writes ⊆ (W0.map (Proc.devRef (τ := τ) .tc)).toFinset := by
  simp only [List.Forall]
  repeat' apply And.intro
  all_goals exact writes_sub_of_mem _ rfl (by decide)

abbrev W1 : List (Ref sig .tc) :=
  [main_c_12, main_v46, main_v47, main_v48, main_v49, main_v50, main_cst_13, main_v51,
    main_v52, main_v53, main_c_14, main_v54, main_v55, main_c_15, main_v56, main_v57,
    main_v58, main_v59, main_v60, main_cst_16, main_v61, main_c_17, main_v62, main_v63,
    main_c_18, main_v64, main_v65, main_v66, main_v67, main_v68, main_cst_19, main_v69,
    main_v70, main_v71, main_c_20, main_v72, main_v73, main_c_21, main_v74, main_v75,
    main_v76, main_v77, main_v78, main_cst_22, main_v79, main_c_23, main_v80, main_v81,
    main_c_24, main_v82, main_v83, main_v84, main_v85, main_v86, main_cst_25, main_v87,
    main_v88, main_v89, main_v90, main_v91]

set_option maxRecDepth 4096 in
set_option maxHeartbeats 4000000 in
theorem ops1_writes : (ops1 : List (HloOp τ sig (Elt F))).Forall fun op => op.writes ⊆ (W1.map (Proc.devRef (τ := τ) .tc)).toFinset := by
  simp only [List.Forall]
  repeat' apply And.intro
  all_goals exact writes_sub_of_mem _ rfl (by decide)

abbrev W2 : List (Ref sig .tc) :=
  [main_v92, main_v93, main_v94, main_v95, main_cst_26, main_v96, main_cst_27, main_v97,
    main_v98, main_v99, main_v100, main_v101, main_c_28, main_call0.cst.ref, main_call0.v0.ref, main_call0.v1.ref,
    main_call0.cst_0.ref, main_call0.v2.ref, main_call0.v3.ref, main_call0.v4.ref, main_call0.v5.ref, main_call0.v6.ref, main_call0.v7.ref, main_call0.cst_1.ref,
    main_call0.v8.ref, main_call0.cst_2.ref, main_call0.v9.ref, main_call0.v10.ref, main_call0.v11.ref, main_call0.cst_3.ref, main_call0.v12.ref, main_call0.cst_4.ref,
    main_call0.call0.v0.ref, main_call0.call0.v1.ref, main_call0.call0.v2.ref, main_cst_29, main_v103, main_v104, main_v105, main_v106,
    main_v107, main_v108, main_call1.cst.ref, main_call1.v0.ref, main_call1.v1.ref, main_v110, main_v111, main_v112,
    main_v113, main_cst_30, main_v114, main_cst_31, main_v115, main_v116, main_v117, main_v118,
    main_v119, main_v120, main_cst_32, main_v121, main_v122, main_v123, main_v124, main_cst_33,
    main_v125, main_v126, main_v127, main_v128, main_c_34, main_v129, main_v130, main_c_35,
    main_v131, main_v132, main_v133, main_v134, main_v135, main_cst_36, main_v136, main_c_37,
    main_v137, main_v138, main_c_38]

set_option maxRecDepth 4096 in
set_option maxHeartbeats 4000000 in
theorem ops2_writes : (ops2 : List (HloOp τ sig (Elt F))).Forall fun op => op.writes ⊆ (W2.map (Proc.devRef (τ := τ) .tc)).toFinset := by
  simp only [List.Forall]
  repeat' apply And.intro
  all_goals exact writes_sub_of_mem _ rfl (by decide)

abbrev W3 : List (Ref sig .tc) :=
  [main_v139, main_v140, main_v141, main_v142, main_v143, main_cst_39, main_v144, main_v145,
    main_v146, main_c_40, main_v147, main_v148, main_c_41, main_v149, main_v150, main_v151,
    main_v152, main_v153, main_cst_42, main_v154, main_c_43, main_v155, main_v156, main_c_44,
    main_v157, main_v158, main_v159, main_v160, main_v161, main_cst_45, main_v162, main_v163,
    main_v164, main_c_46, main_v165, main_v166, main_c_47, main_v167, main_v168, main_v169,
    main_v170, main_v171, main_cst_48, main_v172, main_c_49, main_v173, main_v174, main_c_50,
    main_v175, main_v176, main_v177, main_v178, main_v179, main_cst_51, main_v180, main_v181,
    main_v182, main_c_52, main_v183, main_v184]

set_option maxRecDepth 4096 in
set_option maxHeartbeats 4000000 in
theorem ops3_writes : (ops3 : List (HloOp τ sig (Elt F))).Forall fun op => op.writes ⊆ (W3.map (Proc.devRef (τ := τ) .tc)).toFinset := by
  simp only [List.Forall]
  repeat' apply And.intro
  all_goals exact writes_sub_of_mem _ rfl (by decide)

abbrev W4 : List (Ref sig .tc) :=
  [main_c_53, main_v185, main_v186, main_v187, main_v188, main_v189, main_cst_54, main_v190,
    main_c_55, main_v191, main_v192, main_c_56, main_v193, main_v194, main_v195, main_v196,
    main_v197, main_cst_57, main_v198, main_v199, main_v200, main_v201, main_v202, main_v203,
    main_v204, main_v205, main_v206, main_cst_58, main_v207, main_cst_59, main_v208, main_v209,
    main_v210, main_v211, main_v212, main_c_60, main_call2.cst.ref, main_call2.v0.ref, main_call2.v1.ref, main_call2.cst_0.ref,
    main_call2.v2.ref, main_call2.v3.ref, main_call2.v4.ref, main_call2.v5.ref, main_call2.v6.ref, main_call2.v7.ref, main_call2.cst_1.ref, main_call2.v8.ref,
    main_call2.cst_2.ref, main_call2.v9.ref, main_call2.v10.ref, main_call2.v11.ref, main_call2.cst_3.ref, main_call2.v12.ref, main_call2.cst_4.ref, main_call2.call0.v0.ref,
    main_call2.call0.v1.ref, main_call2.call0.v2.ref, main_cst_61, main_v214, main_v215, main_v216, main_v217, main_v218,
    main_v219, main_call3.cst.ref, main_call3.v0.ref, main_call3.v1.ref, main_v221, main_v222, main_v223, main_v224,
    main_cst_62, main_v225, main_cst_63, main_v226, main_v227, main_v228, main_v229, main_v230,
    main_v231, main_cst_64, main_v232]

set_option maxRecDepth 4096 in
set_option maxHeartbeats 4000000 in
theorem ops4_writes : (ops4 : List (HloOp τ sig (Elt F))).Forall fun op => op.writes ⊆ (W4.map (Proc.devRef (τ := τ) .tc)).toFinset := by
  simp only [List.Forall]
  repeat' apply And.intro
  all_goals exact writes_sub_of_mem _ rfl (by decide)

abbrev W5 : List (Ref sig .tc) :=
  [main_v233, main_v234, main_v235, main_cst_65, main_v236, main_v237, main_v238, main_v239]

set_option maxRecDepth 4096 in
set_option maxHeartbeats 4000000 in
theorem ops5_writes : (ops5 : List (HloOp τ sig (Elt F))).Forall fun op => op.writes ⊆ (W5.map (Proc.devRef (τ := τ) .tc)).toFinset := by
  simp only [List.Forall]
  repeat' apply And.intro
  all_goals exact writes_sub_of_mem _ rfl (by decide)

theorem after_ops_of_not_mem {r : Ref sig .tc} (h0 : r ∉ W0) (h1 : r ∉ W1) (h2 : r ∉ W2) (h3 : r ∉ W3) (h4 : r ∉ W4) (h5 : r ∉ W5)
    (V : Valuation τ sig (Elt F)) : after ops V (Proc.devRef .tc r) = V (Proc.devRef .tc r) :=
  after_append_of_keep (fun V => after_of_writes_sub ops0 V ops0_writes h0) (after_append_of_keep (fun V => after_of_writes_sub ops1 V ops1_writes h1) (after_append_of_keep (fun V => after_of_writes_sub ops2 V ops2_writes h2) (after_append_of_keep (fun V => after_of_writes_sub ops3 V ops3_writes h3) (after_append_of_keep (fun V => after_of_writes_sub ops4 V ops4_writes h4) ((fun V => after_of_writes_sub ops5 V ops5_writes h5)))))) V

theorem after_arg0 (V : Valuation τ sig (Elt F)) : after ops V (Proc.devRef .tc main_arg0) = V (Proc.devRef .tc main_arg0) :=
  after_ops_of_not_mem (by decide) (by decide) (by decide) (by decide) (by decide) (by decide) V

theorem after_arg1 (V : Valuation τ sig (Elt F)) : after ops V (Proc.devRef .tc main_arg1) = V (Proc.devRef .tc main_arg1) :=
  after_ops_of_not_mem (by decide) (by decide) (by decide) (by decide) (by decide) (by decide) V

theorem after_arg2 (V : Valuation τ sig (Elt F)) : after ops V (Proc.devRef .tc main_arg2) = V (Proc.devRef .tc main_arg2) :=
  after_ops_of_not_mem (by decide) (by decide) (by decide) (by decide) (by decide) (by decide) V

theorem after_arg3 (V : Valuation τ sig (Elt F)) : after ops V (Proc.devRef .tc main_arg3) = V (Proc.devRef .tc main_arg3) :=
  after_ops_of_not_mem (by decide) (by decide) (by decide) (by decide) (by decide) (by decide) V

theorem after_arg4 (V : Valuation τ sig (Elt F)) : after ops V (Proc.devRef .tc main_arg4) = V (Proc.devRef .tc main_arg4) :=
  after_ops_of_not_mem (by decide) (by decide) (by decide) (by decide) (by decide) (by decide) V

theorem after_arg5 (V : Valuation τ sig (Elt F)) : after ops V (Proc.devRef .tc main_arg5) = V (Proc.devRef .tc main_arg5) :=
  after_ops_of_not_mem (by decide) (by decide) (by decide) (by decide) (by decide) (by decide) V

theorem after_arg6 (V : Valuation τ sig (Elt F)) : after ops V (Proc.devRef .tc main_arg6) = V (Proc.devRef .tc main_arg6) :=
  after_ops_of_not_mem (by decide) (by decide) (by decide) (by decide) (by decide) (by decide) V

theorem after_arg7 (V : Valuation τ sig (Elt F)) : after ops V (Proc.devRef .tc main_arg7) = V (Proc.devRef .tc main_arg7) :=
  after_ops_of_not_mem (by decide) (by decide) (by decide) (by decide) (by decide) (by decide) V

theorem after_arg8 (V : Valuation τ sig (Elt F)) : after ops V (Proc.devRef .tc main_arg8) = V (Proc.devRef .tc main_arg8) :=
  after_ops_of_not_mem (by decide) (by decide) (by decide) (by decide) (by decide) (by decide) V

theorem after_arg9 (V : Valuation τ sig (Elt F)) : after ops V (Proc.devRef .tc main_arg9) = V (Proc.devRef .tc main_arg9) :=
  after_ops_of_not_mem (by decide) (by decide) (by decide) (by decide) (by decide) (by decide) V

theorem after_arg10 (V : Valuation τ sig (Elt F)) : after ops V (Proc.devRef .tc main_arg10) = V (Proc.devRef .tc main_arg10) :=
  after_ops_of_not_mem (by decide) (by decide) (by decide) (by decide) (by decide) (by decide) V

theorem after_arg11 (V : Valuation τ sig (Elt F)) : after ops V (Proc.devRef .tc main_arg11) = V (Proc.devRef .tc main_arg11) :=
  after_ops_of_not_mem (by decide) (by decide) (by decide) (by decide) (by decide) (by decide) V

theorem after_arg12 (V : Valuation τ sig (Elt F)) : after ops V (Proc.devRef .tc main_arg12) = V (Proc.devRef .tc main_arg12) :=
  after_ops_of_not_mem (by decide) (by decide) (by decide) (by decide) (by decide) (by decide) V

theorem after_arg13 (V : Valuation τ sig (Elt F)) : after ops V (Proc.devRef .tc main_arg13) = V (Proc.devRef .tc main_arg13) :=
  after_ops_of_not_mem (by decide) (by decide) (by decide) (by decide) (by decide) (by decide) V

theorem after_arg14 (V : Valuation τ sig (Elt F)) : after ops V (Proc.devRef .tc main_arg14) = V (Proc.devRef .tc main_arg14) :=
  after_ops_of_not_mem (by decide) (by decide) (by decide) (by decide) (by decide) (by decide) V

theorem after_arg15 (V : Valuation τ sig (Elt F)) : after ops V (Proc.devRef .tc main_arg15) = V (Proc.devRef .tc main_arg15) :=
  after_ops_of_not_mem (by decide) (by decide) (by decide) (by decide) (by decide) (by decide) V

theorem after_arg16 (V : Valuation τ sig (Elt F)) : after ops V (Proc.devRef .tc main_arg16) = V (Proc.devRef .tc main_arg16) :=
  after_ops_of_not_mem (by decide) (by decide) (by decide) (by decide) (by decide) (by decide) V

theorem after_arg17 (V : Valuation τ sig (Elt F)) : after ops V (Proc.devRef .tc main_arg17) = V (Proc.devRef .tc main_arg17) :=
  after_ops_of_not_mem (by decide) (by decide) (by decide) (by decide) (by decide) (by decide) V

theorem after_arg18 (V : Valuation τ sig (Elt F)) : after ops V (Proc.devRef .tc main_arg18) = V (Proc.devRef .tc main_arg18) :=
  after_ops_of_not_mem (by decide) (by decide) (by decide) (by decide) (by decide) (by decide) V

theorem after_arg19 (V : Valuation τ sig (Elt F)) : after ops V (Proc.devRef .tc main_arg19) = V (Proc.devRef .tc main_arg19) :=
  after_ops_of_not_mem (by decide) (by decide) (by decide) (by decide) (by decide) (by decide) V

theorem after_arg20 (V : Valuation τ sig (Elt F)) : after ops V (Proc.devRef .tc main_arg20) = V (Proc.devRef .tc main_arg20) :=
  after_ops_of_not_mem (by decide) (by decide) (by decide) (by decide) (by decide) (by decide) V

theorem after_arg21 (V : Valuation τ sig (Elt F)) : after ops V (Proc.devRef .tc main_arg21) = V (Proc.devRef .tc main_arg21) :=
  after_ops_of_not_mem (by decide) (by decide) (by decide) (by decide) (by decide) (by decide) V

theorem after_arg22 (V : Valuation τ sig (Elt F)) : after ops V (Proc.devRef .tc main_arg22) = V (Proc.devRef .tc main_arg22) :=
  after_ops_of_not_mem (by decide) (by decide) (by decide) (by decide) (by decide) (by decide) V

theorem after_arg23 (V : Valuation τ sig (Elt F)) : after ops V (Proc.devRef .tc main_arg23) = V (Proc.devRef .tc main_arg23) :=
  after_ops_of_not_mem (by decide) (by decide) (by decide) (by decide) (by decide) (by decide) V

theorem after_arg24 (V : Valuation τ sig (Elt F)) : after ops V (Proc.devRef .tc main_arg24) = V (Proc.devRef .tc main_arg24) :=
  after_ops_of_not_mem (by decide) (by decide) (by decide) (by decide) (by decide) (by decide) V

theorem after_arg25 (V : Valuation τ sig (Elt F)) : after ops V (Proc.devRef .tc main_arg25) = V (Proc.devRef .tc main_arg25) :=
  after_ops_of_not_mem (by decide) (by decide) (by decide) (by decide) (by decide) (by decide) V

theorem after_arg26 (V : Valuation τ sig (Elt F)) : after ops V (Proc.devRef .tc main_arg26) = V (Proc.devRef .tc main_arg26) :=
  after_ops_of_not_mem (by decide) (by decide) (by decide) (by decide) (by decide) (by decide) V

theorem after_arg27 (V : Valuation τ sig (Elt F)) : after ops V (Proc.devRef .tc main_arg27) = V (Proc.devRef .tc main_arg27) :=
  after_ops_of_not_mem (by decide) (by decide) (by decide) (by decide) (by decide) (by decide) V

theorem after_arg28 (V : Valuation τ sig (Elt F)) : after ops V (Proc.devRef .tc main_arg28) = V (Proc.devRef .tc main_arg28) :=
  after_ops_of_not_mem (by decide) (by decide) (by decide) (by decide) (by decide) (by decide) V

end Cert.ReferenceIdeal.Hand

end
-- ==== Proof.Ref.Value.lean ====
import proofs.«410641_j56710748176715_1_alg».proof.Proof.Ref.Stages
import proofs.«410641_j56710748176715_1_alg».proof.Proof.Ref.Ops
import proofs.«410641_j56710748176715_1_alg».proof.Proof.LibAfter
import proofs.«410641_j56710748176715_1_alg».proof.Proof.LibTypedRef

noncomputable section

namespace Cert.ReferenceIdeal.Hand

open Cert.ReferenceIdeal Cert.ReferenceIdeal.Facts₀ Idealize.ShloMosaic Idealize.ShloMosaic.StableHlo Idealize.SL.Sem

variable {F : FTy → Type} [FloatOps F]

local macro "⟪" W:term ", " r:term "⟫" : term => `(($W) (Proc.devRef .tc $r))

def gB1Tail (t : FVec F S300000x16 .f32) (idx : IVec S50000x1 32) (neg : IVec S50000x1 1) (c : IVec S_ 32) : FVec F S50000x16 .f32 :=
  let bound : IVec S50000x1 32 := broadcastInDim S50000x1 ![] bcast_S_S50000x1 c
  let wrapped : IVec S50000x1 32 := select neg (addi idx bound) idx
  let col : IVec S50000x1x1 32 := broadcastInDim S50000x1x1 ![0, 1] bcast_S50000x1_S50000x1x1_0_1 wrapped
  Host.reduceAdd (Host.gather gather_S300000x16_S50000x1x1_S50000x1x16_2_0_n_n_0_2_116 t col) (constant (F := F) S_ .f32 0x00000000#32)
    reducesTo_S50000x1x16_S50000x16_d1 h_S_

theorem gB1_eq (t : FVec F S300000x16 .f32) (idx : IVec S50000x1 32) :
    Spec.gB1 t idx = gB1Tail t idx (cmpi .slt idx (broadcastInDim S50000x1 ![] bcast_S_S50000x1 (constantI S_ 32 0#32))) (constantI S_ 32 300000#32) := rfl

def gB2Tail (t : FVec F S300000x16 .f32) (idx : IVec S50000x2 32) (neg : IVec S50000x2 1) : FVec F S50000x16 .f32 :=
  let bound : IVec S50000x2 32 := broadcastInDim S50000x2 ![] bcast_S_S50000x2 (constantI S_ 32 300000#32)
  let wrapped : IVec S50000x2 32 := select neg (addi idx bound) idx
  let col : IVec S50000x2x1 32 := broadcastInDim S50000x2x1 ![0, 1] bcast_S50000x2_S50000x2x1_0_1 wrapped
  Host.reduceAdd (Host.gather gather_S300000x16_S50000x2x1_S50000x2x16_2_0_n_n_0_2_116 t col) (constant (F := F) S_ .f32 0x00000000#32)
    reducesTo_S50000x2x16_S50000x16_d1 h_S_

theorem gB2_eq (t : FVec F S300000x16 .f32) (idx : IVec S50000x2 32) :
    Spec.gB2 t idx = gB2Tail t idx (cmpi .slt idx (broadcastInDim S50000x2 ![] bcast_S_S50000x2 (constantI S_ 32 0#32))) := rfl

def gH4Tail (t : FVec F S200000x128 .f32) (idx : IVec S50000x4 32) (neg : IVec S50000x4 1) : FVec F S50000x128 .f32 :=
  let bound : IVec S50000x4 32 := broadcastInDim S50000x4 ![] bcast_S_S50000x4 (constantI S_ 32 200000#32)
  let wrapped : IVec S50000x4 32 := select neg (addi idx bound) idx
  let col : IVec S50000x4x1 32 := broadcastInDim S50000x4x1 ![0, 1] bcast_S50000x4_S50000x4x1_0_1 wrapped
  Host.reduceAdd (Host.gather gather_S200000x128_S50000x4x1_S50000x4x128_2_0_n_n_0_2_1128 t col) (constant (F := F) S_ .f32 0x00000000#32)
    reducesTo_S50000x4x128_S50000x128_d1 h_S_

theorem gH4_eq (t : FVec F S200000x128 .f32) (idx : IVec S50000x4 32) :
    Spec.gH4 t idx = gH4Tail t idx (cmpi .slt idx (broadcastInDim S50000x4 ![] bcast_S_S50000x4 (constantI S_ 32 0#32))) := rfl

def smE128 (x : FVec F S200000x128 .f32) (W : FVec F S128x128 .f32) (b : FVec F S128 .f32) : FVec F S200000x128 .f32 :=
  let y : FVec F S200000x128 .f32 :=
    addf (Host.dotGeneral dot_S200000x128_S128x128_S200000x128_1_0_0_1_n_n none x W)
      (broadcastInDim S200000x128 ![0, 1] bcast_S1x128_S200000x128_0_1 (broadcastInDim S1x128 ![1] bcast_S128_S1x128_1 b))
  let rowMax : FVec F S200000 .f32 :=
    Host.reduce FloatOps.maximumf y (constant (F := F) S_ .f32 0xFF800000#32) reducesTo_S200000x128_S200000_d1 h_S_
  let m : FVec F S200000 .f32 :=
    maximumf (broadcastInDim S200000 ![] bcast_S_S200000 (constant (F := F) S_ .f32 0xFF800000#32)) rowMax
  Host.exp (subf y (broadcastInDim S200000x128 ![0, 1] bcast_S200000x1_S200000x128_0_1
    (broadcastInDim S200000x1 ![0] bcast_S200000_S200000x1_0 m)))

def smS128 (x : FVec F S200000x128 .f32) (W : FVec F S128x128 .f32) (b : FVec F S128 .f32) : FVec F S200000 .f32 :=
  Host.reduceAdd (smE128 x W b) (constant (F := F) S_ .f32 0x00000000#32) reducesTo_S200000x128_S200000_d1 h_S_

theorem sm128_eq (x : FVec F S200000x128 .f32) (W : FVec F S128x128 .f32) (b : FVec F S128 .f32) :
    Spec.sm128 x W b = Host.divf (smE128 x W b)
      (broadcastInDim S200000x128 ![0, 1] bcast_S200000x1_S200000x128_0_1
        (broadcastInDim S200000x1 ![0] bcast_S200000_S200000x1_0 (smS128 x W b))) := rfl

def stack4 (p1 p2 p3 p4 : FVec F S50000x128 .f32) : FVec F S200000x128 .f32 :=
  concatenate S200000x128 0 [⟨S50000x128, p1⟩, ⟨S50000x128, p2⟩, ⟨S50000x128, p3⟩, ⟨S50000x128, p4⟩]
    concatenates_S50000x128_S50000x128_S50000x128_S50000x128_S200000x128_d0

theorem x1_eq (A : FVec F S200000x64 .f32) (sW : FVec F S64x128 .f32) (cb : FVec F S128 .f32)
    (n1 n2 n3 n4 : FVec F S50000x80 .f32) (d1 d2 d3 d4 : FVec F S80x128 .f32) :
    Spec.x1 A sW cb n1 n2 n3 n4 d1 d2 d3 d4 =
      addf (addf (Host.dotGeneral dot_S200000x64_S64x128_S200000x128_1_0_0_1_n_n none A sW)
          (stack4 (Host.dotGeneral dot_S50000x80_S80x128_S50000x128_1_0_0_1_n_n none n1 d1) (Host.dotGeneral dot_S50000x80_S80x128_S50000x128_1_0_0_1_n_n none n2 d2)
            (Host.dotGeneral dot_S50000x80_S80x128_S50000x128_1_0_0_1_n_n none n3 d3) (Host.dotGeneral dot_S50000x80_S80x128_S50000x128_1_0_0_1_n_n none n4 d4)))
        (broadcastInDim S200000x128 ![0, 1] bcast_S1x128_S200000x128_0_1 (broadcastInDim S1x128 ![1] bcast_S128_S1x128_1 cb)) := rfl

theorem x2_eq (H : FVec F S200000x128 .f32) (sW : FVec F S128x128 .f32) (cb : FVec F S128 .f32)
    (n1 n2 n3 n4 : FVec F S50000x144 .f32) (d1 d2 d3 d4 : FVec F S144x128 .f32) :
    Spec.x2 H sW cb n1 n2 n3 n4 d1 d2 d3 d4 =
      addf (addf (Host.dotGeneral dot_S200000x128_S128x128_S200000x128_1_0_0_1_n_n none H sW)
          (stack4 (Host.dotGeneral dot_S50000x144_S144x128_S50000x128_1_0_0_1_n_n none n1 d1) (Host.dotGeneral dot_S50000x144_S144x128_S50000x128_1_0_0_1_n_n none n2 d2)
            (Host.dotGeneral dot_S50000x144_S144x128_S50000x128_1_0_0_1_n_n none n3 d3) (Host.dotGeneral dot_S50000x144_S144x128_S50000x128_1_0_0_1_n_n none n4 d4)))
        (broadcastInDim S200000x128 ![0, 1] bcast_S1x128_S200000x128_0_1 (broadcastInDim S1x128 ![1] bcast_S128_S1x128_1 cb)) := rfl

abbrev w0 : List (Ref sig .tc) :=
  [
    main_v0, main_v1, main_v2, main_v3, main_cst, main_v4,
    main_cst_0, main_v5, main_v6, main_v7, main_v8, main_v9,
    main_v10, main_cst_1, main_v11, main_v12, main_v13, main_v14,
    main_cst_2, main_v15, main_v16, main_v17, main_c, main_v18,
    main_v19, main_c_3, main_v20, main_v21, main_v22, main_v23,
    main_v24, main_cst_4, main_v25, main_c_5, main_v26, main_v27,
    main_c_6, main_v28, main_v29, main_v30, main_v31, main_v32,
    main_cst_7, main_v33, main_v34, main_v35, main_c_8, main_v36,
    main_v37, main_c_9, main_v38, main_v39, main_v40, main_v41,
    main_v42, main_cst_10, main_v43, main_c_11, main_v44, main_v45 ]

set_option maxHeartbeats 4000000 in
theorem ops0_writesV : (ops0 : List (HloOp τ sig (Elt F))).Forall fun op =>
    op.writes ⊆ (w0.map (Proc.devRef (τ := τ) .tc)).toFinset := by
  simp only [List.Forall]
  repeat' apply And.intro
  all_goals
    simp only [StableHlo.nullary_writes, StableHlo.unary_writes, StableHlo.binary_writes, StableHlo.ternary_writes,
      StableHlo.nary_writes, Finset.singleton_subset_iff, List.mem_toFinset]
    exact List.mem_map_of_mem (by decide)

theorem c0_keep (W : Valuation τ sig (Elt F)) (r : Ref sig .tc) (h : r ∉ w0) :
    StableHlo.after ops0 W (no_index (Proc.devRef .tc r)) = W (Proc.devRef .tc r) :=
  StableHlo.after_of_writes_sub ops0 W ops0_writesV h

abbrev w1 : List (Ref sig .tc) :=
  [
    main_c_12, main_v46, main_v47, main_v48, main_v49, main_v50,
    main_cst_13, main_v51, main_v52, main_v53, main_c_14, main_v54,
    main_v55, main_c_15, main_v56, main_v57, main_v58, main_v59,
    main_v60, main_cst_16, main_v61, main_c_17, main_v62, main_v63,
    main_c_18, main_v64, main_v65, main_v66, main_v67, main_v68,
    main_cst_19, main_v69, main_v70, main_v71, main_c_20, main_v72,
    main_v73, main_c_21, main_v74, main_v75, main_v76, main_v77,
    main_v78, main_cst_22, main_v79, main_c_23, main_v80, main_v81,
    main_c_24, main_v82, main_v83, main_v84, main_v85, main_v86,
    main_cst_25, main_v87, main_v88, main_v89, main_v90, main_v91 ]

set_option maxHeartbeats 4000000 in
theorem ops1_writesV : (ops1 : List (HloOp τ sig (Elt F))).Forall fun op =>
    op.writes ⊆ (w1.map (Proc.devRef (τ := τ) .tc)).toFinset := by
  simp only [List.Forall]
  repeat' apply And.intro
  all_goals
    simp only [StableHlo.nullary_writes, StableHlo.unary_writes, StableHlo.binary_writes, StableHlo.ternary_writes,
      StableHlo.nary_writes, Finset.singleton_subset_iff, List.mem_toFinset]
    exact List.mem_map_of_mem (by decide)

theorem c1_keep (W : Valuation τ sig (Elt F)) (r : Ref sig .tc) (h : r ∉ w1) :
    StableHlo.after ops1 W (no_index (Proc.devRef .tc r)) = W (Proc.devRef .tc r) :=
  StableHlo.after_of_writes_sub ops1 W ops1_writesV h

abbrev w2 : List (Ref sig .tc) :=
  [
    main_v92, main_v93, main_v94, main_v95, main_cst_26, main_v96,
    main_cst_27, main_v97, main_v98, main_v99, main_v100, main_v101,
    main_c_28, main_call0_cst, main_call0_v0, main_call0_v1, main_call0_cst_0, main_call0_v2,
    main_call0_v3, main_call0_v4, main_call0_v5, main_call0_v6, main_call0_v7, main_call0_cst_1,
    main_call0_v8, main_call0_cst_2, main_call0_v9, main_call0_v10, main_call0_v11, main_call0_cst_3,
    main_call0_v12, main_call0_cst_4, main_call0_call0_v0, main_call0_call0_v1, main_v102, main_cst_29,
    main_v103, main_v104, main_v105, main_v106, main_v107, main_v108,
    main_call1_cst, main_call1_v0, main_v109, main_v110, main_v111, main_v112,
    main_v113, main_cst_30, main_v114, main_cst_31, main_v115, main_v116,
    main_v117, main_v118, main_v119, main_v120, main_cst_32, main_v121,
    main_v122, main_v123, main_v124, main_cst_33, main_v125, main_v126,
    main_v127, main_v128, main_c_34, main_v129, main_v130, main_c_35,
    main_v131, main_v132, main_v133, main_v134, main_v135, main_cst_36,
    main_v136, main_c_37, main_v137, main_v138, main_c_38 ]

set_option maxHeartbeats 4000000 in
theorem ops2_writesV : (ops2 : List (HloOp τ sig (Elt F))).Forall fun op =>
    op.writes ⊆ (w2.map (Proc.devRef (τ := τ) .tc)).toFinset := by
  simp only [List.Forall]
  repeat' apply And.intro
  all_goals
    simp only [StableHlo.nullary_writes, StableHlo.unary_writes, StableHlo.binary_writes, StableHlo.ternary_writes,
      StableHlo.nary_writes, Finset.singleton_subset_iff, List.mem_toFinset]
    exact List.mem_map_of_mem (by decide)

theorem c2_keep (W : Valuation τ sig (Elt F)) (r : Ref sig .tc) (h : r ∉ w2) :
    StableHlo.after ops2 W (no_index (Proc.devRef .tc r)) = W (Proc.devRef .tc r) :=
  StableHlo.after_of_writes_sub ops2 W ops2_writesV h

abbrev w3 : List (Ref sig .tc) :=
  [
    main_v139, main_v140, main_v141, main_v142, main_v143, main_cst_39,
    main_v144, main_v145, main_v146, main_c_40, main_v147, main_v148,
    main_c_41, main_v149, main_v150, main_v151, main_v152, main_v153,
    main_cst_42, main_v154, main_c_43, main_v155, main_v156, main_c_44,
    main_v157, main_v158, main_v159, main_v160, main_v161, main_cst_45,
    main_v162, main_v163, main_v164, main_c_46, main_v165, main_v166,
    main_c_47, main_v167, main_v168, main_v169, main_v170, main_v171,
    main_cst_48, main_v172, main_c_49, main_v173, main_v174, main_c_50,
    main_v175, main_v176, main_v177, main_v178, main_v179, main_cst_51,
    main_v180, main_v181, main_v182, main_c_52, main_v183, main_v184 ]

set_option maxHeartbeats 4000000 in
theorem ops3_writesV : (ops3 : List (HloOp τ sig (Elt F))).Forall fun op =>
    op.writes ⊆ (w3.map (Proc.devRef (τ := τ) .tc)).toFinset := by
  simp only [List.Forall]
  repeat' apply And.intro
  all_goals
    simp only [StableHlo.nullary_writes, StableHlo.unary_writes, StableHlo.binary_writes, StableHlo.ternary_writes,
      StableHlo.nary_writes, Finset.singleton_subset_iff, List.mem_toFinset]
    exact List.mem_map_of_mem (by decide)

theorem c3_keep (W : Valuation τ sig (Elt F)) (r : Ref sig .tc) (h : r ∉ w3) :
    StableHlo.after ops3 W (no_index (Proc.devRef .tc r)) = W (Proc.devRef .tc r) :=
  StableHlo.after_of_writes_sub ops3 W ops3_writesV h

abbrev w4 : List (Ref sig .tc) :=
  [
    main_c_53, main_v185, main_v186, main_v187, main_v188, main_v189,
    main_cst_54, main_v190, main_c_55, main_v191, main_v192, main_c_56,
    main_v193, main_v194, main_v195, main_v196, main_v197, main_cst_57,
    main_v198, main_v199, main_v200, main_v201, main_v202, main_v203,
    main_v204, main_v205, main_v206, main_cst_58, main_v207, main_cst_59,
    main_v208, main_v209, main_v210, main_v211, main_v212, main_c_60,
    main_call2_cst, main_call2_v0, main_call2_v1, main_call2_cst_0, main_call2_v2, main_call2_v3,
    main_call2_v4, main_call2_v5, main_call2_v6, main_call2_v7, main_call2_cst_1, main_call2_v8,
    main_call2_cst_2, main_call2_v9, main_call2_v10, main_call2_v11, main_call2_cst_3, main_call2_v12,
    main_call2_cst_4, main_call2_call0_v0, main_call2_call0_v1, main_v213, main_cst_61, main_v214,
    main_v215, main_v216, main_v217, main_v218, main_v219, main_call3_cst,
    main_call3_v0, main_v220, main_v221, main_v222, main_v223, main_v224,
    main_cst_62, main_v225, main_cst_63, main_v226, main_v227, main_v228,
    main_v229, main_v230, main_v231, main_cst_64, main_v232 ]

set_option maxHeartbeats 4000000 in
theorem ops4_writesV : (ops4 : List (HloOp τ sig (Elt F))).Forall fun op =>
    op.writes ⊆ (w4.map (Proc.devRef (τ := τ) .tc)).toFinset := by
  simp only [List.Forall]
  repeat' apply And.intro
  all_goals
    simp only [StableHlo.nullary_writes, StableHlo.unary_writes, StableHlo.binary_writes, StableHlo.ternary_writes,
      StableHlo.nary_writes, Finset.singleton_subset_iff, List.mem_toFinset]
    exact List.mem_map_of_mem (by decide)

theorem c4_keep (W : Valuation τ sig (Elt F)) (r : Ref sig .tc) (h : r ∉ w4) :
    StableHlo.after ops4 W (no_index (Proc.devRef .tc r)) = W (Proc.devRef .tc r) :=
  StableHlo.after_of_writes_sub ops4 W ops4_writesV h

abbrev w5 : List (Ref sig .tc) :=
  [
    main_v233, main_v234, main_v235, main_cst_65, main_v236, main_v237,
    main_v238, main_v239 ]

set_option maxHeartbeats 4000000 in
theorem ops5_writesV : (ops5 : List (HloOp τ sig (Elt F))).Forall fun op =>
    op.writes ⊆ (w5.map (Proc.devRef (τ := τ) .tc)).toFinset := by
  simp only [List.Forall]
  repeat' apply And.intro
  all_goals
    simp only [StableHlo.nullary_writes, StableHlo.unary_writes, StableHlo.binary_writes, StableHlo.ternary_writes,
      StableHlo.nary_writes, Finset.singleton_subset_iff, List.mem_toFinset]
    exact List.mem_map_of_mem (by decide)

theorem c5_keep (W : Valuation τ sig (Elt F)) (r : Ref sig .tc) (h : r ∉ w5) :
    StableHlo.after ops5 W (no_index (Proc.devRef .tc r)) = W (Proc.devRef .tc r) :=
  StableHlo.after_of_writes_sub ops5 W ops5_writesV h

set_option maxHeartbeats 4000000 in
theorem c0_v17 (W : Valuation τ sig (Elt F)) :
    StableHlo.after ops0 W (no_index (Proc.devRef .tc main_v17)) =
      Spec.seg (Spec.sm64 ⟪W, main_arg0⟫ ⟪W, main_arg2⟫ ⟪W, main_arg3⟫) ⟪W, main_arg28⟫ := by
  after_results_simp <;> (try simp only [TRef.ofBuf, TRef.toBuf, cast_eq]) <;> rfl

set_option maxHeartbeats 4000000 in
theorem c0_v35 (W : Valuation τ sig (Elt F)) :
    StableHlo.after ops0 W (no_index (Proc.devRef .tc main_v35)) =
      (Host.dotGeneral dot_S50000x80_S80x128_S50000x128_1_0_0_1_n_n none
        (Spec.cat80 (Spec.gA1 ⟪W, main_arg0⟫ ⟪W, main_arg20⟫) (Spec.gB1 ⟪W, main_arg1⟫ ⟪W, main_arg24⟫))
        (⟪W, main_arg10⟫ : FVec F S80x128 .f32) : FVec F S50000x128 .f32) := by
  after_results_simp <;> (try simp only [TRef.ofBuf, TRef.toBuf, cast_eq]) <;> rfl

set_option maxHeartbeats 4000000 in
theorem c0_v43 (W : Valuation τ sig (Elt F)) :
    StableHlo.after ops0 W (no_index (Proc.devRef .tc main_v43)) = Spec.gA2 ⟪W, main_arg0⟫ ⟪W, main_arg21⟫ := by
  after_results_simp <;> (try simp only [TRef.ofBuf, TRef.toBuf, cast_eq]) <;> rfl

set_option maxHeartbeats 4000000 in
theorem c0_v45 (W : Valuation τ sig (Elt F)) :
    StableHlo.after ops0 W (no_index (Proc.devRef .tc main_v45)) =
      (cmpi .slt (⟪W, main_arg25⟫ : IVec S50000x2 32) (broadcastInDim S50000x2 ![] bcast_S_S50000x2 (constantI S_ 32 0#32)) : IVec S50000x2 1) := by
  after_results_simp <;> (try simp only [TRef.ofBuf, TRef.toBuf, cast_eq]) <;> rfl

set_option maxHeartbeats 4000000 in
theorem c1_v90 (W : Valuation τ sig (Elt F)) :
    StableHlo.after ops1 W (no_index (Proc.devRef .tc main_v90)) =
      stack4 (⟪W, main_v35⟫ : FVec F S50000x128 .f32)
        (Host.dotGeneral dot_S50000x80_S80x128_S50000x128_1_0_0_1_n_n none
          (Spec.cat80 ⟪W, main_v43⟫ (gB2Tail ⟪W, main_arg1⟫ ⟪W, main_arg25⟫ ⟪W, main_v45⟫)) (⟪W, main_arg11⟫ : FVec F S80x128 .f32))
        (Host.dotGeneral dot_S50000x80_S80x128_S50000x128_1_0_0_1_n_n none
          (Spec.cat80 (Spec.gA3 ⟪W, main_arg0⟫ ⟪W, main_arg22⟫) (Spec.gB3 ⟪W, main_arg1⟫ ⟪W, main_arg26⟫)) (⟪W, main_arg12⟫ : FVec F S80x128 .f32))
        (Host.dotGeneral dot_S50000x80_S80x128_S50000x128_1_0_0_1_n_n none
          (Spec.cat80 (Spec.gA4 ⟪W, main_arg0⟫ ⟪W, main_arg23⟫) (Spec.gB4 ⟪W, main_arg1⟫ ⟪W, main_arg27⟫)) (⟪W, main_arg13⟫ : FVec F S80x128 .f32)) := by
  after_results_simp <;> (try simp only [TRef.ofBuf, TRef.toBuf, cast_eq]) <;> rfl

set_option maxHeartbeats 4000000 in
theorem c1_v91 (W : Valuation τ sig (Elt F)) :
    StableHlo.after ops1 W (no_index (Proc.devRef .tc main_v91)) =
      (Host.dotGeneral dot_S200000x64_S64x128_S200000x128_1_0_0_1_n_n none (⟪W, main_arg0⟫ : FVec F S200000x64 .f32) (⟪W, main_arg8⟫ : FVec F S64x128 .f32) : FVec F S200000x128 .f32) := by
  after_results_simp <;> (try simp only [TRef.ofBuf, TRef.toBuf, cast_eq]) <;> rfl

set_option maxHeartbeats 4000000 in
theorem c2_v109 (W : Valuation τ sig (Elt F)) :
    StableHlo.after ops2 W (no_index (Proc.devRef .tc main_v109)) =
      (Spec.bnrelu (addf (addf (⟪W, main_v91⟫ : FVec F S200000x128 .f32) (⟪W, main_v90⟫ : FVec F S200000x128 .f32))
        (broadcastInDim S200000x128 ![0, 1] bcast_S1x128_S200000x128_0_1 (broadcastInDim S1x128 ![1] bcast_S128_S1x128_1 (⟪W, main_arg9⟫ : FVec F S128 .f32))))) := by
  after_results_simp <;> (try simp only [TRef.ofBuf, TRef.toBuf, cast_eq]) <;> rfl

set_option maxHeartbeats 4000000 in
theorem c2_v128 (W : Valuation τ sig (Elt F)) :
    StableHlo.after ops2 W (no_index (Proc.devRef .tc main_v128)) =
      addf (⟪W, main_v17⟫ : FVec F S8192x128 .f32)
        (Spec.seg (Spec.sm128 (Spec.bnrelu (addf (addf (⟪W, main_v91⟫ : FVec F S200000x128 .f32) (⟪W, main_v90⟫ : FVec F S200000x128 .f32))
        (broadcastInDim S200000x128 ![0, 1] bcast_S1x128_S200000x128_0_1 (broadcastInDim S1x128 ![1] bcast_S128_S1x128_1 (⟪W, main_arg9⟫ : FVec F S128 .f32))))) ⟪W, main_arg4⟫ ⟪W, main_arg5⟫) ⟪W, main_arg28⟫) := by
  after_results_simp <;> (try simp only [TRef.ofBuf, TRef.toBuf, cast_eq]) <;> rfl

set_option maxHeartbeats 4000000 in
theorem c2_v136 (W : Valuation τ sig (Elt F)) :
    StableHlo.after ops2 W (no_index (Proc.devRef .tc main_v136)) =
      Spec.gH1 (Spec.bnrelu (addf (addf (⟪W, main_v91⟫ : FVec F S200000x128 .f32) (⟪W, main_v90⟫ : FVec F S200000x128 .f32))
        (broadcastInDim S200000x128 ![0, 1] bcast_S1x128_S200000x128_0_1 (broadcastInDim S1x128 ![1] bcast_S128_S1x128_1 (⟪W, main_arg9⟫ : FVec F S128 .f32))))) ⟪W, main_arg20⟫ := by
  after_results_simp <;> (try simp only [TRef.ofBuf, TRef.toBuf, cast_eq]) <;> rfl

set_option maxHeartbeats 4000000 in
theorem c2_v138 (W : Valuation τ sig (Elt F)) :
    StableHlo.after ops2 W (no_index (Proc.devRef .tc main_v138)) =
      (cmpi .slt (⟪W, main_arg24⟫ : IVec S50000x1 32) (broadcastInDim S50000x1 ![] bcast_S_S50000x1 (constantI S_ 32 0#32)) : IVec S50000x1 1) := by
  after_results_simp <;> (try simp only [TRef.ofBuf, TRef.toBuf, cast_eq]) <;> rfl

set_option maxHeartbeats 4000000 in
theorem c2_c38 (W : Valuation τ sig (Elt F)) :
    StableHlo.after ops2 W (no_index (Proc.devRef .tc main_c_38)) = (constantI S_ 32 300000#32 : IVec S_ 32) := by
  after_results_simp <;> (try simp only [TRef.ofBuf, TRef.toBuf, cast_eq]) <;> rfl

set_option maxHeartbeats 4000000 in
theorem c3_v146 (W : Valuation τ sig (Elt F)) :
    StableHlo.after ops3 W (no_index (Proc.devRef .tc main_v146)) =
      (Host.dotGeneral dot_S50000x144_S144x128_S50000x128_1_0_0_1_n_n none
        (Spec.cat144 ⟪W, main_v136⟫ (gB1Tail ⟪W, main_arg1⟫ ⟪W, main_arg24⟫ ⟪W, main_v138⟫ ⟪W, main_c_38⟫))
        (⟪W, main_arg16⟫ : FVec F S144x128 .f32) : FVec F S50000x128 .f32) := by
  after_results_simp <;> (try simp only [TRef.ofBuf, TRef.toBuf, cast_eq]) <;> rfl

set_option maxHeartbeats 4000000 in
theorem c3_v164 (W : Valuation τ sig (Elt F)) :
    StableHlo.after ops3 W (no_index (Proc.devRef .tc main_v164)) =
      (Host.dotGeneral dot_S50000x144_S144x128_S50000x128_1_0_0_1_n_n none
        (Spec.cat144 (Spec.gH2 ⟪W, main_v109⟫ ⟪W, main_arg21⟫) (Spec.gB2 ⟪W, main_arg1⟫ ⟪W, main_arg25⟫))
        (⟪W, main_arg17⟫ : FVec F S144x128 .f32) : FVec F S50000x128 .f32) := by
  after_results_simp <;> (try simp only [TRef.ofBuf, TRef.toBuf, cast_eq]) <;> rfl

set_option maxHeartbeats 4000000 in
theorem c3_v182 (W : Valuation τ sig (Elt F)) :
    StableHlo.after ops3 W (no_index (Proc.devRef .tc main_v182)) =
      (Host.dotGeneral dot_S50000x144_S144x128_S50000x128_1_0_0_1_n_n none
        (Spec.cat144 (Spec.gH3 ⟪W, main_v109⟫ ⟪W, main_arg22⟫) (Spec.gB3 ⟪W, main_arg1⟫ ⟪W, main_arg26⟫))
        (⟪W, main_arg18⟫ : FVec F S144x128 .f32) : FVec F S50000x128 .f32) := by
  after_results_simp <;> (try simp only [TRef.ofBuf, TRef.toBuf, cast_eq]) <;> rfl

set_option maxHeartbeats 4000000 in
theorem c3_v184 (W : Valuation τ sig (Elt F)) :
    StableHlo.after ops3 W (no_index (Proc.devRef .tc main_v184)) =
      (cmpi .slt (⟪W, main_arg23⟫ : IVec S50000x4 32) (broadcastInDim S50000x4 ![] bcast_S_S50000x4 (constantI S_ 32 0#32)) : IVec S50000x4 1) := by
  after_results_simp <;> (try simp only [TRef.ofBuf, TRef.toBuf, cast_eq]) <;> rfl

set_option maxHeartbeats 4000000 in
theorem c4_v231 (W : Valuation τ sig (Elt F)) :
    StableHlo.after ops4 W (no_index (Proc.devRef .tc main_v231)) =
      smE128 (Spec.bnrelu (addf (addf (Host.dotGeneral dot_S200000x128_S128x128_S200000x128_1_0_0_1_n_n none (⟪W, main_v109⟫ : FVec F S200000x128 .f32) (⟪W, main_arg14⟫ : FVec F S128x128 .f32))
          (stack4 (⟪W, main_v146⟫ : FVec F S50000x128 .f32) (⟪W, main_v164⟫ : FVec F S50000x128 .f32)
            (⟪W, main_v182⟫ : FVec F S50000x128 .f32) (Host.dotGeneral dot_S50000x144_S144x128_S50000x128_1_0_0_1_n_n none
          (Spec.cat144 (gH4Tail (⟪W, main_v109⟫ : FVec F S200000x128 .f32) ⟪W, main_arg23⟫ ⟪W, main_v184⟫) (Spec.gB4 ⟪W, main_arg1⟫ ⟪W, main_arg27⟫))
          (⟪W, main_arg19⟫ : FVec F S144x128 .f32) : FVec F S50000x128 .f32)))
        (broadcastInDim S200000x128 ![0, 1] bcast_S1x128_S200000x128_0_1 (broadcastInDim S1x128 ![1] bcast_S128_S1x128_1 (⟪W, main_arg15⟫ : FVec F S128 .f32))))) ⟪W, main_arg6⟫ ⟪W, main_arg7⟫ := by
  after_results_simp <;> (try simp only [TRef.ofBuf, TRef.toBuf, cast_eq]) <;> rfl

set_option maxHeartbeats 4000000 in
theorem c4_v232 (W : Valuation τ sig (Elt F)) :
    StableHlo.after ops4 W (no_index (Proc.devRef .tc main_v232)) =
      smS128 (Spec.bnrelu (addf (addf (Host.dotGeneral dot_S200000x128_S128x128_S200000x128_1_0_0_1_n_n none (⟪W, main_v109⟫ : FVec F S200000x128 .f32) (⟪W, main_arg14⟫ : FVec F S128x128 .f32))
          (stack4 (⟪W, main_v146⟫ : FVec F S50000x128 .f32) (⟪W, main_v164⟫ : FVec F S50000x128 .f32)
            (⟪W, main_v182⟫ : FVec F S50000x128 .f32) (Host.dotGeneral dot_S50000x144_S144x128_S50000x128_1_0_0_1_n_n none
          (Spec.cat144 (gH4Tail (⟪W, main_v109⟫ : FVec F S200000x128 .f32) ⟪W, main_arg23⟫ ⟪W, main_v184⟫) (Spec.gB4 ⟪W, main_arg1⟫ ⟪W, main_arg27⟫))
          (⟪W, main_arg19⟫ : FVec F S144x128 .f32) : FVec F S50000x128 .f32)))
        (broadcastInDim S200000x128 ![0, 1] bcast_S1x128_S200000x128_0_1 (broadcastInDim S1x128 ![1] bcast_S128_S1x128_1 (⟪W, main_arg15⟫ : FVec F S128 .f32))))) ⟪W, main_arg6⟫ ⟪W, main_arg7⟫ := by
  after_results_simp <;> (try simp only [TRef.ofBuf, TRef.toBuf, cast_eq]) <;> rfl

set_option maxHeartbeats 4000000 in
theorem c5_v239 (W : Valuation τ sig (Elt F)) :
    StableHlo.after ops5 W (no_index (Proc.devRef .tc main_v239)) =
      (addf (⟪W, main_v128⟫ : FVec F S8192x128 .f32)
        (Spec.seg (Host.divf (⟪W, main_v231⟫ : FVec F S200000x128 .f32)
          (broadcastInDim S200000x128 ![0, 1] bcast_S200000x1_S200000x128_0_1
            (broadcastInDim S200000x1 ![0] bcast_S200000_S200000x1_0 (⟪W, main_v232⟫ : FVec F S200000 .f32))))
          (⟪W, main_arg28⟫ : IVec S200000 32)) : FVec F S8192x128 .f32) := by
  after_results_simp <;> (try simp only [TRef.ofBuf, TRef.toBuf, cast_eq]) <;> rfl

set_option maxHeartbeats 8000000 in

theorem after_res (V : Valuation τ sig (Elt F)) :
    StableHlo.after ops V (Proc.devRef .tc main_v239) =
      Spec.res ⟪V, main_arg0⟫ ⟪V, main_arg1⟫ ⟪V, main_arg2⟫ ⟪V, main_arg3⟫ ⟪V, main_arg4⟫ ⟪V, main_arg5⟫ ⟪V, main_arg6⟫ ⟪V, main_arg7⟫ ⟪V, main_arg8⟫ ⟪V, main_arg9⟫ ⟪V, main_arg10⟫ ⟪V, main_arg11⟫ ⟪V, main_arg12⟫ ⟪V, main_arg13⟫ ⟪V, main_arg14⟫ ⟪V, main_arg15⟫ ⟪V, main_arg16⟫ ⟪V, main_arg17⟫ ⟪V, main_arg18⟫ ⟪V, main_arg19⟫ ⟪V, main_arg20⟫ ⟪V, main_arg21⟫ ⟪V, main_arg22⟫ ⟪V, main_arg23⟫ ⟪V, main_arg24⟫ ⟪V, main_arg25⟫ ⟪V, main_arg26⟫ ⟪V, main_arg27⟫ ⟪V, main_arg28⟫ := by
  simp (disch := decide) only [ops, Cert.Lib.after_append,
    c5_v239, c4_v231, c4_v232, c3_v146, c3_v164, c3_v182, c3_v184,
    c2_v109, c2_v128, c2_v136, c2_v138, c2_c38, c1_v90, c1_v91, c0_v17, c0_v35, c0_v43, c0_v45,
    c0_keep, c1_keep, c2_keep, c3_keep, c4_keep,
    Spec.res, gB1_eq, gB2_eq, gH4_eq, sm128_eq, x1_eq, x2_eq]

end Cert.ReferenceIdeal.Hand
-- ==== Proof.lean ====
/- Seven kernel regions among host gathers and segment sums against the plain host computation. Over the extended
   reals each region's row blocks are restrictions of one whole-array function, the running column sums over the grid are
   the sums over all rows, and with every entry real E[x²] − E[x]² is the reference's E[(x − E x)²]; so both programs
   end at one function of the arguments. -/
import proofs.«410641_j56710748176715_1_alg».proof.Defs
import proofs.«410641_j56710748176715_1_alg».proof.Proof.Gen.Kernel
import proofs.«410641_j56710748176715_1_alg».proof.Proof.Gen.KernelIdeal
import proofs.«410641_j56710748176715_1_alg».proof.Proof.Gen.ReferenceIdeal
import proofs.«410641_j56710748176715_1_alg».proof.Proof.Gen.Pre_finite_inputs
import proofs.«410641_j56710748176715_1_alg».proof.Proof.PreFacts
import proofs.«410641_j56710748176715_1_alg».proof.Proof.K.Run
import proofs.«410641_j56710748176715_1_alg».proof.Proof.KI.Run
import proofs.«410641_j56710748176715_1_alg».proof.Proof.KI.Bridge
import proofs.«410641_j56710748176715_1_alg».proof.Proof.Ref.Run
import proofs.«410641_j56710748176715_1_alg».proof.Proof.Ref.Value
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem value_of_pre (m : (ℓ : Loc Cert.KernelIdeal.nD Cert.KernelIdeal.τ Cert.KernelIdeal.sig) → Buf (Elt Ideal) ℓ) (hpre : Cert.Pre_KernelIdeal m) (c : Dev Cert.KernelIdeal.nD) :
    (Cert.KernelIdeal.Hand.W39 m c (Proc.devRef .tc Cert.KernelIdeal.main_v92) : FVec Ideal Cert.ReferenceIdeal.S8192x128 .f32) = Cert.Spec.res (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) :=
  Cert.KernelIdeal.HandV.bridge m c (Cert.Proof.PreFacts.inDom_of_pre _ _ _ _ _ _ _ _ _ _ _ _ _ _ _ _ _ _ _ _ _ _ _ _ _ _ _ _ _ (hpre c))

theorem ref_value (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (r.2.mem ((c.tc : Thread Cert.ReferenceIdeal.nD Cert.ReferenceIdeal.τ).loc Cert.ReferenceIdeal.main_v239) : FVec Ideal Cert.ReferenceIdeal.S8192x128 .f32) = Cert.Spec.res (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)) :=
  (θ_run Cert.ReferenceIdeal.defs _ _).mono (fun _ h c =>
    ⟨(h c Cert.ReferenceIdeal.main_v239).trans (Cert.ReferenceIdeal.Hand.after_res _),
     (h c Cert.ReferenceIdeal.main_arg0).trans (Cert.ReferenceIdeal.Hand.after_arg0 _),
     (h c Cert.ReferenceIdeal.main_arg1).trans (Cert.ReferenceIdeal.Hand.after_arg1 _),
     (h c Cert.ReferenceIdeal.main_arg2).trans (Cert.ReferenceIdeal.Hand.after_arg2 _),
     (h c Cert.ReferenceIdeal.main_arg3).trans (Cert.ReferenceIdeal.Hand.after_arg3 _),
     (h c Cert.ReferenceIdeal.main_arg4).trans (Cert.ReferenceIdeal.Hand.after_arg4 _),
     (h c Cert.ReferenceIdeal.main_arg5).trans (Cert.ReferenceIdeal.Hand.after_arg5 _),
     (h c Cert.ReferenceIdeal.main_arg6).trans (Cert.ReferenceIdeal.Hand.after_arg6 _),
     (h c Cert.ReferenceIdeal.main_arg7).trans (Cert.ReferenceIdeal.Hand.after_arg7 _),
     (h c Cert.ReferenceIdeal.main_arg8).trans (Cert.ReferenceIdeal.Hand.after_arg8 _),
     (h c Cert.ReferenceIdeal.main_arg9).trans (Cert.ReferenceIdeal.Hand.after_arg9 _),
     (h c Cert.ReferenceIdeal.main_arg10).trans (Cert.ReferenceIdeal.Hand.after_arg10 _),
     (h c Cert.ReferenceIdeal.main_arg11).trans (Cert.ReferenceIdeal.Hand.after_arg11 _),
     (h c Cert.ReferenceIdeal.main_arg12).trans (Cert.ReferenceIdeal.Hand.after_arg12 _),
     (h c Cert.ReferenceIdeal.main_arg13).trans (Cert.ReferenceIdeal.Hand.after_arg13 _),
     (h c Cert.ReferenceIdeal.main_arg14).trans (Cert.ReferenceIdeal.Hand.after_arg14 _),
     (h c Cert.ReferenceIdeal.main_arg15).trans (Cert.ReferenceIdeal.Hand.after_arg15 _),
     (h c Cert.ReferenceIdeal.main_arg16).trans (Cert.ReferenceIdeal.Hand.after_arg16 _),
     (h c Cert.ReferenceIdeal.main_arg17).trans (Cert.ReferenceIdeal.Hand.after_arg17 _),
     (h c Cert.ReferenceIdeal.main_arg18).trans (Cert.ReferenceIdeal.Hand.after_arg18 _),
     (h c Cert.ReferenceIdeal.main_arg19).trans (Cert.ReferenceIdeal.Hand.after_arg19 _),
     (h c Cert.ReferenceIdeal.main_arg20).trans (Cert.ReferenceIdeal.Hand.after_arg20 _),
     (h c Cert.ReferenceIdeal.main_arg21).trans (Cert.ReferenceIdeal.Hand.after_arg21 _),
     (h c Cert.ReferenceIdeal.main_arg22).trans (Cert.ReferenceIdeal.Hand.after_arg22 _),
     (h c Cert.ReferenceIdeal.main_arg23).trans (Cert.ReferenceIdeal.Hand.after_arg23 _),
     (h c Cert.ReferenceIdeal.main_arg24).trans (Cert.ReferenceIdeal.Hand.after_arg24 _),
     (h c Cert.ReferenceIdeal.main_arg25).trans (Cert.ReferenceIdeal.Hand.after_arg25 _),
     (h c Cert.ReferenceIdeal.main_arg26).trans (Cert.ReferenceIdeal.Hand.after_arg26 _),
     (h c Cert.ReferenceIdeal.main_arg27).trans (Cert.ReferenceIdeal.Hand.after_arg27 _),
     (h c Cert.ReferenceIdeal.main_arg28).trans (Cert.ReferenceIdeal.Hand.after_arg28 _)⟩)
    (Cert.ReferenceIdeal.Hand.run_raw (F := Ideal) m ρ)

-- the reference's frame is its run with the result dropped
theorem frame_ri : Cert.frame_ReferenceIdeal := fun m ρ _ =>
  (θ_run Cert.ReferenceIdeal.defs _ _).mono (fun _ h c => (h c).2) (ref_value m ρ)

theorem res_congr {x0 y0 : FVec Ideal Cert.ReferenceIdeal.S200000x64 .f32} {x1 y1 : FVec Ideal Cert.ReferenceIdeal.S300000x16 .f32} {x2 y2 : FVec Ideal Cert.ReferenceIdeal.S64x128 .f32} {x3 y3 : FVec Ideal Cert.ReferenceIdeal.S128 .f32} {x4 y4 : FVec Ideal Cert.ReferenceIdeal.S128x128 .f32} {x5 y5 : FVec Ideal Cert.ReferenceIdeal.S128 .f32} {x6 y6 : FVec Ideal Cert.ReferenceIdeal.S128x128 .f32} {x7 y7 : FVec Ideal Cert.ReferenceIdeal.S128 .f32} {x8 y8 : FVec Ideal Cert.ReferenceIdeal.S64x128 .f32} {x9 y9 : FVec Ideal Cert.ReferenceIdeal.S128 .f32} {x10 y10 : FVec Ideal Cert.ReferenceIdeal.S80x128 .f32} {x11 y11 : FVec Ideal Cert.ReferenceIdeal.S80x128 .f32} {x12 y12 : FVec Ideal Cert.ReferenceIdeal.S80x128 .f32} {x13 y13 : FVec Ideal Cert.ReferenceIdeal.S80x128 .f32} {x14 y14 : FVec Ideal Cert.ReferenceIdeal.S128x128 .f32} {x15 y15 : FVec Ideal Cert.ReferenceIdeal.S128 .f32} {x16 y16 : FVec Ideal Cert.ReferenceIdeal.S144x128 .f32} {x17 y17 : FVec Ideal Cert.ReferenceIdeal.S144x128 .f32} {x18 y18 : FVec Ideal Cert.ReferenceIdeal.S144x128 .f32} {x19 y19 : FVec Ideal Cert.ReferenceIdeal.S144x128 .f32} {x20 y20 : IVec Cert.ReferenceIdeal.S50000x1 32} {x21 y21 : IVec Cert.ReferenceIdeal.S50000x2 32} {x22 y22 : IVec Cert.ReferenceIdeal.S50000x3 32} {x23 y23 : IVec Cert.ReferenceIdeal.S50000x4 32} {x24 y24 : IVec Cert.ReferenceIdeal.S50000x1 32} {x25 y25 : IVec Cert.ReferenceIdeal.S50000x2 32} {x26 y26 : IVec Cert.ReferenceIdeal.S50000x3 32} {x27 y27 : IVec Cert.ReferenceIdeal.S50000x4 32} {x28 y28 : IVec Cert.ReferenceIdeal.S200000 32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) :
    Cert.Spec.res (F := Ideal) x0 x1 x2 x3 x4 x5 x6 x7 x8 x9 x10 x11 x12 x13 x14 x15 x16 x17 x18 x19 x20 x21 x22 x23 x24 x25 x26 x27 x28 = Cert.Spec.res (F := Ideal) y0 y1 y2 y3 y4 y5 y6 y7 y8 y9 y10 y11 y12 y13 y14 y15 y16 y17 y18 y19 y20 y21 y22 y23 y24 y25 y26 y27 y28 := by
  subst h0 h1 h2 h3 h4 h5 h6 h7 h8 h9 h10 h11 h12 h13 h14 h15 h16 h17 h18 h19 h20 h21 h22 h23 h24 h25 h26 h27 h28; rfl

theorem algebraic : Cert.algebraic_KernelIdeal_ReferenceIdeal := fun m ρ m' ρ' hpre hagree =>
  ⟨fun c => Cert.Spec.res (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)),
   (θ_run Cert.KernelIdeal.defs _ _).mono (fun _ h c => ⟨(h c).1.trans (value_of_pre m hpre c), (h c).2⟩) (Cert.KernelIdeal.Hand.run_value (F := Ideal) m ρ),
   (θ_run Cert.ReferenceIdeal.defs _ _).mono (fun _ h c => ⟨(h c).1.trans (res_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2), (h c).2⟩) (ref_value m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
